-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v357)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v357) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v485) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x5x160x160 : Shape := ⟨4, ![128, 5, 160, 160]⟩
abbrev S128x5x80x80 : Shape := ⟨4, ![128, 5, 80, 80]⟩
abbrev S128x5x40x40 : Shape := ⟨4, ![128, 5, 40, 40]⟩
abbrev S4096x6 : Shape := ⟨2, ![4096, 6]⟩
abbrev S_ : Shape := ⟨0, ![]⟩
abbrev S4096x1 : Shape := ⟨2, ![4096, 1]⟩
abbrev S4096 : Shape := ⟨1, ![4096]⟩

class Facts : Prop where
  bcast_S_S128x5x160x160 : S_.BroadcastsInDim S128x5x160x160 (![] : Fin 0 → Fin S128x5x160x160.rank)
  reducesTo_S128x5x160x160_S_d0_1_2_3 : S128x5x160x160.ReducesTo [0, 1, 2, 3] S_
  h_S_ : 0 < S_.numel
  bcast_S_S128x5x80x80 : S_.BroadcastsInDim S128x5x80x80 (![] : Fin 0 → Fin S128x5x80x80.rank)
  reducesTo_S128x5x80x80_S_d0_1_2_3 : S128x5x80x80.ReducesTo [0, 1, 2, 3] S_
  bcast_S_S128x5x40x40 : S_.BroadcastsInDim S128x5x40x40 (![] : Fin 0 → Fin S128x5x40x40.rank)
  reducesTo_S128x5x40x40_S_d0_1_2_3 : S128x5x40x40.ReducesTo [0, 1, 2, 3] S_
  bcast_S_S4096x6 : S_.BroadcastsInDim S4096x6 (![] : Fin 0 → Fin S4096x6.rank)
  reducesTo_S4096x6_S_d0_1 : S4096x6.ReducesTo [0, 1] S_
  slices_S4096x6_S4096x1_0_0 : S4096x6.Slices ![0, 0] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_

variable [Facts]

def fn_part1 {F : FTy → Type} [FloatOps F] (main_arg3 : FVec F S4096x6 .f32) (main_v13 : IVec S_ 1) (main_v16 : IVec S4096x6 1) : IVec S_ 1 :=
  let main_c_5 : IVec S_ 1 := constantI S_ 1 1#1
  let main_v17 : IVec S_ 1 := (fun x v => Host.reduce IntOp.andi x v reducesTo_S4096x6_S_d0_1 h_S_) main_v16 main_c_5
  let main_v18 : IVec S_ 1 := andi main_v13 main_v17
  let main_v19 : FVec F S4096x1 .f32 := (extractStridedSlice S4096x1 ![0, 0] · slices_S4096x6_S4096x1_0_0) main_arg3
  let main_v20 : FVec F S4096 .f32 := shapeCast S4096 main_v19 shapeCasts_S4096x1_S4096
  let main_v21 : IVec S4096 32 := fptosi 32 main_v20
  let main_c_6 : IVec S_ 32 := constantI S_ 32 0#32
  let main_v22 : IVec S4096 32 := broadcastInDim S4096 ![] bcast_S_S4096 main_c_6
  let main_v23 : IVec S4096 1 := cmpi .sge main_v21 main_v22
  let main_v24 : FVec F S4096x1 .f32 := (extractStridedSlice S4096x1 ![0, 0] · slices_S4096x6_S4096x1_0_0) main_arg3
  let main_v25 : FVec F S4096 .f32 := shapeCast S4096 main_v24 shapeCasts_S4096x1_S4096
  let main_v26 : IVec S4096 32 := fptosi 32 main_v25
  let main_c_7 : IVec S_ 32 := constantI S_ 32 128#32
  let main_v27 : IVec S4096 32 := broadcastInDim S4096 ![] bcast_S_S4096 main_c_7
  let main_v28 : IVec S4096 1 := cmpi .slt main_v26 main_v27
  let main_v29 : IVec S4096 1 := andi main_v23 main_v28
  let main_c_8 : IVec S_ 1 := constantI S_ 1 1#1
  let main_v30 : IVec S_ 1 := (fun x v => Host.reduce IntOp.andi x v reducesTo_S4096_S_d0 h_S_) main_v29 main_c_8
  let main_v31 : IVec S_ 1 := andi main_v18 main_v30
  main_v31

def fn {F : FTy → Type} [FloatOps F] (main_arg0 : FVec F S128x5x160x160 .f32) (main_arg1 : FVec F S128x5x80x80 .f32) (main_arg2 : FVec F S128x5x40x40 .f32) (main_arg3 : FVec F S4096x6 .f32) : IVec S_ 1 :=
  let main_v0 : FVec F S128x5x160x160 .f32 := Host.absf main_arg0
  let main_cst : FVec F S_ .f32 := constant S_ .f32 0x7F800000#32
  let main_v1 : FVec F S128x5x160x160 .f32 := broadcastInDim S128x5x160x160 ![] bcast_S_S128x5x160x160 main_cst
  let main_v2 : IVec S128x5x160x160 1 := cmpf .olt main_v0 main_v1
  let main_c : IVec S_ 1 := constantI S_ 1 1#1
  let main_v3 : IVec S_ 1 := (fun x v => Host.reduce IntOp.andi x v reducesTo_S128x5x160x160_S_d0_1_2_3 h_S_) main_v2 main_c
  let main_v4 : FVec F S128x5x80x80 .f32 := Host.absf main_arg1
  let main_cst_0 : FVec F S_ .f32 := constant S_ .f32 0x7F800000#32
  let main_v5 : FVec F S128x5x80x80 .f32 := broadcastInDim S128x5x80x80 ![] bcast_S_S128x5x80x80 main_cst_0
  let main_v6 : IVec S128x5x80x80 1 := cmpf .olt main_v4 main_v5
  let main_c_1 : IVec S_ 1 := constantI S_ 1 1#1
  let main_v7 : IVec S_ 1 := (fun x v => Host.reduce IntOp.andi x v reducesTo_S128x5x80x80_S_d0_1_2_3 h_S_) main_v6 main_c_1
  let main_v8 : IVec S_ 1 := andi main_v3 main_v7
  let main_v9 : FVec F S128x5x40x40 .f32 := Host.absf main_arg2
  let main_cst_2 : FVec F S_ .f32 := constant S_ .f32 0x7F800000#32
  let main_v10 : FVec F S128x5x40x40 .f32 := broadcastInDim S128x5x40x40 ![] bcast_S_S128x5x40x40 main_cst_2
  let main_v11 : IVec S128x5x40x40 1 := cmpf .olt main_v9 main_v10
  let main_c_3 : IVec S_ 1 := constantI S_ 1 1#1
  let main_v12 : IVec S_ 1 := (fun x v => Host.reduce IntOp.andi x v reducesTo_S128x5x40x40_S_d0_1_2_3 h_S_) main_v11 main_c_3
  let main_v13 : IVec S_ 1 := andi main_v8 main_v12
  let main_v14 : FVec F S4096x6 .f32 := Host.absf main_arg3
  let main_cst_4 : FVec F S_ .f32 := constant S_ .f32 0x7F800000#32
  let main_v15 : FVec F S4096x6 .f32 := broadcastInDim S4096x6 ![] bcast_S_S4096x6 main_cst_4
  let main_v16 : IVec S4096x6 1 := cmpf .olt main_v14 main_v15
  fn_part1 (F := F) main_arg3 main_v13 main_v16
-- ==== Kernel.lean ====
abbrev S128x5x160x160 : Shape := ⟨4, ![128, 5, 160, 160]⟩
abbrev S128x5x80x80 : Shape := ⟨4, ![128, 5, 80, 80]⟩
abbrev S128x5x40x40 : Shape := ⟨4, ![128, 5, 40, 40]⟩
abbrev S4096x6 : Shape := ⟨2, ![4096, 6]⟩
abbrev S4096x1 : Shape := ⟨2, ![4096, 1]⟩
abbrev S4096 : Shape := ⟨1, ![4096]⟩
abbrev S_ : Shape := ⟨0, ![]⟩
abbrev S4096x5 : Shape := ⟨2, ![4096, 5]⟩
abbrev S3276800 : Shape := ⟨1, ![3276800]⟩
abbrev S4096x3 : Shape := ⟨2, ![4096, 3]⟩
abbrev S128x5x200x128 : Shape := ⟨4, ![128, 5, 200, 128]⟩
abbrev S1x256 : Shape := ⟨2, ![1, 256]⟩
abbrev S8x5x200x128 : Shape := ⟨4, ![8, 5, 200, 128]⟩
abbrev S1x128 : Shape := ⟨2, ![1, 128]⟩
abbrev S8x2x200x128 : Shape := ⟨4, ![8, 2, 200, 128]⟩
abbrev S8x1x200x128 : Shape := ⟨4, ![8, 1, 200, 128]⟩
abbrev S8x200x128 : Shape := ⟨3, ![8, 200, 128]⟩
abbrev S2x200x128 : Shape := ⟨3, ![2, 200, 128]⟩
abbrev S200x128 : Shape := ⟨2, ![200, 128]⟩
abbrev S200 : Shape := ⟨1, ![200]⟩
abbrev S200x1 : Shape := ⟨2, ![200, 1]⟩
abbrev S1 : Shape := ⟨1, ![1]⟩
abbrev S1x1 : Shape := ⟨2, ![1, 1]⟩
abbrev S128 : Shape := ⟨1, ![128]⟩
abbrev S819200 : Shape := ⟨1, ![819200]⟩
abbrev S128x5x50x128 : Shape := ⟨4, ![128, 5, 50, 128]⟩
abbrev S32x5x50x128 : Shape := ⟨4, ![32, 5, 50, 128]⟩
abbrev S32x2x50x128 : Shape := ⟨4, ![32, 2, 50, 128]⟩
abbrev S32x1x50x128 : Shape := ⟨4, ![32, 1, 50, 128]⟩
abbrev S32x50x128 : Shape := ⟨3, ![32, 50, 128]⟩
abbrev S2x50x128 : Shape := ⟨3, ![2, 50, 128]⟩
abbrev S50x128 : Shape := ⟨2, ![50, 128]⟩
abbrev S50 : Shape := ⟨1, ![50]⟩
abbrev S50x1 : Shape := ⟨2, ![50, 1]⟩
abbrev S204800 : Shape := ⟨1, ![204800]⟩
abbrev S32x5x40x40 : Shape := ⟨4, ![32, 5, 40, 40]⟩
abbrev S32x2x40x40 : Shape := ⟨4, ![32, 2, 40, 40]⟩
abbrev S32x1x40x40 : Shape := ⟨4, ![32, 1, 40, 40]⟩
abbrev S32x40x40 : Shape := ⟨3, ![32, 40, 40]⟩
abbrev S2x40x40 : Shape := ⟨3, ![2, 40, 40]⟩
abbrev S40x40 : Shape := ⟨2, ![40, 40]⟩
abbrev S40 : Shape := ⟨1, ![40]⟩
abbrev S40x1 : Shape := ⟨2, ![40, 1]⟩

abbrev nBuf : Space → Nat
  | .hbm => 522
  | .vmem => 21
  | .smem => 0
  | _ => 0

abbrev hbmTy0_0 (i : Nat) : BufTy := match i % 128 with
  | 0 => ⟨S128x5x160x160, .f32⟩
  | 1 => ⟨S128x5x80x80, .f32⟩
  | 2 => ⟨S128x5x40x40, .f32⟩
  | 3 => ⟨S4096x6, .f32⟩
  | 4 => ⟨S4096x1, .f32⟩
  | 5 => ⟨S4096, .f32⟩
  | 6 => ⟨S4096, .i32⟩
  | 7 => ⟨S4096x1, .f32⟩
  | 8 => ⟨S4096, .f32⟩
  | 9 => ⟨S4096x1, .f32⟩
  | 10 => ⟨S4096, .f32⟩
  | 11 => ⟨S4096x1, .f32⟩
  | 12 => ⟨S4096, .f32⟩
  | 13 => ⟨S4096x1, .f32⟩
  | 14 => ⟨S4096, .f32⟩
  | 15 => ⟨S_, .f32⟩
  | 16 => ⟨S4096, .f32⟩
  | 17 => ⟨S4096, .f32⟩
  | 18 => ⟨S_, .f32⟩
  | 19 => ⟨S4096, .f32⟩
  | 20 => ⟨S4096, .f32⟩
  | 21 => ⟨S_, .i32⟩
  | 22 => ⟨S_, .i32⟩
  | 23 => ⟨S_, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096, .i32⟩
  | 30 => ⟨S_, .i32⟩
  | 31 => ⟨S_, .i32⟩
  | 32 => ⟨S_, .f32⟩
  | 33 => ⟨S4096, .f32⟩
  | 34 => ⟨S4096, .f32⟩
  | 35 => ⟨S_, .f32⟩
  | 36 => ⟨S4096, .f32⟩
  | 37 => ⟨S4096, .f32⟩
  | 38 => ⟨S4096, .i32⟩
  | 39 => ⟨S4096, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .f32⟩
  | 46 => ⟨S_, .f32⟩
  | 47 => ⟨S4096, .f32⟩
  | 48 => ⟨S4096, .f32⟩
  | 49 => ⟨S_, .f32⟩
  | 50 => ⟨S4096, .f32⟩
  | 51 => ⟨S4096x1, .f32⟩
  | 52 => ⟨S4096x1, .f32⟩
  | 53 => ⟨S4096x1, .f32⟩
  | 54 => ⟨S4096x1, .f32⟩
  | 55 => ⟨S4096x1, .f32⟩
  | 56 => ⟨S4096x5, .f32⟩
  | 57 => ⟨S_, .i32⟩
  | 58 => ⟨S4096, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .i32⟩
  | 65 => ⟨S_, .i32⟩
  | 66 => ⟨S3276800, .i32⟩
  | 67 => ⟨S4096, .i32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S3276800, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096, .i32⟩
  | 86 => ⟨S4096, .i32⟩
  | 87 => ⟨S4096, .i1⟩
  | 88 => ⟨S_, .i32⟩
  | 89 => ⟨S_, .i32⟩
  | 90 => ⟨S4096, .i32⟩
  | 91 => ⟨S4096, .i32⟩
  | 92 => ⟨S_, .f32⟩
  | 93 => ⟨S128x5x160x160, .f32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x1, .i32⟩
  | 117 => ⟨S4096x1, .i32⟩
  | 118 => ⟨S4096x3, .i32⟩
  | 119 => ⟨S128x5x160x160, .f32⟩
  | 120 => ⟨S128x5x200x128, .f32⟩
  | 121 => ⟨S128x5x200x128, .f32⟩
  | 122 => ⟨S1x256, .f32⟩
  | 123 => ⟨S1x128, .f32⟩
  | 124 => ⟨S128, .f32⟩
  | 125 => ⟨S1x128, .f32⟩
  | 126 => ⟨S128, .f32⟩
  | 127 => ⟨S128, .f32⟩
  | _ => ⟨S128x5x160x160, .f32⟩

abbrev hbmTy0_1 (i : Nat) : BufTy := match i % 128 with
  | 0 => ⟨S1, .f32⟩
  | 1 => ⟨S_, .f32⟩
  | 2 => ⟨S1, .f32⟩
  | 3 => ⟨S_, .f32⟩
  | 4 => ⟨S1, .f32⟩
  | 5 => ⟨S_, .f32⟩
  | 6 => ⟨S1, .f32⟩
  | 7 => ⟨S_, .f32⟩
  | 8 => ⟨S1, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .i1⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i1⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S4096x1, .f32⟩
  | 51 => ⟨S4096, .f32⟩
  | 52 => ⟨S4096, .i32⟩
  | 53 => ⟨S4096x1, .f32⟩
  | 54 => ⟨S4096, .f32⟩
  | 55 => ⟨S4096x1, .f32⟩
  | 56 => ⟨S4096, .f32⟩
  | 57 => ⟨S4096x1, .f32⟩
  | 58 => ⟨S4096, .f32⟩
  | 59 => ⟨S4096x1, .f32⟩
  | 60 => ⟨S4096, .f32⟩
  | 61 => ⟨S_, .f32⟩
  | 62 => ⟨S4096, .f32⟩
  | 63 => ⟨S4096, .f32⟩
  | 64 => ⟨S_, .f32⟩
  | 65 => ⟨S4096, .f32⟩
  | 66 => ⟨S4096, .f32⟩
  | 67 => ⟨S_, .i32⟩
  | 68 => ⟨S_, .i32⟩
  | 69 => ⟨S_, .f32⟩
  | 70 => ⟨S4096, .f32⟩
  | 71 => ⟨S4096, .f32⟩
  | 72 => ⟨S_, .f32⟩
  | 73 => ⟨S4096, .f32⟩
  | 74 => ⟨S4096, .f32⟩
  | 75 => ⟨S4096, .i32⟩
  | 76 => ⟨S_, .i32⟩
  | 77 => ⟨S_, .i32⟩
  | 78 => ⟨S_, .f32⟩
  | 79 => ⟨S4096, .f32⟩
  | 80 => ⟨S4096, .f32⟩
  | 81 => ⟨S_, .f32⟩
  | 82 => ⟨S4096, .f32⟩
  | 83 => ⟨S4096, .f32⟩
  | 84 => ⟨S4096, .i32⟩
  | 85 => ⟨S4096, .f32⟩
  | 86 => ⟨S4096, .f32⟩
  | 87 => ⟨S4096, .f32⟩
  | 88 => ⟨S4096, .f32⟩
  | 89 => ⟨S_, .f32⟩
  | 90 => ⟨S4096, .f32⟩
  | 91 => ⟨S4096, .f32⟩
  | 92 => ⟨S_, .f32⟩
  | 93 => ⟨S4096, .f32⟩
  | 94 => ⟨S4096, .f32⟩
  | 95 => ⟨S_, .f32⟩
  | 96 => ⟨S4096, .f32⟩
  | 97 => ⟨S4096x1, .f32⟩
  | 98 => ⟨S4096x1, .f32⟩
  | 99 => ⟨S4096x1, .f32⟩
  | 100 => ⟨S4096x1, .f32⟩
  | 101 => ⟨S4096x1, .f32⟩
  | 102 => ⟨S4096x5, .f32⟩
  | 103 => ⟨S_, .i32⟩
  | 104 => ⟨S4096, .i32⟩
  | 105 => ⟨S4096, .i32⟩
  | 106 => ⟨S4096, .i32⟩
  | 107 => ⟨S_, .i32⟩
  | 108 => ⟨S4096, .i32⟩
  | 109 => ⟨S4096, .i32⟩
  | 110 => ⟨S4096, .i32⟩
  | 111 => ⟨S_, .i32⟩
  | 112 => ⟨S819200, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S819200, .i32⟩
  | 123 => ⟨S_, .i32⟩
  | 124 => ⟨S4096, .i32⟩
  | 125 => ⟨S4096, .i1⟩
  | 126 => ⟨S_, .i32⟩
  | 127 => ⟨S4096, .i32⟩
  | _ => ⟨S128x5x160x160, .f32⟩

abbrev hbmTy0_2 (i : Nat) : BufTy := match i % 128 with
  | 0 => ⟨S4096, .i32⟩
  | 1 => ⟨S4096, .i32⟩
  | 2 => ⟨S4096x1, .i32⟩
  | 3 => ⟨S4096, .i32⟩
  | 4 => ⟨S4096, .i32⟩
  | 5 => ⟨S4096, .i1⟩
  | 6 => ⟨S_, .i32⟩
  | 7 => ⟨S_, .i32⟩
  | 8 => ⟨S4096, .i32⟩
  | 9 => ⟨S4096, .i32⟩
  | 10 => ⟨S_, .f32⟩
  | 11 => ⟨S128x5x80x80, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S4096x1, .i32⟩
  | 35 => ⟨S4096x1, .i32⟩
  | 36 => ⟨S4096x3, .i32⟩
  | 37 => ⟨S128x5x80x80, .f32⟩
  | 38 => ⟨S128x5x50x128, .f32⟩
  | 39 => ⟨S128x5x50x128, .f32⟩
  | 40 => ⟨S1x256, .f32⟩
  | 41 => ⟨S1x128, .f32⟩
  | 42 => ⟨S128, .f32⟩
  | 43 => ⟨S1x128, .f32⟩
  | 44 => ⟨S128, .f32⟩
  | 45 => ⟨S128, .f32⟩
  | 46 => ⟨S1, .f32⟩
  | 47 => ⟨S_, .f32⟩
  | 48 => ⟨S1, .f32⟩
  | 49 => ⟨S_, .f32⟩
  | 50 => ⟨S1, .f32⟩
  | 51 => ⟨S_, .f32⟩
  | 52 => ⟨S1, .f32⟩
  | 53 => ⟨S_, .f32⟩
  | 54 => ⟨S1, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .i1⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .i1⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S4096x1, .f32⟩
  | 96 => ⟨S4096, .f32⟩
  | 97 => ⟨S4096, .i32⟩
  | 98 => ⟨S4096x1, .f32⟩
  | 99 => ⟨S4096, .f32⟩
  | 100 => ⟨S4096x1, .f32⟩
  | 101 => ⟨S4096, .f32⟩
  | 102 => ⟨S4096x1, .f32⟩
  | 103 => ⟨S4096, .f32⟩
  | 104 => ⟨S4096x1, .f32⟩
  | 105 => ⟨S4096, .f32⟩
  | 106 => ⟨S_, .f32⟩
  | 107 => ⟨S4096, .f32⟩
  | 108 => ⟨S4096, .f32⟩
  | 109 => ⟨S_, .f32⟩
  | 110 => ⟨S4096, .f32⟩
  | 111 => ⟨S4096, .f32⟩
  | 112 => ⟨S_, .i32⟩
  | 113 => ⟨S_, .i32⟩
  | 114 => ⟨S_, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .i32⟩
  | 121 => ⟨S_, .i32⟩
  | 122 => ⟨S_, .i32⟩
  | 123 => ⟨S_, .f32⟩
  | 124 => ⟨S4096, .f32⟩
  | 125 => ⟨S4096, .f32⟩
  | 126 => ⟨S_, .f32⟩
  | 127 => ⟨S4096, .f32⟩
  | _ => ⟨S128x5x160x160, .f32⟩

abbrev hbmTy0_3 (i : Nat) : BufTy := match i % 128 with
  | 0 => ⟨S4096, .f32⟩
  | 1 => ⟨S4096, .i32⟩
  | 2 => ⟨S4096, .f32⟩
  | 3 => ⟨S4096, .f32⟩
  | 4 => ⟨S4096, .f32⟩
  | 5 => ⟨S4096, .f32⟩
  | 6 => ⟨S_, .f32⟩
  | 7 => ⟨S4096, .f32⟩
  | 8 => ⟨S4096, .f32⟩
  | 9 => ⟨S_, .f32⟩
  | 10 => ⟨S4096, .f32⟩
  | 11 => ⟨S4096, .f32⟩
  | 12 => ⟨S_, .f32⟩
  | 13 => ⟨S4096, .f32⟩
  | 14 => ⟨S4096x1, .f32⟩
  | 15 => ⟨S4096x1, .f32⟩
  | 16 => ⟨S4096x1, .f32⟩
  | 17 => ⟨S4096x1, .f32⟩
  | 18 => ⟨S4096x1, .f32⟩
  | 19 => ⟨S4096x5, .f32⟩
  | 20 => ⟨S_, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i32⟩
  | 27 => ⟨S4096, .i32⟩
  | 28 => ⟨S_, .i32⟩
  | 29 => ⟨S204800, .i32⟩
  | 30 => ⟨S4096, .i32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S204800, .i32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096, .i32⟩
  | 49 => ⟨S4096, .i32⟩
  | 50 => ⟨S4096, .i1⟩
  | 51 => ⟨S_, .i32⟩
  | 52 => ⟨S_, .i32⟩
  | 53 => ⟨S4096, .i32⟩
  | 54 => ⟨S4096, .i32⟩
  | 55 => ⟨S_, .f32⟩
  | 56 => ⟨S128x5x40x40, .f32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S4096x1, .i32⟩
  | 80 => ⟨S4096x1, .i32⟩
  | 81 => ⟨S4096x3, .i32⟩
  | 82 => ⟨S128x5x40x40, .f32⟩
  | 83 => ⟨S1x256, .f32⟩
  | 84 => ⟨S1x128, .f32⟩
  | 85 => ⟨S128, .f32⟩
  | 86 => ⟨S1x128, .f32⟩
  | 87 => ⟨S128, .f32⟩
  | 88 => ⟨S128, .f32⟩
  | 89 => ⟨S1, .f32⟩
  | 90 => ⟨S_, .f32⟩
  | 91 => ⟨S1, .f32⟩
  | 92 => ⟨S_, .f32⟩
  | 93 => ⟨S1, .f32⟩
  | 94 => ⟨S_, .f32⟩
  | 95 => ⟨S1, .f32⟩
  | 96 => ⟨S_, .f32⟩
  | 97 => ⟨S1, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .i1⟩
  | _ => ⟨S128x5x160x160, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | _ => ⟨S128x5x160x160, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x5x160x160, .f32⟩

abbrev bufTy : (tb : Table) → Fin (tcTables nBuf tb) → BufTy
  | .hbm, ⟨i, _⟩ => hbmTy i
  | .local _ .vmem, ⟨0, _⟩ => ⟨S8x5x200x128, .f32⟩
  | .local _ .vmem, ⟨1, _⟩ => ⟨S8x5x200x128, .f32⟩
  | .local _ .vmem, ⟨2, _⟩ => ⟨S8x5x200x128, .f32⟩
  | .local _ .vmem, ⟨3, _⟩ => ⟨S8x5x200x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S32x5x50x128, .f32⟩
  | .local _ .vmem, ⟨8, _⟩ => ⟨S32x5x50x128, .f32⟩
  | .local _ .vmem, ⟨9, _⟩ => ⟨S32x5x50x128, .f32⟩
  | .local _ .vmem, ⟨10, _⟩ => ⟨S32x5x50x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S32x5x40x40, .f32⟩
  | .local _ .vmem, ⟨15, _⟩ => ⟨S32x5x40x40, .f32⟩
  | .local _ .vmem, ⟨16, _⟩ => ⟨S32x5x40x40, .f32⟩
  | .local _ .vmem, ⟨17, _⟩ => ⟨S32x5x40x40, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | _, _ => ⟨S128x5x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_c_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_14 : Ref sig .tc := ⟨.hbm, 88, rfl⟩
abbrev main_call2_v0 : Ref sig .tc := ⟨.hbm, 89, rfl⟩
abbrev main_call2_v1 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_c_16 : Ref sig .tc := ⟨.hbm, 94, rfl⟩
abbrev main_v60 : Ref sig .tc := ⟨.hbm, 95, rfl⟩
abbrev main_v61 : Ref sig .tc := ⟨.hbm, 96, rfl⟩
abbrev main_c_17 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_c_18 : Ref sig .tc := ⟨.hbm, 101, rfl⟩
abbrev main_v65 : Ref sig .tc := ⟨.hbm, 102, rfl⟩
abbrev main_v66 : Ref sig .tc := ⟨.hbm, 103, rfl⟩
abbrev main_c_19 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_20 : Ref sig .tc := ⟨.hbm, 108, rfl⟩
abbrev main_v70 : Ref sig .tc := ⟨.hbm, 109, rfl⟩
abbrev main_v71 : Ref sig .tc := ⟨.hbm, 110, rfl⟩
abbrev main_c_21 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_22 : Ref sig .tc := ⟨.hbm, 138, rfl⟩
abbrev main_v98 : Ref sig .tc := ⟨.hbm, 139, rfl⟩
abbrev main_cst_23 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩
abbrev main_cst_25 : Ref sig .tc := ⟨.hbm, 147, rfl⟩
abbrev main_call3_v0 : Ref sig .tc := ⟨.hbm, 148, rfl⟩
abbrev main_v104 : Ref sig .tc := ⟨.hbm, 149, rfl⟩
abbrev main_cst_26 : Ref sig .tc := ⟨.hbm, 150, rfl⟩
abbrev main_v105 : Ref sig .tc := ⟨.hbm, 151, rfl⟩
abbrev main_cst_27 : Ref sig .tc := ⟨.hbm, 152, rfl⟩
abbrev main_v106 : Ref sig .tc := ⟨.hbm, 153, rfl⟩
abbrev main_v107 : Ref sig .tc := ⟨.hbm, 154, rfl⟩
abbrev main_cst_28 : Ref sig .tc := ⟨.hbm, 155, rfl⟩
abbrev main_v108 : Ref sig .tc := ⟨.hbm, 156, rfl⟩
abbrev main_cst_29 : Ref sig .tc := ⟨.hbm, 157, rfl⟩
abbrev main_call4_v0 : Ref sig .tc := ⟨.hbm, 158, rfl⟩
abbrev main_v109 : Ref sig .tc := ⟨.hbm, 159, rfl⟩
abbrev main_cst_30 : Ref sig .tc := ⟨.hbm, 160, rfl⟩
abbrev main_v110 : Ref sig .tc := ⟨.hbm, 161, rfl⟩
abbrev main_cst_31 : Ref sig .tc := ⟨.hbm, 162, rfl⟩
abbrev main_v111 : Ref sig .tc := ⟨.hbm, 163, rfl⟩
abbrev main_v112 : Ref sig .tc := ⟨.hbm, 164, rfl⟩
abbrev main_cst_32 : Ref sig .tc := ⟨.hbm, 165, rfl⟩
abbrev main_v113 : Ref sig .tc := ⟨.hbm, 166, rfl⟩
abbrev main_cst_33 : Ref sig .tc := ⟨.hbm, 167, rfl⟩
abbrev main_call5_v0 : Ref sig .tc := ⟨.hbm, 168, rfl⟩
abbrev main_v114 : Ref sig .tc := ⟨.hbm, 169, rfl⟩
abbrev main_cst_34 : Ref sig .tc := ⟨.hbm, 170, rfl⟩
abbrev main_v115 : Ref sig .tc := ⟨.hbm, 171, rfl⟩
abbrev main_v116 : Ref sig .tc := ⟨.hbm, 172, rfl⟩
abbrev main_cst_35 : Ref sig .tc := ⟨.hbm, 173, rfl⟩
abbrev main_v117 : Ref sig .tc := ⟨.hbm, 174, rfl⟩
abbrev main_cst_36 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_cst_37 : Ref sig .tc := ⟨.hbm, 189, rfl⟩
abbrev main_v131 : Ref sig .tc := ⟨.hbm, 190, rfl⟩
abbrev main_v132 : Ref sig .tc := ⟨.hbm, 191, rfl⟩
abbrev main_cst_38 : Ref sig .tc := ⟨.hbm, 192, rfl⟩
abbrev main_v133 : Ref sig .tc := ⟨.hbm, 193, rfl⟩
abbrev main_v134 : Ref sig .tc := ⟨.hbm, 194, rfl⟩
abbrev main_c_39 : Ref sig .tc := ⟨.hbm, 195, rfl⟩
abbrev main_c_40 : Ref sig .tc := ⟨.hbm, 196, rfl⟩
abbrev main_call6_v0 : Ref sig .tc := ⟨.hbm, 197, rfl⟩
abbrev main_call6_v1 : Ref sig .tc := ⟨.hbm, 198, rfl⟩
abbrev main_call6_v2 : Ref sig .tc := ⟨.hbm, 199, rfl⟩
abbrev main_call6_v3 : Ref sig .tc := ⟨.hbm, 200, rfl⟩
abbrev main_call6_v4 : Ref sig .tc := ⟨.hbm, 201, rfl⟩
abbrev main_v135 : Ref sig .tc := ⟨.hbm, 202, rfl⟩
abbrev main_v136 : Ref sig .tc := ⟨.hbm, 203, rfl⟩
abbrev main_c_41 : Ref sig .tc := ⟨.hbm, 204, rfl⟩
abbrev main_c_42 : Ref sig .tc := ⟨.hbm, 205, rfl⟩
abbrev main_call7_v0 : Ref sig .tc := ⟨.hbm, 206, rfl⟩
abbrev main_call7_v1 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_cst_43 : Ref sig .tc := ⟨.hbm, 217, rfl⟩
abbrev main_v143 : Ref sig .tc := ⟨.hbm, 218, rfl⟩
abbrev main_v144 : Ref sig .tc := ⟨.hbm, 219, rfl⟩
abbrev main_cst_44 : Ref sig .tc := ⟨.hbm, 220, rfl⟩
abbrev main_v145 : Ref sig .tc := ⟨.hbm, 221, rfl⟩
abbrev main_v146 : Ref sig .tc := ⟨.hbm, 222, rfl⟩
abbrev main_cst_45 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_c_46 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_c_47 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_c_48 : Ref sig .tc := ⟨.hbm, 239, rfl⟩
abbrev main_v160 : Ref sig .tc := ⟨.hbm, 240, rfl⟩
abbrev main_v161 : Ref sig .tc := ⟨.hbm, 241, rfl⟩
abbrev main_c_49 : Ref sig .tc := ⟨.hbm, 242, rfl⟩
abbrev main_v162 : Ref sig .tc := ⟨.hbm, 243, rfl⟩
abbrev main_v163 : Ref sig .tc := ⟨.hbm, 244, rfl⟩
abbrev main_c_50 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_c_51 : Ref sig .tc := ⟨.hbm, 251, rfl⟩
abbrev main_v169 : Ref sig .tc := ⟨.hbm, 252, rfl⟩
abbrev main_v170 : Ref sig .tc := ⟨.hbm, 253, rfl⟩
abbrev main_c_52 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_c_53 : Ref sig .tc := ⟨.hbm, 262, rfl⟩
abbrev main_call8_v0 : Ref sig .tc := ⟨.hbm, 263, rfl⟩
abbrev main_call8_v1 : Ref sig .tc := ⟨.hbm, 264, rfl⟩
abbrev main_v178 : Ref sig .tc := ⟨.hbm, 265, rfl⟩
abbrev main_cst_54 : Ref sig .tc := ⟨.hbm, 266, rfl⟩
abbrev main_v179 : Ref sig .tc := ⟨.hbm, 267, rfl⟩
abbrev main_c_55 : Ref sig .tc := ⟨.hbm, 268, rfl⟩
abbrev main_v180 : Ref sig .tc := ⟨.hbm, 269, rfl⟩
abbrev main_v181 : Ref sig .tc := ⟨.hbm, 270, rfl⟩
abbrev main_c_56 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_c_57 : Ref sig .tc := ⟨.hbm, 275, rfl⟩
abbrev main_v185 : Ref sig .tc := ⟨.hbm, 276, rfl⟩
abbrev main_v186 : Ref sig .tc := ⟨.hbm, 277, rfl⟩
abbrev main_c_58 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_c_59 : Ref sig .tc := ⟨.hbm, 282, rfl⟩
abbrev main_v190 : Ref sig .tc := ⟨.hbm, 283, rfl⟩
abbrev main_v191 : Ref sig .tc := ⟨.hbm, 284, rfl⟩
abbrev main_c_60 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_v215 : Ref sig .tc := ⟨.hbm, 309, rfl⟩
abbrev main_v216 : Ref sig .tc := ⟨.hbm, 310, rfl⟩
abbrev main_v217 : Ref sig .tc := ⟨.hbm, 311, rfl⟩
abbrev main_cst_61 : Ref sig .tc := ⟨.hbm, 312, rfl⟩
abbrev main_v218 : Ref sig .tc := ⟨.hbm, 313, rfl⟩
abbrev main_cst_62 : Ref sig .tc := ⟨.hbm, 314, rfl⟩
abbrev main_v219 : Ref sig .tc := ⟨.hbm, 315, rfl⟩
abbrev main_v220 : Ref sig .tc := ⟨.hbm, 316, rfl⟩
abbrev main_v221 : Ref sig .tc := ⟨.hbm, 317, rfl⟩
abbrev main_cst_63 : Ref sig .tc := ⟨.hbm, 318, rfl⟩
abbrev main_v222 : Ref sig .tc := ⟨.hbm, 319, rfl⟩
abbrev main_v223 : Ref sig .tc := ⟨.hbm, 320, rfl⟩
abbrev main_cst_64 : Ref sig .tc := ⟨.hbm, 321, rfl⟩
abbrev main_call9_v0 : Ref sig .tc := ⟨.hbm, 322, rfl⟩
abbrev main_v224 : Ref sig .tc := ⟨.hbm, 323, rfl⟩
abbrev main_cst_65 : Ref sig .tc := ⟨.hbm, 324, rfl⟩
abbrev main_v225 : Ref sig .tc := ⟨.hbm, 325, rfl⟩
abbrev main_cst_66 : Ref sig .tc := ⟨.hbm, 326, rfl⟩
abbrev main_v226 : Ref sig .tc := ⟨.hbm, 327, rfl⟩
abbrev main_v227 : Ref sig .tc := ⟨.hbm, 328, rfl⟩
abbrev main_cst_67 : Ref sig .tc := ⟨.hbm, 329, rfl⟩
abbrev main_v228 : Ref sig .tc := ⟨.hbm, 330, rfl⟩
abbrev main_cst_68 : Ref sig .tc := ⟨.hbm, 331, rfl⟩
abbrev main_call10_v0 : Ref sig .tc := ⟨.hbm, 332, rfl⟩
abbrev main_v229 : Ref sig .tc := ⟨.hbm, 333, rfl⟩
abbrev main_cst_69 : Ref sig .tc := ⟨.hbm, 334, rfl⟩
abbrev main_v230 : Ref sig .tc := ⟨.hbm, 335, rfl⟩
abbrev main_cst_70 : Ref sig .tc := ⟨.hbm, 336, rfl⟩
abbrev main_v231 : Ref sig .tc := ⟨.hbm, 337, rfl⟩
abbrev main_v232 : Ref sig .tc := ⟨.hbm, 338, rfl⟩
abbrev main_cst_71 : Ref sig .tc := ⟨.hbm, 339, rfl⟩
abbrev main_v233 : Ref sig .tc := ⟨.hbm, 340, rfl⟩
abbrev main_cst_72 : Ref sig .tc := ⟨.hbm, 341, rfl⟩
abbrev main_call11_v0 : Ref sig .tc := ⟨.hbm, 342, rfl⟩
abbrev main_v234 : Ref sig .tc := ⟨.hbm, 343, rfl⟩
abbrev main_cst_73 : Ref sig .tc := ⟨.hbm, 344, rfl⟩
abbrev main_v235 : Ref sig .tc := ⟨.hbm, 345, rfl⟩
abbrev main_v236 : Ref sig .tc := ⟨.hbm, 346, rfl⟩
abbrev main_cst_74 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_v242 : Ref sig .tc := ⟨.hbm, 353, rfl⟩
abbrev main_v243 : Ref sig .tc := ⟨.hbm, 354, rfl⟩
abbrev main_v244 : Ref sig .tc := ⟨.hbm, 355, rfl⟩
abbrev main_v245 : Ref sig .tc := ⟨.hbm, 356, rfl⟩
abbrev main_v246 : Ref sig .tc := ⟨.hbm, 357, rfl⟩
abbrev main_v247 : Ref sig .tc := ⟨.hbm, 358, rfl⟩
abbrev main_v248 : Ref sig .tc := ⟨.hbm, 359, rfl⟩
abbrev main_v249 : Ref sig .tc := ⟨.hbm, 360, rfl⟩
abbrev main_v250 : Ref sig .tc := ⟨.hbm, 361, rfl⟩
abbrev main_cst_75 : Ref sig .tc := ⟨.hbm, 362, rfl⟩
abbrev main_v251 : Ref sig .tc := ⟨.hbm, 363, rfl⟩
abbrev main_v252 : Ref sig .tc := ⟨.hbm, 364, rfl⟩
abbrev main_cst_76 : Ref sig .tc := ⟨.hbm, 365, rfl⟩
abbrev main_v253 : Ref sig .tc := ⟨.hbm, 366, rfl⟩
abbrev main_v254 : Ref sig .tc := ⟨.hbm, 367, rfl⟩
abbrev main_c_77 : Ref sig .tc := ⟨.hbm, 368, rfl⟩
abbrev main_c_78 : Ref sig .tc := ⟨.hbm, 369, rfl⟩
abbrev main_call12_v0 : Ref sig .tc := ⟨.hbm, 370, rfl⟩
abbrev main_call12_v1 : Ref sig .tc := ⟨.hbm, 371, rfl⟩
abbrev main_call12_v2 : Ref sig .tc := ⟨.hbm, 372, rfl⟩
abbrev main_call12_v3 : Ref sig .tc := ⟨.hbm, 373, rfl⟩
abbrev main_call12_v4 : Ref sig .tc := ⟨.hbm, 374, rfl⟩
abbrev main_v255 : Ref sig .tc := ⟨.hbm, 375, rfl⟩
abbrev main_v256 : Ref sig .tc := ⟨.hbm, 376, rfl⟩
abbrev main_c_79 : Ref sig .tc := ⟨.hbm, 377, rfl⟩
abbrev main_c_80 : Ref sig .tc := ⟨.hbm, 378, rfl⟩
abbrev main_call13_v0 : Ref sig .tc := ⟨.hbm, 379, rfl⟩
abbrev main_call13_v1 : Ref sig .tc := ⟨.hbm, 380, rfl⟩
abbrev main_call13_v2 : Ref sig .tc := ⟨.hbm, 381, rfl⟩
abbrev main_call13_v3 : Ref sig .tc := ⟨.hbm, 382, rfl⟩
abbrev main_call13_v4 : Ref sig .tc := ⟨.hbm, 383, rfl⟩
abbrev main_v257 : Ref sig .tc := ⟨.hbm, 384, rfl⟩
abbrev main_v258 : Ref sig .tc := ⟨.hbm, 385, rfl⟩
abbrev main_v259 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_cst_81 : Ref sig .tc := ⟨.hbm, 390, rfl⟩
abbrev main_v263 : Ref sig .tc := ⟨.hbm, 391, rfl⟩
abbrev main_v264 : Ref sig .tc := ⟨.hbm, 392, rfl⟩
abbrev main_cst_82 : Ref sig .tc := ⟨.hbm, 393, rfl⟩
abbrev main_v265 : Ref sig .tc := ⟨.hbm, 394, rfl⟩
abbrev main_v266 : Ref sig .tc := ⟨.hbm, 395, rfl⟩
abbrev main_cst_83 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_c_84 : Ref sig .tc := ⟨.hbm, 404, rfl⟩
abbrev main_v274 : Ref sig .tc := ⟨.hbm, 405, rfl⟩
abbrev main_v275 : Ref sig .tc := ⟨.hbm, 406, rfl⟩
abbrev main_v276 : Ref sig .tc := ⟨.hbm, 407, rfl⟩
abbrev main_c_85 : Ref sig .tc := ⟨.hbm, 408, rfl⟩
abbrev main_v277 : Ref sig .tc := ⟨.hbm, 409, rfl⟩
abbrev main_v278 : Ref sig .tc := ⟨.hbm, 410, rfl⟩
abbrev main_v279 : Ref sig .tc := ⟨.hbm, 411, rfl⟩
abbrev main_c_86 : Ref sig .tc := ⟨.hbm, 412, rfl⟩
abbrev main_v280 : Ref sig .tc := ⟨.hbm, 413, rfl⟩
abbrev main_v281 : Ref sig .tc := ⟨.hbm, 414, rfl⟩
abbrev main_c_87 : Ref sig .tc := ⟨.hbm, 415, rfl⟩
abbrev main_v282 : Ref sig .tc := ⟨.hbm, 416, rfl⟩
abbrev main_v283 : Ref sig .tc := ⟨.hbm, 417, rfl⟩
abbrev main_c_88 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_c_89 : Ref sig .tc := ⟨.hbm, 424, rfl⟩
abbrev main_v289 : Ref sig .tc := ⟨.hbm, 425, rfl⟩
abbrev main_v290 : Ref sig .tc := ⟨.hbm, 426, rfl⟩
abbrev main_c_90 : Ref sig .tc := ⟨.hbm, 427, rfl⟩
abbrev main_v291 : Ref sig .tc := ⟨.hbm, 428, rfl⟩
abbrev main_v292 : Ref sig .tc := ⟨.hbm, 429, rfl⟩
abbrev main_v293 : Ref sig .tc := ⟨.hbm, 430, rfl⟩
abbrev main_v294 : Ref sig .tc := ⟨.hbm, 431, rfl⟩
abbrev main_v295 : Ref sig .tc := ⟨.hbm, 432, rfl⟩
abbrev main_v296 : Ref sig .tc := ⟨.hbm, 433, rfl⟩
abbrev main_v297 : Ref sig .tc := ⟨.hbm, 434, rfl⟩
abbrev main_c_91 : Ref sig .tc := ⟨.hbm, 435, rfl⟩
abbrev main_call14_v0 : Ref sig .tc := ⟨.hbm, 436, rfl⟩
abbrev main_call14_v1 : Ref sig .tc := ⟨.hbm, 437, rfl⟩
abbrev main_v298 : Ref sig .tc := ⟨.hbm, 438, rfl⟩
abbrev main_cst_92 : Ref sig .tc := ⟨.hbm, 439, rfl⟩
abbrev main_v299 : Ref sig .tc := ⟨.hbm, 440, rfl⟩
abbrev main_c_93 : Ref sig .tc := ⟨.hbm, 441, rfl⟩
abbrev main_v300 : Ref sig .tc := ⟨.hbm, 442, rfl⟩
abbrev main_v301 : Ref sig .tc := ⟨.hbm, 443, rfl⟩
abbrev main_c_94 : Ref sig .tc := ⟨.hbm, 444, rfl⟩
abbrev main_v302 : Ref sig .tc := ⟨.hbm, 445, rfl⟩
abbrev main_v303 : Ref sig .tc := ⟨.hbm, 446, rfl⟩
abbrev main_v304 : Ref sig .tc := ⟨.hbm, 447, rfl⟩
abbrev main_c_95 : Ref sig .tc := ⟨.hbm, 448, rfl⟩
abbrev main_v305 : Ref sig .tc := ⟨.hbm, 449, rfl⟩
abbrev main_v306 : Ref sig .tc := ⟨.hbm, 450, rfl⟩
abbrev main_c_96 : Ref sig .tc := ⟨.hbm, 451, rfl⟩
abbrev main_v307 : Ref sig .tc := ⟨.hbm, 452, rfl⟩
abbrev main_v308 : Ref sig .tc := ⟨.hbm, 453, rfl⟩
abbrev main_v309 : Ref sig .tc := ⟨.hbm, 454, rfl⟩
abbrev main_c_97 : Ref sig .tc := ⟨.hbm, 455, rfl⟩
abbrev main_v310 : Ref sig .tc := ⟨.hbm, 456, rfl⟩
abbrev main_v311 : Ref sig .tc := ⟨.hbm, 457, rfl⟩
abbrev main_c_98 : Ref sig .tc := ⟨.hbm, 458, rfl⟩
abbrev main_v312 : Ref sig .tc := ⟨.hbm, 459, rfl⟩
abbrev main_v313 : Ref sig .tc := ⟨.hbm, 460, rfl⟩
abbrev main_v314 : Ref sig .tc := ⟨.hbm, 461, rfl⟩
abbrev main_v315 : Ref sig .tc := ⟨.hbm, 462, rfl⟩
abbrev main_v316 : Ref sig .tc := ⟨.hbm, 463, rfl⟩
abbrev main_v317 : Ref sig .tc := ⟨.hbm, 464, rfl⟩
abbrev main_v318 : Ref sig .tc := ⟨.hbm, 465, rfl⟩
abbrev main_v319 : Ref sig .tc := ⟨.hbm, 466, rfl⟩
abbrev main_v320 : Ref sig .tc := ⟨.hbm, 467, rfl⟩
abbrev main_v321 : Ref sig .tc := ⟨.hbm, 468, rfl⟩
abbrev main_v322 : Ref sig .tc := ⟨.hbm, 469, rfl⟩
abbrev main_v323 : Ref sig .tc := ⟨.hbm, 470, rfl⟩
abbrev main_v324 : Ref sig .tc := ⟨.hbm, 471, rfl⟩
abbrev main_v325 : Ref sig .tc := ⟨.hbm, 472, rfl⟩
abbrev main_v326 : Ref sig .tc := ⟨.hbm, 473, rfl⟩
abbrev main_v327 : Ref sig .tc := ⟨.hbm, 474, rfl⟩
abbrev main_v328 : Ref sig .tc := ⟨.hbm, 475, rfl⟩
abbrev main_v329 : Ref sig .tc := ⟨.hbm, 476, rfl⟩
abbrev main_v330 : Ref sig .tc := ⟨.hbm, 477, rfl⟩
abbrev main_v331 : Ref sig .tc := ⟨.hbm, 478, rfl⟩
abbrev main_v332 : Ref sig .tc := ⟨.hbm, 479, rfl⟩
abbrev main_v333 : Ref sig .tc := ⟨.hbm, 480, rfl⟩
abbrev main_v334 : Ref sig .tc := ⟨.hbm, 481, rfl⟩
abbrev main_v335 : Ref sig .tc := ⟨.hbm, 482, rfl⟩
abbrev main_cst_99 : Ref sig .tc := ⟨.hbm, 483, rfl⟩
abbrev main_v336 : Ref sig .tc := ⟨.hbm, 484, rfl⟩
abbrev main_cst_100 : Ref sig .tc := ⟨.hbm, 485, rfl⟩
abbrev main_v337 : Ref sig .tc := ⟨.hbm, 486, rfl⟩
abbrev main_v338 : Ref sig .tc := ⟨.hbm, 487, rfl⟩
abbrev main_v339 : Ref sig .tc := ⟨.hbm, 488, rfl⟩
abbrev main_cst_101 : Ref sig .tc := ⟨.hbm, 489, rfl⟩
abbrev main_v340 : Ref sig .tc := ⟨.hbm, 490, rfl⟩
abbrev main_v341 : Ref sig .tc := ⟨.hbm, 491, rfl⟩
abbrev main_cst_102 : Ref sig .tc := ⟨.hbm, 492, rfl⟩
abbrev main_call15_v0 : Ref sig .tc := ⟨.hbm, 493, rfl⟩
abbrev main_v342 : Ref sig .tc := ⟨.hbm, 494, rfl⟩
abbrev main_cst_103 : Ref sig .tc := ⟨.hbm, 495, rfl⟩
abbrev main_v343 : Ref sig .tc := ⟨.hbm, 496, rfl⟩
abbrev main_cst_104 : Ref sig .tc := ⟨.hbm, 497, rfl⟩
abbrev main_v344 : Ref sig .tc := ⟨.hbm, 498, rfl⟩
abbrev main_v345 : Ref sig .tc := ⟨.hbm, 499, rfl⟩
abbrev main_cst_105 : Ref sig .tc := ⟨.hbm, 500, rfl⟩
abbrev main_v346 : Ref sig .tc := ⟨.hbm, 501, rfl⟩
abbrev main_cst_106 : Ref sig .tc := ⟨.hbm, 502, rfl⟩
abbrev main_call16_v0 : Ref sig .tc := ⟨.hbm, 503, rfl⟩
abbrev main_v347 : Ref sig .tc := ⟨.hbm, 504, rfl⟩
abbrev main_cst_107 : Ref sig .tc := ⟨.hbm, 505, rfl⟩
abbrev main_v348 : Ref sig .tc := ⟨.hbm, 506, rfl⟩
abbrev main_cst_108 : Ref sig .tc := ⟨.hbm, 507, rfl⟩
abbrev main_v349 : Ref sig .tc := ⟨.hbm, 508, rfl⟩
abbrev main_v350 : Ref sig .tc := ⟨.hbm, 509, rfl⟩
abbrev main_cst_109 : Ref sig .tc := ⟨.hbm, 510, rfl⟩
abbrev main_v351 : Ref sig .tc := ⟨.hbm, 511, rfl⟩
abbrev main_cst_110 : Ref sig .tc := ⟨.hbm, 512, rfl⟩
abbrev main_call17_v0 : Ref sig .tc := ⟨.hbm, 513, rfl⟩
abbrev main_v352 : Ref sig .tc := ⟨.hbm, 514, rfl⟩
abbrev main_cst_111 : Ref sig .tc := ⟨.hbm, 515, rfl⟩
abbrev main_v353 : Ref sig .tc := ⟨.hbm, 516, rfl⟩
abbrev main_v354 : Ref sig .tc := ⟨.hbm, 517, rfl⟩
abbrev main_cst_112 : Ref sig .tc := ⟨.hbm, 518, rfl⟩
abbrev main_v355 : Ref sig .tc := ⟨.hbm, 519, rfl⟩
abbrev main_v356 : Ref sig .tc := ⟨.hbm, 520, rfl⟩
abbrev main_v357 : Ref sig .tc := ⟨.hbm, 521, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v139 : BitVec 1 := Scalar.cmpi .eq arg1 c7_i32
  let v140 : BitVec 32 := Scalar.extui v139
  let c0_i32_46 : BitVec 32 := 0#32
  let v141 : BitVec 1 := Scalar.cmpi .ne v140 c0_i32_46
  v141

def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x5x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x5x200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 2], ![false, false]⟩

def k1_cond2 (i : grid1.Coords) : BitVec 1 :=
  let arg1 : BitVec 32 := BitVec.ofNat 32 (i 1).val
  let c1_i32_46 : BitVec 32 := 1#32
  let v139 : BitVec 1 := Scalar.cmpi .eq arg1 c1_i32_46
  let v140 : BitVec 32 := Scalar.extui v139
  let c0_i32_47 : BitVec 32 := 0#32
  let v141 : BitVec 1 := Scalar.cmpi .ne v140 c0_i32_47
  v141

def cc1_transform_0 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x5x50x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x5x50x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![2, 2], ![false, false]⟩

def k2_cond2 (i : grid2.Coords) : BitVec 1 :=
  let arg1 : BitVec 32 := BitVec.ofNat 32 (i 1).val
  let c1_i32_46 : BitVec 32 := 1#32
  let v138 : BitVec 1 := Scalar.cmpi .eq arg1 c1_i32_46
  let v139 : BitVec 32 := Scalar.extui v138
  let c0_i32_47 : BitVec 32 := 0#32
  let v140 : BitVec 1 := Scalar.cmpi .ne v139 c0_i32_47
  v140

def cc2_transform_0 (i : grid2.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S32x5x40x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x5x40x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S4096x6_S4096x1_0_0 : S4096x6.Slices ![0, 0] S4096x1
  shapeCasts_S4096x1_S4096 : S4096x1.ShapeCasts S4096
  slices_S4096x6_S4096x1_0_2 : S4096x6.Slices ![0, 2] S4096x1
  slices_S4096x6_S4096x1_0_3 : S4096x6.Slices ![0, 3] S4096x1
  slices_S4096x6_S4096x1_0_4 : S4096x6.Slices ![0, 4] S4096x1
  slices_S4096x6_S4096x1_0_5 : S4096x6.Slices ![0, 5] S4096x1
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x1_S4096x1_S4096x1_S4096x5_d1 : Shape.Concatenates [S4096x1, S4096x1, S4096x1, S4096x1, S4096x1] S4096x5 1
  bcast_S_S3276800 : S_.BroadcastsInDim S3276800 (![] : Fin 0 → Fin S3276800.rank)
  bcast_S_S128x5x160x160 : S_.BroadcastsInDim S128x5x160x160 (![] : Fin 0 → Fin S128x5x160x160.rank)
  concatenates_S4096x1_S4096x1_S4096x1_S4096x3_d1 : Shape.Concatenates [S4096x1, S4096x1, S4096x1] S4096x3 1
  shapeCasts_S128x5x160x160_S128x5x200x128 : S128x5x160x160.ShapeCasts S128x5x200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8x5x200x128_S8x5x200x128_0_0_0_0 : ∀ a, (![0, 0, 0, 0] : Fin 4 → Nat) a + S8x5x200x128.size a ≤ S8x5x200x128.size a
  h_S8x5x200x128 : 0 < S8x5x200x128.numel
  shapeCasts_S8x5x200x128_S8x5x200x128 : S8x5x200x128.ShapeCasts S8x5x200x128
  slices_S8x5x200x128_o0_0_0_0_S8x2x200x128 : S8x5x200x128.Slices ![0, 0, 0, 0] S8x2x200x128
  slices_S8x5x200x128_o0_2_0_0_S8x2x200x128 : S8x5x200x128.Slices ![0, 2, 0, 0] S8x2x200x128
  slices_S8x5x200x128_o0_4_0_0_S8x1x200x128 : S8x5x200x128.Slices ![0, 4, 0, 0] S8x1x200x128
  shapeCasts_S8x1x200x128_S8x200x128 : S8x1x200x128.ShapeCasts S8x200x128
  shapeCasts_S8x200x128_S8x1x200x128 : S8x200x128.ShapeCasts S8x1x200x128
  broadcasts_S8x1x200x128_S8x2x200x128 : S8x1x200x128.Broadcasts S8x2x200x128
  reduces_S8x2x200x128_S2x200x128 : S8x2x200x128.Reduces [0] S2x200x128
  reduces_S2x200x128_S200x128 : S2x200x128.Reduces [0] S200x128
  reduces_S200x128_S200 : S200x128.Reduces [1] S200
  shapeCasts_S200_S200x1 : S200.ShapeCasts S200x1
  reduces_S200x1_S1 : S200x1.Reduces [0] S1
  shapeCasts_S1_S1x1 : S1.ShapeCasts S1x1
  reduces_S8x200x128_S200x128 : S8x200x128.Reduces [0] S200x128
  iota_S1x128_d1_w32 : S1x128.Iotas .tc 32 [1]
  shapeCasts_S1x1_S1x1 : S1x1.ShapeCasts S1x1
  broadcasts_S1x1_S1x128 : S1x1.Broadcasts S1x128
  slices_S1x256_S1x128_0_0 : S1x256.Slices ![0, 0] S1x128
  shapeCasts_S1x128_S128 : S1x128.ShapeCasts S128
  slices_S1x256_S1x128_0_128 : S1x256.Slices ![0, 128] S1x128
  slices_S128_S1_0 : S128.Slices ![0] S1
  shapeCasts_S1_S_ : S1.ShapeCasts S_
  slices_S128_S1_1 : S128.Slices ![1] S1
  slices_S128_S1_2 : S128.Slices ![2] S1
  slices_S128_S1_3 : S128.Slices ![3] S1
  slices_S128_S1_4 : S128.Slices ![4] S1
  bcast_S_S819200 : S_.BroadcastsInDim S819200 (![] : Fin 0 → Fin S819200.rank)
  bcast_S_S128x5x80x80 : S_.BroadcastsInDim S128x5x80x80 (![] : Fin 0 → Fin S128x5x80x80.rank)
  shapeCasts_S128x5x80x80_S128x5x50x128 : S128x5x80x80.ShapeCasts S128x5x50x128
  inb_S32x5x50x128_S32x5x50x128_0_0_0_0 : ∀ a, (![0, 0, 0, 0] : Fin 4 → Nat) a + S32x5x50x128.size a ≤ S32x5x50x128.size a
  h_S32x5x50x128 : 0 < S32x5x50x128.numel
  shapeCasts_S32x5x50x128_S32x5x50x128 : S32x5x50x128.ShapeCasts S32x5x50x128
  slices_S32x5x50x128_o0_0_0_0_S32x2x50x128 : S32x5x50x128.Slices ![0, 0, 0, 0] S32x2x50x128
  slices_S32x5x50x128_o0_2_0_0_S32x2x50x128 : S32x5x50x128.Slices ![0, 2, 0, 0] S32x2x50x128
  slices_S32x5x50x128_o0_4_0_0_S32x1x50x128 : S32x5x50x128.Slices ![0, 4, 0, 0] S32x1x50x128
  shapeCasts_S32x1x50x128_S32x50x128 : S32x1x50x128.ShapeCasts S32x50x128
  shapeCasts_S32x50x128_S32x1x50x128 : S32x50x128.ShapeCasts S32x1x50x128
  broadcasts_S32x1x50x128_S32x2x50x128 : S32x1x50x128.Broadcasts S32x2x50x128
  reduces_S32x2x50x128_S2x50x128 : S32x2x50x128.Reduces [0] S2x50x128
  reduces_S2x50x128_S50x128 : S2x50x128.Reduces [0] S50x128
  reduces_S50x128_S50 : S50x128.Reduces [1] S50
  shapeCasts_S50_S50x1 : S50.ShapeCasts S50x1
  reduces_S50x1_S1 : S50x1.Reduces [0] S1
  reduces_S32x50x128_S50x128 : S32x50x128.Reduces [0] S50x128
  bcast_S_S204800 : S_.BroadcastsInDim S204800 (![] : Fin 0 → Fin S204800.rank)
  bcast_S_S128x5x40x40 : S_.BroadcastsInDim S128x5x40x40 (![] : Fin 0 → Fin S128x5x40x40.rank)
  inb_S32x5x40x40_S32x5x40x40_0_0_0_0 : ∀ a, (![0, 0, 0, 0] : Fin 4 → Nat) a + S32x5x40x40.size a ≤ S32x5x40x40.size a
  h_S32x5x40x40 : 0 < S32x5x40x40.numel
  shapeCasts_S32x5x40x40_S32x5x40x40 : S32x5x40x40.ShapeCasts S32x5x40x40
  slices_S32x5x40x40_o0_0_0_0_S32x2x40x40 : S32x5x40x40.Slices ![0, 0, 0, 0] S32x2x40x40
  slices_S32x5x40x40_o0_2_0_0_S32x2x40x40 : S32x5x40x40.Slices ![0, 2, 0, 0] S32x2x40x40
  slices_S32x5x40x40_o0_4_0_0_S32x1x40x40 : S32x5x40x40.Slices ![0, 4, 0, 0] S32x1x40x40
  shapeCasts_S32x1x40x40_S32x40x40 : S32x1x40x40.ShapeCasts S32x40x40
  shapeCasts_S32x40x40_S32x1x40x40 : S32x40x40.ShapeCasts S32x1x40x40
  broadcasts_S32x1x40x40_S32x2x40x40 : S32x1x40x40.Broadcasts S32x2x40x40
  reduces_S32x2x40x40_S2x40x40 : S32x2x40x40.Reduces [0] S2x40x40
  reduces_S2x40x40_S40x40 : S2x40x40.Reduces [0] S40x40
  reduces_S40x40_S40 : S40x40.Reduces [1] S40
  shapeCasts_S40_S40x1 : S40.ShapeCasts S40x1
  reduces_S40x1_S1 : S40x1.Reduces [0] S1
  reduces_S32x40x40_S40x40 : S32x40x40.Reduces [0] S40x40
  scatter_S3276800_S4096x1_S4096_n_0_0_1_wf : ScatterDims.WF S3276800 S4096x1 S4096 [] [0] [0] 1
  gather_S3276800_S4096x1_S4096_n_0_n_n_0_1_1_wf : GatherDims.WF S3276800 S4096x1 S4096 [] [0] [] [0] [] 1 ![1]
  scatter_S128x5x160x160_S4096x3_S4096x5_1_023_023_1_wf : ScatterDims.WF S128x5x160x160 S4096x3 S4096x5 [1] [0, 2, 3] [0, 2, 3] 1
  scatter_S819200_S4096x1_S4096_n_0_0_1_wf : ScatterDims.WF S819200 S4096x1 S4096 [] [0] [0] 1
  gather_S819200_S4096x1_S4096_n_0_n_n_0_1_1_wf : GatherDims.WF S819200 S4096x1 S4096 [] [0] [] [0] [] 1 ![1]
  scatter_S128x5x80x80_S4096x3_S4096x5_1_023_023_1_wf : ScatterDims.WF S128x5x80x80 S4096x3 S4096x5 [1] [0, 2, 3] [0, 2, 3] 1
  scatter_S204800_S4096x1_S4096_n_0_0_1_wf : ScatterDims.WF S204800 S4096x1 S4096 [] [0] [0] 1
  gather_S204800_S4096x1_S4096_n_0_n_n_0_1_1_wf : GatherDims.WF S204800 S4096x1 S4096 [] [0] [] [0] [] 1 ![1]
  scatter_S128x5x40x40_S4096x3_S4096x5_1_023_023_1_wf : ScatterDims.WF S128x5x40x40 S4096x3 S4096x5 [1] [0, 2, 3] [0, 2, 3] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x5x200x128.size a ≤ S128x5x200x128.size a
  hwx0_0 : ∀ i : grid0.Coords, EltTy.bits .f32 = 32 ∨ (Rect.block (s := S128x5x200x128) S8x5x200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x5x200x128.size a ≤ S128x5x200x128.size a
  hwx0_1 : ∀ i : grid0.Coords, EltTy.bits .f32 = 32 ∨ (Rect.block (s := S128x5x200x128) S8x5x200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x5x50x128.size a ≤ S128x5x50x128.size a
  hwx1_0 : ∀ i : grid1.Coords, EltTy.bits .f32 = 32 ∨ (Rect.block (s := S128x5x50x128) S32x5x50x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x5x50x128.size a ≤ S128x5x50x128.size a
  hwx1_1 : ∀ i : grid1.Coords, EltTy.bits .f32 = 32 ∨ (Rect.block (s := S128x5x50x128) S32x5x50x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x256.size a
  hwx1_2 : ∀ i : grid1.Coords, EltTy.bits .f32 = 32 ∨ (Rect.block (s := S1x256) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x5x40x40.size a ≤ S128x5x40x40.size a
  hwx2_0 : ∀ i : grid2.Coords, EltTy.bits .f32 = 32 ∨ (Rect.block (s := S128x5x40x40) S32x5x40x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x5x40x40.size a ≤ S128x5x40x40.size a
  hwx2_1 : ∀ i : grid2.Coords, EltTy.bits .f32 = 32 ∨ (Rect.block (s := S128x5x40x40) S32x5x40x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x256.size a
  hwx2_2 : ∀ i : grid2.Coords, EltTy.bits .f32 = 32 ∨ (Rect.block (s := S1x256) S1x128.size (cc2_transform_2 i) (hinb2_2 i)).WholeWords (EltTy.packing .f32)

variable [Facts₀]

def scatter_S3276800_S4096x1_S4096_n_0_0_1 : ScatterDims S3276800 S4096x1 S4096 where
  updateWindowDims := []
  insertedWindowDims := [0]
  scatterDimsToOperandDims := [0]
  indexVectorDim := 1
  wf := scatter_S3276800_S4096x1_S4096_n_0_0_1_wf
def gather_S3276800_S4096x1_S4096_n_0_n_n_0_1_1 : GatherDims S3276800 S4096x1 S4096 where
  offsetDims := []
  collapsedSliceDims := [0]
  operandBatchingDims := []
  startIndicesBatchingDims := []
  startIndexMap := [0]
  indexVectorDim := 1
  sliceSizes := ![1]
  wf := gather_S3276800_S4096x1_S4096_n_0_n_n_0_1_1_wf
def scatter_S128x5x160x160_S4096x3_S4096x5_1_023_023_1 : ScatterDims S128x5x160x160 S4096x3 S4096x5 where
  updateWindowDims := [1]
  insertedWindowDims := [0, 2, 3]
  scatterDimsToOperandDims := [0, 2, 3]
  indexVectorDim := 1
  wf := scatter_S128x5x160x160_S4096x3_S4096x5_1_023_023_1_wf
def scatter_S819200_S4096x1_S4096_n_0_0_1 : ScatterDims S819200 S4096x1 S4096 where
  updateWindowDims := []
  insertedWindowDims := [0]
  scatterDimsToOperandDims := [0]
  indexVectorDim := 1
  wf := scatter_S819200_S4096x1_S4096_n_0_0_1_wf
def gather_S819200_S4096x1_S4096_n_0_n_n_0_1_1 : GatherDims S819200 S4096x1 S4096 where
  offsetDims := []
  collapsedSliceDims := [0]
  operandBatchingDims := []
  startIndicesBatchingDims := []
  startIndexMap := [0]
  indexVectorDim := 1
  sliceSizes := ![1]
  wf := gather_S819200_S4096x1_S4096_n_0_n_n_0_1_1_wf
def scatter_S128x5x80x80_S4096x3_S4096x5_1_023_023_1 : ScatterDims S128x5x80x80 S4096x3 S4096x5 where
  updateWindowDims := [1]
  insertedWindowDims := [0, 2, 3]
  scatterDimsToOperandDims := [0, 2, 3]
  indexVectorDim := 1
  wf := scatter_S128x5x80x80_S4096x3_S4096x5_1_023_023_1_wf
def scatter_S204800_S4096x1_S4096_n_0_0_1 : ScatterDims S204800 S4096x1 S4096 where
  updateWindowDims := []
  insertedWindowDims := [0]
  scatterDimsToOperandDims := [0]
  indexVectorDim := 1
  wf := scatter_S204800_S4096x1_S4096_n_0_0_1_wf
def gather_S204800_S4096x1_S4096_n_0_n_n_0_1_1 : GatherDims S204800 S4096x1 S4096 where
  offsetDims := []
  collapsedSliceDims := [0]
  operandBatchingDims := []
  startIndicesBatchingDims := []
  startIndexMap := [0]
  indexVectorDim := 1
  sliceSizes := ![1]
  wf := gather_S204800_S4096x1_S4096_n_0_n_n_0_1_1_wf
def scatter_S128x5x40x40_S4096x3_S4096x5_1_023_023_1 : ScatterDims S128x5x40x40 S4096x3 S4096x5 where
  updateWindowDims := [1]
  insertedWindowDims := [0, 2, 3]
  scatterDimsToOperandDims := [0, 2, 3]
  indexVectorDim := 1
  wf := scatter_S128x5x40x40_S4096x3_S4096x5_1_023_023_1_wf

abbrev win0_0 : Pipeline.Window sig grid0 :=
  Pipeline.Window.ofSpec (Memref.whole main_v80) S8x5x200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v81) S8x5x200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v82) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v200) S32x5x50x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v201) S32x5x50x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v202) S1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg2) S32x5x40x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v319) S32x5x40x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v320) S1x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S128x5x160x160 : Shape := ⟨4, ![128, 5, 160, 160]⟩
abbrev S128x5x80x80 : Shape := ⟨4, ![128, 5, 80, 80]⟩
abbrev S128x5x40x40 : Shape := ⟨4, ![128, 5, 40, 40]⟩
abbrev S4096x6 : Shape := ⟨2, ![4096, 6]⟩
abbrev S4096x1 : Shape := ⟨2, ![4096, 1]⟩
abbrev S4096 : Shape := ⟨1, ![4096]⟩
abbrev S_ : Shape := ⟨0, ![]⟩
abbrev S4096x5 : Shape := ⟨2, ![4096, 5]⟩
abbrev S128x160x160x5 : Shape := ⟨4, ![128, 160, 160, 5]⟩
abbrev S4096x3 : Shape := ⟨2, ![4096, 3]⟩
abbrev S128x160x160 : Shape := ⟨3, ![128, 160, 160]⟩
abbrev S128x160x160x2 : Shape := ⟨4, ![128, 160, 160, 2]⟩
abbrev S128x160x160x1 : Shape := ⟨4, ![128, 160, 160, 1]⟩
abbrev S128x80x80x5 : Shape := ⟨4, ![128, 80, 80, 5]⟩
abbrev S128x80x80 : Shape := ⟨3, ![128, 80, 80]⟩
abbrev S128x80x80x2 : Shape := ⟨4, ![128, 80, 80, 2]⟩
abbrev S128x80x80x1 : Shape := ⟨4, ![128, 80, 80, 1]⟩
abbrev S128x40x40x5 : Shape := ⟨4, ![128, 40, 40, 5]⟩
abbrev S128x40x40 : Shape := ⟨3, ![128, 40, 40]⟩
abbrev S128x40x40x2 : Shape := ⟨4, ![128, 40, 40, 2]⟩
abbrev S128x40x40x1 : Shape := ⟨4, ![128, 40, 40, 1]⟩

abbrev nBuf : Space → Nat
  | .hbm => 782
  | .vmem => 0
  | .smem => 0
  | _ => 0

abbrev hbmTy0_0 (i : Nat) : BufTy := match i % 128 with
  | 0 => ⟨S128x5x160x160, .f32⟩
  | 1 => ⟨S128x5x80x80, .f32⟩
  | 2 => ⟨S128x5x40x40, .f32⟩
  | 3 => ⟨S4096x6, .f32⟩
  | 4 => ⟨S4096x1, .f32⟩
  | 5 => ⟨S4096, .f32⟩
  | 6 => ⟨S4096, .i32⟩
  | 7 => ⟨S4096x1, .f32⟩
  | 8 => ⟨S4096, .f32⟩
  | 9 => ⟨S4096x1, .f32⟩
  | 10 => ⟨S4096, .f32⟩
  | 11 => ⟨S4096x1, .f32⟩
  | 12 => ⟨S4096, .f32⟩
  | 13 => ⟨S4096x1, .f32⟩
  | 14 => ⟨S4096, .f32⟩
  | 15 => ⟨S_, .f32⟩
  | 16 => ⟨S4096, .f32⟩
  | 17 => ⟨S4096, .f32⟩
  | 18 => ⟨S_, .f32⟩
  | 19 => ⟨S4096, .f32⟩
  | 20 => ⟨S4096, .f32⟩
  | 21 => ⟨S_, .i32⟩
  | 22 => ⟨S_, .i32⟩
  | 23 => ⟨S_, .f32⟩
  | 24 => ⟨S4096, .f32⟩
  | 25 => ⟨S4096, .f32⟩
  | 26 => ⟨S_, .f32⟩
  | 27 => ⟨S4096, .f32⟩
  | 28 => ⟨S4096, .f32⟩
  | 29 => ⟨S4096, .i32⟩
  | 30 => ⟨S_, .i32⟩
  | 31 => ⟨S_, .i32⟩
  | 32 => ⟨S_, .f32⟩
  | 33 => ⟨S4096, .f32⟩
  | 34 => ⟨S4096, .f32⟩
  | 35 => ⟨S_, .f32⟩
  | 36 => ⟨S4096, .f32⟩
  | 37 => ⟨S4096, .f32⟩
  | 38 => ⟨S4096, .i32⟩
  | 39 => ⟨S4096, .f32⟩
  | 40 => ⟨S4096, .f32⟩
  | 41 => ⟨S4096, .f32⟩
  | 42 => ⟨S4096, .f32⟩
  | 43 => ⟨S_, .f32⟩
  | 44 => ⟨S4096, .f32⟩
  | 45 => ⟨S4096, .f32⟩
  | 46 => ⟨S_, .f32⟩
  | 47 => ⟨S4096, .f32⟩
  | 48 => ⟨S4096, .f32⟩
  | 49 => ⟨S_, .f32⟩
  | 50 => ⟨S4096, .f32⟩
  | 51 => ⟨S4096x1, .f32⟩
  | 52 => ⟨S4096x1, .f32⟩
  | 53 => ⟨S4096x1, .f32⟩
  | 54 => ⟨S4096x1, .f32⟩
  | 55 => ⟨S4096x1, .f32⟩
  | 56 => ⟨S4096x5, .f32⟩
  | 57 => ⟨S_, .f32⟩
  | 58 => ⟨S128x160x160x5, .f32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S4096, .i32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S4096x1, .i32⟩
  | 81 => ⟨S4096x1, .i32⟩
  | 82 => ⟨S4096x1, .i32⟩
  | 83 => ⟨S4096x3, .i32⟩
  | 84 => ⟨S128x160x160x5, .f32⟩
  | 85 => ⟨S_, .i1⟩
  | 86 => ⟨S128x160x160, .i1⟩
  | 87 => ⟨S_, .i32⟩
  | 88 => ⟨S4096, .i32⟩
  | 89 => ⟨S4096, .i1⟩
  | 90 => ⟨S_, .i32⟩
  | 91 => ⟨S4096, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096x1, .i32⟩
  | 110 => ⟨S4096x1, .i32⟩
  | 111 => ⟨S4096x3, .i32⟩
  | 112 => ⟨S_, .i1⟩
  | 113 => ⟨S4096, .i1⟩
  | 114 => ⟨S128x160x160, .i1⟩
  | 115 => ⟨S128x160x160x5, .f32⟩
  | 116 => ⟨S128x160x160, .f32⟩
  | 117 => ⟨S_, .f32⟩
  | 118 => ⟨S_, .f32⟩
  | 119 => ⟨S128x160x160x2, .f32⟩
  | 120 => ⟨S128x160x160x2, .f32⟩
  | 121 => ⟨S128x160x160x2, .f32⟩
  | 122 => ⟨S_, .f32⟩
  | 123 => ⟨S128x160x160x2, .f32⟩
  | 124 => ⟨S128x160x160x2, .f32⟩
  | 125 => ⟨S_, .f32⟩
  | 126 => ⟨S128x160x160x2, .f32⟩
  | 127 => ⟨S128x160x160x2, .f32⟩
  | _ => ⟨S128x5x160x160, .f32⟩

abbrev hbmTy0_1 (i : Nat) : BufTy := match i % 128 with
  | 0 => ⟨S128x160x160x2, .f32⟩
  | 1 => ⟨S128x160x160x1, .f32⟩
  | 2 => ⟨S_, .f32⟩
  | 3 => ⟨S_, .f32⟩
  | 4 => ⟨S_, .f32⟩
  | 5 => ⟨S_, .f32⟩
  | 6 => ⟨S128x160x160x2, .f32⟩
  | 7 => ⟨S128x160x160x2, .f32⟩
  | 8 => ⟨S128x160x160x2, .f32⟩
  | 9 => ⟨S128x160x160x2, .f32⟩
  | 10 => ⟨S128x160x160x2, .f32⟩
  | 11 => ⟨S_, .f32⟩
  | 12 => ⟨S_, .f32⟩
  | 13 => ⟨S_, .f32⟩
  | 14 => ⟨S128x160x160x2, .f32⟩
  | 15 => ⟨S128x160x160x2, .f32⟩
  | 16 => ⟨S128x160x160x2, .f32⟩
  | 17 => ⟨S128x160x160x2, .f32⟩
  | 18 => ⟨S128x160x160x2, .f32⟩
  | 19 => ⟨S_, .f32⟩
  | 20 => ⟨S_, .f32⟩
  | 21 => ⟨S_, .f32⟩
  | 22 => ⟨S_, .f32⟩
  | 23 => ⟨S_, .i1⟩
  | 24 => ⟨S_, .f32⟩
  | 25 => ⟨S_, .f32⟩
  | 26 => ⟨S_, .f32⟩
  | 27 => ⟨S_, .f32⟩
  | 28 => ⟨S128x160x160x1, .f32⟩
  | 29 => ⟨S128x160x160, .f32⟩
  | 30 => ⟨S128x160x160x1, .f32⟩
  | 31 => ⟨S128x160x160, .f32⟩
  | 32 => ⟨S128x160x160, .f32⟩
  | 33 => ⟨S_, .f32⟩
  | 34 => ⟨S128x160x160, .f32⟩
  | 35 => ⟨S128x160x160, .f32⟩
  | 36 => ⟨S128x160x160, .f32⟩
  | 37 => ⟨S128x160x160, .f32⟩
  | 38 => ⟨S128x160x160, .i1⟩
  | 39 => ⟨S128x160x160, .f32⟩
  | 40 => ⟨S128x160x160, .f32⟩
  | 41 => ⟨S128x160x160, .f32⟩
  | 42 => ⟨S128x160x160, .f32⟩
  | 43 => ⟨S128x160x160, .f32⟩
  | 44 => ⟨S128x160x160, .f32⟩
  | 45 => ⟨S128x160x160, .f32⟩
  | 46 => ⟨S128x160x160, .f32⟩
  | 47 => ⟨S128x160x160, .f32⟩
  | 48 => ⟨S128x160x160, .f32⟩
  | 49 => ⟨S_, .f32⟩
  | 50 => ⟨S128x160x160, .f32⟩
  | 51 => ⟨S128x160x160, .f32⟩
  | 52 => ⟨S128x160x160, .f32⟩
  | 53 => ⟨S128x160x160, .f32⟩
  | 54 => ⟨S_, .f32⟩
  | 55 => ⟨S128x160x160, .f32⟩
  | 56 => ⟨S128x160x160, .f32⟩
  | 57 => ⟨S128x160x160, .f32⟩
  | 58 => ⟨S128x160x160, .f32⟩
  | 59 => ⟨S128x160x160, .i1⟩
  | 60 => ⟨S128x160x160, .f32⟩
  | 61 => ⟨S128x160x160, .f32⟩
  | 62 => ⟨S128x160x160, .f32⟩
  | 63 => ⟨S128x160x160, .f32⟩
  | 64 => ⟨S128x160x160, .f32⟩
  | 65 => ⟨S128x160x160, .f32⟩
  | 66 => ⟨S128x160x160, .f32⟩
  | 67 => ⟨S128x160x160, .f32⟩
  | 68 => ⟨S128x160x160, .f32⟩
  | 69 => ⟨S128x160x160, .f32⟩
  | 70 => ⟨S128x160x160, .f32⟩
  | 71 => ⟨S128x160x160, .f32⟩
  | 72 => ⟨S128x160x160, .f32⟩
  | 73 => ⟨S128x160x160, .f32⟩
  | 74 => ⟨S_, .f32⟩
  | 75 => ⟨S128x160x160, .f32⟩
  | 76 => ⟨S128x160x160, .f32⟩
  | 77 => ⟨S_, .f32⟩
  | 78 => ⟨S128x160x160, .f32⟩
  | 79 => ⟨S128x160x160, .f32⟩
  | 80 => ⟨S128x160x160, .f32⟩
  | 81 => ⟨S_, .f32⟩
  | 82 => ⟨S128x160x160, .f32⟩
  | 83 => ⟨S128x160x160, .f32⟩
  | 84 => ⟨S_, .f32⟩
  | 85 => ⟨S128x160x160, .f32⟩
  | 86 => ⟨S128x160x160, .f32⟩
  | 87 => ⟨S128x160x160, .f32⟩
  | 88 => ⟨S128x160x160, .f32⟩
  | 89 => ⟨S_, .f32⟩
  | 90 => ⟨S128x160x160, .f32⟩
  | 91 => ⟨S128x160x160, .f32⟩
  | 92 => ⟨S_, .f32⟩
  | 93 => ⟨S128x160x160, .f32⟩
  | 94 => ⟨S128x160x160, .f32⟩
  | 95 => ⟨S_, .f32⟩
  | 96 => ⟨S128x160x160, .f32⟩
  | 97 => ⟨S128x160x160, .f32⟩
  | 98 => ⟨S128x160x160, .f32⟩
  | 99 => ⟨S128x160x160, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S128x160x160, .f32⟩
  | 114 => ⟨S128x160x160, .f32⟩
  | 115 => ⟨S128x160x160, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .i1⟩
  | 123 => ⟨S_, .f32⟩
  | 124 => ⟨S_, .f32⟩
  | 125 => ⟨S_, .f32⟩
  | 126 => ⟨S_, .f32⟩
  | 127 => ⟨S_, .f32⟩
  | _ => ⟨S128x5x160x160, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S4096x1, .f32⟩
  | 9 => ⟨S4096, .f32⟩
  | 10 => ⟨S4096, .i32⟩
  | 11 => ⟨S4096x1, .f32⟩
  | 12 => ⟨S4096, .f32⟩
  | 13 => ⟨S4096x1, .f32⟩
  | 14 => ⟨S4096, .f32⟩
  | 15 => ⟨S4096x1, .f32⟩
  | 16 => ⟨S4096, .f32⟩
  | 17 => ⟨S4096x1, .f32⟩
  | 18 => ⟨S4096, .f32⟩
  | 19 => ⟨S_, .f32⟩
  | 20 => ⟨S4096, .f32⟩
  | 21 => ⟨S4096, .f32⟩
  | 22 => ⟨S_, .f32⟩
  | 23 => ⟨S4096, .f32⟩
  | 24 => ⟨S4096, .f32⟩
  | 25 => ⟨S_, .i32⟩
  | 26 => ⟨S_, .i32⟩
  | 27 => ⟨S_, .f32⟩
  | 28 => ⟨S4096, .f32⟩
  | 29 => ⟨S4096, .f32⟩
  | 30 => ⟨S_, .f32⟩
  | 31 => ⟨S4096, .f32⟩
  | 32 => ⟨S4096, .f32⟩
  | 33 => ⟨S4096, .i32⟩
  | 34 => ⟨S_, .i32⟩
  | 35 => ⟨S_, .i32⟩
  | 36 => ⟨S_, .f32⟩
  | 37 => ⟨S4096, .f32⟩
  | 38 => ⟨S4096, .f32⟩
  | 39 => ⟨S_, .f32⟩
  | 40 => ⟨S4096, .f32⟩
  | 41 => ⟨S4096, .f32⟩
  | 42 => ⟨S4096, .i32⟩
  | 43 => ⟨S4096, .f32⟩
  | 44 => ⟨S4096, .f32⟩
  | 45 => ⟨S4096, .f32⟩
  | 46 => ⟨S4096, .f32⟩
  | 47 => ⟨S_, .f32⟩
  | 48 => ⟨S4096, .f32⟩
  | 49 => ⟨S4096, .f32⟩
  | 50 => ⟨S_, .f32⟩
  | 51 => ⟨S4096, .f32⟩
  | 52 => ⟨S4096, .f32⟩
  | 53 => ⟨S_, .f32⟩
  | 54 => ⟨S4096, .f32⟩
  | 55 => ⟨S4096x1, .f32⟩
  | 56 => ⟨S4096x1, .f32⟩
  | 57 => ⟨S4096x1, .f32⟩
  | 58 => ⟨S4096x1, .f32⟩
  | 59 => ⟨S4096x1, .f32⟩
  | 60 => ⟨S4096x5, .f32⟩
  | 61 => ⟨S_, .f32⟩
  | 62 => ⟨S128x80x80x5, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S_, .i32⟩
  | 78 => ⟨S4096, .i32⟩
  | 79 => ⟨S4096, .i1⟩
  | 80 => ⟨S_, .i32⟩
  | 81 => ⟨S4096, .i32⟩
  | 82 => ⟨S4096, .i32⟩
  | 83 => ⟨S4096, .i32⟩
  | 84 => ⟨S4096x1, .i32⟩
  | 85 => ⟨S4096x1, .i32⟩
  | 86 => ⟨S4096x1, .i32⟩
  | 87 => ⟨S4096x3, .i32⟩
  | 88 => ⟨S128x80x80x5, .f32⟩
  | 89 => ⟨S_, .i1⟩
  | 90 => ⟨S128x80x80, .i1⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S_, .i32⟩
  | 99 => ⟨S4096, .i32⟩
  | 100 => ⟨S4096, .i1⟩
  | 101 => ⟨S_, .i32⟩
  | 102 => ⟨S4096, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x1, .i32⟩
  | 114 => ⟨S4096x1, .i32⟩
  | 115 => ⟨S4096x3, .i32⟩
  | 116 => ⟨S_, .i1⟩
  | 117 => ⟨S4096, .i1⟩
  | 118 => ⟨S128x80x80, .i1⟩
  | 119 => ⟨S128x80x80x5, .f32⟩
  | 120 => ⟨S128x80x80, .f32⟩
  | 121 => ⟨S_, .f32⟩
  | 122 => ⟨S_, .f32⟩
  | 123 => ⟨S128x80x80x2, .f32⟩
  | 124 => ⟨S128x80x80x2, .f32⟩
  | 125 => ⟨S128x80x80x2, .f32⟩
  | 126 => ⟨S_, .f32⟩
  | 127 => ⟨S128x80x80x2, .f32⟩
  | _ => ⟨S128x5x160x160, .f32⟩

abbrev hbmTy0_3 (i : Nat) : BufTy := match i % 128 with
  | 0 => ⟨S128x80x80x2, .f32⟩
  | 1 => ⟨S_, .f32⟩
  | 2 => ⟨S128x80x80x2, .f32⟩
  | 3 => ⟨S128x80x80x2, .f32⟩
  | 4 => ⟨S128x80x80x2, .f32⟩
  | 5 => ⟨S128x80x80x1, .f32⟩
  | 6 => ⟨S_, .f32⟩
  | 7 => ⟨S_, .f32⟩
  | 8 => ⟨S_, .f32⟩
  | 9 => ⟨S_, .f32⟩
  | 10 => ⟨S128x80x80x2, .f32⟩
  | 11 => ⟨S128x80x80x2, .f32⟩
  | 12 => ⟨S128x80x80x2, .f32⟩
  | 13 => ⟨S128x80x80x2, .f32⟩
  | 14 => ⟨S128x80x80x2, .f32⟩
  | 15 => ⟨S_, .f32⟩
  | 16 => ⟨S_, .f32⟩
  | 17 => ⟨S_, .f32⟩
  | 18 => ⟨S128x80x80x2, .f32⟩
  | 19 => ⟨S128x80x80x2, .f32⟩
  | 20 => ⟨S128x80x80x2, .f32⟩
  | 21 => ⟨S128x80x80x2, .f32⟩
  | 22 => ⟨S128x80x80x2, .f32⟩
  | 23 => ⟨S_, .f32⟩
  | 24 => ⟨S_, .f32⟩
  | 25 => ⟨S_, .f32⟩
  | 26 => ⟨S_, .f32⟩
  | 27 => ⟨S_, .i1⟩
  | 28 => ⟨S_, .f32⟩
  | 29 => ⟨S_, .f32⟩
  | 30 => ⟨S_, .f32⟩
  | 31 => ⟨S_, .f32⟩
  | 32 => ⟨S128x80x80x1, .f32⟩
  | 33 => ⟨S128x80x80, .f32⟩
  | 34 => ⟨S128x80x80x1, .f32⟩
  | 35 => ⟨S128x80x80, .f32⟩
  | 36 => ⟨S128x80x80, .f32⟩
  | 37 => ⟨S_, .f32⟩
  | 38 => ⟨S128x80x80, .f32⟩
  | 39 => ⟨S128x80x80, .f32⟩
  | 40 => ⟨S128x80x80, .f32⟩
  | 41 => ⟨S128x80x80, .f32⟩
  | 42 => ⟨S128x80x80, .i1⟩
  | 43 => ⟨S128x80x80, .f32⟩
  | 44 => ⟨S128x80x80, .f32⟩
  | 45 => ⟨S128x80x80, .f32⟩
  | 46 => ⟨S128x80x80, .f32⟩
  | 47 => ⟨S128x80x80, .f32⟩
  | 48 => ⟨S128x80x80, .f32⟩
  | 49 => ⟨S128x80x80, .f32⟩
  | 50 => ⟨S128x80x80, .f32⟩
  | 51 => ⟨S128x80x80, .f32⟩
  | 52 => ⟨S128x80x80, .f32⟩
  | 53 => ⟨S_, .f32⟩
  | 54 => ⟨S128x80x80, .f32⟩
  | 55 => ⟨S128x80x80, .f32⟩
  | 56 => ⟨S128x80x80, .f32⟩
  | 57 => ⟨S128x80x80, .f32⟩
  | 58 => ⟨S_, .f32⟩
  | 59 => ⟨S128x80x80, .f32⟩
  | 60 => ⟨S128x80x80, .f32⟩
  | 61 => ⟨S128x80x80, .f32⟩
  | 62 => ⟨S128x80x80, .f32⟩
  | 63 => ⟨S128x80x80, .i1⟩
  | 64 => ⟨S128x80x80, .f32⟩
  | 65 => ⟨S128x80x80, .f32⟩
  | 66 => ⟨S128x80x80, .f32⟩
  | 67 => ⟨S128x80x80, .f32⟩
  | 68 => ⟨S128x80x80, .f32⟩
  | 69 => ⟨S128x80x80, .f32⟩
  | 70 => ⟨S128x80x80, .f32⟩
  | 71 => ⟨S128x80x80, .f32⟩
  | 72 => ⟨S128x80x80, .f32⟩
  | 73 => ⟨S128x80x80, .f32⟩
  | 74 => ⟨S128x80x80, .f32⟩
  | 75 => ⟨S128x80x80, .f32⟩
  | 76 => ⟨S128x80x80, .f32⟩
  | 77 => ⟨S128x80x80, .f32⟩
  | 78 => ⟨S_, .f32⟩
  | 79 => ⟨S128x80x80, .f32⟩
  | 80 => ⟨S128x80x80, .f32⟩
  | 81 => ⟨S_, .f32⟩
  | 82 => ⟨S128x80x80, .f32⟩
  | 83 => ⟨S128x80x80, .f32⟩
  | 84 => ⟨S128x80x80, .f32⟩
  | 85 => ⟨S_, .f32⟩
  | 86 => ⟨S128x80x80, .f32⟩
  | 87 => ⟨S128x80x80, .f32⟩
  | 88 => ⟨S_, .f32⟩
  | 89 => ⟨S128x80x80, .f32⟩
  | 90 => ⟨S128x80x80, .f32⟩
  | 91 => ⟨S128x80x80, .f32⟩
  | 92 => ⟨S128x80x80, .f32⟩
  | 93 => ⟨S_, .f32⟩
  | 94 => ⟨S128x80x80, .f32⟩
  | 95 => ⟨S128x80x80, .f32⟩
  | 96 => ⟨S_, .f32⟩
  | 97 => ⟨S128x80x80, .f32⟩
  | 98 => ⟨S128x80x80, .f32⟩
  | 99 => ⟨S_, .f32⟩
  | 100 => ⟨S128x80x80, .f32⟩
  | 101 => ⟨S128x80x80, .f32⟩
  | 102 => ⟨S128x80x80, .f32⟩
  | 103 => ⟨S128x80x80, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S128x80x80, .f32⟩
  | 118 => ⟨S128x80x80, .f32⟩
  | 119 => ⟨S128x80x80, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .i1⟩
  | 127 => ⟨S_, .f32⟩
  | _ => ⟨S128x5x160x160, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4096x1, .f32⟩
  | 12 => ⟨S4096, .f32⟩
  | 13 => ⟨S4096, .i32⟩
  | 14 => ⟨S4096x1, .f32⟩
  | 15 => ⟨S4096, .f32⟩
  | 16 => ⟨S4096x1, .f32⟩
  | 17 => ⟨S4096, .f32⟩
  | 18 => ⟨S4096x1, .f32⟩
  | 19 => ⟨S4096, .f32⟩
  | 20 => ⟨S4096x1, .f32⟩
  | 21 => ⟨S4096, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .f32⟩
  | 28 => ⟨S_, .i32⟩
  | 29 => ⟨S_, .i32⟩
  | 30 => ⟨S_, .f32⟩
  | 31 => ⟨S4096, .f32⟩
  | 32 => ⟨S4096, .f32⟩
  | 33 => ⟨S_, .f32⟩
  | 34 => ⟨S4096, .f32⟩
  | 35 => ⟨S4096, .f32⟩
  | 36 => ⟨S4096, .i32⟩
  | 37 => ⟨S_, .i32⟩
  | 38 => ⟨S_, .i32⟩
  | 39 => ⟨S_, .f32⟩
  | 40 => ⟨S4096, .f32⟩
  | 41 => ⟨S4096, .f32⟩
  | 42 => ⟨S_, .f32⟩
  | 43 => ⟨S4096, .f32⟩
  | 44 => ⟨S4096, .f32⟩
  | 45 => ⟨S4096, .i32⟩
  | 46 => ⟨S4096, .f32⟩
  | 47 => ⟨S4096, .f32⟩
  | 48 => ⟨S4096, .f32⟩
  | 49 => ⟨S4096, .f32⟩
  | 50 => ⟨S_, .f32⟩
  | 51 => ⟨S4096, .f32⟩
  | 52 => ⟨S4096, .f32⟩
  | 53 => ⟨S_, .f32⟩
  | 54 => ⟨S4096, .f32⟩
  | 55 => ⟨S4096, .f32⟩
  | 56 => ⟨S_, .f32⟩
  | 57 => ⟨S4096, .f32⟩
  | 58 => ⟨S4096x1, .f32⟩
  | 59 => ⟨S4096x1, .f32⟩
  | 60 => ⟨S4096x1, .f32⟩
  | 61 => ⟨S4096x1, .f32⟩
  | 62 => ⟨S4096x1, .f32⟩
  | 63 => ⟨S4096x5, .f32⟩
  | 64 => ⟨S_, .f32⟩
  | 65 => ⟨S128x40x40x5, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S_, .i32⟩
  | 74 => ⟨S4096, .i32⟩
  | 75 => ⟨S4096, .i1⟩
  | 76 => ⟨S_, .i32⟩
  | 77 => ⟨S4096, .i32⟩
  | 78 => ⟨S4096, .i32⟩
  | 79 => ⟨S4096, .i32⟩
  | 80 => ⟨S_, .i32⟩
  | 81 => ⟨S4096, .i32⟩
  | 82 => ⟨S4096, .i1⟩
  | 83 => ⟨S_, .i32⟩
  | 84 => ⟨S4096, .i32⟩
  | 85 => ⟨S4096, .i32⟩
  | 86 => ⟨S4096, .i32⟩
  | 87 => ⟨S4096x1, .i32⟩
  | 88 => ⟨S4096x1, .i32⟩
  | 89 => ⟨S4096x1, .i32⟩
  | 90 => ⟨S4096x3, .i32⟩
  | 91 => ⟨S128x40x40x5, .f32⟩
  | 92 => ⟨S_, .i1⟩
  | 93 => ⟨S128x40x40, .i1⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x1, .i32⟩
  | 117 => ⟨S4096x1, .i32⟩
  | 118 => ⟨S4096x3, .i32⟩
  | 119 => ⟨S_, .i1⟩
  | 120 => ⟨S4096, .i1⟩
  | 121 => ⟨S128x40x40, .i1⟩
  | 122 => ⟨S128x40x40x5, .f32⟩
  | 123 => ⟨S128x40x40, .f32⟩
  | 124 => ⟨S_, .f32⟩
  | 125 => ⟨S_, .f32⟩
  | 126 => ⟨S128x40x40x2, .f32⟩
  | 127 => ⟨S128x40x40x2, .f32⟩
  | _ => ⟨S128x5x160x160, .f32⟩

abbrev hbmTy0_5 (i : Nat) : BufTy := match i % 128 with
  | 0 => ⟨S128x40x40x2, .f32⟩
  | 1 => ⟨S_, .f32⟩
  | 2 => ⟨S128x40x40x2, .f32⟩
  | 3 => ⟨S128x40x40x2, .f32⟩
  | 4 => ⟨S_, .f32⟩
  | 5 => ⟨S128x40x40x2, .f32⟩
  | 6 => ⟨S128x40x40x2, .f32⟩
  | 7 => ⟨S128x40x40x2, .f32⟩
  | 8 => ⟨S128x40x40x1, .f32⟩
  | 9 => ⟨S_, .f32⟩
  | 10 => ⟨S_, .f32⟩
  | 11 => ⟨S_, .f32⟩
  | 12 => ⟨S_, .f32⟩
  | 13 => ⟨S128x40x40x2, .f32⟩
  | 14 => ⟨S128x40x40x2, .f32⟩
  | 15 => ⟨S128x40x40x2, .f32⟩
  | 16 => ⟨S128x40x40x2, .f32⟩
  | 17 => ⟨S128x40x40x2, .f32⟩
  | 18 => ⟨S_, .f32⟩
  | 19 => ⟨S_, .f32⟩
  | 20 => ⟨S_, .f32⟩
  | 21 => ⟨S128x40x40x2, .f32⟩
  | 22 => ⟨S128x40x40x2, .f32⟩
  | 23 => ⟨S128x40x40x2, .f32⟩
  | 24 => ⟨S128x40x40x2, .f32⟩
  | 25 => ⟨S128x40x40x2, .f32⟩
  | 26 => ⟨S_, .f32⟩
  | 27 => ⟨S_, .f32⟩
  | 28 => ⟨S_, .f32⟩
  | 29 => ⟨S_, .f32⟩
  | 30 => ⟨S_, .i1⟩
  | 31 => ⟨S_, .f32⟩
  | 32 => ⟨S_, .f32⟩
  | 33 => ⟨S_, .f32⟩
  | 34 => ⟨S_, .f32⟩
  | 35 => ⟨S128x40x40x1, .f32⟩
  | 36 => ⟨S128x40x40, .f32⟩
  | 37 => ⟨S128x40x40x1, .f32⟩
  | 38 => ⟨S128x40x40, .f32⟩
  | 39 => ⟨S128x40x40, .f32⟩
  | 40 => ⟨S_, .f32⟩
  | 41 => ⟨S128x40x40, .f32⟩
  | 42 => ⟨S128x40x40, .f32⟩
  | 43 => ⟨S128x40x40, .f32⟩
  | 44 => ⟨S128x40x40, .f32⟩
  | 45 => ⟨S128x40x40, .i1⟩
  | 46 => ⟨S128x40x40, .f32⟩
  | 47 => ⟨S128x40x40, .f32⟩
  | 48 => ⟨S128x40x40, .f32⟩
  | 49 => ⟨S128x40x40, .f32⟩
  | 50 => ⟨S128x40x40, .f32⟩
  | 51 => ⟨S128x40x40, .f32⟩
  | 52 => ⟨S128x40x40, .f32⟩
  | 53 => ⟨S128x40x40, .f32⟩
  | 54 => ⟨S128x40x40, .f32⟩
  | 55 => ⟨S128x40x40, .f32⟩
  | 56 => ⟨S_, .f32⟩
  | 57 => ⟨S128x40x40, .f32⟩
  | 58 => ⟨S128x40x40, .f32⟩
  | 59 => ⟨S128x40x40, .f32⟩
  | 60 => ⟨S128x40x40, .f32⟩
  | 61 => ⟨S_, .f32⟩
  | 62 => ⟨S128x40x40, .f32⟩
  | 63 => ⟨S128x40x40, .f32⟩
  | 64 => ⟨S128x40x40, .f32⟩
  | 65 => ⟨S128x40x40, .f32⟩
  | 66 => ⟨S128x40x40, .i1⟩
  | 67 => ⟨S128x40x40, .f32⟩
  | 68 => ⟨S128x40x40, .f32⟩
  | 69 => ⟨S128x40x40, .f32⟩
  | 70 => ⟨S128x40x40, .f32⟩
  | 71 => ⟨S128x40x40, .f32⟩
  | 72 => ⟨S128x40x40, .f32⟩
  | 73 => ⟨S128x40x40, .f32⟩
  | 74 => ⟨S128x40x40, .f32⟩
  | 75 => ⟨S128x40x40, .f32⟩
  | 76 => ⟨S128x40x40, .f32⟩
  | 77 => ⟨S128x40x40, .f32⟩
  | 78 => ⟨S128x40x40, .f32⟩
  | 79 => ⟨S128x40x40, .f32⟩
  | 80 => ⟨S128x40x40, .f32⟩
  | 81 => ⟨S_, .f32⟩
  | 82 => ⟨S128x40x40, .f32⟩
  | 83 => ⟨S128x40x40, .f32⟩
  | 84 => ⟨S_, .f32⟩
  | 85 => ⟨S128x40x40, .f32⟩
  | 86 => ⟨S128x40x40, .f32⟩
  | 87 => ⟨S128x40x40, .f32⟩
  | 88 => ⟨S_, .f32⟩
  | 89 => ⟨S128x40x40, .f32⟩
  | 90 => ⟨S128x40x40, .f32⟩
  | 91 => ⟨S_, .f32⟩
  | 92 => ⟨S128x40x40, .f32⟩
  | 93 => ⟨S128x40x40, .f32⟩
  | 94 => ⟨S128x40x40, .f32⟩
  | 95 => ⟨S128x40x40, .f32⟩
  | 96 => ⟨S_, .f32⟩
  | 97 => ⟨S128x40x40, .f32⟩
  | 98 => ⟨S128x40x40, .f32⟩
  | 99 => ⟨S_, .f32⟩
  | 100 => ⟨S128x40x40, .f32⟩
  | 101 => ⟨S128x40x40, .f32⟩
  | 102 => ⟨S_, .f32⟩
  | 103 => ⟨S128x40x40, .f32⟩
  | 104 => ⟨S128x40x40, .f32⟩
  | 105 => ⟨S128x40x40, .f32⟩
  | 106 => ⟨S128x40x40, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .i1⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S128x40x40, .f32⟩
  | 121 => ⟨S128x40x40, .f32⟩
  | 122 => ⟨S128x40x40, .f32⟩
  | 123 => ⟨S_, .f32⟩
  | 124 => ⟨S_, .f32⟩
  | 125 => ⟨S_, .f32⟩
  | 126 => ⟨S_, .f32⟩
  | 127 => ⟨S_, .f32⟩
  | _ => ⟨S128x5x160x160, .f32⟩

abbrev hbmTy0_6 (i : Nat) : BufTy := match i % 128 with
  | 0 => ⟨S_, .f32⟩
  | 1 => ⟨S_, .i1⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | _ => ⟨S128x5x160x160, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S128x5x160x160, .f32⟩

abbrev bufTy : (tb : Table) → Fin (tcTables nBuf tb) → BufTy
  | .hbm, ⟨i, _⟩ => hbmTy i
  | _, _ => ⟨S128x5x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_cst_5 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_c_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_c_15 : Ref sig .tc := ⟨.hbm, 87, rfl⟩
abbrev main_v56 : Ref sig .tc := ⟨.hbm, 88, rfl⟩
abbrev main_v57 : Ref sig .tc := ⟨.hbm, 89, rfl⟩
abbrev main_c_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_17 : Ref sig .tc := ⟨.hbm, 94, rfl⟩
abbrev main_v61 : Ref sig .tc := ⟨.hbm, 95, rfl⟩
abbrev main_v62 : Ref sig .tc := ⟨.hbm, 96, rfl⟩
abbrev main_c_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_19 : Ref sig .tc := ⟨.hbm, 101, rfl⟩
abbrev main_v66 : Ref sig .tc := ⟨.hbm, 102, rfl⟩
abbrev main_v67 : Ref sig .tc := ⟨.hbm, 103, rfl⟩
abbrev main_c_20 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_21 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_22 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_23 : Ref sig .tc := ⟨.hbm, 122, rfl⟩
abbrev main_v83 : Ref sig .tc := ⟨.hbm, 123, rfl⟩
abbrev main_v84 : Ref sig .tc := ⟨.hbm, 124, rfl⟩
abbrev main_cst_24 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_25 : Ref sig .tc := ⟨.hbm, 130, rfl⟩
abbrev main_v89 : Ref sig .tc := ⟨.hbm, 131, rfl⟩
abbrev main_cst_26 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_27 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_28 : Ref sig .tc := ⟨.hbm, 147, rfl⟩
abbrev main_v103 : Ref sig .tc := ⟨.hbm, 148, rfl⟩
abbrev main_v104 : Ref sig .tc := ⟨.hbm, 149, rfl⟩
abbrev main_cst_29 : Ref sig .tc := ⟨.hbm, 150, rfl⟩
abbrev main_v105 : Ref sig .tc := ⟨.hbm, 151, rfl⟩
abbrev main_v106 : Ref sig .tc := ⟨.hbm, 152, rfl⟩
abbrev main_cst_30 : Ref sig .tc := ⟨.hbm, 153, rfl⟩
abbrev main_call2_v0 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_call3_v0 : Ref sig .tc := ⟨.hbm, 160, rfl⟩
abbrev main_call3_call0_cst : Ref sig .tc := ⟨.hbm, 161, rfl⟩
abbrev main_call3_call0_v0 : Ref sig .tc := ⟨.hbm, 162, rfl⟩
abbrev main_call3_call0_v1 : Ref sig .tc := ⟨.hbm, 163, rfl⟩
abbrev main_call3_call0_v2 : Ref sig .tc := ⟨.hbm, 164, rfl⟩
abbrev main_call3_call0_v3 : Ref sig .tc := ⟨.hbm, 165, rfl⟩
abbrev main_call3_call0_v4 : Ref sig .tc := ⟨.hbm, 166, rfl⟩
abbrev main_call3_call0_v5 : Ref sig .tc := ⟨.hbm, 167, rfl⟩
abbrev main_call3_call0_v6 : Ref sig .tc := ⟨.hbm, 168, rfl⟩
abbrev main_call3_call0_v7 : Ref sig .tc := ⟨.hbm, 169, rfl⟩
abbrev main_call3_call0_v8 : Ref sig .tc := ⟨.hbm, 170, rfl⟩
abbrev main_call3_call0_v9 : Ref sig .tc := ⟨.hbm, 171, rfl⟩
abbrev main_call3_call0_v10 : Ref sig .tc := ⟨.hbm, 172, rfl⟩
abbrev main_call3_call0_v11 : Ref sig .tc := ⟨.hbm, 173, rfl⟩
abbrev main_call3_v1 : Ref sig .tc := ⟨.hbm, 174, rfl⟩
abbrev main_v112 : Ref sig .tc := ⟨.hbm, 175, rfl⟩
abbrev main_v113 : Ref sig .tc := ⟨.hbm, 176, rfl⟩
abbrev main_cst_31 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_call4_v0 : Ref sig .tc := ⟨.hbm, 181, rfl⟩
abbrev main_call4_call0_cst : Ref sig .tc := ⟨.hbm, 182, rfl⟩
abbrev main_call4_call0_v0 : Ref sig .tc := ⟨.hbm, 183, rfl⟩
abbrev main_call4_call0_v1 : Ref sig .tc := ⟨.hbm, 184, rfl⟩
abbrev main_call4_call0_v2 : Ref sig .tc := ⟨.hbm, 185, rfl⟩
abbrev main_call4_call0_v3 : Ref sig .tc := ⟨.hbm, 186, rfl⟩
abbrev main_call4_call0_v4 : Ref sig .tc := ⟨.hbm, 187, rfl⟩
abbrev main_call4_call0_v5 : Ref sig .tc := ⟨.hbm, 188, rfl⟩
abbrev main_call4_call0_v6 : Ref sig .tc := ⟨.hbm, 189, rfl⟩
abbrev main_call4_call0_v7 : Ref sig .tc := ⟨.hbm, 190, rfl⟩
abbrev main_call4_call0_v8 : Ref sig .tc := ⟨.hbm, 191, rfl⟩
abbrev main_call4_call0_v9 : Ref sig .tc := ⟨.hbm, 192, rfl⟩
abbrev main_call4_call0_v10 : Ref sig .tc := ⟨.hbm, 193, rfl⟩
abbrev main_call4_call0_v11 : Ref sig .tc := ⟨.hbm, 194, rfl⟩
abbrev main_call4_v1 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_32 : Ref sig .tc := ⟨.hbm, 202, rfl⟩
abbrev main_v123 : Ref sig .tc := ⟨.hbm, 203, rfl⟩
abbrev main_v124 : Ref sig .tc := ⟨.hbm, 204, rfl⟩
abbrev main_cst_33 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_cst_34 : Ref sig .tc := ⟨.hbm, 209, rfl⟩
abbrev main_v128 : Ref sig .tc := ⟨.hbm, 210, rfl⟩
abbrev main_v129 : Ref sig .tc := ⟨.hbm, 211, rfl⟩
abbrev main_cst_35 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_cst_36 : Ref sig .tc := ⟨.hbm, 217, rfl⟩
abbrev main_v134 : Ref sig .tc := ⟨.hbm, 218, rfl⟩
abbrev main_v135 : Ref sig .tc := ⟨.hbm, 219, rfl⟩
abbrev main_cst_37 : Ref sig .tc := ⟨.hbm, 220, rfl⟩
abbrev main_v136 : Ref sig .tc := ⟨.hbm, 221, rfl⟩
abbrev main_v137 : Ref sig .tc := ⟨.hbm, 222, rfl⟩
abbrev main_cst_38 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_cst_39 : Ref sig .tc := ⟨.hbm, 228, rfl⟩
abbrev main_v142 : Ref sig .tc := ⟨.hbm, 229, rfl⟩
abbrev main_cst_40 : Ref sig .tc := ⟨.hbm, 230, rfl⟩
abbrev main_v143 : Ref sig .tc := ⟨.hbm, 231, rfl⟩
abbrev main_v144 : Ref sig .tc := ⟨.hbm, 232, rfl⟩
abbrev main_cst_41 : Ref sig .tc := ⟨.hbm, 233, rfl⟩
abbrev main_v145 : Ref sig .tc := ⟨.hbm, 234, rfl⟩
abbrev main_cst_42 : Ref sig .tc := ⟨.hbm, 235, rfl⟩
abbrev main_call5_v0 : Ref sig .tc := ⟨.hbm, 236, rfl⟩
abbrev main_v146 : Ref sig .tc := ⟨.hbm, 237, rfl⟩
abbrev main_cst_43 : Ref sig .tc := ⟨.hbm, 238, rfl⟩
abbrev main_v147 : Ref sig .tc := ⟨.hbm, 239, rfl⟩
abbrev main_cst_44 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_cst_45 : Ref sig .tc := ⟨.hbm, 244, rfl⟩
abbrev main_v151 : Ref sig .tc := ⟨.hbm, 245, rfl⟩
abbrev main_cst_46 : Ref sig .tc := ⟨.hbm, 246, rfl⟩
abbrev main_v152 : Ref sig .tc := ⟨.hbm, 247, rfl⟩
abbrev main_v153 : Ref sig .tc := ⟨.hbm, 248, rfl⟩
abbrev main_cst_47 : Ref sig .tc := ⟨.hbm, 249, rfl⟩
abbrev main_v154 : Ref sig .tc := ⟨.hbm, 250, rfl⟩
abbrev main_cst_48 : Ref sig .tc := ⟨.hbm, 251, rfl⟩
abbrev main_call6_v0 : Ref sig .tc := ⟨.hbm, 252, rfl⟩
abbrev main_v155 : Ref sig .tc := ⟨.hbm, 253, rfl⟩
abbrev main_cst_49 : Ref sig .tc := ⟨.hbm, 254, rfl⟩
abbrev main_v156 : Ref sig .tc := ⟨.hbm, 255, rfl⟩
abbrev main_v157 : Ref sig .tc := ⟨.hbm, 256, rfl⟩
abbrev main_cst_50 : Ref sig .tc := ⟨.hbm, 257, rfl⟩
abbrev main_v158 : Ref sig .tc := ⟨.hbm, 258, rfl⟩
abbrev main_cst_51 : Ref sig .tc := ⟨.hbm, 259, rfl⟩
abbrev main_v159 : Ref sig .tc := ⟨.hbm, 260, rfl⟩
abbrev main_cst_52 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_cst_53 : Ref sig .tc := ⟨.hbm, 275, rfl⟩
abbrev main_v173 : Ref sig .tc := ⟨.hbm, 276, rfl⟩
abbrev main_v174 : Ref sig .tc := ⟨.hbm, 277, rfl⟩
abbrev main_cst_54 : Ref sig .tc := ⟨.hbm, 278, rfl⟩
abbrev main_v175 : Ref sig .tc := ⟨.hbm, 279, rfl⟩
abbrev main_v176 : Ref sig .tc := ⟨.hbm, 280, rfl⟩
abbrev main_c_55 : Ref sig .tc := ⟨.hbm, 281, rfl⟩
abbrev main_c_56 : Ref sig .tc := ⟨.hbm, 282, rfl⟩
abbrev main_call7_v0 : Ref sig .tc := ⟨.hbm, 283, rfl⟩
abbrev main_call7_v1 : Ref sig .tc := ⟨.hbm, 284, rfl⟩
abbrev main_call7_v2 : Ref sig .tc := ⟨.hbm, 285, rfl⟩
abbrev main_call7_v3 : Ref sig .tc := ⟨.hbm, 286, rfl⟩
abbrev main_call7_v4 : Ref sig .tc := ⟨.hbm, 287, rfl⟩
abbrev main_v177 : Ref sig .tc := ⟨.hbm, 288, rfl⟩
abbrev main_v178 : Ref sig .tc := ⟨.hbm, 289, rfl⟩
abbrev main_c_57 : Ref sig .tc := ⟨.hbm, 290, rfl⟩
abbrev main_c_58 : Ref sig .tc := ⟨.hbm, 291, rfl⟩
abbrev main_call8_v0 : Ref sig .tc := ⟨.hbm, 292, rfl⟩
abbrev main_call8_v1 : Ref sig .tc := ⟨.hbm, 293, rfl⟩
abbrev main_call8_v2 : Ref sig .tc := ⟨.hbm, 294, rfl⟩
abbrev main_call8_v3 : Ref sig .tc := ⟨.hbm, 295, rfl⟩
abbrev main_call8_v4 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_cst_59 : Ref sig .tc := ⟨.hbm, 303, rfl⟩
abbrev main_v185 : Ref sig .tc := ⟨.hbm, 304, rfl⟩
abbrev main_v186 : Ref sig .tc := ⟨.hbm, 305, rfl⟩
abbrev main_cst_60 : Ref sig .tc := ⟨.hbm, 306, rfl⟩
abbrev main_v187 : Ref sig .tc := ⟨.hbm, 307, rfl⟩
abbrev main_v188 : Ref sig .tc := ⟨.hbm, 308, rfl⟩
abbrev main_cst_61 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_cst_62 : Ref sig .tc := ⟨.hbm, 317, rfl⟩
abbrev main_v196 : Ref sig .tc := ⟨.hbm, 318, rfl⟩
abbrev main_c_63 : Ref sig .tc := ⟨.hbm, 319, rfl⟩
abbrev main_v197 : Ref sig .tc := ⟨.hbm, 320, rfl⟩
abbrev main_v198 : Ref sig .tc := ⟨.hbm, 321, rfl⟩
abbrev main_c_64 : Ref sig .tc := ⟨.hbm, 322, rfl⟩
abbrev main_v199 : Ref sig .tc := ⟨.hbm, 323, rfl⟩
abbrev main_v200 : Ref sig .tc := ⟨.hbm, 324, rfl⟩
abbrev main_v201 : Ref sig .tc := ⟨.hbm, 325, rfl⟩
abbrev main_c_65 : Ref sig .tc := ⟨.hbm, 326, rfl⟩
abbrev main_v202 : Ref sig .tc := ⟨.hbm, 327, rfl⟩
abbrev main_v203 : Ref sig .tc := ⟨.hbm, 328, rfl⟩
abbrev main_c_66 : Ref sig .tc := ⟨.hbm, 329, rfl⟩
abbrev main_v204 : Ref sig .tc := ⟨.hbm, 330, rfl⟩
abbrev main_v205 : Ref sig .tc := ⟨.hbm, 331, rfl⟩
abbrev main_v206 : Ref sig .tc := ⟨.hbm, 332, rfl⟩
abbrev main_c_67 : Ref sig .tc := ⟨.hbm, 333, rfl⟩
abbrev main_v207 : Ref sig .tc := ⟨.hbm, 334, rfl⟩
abbrev main_v208 : Ref sig .tc := ⟨.hbm, 335, rfl⟩
abbrev main_c_68 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_v212 : Ref sig .tc := ⟨.hbm, 340, rfl⟩
abbrev main_v213 : Ref sig .tc := ⟨.hbm, 341, rfl⟩
abbrev main_v214 : Ref sig .tc := ⟨.hbm, 342, rfl⟩
abbrev main_v215 : Ref sig .tc := ⟨.hbm, 343, rfl⟩
abbrev main_v216 : Ref sig .tc := ⟨.hbm, 344, rfl⟩
abbrev main_c_69 : Ref sig .tc := ⟨.hbm, 345, rfl⟩
abbrev main_v217 : Ref sig .tc := ⟨.hbm, 346, rfl⟩
abbrev main_c_70 : Ref sig .tc := ⟨.hbm, 347, rfl⟩
abbrev main_v218 : Ref sig .tc := ⟨.hbm, 348, rfl⟩
abbrev main_v219 : Ref sig .tc := ⟨.hbm, 349, rfl⟩
abbrev main_c_71 : Ref sig .tc := ⟨.hbm, 350, rfl⟩
abbrev main_v220 : Ref sig .tc := ⟨.hbm, 351, rfl⟩
abbrev main_v221 : Ref sig .tc := ⟨.hbm, 352, rfl⟩
abbrev main_v222 : Ref sig .tc := ⟨.hbm, 353, rfl⟩
abbrev main_c_72 : Ref sig .tc := ⟨.hbm, 354, rfl⟩
abbrev main_v223 : Ref sig .tc := ⟨.hbm, 355, rfl⟩
abbrev main_v224 : Ref sig .tc := ⟨.hbm, 356, rfl⟩
abbrev main_c_73 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_c_74 : Ref sig .tc := ⟨.hbm, 361, rfl⟩
abbrev main_v228 : Ref sig .tc := ⟨.hbm, 362, rfl⟩
abbrev main_v229 : Ref sig .tc := ⟨.hbm, 363, rfl⟩
abbrev main_c_75 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_c_76 : Ref sig .tc := ⟨.hbm, 372, rfl⟩
abbrev main_v237 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_cst_77 : Ref sig .tc := ⟨.hbm, 377, rfl⟩
abbrev main_v241 : Ref sig .tc := ⟨.hbm, 378, rfl⟩
abbrev main_v242 : Ref sig .tc := ⟨.hbm, 379, rfl⟩
abbrev main_v243 : Ref sig .tc := ⟨.hbm, 380, rfl⟩
abbrev main_v244 : Ref sig .tc := ⟨.hbm, 381, rfl⟩
abbrev main_cst_78 : Ref sig .tc := ⟨.hbm, 382, rfl⟩
abbrev main_v245 : Ref sig .tc := ⟨.hbm, 383, rfl⟩
abbrev main_v246 : Ref sig .tc := ⟨.hbm, 384, rfl⟩
abbrev main_cst_79 : Ref sig .tc := ⟨.hbm, 385, rfl⟩
abbrev main_v247 : Ref sig .tc := ⟨.hbm, 386, rfl⟩
abbrev main_v248 : Ref sig .tc := ⟨.hbm, 387, rfl⟩
abbrev main_v249 : Ref sig .tc := ⟨.hbm, 388, rfl⟩
abbrev main_v250 : Ref sig .tc := ⟨.hbm, 389, rfl⟩
abbrev main_cst_80 : Ref sig .tc := ⟨.hbm, 390, rfl⟩
abbrev main_v251 : Ref sig .tc := ⟨.hbm, 391, rfl⟩
abbrev main_cst_81 : Ref sig .tc := ⟨.hbm, 392, rfl⟩
abbrev main_v252 : Ref sig .tc := ⟨.hbm, 393, rfl⟩
abbrev main_v253 : Ref sig .tc := ⟨.hbm, 394, rfl⟩
abbrev main_v254 : Ref sig .tc := ⟨.hbm, 395, rfl⟩
abbrev main_v255 : Ref sig .tc := ⟨.hbm, 396, rfl⟩
abbrev main_v256 : Ref sig .tc := ⟨.hbm, 397, rfl⟩
abbrev main_v257 : Ref sig .tc := ⟨.hbm, 398, rfl⟩
abbrev main_cst_82 : Ref sig .tc := ⟨.hbm, 399, rfl⟩
abbrev main_v258 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_cst_83 : Ref sig .tc := ⟨.hbm, 407, rfl⟩
abbrev main_v265 : Ref sig .tc := ⟨.hbm, 408, rfl⟩
abbrev main_v266 : Ref sig .tc := ⟨.hbm, 409, rfl⟩
abbrev main_cst_84 : Ref sig .tc := ⟨.hbm, 410, rfl⟩
abbrev main_v267 : Ref sig .tc := ⟨.hbm, 411, rfl⟩
abbrev main_v268 : Ref sig .tc := ⟨.hbm, 412, rfl⟩
abbrev main_cst_85 : Ref sig .tc := ⟨.hbm, 413, rfl⟩
abbrev main_call9_v0 : Ref sig .tc := ⟨.hbm, 414, rfl⟩
abbrev main_v269 : Ref sig .tc := ⟨.hbm, 415, rfl⟩
abbrev main_v270 : Ref sig .tc := ⟨.hbm, 416, rfl⟩
abbrev main_v271 : Ref sig .tc := ⟨.hbm, 417, rfl⟩
abbrev main_v272 : Ref sig .tc := ⟨.hbm, 418, rfl⟩
abbrev main_v273 : Ref sig .tc := ⟨.hbm, 419, rfl⟩
abbrev main_call10_v0 : Ref sig .tc := ⟨.hbm, 420, rfl⟩
abbrev main_call10_call0_cst : Ref sig .tc := ⟨.hbm, 421, rfl⟩
abbrev main_call10_call0_v0 : Ref sig .tc := ⟨.hbm, 422, rfl⟩
abbrev main_call10_call0_v1 : Ref sig .tc := ⟨.hbm, 423, rfl⟩
abbrev main_call10_call0_v2 : Ref sig .tc := ⟨.hbm, 424, rfl⟩
abbrev main_call10_call0_v3 : Ref sig .tc := ⟨.hbm, 425, rfl⟩
abbrev main_call10_call0_v4 : Ref sig .tc := ⟨.hbm, 426, rfl⟩
abbrev main_call10_call0_v5 : Ref sig .tc := ⟨.hbm, 427, rfl⟩
abbrev main_call10_call0_v6 : Ref sig .tc := ⟨.hbm, 428, rfl⟩
abbrev main_call10_call0_v7 : Ref sig .tc := ⟨.hbm, 429, rfl⟩
abbrev main_call10_call0_v8 : Ref sig .tc := ⟨.hbm, 430, rfl⟩
abbrev main_call10_call0_v9 : Ref sig .tc := ⟨.hbm, 431, rfl⟩
abbrev main_call10_call0_v10 : Ref sig .tc := ⟨.hbm, 432, rfl⟩
abbrev main_call10_call0_v11 : Ref sig .tc := ⟨.hbm, 433, rfl⟩
abbrev main_call10_v1 : Ref sig .tc := ⟨.hbm, 434, rfl⟩
abbrev main_v274 : Ref sig .tc := ⟨.hbm, 435, rfl⟩
abbrev main_v275 : Ref sig .tc := ⟨.hbm, 436, rfl⟩
abbrev main_cst_86 : Ref sig .tc := ⟨.hbm, 437, rfl⟩
abbrev main_v276 : Ref sig .tc := ⟨.hbm, 438, rfl⟩
abbrev main_v277 : Ref sig .tc := ⟨.hbm, 439, rfl⟩
abbrev main_v278 : Ref sig .tc := ⟨.hbm, 440, rfl⟩
abbrev main_call11_v0 : Ref sig .tc := ⟨.hbm, 441, rfl⟩
abbrev main_call11_call0_cst : Ref sig .tc := ⟨.hbm, 442, rfl⟩
abbrev main_call11_call0_v0 : Ref sig .tc := ⟨.hbm, 443, rfl⟩
abbrev main_call11_call0_v1 : Ref sig .tc := ⟨.hbm, 444, rfl⟩
abbrev main_call11_call0_v2 : Ref sig .tc := ⟨.hbm, 445, rfl⟩
abbrev main_call11_call0_v3 : Ref sig .tc := ⟨.hbm, 446, rfl⟩
abbrev main_call11_call0_v4 : Ref sig .tc := ⟨.hbm, 447, rfl⟩
abbrev main_call11_call0_v5 : Ref sig .tc := ⟨.hbm, 448, rfl⟩
abbrev main_call11_call0_v6 : Ref sig .tc := ⟨.hbm, 449, rfl⟩
abbrev main_call11_call0_v7 : Ref sig .tc := ⟨.hbm, 450, rfl⟩
abbrev main_call11_call0_v8 : Ref sig .tc := ⟨.hbm, 451, rfl⟩
abbrev main_call11_call0_v9 : Ref sig .tc := ⟨.hbm, 452, rfl⟩
abbrev main_call11_call0_v10 : Ref sig .tc := ⟨.hbm, 453, rfl⟩
abbrev main_call11_call0_v11 : Ref sig .tc := ⟨.hbm, 454, rfl⟩
abbrev main_call11_v1 : Ref sig .tc := ⟨.hbm, 455, rfl⟩
abbrev main_v279 : Ref sig .tc := ⟨.hbm, 456, rfl⟩
abbrev main_v280 : Ref sig .tc := ⟨.hbm, 457, rfl⟩
abbrev main_v281 : Ref sig .tc := ⟨.hbm, 458, rfl⟩
abbrev main_v282 : Ref sig .tc := ⟨.hbm, 459, rfl⟩
abbrev main_v283 : Ref sig .tc := ⟨.hbm, 460, rfl⟩
abbrev main_v284 : Ref sig .tc := ⟨.hbm, 461, rfl⟩
abbrev main_cst_87 : Ref sig .tc := ⟨.hbm, 462, rfl⟩
abbrev main_v285 : Ref sig .tc := ⟨.hbm, 463, rfl⟩
abbrev main_v286 : Ref sig .tc := ⟨.hbm, 464, rfl⟩
abbrev main_cst_88 : Ref sig .tc := ⟨.hbm, 465, rfl⟩
abbrev main_v287 : Ref sig .tc := ⟨.hbm, 466, rfl⟩
abbrev main_v288 : Ref sig .tc := ⟨.hbm, 467, rfl⟩
abbrev main_v289 : Ref sig .tc := ⟨.hbm, 468, rfl⟩
abbrev main_cst_89 : Ref sig .tc := ⟨.hbm, 469, rfl⟩
abbrev main_v290 : Ref sig .tc := ⟨.hbm, 470, rfl⟩
abbrev main_v291 : Ref sig .tc := ⟨.hbm, 471, rfl⟩
abbrev main_cst_90 : Ref sig .tc := ⟨.hbm, 472, rfl⟩
abbrev main_v292 : Ref sig .tc := ⟨.hbm, 473, rfl⟩
abbrev main_v293 : Ref sig .tc := ⟨.hbm, 474, rfl⟩
abbrev main_v294 : Ref sig .tc := ⟨.hbm, 475, rfl⟩
abbrev main_v295 : Ref sig .tc := ⟨.hbm, 476, rfl⟩
abbrev main_cst_91 : Ref sig .tc := ⟨.hbm, 477, rfl⟩
abbrev main_v296 : Ref sig .tc := ⟨.hbm, 478, rfl⟩
abbrev main_v297 : Ref sig .tc := ⟨.hbm, 479, rfl⟩
abbrev main_cst_92 : Ref sig .tc := ⟨.hbm, 480, rfl⟩
abbrev main_v298 : Ref sig .tc := ⟨.hbm, 481, rfl⟩
abbrev main_v299 : Ref sig .tc := ⟨.hbm, 482, rfl⟩
abbrev main_cst_93 : Ref sig .tc := ⟨.hbm, 483, rfl⟩
abbrev main_v300 : Ref sig .tc := ⟨.hbm, 484, rfl⟩
abbrev main_v301 : Ref sig .tc := ⟨.hbm, 485, rfl⟩
abbrev main_v302 : Ref sig .tc := ⟨.hbm, 486, rfl⟩
abbrev main_v303 : Ref sig .tc := ⟨.hbm, 487, rfl⟩
abbrev main_cst_94 : Ref sig .tc := ⟨.hbm, 488, rfl⟩
abbrev main_v304 : Ref sig .tc := ⟨.hbm, 489, rfl⟩
abbrev main_cst_95 : Ref sig .tc := ⟨.hbm, 490, rfl⟩
abbrev main_v305 : Ref sig .tc := ⟨.hbm, 491, rfl⟩
abbrev main_v306 : Ref sig .tc := ⟨.hbm, 492, rfl⟩
abbrev main_cst_96 : Ref sig .tc := ⟨.hbm, 493, rfl⟩
abbrev main_v307 : Ref sig .tc := ⟨.hbm, 494, rfl⟩
abbrev main_cst_97 : Ref sig .tc := ⟨.hbm, 495, rfl⟩
abbrev main_call12_v0 : Ref sig .tc := ⟨.hbm, 496, rfl⟩
abbrev main_v308 : Ref sig .tc := ⟨.hbm, 497, rfl⟩
abbrev main_cst_98 : Ref sig .tc := ⟨.hbm, 498, rfl⟩
abbrev main_v309 : Ref sig .tc := ⟨.hbm, 499, rfl⟩
abbrev main_cst_99 : Ref sig .tc := ⟨.hbm, 500, rfl⟩
abbrev main_v310 : Ref sig .tc := ⟨.hbm, 501, rfl⟩
abbrev main_v311 : Ref sig .tc := ⟨.hbm, 502, rfl⟩
abbrev main_v312 : Ref sig .tc := ⟨.hbm, 503, rfl⟩
abbrev main_cst_100 : Ref sig .tc := ⟨.hbm, 504, rfl⟩
abbrev main_v313 : Ref sig .tc := ⟨.hbm, 505, rfl⟩
abbrev main_cst_101 : Ref sig .tc := ⟨.hbm, 506, rfl⟩
abbrev main_v314 : Ref sig .tc := ⟨.hbm, 507, rfl⟩
abbrev main_v315 : Ref sig .tc := ⟨.hbm, 508, rfl⟩
abbrev main_cst_102 : Ref sig .tc := ⟨.hbm, 509, rfl⟩
abbrev main_v316 : Ref sig .tc := ⟨.hbm, 510, rfl⟩
abbrev main_cst_103 : Ref sig .tc := ⟨.hbm, 511, rfl⟩
abbrev main_call13_v0 : Ref sig .tc := ⟨.hbm, 512, rfl⟩
abbrev main_v317 : Ref sig .tc := ⟨.hbm, 513, rfl⟩
abbrev main_cst_104 : Ref sig .tc := ⟨.hbm, 514, rfl⟩
abbrev main_v318 : Ref sig .tc := ⟨.hbm, 515, rfl⟩
abbrev main_v319 : Ref sig .tc := ⟨.hbm, 516, rfl⟩
abbrev main_cst_105 : Ref sig .tc := ⟨.hbm, 517, rfl⟩
abbrev main_v320 : Ref sig .tc := ⟨.hbm, 518, rfl⟩
abbrev main_cst_106 : Ref sig .tc := ⟨.hbm, 519, rfl⟩
abbrev main_v321 : Ref sig .tc := ⟨.hbm, 520, rfl⟩
abbrev main_v322 : Ref sig .tc := ⟨.hbm, 521, rfl⟩
abbrev main_v323 : Ref sig .tc := ⟨.hbm, 522, rfl⟩
abbrev main_v324 : Ref sig .tc := ⟨.hbm, 523, rfl⟩
abbrev main_v325 : Ref sig .tc := ⟨.hbm, 524, rfl⟩
abbrev main_v326 : Ref sig .tc := ⟨.hbm, 525, rfl⟩
abbrev main_v327 : Ref sig .tc := ⟨.hbm, 526, rfl⟩
abbrev main_v328 : Ref sig .tc := ⟨.hbm, 527, rfl⟩
abbrev main_v329 : Ref sig .tc := ⟨.hbm, 528, rfl⟩
abbrev main_v330 : Ref sig .tc := ⟨.hbm, 529, rfl⟩
abbrev main_v331 : Ref sig .tc := ⟨.hbm, 530, rfl⟩
abbrev main_v332 : Ref sig .tc := ⟨.hbm, 531, rfl⟩
abbrev main_v333 : Ref sig .tc := ⟨.hbm, 532, rfl⟩
abbrev main_v334 : Ref sig .tc := ⟨.hbm, 533, rfl⟩
abbrev main_cst_107 : Ref sig .tc := ⟨.hbm, 534, rfl⟩
abbrev main_v335 : Ref sig .tc := ⟨.hbm, 535, rfl⟩
abbrev main_v336 : Ref sig .tc := ⟨.hbm, 536, rfl⟩
abbrev main_cst_108 : Ref sig .tc := ⟨.hbm, 537, rfl⟩
abbrev main_v337 : Ref sig .tc := ⟨.hbm, 538, rfl⟩
abbrev main_v338 : Ref sig .tc := ⟨.hbm, 539, rfl⟩
abbrev main_c_109 : Ref sig .tc := ⟨.hbm, 540, rfl⟩
abbrev main_c_110 : Ref sig .tc := ⟨.hbm, 541, rfl⟩
abbrev main_call14_v0 : Ref sig .tc := ⟨.hbm, 542, rfl⟩
abbrev main_call14_v1 : Ref sig .tc := ⟨.hbm, 543, rfl⟩
abbrev main_call14_v2 : Ref sig .tc := ⟨.hbm, 544, rfl⟩
abbrev main_call14_v3 : Ref sig .tc := ⟨.hbm, 545, rfl⟩
abbrev main_call14_v4 : Ref sig .tc := ⟨.hbm, 546, rfl⟩
abbrev main_v339 : Ref sig .tc := ⟨.hbm, 547, rfl⟩
abbrev main_v340 : Ref sig .tc := ⟨.hbm, 548, rfl⟩
abbrev main_c_111 : Ref sig .tc := ⟨.hbm, 549, rfl⟩
abbrev main_c_112 : Ref sig .tc := ⟨.hbm, 550, rfl⟩
abbrev main_call15_v0 : Ref sig .tc := ⟨.hbm, 551, rfl⟩
abbrev main_call15_v1 : Ref sig .tc := ⟨.hbm, 552, rfl⟩
abbrev main_call15_v2 : Ref sig .tc := ⟨.hbm, 553, rfl⟩
abbrev main_call15_v3 : Ref sig .tc := ⟨.hbm, 554, rfl⟩
abbrev main_call15_v4 : Ref sig .tc := ⟨.hbm, 555, rfl⟩
abbrev main_v341 : Ref sig .tc := ⟨.hbm, 556, rfl⟩
abbrev main_v342 : Ref sig .tc := ⟨.hbm, 557, rfl⟩
abbrev main_v343 : Ref sig .tc := ⟨.hbm, 558, rfl⟩
abbrev main_v344 : Ref sig .tc := ⟨.hbm, 559, rfl⟩
abbrev main_v345 : Ref sig .tc := ⟨.hbm, 560, rfl⟩
abbrev main_v346 : Ref sig .tc := ⟨.hbm, 561, rfl⟩
abbrev main_cst_113 : Ref sig .tc := ⟨.hbm, 562, rfl⟩
abbrev main_v347 : Ref sig .tc := ⟨.hbm, 563, rfl⟩
abbrev main_v348 : Ref sig .tc := ⟨.hbm, 564, rfl⟩
abbrev main_cst_114 : Ref sig .tc := ⟨.hbm, 565, rfl⟩
abbrev main_v349 : Ref sig .tc := ⟨.hbm, 566, rfl⟩
abbrev main_v350 : Ref sig .tc := ⟨.hbm, 567, rfl⟩
abbrev main_cst_115 : Ref sig .tc := ⟨.hbm, 568, rfl⟩
abbrev main_v351 : Ref sig .tc := ⟨.hbm, 569, rfl⟩
abbrev main_v352 : Ref sig .tc := ⟨.hbm, 570, rfl⟩
abbrev main_v353 : Ref sig .tc := ⟨.hbm, 571, rfl⟩
abbrev main_v354 : Ref sig .tc := ⟨.hbm, 572, rfl⟩
abbrev main_v355 : Ref sig .tc := ⟨.hbm, 573, rfl⟩
abbrev main_v356 : Ref sig .tc := ⟨.hbm, 574, rfl⟩
abbrev main_v357 : Ref sig .tc := ⟨.hbm, 575, rfl⟩
abbrev main_cst_116 : Ref sig .tc := ⟨.hbm, 576, rfl⟩
abbrev main_v358 : Ref sig .tc := ⟨.hbm, 577, rfl⟩
abbrev main_c_117 : Ref sig .tc := ⟨.hbm, 578, rfl⟩
abbrev main_v359 : Ref sig .tc := ⟨.hbm, 579, rfl⟩
abbrev main_v360 : Ref sig .tc := ⟨.hbm, 580, rfl⟩
abbrev main_c_118 : Ref sig .tc := ⟨.hbm, 581, rfl⟩
abbrev main_v361 : Ref sig .tc := ⟨.hbm, 582, rfl⟩
abbrev main_v362 : Ref sig .tc := ⟨.hbm, 583, rfl⟩
abbrev main_v363 : Ref sig .tc := ⟨.hbm, 584, rfl⟩
abbrev main_c_119 : Ref sig .tc := ⟨.hbm, 585, rfl⟩
abbrev main_v364 : Ref sig .tc := ⟨.hbm, 586, rfl⟩
abbrev main_v365 : Ref sig .tc := ⟨.hbm, 587, rfl⟩
abbrev main_c_120 : Ref sig .tc := ⟨.hbm, 588, rfl⟩
abbrev main_v366 : Ref sig .tc := ⟨.hbm, 589, rfl⟩
abbrev main_v367 : Ref sig .tc := ⟨.hbm, 590, rfl⟩
abbrev main_v368 : Ref sig .tc := ⟨.hbm, 591, rfl⟩
abbrev main_c_121 : Ref sig .tc := ⟨.hbm, 592, rfl⟩
abbrev main_v369 : Ref sig .tc := ⟨.hbm, 593, rfl⟩
abbrev main_v370 : Ref sig .tc := ⟨.hbm, 594, rfl⟩
abbrev main_c_122 : Ref sig .tc := ⟨.hbm, 595, rfl⟩
abbrev main_v371 : Ref sig .tc := ⟨.hbm, 596, rfl⟩
abbrev main_v372 : Ref sig .tc := ⟨.hbm, 597, rfl⟩
abbrev main_v373 : Ref sig .tc := ⟨.hbm, 598, rfl⟩
abbrev main_v374 : Ref sig .tc := ⟨.hbm, 599, rfl⟩
abbrev main_v375 : Ref sig .tc := ⟨.hbm, 600, rfl⟩
abbrev main_v376 : Ref sig .tc := ⟨.hbm, 601, rfl⟩
abbrev main_v377 : Ref sig .tc := ⟨.hbm, 602, rfl⟩
abbrev main_v378 : Ref sig .tc := ⟨.hbm, 603, rfl⟩
abbrev main_c_123 : Ref sig .tc := ⟨.hbm, 604, rfl⟩
abbrev main_v379 : Ref sig .tc := ⟨.hbm, 605, rfl⟩
abbrev main_c_124 : Ref sig .tc := ⟨.hbm, 606, rfl⟩
abbrev main_v380 : Ref sig .tc := ⟨.hbm, 607, rfl⟩
abbrev main_v381 : Ref sig .tc := ⟨.hbm, 608, rfl⟩
abbrev main_c_125 : Ref sig .tc := ⟨.hbm, 609, rfl⟩
abbrev main_v382 : Ref sig .tc := ⟨.hbm, 610, rfl⟩
abbrev main_v383 : Ref sig .tc := ⟨.hbm, 611, rfl⟩
abbrev main_v384 : Ref sig .tc := ⟨.hbm, 612, rfl⟩
abbrev main_c_126 : Ref sig .tc := ⟨.hbm, 613, rfl⟩
abbrev main_v385 : Ref sig .tc := ⟨.hbm, 614, rfl⟩
abbrev main_v386 : Ref sig .tc := ⟨.hbm, 615, rfl⟩
abbrev main_c_127 : Ref sig .tc := ⟨.hbm, 616, rfl⟩
abbrev main_v387 : Ref sig .tc := ⟨.hbm, 617, rfl⟩
abbrev main_v388 : Ref sig .tc := ⟨.hbm, 618, rfl⟩
abbrev main_v389 : Ref sig .tc := ⟨.hbm, 619, rfl⟩
abbrev main_c_128 : Ref sig .tc := ⟨.hbm, 620, rfl⟩
abbrev main_v390 : Ref sig .tc := ⟨.hbm, 621, rfl⟩
abbrev main_v391 : Ref sig .tc := ⟨.hbm, 622, rfl⟩
abbrev main_c_129 : Ref sig .tc := ⟨.hbm, 623, rfl⟩
abbrev main_v392 : Ref sig .tc := ⟨.hbm, 624, rfl⟩
abbrev main_v393 : Ref sig .tc := ⟨.hbm, 625, rfl⟩
abbrev main_v394 : Ref sig .tc := ⟨.hbm, 626, rfl⟩
abbrev main_v395 : Ref sig .tc := ⟨.hbm, 627, rfl⟩
abbrev main_v396 : Ref sig .tc := ⟨.hbm, 628, rfl⟩
abbrev main_v397 : Ref sig .tc := ⟨.hbm, 629, rfl⟩
abbrev main_v398 : Ref sig .tc := ⟨.hbm, 630, rfl⟩
abbrev main_c_130 : Ref sig .tc := ⟨.hbm, 631, rfl⟩
abbrev main_v399 : Ref sig .tc := ⟨.hbm, 632, rfl⟩
abbrev main_v400 : Ref sig .tc := ⟨.hbm, 633, rfl⟩
abbrev main_v401 : Ref sig .tc := ⟨.hbm, 634, rfl⟩
abbrev main_v402 : Ref sig .tc := ⟨.hbm, 635, rfl⟩
abbrev main_cst_131 : Ref sig .tc := ⟨.hbm, 636, rfl⟩
abbrev main_v403 : Ref sig .tc := ⟨.hbm, 637, rfl⟩
abbrev main_v404 : Ref sig .tc := ⟨.hbm, 638, rfl⟩
abbrev main_v405 : Ref sig .tc := ⟨.hbm, 639, rfl⟩
abbrev main_v406 : Ref sig .tc := ⟨.hbm, 640, rfl⟩
abbrev main_cst_132 : Ref sig .tc := ⟨.hbm, 641, rfl⟩
abbrev main_v407 : Ref sig .tc := ⟨.hbm, 642, rfl⟩
abbrev main_v408 : Ref sig .tc := ⟨.hbm, 643, rfl⟩
abbrev main_cst_133 : Ref sig .tc := ⟨.hbm, 644, rfl⟩
abbrev main_v409 : Ref sig .tc := ⟨.hbm, 645, rfl⟩
abbrev main_v410 : Ref sig .tc := ⟨.hbm, 646, rfl⟩
abbrev main_v411 : Ref sig .tc := ⟨.hbm, 647, rfl⟩
abbrev main_v412 : Ref sig .tc := ⟨.hbm, 648, rfl⟩
abbrev main_cst_134 : Ref sig .tc := ⟨.hbm, 649, rfl⟩
abbrev main_v413 : Ref sig .tc := ⟨.hbm, 650, rfl⟩
abbrev main_cst_135 : Ref sig .tc := ⟨.hbm, 651, rfl⟩
abbrev main_v414 : Ref sig .tc := ⟨.hbm, 652, rfl⟩
abbrev main_v415 : Ref sig .tc := ⟨.hbm, 653, rfl⟩
abbrev main_v416 : Ref sig .tc := ⟨.hbm, 654, rfl⟩
abbrev main_v417 : Ref sig .tc := ⟨.hbm, 655, rfl⟩
abbrev main_v418 : Ref sig .tc := ⟨.hbm, 656, rfl⟩
abbrev main_v419 : Ref sig .tc := ⟨.hbm, 657, rfl⟩
abbrev main_cst_136 : Ref sig .tc := ⟨.hbm, 658, rfl⟩
abbrev main_v420 : Ref sig .tc := ⟨.hbm, 659, rfl⟩
abbrev main_v421 : Ref sig .tc := ⟨.hbm, 660, rfl⟩
abbrev main_v422 : Ref sig .tc := ⟨.hbm, 661, rfl⟩
abbrev main_v423 : Ref sig .tc := ⟨.hbm, 662, rfl⟩
abbrev main_v424 : Ref sig .tc := ⟨.hbm, 663, rfl⟩
abbrev main_v425 : Ref sig .tc := ⟨.hbm, 664, rfl⟩
abbrev main_v426 : Ref sig .tc := ⟨.hbm, 665, rfl⟩
abbrev main_cst_137 : Ref sig .tc := ⟨.hbm, 666, rfl⟩
abbrev main_v427 : Ref sig .tc := ⟨.hbm, 667, rfl⟩
abbrev main_v428 : Ref sig .tc := ⟨.hbm, 668, rfl⟩
abbrev main_cst_138 : Ref sig .tc := ⟨.hbm, 669, rfl⟩
abbrev main_v429 : Ref sig .tc := ⟨.hbm, 670, rfl⟩
abbrev main_v430 : Ref sig .tc := ⟨.hbm, 671, rfl⟩
abbrev main_cst_139 : Ref sig .tc := ⟨.hbm, 672, rfl⟩
abbrev main_call16_v0 : Ref sig .tc := ⟨.hbm, 673, rfl⟩
abbrev main_v431 : Ref sig .tc := ⟨.hbm, 674, rfl⟩
abbrev main_v432 : Ref sig .tc := ⟨.hbm, 675, rfl⟩
abbrev main_v433 : Ref sig .tc := ⟨.hbm, 676, rfl⟩
abbrev main_v434 : Ref sig .tc := ⟨.hbm, 677, rfl⟩
abbrev main_v435 : Ref sig .tc := ⟨.hbm, 678, rfl⟩
abbrev main_call17_v0 : Ref sig .tc := ⟨.hbm, 679, rfl⟩
abbrev main_call17_call0_cst : Ref sig .tc := ⟨.hbm, 680, rfl⟩
abbrev main_call17_call0_v0 : Ref sig .tc := ⟨.hbm, 681, rfl⟩
abbrev main_call17_call0_v1 : Ref sig .tc := ⟨.hbm, 682, rfl⟩
abbrev main_call17_call0_v2 : Ref sig .tc := ⟨.hbm, 683, rfl⟩
abbrev main_call17_call0_v3 : Ref sig .tc := ⟨.hbm, 684, rfl⟩
abbrev main_call17_call0_v4 : Ref sig .tc := ⟨.hbm, 685, rfl⟩
abbrev main_call17_call0_v5 : Ref sig .tc := ⟨.hbm, 686, rfl⟩
abbrev main_call17_call0_v6 : Ref sig .tc := ⟨.hbm, 687, rfl⟩
abbrev main_call17_call0_v7 : Ref sig .tc := ⟨.hbm, 688, rfl⟩
abbrev main_call17_call0_v8 : Ref sig .tc := ⟨.hbm, 689, rfl⟩
abbrev main_call17_call0_v9 : Ref sig .tc := ⟨.hbm, 690, rfl⟩
abbrev main_call17_call0_v10 : Ref sig .tc := ⟨.hbm, 691, rfl⟩
abbrev main_call17_call0_v11 : Ref sig .tc := ⟨.hbm, 692, rfl⟩
abbrev main_call17_v1 : Ref sig .tc := ⟨.hbm, 693, rfl⟩
abbrev main_v436 : Ref sig .tc := ⟨.hbm, 694, rfl⟩
abbrev main_v437 : Ref sig .tc := ⟨.hbm, 695, rfl⟩
abbrev main_cst_140 : Ref sig .tc := ⟨.hbm, 696, rfl⟩
abbrev main_v438 : Ref sig .tc := ⟨.hbm, 697, rfl⟩
abbrev main_v439 : Ref sig .tc := ⟨.hbm, 698, rfl⟩
abbrev main_v440 : Ref sig .tc := ⟨.hbm, 699, rfl⟩
abbrev main_call18_v0 : Ref sig .tc := ⟨.hbm, 700, rfl⟩
abbrev main_call18_call0_cst : Ref sig .tc := ⟨.hbm, 701, rfl⟩
abbrev main_call18_call0_v0 : Ref sig .tc := ⟨.hbm, 702, rfl⟩
abbrev main_call18_call0_v1 : Ref sig .tc := ⟨.hbm, 703, rfl⟩
abbrev main_call18_call0_v2 : Ref sig .tc := ⟨.hbm, 704, rfl⟩
abbrev main_call18_call0_v3 : Ref sig .tc := ⟨.hbm, 705, rfl⟩
abbrev main_call18_call0_v4 : Ref sig .tc := ⟨.hbm, 706, rfl⟩
abbrev main_call18_call0_v5 : Ref sig .tc := ⟨.hbm, 707, rfl⟩
abbrev main_call18_call0_v6 : Ref sig .tc := ⟨.hbm, 708, rfl⟩
abbrev main_call18_call0_v7 : Ref sig .tc := ⟨.hbm, 709, rfl⟩
abbrev main_call18_call0_v8 : Ref sig .tc := ⟨.hbm, 710, rfl⟩
abbrev main_call18_call0_v9 : Ref sig .tc := ⟨.hbm, 711, rfl⟩
abbrev main_call18_call0_v10 : Ref sig .tc := ⟨.hbm, 712, rfl⟩
abbrev main_call18_call0_v11 : Ref sig .tc := ⟨.hbm, 713, rfl⟩
abbrev main_call18_v1 : Ref sig .tc := ⟨.hbm, 714, rfl⟩
abbrev main_v441 : Ref sig .tc := ⟨.hbm, 715, rfl⟩
abbrev main_v442 : Ref sig .tc := ⟨.hbm, 716, rfl⟩
abbrev main_v443 : Ref sig .tc := ⟨.hbm, 717, rfl⟩
abbrev main_v444 : Ref sig .tc := ⟨.hbm, 718, rfl⟩
abbrev main_v445 : Ref sig .tc := ⟨.hbm, 719, rfl⟩
abbrev main_v446 : Ref sig .tc := ⟨.hbm, 720, rfl⟩
abbrev main_cst_141 : Ref sig .tc := ⟨.hbm, 721, rfl⟩
abbrev main_v447 : Ref sig .tc := ⟨.hbm, 722, rfl⟩
abbrev main_v448 : Ref sig .tc := ⟨.hbm, 723, rfl⟩
abbrev main_cst_142 : Ref sig .tc := ⟨.hbm, 724, rfl⟩
abbrev main_v449 : Ref sig .tc := ⟨.hbm, 725, rfl⟩
abbrev main_v450 : Ref sig .tc := ⟨.hbm, 726, rfl⟩
abbrev main_v451 : Ref sig .tc := ⟨.hbm, 727, rfl⟩
abbrev main_cst_143 : Ref sig .tc := ⟨.hbm, 728, rfl⟩
abbrev main_v452 : Ref sig .tc := ⟨.hbm, 729, rfl⟩
abbrev main_v453 : Ref sig .tc := ⟨.hbm, 730, rfl⟩
abbrev main_cst_144 : Ref sig .tc := ⟨.hbm, 731, rfl⟩
abbrev main_v454 : Ref sig .tc := ⟨.hbm, 732, rfl⟩
abbrev main_v455 : Ref sig .tc := ⟨.hbm, 733, rfl⟩
abbrev main_v456 : Ref sig .tc := ⟨.hbm, 734, rfl⟩
abbrev main_v457 : Ref sig .tc := ⟨.hbm, 735, rfl⟩
abbrev main_cst_145 : Ref sig .tc := ⟨.hbm, 736, rfl⟩
abbrev main_v458 : Ref sig .tc := ⟨.hbm, 737, rfl⟩
abbrev main_v459 : Ref sig .tc := ⟨.hbm, 738, rfl⟩
abbrev main_cst_146 : Ref sig .tc := ⟨.hbm, 739, rfl⟩
abbrev main_v460 : Ref sig .tc := ⟨.hbm, 740, rfl⟩
abbrev main_v461 : Ref sig .tc := ⟨.hbm, 741, rfl⟩
abbrev main_cst_147 : Ref sig .tc := ⟨.hbm, 742, rfl⟩
abbrev main_v462 : Ref sig .tc := ⟨.hbm, 743, rfl⟩
abbrev main_v463 : Ref sig .tc := ⟨.hbm, 744, rfl⟩
abbrev main_v464 : Ref sig .tc := ⟨.hbm, 745, rfl⟩
abbrev main_v465 : Ref sig .tc := ⟨.hbm, 746, rfl⟩
abbrev main_cst_148 : Ref sig .tc := ⟨.hbm, 747, rfl⟩
abbrev main_v466 : Ref sig .tc := ⟨.hbm, 748, rfl⟩
abbrev main_cst_149 : Ref sig .tc := ⟨.hbm, 749, rfl⟩
abbrev main_v467 : Ref sig .tc := ⟨.hbm, 750, rfl⟩
abbrev main_v468 : Ref sig .tc := ⟨.hbm, 751, rfl⟩
abbrev main_cst_150 : Ref sig .tc := ⟨.hbm, 752, rfl⟩
abbrev main_v469 : Ref sig .tc := ⟨.hbm, 753, rfl⟩
abbrev main_cst_151 : Ref sig .tc := ⟨.hbm, 754, rfl⟩
abbrev main_call19_v0 : Ref sig .tc := ⟨.hbm, 755, rfl⟩
abbrev main_v470 : Ref sig .tc := ⟨.hbm, 756, rfl⟩
abbrev main_cst_152 : Ref sig .tc := ⟨.hbm, 757, rfl⟩
abbrev main_v471 : Ref sig .tc := ⟨.hbm, 758, rfl⟩
abbrev main_cst_153 : Ref sig .tc := ⟨.hbm, 759, rfl⟩
abbrev main_v472 : Ref sig .tc := ⟨.hbm, 760, rfl⟩
abbrev main_v473 : Ref sig .tc := ⟨.hbm, 761, rfl⟩
abbrev main_v474 : Ref sig .tc := ⟨.hbm, 762, rfl⟩
abbrev main_cst_154 : Ref sig .tc := ⟨.hbm, 763, rfl⟩
abbrev main_v475 : Ref sig .tc := ⟨.hbm, 764, rfl⟩
abbrev main_cst_155 : Ref sig .tc := ⟨.hbm, 765, rfl⟩
abbrev main_v476 : Ref sig .tc := ⟨.hbm, 766, rfl⟩
abbrev main_v477 : Ref sig .tc := ⟨.hbm, 767, rfl⟩
abbrev main_cst_156 : Ref sig .tc := ⟨.hbm, 768, rfl⟩
abbrev main_v478 : Ref sig .tc := ⟨.hbm, 769, rfl⟩
abbrev main_cst_157 : Ref sig .tc := ⟨.hbm, 770, rfl⟩
abbrev main_call20_v0 : Ref sig .tc := ⟨.hbm, 771, rfl⟩
abbrev main_v479 : Ref sig .tc := ⟨.hbm, 772, rfl⟩
abbrev main_cst_158 : Ref sig .tc := ⟨.hbm, 773, rfl⟩
abbrev main_v480 : Ref sig .tc := ⟨.hbm, 774, rfl⟩
abbrev main_v481 : Ref sig .tc := ⟨.hbm, 775, rfl⟩
abbrev main_cst_159 : Ref sig .tc := ⟨.hbm, 776, rfl⟩
abbrev main_v482 : Ref sig .tc := ⟨.hbm, 777, rfl⟩
abbrev main_cst_160 : Ref sig .tc := ⟨.hbm, 778, rfl⟩
abbrev main_v483 : Ref sig .tc := ⟨.hbm, 779, rfl⟩
abbrev main_v484 : Ref sig .tc := ⟨.hbm, 780, rfl⟩
abbrev main_v485 : Ref sig .tc := ⟨.hbm, 781, rfl⟩

abbrev nD : Nat := 1
abbrev τ : Topo := Topo.v7x

variable {F : FTy → Type} [FloatOps F]

class Facts₀ : Prop where
  slices_S4096x6_S4096x1_0_0 : S4096x6.Slices ![0, 0] S4096x1
  shapeCasts_S4096x1_S4096 : S4096x1.ShapeCasts S4096
  slices_S4096x6_S4096x1_0_2 : S4096x6.Slices ![0, 2] S4096x1
  slices_S4096x6_S4096x1_0_3 : S4096x6.Slices ![0, 3] S4096x1
  slices_S4096x6_S4096x1_0_4 : S4096x6.Slices ![0, 4] S4096x1
  slices_S4096x6_S4096x1_0_5 : S4096x6.Slices ![0, 5] S4096x1
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x1_S4096x1_S4096x1_S4096x5_d1 : Shape.Concatenates [S4096x1, S4096x1, S4096x1, S4096x1, S4096x1] S4096x5 1
  bcast_S_S128x160x160x5 : S_.BroadcastsInDim S128x160x160x5 (![] : Fin 0 → Fin S128x160x160x5.rank)
  concatenates_S4096x1_S4096x1_S4096x1_S4096x3_d1 : Shape.Concatenates [S4096x1, S4096x1, S4096x1] S4096x3 1
  bcast_S_S128x160x160 : S_.BroadcastsInDim S128x160x160 (![] : Fin 0 → Fin S128x160x160.rank)
  transposes_S128x5x160x160_S128x160x160x5_0_2_3_1 : S128x5x160x160.Transposes [0, 2, 3, 1] S128x160x160x5
  reducesTo_S128x160x160_S_d0_1_2 : S128x160x160.ReducesTo [0, 1, 2] S_
  h_S_ : 0 < S_.numel
  slices_S128x160x160x5_S128x160x160x2_0_0_0_0 : S128x160x160x5.Slices ![0, 0, 0, 0] S128x160x160x2
  bcast_S_S128x160x160x2 : S_.BroadcastsInDim S128x160x160x2 (![] : Fin 0 → Fin S128x160x160x2.rank)
  slices_S128x160x160x5_S128x160x160x2_0_0_0_2 : S128x160x160x5.Slices ![0, 0, 0, 2] S128x160x160x2
  bcast_S128x160x160_S128x160x160x1_0_1_2 : S128x160x160.BroadcastsInDim S128x160x160x1 (![0, 1, 2] : Fin 3 → Fin S128x160x160x1.rank)
  bcast_S128x160x160x1_S128x160x160x2_0_1_2_3 : S128x160x160x1.BroadcastsInDim S128x160x160x2 (![0, 1, 2, 3] : Fin 4 → Fin S128x160x160x2.rank)
  reducesTo_S128x160x160x2_S_d0_1_2_3 : S128x160x160x2.ReducesTo [0, 1, 2, 3] S_
  slices_S128x160x160x5_S128x160x160x1_0_0_0_4 : S128x160x160x5.Slices ![0, 0, 0, 4] S128x160x160x1
  shapeCasts_S128x160x160x1_S128x160x160 : S128x160x160x1.ShapeCasts S128x160x160
  bcast_S_S128x80x80x5 : S_.BroadcastsInDim S128x80x80x5 (![] : Fin 0 → Fin S128x80x80x5.rank)
  bcast_S_S128x80x80 : S_.BroadcastsInDim S128x80x80 (![] : Fin 0 → Fin S128x80x80.rank)
  transposes_S128x5x80x80_S128x80x80x5_0_2_3_1 : S128x5x80x80.Transposes [0, 2, 3, 1] S128x80x80x5
  reducesTo_S128x80x80_S_d0_1_2 : S128x80x80.ReducesTo [0, 1, 2] S_
  slices_S128x80x80x5_S128x80x80x2_0_0_0_0 : S128x80x80x5.Slices ![0, 0, 0, 0] S128x80x80x2
  bcast_S_S128x80x80x2 : S_.BroadcastsInDim S128x80x80x2 (![] : Fin 0 → Fin S128x80x80x2.rank)
  slices_S128x80x80x5_S128x80x80x2_0_0_0_2 : S128x80x80x5.Slices ![0, 0, 0, 2] S128x80x80x2
  bcast_S128x80x80_S128x80x80x1_0_1_2 : S128x80x80.BroadcastsInDim S128x80x80x1 (![0, 1, 2] : Fin 3 → Fin S128x80x80x1.rank)
  bcast_S128x80x80x1_S128x80x80x2_0_1_2_3 : S128x80x80x1.BroadcastsInDim S128x80x80x2 (![0, 1, 2, 3] : Fin 4 → Fin S128x80x80x2.rank)
  reducesTo_S128x80x80x2_S_d0_1_2_3 : S128x80x80x2.ReducesTo [0, 1, 2, 3] S_
  slices_S128x80x80x5_S128x80x80x1_0_0_0_4 : S128x80x80x5.Slices ![0, 0, 0, 4] S128x80x80x1
  shapeCasts_S128x80x80x1_S128x80x80 : S128x80x80x1.ShapeCasts S128x80x80
  bcast_S_S128x40x40x5 : S_.BroadcastsInDim S128x40x40x5 (![] : Fin 0 → Fin S128x40x40x5.rank)
  bcast_S_S128x40x40 : S_.BroadcastsInDim S128x40x40 (![] : Fin 0 → Fin S128x40x40.rank)
  transposes_S128x5x40x40_S128x40x40x5_0_2_3_1 : S128x5x40x40.Transposes [0, 2, 3, 1] S128x40x40x5
  reducesTo_S128x40x40_S_d0_1_2 : S128x40x40.ReducesTo [0, 1, 2] S_
  slices_S128x40x40x5_S128x40x40x2_0_0_0_0 : S128x40x40x5.Slices ![0, 0, 0, 0] S128x40x40x2
  bcast_S_S128x40x40x2 : S_.BroadcastsInDim S128x40x40x2 (![] : Fin 0 → Fin S128x40x40x2.rank)
  slices_S128x40x40x5_S128x40x40x2_0_0_0_2 : S128x40x40x5.Slices ![0, 0, 0, 2] S128x40x40x2
  bcast_S128x40x40_S128x40x40x1_0_1_2 : S128x40x40.BroadcastsInDim S128x40x40x1 (![0, 1, 2] : Fin 3 → Fin S128x40x40x1.rank)
  bcast_S128x40x40x1_S128x40x40x2_0_1_2_3 : S128x40x40x1.BroadcastsInDim S128x40x40x2 (![0, 1, 2, 3] : Fin 4 → Fin S128x40x40x2.rank)
  reducesTo_S128x40x40x2_S_d0_1_2_3 : S128x40x40x2.ReducesTo [0, 1, 2, 3] S_
  slices_S128x40x40x5_S128x40x40x1_0_0_0_4 : S128x40x40x5.Slices ![0, 0, 0, 4] S128x40x40x1
  shapeCasts_S128x40x40x1_S128x40x40 : S128x40x40x1.ShapeCasts S128x40x40
  scatter_S128x160x160x5_S4096x3_S4096x5_1_012_012_1_wf : ScatterDims.WF S128x160x160x5 S4096x3 S4096x5 [1] [0, 1, 2] [0, 1, 2] 1
  scatter_S128x160x160_S4096x3_S4096_n_012_012_1_wf : ScatterDims.WF S128x160x160 S4096x3 S4096 [] [0, 1, 2] [0, 1, 2] 1
  scatter_S128x80x80x5_S4096x3_S4096x5_1_012_012_1_wf : ScatterDims.WF S128x80x80x5 S4096x3 S4096x5 [1] [0, 1, 2] [0, 1, 2] 1
  scatter_S128x80x80_S4096x3_S4096_n_012_012_1_wf : ScatterDims.WF S128x80x80 S4096x3 S4096 [] [0, 1, 2] [0, 1, 2] 1
  scatter_S128x40x40x5_S4096x3_S4096x5_1_012_012_1_wf : ScatterDims.WF S128x40x40x5 S4096x3 S4096x5 [1] [0, 1, 2] [0, 1, 2] 1
  scatter_S128x40x40_S4096x3_S4096_n_012_012_1_wf : ScatterDims.WF S128x40x40 S4096x3 S4096 [] [0, 1, 2] [0, 1, 2] 1

variable [Facts₀]

def scatter_S128x160x160x5_S4096x3_S4096x5_1_012_012_1 : ScatterDims S128x160x160x5 S4096x3 S4096x5 where
  updateWindowDims := [1]
  insertedWindowDims := [0, 1, 2]
  scatterDimsToOperandDims := [0, 1, 2]
  indexVectorDim := 1
  wf := scatter_S128x160x160x5_S4096x3_S4096x5_1_012_012_1_wf
def scatter_S128x160x160_S4096x3_S4096_n_012_012_1 : ScatterDims S128x160x160 S4096x3 S4096 where
  updateWindowDims := []
  insertedWindowDims := [0, 1, 2]
  scatterDimsToOperandDims := [0, 1, 2]
  indexVectorDim := 1
  wf := scatter_S128x160x160_S4096x3_S4096_n_012_012_1_wf
def scatter_S128x80x80x5_S4096x3_S4096x5_1_012_012_1 : ScatterDims S128x80x80x5 S4096x3 S4096x5 where
  updateWindowDims := [1]
  insertedWindowDims := [0, 1, 2]
  scatterDimsToOperandDims := [0, 1, 2]
  indexVectorDim := 1
  wf := scatter_S128x80x80x5_S4096x3_S4096x5_1_012_012_1_wf
def scatter_S128x80x80_S4096x3_S4096_n_012_012_1 : ScatterDims S128x80x80 S4096x3 S4096 where
  updateWindowDims := []
  insertedWindowDims := [0, 1, 2]
  scatterDimsToOperandDims := [0, 1, 2]
  indexVectorDim := 1
  wf := scatter_S128x80x80_S4096x3_S4096_n_012_012_1_wf
def scatter_S128x40x40x5_S4096x3_S4096x5_1_012_012_1 : ScatterDims S128x40x40x5 S4096x3 S4096x5 where
  updateWindowDims := [1]
  insertedWindowDims := [0, 1, 2]
  scatterDimsToOperandDims := [0, 1, 2]
  indexVectorDim := 1
  wf := scatter_S128x40x40x5_S4096x3_S4096x5_1_012_012_1_wf
def scatter_S128x40x40_S4096x3_S4096_n_012_012_1 : ScatterDims S128x40x40 S4096x3 S4096 where
  updateWindowDims := []
  insertedWindowDims := [0, 1, 2]
  scatterDimsToOperandDims := [0, 1, 2]
  indexVectorDim := 1
  wf := scatter_S128x40x40_S4096x3_S4096_n_012_012_1_wf

class Facts : Prop extends Facts₀ where

variable [Facts]
-- ==== Proof.BRunCond.lean ====
import proofs.«409303_j18760417149025_3_alg».proof.Proof.KernelRegions
import Idealize.ShloMosaic.Lib.Pipeline.Frame
import Idealize.ShloMosaic.Lib.Pipeline.Regions

set_option maxRecDepth 2684

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : GenP.Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) GenP.adm pdats ι defs₀ 𝒱₀ L lv 0)
    (hpre0 : ∀ c : Dev nD, iprop(StableHlo.held (c : Thread nD τ) (Pipeline.ucRefs τ sig) (GenP.V7 m c) ∗ E 0 c) ⊢ R0.pre c)
    (hpost0 : ∀ c : Dev nD, R0.post c ⊢ iprop(StableHlo.held (c : Thread nD τ) (Pipeline.ucRefs τ sig) (GenP.V8 m outs c) ∗ E 1 c))
    (R1 : RegionSeg (pcfgs (F := F)) GenP.adm pdats ι defs₀ 𝒱₀ L lv 1)
    (hpre1 : ∀ c : Dev nD, iprop(StableHlo.held (c : Thread nD τ) (Pipeline.ucRefs τ sig) (GenP.V21 m outs c) ∗ E 1 c) ⊢ R1.pre c)
    (hpost1 : ∀ c : Dev nD, R1.post c ⊢ iprop(StableHlo.held (c : Thread nD τ) (Pipeline.ucRefs τ sig) (GenP.V22 m outs c) ∗ E 2 c))
    (R2 : RegionSeg (pcfgs (F := F)) GenP.adm pdats ι defs₀ 𝒱₀ L lv 2)
    (hpre2 : ∀ c : Dev nD, iprop(StableHlo.held (c : Thread nD τ) (Pipeline.ucRefs τ sig) (GenP.V35 m outs c) ∗ E 2 c) ⊢ R2.pre c)
    (hpost2 : ∀ c : Dev nD, R2.post c ⊢ iprop(StableHlo.held (c : Thread nD τ) (Pipeline.ucRefs τ sig) (GenP.V36 m outs c) ∗ E 3 c)) :
    θ_run defs (onTc (τ := τ) (main (F := F))) ⟨m, fun _ => 0, ρ⟩ (fun r => ∀ c : Dev nD,
      r.2.mem ((c.tc : Thread nD τ).loc main_v357) = GenP.V43 m outs c main_v357
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) GenP.adm pdats ι cellOf_inj EP defs₀ 𝒱₀ L lv m ρ main
    (GenP.segs m outs 𝒱₀ L lv E ι pdats R0 R1 R2)
    (fun c Q => by
      rewrite [main_chain c, Seg.run_eq_chain,
        show (GenP.segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      with_reducible exact .rfl)
    (fun c => by simp only [GenP.segs, Seg.pipes_host, Seg.pipes_region, Seg.pipes_nil]; decide) O₀ hL G u₀ hu₀
    (T₀ := fun c => iprop(StableHlo.held (c : Thread nD τ) (Pipeline.ucRefs τ sig) (GenP.V0 m c) ∗ E 0 c))
    (Tₙ := fun c => StableHlo.held (c : Thread nD τ) (Pipeline.ucRefs τ sig) (GenP.V43 m outs c))
    (hch := fun c => ⟨.rfl, .rfl, .rfl, .rfl, .rfl, .rfl, .rfl, hpre0 c, hpost0 c, .rfl, .rfl, .rfl, .rfl, .rfl, .rfl, .rfl, .rfl, .rfl, .rfl, .rfl, .rfl, hpre1 c, hpost1 c, .rfl, .rfl, .rfl, .rfl, .rfl, .rfl, .rfl, .rfl, .rfl, .rfl, .rfl, .rfl, hpre2 c, hpost2 c, .rfl, .rfl, .rfl, .rfl, .rfl, .rfl, sep_mono .rfl (hE3 c)⟩)
    (hinit := ?_) (QY := fun c s => s.mem ((c.tc : Thread nD τ).loc main_v357) = GenP.V43 m outs c main_v357 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (GenP.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (GenP.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (GenP.V43 m outs c) s') $$ [Hh HSI]
    · isplitl [Hh] <;> iassumption
    icases Hr with ⟨%h, HSI⟩
    imodintro
    isplitr
    · ipureintro
      exact ⟨h (Proc.devRef .tc main_v357) (Finset.mem_filter.mpr ⟨StableHlo.devRef_mem_tcRefs main_v357, by decide⟩),
        (h (Proc.devRef .tc main_arg0) (Finset.mem_filter.mpr ⟨StableHlo.devRef_mem_tcRefs main_arg0, by decide⟩)).trans (GenP.V43_main_arg0 m outs c),
        (h (Proc.devRef .tc main_arg1) (Finset.mem_filter.mpr ⟨StableHlo.devRef_mem_tcRefs main_arg1, by decide⟩)).trans (GenP.V43_main_arg1 m outs c),
        (h (Proc.devRef .tc main_arg2) (Finset.mem_filter.mpr ⟨StableHlo.devRef_mem_tcRefs main_arg2, by decide⟩)).trans (GenP.V43_main_arg2 m outs c),
        (h (Proc.devRef .tc main_arg3) (Finset.mem_filter.mpr ⟨StableHlo.devRef_mem_tcRefs main_arg3, by decide⟩)).trans (GenP.V43_main_arg3 m outs c)⟩
    · iexact HSI

end Cert.Kernel.Hand

end
-- ==== Proof.BLaunchOf.lean ====
import proofs.«409303_j18760417149025_3_alg».proof.Proof.BRunCond
import Idealize.ShloMosaic.Lib.Pipeline.Frame
import Idealize.ShloMosaic.Lib.Pipeline.Regions
import Idealize.ShloMosaic.Lib.Pipeline.RegionsLoop
import Idealize.ShloMosaic.Lib.Pipeline.Kit
import Mathlib.Logic.Function.Basic

set_option maxRecDepth 2684

noncomputable section

namespace Cert.Kernel.Hand.LaunchOf

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

structure RegData (cfg : Pipeline.Cfg sig Λ₀) where
  dat : (V : (c : Dev nD) → (b : Ref sig .tc) → Buf (Elt F) ((c : Thread nD τ).loc b)) → (c : Dev nD) →
    Dat τ (Elt F) Unit ℕ (UR sig nD τ) ℕ cfg c
  A_eq : ∀ V c (w : Fin cfg.W), (dat V c).A w = V c (Pipeline.arrRef cfg.spec w)
  q_eq : ∀ V c (w : Fin cfg.W), (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)

theorem owesAt_intro {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; exact fun x _ => Or.inl (by rw [hr]; exact Set.mem_univ x)
  iexact HO

theorem owesAt_elim {cfg : Pipeline.Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

section Congr
variable (m : (ℓ : Loc nD τ sig) → Buf (Elt F) ℓ)

theorem V21_congr {o o' : GenP.Outs (F := F)} (c : Dev nD) (h : o 8 main_v82 c = o' 8 main_v82 c) :
    GenP.V21 m o c = GenP.V21 m o' c := by
  have e8 : GenP.V8 m o c = GenP.V8 m o' c := by simp only [GenP.V8, h]
  have e9 : GenP.V9 m o c = GenP.V9 m o' c := congrArg (StableHlo.after (hostOps1 (F := F))) e8
  have e10 : GenP.V10 m o c = GenP.V10 m o' c := congrArg (StableHlo.after (hostOps1_1 (F := F))) e9
  have e11 : GenP.V11 m o c = GenP.V11 m o' c := congrArg (StableHlo.after (hostOps1_2 (F := F))) e10
  have e12 : GenP.V12 m o c = GenP.V12 m o' c := congrArg (StableHlo.after (hostOps1_3 (F := F))) e11
  have e13 : GenP.V13 m o c = GenP.V13 m o' c := congrArg (StableHlo.after (hostOps1_4 (F := F))) e12
  have e14 : GenP.V14 m o c = GenP.V14 m o' c := congrArg (StableHlo.after (hostOps1_5 (F := F))) e13
  have e15 : GenP.V15 m o c = GenP.V15 m o' c := congrArg (StableHlo.after (hostOps1_6 (F := F))) e14
  have e16 : GenP.V16 m o c = GenP.V16 m o' c := congrArg (StableHlo.after (hostOps1_7 (F := F))) e15
  have e17 : GenP.V17 m o c = GenP.V17 m o' c := congrArg (StableHlo.after (hostOps1_8 (F := F))) e16
  have e18 : GenP.V18 m o c = GenP.V18 m o' c := congrArg (StableHlo.after (hostOps1_9 (F := F))) e17
  have e19 : GenP.V19 m o c = GenP.V19 m o' c := congrArg (StableHlo.after (hostOps1_10 (F := F))) e18
  have e20 : GenP.V20 m o c = GenP.V20 m o' c := congrArg (StableHlo.after (hostOps1_11 (F := F))) e19
  have e21 : GenP.V21 m o c = GenP.V21 m o' c := congrArg (StableHlo.after (hostOps1_12 (F := F))) e20
  exact e21

theorem V35_congr {o o' : GenP.Outs (F := F)} (c : Dev nD) (h : o 8 main_v82 c = o' 8 main_v82 c)
    (h' : o 22 main_v202 c = o' 22 main_v202 c) : GenP.V35 m o c = GenP.V35 m o' c := by
  have e21 := V21_congr m c h
  have e22 : GenP.V22 m o c = GenP.V22 m o' c := by simp only [GenP.V22, e21, h']
  have e23 : GenP.V23 m o c = GenP.V23 m o' c := congrArg (StableHlo.after (hostOps2 (F := F))) e22
  have e24 : GenP.V24 m o c = GenP.V24 m o' c := congrArg (StableHlo.after (hostOps2_1 (F := F))) e23
  have e25 : GenP.V25 m o c = GenP.V25 m o' c := congrArg (StableHlo.after (hostOps2_2 (F := F))) e24
  have e26 : GenP.V26 m o c = GenP.V26 m o' c := congrArg (StableHlo.after (hostOps2_3 (F := F))) e25
  have e27 : GenP.V27 m o c = GenP.V27 m o' c := congrArg (StableHlo.after (hostOps2_4 (F := F))) e26
  have e28 : GenP.V28 m o c = GenP.V28 m o' c := congrArg (StableHlo.after (hostOps2_5 (F := F))) e27
  have e29 : GenP.V29 m o c = GenP.V29 m o' c := congrArg (StableHlo.after (hostOps2_6 (F := F))) e28
  have e30 : GenP.V30 m o c = GenP.V30 m o' c := congrArg (StableHlo.after (hostOps2_7 (F := F))) e29
  have e31 : GenP.V31 m o c = GenP.V31 m o' c := congrArg (StableHlo.after (hostOps2_8 (F := F))) e30
  have e32 : GenP.V32 m o c = GenP.V32 m o' c := congrArg (StableHlo.after (hostOps2_9 (F := F))) e31
  have e33 : GenP.V33 m o c = GenP.V33 m o' c := congrArg (StableHlo.after (hostOps2_10 (F := F))) e32
  have e34 : GenP.V34 m o c = GenP.V34 m o' c := congrArg (StableHlo.after (hostOps2_11 (F := F))) e33
  have e35 : GenP.V35 m o c = GenP.V35 m o' c := congrArg (StableHlo.after (hostOps2_12 (F := F))) e34
  exact e35

end Congr

variable (D0 : RegData (F := F) cfg0) (D1 : RegData (F := F) cfg1) (D2 : RegData (F := F) cfg2)
variable (m : (ℓ : Loc nD τ sig) → Buf (Elt F) ℓ)

abbrev EV0 : (c : Dev nD) → (b : Ref sig .tc) → Buf (Elt F) ((c : Thread nD τ).loc b) := fun c b => GenP.V7 m c b

def out0 (c : Dev nD) : Buf (Elt F) ((c : Thread nD τ).loc main_v82) := (D0.dat (EV0 m) c).arrAt 2 cfg0.N

def outsA : GenP.Outs (F := F) := fun _ r c =>
  if h : r = main_v82 then h ▸ out0 D0 m c else GenP.V7 m c r

abbrev EV1 : (c : Dev nD) → (b : Ref sig .tc) → Buf (Elt F) ((c : Thread nD τ).loc b) := fun c b => GenP.V21 m (outsA D0 m) c b

def out1 (c : Dev nD) : Buf (Elt F) ((c : Thread nD τ).loc main_v202) := (D1.dat (EV1 D0 m) c).arrAt 2 cfg1.N

def outsB : GenP.Outs (F := F) := fun n r c =>
  if h : r = main_v202 then h ▸ out1 D0 D1 m c else outsA D0 m n r c

abbrev EV2 : (c : Dev nD) → (b : Ref sig .tc) → Buf (Elt F) ((c : Thread nD τ).loc b) := fun c b => GenP.V35 m (outsB D0 D1 m) c b

def out2 (c : Dev nD) : Buf (Elt F) ((c : Thread nD τ).loc main_v320) := (D2.dat (EV2 D0 D1 m) c).arrAt 2 cfg2.N

def outsH : GenP.Outs (F := F) := fun n r c =>
  if h : r = main_v320 then h ▸ out2 D0 D1 D2 m c else outsB D0 D1 m n r c

theorem outsA_82 (n : ℕ) (c : Dev nD) : outsA D0 m n main_v82 c = out0 D0 m c := by
  unfold outsA; rw [dif_pos rfl]
theorem outsB_82 (n : ℕ) (c : Dev nD) : outsB D0 D1 m n main_v82 c = out0 D0 m c := by
  unfold outsB; rw [dif_neg (show ¬ (main_v82 : Ref sig .tc) = main_v202 by decide)]; exact outsA_82 D0 m n c
theorem outsB_202 (n : ℕ) (c : Dev nD) : outsB D0 D1 m n main_v202 c = out1 D0 D1 m c := by
  unfold outsB; rw [dif_pos rfl]
theorem outsH_82 (n : ℕ) (c : Dev nD) : outsH D0 D1 D2 m n main_v82 c = out0 D0 m c := by
  unfold outsH; rw [dif_neg (show ¬ (main_v82 : Ref sig .tc) = main_v320 by decide)]; exact outsB_82 D0 D1 m n c
theorem outsH_202 (n : ℕ) (c : Dev nD) : outsH D0 D1 D2 m n main_v202 c = out1 D0 D1 m c := by
  unfold outsH; rw [dif_neg (show ¬ (main_v202 : Ref sig .tc) = main_v320 by decide)]; exact outsB_202 D0 D1 m n c
theorem outsH_320 (n : ℕ) (c : Dev nD) : outsH D0 D1 D2 m n main_v320 c = out2 D0 D1 D2 m c := by
  unfold outsH; rw [dif_pos rfl]

theorem V21H (c : Dev nD) : GenP.V21 m (outsH D0 D1 D2 m) c = GenP.V21 m (outsA D0 m) c :=
  V21_congr m c ((outsH_82 D0 D1 D2 m 8 c).trans (outsA_82 D0 m 8 c).symm)
theorem V35H (c : Dev nD) : GenP.V35 m (outsH D0 D1 D2 m) c = GenP.V35 m (outsB D0 D1 m) c :=
  V35_congr m c ((outsH_82 D0 D1 D2 m 8 c).trans (outsB_82 D0 D1 m 8 c).symm)
    ((outsH_202 D0 D1 D2 m 22 c).trans (outsB_202 D0 D1 m 22 c).symm)
theorem EV1_eq (c : Dev nD) (b : Ref sig .tc) : GenP.V21 m (outsH D0 D1 D2 m) c b = EV1 D0 m c b :=
  congrFun (V21H D0 D1 D2 m c) _
theorem EV2_eq (c : Dev nD) (b : Ref sig .tc) : GenP.V35 m (outsH D0 D1 D2 m) c b = EV2 D0 D1 m c b :=
  congrFun (V35H D0 D1 D2 m c) _

theorem outsH_8_eq (c : Dev nD) :
    outsH D0 D1 D2 m 8 main_v82 c = (D0.dat (fun c b => GenP.V7 m c b) c).arrAt 2 cfg0.N :=
  outsH_82 D0 D1 D2 m 8 c
theorem outsH_22_eq (c : Dev nD) :
    outsH D0 D1 D2 m 22 main_v202 c = (D1.dat (fun c b => GenP.V21 m (outsH D0 D1 D2 m) c b) c).arrAt 2 cfg1.N :=
  (outsH_202 D0 D1 D2 m 22 c).trans
    (congrArg (fun V => (D1.dat V c).arrAt 2 cfg1.N) (funext fun c => funext fun b => (EV1_eq D0 D1 D2 m c b).symm))
theorem outsH_36_eq (c : Dev nD) :
    outsH D0 D1 D2 m 36 main_v320 c = (D2.dat (fun c b => GenP.V35 m (outsH D0 D1 D2 m) c b) c).arrAt 2 cfg2.N :=
  (outsH_320 D0 D1 D2 m 36 c).trans
    (congrArg (fun V => (D2.dat V c).arrAt 2 cfg2.N) (funext fun c => funext fun b => (EV2_eq D0 D1 D2 m c b).symm))

def pdats : (p : Fin 3) → (c : Dev nD) → Dat τ (Elt F) Unit ℕ (UR sig nD τ) ℕ (cfgs p) c
  | ⟨0, _⟩ => fun c => D0.dat (EV0 m) c
  | ⟨1, _⟩ => fun c => D1.dat (EV1 D0 m) c
  | ⟨2, _⟩ => fun c => D2.dat (EV2 D0 D1 m) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

theorem Vout0_out (c : Dev nD) : GenP.V8 m (outsH D0 D1 D2 m) c main_v82 = out0 D0 m c := by
  simp only [GenP.V8, Function.update_self]
  exact outsH_82 D0 D1 D2 m 8 c

theorem hF0 (c : Dev nD) (w : Fin cfg0.W) :
    (pdats D0 D1 D2 m 0 c).arrAt w cfg0.N = (fun b : Ref sig .tc => GenP.V8 m (outsH D0 D1 D2 m) c b) (Pipeline.arrRef spec0 w) := by
  fin_cases w
  · exact (((pdats D0 D1 D2 m 0 c).arrAt_in 0 rfl _).trans (D0.A_eq (EV0 m) c 0)).trans (GenP.V8_of m (outsH D0 D1 D2 m) c main_v80 (by decide)).symm
  · exact (((pdats D0 D1 D2 m 0 c).arrAt_in 1 rfl _).trans (D0.A_eq (EV0 m) c 1)).trans (GenP.V8_of m (outsH D0 D1 D2 m) c main_v81 (by decide)).symm
  · exact (Vout0_out D0 D1 D2 m c).symm

theorem hrest0 (c : Dev nD) (b : Ref sig .tc) (hb : b ∉ Finset.univ.image (Pipeline.arrRef spec0)) :
    (fun b : Ref sig .tc => GenP.V8 m (outsH D0 D1 D2 m) c b) b = EV0 m c b := by
  have hb' : b ∉ ([main_v82] : List (Ref sig .tc)) := fun h => hb (by
    rw [List.mem_singleton.mp h]; exact Finset.mem_image.mpr ⟨2, Finset.mem_univ _, rfl⟩)
  exact GenP.V8_of m (outsH D0 D1 D2 m) c b hb'

set_option backward.isDefEq.respectTransparency.types false in
def reg0 : RegionSeg (pcfgs (F := F)) GenP.adm (pdats D0 D1 D2 m) () defs₀ 𝒱₀ L lv 0 where
  win := launch0.win.to₀
  block_pos := launch0.block_pos
  stage_whole := launch0.stage_whole
  K := PEmpty
  osem k := k.elim
  ho := Pipeline.OwnSemFacts.none _
  hbody c := (D0.body (EV0 m) c).loose
  hwaits := Pipeline.hwaits_of_owed_zero _ _ _ _ L lv 0 fun c t => D0.owed_eq (EV0 m) c t
  pre c := iprop(StableHlo.held (c : Thread nD τ) (Pipeline.ucRefs τ sig) (GenP.V7 m c) ∗ Rr c)
  post c := iprop(StableHlo.held (c : Thread nD τ) (Pipeline.ucRefs τ sig) (GenP.V8 m (outsH D0 D1 D2 m) c) ∗ Rr c)
  X c := iprop(∃ r, prngReg c r)
  Y c := iprop(∃ r, prngReg c r)
  Z c := Pipeline.unscopedRest (Ix := Unit) (Name := ℕ) (U := UR sig nD τ) (Lvl := ℕ) spec0 c (EV0 m c)
  hentry c := by
    rw [Pipeline.ownSems0_none]
    have hsplit := Pipeline.arrays_of_unscopedBufs (p := 0) (pcfgs (F := F)) GenP.adm (pdats D0 D1 D2 m) launch0.win launch0.arr_whole c
      ((pdats D0 D1 D2 m 0 c).share_full fun w => D0.q_eq (EV0 m) c w) (EV0 m c) fun w => D0.A_eq (EV0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats D0 D1 D2 m 0 c) 0 (D0.owed_eq (EV0 m) c 0) (D0.rec_eq (EV0 m) c 0)); iexact HO
    isplitl [Hp]; · iexact Hp
    iexact Hrest
  hin c := by
    refine (show _ ⊢ (Pipeline.ΦA spec0 c : sProp 𝕄) from ?_).trans (D0.hin (EV0 m) c)
    unfold Pipeline.ΦA
    iintro ⟨Hp, -, Hr⟩
    isplitl [Hr]; · iexact Hr
    iexact Hp
  hout c := by
    rw [Pipeline.ownSems0_none]
    refine (D0.hout (EV0 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats D0 D1 D2 m) ((pdats D0 D1 D2 m 0 c).share_full fun w => D0.q_eq (EV0 m) c w)
      (EV0 m c) (fun b : Ref sig .tc => GenP.V8 m (outsH D0 D1 D2 m) c b) ((pdats D0 D1 D2 m 0 c).arrAt · cfg0.N) (hF0 D0 D1 D2 m c) (hrest0 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats D0 D1 D2 m 0 c) (Fin.last _) (D0.owed_eq (EV0 m) c _)); iexact HO

theorem Vout1_out (c : Dev nD) : GenP.V22 m (outsH D0 D1 D2 m) c main_v202 = out1 D0 D1 m c := by
  simp only [GenP.V22, Function.update_self]
  exact outsH_202 D0 D1 D2 m 22 c

theorem hF1 (c : Dev nD) (w : Fin cfg1.W) :
    (pdats D0 D1 D2 m 1 c).arrAt w cfg1.N = (fun b : Ref sig .tc => GenP.V22 m (outsH D0 D1 D2 m) c b) (Pipeline.arrRef spec1 w) := by
  fin_cases w
  · exact (((pdats D0 D1 D2 m 1 c).arrAt_in 0 rfl _).trans (D1.A_eq (EV1 D0 m) c 0)).trans ((EV1_eq D0 D1 D2 m c main_v200).symm.trans (GenP.V22_of m (outsH D0 D1 D2 m) c main_v200 (by decide)).symm)
  · exact (((pdats D0 D1 D2 m 1 c).arrAt_in 1 rfl _).trans (D1.A_eq (EV1 D0 m) c 1)).trans ((EV1_eq D0 D1 D2 m c main_v201).symm.trans (GenP.V22_of m (outsH D0 D1 D2 m) c main_v201 (by decide)).symm)
  · exact (Vout1_out D0 D1 D2 m c).symm

theorem hrest1 (c : Dev nD) (b : Ref sig .tc) (hb : b ∉ Finset.univ.image (Pipeline.arrRef spec1)) :
    (fun b : Ref sig .tc => GenP.V22 m (outsH D0 D1 D2 m) c b) b = EV1 D0 m c b := by
  have hb' : b ∉ ([main_v202] : List (Ref sig .tc)) := fun h => hb (by
    rw [List.mem_singleton.mp h]; exact Finset.mem_image.mpr ⟨2, Finset.mem_univ _, rfl⟩)
  exact (GenP.V22_of m (outsH D0 D1 D2 m) c b hb').trans (EV1_eq D0 D1 D2 m c b)

set_option backward.isDefEq.respectTransparency.types false in
def reg1 : RegionSeg (pcfgs (F := F)) GenP.adm (pdats D0 D1 D2 m) () defs₀ 𝒱₀ L lv 1 where
  win := launch1.win.to₀
  block_pos := launch1.block_pos
  stage_whole := launch1.stage_whole
  K := PEmpty
  osem k := k.elim
  ho := Pipeline.OwnSemFacts.none _
  hbody c := (D1.body (EV1 D0 m) c).loose
  hwaits := Pipeline.hwaits_of_owed_zero _ _ _ _ L lv 1 fun c t => D1.owed_eq (EV1 D0 m) c t
  pre c := iprop(StableHlo.held (c : Thread nD τ) (Pipeline.ucRefs τ sig) (GenP.V21 m (outsH D0 D1 D2 m) c) ∗ Rr c)
  post c := iprop(StableHlo.held (c : Thread nD τ) (Pipeline.ucRefs τ sig) (GenP.V22 m (outsH D0 D1 D2 m) c) ∗ Rr c)
  X c := iprop(∃ r, prngReg c r)
  Y c := iprop(∃ r, prngReg c r)
  Z c := Pipeline.unscopedRest (Ix := Unit) (Name := ℕ) (U := UR sig nD τ) (Lvl := ℕ) spec1 c (EV1 D0 m c)
  hentry c := by
    rw [Pipeline.ownSems0_none]
    rw [V21H D0 D1 D2 m c]
    have hsplit := Pipeline.arrays_of_unscopedBufs (p := 1) (pcfgs (F := F)) GenP.adm (pdats D0 D1 D2 m) launch1.win launch1.arr_whole c
      ((pdats D0 D1 D2 m 1 c).share_full fun w => D1.q_eq (EV1 D0 m) c w) (EV1 D0 m c) fun w => D1.A_eq (EV1 D0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats D0 D1 D2 m 1 c) 0 (D1.owed_eq (EV1 D0 m) c 0) (D1.rec_eq (EV1 D0 m) c 0)); iexact HO
    isplitl [Hp]; · iexact Hp
    iexact Hrest
  hin c := by
    refine (show _ ⊢ (Pipeline.ΦA spec1 c : sProp 𝕄) from ?_).trans (D1.hin (EV1 D0 m) c)
    unfold Pipeline.ΦA
    iintro ⟨Hp, -, Hr⟩
    isplitl [Hr]; · iexact Hr
    iexact Hp
  hout c := by
    rw [Pipeline.ownSems0_none]
    refine (D1.hout (EV1 D0 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats D0 D1 D2 m) ((pdats D0 D1 D2 m 1 c).share_full fun w => D1.q_eq (EV1 D0 m) c w)
      (EV1 D0 m c) (fun b : Ref sig .tc => GenP.V22 m (outsH D0 D1 D2 m) c b) ((pdats D0 D1 D2 m 1 c).arrAt · cfg1.N) (hF1 D0 D1 D2 m c) (hrest1 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats D0 D1 D2 m 1 c) (Fin.last _) (D1.owed_eq (EV1 D0 m) c _)); iexact HO

theorem Vout2_out (c : Dev nD) : GenP.V36 m (outsH D0 D1 D2 m) c main_v320 = out2 D0 D1 D2 m c := by
  simp only [GenP.V36, Function.update_self]
  exact outsH_320 D0 D1 D2 m 36 c

theorem hF2 (c : Dev nD) (w : Fin cfg2.W) :
    (pdats D0 D1 D2 m 2 c).arrAt w cfg2.N = (fun b : Ref sig .tc => GenP.V36 m (outsH D0 D1 D2 m) c b) (Pipeline.arrRef spec2 w) := by
  fin_cases w
  · exact (((pdats D0 D1 D2 m 2 c).arrAt_in 0 rfl _).trans (D2.A_eq (EV2 D0 D1 m) c 0)).trans ((EV2_eq D0 D1 D2 m c main_arg2).symm.trans (GenP.V36_of m (outsH D0 D1 D2 m) c main_arg2 (by decide)).symm)
  · exact (((pdats D0 D1 D2 m 2 c).arrAt_in 1 rfl _).trans (D2.A_eq (EV2 D0 D1 m) c 1)).trans ((EV2_eq D0 D1 D2 m c main_v319).symm.trans (GenP.V36_of m (outsH D0 D1 D2 m) c main_v319 (by decide)).symm)
  · exact (Vout2_out D0 D1 D2 m c).symm

theorem hrest2 (c : Dev nD) (b : Ref sig .tc) (hb : b ∉ Finset.univ.image (Pipeline.arrRef spec2)) :
    (fun b : Ref sig .tc => GenP.V36 m (outsH D0 D1 D2 m) c b) b = EV2 D0 D1 m c b := by
  have hb' : b ∉ ([main_v320] : List (Ref sig .tc)) := fun h => hb (by
    rw [List.mem_singleton.mp h]; exact Finset.mem_image.mpr ⟨2, Finset.mem_univ _, rfl⟩)
  exact (GenP.V36_of m (outsH D0 D1 D2 m) c b hb').trans (EV2_eq D0 D1 D2 m c b)

set_option backward.isDefEq.respectTransparency.types false in
def reg2 : RegionSeg (pcfgs (F := F)) GenP.adm (pdats D0 D1 D2 m) () defs₀ 𝒱₀ L lv 2 where
  win := launch2.win.to₀
  block_pos := launch2.block_pos
  stage_whole := launch2.stage_whole
  K := PEmpty
  osem k := k.elim
  ho := Pipeline.OwnSemFacts.none _
  hbody c := (D2.body (EV2 D0 D1 m) c).loose
  hwaits := Pipeline.hwaits_of_owed_zero _ _ _ _ L lv 2 fun c t => D2.owed_eq (EV2 D0 D1 m) c t
  pre c := iprop(StableHlo.held (c : Thread nD τ) (Pipeline.ucRefs τ sig) (GenP.V35 m (outsH D0 D1 D2 m) c) ∗ Rr c)
  post c := iprop(StableHlo.held (c : Thread nD τ) (Pipeline.ucRefs τ sig) (GenP.V36 m (outsH D0 D1 D2 m) c) ∗ Rr c)
  X c := iprop(∃ r, prngReg c r)
  Y c := iprop(∃ r, prngReg c r)
  Z c := Pipeline.unscopedRest (Ix := Unit) (Name := ℕ) (U := UR sig nD τ) (Lvl := ℕ) spec2 c (EV2 D0 D1 m c)
  hentry c := by
    rw [Pipeline.ownSems0_none]
    rw [V35H D0 D1 D2 m c]
    have hsplit := Pipeline.arrays_of_unscopedBufs (p := 2) (pcfgs (F := F)) GenP.adm (pdats D0 D1 D2 m) launch2.win launch2.arr_whole c
      ((pdats D0 D1 D2 m 2 c).share_full fun w => D2.q_eq (EV2 D0 D1 m) c w) (EV2 D0 D1 m c) fun w => D2.A_eq (EV2 D0 D1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats D0 D1 D2 m 2 c) 0 (D2.owed_eq (EV2 D0 D1 m) c 0) (D2.rec_eq (EV2 D0 D1 m) c 0)); iexact HO
    isplitl [Hp]; · iexact Hp
    iexact Hrest
  hin c := by
    refine (show _ ⊢ (Pipeline.ΦA spec2 c : sProp 𝕄) from ?_).trans (D2.hin (EV2 D0 D1 m) c)
    unfold Pipeline.ΦA
    iintro ⟨Hp, -, Hr⟩
    isplitl [Hr]; · iexact Hr
    iexact Hp
  hout c := by
    rw [Pipeline.ownSems0_none]
    refine (D2.hout (EV2 D0 D1 m) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats D0 D1 D2 m) ((pdats D0 D1 D2 m 2 c).share_full fun w => D2.q_eq (EV2 D0 D1 m) c w)
      (EV2 D0 D1 m c) (fun b : Ref sig .tc => GenP.V36 m (outsH D0 D1 D2 m) c b) ((pdats D0 D1 D2 m 2 c).arrAt · cfg2.N) (hF2 D0 D1 D2 m c) (hrest2 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats D0 D1 D2 m 2 c) (Fin.last _) (D2.owed_eq (EV2 D0 D1 m) c _)); iexact HO

abbrev E : Fin 4 → Dev nD → sProp 𝕄 := fun _ c => Rr c

set_option backward.isDefEq.respectTransparency.types false in
theorem run_main_of (ρ : Dev nD → PrngReg) :
    θ_run (defs (F := F)) (onTc (τ := τ) (main (F := F))) ⟨m, fun _ => 0, ρ⟩ (fun r => ∀ c : Dev nD,
      r.2.mem ((c.tc : Thread nD τ).loc main_v357) = GenP.V43 m (outsH D0 D1 D2 m) c main_v357
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ L lv (fun _ _ => rfl) ρ (outsH D0 D1 D2 m) (pdats D0 D1 D2 m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE3 := fun c => by iintro ⟨-, H⟩; iexact H)
    (R0 := reg0 D0 D1 D2 m) (hpre0 := fun c => .rfl) (hpost0 := fun c => .rfl)
    (R1 := reg1 D0 D1 D2 m) (hpre1 := fun c => .rfl) (hpost1 := fun c => .rfl)
    (R2 := reg2 D0 D1 D2 m) (hpre2 := fun c => .rfl) (hpost2 := fun c => .rfl)

include D0 D1 D2 in
theorem frame_of (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  OrdCont.mono (θ_run (defs (F := F)) (onTc (τ := τ) (main (F := F))) ⟨m, fun _ => 0, ρ⟩) (fun _ h c => (h c).2)
    (run_main_of D0 D1 D2 m ρ)

end Cert.Kernel.Hand.LaunchOf

end
-- ==== Proof.BR0Runs.lean ====
import proofs.«409303_j18760417149025_3_alg».proof.Proof.Gen.Kernel.Launch
import proofs.«409303_j18760417149025_3_alg».proof.Proof.Gen.Kernel.Skeleton
import proofs.«409303_j18760417149025_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

scoped notation "SIN" => S8x5x200x128
scoped notation "NSTEP" => (8 : ℕ)
scoped notation "LSTEP" => (7 : ℕ)
scoped notation "NPTS" => (16 : ℕ)

theorem N_eq : cfg0.N = NPTS := N_0

abbrev cond_r (i : grid0.Coords) : Prop :=
  (Scalar.cmpi .ne (Scalar.extui (Scalar.cmpi .eq (BitVec.ofNat 32 (i 1).val) 0#32)) 0#32) = 1#1
theorem hcond_r : ∀ t : Fin cfg0.N, cond_r (grid0.coords t) ↔ t.val % NSTEP = 0 :=
  (by decide +kernel : ∀ t : Fin grid0.N, cond_r (grid0.coords t) ↔ t.val % NSTEP = 0)

abbrev cond_w (i : grid0.Coords) : Prop := k0_cond2 i = 1#1
theorem hcond_w : ∀ t : Fin cfg0.N, cond_w (grid0.coords t) ↔ t.val % NSTEP = LSTEP :=
  (by decide +kernel : ∀ t : Fin grid0.N, cond_w (grid0.coords t) ↔ t.val % NSTEP = LSTEP)

theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬cond_w (grid0.coords t) → cfg0.idle 2 (grid0.coords t) = true := by decide +kernel
theorem noFlush_2 : ∀ t : Fin cfg0.N, ¬cond_w (grid0.coords t) → (cfg0.win 2).flush t = false := by decide +kernel
theorem live_2 : ∀ t : Fin cfg0.N, cond_w (grid0.coords t) → cfg0.idle 2 (grid0.coords t) = false := by decide +kernel

abbrev VO : View sig .tc .vmem S1x128 .f32 := (Memref.whole cc0_stg2_0 : Memref sig .tc .vmem S1x128 .f32).view
abbrev ms_0 (t : Fin cfg0.N) : Memref sig .tc .vmem SIN .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem SIN .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128 .f32 := win0_2.stage (cfg0.slots t 2)
abbrev hs_2 (t : Fin cfg0.N) : (ms_2 t).IsWhole := hstage0_2 ((cfg0.slots t 2).cast nbuf0_2)
abbrev scM : Memref sig .tc .vmem S1x128 .f32 := Memref.whole cc0_scratch0
abbrev VS : View sig .tc .vmem S1x128 .f32 := scM.view

abbrev restB (c : Dev nD) : sProp 𝕄 :=
  Pipeline.scopedRestBut (Ix := Unit) (Name := ℕ) (U := UR sig nD τ) (Lvl := ℕ) (Val := Elt F) spec0 c [cc0_scratch0]

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ restB c) :=
  Pipeline.scopedRest_split_of_list spec0 c [cc0_scratch0] (by decide) (by decide)

theorem PhiA_eq (c : Dev nD) :
    (Pipeline.ΦA spec0 c : sProp 𝕄)
      = iprop(iprop((∃ d, owns (c : Thread nD τ) scM fullShare d) ∗ restB c) ∗ (∃ r, prngReg c r)) := by
  unfold Pipeline.ΦA; rw [scopedRest_split]; simp only [scM, owns_whole]; try rfl

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand.R0

end
-- ==== Proof.BR0RunA.lean ====
import proofs.«409303_j18760417149025_3_alg».proof.Proof.BR0Runs

set_option maxRecDepth 16384

noncomputable section

namespace Cert.Kernel.Hand.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : cond_r i) (hc1 : ¬cond_w i)
    (x0 : Vec F SIN .f32) (x1 : Vec F SIN .f32) :
    Σ' (LO : List (View.Piece (Elt F) S1x128 .f32)), { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__loss_kernel i arg2 harg2 arg3 harg3 arg4 harg4 arg5 harg5) K } := by
  refine ⟨[], ?_, fun xi E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand.R0

end
-- ==== Proof.BR0RunB.lean ====
import proofs.«409303_j18760417149025_3_alg».proof.Proof.BR0RunA

set_option maxRecDepth 16384

noncomputable section

namespace Cert.Kernel.Hand.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_B (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : ¬cond_w i)
    (x0 : Vec F SIN .f32) (x1 : Vec F SIN .f32) (xs : Vec F S1x128 .f32) :
    Σ' (LO : List (View.Piece (Elt F) S1x128 .f32)), { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__loss_kernel i arg2 harg2 arg3 harg3 arg4 harg4 arg5 harg5) K } := by
  refine ⟨[], ?_, fun xi E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Hand.R0

end
-- ==== Proof.BR0RunC.lean ====
import proofs.«409303_j18760417149025_3_alg».proof.Proof.BR0RunB

set_option maxRecDepth 16384

noncomputable section

namespace Cert.Kernel.Hand.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i)
    (x0 : Vec F SIN .f32) (x1 : Vec F SIN .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand.R0

end
-- ==== Proof.BR0Dat.lean ====
import proofs.«409303_j18760417149025_3_alg».proof.Proof.BR0RunC

set_option maxRecDepth 16384

noncomputable section

namespace Cert.Kernel.Hand.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover_A (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : cond_r i) (hc1 : ¬cond_w i) (x0 : Vec F SIN .f32) (x1 : Vec F SIN .f32) (y : S1x128.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1x128.size (by sl_kernel_rfl) y
def sout_A (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : cond_r i) (hc1 : ¬cond_w i) (x0 : Vec F SIN .f32) (x1 : Vec F SIN .f32) : Vec F S1x128 .f32 :=
  VS.read (Elt F) (VS.writes (Elt F) VS.junk (kernelRun_A c i arg2 harg2 arg3 harg3 arg4 harg4 arg5 harg5 hc0 hc1 x0 x1).2.1)

theorem scover_B (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : ¬cond_w i) (x0 : Vec F SIN .f32) (x1 : Vec F SIN .f32) (xs : Vec F S1x128 .f32) (y : S1x128.Idx) :
    ∃ pc ∈ (kernelRun_B c i arg2 harg2 arg3 harg3 arg4 harg4 arg5 harg5 hc0 hc1 x0 x1 xs).2.1, y ∈ pc.1.set :=
  View.cover_of_tiledL (kernelRun_B c i arg2 harg2 arg3 harg3 arg4 harg4 arg5 harg5 hc0 hc1 x0 x1 xs).2.1 S1x128.size (by sl_kernel_rfl) y
def sout_B (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : ¬cond_w i) (x0 : Vec F SIN .f32) (x1 : Vec F SIN .f32) (xs : Vec F S1x128 .f32) : Vec F S1x128 .f32 :=
  VS.read (Elt F) (VS.writes (Elt F) VS.junk (kernelRun_B c i arg2 harg2 arg3 harg3 arg4 harg4 arg5 harg5 hc0 hc1 x0 x1 xs).2.1)

theorem scover_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) (y : S1x128.Idx) :
    ∃ pc ∈ (kernelRun_C c i arg2 harg2 arg3 harg3 arg4 harg4 arg5 harg5 hc0 hc1 x0 x1 xs).2.1, y ∈ pc.1.set :=
  View.cover_of_tiledL (kernelRun_C c i arg2 harg2 arg3 harg3 arg4 harg4 arg5 harg5 hc0 hc1 x0 x1 xs).2.1 S1x128.size (by sl_kernel_rfl) y
def sout_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) : Vec F S1x128 .f32 :=
  VS.read (Elt F) (VS.writes (Elt F) VS.junk (kernelRun_C c i arg2 harg2 arg3 harg3 arg4 harg4 arg5 harg5 hc0 hc1 x0 x1 xs).2.1)
theorem cover_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) (y : S1x128.Idx) :
    ∃ pc ∈ (kernelRun_C c i arg2 harg2 arg3 harg3 arg4 harg4 arg5 harg5 hc0 hc1 x0 x1 xs).1, y ∈ pc.1.set :=
  View.cover_of_tiledL (kernelRun_C c i arg2 harg2 arg3 harg3 arg4 harg4 arg5 harg5 hc0 hc1 x0 x1 xs).1 S1x128.size (by sl_kernel_rfl) y
def out_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) : Vec F S1x128 .f32 :=
  VO.read (Elt F) (VO.writes (Elt F) VO.junk (kernelRun_C c i arg2 harg2 arg3 harg3 arg4 harg4 arg5 harg5 hc0 hc1 x0 x1 xs).1)

def outIdle : Vec F S1x128 .f32 := VO.read (Elt F) VO.junk

theorem not_w_of_r {n : ℕ} (h : n % NSTEP = 0) : ¬n % NSTEP = LSTEP := by omega
theorem not_r_of_w {n : ℕ} (h : n % NSTEP = LSTEP) : ¬n % NSTEP = 0 := by omega

variable (V : (c : Dev nD) → (b : Ref sig .tc) → Buf (Elt F) ((c : Thread nD τ).loc b))

abbrev soutA_at (c : Dev nD) (t : Fin cfg0.N) (h0 : t.val % NSTEP = 0) : Vec F S1x128 .f32 :=
  sout_A c (grid0.coords t) (ms_0 t) (hs_0 t) (ms_1 t) (hs_1 t) (ms_2 t) (hs_2 t) scM (Memref.isWhole_whole _) ((hcond_r t).mpr h0) (fun h => not_w_of_r h0 ((hcond_w t).mp h)) (iblk V c 0 t) (iblk V c 1 t)
abbrev soutB_at (c : Dev nD) (t : Fin cfg0.N) (h0 : ¬t.val % NSTEP = 0) (h2 : ¬t.val % NSTEP = LSTEP) (xs : Vec F S1x128 .f32) : Vec F S1x128 .f32 :=
  sout_B c (grid0.coords t) (ms_0 t) (hs_0 t) (ms_1 t) (hs_1 t) (ms_2 t) (hs_2 t) scM (Memref.isWhole_whole _) (fun h => h0 ((hcond_r t).mp h)) (fun h => h2 ((hcond_w t).mp h)) (iblk V c 0 t) (iblk V c 1 t) xs
abbrev soutC_at (c : Dev nD) (t : Fin cfg0.N) (h2 : t.val % NSTEP = LSTEP) (xs : Vec F S1x128 .f32) : Vec F S1x128 .f32 :=
  sout_C c (grid0.coords t) (ms_0 t) (hs_0 t) (ms_1 t) (hs_1 t) (ms_2 t) (hs_2 t) scM (Memref.isWhole_whole _) (fun h => not_r_of_w h2 ((hcond_r t).mp h)) ((hcond_w t).mpr h2) (iblk V c 0 t) (iblk V c 1 t) xs
abbrev outC_at (c : Dev nD) (t : Fin cfg0.N) (h2 : t.val % NSTEP = LSTEP) (xs : Vec F S1x128 .f32) : Vec F S1x128 .f32 :=
  out_C c (grid0.coords t) (ms_0 t) (hs_0 t) (ms_1 t) (hs_1 t) (ms_2 t) (hs_2 t) scM (Memref.isWhole_whole _) (fun h => not_r_of_w h2 ((hcond_r t).mp h)) ((hcond_w t).mpr h2) (iblk V c 0 t) (iblk V c 1 t) xs

def outsAt (c : Dev nD) : (n : ℕ) → n < cfg0.N → Vec F S1x128 .f32 × Vec F S1x128 .f32
  | 0, hn => (outIdle, soutA_at V c ⟨0, hn⟩ (Nat.zero_mod _))
  | n + 1, hn =>
    if h0 : (n + 1) % NSTEP = 0 then (outIdle, soutA_at V c ⟨n + 1, hn⟩ h0)
    else if h2 : (n + 1) % NSTEP = LSTEP then
      (outC_at V c ⟨n + 1, hn⟩ h2 (outsAt c n (Nat.lt_of_succ_lt hn)).2, soutC_at V c ⟨n + 1, hn⟩ h2 (outsAt c n (Nat.lt_of_succ_lt hn)).2)
    else (outIdle, soutB_at V c ⟨n + 1, hn⟩ h0 h2 (outsAt c n (Nat.lt_of_succ_lt hn)).2)

theorem outsAt_A (c : Dev nD) (t : Fin cfg0.N) (h0 : t.val % NSTEP = 0) :
    outsAt V c t.val t.isLt = (outIdle, soutA_at V c t h0) := by
  obtain ⟨n, hn⟩ := t
  cases n with
  | zero => rfl
  | succ n => exact dif_pos h0

theorem outsAt_B (c : Dev nD) (t : Fin cfg0.N) (h0 : ¬t.val % NSTEP = 0) (h2 : ¬t.val % NSTEP = LSTEP) :
    outsAt V c t.val t.isLt
      = (outIdle, soutB_at V c t h0 h2 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans rfl)

theorem outsAt_C (c : Dev nD) (t : Fin cfg0.N) (h2 : t.val % NSTEP = LSTEP) :
    outsAt V c t.val t.isLt
      = (outC_at V c t h2 (outsAt V c (t.val - 1) (Nat.lt_of_le_of_lt (Nat.sub_le _ _) t.isLt)).2,
         soutC_at V c t h2 (outsAt V c (t.val - 1) (Nat.lt_of_le_of_lt (Nat.sub_le _ _) t.isLt)).2) := by
  obtain ⟨n, hn⟩ := t
  cases n with
  | zero => exact absurd ((Nat.zero_mod _).symm.trans h2) (by decide)
  | succ n => exact (dif_neg (not_r_of_w h2)).trans ((dif_pos h2).trans rfl)

def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restB c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ restB c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ restB c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  by_cases h0 : t.val % NSTEP = 0
  · have hr : cond_r (grid0.coords t) := (hcond_r t).mpr h0
    have hw : ¬cond_w (grid0.coords t) := fun h => not_w_of_r h0 ((hcond_w t).mp h)
    rw [Dat.leavesExact_idle (dat V c) 2 t (idle_2 t hw) (noFlush_2 t hw)]
    rw [outsAt_A V c t h0]
    unfold soutA_at sout_A; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩⟩
      iapply ((kernelRun_A c (grid0.coords t) _ _ _ _ _ _ _ _ hr hw (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun_A c (grid0.coords t) _ _ _ _ _ _ _ _ hr hw (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · have hr : ¬cond_r (grid0.coords t) := fun h => h0 ((hcond_r t).mp h)
    have hz : t.val ≠ 0 := fun h => h0 (by rw [h])
    by_cases h2 : t.val % NSTEP = LSTEP
    · have hw : cond_w (grid0.coords t) := (hcond_w t).mpr h2
      rw [show (dat V c).leavesExact 2 t = owns (c : Thread nD τ) (ms_2 t) fullShare ((dat V c).after 2 t) from by
        unfold Dat.leavesExact; rw [live_2 t hw], after_2]
      rw [outsAt_C V c t h2]
      unfold outC_at soutC_at out_C sout_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_C c (grid0.coords t) _ _ _ _ _ _ _ _ hr hw (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _ _ _)
    · have hw : ¬cond_w (grid0.coords t) := fun h => h2 ((hcond_w t).mp h)
      rw [Dat.leavesExact_idle (dat V c) 2 t (idle_2 t hw) (noFlush_2 t hw)]
      rw [outsAt_B V c t h0 h2]
      unfold soutB_at sout_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_B c (grid0.coords t) _ _ _ _ _ _ _ _ hr hw (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = NPTS := N_eq; omega)

end Cert.Kernel.Hand.R0

end
-- ==== Proof.BR1Runs.lean ====
import proofs.«409303_j18760417149025_3_alg».proof.Proof.Gen.Kernel.Launch
import proofs.«409303_j18760417149025_3_alg».proof.Proof.Gen.Kernel.Skeleton
import proofs.«409303_j18760417149025_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) →
    cfg1.idle 2 (grid1.coords t) = true := by decide +kernel
theorem noFlush1_2_A : ∀ t : Fin cfg1.N, cond1_0 (grid1.coords t) → ¬cond1_1 (grid1.coords t) →
    (cfg1.win 2).flush t = false := by decide +kernel
theorem liveAt1_2_C : ∀ t : Fin cfg1.N, ¬cond1_0 (grid1.coords t) → cond1_1 (grid1.coords t) →
    cfg1.idle 2 (grid1.coords t) = false := by decide +kernel

abbrev VO1_2 : View sig .tc .vmem S1x128 .f32 := (Memref.whole cc1_stg2_0 : Memref sig .tc .vmem S1x128 .f32).view
abbrev ms1_0 (t : Fin cfg1.N) : Memref sig .tc .vmem S32x5x50x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x5x50x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev scM1_0 : Memref sig .tc .vmem S1x128 .f32 := Memref.whole cc1_scratch0
abbrev VS1_0 : View sig .tc .vmem S1x128 .f32 := scM1_0.view

abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Hand.R1

end
-- ==== Proof.BR1RunA.lean ====
import proofs.«409303_j18760417149025_3_alg».proof.Proof.BR1Runs

set_option maxRecDepth 16384

noncomputable section

namespace Cert.Kernel.Hand.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole)
    (hc0 : cond1_0 i) (hc1 : ¬cond1_1 i) (x0 : Vec F S32x5x50x128 .f32) (x1 : Vec F S32x5x50x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg2 harg2 arg3 harg3 arg4 harg4 arg5 harg5) K } := by
  refine ⟨[], ?_, fun xi2 E K => ?run⟩
  case run =>
    simp only [cc1__loss_kernel_eq_skeleton]; unfold cc1__loss_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand.R1

end
-- ==== Proof.BR1RunC.lean ====
import proofs.«409303_j18760417149025_3_alg».proof.Proof.BR1RunA

set_option maxRecDepth 16384

noncomputable section

namespace Cert.Kernel.Hand.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole)
    (hc0 : ¬cond1_0 i) (hc1 : cond1_1 i) (x0 : Vec F S32x5x50x128 .f32) (x1 : Vec F S32x5x50x128 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand.R1

end
-- ==== Proof.BR1Dat.lean ====
import proofs.«409303_j18760417149025_3_alg».proof.Proof.BR1RunC

set_option maxRecDepth 16384

noncomputable section

namespace Cert.Kernel.Hand.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out1_A_2 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i) (x0 : Vec F S32x5x50x128 .f32) (x1 : Vec F S32x5x50x128 .f32) : Vec F S1x128 .f32 :=
  VO1_2.read (Elt F) (VO1_2.writes (Elt F) VO1_2.junk (kernelRun1_A c i arg2 harg2 arg3 harg3 arg4 harg4 arg5 harg5 hc0 hc1 x0 x1).1)

theorem scover1_A_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i) (x0 : Vec F S32x5x50x128 .f32) (x1 : Vec F S32x5x50x128 .f32) (y : S1x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x128.size (by sl_kernel_rfl) y

def sout1_A_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i) (x0 : Vec F S32x5x50x128 .f32) (x1 : Vec F S32x5x50x128 .f32) : Vec F S1x128 .f32 :=
  VS1_0.read (Elt F) (VS1_0.writes (Elt F) VS1_0.junk (kernelRun1_A c i arg2 harg2 arg3 harg3 arg4 harg4 arg5 harg5 hc0 hc1 x0 x1).2.1)

theorem cover1_C_2 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) (y : S1x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x128.size (by sl_kernel_rfl) y

def out1_C_2 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) : Vec F S1x128 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) (y : S1x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x128.size (by sl_kernel_rfl) y

def sout1_C_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) : Vec F S1x128 .f32 :=
  VS1_0.read (Elt F) (VS1_0.writes (Elt F) VS1_0.junk (kernelRun1_C c i arg2 harg2 arg3 harg3 arg4 harg4 arg5 harg5 hc0 hc1 x0 x1 xs0).2.1)

theorem c0_of_even (t : Fin cfg1.N) (h0 : t.val % 2 = 0) : cond1_0 (grid1.coords t) := (hcond1_0 t).mpr h0
theorem nc1_of_even (t : Fin cfg1.N) (h0 : t.val % 2 = 0) : ¬cond1_1 (grid1.coords t) :=
  fun h => by have := (hcond1_1 t).mp h; omega
theorem nc0_of_odd (t : Fin cfg1.N) (h0 : ¬t.val % 2 = 0) : ¬cond1_0 (grid1.coords t) := fun h => h0 ((hcond1_0 t).mp h)
theorem c1_of_odd (t : Fin cfg1.N) (h0 : ¬t.val % 2 = 0) : cond1_1 (grid1.coords t) := (hcond1_1 t).mpr (by omega)

def atA (c : Dev nD) (t : Fin cfg1.N) (h0 : t.val % 2 = 0) : Vec F S1x128 .f32 × Vec F S1x128 .f32 :=
  (out1_A_2 c (grid1.coords t) (ms1_0 t) (hs1_0 t) (ms1_1 t) (hs1_1 t) (ms1_2 t) (hs1_2 t) scM1_0 (Memref.isWhole_whole _) (c0_of_even t h0) (nc1_of_even t h0) (iblk V c 0 t) (iblk V c 1 t), sout1_A_0 c (grid1.coords t) (ms1_0 t) (hs1_0 t) (ms1_1 t) (hs1_1 t) (ms1_2 t) (hs1_2 t) scM1_0 (Memref.isWhole_whole _) (c0_of_even t h0) (nc1_of_even t h0) (iblk V c 0 t) (iblk V c 1 t))

def atC (c : Dev nD) (t : Fin cfg1.N) (h0 : ¬t.val % 2 = 0) (xs : Vec F S1x128 .f32) : Vec F S1x128 .f32 × Vec F S1x128 .f32 :=
  (out1_C_2 c (grid1.coords t) (ms1_0 t) (hs1_0 t) (ms1_1 t) (hs1_1 t) (ms1_2 t) (hs1_2 t) scM1_0 (Memref.isWhole_whole _) (nc0_of_odd t h0) (c1_of_odd t h0) (iblk V c 0 t) (iblk V c 1 t) xs, sout1_C_0 c (grid1.coords t) (ms1_0 t) (hs1_0 t) (ms1_1 t) (hs1_1 t) (ms1_2 t) (hs1_2 t) scM1_0 (Memref.isWhole_whole _) (nc0_of_odd t h0) (c1_of_odd t h0) (iblk V c 0 t) (iblk V c 1 t) xs)

def outsAt1 (c : Dev nD) : (n : ℕ) → n < cfg1.N → Vec F S1x128 .f32 × Vec F S1x128 .f32
  | 0, hn => atA V c ⟨0, hn⟩ (Nat.zero_mod _)
  | n + 1, hn =>
    if h0 : (n + 1) % 2 = 0 then atA V c ⟨n + 1, hn⟩ h0
    else atC V c ⟨n + 1, hn⟩ h0 (outsAt1 c n (Nat.lt_of_succ_lt hn)).2

theorem outsAt1_A (c : Dev nD) (t : Fin cfg1.N) (h0 : t.val % 2 = 0) :
    outsAt1 V c t.val t.isLt = atA V c t h0 := by
  obtain ⟨n, hn⟩ := t
  cases n with
  | zero => rfl
  | succ n => exact (dif_pos h0).trans rfl

theorem outsAt1_C (c : Dev nD) (t : Fin cfg1.N) (h0 : ¬t.val % 2 = 0) :
    outsAt1 V c t.val t.isLt
      = atC V c t h0 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ Rest1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt1 V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = (outsAt1 V c t.val t.isLt).1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  rw [show (dat V c).leavesExact 0 t = owns (c : Thread nD τ) (ms1_0 t) fullShare ((dat V c).after 0 t) from by
      unfold Dat.leavesExact; rw [liveAt1_0 t], after1_0]
  rw [show (dat V c).leavesExact 1 t = owns (c : Thread nD τ) (ms1_1 t) fullShare ((dat V c).after 1 t) from by
      unfold Dat.leavesExact; rw [liveAt1_1 t], after1_1]
  by_cases h0 : t.val % 2 = 0
  · rw [Dat.leavesExact_idle (dat V c) 2 t (idleAt1_2_A t (c0_of_even t h0) (nc1_of_even t h0)) (noFlush1_2_A t (c0_of_even t h0) (nc1_of_even t h0))]
    rw [outsAt1_A V c t h0]
    unfold atA sout1_A_0; (try dsimp only)
    by_cases hz : t.val = 0
    · rw [PhiS_castSucc V c t, PhiS_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    rw [show (dat V c).leavesExact 2 t = owns (c : Thread nD τ) (ms1_2 t) fullShare ((dat V c).after 2 t) from by
      unfold Dat.leavesExact; rw [liveAt1_2_C t (nc0_of_odd t h0) (c1_of_odd t h0)], after1_2]
    rw [outsAt1_C V c t h0]
    unfold atC out1_C_2 sout1_C_0; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun1_C c (grid1.coords t) _ _ _ _ _ _ _ _ (nc0_of_odd t h0) (c1_of_odd t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)

theorem body_obligation (c : Dev nD) : BodyObligation (dat V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout (c : Dev nD) : (dat V c).Φ (Fin.last cfg1.N) ⊢ Pipeline.ΦA spec1 c :=
  Phi_out V c _ (by rw [Fin.val_last]; have : cfg1.N = 4 := N_1; omega)

end Cert.Kernel.Hand.R1

end
-- ==== Proof.BR2Runs.lean ====
import proofs.«409303_j18760417149025_3_alg».proof.Proof.Gen.Kernel.Launch
import proofs.«409303_j18760417149025_3_alg».proof.Proof.Gen.Kernel.Skeleton
import proofs.«409303_j18760417149025_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c)
    (hA : dat.A 0 = V c (Pipeline.arrRef spec2 0)) (hafter : ∀ t, dat.after 0 t = iblk V c 0 t)
    (t : Fin cfg2.N) (d) : dat.before 0 t d = iblk V c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before2_1_of {c : Dev nD} (dat : Dat τ (Elt F) Unit ℕ (UR sig nD τ) ℕ cfg2 c)
    (hA : dat.A 1 = V c (Pipeline.arrRef spec2 1)) (hafter : ∀ t, dat.after 1 t = iblk V c 1 t)
    (t : Fin cfg2.N) (d) : dat.before 1 t d = iblk V c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) →
    cfg2.idle 2 (grid2.coords t) = true := by decide +kernel
theorem noFlush2_2_A : ∀ t : Fin cfg2.N, cond2_0 (grid2.coords t) → ¬cond2_1 (grid2.coords t) →
    (cfg2.win 2).flush t = false := by decide +kernel
theorem liveAt2_2_C : ∀ t : Fin cfg2.N, ¬cond2_0 (grid2.coords t) → cond2_1 (grid2.coords t) →
    cfg2.idle 2 (grid2.coords t) = false := by decide +kernel

abbrev VO2_2 : View sig .tc .vmem S1x128 .f32 := (Memref.whole cc2_stg2_0 : Memref sig .tc .vmem S1x128 .f32).view
abbrev ms2_0 (t : Fin cfg2.N) : Memref sig .tc .vmem S32x5x40x40 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x5x40x40 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev scM2_0 : Memref sig .tc .vmem S1x128 .f32 := Memref.whole cc2_scratch0
abbrev VS2_0 : View sig .tc .vmem S1x128 .f32 := scM2_0.view

abbrev Rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

end Cert.Kernel.Hand.R2

end
-- ==== Proof.BR2RunA.lean ====
import proofs.«409303_j18760417149025_3_alg».proof.Proof.BR2Runs

set_option maxRecDepth 16384

noncomputable section

namespace Cert.Kernel.Hand.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole)
    (hc0 : cond2_0 i) (hc1 : ¬cond2_1 i) (x0 : Vec F S32x5x40x40 .f32) (x1 : Vec F S32x5x40x40 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__loss_kernel i arg2 harg2 arg3 harg3 arg4 harg4 arg5 harg5) K } := by
  refine ⟨[], ?_, fun xi2 E K => ?run⟩
  case run =>
    simp only [cc2__loss_kernel_eq_skeleton]; unfold cc2__loss_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand.R2

end
-- ==== Proof.BR2RunC.lean ====
import proofs.«409303_j18760417149025_3_alg».proof.Proof.BR2RunA

set_option maxRecDepth 16384

noncomputable section

namespace Cert.Kernel.Hand.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : cond2_1 i) (x0 : Vec F S32x5x40x40 .f32) (x1 : Vec F S32x5x40x40 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__loss_kernel i arg2 harg2 arg3 harg3 arg4 harg4 arg5 harg5) K } := by
  refine ⟨?_, ?_, fun E K => ?run⟩
  case run =>
    simp only [cc2__loss_kernel_eq_skeleton]; unfold cc2__loss_kernel_skel
    simp only [k2_part1_eq_skeleton, k2_part2_eq_skeleton, k2_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand.R2

end
-- ==== Proof.BR2Dat.lean ====
import proofs.«409303_j18760417149025_3_alg».proof.Proof.BR2RunC

set_option maxRecDepth 16384

noncomputable section

namespace Cert.Kernel.Hand.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out2_A_2 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S32x5x40x40 .f32) (x1 : Vec F S32x5x40x40 .f32) : Vec F S1x128 .f32 :=
  VO2_2.read (Elt F) (VO2_2.writes (Elt F) VO2_2.junk (kernelRun2_A c i arg2 harg2 arg3 harg3 arg4 harg4 arg5 harg5 hc0 hc1 x0 x1).1)

theorem scover2_A_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S32x5x40x40 .f32) (x1 : Vec F S32x5x40x40 .f32) (y : S1x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x128.size (by sl_kernel_rfl) y

def sout2_A_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S32x5x40x40 .f32) (x1 : Vec F S32x5x40x40 .f32) : Vec F S1x128 .f32 :=
  VS2_0.read (Elt F) (VS2_0.writes (Elt F) VS2_0.junk (kernelRun2_A c i arg2 harg2 arg3 harg3 arg4 harg4 arg5 harg5 hc0 hc1 x0 x1).2.1)

theorem cover2_C_2 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) (y : S1x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x128.size (by sl_kernel_rfl) y

def out2_C_2 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) : Vec F S1x128 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) (y : S1x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x128.size (by sl_kernel_rfl) y

def sout2_C_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) : Vec F S1x128 .f32 :=
  VS2_0.read (Elt F) (VS2_0.writes (Elt F) VS2_0.junk (kernelRun2_C c i arg2 harg2 arg3 harg3 arg4 harg4 arg5 harg5 hc0 hc1 x0 x1 xs0).2.1)

theorem c0_of_even (t : Fin cfg2.N) (h0 : t.val % 2 = 0) : cond2_0 (grid2.coords t) := (hcond2_0 t).mpr h0
theorem nc1_of_even (t : Fin cfg2.N) (h0 : t.val % 2 = 0) : ¬cond2_1 (grid2.coords t) :=
  fun h => by have := (hcond2_1 t).mp h; omega
theorem nc0_of_odd (t : Fin cfg2.N) (h0 : ¬t.val % 2 = 0) : ¬cond2_0 (grid2.coords t) := fun h => h0 ((hcond2_0 t).mp h)
theorem c1_of_odd (t : Fin cfg2.N) (h0 : ¬t.val % 2 = 0) : cond2_1 (grid2.coords t) := (hcond2_1 t).mpr (by omega)

def atA (c : Dev nD) (t : Fin cfg2.N) (h0 : t.val % 2 = 0) : Vec F S1x128 .f32 × Vec F S1x128 .f32 :=
  (out2_A_2 c (grid2.coords t) (ms2_0 t) (hs2_0 t) (ms2_1 t) (hs2_1 t) (ms2_2 t) (hs2_2 t) scM2_0 (Memref.isWhole_whole _) (c0_of_even t h0) (nc1_of_even t h0) (iblk V c 0 t) (iblk V c 1 t), sout2_A_0 c (grid2.coords t) (ms2_0 t) (hs2_0 t) (ms2_1 t) (hs2_1 t) (ms2_2 t) (hs2_2 t) scM2_0 (Memref.isWhole_whole _) (c0_of_even t h0) (nc1_of_even t h0) (iblk V c 0 t) (iblk V c 1 t))

def atC (c : Dev nD) (t : Fin cfg2.N) (h0 : ¬t.val % 2 = 0) (xs : Vec F S1x128 .f32) : Vec F S1x128 .f32 × Vec F S1x128 .f32 :=
  (out2_C_2 c (grid2.coords t) (ms2_0 t) (hs2_0 t) (ms2_1 t) (hs2_1 t) (ms2_2 t) (hs2_2 t) scM2_0 (Memref.isWhole_whole _) (nc0_of_odd t h0) (c1_of_odd t h0) (iblk V c 0 t) (iblk V c 1 t) xs, sout2_C_0 c (grid2.coords t) (ms2_0 t) (hs2_0 t) (ms2_1 t) (hs2_1 t) (ms2_2 t) (hs2_2 t) scM2_0 (Memref.isWhole_whole _) (nc0_of_odd t h0) (c1_of_odd t h0) (iblk V c 0 t) (iblk V c 1 t) xs)

def outsAt2 (c : Dev nD) : (n : ℕ) → n < cfg2.N → Vec F S1x128 .f32 × Vec F S1x128 .f32
  | 0, hn => atA V c ⟨0, hn⟩ (Nat.zero_mod _)
  | n + 1, hn =>
    if h0 : (n + 1) % 2 = 0 then atA V c ⟨n + 1, hn⟩ h0
    else atC V c ⟨n + 1, hn⟩ h0 (outsAt2 c n (Nat.lt_of_succ_lt hn)).2

theorem outsAt2_A (c : Dev nD) (t : Fin cfg2.N) (h0 : t.val % 2 = 0) :
    outsAt2 V c t.val t.isLt = atA V c t h0 := by
  obtain ⟨n, hn⟩ := t
  cases n with
  | zero => rfl
  | succ n => exact (dif_pos h0).trans rfl

theorem outsAt2_C (c : Dev nD) (t : Fin cfg2.N) (h0 : ¬t.val % 2 = 0) :
    outsAt2 V c t.val t.isLt
      = atC V c t h0 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ Rest2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt2 V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = (outsAt2 V c t.val t.isLt).1 := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d

def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg2.N = 4 from N_2)
  rw [show (dat V c).leavesExact 0 t = owns (c : Thread nD τ) (ms2_0 t) fullShare ((dat V c).after 0 t) from by
      unfold Dat.leavesExact; rw [liveAt2_0 t], after2_0]
  rw [show (dat V c).leavesExact 1 t = owns (c : Thread nD τ) (ms2_1 t) fullShare ((dat V c).after 1 t) from by
      unfold Dat.leavesExact; rw [liveAt2_1 t], after2_1]
  by_cases h0 : t.val % 2 = 0
  · rw [Dat.leavesExact_idle (dat V c) 2 t (idleAt2_2_A t (c0_of_even t h0) (nc1_of_even t h0)) (noFlush2_2_A t (c0_of_even t h0) (nc1_of_even t h0))]
    rw [outsAt2_A V c t h0]
    unfold atA sout2_A_0; (try dsimp only)
    by_cases hz : t.val = 0
    · rw [PhiS_castSucc V c t, PhiS_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    rw [show (dat V c).leavesExact 2 t = owns (c : Thread nD τ) (ms2_2 t) fullShare ((dat V c).after 2 t) from by
      unfold Dat.leavesExact; rw [liveAt2_2_C t (nc0_of_odd t h0) (c1_of_odd t h0)], after2_2]
    rw [outsAt2_C V c t h0]
    unfold atC out2_C_2 sout2_C_0; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun2_C c (grid2.coords t) _ _ _ _ _ _ _ _ (nc0_of_odd t h0) (c1_of_odd t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)

theorem body_obligation (c : Dev nD) : BodyObligation (dat V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

theorem hout (c : Dev nD) : (dat V c).Φ (Fin.last cfg2.N) ⊢ Pipeline.ΦA spec2 c :=
  Phi_out V c _ (by rw [Fin.val_last]; have : cfg2.N = 4 := N_2; omega)

end Cert.Kernel.Hand.R2

end
-- ==== Proof.BLaunch.lean ====
import proofs.«409303_j18760417149025_3_alg».proof.Proof.BLaunchOf
import proofs.«409303_j18760417149025_3_alg».proof.Proof.BR0Dat
import proofs.«409303_j18760417149025_3_alg».proof.Proof.BR1Dat
import proofs.«409303_j18760417149025_3_alg».proof.Proof.BR2Dat

set_option maxRecDepth 2684

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

@[reducible] def D0 : LaunchOf.RegData (F := F) cfg0 where
  dat := R0.dat
  A_eq := R0.A_eq
  q_eq _ _ _ := rfl
  owed_eq _ _ _ := rfl
  rec_eq _ _ _ := rfl
  body := R0.body_obligation
  hin := R0.hin
  hout := R0.hout

@[reducible] def D1 : LaunchOf.RegData (F := F) cfg1 where
  dat := R1.dat
  A_eq := R1.A_eq
  q_eq _ _ _ := rfl
  owed_eq _ _ _ := rfl
  rec_eq _ _ _ := rfl
  body := R1.body_obligation
  hin := R1.hin
  hout := R1.hout

@[reducible] def D2 : LaunchOf.RegData (F := F) cfg2 where
  dat := R2.dat
  A_eq := R2.A_eq
  q_eq _ _ _ := rfl
  owed_eq _ _ _ := rfl
  rec_eq _ _ _ := rfl
  body := R2.body_obligation
  hin := R2.hin
  hout := R2.hout

variable (m : (ℓ : Loc nD τ sig) → Buf (Elt F) ℓ)

abbrev pdats : (p : Fin 3) → (c : Dev nD) → Dat τ (Elt F) Unit ℕ (UR sig nD τ) ℕ (cfgs p) c :=
  LaunchOf.pdats (F := F) D0 D1 D2 m

abbrev outsH : GenP.Outs (F := F) := LaunchOf.outsH (F := F) D0 D1 D2 m

abbrev reg0 := LaunchOf.reg0 (F := F) D0 D1 D2 m
abbrev reg1 := LaunchOf.reg1 (F := F) D0 D1 D2 m
abbrev reg2 := LaunchOf.reg2 (F := F) D0 D1 D2 m

theorem outsH_8 (c : Dev nD) :
    outsH m 8 main_v82 c = (R0.dat (fun c b => GenP.V7 m c b) c).arrAt 2 cfg0.N :=
  LaunchOf.outsH_8_eq D0 D1 D2 m c
theorem outsH_22 (c : Dev nD) :
    outsH m 22 main_v202 c = (R1.dat (fun c b => GenP.V21 m (outsH m) c b) c).arrAt 2 cfg1.N :=
  LaunchOf.outsH_22_eq D0 D1 D2 m c
theorem outsH_36 (c : Dev nD) :
    outsH m 36 main_v320 c = (R2.dat (fun c b => GenP.V35 m (outsH m) c b) c).arrAt 2 cfg2.N :=
  LaunchOf.outsH_36_eq D0 D1 D2 m c

theorem run_main (ρ : Dev nD → PrngReg) :
    θ_run (defs (F := F)) (onTc (τ := τ) (main (F := F))) ⟨m, fun _ => 0, ρ⟩ (fun r => ∀ c : Dev nD,
      r.2.mem ((c.tc : Thread nD τ).loc main_v357) = GenP.V43 m (outsH m) c main_v357
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  LaunchOf.run_main_of D0 D1 D2 m ρ

theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  LaunchOf.frame_of D0 D1 D2 m ρ

end Cert.Kernel.Hand

end
-- ==== Proof.KRunCond.lean ====
import proofs.«409303_j18760417149025_3_alg».proof.Proof.KernelIdealRegions
import Idealize.ShloMosaic.Lib.Pipeline.Frame
import Idealize.ShloMosaic.Lib.Pipeline.Regions

set_option maxRecDepth 2684

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : GenP.Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) GenP.adm pdats ι defs₀ 𝒱₀ L lv 0)
    (hpre0 : ∀ c : Dev nD, iprop(StableHlo.held (c : Thread nD τ) (Pipeline.ucRefs τ sig) (GenP.V7 m c) ∗ E 0 c) ⊢ R0.pre c)
    (hpost0 : ∀ c : Dev nD, R0.post c ⊢ iprop(StableHlo.held (c : Thread nD τ) (Pipeline.ucRefs τ sig) (GenP.V8 m outs c) ∗ E 1 c))
    (R1 : RegionSeg (pcfgs (F := F)) GenP.adm pdats ι defs₀ 𝒱₀ L lv 1)
    (hpre1 : ∀ c : Dev nD, iprop(StableHlo.held (c : Thread nD τ) (Pipeline.ucRefs τ sig) (GenP.V21 m outs c) ∗ E 1 c) ⊢ R1.pre c)
    (hpost1 : ∀ c : Dev nD, R1.post c ⊢ iprop(StableHlo.held (c : Thread nD τ) (Pipeline.ucRefs τ sig) (GenP.V22 m outs c) ∗ E 2 c))
    (R2 : RegionSeg (pcfgs (F := F)) GenP.adm pdats ι defs₀ 𝒱₀ L lv 2)
    (hpre2 : ∀ c : Dev nD, iprop(StableHlo.held (c : Thread nD τ) (Pipeline.ucRefs τ sig) (GenP.V35 m outs c) ∗ E 2 c) ⊢ R2.pre c)
    (hpost2 : ∀ c : Dev nD, R2.post c ⊢ iprop(StableHlo.held (c : Thread nD τ) (Pipeline.ucRefs τ sig) (GenP.V36 m outs c) ∗ E 3 c)) :
    θ_run defs (onTc (τ := τ) (main (F := F))) ⟨m, fun _ => 0, ρ⟩ (fun r => ∀ c : Dev nD,
      r.2.mem ((c.tc : Thread nD τ).loc main_v357) = GenP.V43 m outs c main_v357
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) GenP.adm pdats ι cellOf_inj EP defs₀ 𝒱₀ L lv m ρ main
    (GenP.segs m outs 𝒱₀ L lv E ι pdats R0 R1 R2)
    (fun c Q => by
      rewrite [main_chain c, Seg.run_eq_chain,
        show (GenP.segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10,
          StableHlo.seq hostOps2_11,
          StableHlo.seq hostOps2_12,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      with_reducible exact .rfl)
    (fun c => by simp only [GenP.segs, Seg.pipes_host, Seg.pipes_region, Seg.pipes_nil]; decide) O₀ hL G u₀ hu₀
    (T₀ := fun c => iprop(StableHlo.held (c : Thread nD τ) (Pipeline.ucRefs τ sig) (GenP.V0 m c) ∗ E 0 c))
    (Tₙ := fun c => StableHlo.held (c : Thread nD τ) (Pipeline.ucRefs τ sig) (GenP.V43 m outs c))
    (hch := fun c => ⟨.rfl, .rfl, .rfl, .rfl, .rfl, .rfl, .rfl, hpre0 c, hpost0 c, .rfl, .rfl, .rfl, .rfl, .rfl, .rfl, .rfl, .rfl, .rfl, .rfl, .rfl, .rfl, hpre1 c, hpost1 c, .rfl, .rfl, .rfl, .rfl, .rfl, .rfl, .rfl, .rfl, .rfl, .rfl, .rfl, .rfl, hpre2 c, hpost2 c, .rfl, .rfl, .rfl, .rfl, .rfl, .rfl, sep_mono .rfl (hE3 c)⟩)
    (hinit := ?_) (QY := fun c s => s.mem ((c.tc : Thread nD τ).loc main_v357) = GenP.V43 m outs c main_v357 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (GenP.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (GenP.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (GenP.V43 m outs c) s') $$ [Hh HSI]
    · isplitl [Hh] <;> iassumption
    icases Hr with ⟨%h, HSI⟩
    imodintro
    isplitr
    · ipureintro
      exact ⟨h (Proc.devRef .tc main_v357) (Finset.mem_filter.mpr ⟨StableHlo.devRef_mem_tcRefs main_v357, by decide⟩),
        (h (Proc.devRef .tc main_arg0) (Finset.mem_filter.mpr ⟨StableHlo.devRef_mem_tcRefs main_arg0, by decide⟩)).trans (GenP.V43_main_arg0 m outs c),
        (h (Proc.devRef .tc main_arg1) (Finset.mem_filter.mpr ⟨StableHlo.devRef_mem_tcRefs main_arg1, by decide⟩)).trans (GenP.V43_main_arg1 m outs c),
        (h (Proc.devRef .tc main_arg2) (Finset.mem_filter.mpr ⟨StableHlo.devRef_mem_tcRefs main_arg2, by decide⟩)).trans (GenP.V43_main_arg2 m outs c),
        (h (Proc.devRef .tc main_arg3) (Finset.mem_filter.mpr ⟨StableHlo.devRef_mem_tcRefs main_arg3, by decide⟩)).trans (GenP.V43_main_arg3 m outs c)⟩
    · iexact HSI

end Cert.KernelIdeal.Hand

end
-- ==== Proof.KLaunchOf.lean ====
import proofs.«409303_j18760417149025_3_alg».proof.Proof.KRunCond
import Idealize.ShloMosaic.Lib.Pipeline.Frame
import Idealize.ShloMosaic.Lib.Pipeline.Regions
import Idealize.ShloMosaic.Lib.Pipeline.RegionsLoop
import Idealize.ShloMosaic.Lib.Pipeline.Kit
import Mathlib.Logic.Function.Basic

set_option maxRecDepth 2684

noncomputable section

namespace Cert.KernelIdeal.Hand.LaunchOf

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

structure RegData (cfg : Pipeline.Cfg sig Λ₀) where
  dat : (V : (c : Dev nD) → (b : Ref sig .tc) → Buf (Elt F) ((c : Thread nD τ).loc b)) → (c : Dev nD) →
    Dat τ (Elt F) Unit ℕ (UR sig nD τ) ℕ cfg c
  A_eq : ∀ V c (w : Fin cfg.W), (dat V c).A w = V c (Pipeline.arrRef cfg.spec w)
  q_eq : ∀ V c (w : Fin cfg.W), (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA cfg.spec c : sProp 𝕄) ⊢ (dat V c).Φ 0
  hout : ∀ V c, (dat V c).Φ (Fin.last cfg.N) ⊢ (Pipeline.ΦA cfg.spec c : sProp 𝕄)

theorem owesAt_intro {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro; exact fun x _ => Or.inl (by rw [hr]; exact Set.mem_univ x)
  iexact HO

theorem owesAt_elim {cfg : Pipeline.Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

section Congr
variable (m : (ℓ : Loc nD τ sig) → Buf (Elt F) ℓ)

theorem V21_congr {o o' : GenP.Outs (F := F)} (c : Dev nD) (h : o 8 main_v82 c = o' 8 main_v82 c) :
    GenP.V21 m o c = GenP.V21 m o' c := by
  have e8 : GenP.V8 m o c = GenP.V8 m o' c := by simp only [GenP.V8, h]
  have e9 : GenP.V9 m o c = GenP.V9 m o' c := congrArg (StableHlo.after (hostOps1 (F := F))) e8
  have e10 : GenP.V10 m o c = GenP.V10 m o' c := congrArg (StableHlo.after (hostOps1_1 (F := F))) e9
  have e11 : GenP.V11 m o c = GenP.V11 m o' c := congrArg (StableHlo.after (hostOps1_2 (F := F))) e10
  have e12 : GenP.V12 m o c = GenP.V12 m o' c := congrArg (StableHlo.after (hostOps1_3 (F := F))) e11
  have e13 : GenP.V13 m o c = GenP.V13 m o' c := congrArg (StableHlo.after (hostOps1_4 (F := F))) e12
  have e14 : GenP.V14 m o c = GenP.V14 m o' c := congrArg (StableHlo.after (hostOps1_5 (F := F))) e13
  have e15 : GenP.V15 m o c = GenP.V15 m o' c := congrArg (StableHlo.after (hostOps1_6 (F := F))) e14
  have e16 : GenP.V16 m o c = GenP.V16 m o' c := congrArg (StableHlo.after (hostOps1_7 (F := F))) e15
  have e17 : GenP.V17 m o c = GenP.V17 m o' c := congrArg (StableHlo.after (hostOps1_8 (F := F))) e16
  have e18 : GenP.V18 m o c = GenP.V18 m o' c := congrArg (StableHlo.after (hostOps1_9 (F := F))) e17
  have e19 : GenP.V19 m o c = GenP.V19 m o' c := congrArg (StableHlo.after (hostOps1_10 (F := F))) e18
  have e20 : GenP.V20 m o c = GenP.V20 m o' c := congrArg (StableHlo.after (hostOps1_11 (F := F))) e19
  have e21 : GenP.V21 m o c = GenP.V21 m o' c := congrArg (StableHlo.after (hostOps1_12 (F := F))) e20
  exact e21

theorem V35_congr {o o' : GenP.Outs (F := F)} (c : Dev nD) (h : o 8 main_v82 c = o' 8 main_v82 c)
    (h' : o 22 main_v202 c = o' 22 main_v202 c) : GenP.V35 m o c = GenP.V35 m o' c := by
  have e21 := V21_congr m c h
  have e22 : GenP.V22 m o c = GenP.V22 m o' c := by simp only [GenP.V22, e21, h']
  have e23 : GenP.V23 m o c = GenP.V23 m o' c := congrArg (StableHlo.after (hostOps2 (F := F))) e22
  have e24 : GenP.V24 m o c = GenP.V24 m o' c := congrArg (StableHlo.after (hostOps2_1 (F := F))) e23
  have e25 : GenP.V25 m o c = GenP.V25 m o' c := congrArg (StableHlo.after (hostOps2_2 (F := F))) e24
  have e26 : GenP.V26 m o c = GenP.V26 m o' c := congrArg (StableHlo.after (hostOps2_3 (F := F))) e25
  have e27 : GenP.V27 m o c = GenP.V27 m o' c := congrArg (StableHlo.after (hostOps2_4 (F := F))) e26
  have e28 : GenP.V28 m o c = GenP.V28 m o' c := congrArg (StableHlo.after (hostOps2_5 (F := F))) e27
  have e29 : GenP.V29 m o c = GenP.V29 m o' c := congrArg (StableHlo.after (hostOps2_6 (F := F))) e28
  have e30 : GenP.V30 m o c = GenP.V30 m o' c := congrArg (StableHlo.after (hostOps2_7 (F := F))) e29
  have e31 : GenP.V31 m o c = GenP.V31 m o' c := congrArg (StableHlo.after (hostOps2_8 (F := F))) e30
  have e32 : GenP.V32 m o c = GenP.V32 m o' c := congrArg (StableHlo.after (hostOps2_9 (F := F))) e31
  have e33 : GenP.V33 m o c = GenP.V33 m o' c := congrArg (StableHlo.after (hostOps2_10 (F := F))) e32
  have e34 : GenP.V34 m o c = GenP.V34 m o' c := congrArg (StableHlo.after (hostOps2_11 (F := F))) e33
  have e35 : GenP.V35 m o c = GenP.V35 m o' c := congrArg (StableHlo.after (hostOps2_12 (F := F))) e34
  exact e35

end Congr

variable (D0 : RegData (F := F) cfg0) (D1 : RegData (F := F) cfg1) (D2 : RegData (F := F) cfg2)
variable (m : (ℓ : Loc nD τ sig) → Buf (Elt F) ℓ)

abbrev EV0 : (c : Dev nD) → (b : Ref sig .tc) → Buf (Elt F) ((c : Thread nD τ).loc b) := fun c b => GenP.V7 m c b

def out0 (c : Dev nD) : Buf (Elt F) ((c : Thread nD τ).loc main_v82) := (D0.dat (EV0 m) c).arrAt 2 cfg0.N

def outsA : GenP.Outs (F := F) := fun _ r c =>
  if h : r = main_v82 then h ▸ out0 D0 m c else GenP.V7 m c r

abbrev EV1 : (c : Dev nD) → (b : Ref sig .tc) → Buf (Elt F) ((c : Thread nD τ).loc b) := fun c b => GenP.V21 m (outsA D0 m) c b

def out1 (c : Dev nD) : Buf (Elt F) ((c : Thread nD τ).loc main_v202) := (D1.dat (EV1 D0 m) c).arrAt 2 cfg1.N

def outsB : GenP.Outs (F := F) := fun n r c =>
  if h : r = main_v202 then h ▸ out1 D0 D1 m c else outsA D0 m n r c

abbrev EV2 : (c : Dev nD) → (b : Ref sig .tc) → Buf (Elt F) ((c : Thread nD τ).loc b) := fun c b => GenP.V35 m (outsB D0 D1 m) c b

def out2 (c : Dev nD) : Buf (Elt F) ((c : Thread nD τ).loc main_v320) := (D2.dat (EV2 D0 D1 m) c).arrAt 2 cfg2.N

def outsH : GenP.Outs (F := F) := fun n r c =>
  if h : r = main_v320 then h ▸ out2 D0 D1 D2 m c else outsB D0 D1 m n r c

theorem outsA_82 (n : ℕ) (c : Dev nD) : outsA D0 m n main_v82 c = out0 D0 m c := by
  unfold outsA; rw [dif_pos rfl]
theorem outsB_82 (n : ℕ) (c : Dev nD) : outsB D0 D1 m n main_v82 c = out0 D0 m c := by
  unfold outsB; rw [dif_neg (show ¬ (main_v82 : Ref sig .tc) = main_v202 by decide)]; exact outsA_82 D0 m n c
theorem outsB_202 (n : ℕ) (c : Dev nD) : outsB D0 D1 m n main_v202 c = out1 D0 D1 m c := by
  unfold outsB; rw [dif_pos rfl]
theorem outsH_82 (n : ℕ) (c : Dev nD) : outsH D0 D1 D2 m n main_v82 c = out0 D0 m c := by
  unfold outsH; rw [dif_neg (show ¬ (main_v82 : Ref sig .tc) = main_v320 by decide)]; exact outsB_82 D0 D1 m n c
theorem outsH_202 (n : ℕ) (c : Dev nD) : outsH D0 D1 D2 m n main_v202 c = out1 D0 D1 m c := by
  unfold outsH; rw [dif_neg (show ¬ (main_v202 : Ref sig .tc) = main_v320 by decide)]; exact outsB_202 D0 D1 m n c
theorem outsH_320 (n : ℕ) (c : Dev nD) : outsH D0 D1 D2 m n main_v320 c = out2 D0 D1 D2 m c := by
  unfold outsH; rw [dif_pos rfl]

theorem V21H (c : Dev nD) : GenP.V21 m (outsH D0 D1 D2 m) c = GenP.V21 m (outsA D0 m) c :=
  V21_congr m c ((outsH_82 D0 D1 D2 m 8 c).trans (outsA_82 D0 m 8 c).symm)
theorem V35H (c : Dev nD) : GenP.V35 m (outsH D0 D1 D2 m) c = GenP.V35 m (outsB D0 D1 m) c :=
  V35_congr m c ((outsH_82 D0 D1 D2 m 8 c).trans (outsB_82 D0 D1 m 8 c).symm)
    ((outsH_202 D0 D1 D2 m 22 c).trans (outsB_202 D0 D1 m 22 c).symm)
theorem EV1_eq (c : Dev nD) (b : Ref sig .tc) : GenP.V21 m (outsH D0 D1 D2 m) c b = EV1 D0 m c b :=
  congrFun (V21H D0 D1 D2 m c) _
theorem EV2_eq (c : Dev nD) (b : Ref sig .tc) : GenP.V35 m (outsH D0 D1 D2 m) c b = EV2 D0 D1 m c b :=
  congrFun (V35H D0 D1 D2 m c) _

theorem outsH_8_eq (c : Dev nD) :
    outsH D0 D1 D2 m 8 main_v82 c = (D0.dat (fun c b => GenP.V7 m c b) c).arrAt 2 cfg0.N :=
  outsH_82 D0 D1 D2 m 8 c
theorem outsH_22_eq (c : Dev nD) :
    outsH D0 D1 D2 m 22 main_v202 c = (D1.dat (fun c b => GenP.V21 m (outsH D0 D1 D2 m) c b) c).arrAt 2 cfg1.N :=
  (outsH_202 D0 D1 D2 m 22 c).trans
    (congrArg (fun V => (D1.dat V c).arrAt 2 cfg1.N) (funext fun c => funext fun b => (EV1_eq D0 D1 D2 m c b).symm))
theorem outsH_36_eq (c : Dev nD) :
    outsH D0 D1 D2 m 36 main_v320 c = (D2.dat (fun c b => GenP.V35 m (outsH D0 D1 D2 m) c b) c).arrAt 2 cfg2.N :=
  (outsH_320 D0 D1 D2 m 36 c).trans
    (congrArg (fun V => (D2.dat V c).arrAt 2 cfg2.N) (funext fun c => funext fun b => (EV2_eq D0 D1 D2 m c b).symm))

def pdats : (p : Fin 3) → (c : Dev nD) → Dat τ (Elt F) Unit ℕ (UR sig nD τ) ℕ (cfgs p) c
  | ⟨0, _⟩ => fun c => D0.dat (EV0 m) c
  | ⟨1, _⟩ => fun c => D1.dat (EV1 D0 m) c
  | ⟨2, _⟩ => fun c => D2.dat (EV2 D0 D1 m) c

abbrev 𝒱₀ : Variants := Variants.none
abbrev L : GSem nD τ sig → Finset Unit := fun _ => ∅
abbrev lv : GSem nD τ sig → Unit → ℕ := fun _ _ => 0
abbrev Rr (c : Dev nD) : sProp 𝕄 := iprop((∃ r, prngReg c r) ∗ ∃ W, owes (c : Thread nD τ) (0 : CellTallies nD τ sig Unit) W)

theorem Vout0_out (c : Dev nD) : GenP.V8 m (outsH D0 D1 D2 m) c main_v82 = out0 D0 m c := by
  simp only [GenP.V8, Function.update_self]
  exact outsH_82 D0 D1 D2 m 8 c

theorem hF0 (c : Dev nD) (w : Fin cfg0.W) :
    (pdats D0 D1 D2 m 0 c).arrAt w cfg0.N = (fun b : Ref sig .tc => GenP.V8 m (outsH D0 D1 D2 m) c b) (Pipeline.arrRef spec0 w) := by
  fin_cases w
  · exact (((pdats D0 D1 D2 m 0 c).arrAt_in 0 rfl _).trans (D0.A_eq (EV0 m) c 0)).trans (GenP.V8_of m (outsH D0 D1 D2 m) c main_v80 (by decide)).symm
  · exact (((pdats D0 D1 D2 m 0 c).arrAt_in 1 rfl _).trans (D0.A_eq (EV0 m) c 1)).trans (GenP.V8_of m (outsH D0 D1 D2 m) c main_v81 (by decide)).symm
  · exact (Vout0_out D0 D1 D2 m c).symm

theorem hrest0 (c : Dev nD) (b : Ref sig .tc) (hb : b ∉ Finset.univ.image (Pipeline.arrRef spec0)) :
    (fun b : Ref sig .tc => GenP.V8 m (outsH D0 D1 D2 m) c b) b = EV0 m c b := by
  have hb' : b ∉ ([main_v82] : List (Ref sig .tc)) := fun h => hb (by
    rw [List.mem_singleton.mp h]; exact Finset.mem_image.mpr ⟨2, Finset.mem_univ _, rfl⟩)
  exact GenP.V8_of m (outsH D0 D1 D2 m) c b hb'

set_option backward.isDefEq.respectTransparency.types false in
def reg0 : RegionSeg (pcfgs (F := F)) GenP.adm (pdats D0 D1 D2 m) () defs₀ 𝒱₀ L lv 0 where
  win := launch0.win.to₀
  block_pos := launch0.block_pos
  stage_whole := launch0.stage_whole
  K := PEmpty
  osem k := k.elim
  ho := Pipeline.OwnSemFacts.none _
  hbody c := (D0.body (EV0 m) c).loose
  hwaits := Pipeline.hwaits_of_owed_zero _ _ _ _ L lv 0 fun c t => D0.owed_eq (EV0 m) c t
  pre c := iprop(StableHlo.held (c : Thread nD τ) (Pipeline.ucRefs τ sig) (GenP.V7 m c) ∗ Rr c)
  post c := iprop(StableHlo.held (c : Thread nD τ) (Pipeline.ucRefs τ sig) (GenP.V8 m (outsH D0 D1 D2 m) c) ∗ Rr c)
  X c := iprop(∃ r, prngReg c r)
  Y c := iprop(∃ r, prngReg c r)
  Z c := Pipeline.unscopedRest (Ix := Unit) (Name := ℕ) (U := UR sig nD τ) (Lvl := ℕ) spec0 c (EV0 m c)
  hentry c := by
    rw [Pipeline.ownSems0_none]
    have hsplit := Pipeline.arrays_of_unscopedBufs (p := 0) (pcfgs (F := F)) GenP.adm (pdats D0 D1 D2 m) launch0.win launch0.arr_whole c
      ((pdats D0 D1 D2 m 0 c).share_full fun w => D0.q_eq (EV0 m) c w) (EV0 m c) fun w => D0.A_eq (EV0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats D0 D1 D2 m 0 c) 0 (D0.owed_eq (EV0 m) c 0) (D0.rec_eq (EV0 m) c 0)); iexact HO
    isplitl [Hp]; · iexact Hp
    iexact Hrest
  hin c := by
    refine (show _ ⊢ (Pipeline.ΦA spec0 c : sProp 𝕄) from ?_).trans (D0.hin (EV0 m) c)
    unfold Pipeline.ΦA
    iintro ⟨Hp, -, Hr⟩
    isplitl [Hr]; · iexact Hr
    iexact Hp
  hout c := by
    rw [Pipeline.ownSems0_none]
    refine (D0.hout (EV0 m) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats D0 D1 D2 m) ((pdats D0 D1 D2 m 0 c).share_full fun w => D0.q_eq (EV0 m) c w)
      (EV0 m c) (fun b : Ref sig .tc => GenP.V8 m (outsH D0 D1 D2 m) c b) ((pdats D0 D1 D2 m 0 c).arrAt · cfg0.N) (hF0 D0 D1 D2 m c) (hrest0 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats D0 D1 D2 m 0 c) (Fin.last _) (D0.owed_eq (EV0 m) c _)); iexact HO

theorem Vout1_out (c : Dev nD) : GenP.V22 m (outsH D0 D1 D2 m) c main_v202 = out1 D0 D1 m c := by
  simp only [GenP.V22, Function.update_self]
  exact outsH_202 D0 D1 D2 m 22 c

theorem hF1 (c : Dev nD) (w : Fin cfg1.W) :
    (pdats D0 D1 D2 m 1 c).arrAt w cfg1.N = (fun b : Ref sig .tc => GenP.V22 m (outsH D0 D1 D2 m) c b) (Pipeline.arrRef spec1 w) := by
  fin_cases w
  · exact (((pdats D0 D1 D2 m 1 c).arrAt_in 0 rfl _).trans (D1.A_eq (EV1 D0 m) c 0)).trans ((EV1_eq D0 D1 D2 m c main_v200).symm.trans (GenP.V22_of m (outsH D0 D1 D2 m) c main_v200 (by decide)).symm)
  · exact (((pdats D0 D1 D2 m 1 c).arrAt_in 1 rfl _).trans (D1.A_eq (EV1 D0 m) c 1)).trans ((EV1_eq D0 D1 D2 m c main_v201).symm.trans (GenP.V22_of m (outsH D0 D1 D2 m) c main_v201 (by decide)).symm)
  · exact (Vout1_out D0 D1 D2 m c).symm

theorem hrest1 (c : Dev nD) (b : Ref sig .tc) (hb : b ∉ Finset.univ.image (Pipeline.arrRef spec1)) :
    (fun b : Ref sig .tc => GenP.V22 m (outsH D0 D1 D2 m) c b) b = EV1 D0 m c b := by
  have hb' : b ∉ ([main_v202] : List (Ref sig .tc)) := fun h => hb (by
    rw [List.mem_singleton.mp h]; exact Finset.mem_image.mpr ⟨2, Finset.mem_univ _, rfl⟩)
  exact (GenP.V22_of m (outsH D0 D1 D2 m) c b hb').trans (EV1_eq D0 D1 D2 m c b)

set_option backward.isDefEq.respectTransparency.types false in
def reg1 : RegionSeg (pcfgs (F := F)) GenP.adm (pdats D0 D1 D2 m) () defs₀ 𝒱₀ L lv 1 where
  win := launch1.win.to₀
  block_pos := launch1.block_pos
  stage_whole := launch1.stage_whole
  K := PEmpty
  osem k := k.elim
  ho := Pipeline.OwnSemFacts.none _
  hbody c := (D1.body (EV1 D0 m) c).loose
  hwaits := Pipeline.hwaits_of_owed_zero _ _ _ _ L lv 1 fun c t => D1.owed_eq (EV1 D0 m) c t
  pre c := iprop(StableHlo.held (c : Thread nD τ) (Pipeline.ucRefs τ sig) (GenP.V21 m (outsH D0 D1 D2 m) c) ∗ Rr c)
  post c := iprop(StableHlo.held (c : Thread nD τ) (Pipeline.ucRefs τ sig) (GenP.V22 m (outsH D0 D1 D2 m) c) ∗ Rr c)
  X c := iprop(∃ r, prngReg c r)
  Y c := iprop(∃ r, prngReg c r)
  Z c := Pipeline.unscopedRest (Ix := Unit) (Name := ℕ) (U := UR sig nD τ) (Lvl := ℕ) spec1 c (EV1 D0 m c)
  hentry c := by
    rw [Pipeline.ownSems0_none]
    rw [V21H D0 D1 D2 m c]
    have hsplit := Pipeline.arrays_of_unscopedBufs (p := 1) (pcfgs (F := F)) GenP.adm (pdats D0 D1 D2 m) launch1.win launch1.arr_whole c
      ((pdats D0 D1 D2 m 1 c).share_full fun w => D1.q_eq (EV1 D0 m) c w) (EV1 D0 m c) fun w => D1.A_eq (EV1 D0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats D0 D1 D2 m 1 c) 0 (D1.owed_eq (EV1 D0 m) c 0) (D1.rec_eq (EV1 D0 m) c 0)); iexact HO
    isplitl [Hp]; · iexact Hp
    iexact Hrest
  hin c := by
    refine (show _ ⊢ (Pipeline.ΦA spec1 c : sProp 𝕄) from ?_).trans (D1.hin (EV1 D0 m) c)
    unfold Pipeline.ΦA
    iintro ⟨Hp, -, Hr⟩
    isplitl [Hr]; · iexact Hr
    iexact Hp
  hout c := by
    rw [Pipeline.ownSems0_none]
    refine (D1.hout (EV1 D0 m) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats D0 D1 D2 m) ((pdats D0 D1 D2 m 1 c).share_full fun w => D1.q_eq (EV1 D0 m) c w)
      (EV1 D0 m c) (fun b : Ref sig .tc => GenP.V22 m (outsH D0 D1 D2 m) c b) ((pdats D0 D1 D2 m 1 c).arrAt · cfg1.N) (hF1 D0 D1 D2 m c) (hrest1 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats D0 D1 D2 m 1 c) (Fin.last _) (D1.owed_eq (EV1 D0 m) c _)); iexact HO

theorem Vout2_out (c : Dev nD) : GenP.V36 m (outsH D0 D1 D2 m) c main_v320 = out2 D0 D1 D2 m c := by
  simp only [GenP.V36, Function.update_self]
  exact outsH_320 D0 D1 D2 m 36 c

theorem hF2 (c : Dev nD) (w : Fin cfg2.W) :
    (pdats D0 D1 D2 m 2 c).arrAt w cfg2.N = (fun b : Ref sig .tc => GenP.V36 m (outsH D0 D1 D2 m) c b) (Pipeline.arrRef spec2 w) := by
  fin_cases w
  · exact (((pdats D0 D1 D2 m 2 c).arrAt_in 0 rfl _).trans (D2.A_eq (EV2 D0 D1 m) c 0)).trans ((EV2_eq D0 D1 D2 m c main_arg2).symm.trans (GenP.V36_of m (outsH D0 D1 D2 m) c main_arg2 (by decide)).symm)
  · exact (((pdats D0 D1 D2 m 2 c).arrAt_in 1 rfl _).trans (D2.A_eq (EV2 D0 D1 m) c 1)).trans ((EV2_eq D0 D1 D2 m c main_v319).symm.trans (GenP.V36_of m (outsH D0 D1 D2 m) c main_v319 (by decide)).symm)
  · exact (Vout2_out D0 D1 D2 m c).symm

theorem hrest2 (c : Dev nD) (b : Ref sig .tc) (hb : b ∉ Finset.univ.image (Pipeline.arrRef spec2)) :
    (fun b : Ref sig .tc => GenP.V36 m (outsH D0 D1 D2 m) c b) b = EV2 D0 D1 m c b := by
  have hb' : b ∉ ([main_v320] : List (Ref sig .tc)) := fun h => hb (by
    rw [List.mem_singleton.mp h]; exact Finset.mem_image.mpr ⟨2, Finset.mem_univ _, rfl⟩)
  exact (GenP.V36_of m (outsH D0 D1 D2 m) c b hb').trans (EV2_eq D0 D1 D2 m c b)

set_option backward.isDefEq.respectTransparency.types false in
def reg2 : RegionSeg (pcfgs (F := F)) GenP.adm (pdats D0 D1 D2 m) () defs₀ 𝒱₀ L lv 2 where
  win := launch2.win.to₀
  block_pos := launch2.block_pos
  stage_whole := launch2.stage_whole
  K := PEmpty
  osem k := k.elim
  ho := Pipeline.OwnSemFacts.none _
  hbody c := (D2.body (EV2 D0 D1 m) c).loose
  hwaits := Pipeline.hwaits_of_owed_zero _ _ _ _ L lv 2 fun c t => D2.owed_eq (EV2 D0 D1 m) c t
  pre c := iprop(StableHlo.held (c : Thread nD τ) (Pipeline.ucRefs τ sig) (GenP.V35 m (outsH D0 D1 D2 m) c) ∗ Rr c)
  post c := iprop(StableHlo.held (c : Thread nD τ) (Pipeline.ucRefs τ sig) (GenP.V36 m (outsH D0 D1 D2 m) c) ∗ Rr c)
  X c := iprop(∃ r, prngReg c r)
  Y c := iprop(∃ r, prngReg c r)
  Z c := Pipeline.unscopedRest (Ix := Unit) (Name := ℕ) (U := UR sig nD τ) (Lvl := ℕ) spec2 c (EV2 D0 D1 m c)
  hentry c := by
    rw [Pipeline.ownSems0_none]
    rw [V35H D0 D1 D2 m c]
    have hsplit := Pipeline.arrays_of_unscopedBufs (p := 2) (pcfgs (F := F)) GenP.adm (pdats D0 D1 D2 m) launch2.win launch2.arr_whole c
      ((pdats D0 D1 D2 m 2 c).share_full fun w => D2.q_eq (EV2 D0 D1 m) c w) (EV2 D0 D1 m c) fun w => D2.A_eq (EV2 D0 D1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_intro (pdats D0 D1 D2 m 2 c) 0 (D2.owed_eq (EV2 D0 D1 m) c 0) (D2.rec_eq (EV2 D0 D1 m) c 0)); iexact HO
    isplitl [Hp]; · iexact Hp
    iexact Hrest
  hin c := by
    refine (show _ ⊢ (Pipeline.ΦA spec2 c : sProp 𝕄) from ?_).trans (D2.hin (EV2 D0 D1 m) c)
    unfold Pipeline.ΦA
    iintro ⟨Hp, -, Hr⟩
    isplitl [Hr]; · iexact Hr
    iexact Hp
  hout c := by
    rw [Pipeline.ownSems0_none]
    refine (D2.hout (EV2 D0 D1 m) c).trans (show (Pipeline.ΦA spec2 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats D0 D1 D2 m) ((pdats D0 D1 D2 m 2 c).share_full fun w => D2.q_eq (EV2 D0 D1 m) c w)
      (EV2 D0 D1 m c) (fun b : Ref sig .tc => GenP.V36 m (outsH D0 D1 D2 m) c b) ((pdats D0 D1 D2 m 2 c).arrAt · cfg2.N) (hF2 D0 D1 D2 m c) (hrest2 D0 D1 D2 m c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owesAt_elim (pdats D0 D1 D2 m 2 c) (Fin.last _) (D2.owed_eq (EV2 D0 D1 m) c _)); iexact HO

abbrev E : Fin 4 → Dev nD → sProp 𝕄 := fun _ c => Rr c

set_option backward.isDefEq.respectTransparency.types false in
theorem run_main_of (ρ : Dev nD → PrngReg) :
    θ_run (defs (F := F)) (onTc (τ := τ) (main (F := F))) ⟨m, fun _ => 0, ρ⟩ (fun r => ∀ c : Dev nD,
      r.2.mem ((c.tc : Thread nD τ).loc main_v357) = GenP.V43 m (outsH D0 D1 D2 m) c main_v357
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ L lv (fun _ _ => rfl) ρ (outsH D0 D1 D2 m) (pdats D0 D1 D2 m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := Pipeline.initEach L lv fun c => by
      iintro ⟨⟨-, HO, -, Hp, -⟩, -⟩
      imodintro
      isplitl [Hp]; · iexists _; iexact Hp
      iexists ∅; iexact HO)
    (hE3 := fun c => by iintro ⟨-, H⟩; iexact H)
    (R0 := reg0 D0 D1 D2 m) (hpre0 := fun c => .rfl) (hpost0 := fun c => .rfl)
    (R1 := reg1 D0 D1 D2 m) (hpre1 := fun c => .rfl) (hpost1 := fun c => .rfl)
    (R2 := reg2 D0 D1 D2 m) (hpre2 := fun c => .rfl) (hpost2 := fun c => .rfl)

include D0 D1 D2 in
theorem frame_of (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  OrdCont.mono (θ_run (defs (F := F)) (onTc (τ := τ) (main (F := F))) ⟨m, fun _ => 0, ρ⟩) (fun _ h c => (h c).2)
    (run_main_of D0 D1 D2 m ρ)

end Cert.KernelIdeal.Hand.LaunchOf

end
-- ==== Proof.KR0Runs.lean ====
import proofs.«409303_j18760417149025_3_alg».proof.Proof.Gen.KernelIdeal.Launch
import proofs.«409303_j18760417149025_3_alg».proof.Proof.Gen.KernelIdeal.Skeleton
import proofs.«409303_j18760417149025_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

scoped notation "SIN" => S8x5x200x128
scoped notation "NSTEP" => (8 : ℕ)
scoped notation "LSTEP" => (7 : ℕ)
scoped notation "NPTS" => (16 : ℕ)

theorem N_eq : cfg0.N = NPTS := N_0

abbrev cond_r (i : grid0.Coords) : Prop :=
  (Scalar.cmpi .ne (Scalar.extui (Scalar.cmpi .eq (BitVec.ofNat 32 (i 1).val) 0#32)) 0#32) = 1#1
theorem hcond_r : ∀ t : Fin cfg0.N, cond_r (grid0.coords t) ↔ t.val % NSTEP = 0 :=
  (by decide +kernel : ∀ t : Fin grid0.N, cond_r (grid0.coords t) ↔ t.val % NSTEP = 0)

abbrev cond_w (i : grid0.Coords) : Prop := k0_cond2 i = 1#1
theorem hcond_w : ∀ t : Fin cfg0.N, cond_w (grid0.coords t) ↔ t.val % NSTEP = LSTEP :=
  (by decide +kernel : ∀ t : Fin grid0.N, cond_w (grid0.coords t) ↔ t.val % NSTEP = LSTEP)

theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬cond_w (grid0.coords t) → cfg0.idle 2 (grid0.coords t) = true := by decide +kernel
theorem noFlush_2 : ∀ t : Fin cfg0.N, ¬cond_w (grid0.coords t) → (cfg0.win 2).flush t = false := by decide +kernel
theorem live_2 : ∀ t : Fin cfg0.N, cond_w (grid0.coords t) → cfg0.idle 2 (grid0.coords t) = false := by decide +kernel

abbrev VO : View sig .tc .vmem S1x128 .f32 := (Memref.whole cc0_stg2_0 : Memref sig .tc .vmem S1x128 .f32).view
abbrev ms_0 (t : Fin cfg0.N) : Memref sig .tc .vmem SIN .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem SIN .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128 .f32 := win0_2.stage (cfg0.slots t 2)
abbrev hs_2 (t : Fin cfg0.N) : (ms_2 t).IsWhole := hstage0_2 ((cfg0.slots t 2).cast nbuf0_2)
abbrev scM : Memref sig .tc .vmem S1x128 .f32 := Memref.whole cc0_scratch0
abbrev VS : View sig .tc .vmem S1x128 .f32 := scM.view

abbrev restB (c : Dev nD) : sProp 𝕄 :=
  Pipeline.scopedRestBut (Ix := Unit) (Name := ℕ) (U := UR sig nD τ) (Lvl := ℕ) (Val := Elt F) spec0 c [cc0_scratch0]

theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ restB c) :=
  Pipeline.scopedRest_split_of_list spec0 c [cc0_scratch0] (by decide) (by decide)

theorem PhiA_eq (c : Dev nD) :
    (Pipeline.ΦA spec0 c : sProp 𝕄)
      = iprop(iprop((∃ d, owns (c : Thread nD τ) scM fullShare d) ∗ restB c) ∗ (∃ r, prngReg c r)) := by
  unfold Pipeline.ΦA; rw [scopedRest_split]; simp only [scM, owns_whole]; try rfl

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand.R0

end
-- ==== Proof.KR0RunA.lean ====
import proofs.«409303_j18760417149025_3_alg».proof.Proof.KR0Runs

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_A (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : cond_r i) (hc1 : ¬cond_w i)
    (x0 : Vec F SIN .f32) (x1 : Vec F SIN .f32) :
    Σ' (LO : List (View.Piece (Elt F) S1x128 .f32)), { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__loss_kernel i arg2 harg2 arg3 harg3 arg4 harg4 arg5 harg5) K } := by
  refine ⟨[], ?_, fun xi E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand.R0

end
-- ==== Proof.KR0RunB.lean ====
import proofs.«409303_j18760417149025_3_alg».proof.Proof.KR0RunA

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_B (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : ¬cond_w i)
    (x0 : Vec F SIN .f32) (x1 : Vec F SIN .f32) (xs : Vec F S1x128 .f32) :
    Σ' (LO : List (View.Piece (Elt F) S1x128 .f32)), { LS : List (View.Piece (Elt F) S1x128 .f32) //
      ∀ (xi : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__loss_kernel i arg2 harg2 arg3 harg3 arg4 harg4 arg5 harg5) K } := by
  refine ⟨[], ?_, fun xi E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Hand.R0

end
-- ==== Proof.KR0RunC.lean ====
import proofs.«409303_j18760417149025_3_alg».proof.Proof.KR0RunB

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i)
    (x0 : Vec F SIN .f32) (x1 : Vec F SIN .f32) (xs : Vec F S1x128 .f32) :
    Σ' (LO : List (View.Piece (Elt F) S1x128 .f32)), { LS : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__loss_kernel i arg2 harg2 arg3 harg3 arg4 harg4 arg5 harg5) K } := by
  refine ⟨?_, ?_, fun E K => ?run⟩
  case run =>
    simp only [cc0__loss_kernel_eq_skeleton]; unfold cc0__loss_kernel_skel
    simp only [k0_part1_eq_skeleton, k0_part2_eq_skeleton, k0_part3_eq_skeleton]
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand.R0

end
-- ==== Proof.KR0Dat.lean ====
import proofs.«409303_j18760417149025_3_alg».proof.Proof.KR0RunC

set_option maxRecDepth 16384

noncomputable section

namespace Cert.KernelIdeal.Hand.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem scover_A (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : cond_r i) (hc1 : ¬cond_w i) (x0 : Vec F SIN .f32) (x1 : Vec F SIN .f32) (y : S1x128.Idx) :
    ∃ pc ∈ (kernelRun_A c i arg2 harg2 arg3 harg3 arg4 harg4 arg5 harg5 hc0 hc1 x0 x1).2.1, y ∈ pc.1.set :=
  View.cover_of_tiledL (kernelRun_A c i arg2 harg2 arg3 harg3 arg4 harg4 arg5 harg5 hc0 hc1 x0 x1).2.1 S1x128.size (by sl_kernel_rfl) y
def sout_A (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : cond_r i) (hc1 : ¬cond_w i) (x0 : Vec F SIN .f32) (x1 : Vec F SIN .f32) : Vec F S1x128 .f32 :=
  VS.read (Elt F) (VS.writes (Elt F) VS.junk (kernelRun_A c i arg2 harg2 arg3 harg3 arg4 harg4 arg5 harg5 hc0 hc1 x0 x1).2.1)

theorem scover_B (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : ¬cond_w i) (x0 : Vec F SIN .f32) (x1 : Vec F SIN .f32) (xs : Vec F S1x128 .f32) (y : S1x128.Idx) :
    ∃ pc ∈ (kernelRun_B c i arg2 harg2 arg3 harg3 arg4 harg4 arg5 harg5 hc0 hc1 x0 x1 xs).2.1, y ∈ pc.1.set :=
  View.cover_of_tiledL (kernelRun_B c i arg2 harg2 arg3 harg3 arg4 harg4 arg5 harg5 hc0 hc1 x0 x1 xs).2.1 S1x128.size (by sl_kernel_rfl) y
def sout_B (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : ¬cond_w i) (x0 : Vec F SIN .f32) (x1 : Vec F SIN .f32) (xs : Vec F S1x128 .f32) : Vec F S1x128 .f32 :=
  VS.read (Elt F) (VS.writes (Elt F) VS.junk (kernelRun_B c i arg2 harg2 arg3 harg3 arg4 harg4 arg5 harg5 hc0 hc1 x0 x1 xs).2.1)

theorem scover_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) (y : S1x128.Idx) :
    ∃ pc ∈ (kernelRun_C c i arg2 harg2 arg3 harg3 arg4 harg4 arg5 harg5 hc0 hc1 x0 x1 xs).2.1, y ∈ pc.1.set :=
  View.cover_of_tiledL (kernelRun_C c i arg2 harg2 arg3 harg3 arg4 harg4 arg5 harg5 hc0 hc1 x0 x1 xs).2.1 S1x128.size (by sl_kernel_rfl) y
def sout_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) : Vec F S1x128 .f32 :=
  VS.read (Elt F) (VS.writes (Elt F) VS.junk (kernelRun_C c i arg2 harg2 arg3 harg3 arg4 harg4 arg5 harg5 hc0 hc1 x0 x1 xs).2.1)
theorem cover_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) (y : S1x128.Idx) :
    ∃ pc ∈ (kernelRun_C c i arg2 harg2 arg3 harg3 arg4 harg4 arg5 harg5 hc0 hc1 x0 x1 xs).1, y ∈ pc.1.set :=
  View.cover_of_tiledL (kernelRun_C c i arg2 harg2 arg3 harg3 arg4 harg4 arg5 harg5 hc0 hc1 x0 x1 xs).1 S1x128.size (by sl_kernel_rfl) y
def out_C (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 : Vec F SIN .f32) (x1 : Vec F SIN .f32) (xs : Vec F S1x128 .f32) : Vec F S1x128 .f32 :=
  VO.read (Elt F) (VO.writes (Elt F) VO.junk (kernelRun_C c i arg2 harg2 arg3 harg3 arg4 harg4 arg5 harg5 hc0 hc1 x0 x1 xs).1)

def outIdle : Vec F S1x128 .f32 := VO.read (Elt F) VO.junk

theorem not_w_of_r {n : ℕ} (h : n % NSTEP = 0) : ¬n % NSTEP = LSTEP := by omega
theorem not_r_of_w {n : ℕ} (h : n % NSTEP = LSTEP) : ¬n % NSTEP = 0 := by omega

variable (V : (c : Dev nD) → (b : Ref sig .tc) → Buf (Elt F) ((c : Thread nD τ).loc b))

abbrev soutA_at (c : Dev nD) (t : Fin cfg0.N) (h0 : t.val % NSTEP = 0) : Vec F S1x128 .f32 :=
  sout_A c (grid0.coords t) (ms_0 t) (hs_0 t) (ms_1 t) (hs_1 t) (ms_2 t) (hs_2 t) scM (Memref.isWhole_whole _) ((hcond_r t).mpr h0) (fun h => not_w_of_r h0 ((hcond_w t).mp h)) (iblk V c 0 t) (iblk V c 1 t)
abbrev soutB_at (c : Dev nD) (t : Fin cfg0.N) (h0 : ¬t.val % NSTEP = 0) (h2 : ¬t.val % NSTEP = LSTEP) (xs : Vec F S1x128 .f32) : Vec F S1x128 .f32 :=
  sout_B c (grid0.coords t) (ms_0 t) (hs_0 t) (ms_1 t) (hs_1 t) (ms_2 t) (hs_2 t) scM (Memref.isWhole_whole _) (fun h => h0 ((hcond_r t).mp h)) (fun h => h2 ((hcond_w t).mp h)) (iblk V c 0 t) (iblk V c 1 t) xs
abbrev soutC_at (c : Dev nD) (t : Fin cfg0.N) (h2 : t.val % NSTEP = LSTEP) (xs : Vec F S1x128 .f32) : Vec F S1x128 .f32 :=
  sout_C c (grid0.coords t) (ms_0 t) (hs_0 t) (ms_1 t) (hs_1 t) (ms_2 t) (hs_2 t) scM (Memref.isWhole_whole _) (fun h => not_r_of_w h2 ((hcond_r t).mp h)) ((hcond_w t).mpr h2) (iblk V c 0 t) (iblk V c 1 t) xs
abbrev outC_at (c : Dev nD) (t : Fin cfg0.N) (h2 : t.val % NSTEP = LSTEP) (xs : Vec F S1x128 .f32) : Vec F S1x128 .f32 :=
  out_C c (grid0.coords t) (ms_0 t) (hs_0 t) (ms_1 t) (hs_1 t) (ms_2 t) (hs_2 t) scM (Memref.isWhole_whole _) (fun h => not_r_of_w h2 ((hcond_r t).mp h)) ((hcond_w t).mpr h2) (iblk V c 0 t) (iblk V c 1 t) xs

def outsAt (c : Dev nD) : (n : ℕ) → n < cfg0.N → Vec F S1x128 .f32 × Vec F S1x128 .f32
  | 0, hn => (outIdle, soutA_at V c ⟨0, hn⟩ (Nat.zero_mod _))
  | n + 1, hn =>
    if h0 : (n + 1) % NSTEP = 0 then (outIdle, soutA_at V c ⟨n + 1, hn⟩ h0)
    else if h2 : (n + 1) % NSTEP = LSTEP then
      (outC_at V c ⟨n + 1, hn⟩ h2 (outsAt c n (Nat.lt_of_succ_lt hn)).2, soutC_at V c ⟨n + 1, hn⟩ h2 (outsAt c n (Nat.lt_of_succ_lt hn)).2)
    else (outIdle, soutB_at V c ⟨n + 1, hn⟩ h0 h2 (outsAt c n (Nat.lt_of_succ_lt hn)).2)

theorem outsAt_A (c : Dev nD) (t : Fin cfg0.N) (h0 : t.val % NSTEP = 0) :
    outsAt V c t.val t.isLt = (outIdle, soutA_at V c t h0) := by
  obtain ⟨n, hn⟩ := t
  cases n with
  | zero => rfl
  | succ n => exact dif_pos h0

theorem outsAt_B (c : Dev nD) (t : Fin cfg0.N) (h0 : ¬t.val % NSTEP = 0) (h2 : ¬t.val % NSTEP = LSTEP) :
    outsAt V c t.val t.isLt
      = (outIdle, soutB_at V c t h0 h2 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans rfl)

theorem outsAt_C (c : Dev nD) (t : Fin cfg0.N) (h2 : t.val % NSTEP = LSTEP) :
    outsAt V c t.val t.isLt
      = (outC_at V c t h2 (outsAt V c (t.val - 1) (Nat.lt_of_le_of_lt (Nat.sub_le _ _) t.isLt)).2,
         soutC_at V c t h2 (outsAt V c (t.val - 1) (Nat.lt_of_le_of_lt (Nat.sub_le _ _) t.isLt)).2) := by
  obtain ⟨n, hn⟩ := t
  cases n with
  | zero => exact absurd ((Nat.zero_mod _).symm.trans h2) (by decide)
  | succ n => exact (dif_neg (not_r_of_w h2)).trans ((dif_pos h2).trans rfl)

def PhiS (c : Dev nD) : (n : ℕ) → n ≤ cfg0.N → sProp 𝕄
  | 0, _ => Pipeline.ΦA spec0 c
  | n + 1, hn => iprop(iprop(owns (c : Thread nD τ) scM fullShare ((outsAt V c n hn).2) ∗ restB c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2) ∗ restB c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2) ∗ restB c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  by_cases h0 : t.val % NSTEP = 0
  · have hr : cond_r (grid0.coords t) := (hcond_r t).mpr h0
    have hw : ¬cond_w (grid0.coords t) := fun h => not_w_of_r h0 ((hcond_w t).mp h)
    rw [Dat.leavesExact_idle (dat V c) 2 t (idle_2 t hw) (noFlush_2 t hw)]
    rw [outsAt_A V c t h0]
    unfold soutA_at sout_A; (try dsimp only)
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩⟩
      iapply ((kernelRun_A c (grid0.coords t) _ _ _ _ _ _ _ _ hr hw (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun_A c (grid0.coords t) _ _ _ _ _ _ _ _ hr hw (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · have hr : ¬cond_r (grid0.coords t) := fun h => h0 ((hcond_r t).mp h)
    have hz : t.val ≠ 0 := fun h => h0 (by rw [h])
    by_cases h2 : t.val % NSTEP = LSTEP
    · have hw : cond_w (grid0.coords t) := (hcond_w t).mpr h2
      rw [show (dat V c).leavesExact 2 t = owns (c : Thread nD τ) (ms_2 t) fullShare ((dat V c).after 2 t) from by
        unfold Dat.leavesExact; rw [live_2 t hw], after_2]
      rw [outsAt_C V c t h2]
      unfold outC_at soutC_at out_C sout_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_C c (grid0.coords t) _ _ _ _ _ _ _ _ hr hw (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _ _ _)
    · have hw : ¬cond_w (grid0.coords t) := fun h => h2 ((hcond_w t).mp h)
      rw [Dat.leavesExact_idle (dat V c) 2 t (idle_2 t hw) (noFlush_2 t hw)]
      rw [outsAt_B V c t h0 h2]
      unfold soutB_at sout_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_B c (grid0.coords t) _ _ _ _ _ _ _ _ hr hw (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = NPTS := N_eq; omega)

end Cert.KernelIdeal.Hand.R0

end
-- ==== Proof.KR1Runs.lean ====
import proofs.«409303_j18760417149025_3_alg».proof.Proof.Gen.KernelIdeal.Launch
import proofs.«409303_j18760417149025_3_alg».proof.Proof.Gen.KernelIdeal.Skeleton
import proofs.«409303_j18760417149025_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) →
    cfg1.idle 2 (grid1.coords t) = true := by decide +kernel
theorem noFlush1_2_A : ∀ t : Fin cfg1.N, cond1_0 (grid1.coords t) → ¬cond1_1 (grid1.coords t) →
    (cfg1.win 2).flush t = false := by decide +kernel
theorem liveAt1_2_C : ∀ t : Fin cfg1.N, ¬cond1_0 (grid1.coords t) → cond1_1 (grid1.coords t) →
    cfg1.idle 2 (grid1.coords t) = false := by decide +kernel

abbrev VO1_2 : View sig .tc .vmem S1x128 .f32 := (Memref.whole cc1_stg2_0 : Memref sig .tc .vmem S1x128 .f32).view
abbrev ms1_0 (t : Fin cfg1.N) : Memref sig .tc .vmem S32x5x50x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x5x50x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev scM1_0 : Memref sig .tc .vmem S1x128 .f32 := Memref.whole cc1_scratch0
abbrev VS1_0 : View sig .tc .vmem S1x128 .f32 := scM1_0.view

abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Hand.R1

end
-- ==== Proof.KR1RunA.lean ====
import proofs.«409303_j18760417149025_3_alg».proof.Proof.KR1Runs

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole)
    (hc0 : cond1_0 i) (hc1 : ¬cond1_1 i) (x0 : Vec F S32x5x50x128 .f32) (x1 : Vec F S32x5x50x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg2 harg2 arg3 harg3 arg4 harg4 arg5 harg5) K } := by
  refine ⟨[], ?_, fun xi2 E K => ?run⟩
  case run =>
    simp only [cc1__loss_kernel_eq_skeleton]; unfold cc1__loss_kernel_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand.R1

end
-- ==== Proof.KR1RunC.lean ====
import proofs.«409303_j18760417149025_3_alg».proof.Proof.KR1RunA

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole)
    (hc0 : ¬cond1_0 i) (hc1 : cond1_1 i) (x0 : Vec F S32x5x50x128 .f32) (x1 : Vec F S32x5x50x128 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__loss_kernel i arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton, k1_part2_eq_skeleton, k1_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand.R1

end
-- ==== Proof.KR1Dat.lean ====
import proofs.«409303_j18760417149025_3_alg».proof.Proof.KR1RunC

set_option maxRecDepth 16384

noncomputable section

namespace Cert.KernelIdeal.Hand.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out1_A_2 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i) (x0 : Vec F S32x5x50x128 .f32) (x1 : Vec F S32x5x50x128 .f32) : Vec F S1x128 .f32 :=
  VO1_2.read (Elt F) (VO1_2.writes (Elt F) VO1_2.junk (kernelRun1_A c i arg2 harg2 arg3 harg3 arg4 harg4 arg5 harg5 hc0 hc1 x0 x1).1)

theorem scover1_A_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i) (x0 : Vec F S32x5x50x128 .f32) (x1 : Vec F S32x5x50x128 .f32) (y : S1x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1x128.size (by sl_kernel_rfl) y

def sout1_A_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i) (x0 : Vec F S32x5x50x128 .f32) (x1 : Vec F S32x5x50x128 .f32) : Vec F S1x128 .f32 :=
  VS1_0.read (Elt F) (VS1_0.writes (Elt F) VS1_0.junk (kernelRun1_A c i arg2 harg2 arg3 harg3 arg4 harg4 arg5 harg5 hc0 hc1 x0 x1).2.1)

theorem cover1_C_2 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) (y : S1x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1x128.size (by sl_kernel_rfl) y

def out1_C_2 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) : Vec F S1x128 .f32 :=
  VO1_2.read (Elt F) (VO1_2.writes (Elt F) VO1_2.junk (kernelRun1_C c i arg2 harg2 arg3 harg3 arg4 harg4 arg5 harg5 hc0 hc1 x0 x1 xs0).1)

theorem scover1_C_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) (y : S1x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1x128.size (by sl_kernel_rfl) y

def sout1_C_0 (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 : Vec F S32x5x50x128 .f32) (x1 : Vec F S32x5x50x128 .f32) (xs0 : Vec F S1x128 .f32) : Vec F S1x128 .f32 :=
  VS1_0.read (Elt F) (VS1_0.writes (Elt F) VS1_0.junk (kernelRun1_C c i arg2 harg2 arg3 harg3 arg4 harg4 arg5 harg5 hc0 hc1 x0 x1 xs0).2.1)

theorem c0_of_even (t : Fin cfg1.N) (h0 : t.val % 2 = 0) : cond1_0 (grid1.coords t) := (hcond1_0 t).mpr h0
theorem nc1_of_even (t : Fin cfg1.N) (h0 : t.val % 2 = 0) : ¬cond1_1 (grid1.coords t) :=
  fun h => by have := (hcond1_1 t).mp h; omega
theorem nc0_of_odd (t : Fin cfg1.N) (h0 : ¬t.val % 2 = 0) : ¬cond1_0 (grid1.coords t) := fun h => h0 ((hcond1_0 t).mp h)
theorem c1_of_odd (t : Fin cfg1.N) (h0 : ¬t.val % 2 = 0) : cond1_1 (grid1.coords t) := (hcond1_1 t).mpr (by omega)

def atA (c : Dev nD) (t : Fin cfg1.N) (h0 : t.val % 2 = 0) : Vec F S1x128 .f32 × Vec F S1x128 .f32 :=
  (out1_A_2 c (grid1.coords t) (ms1_0 t) (hs1_0 t) (ms1_1 t) (hs1_1 t) (ms1_2 t) (hs1_2 t) scM1_0 (Memref.isWhole_whole _) (c0_of_even t h0) (nc1_of_even t h0) (iblk V c 0 t) (iblk V c 1 t), sout1_A_0 c (grid1.coords t) (ms1_0 t) (hs1_0 t) (ms1_1 t) (hs1_1 t) (ms1_2 t) (hs1_2 t) scM1_0 (Memref.isWhole_whole _) (c0_of_even t h0) (nc1_of_even t h0) (iblk V c 0 t) (iblk V c 1 t))

def atC (c : Dev nD) (t : Fin cfg1.N) (h0 : ¬t.val % 2 = 0) (xs : Vec F S1x128 .f32) : Vec F S1x128 .f32 × Vec F S1x128 .f32 :=
  (out1_C_2 c (grid1.coords t) (ms1_0 t) (hs1_0 t) (ms1_1 t) (hs1_1 t) (ms1_2 t) (hs1_2 t) scM1_0 (Memref.isWhole_whole _) (nc0_of_odd t h0) (c1_of_odd t h0) (iblk V c 0 t) (iblk V c 1 t) xs, sout1_C_0 c (grid1.coords t) (ms1_0 t) (hs1_0 t) (ms1_1 t) (hs1_1 t) (ms1_2 t) (hs1_2 t) scM1_0 (Memref.isWhole_whole _) (nc0_of_odd t h0) (c1_of_odd t h0) (iblk V c 0 t) (iblk V c 1 t) xs)

def outsAt1 (c : Dev nD) : (n : ℕ) → n < cfg1.N → Vec F S1x128 .f32 × Vec F S1x128 .f32
  | 0, hn => atA V c ⟨0, hn⟩ (Nat.zero_mod _)
  | n + 1, hn =>
    if h0 : (n + 1) % 2 = 0 then atA V c ⟨n + 1, hn⟩ h0
    else atC V c ⟨n + 1, hn⟩ h0 (outsAt1 c n (Nat.lt_of_succ_lt hn)).2

theorem outsAt1_A (c : Dev nD) (t : Fin cfg1.N) (h0 : t.val % 2 = 0) :
    outsAt1 V c t.val t.isLt = atA V c t h0 := by
  obtain ⟨n, hn⟩ := t
  cases n with
  | zero => rfl
  | succ n => exact (dif_pos h0).trans rfl

theorem outsAt1_C (c : Dev nD) (t : Fin cfg1.N) (h0 : ¬t.val % 2 = 0) :
    outsAt1 V c t.val t.isLt
      = atC V c t h0 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ Rest1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt1 V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = (outsAt1 V c t.val t.isLt).1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg1.N = 4 from N_1)
  rw [show (dat V c).leavesExact 0 t = owns (c : Thread nD τ) (ms1_0 t) fullShare ((dat V c).after 0 t) from by
      unfold Dat.leavesExact; rw [liveAt1_0 t], after1_0]
  rw [show (dat V c).leavesExact 1 t = owns (c : Thread nD τ) (ms1_1 t) fullShare ((dat V c).after 1 t) from by
      unfold Dat.leavesExact; rw [liveAt1_1 t], after1_1]
  by_cases h0 : t.val % 2 = 0
  · rw [Dat.leavesExact_idle (dat V c) 2 t (idleAt1_2_A t (c0_of_even t h0) (nc1_of_even t h0)) (noFlush1_2_A t (c0_of_even t h0) (nc1_of_even t h0))]
    rw [outsAt1_A V c t h0]
    unfold atA sout1_A_0; (try dsimp only)
    by_cases hz : t.val = 0
    · rw [PhiS_castSucc V c t, PhiS_zero V c _ _ hz, PhiA1_eq]
      iintro ⟨⟨⟨HS0, HR⟩, Hg⟩, Ho, ⟨%d0, H0⟩, ⟨%d1, H1⟩, ⟨%d2, H2⟩⟩
      iapply ((kernelRun1_A c (grid1.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun1_A c (grid1.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    rw [show (dat V c).leavesExact 2 t = owns (c : Thread nD τ) (ms1_2 t) fullShare ((dat V c).after 2 t) from by
      unfold Dat.leavesExact; rw [liveAt1_2_C t (nc0_of_odd t h0) (c1_of_odd t h0)], after1_2]
    rw [outsAt1_C V c t h0]
    unfold atC out1_C_2 sout1_C_0; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun1_C c (grid1.coords t) _ _ _ _ _ _ _ _ (nc0_of_odd t h0) (c1_of_odd t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover1_C_2 c _ _ _ _ _ _ _ _ _ _ _ _ _ _)

theorem body_obligation (c : Dev nD) : BodyObligation (dat V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS0, HR⟩, Hg⟩
  isplitl [HS0 HR]
  · isplitl [HS0]
    · iexists _; iexact HS0
    iexact HR
  iexact Hg

theorem hout (c : Dev nD) : (dat V c).Φ (Fin.last cfg1.N) ⊢ Pipeline.ΦA spec1 c :=
  Phi_out V c _ (by rw [Fin.val_last]; have : cfg1.N = 4 := N_1; omega)

end Cert.KernelIdeal.Hand.R1

end
-- ==== Proof.KR2Runs.lean ====
import proofs.«409303_j18760417149025_3_alg».proof.Proof.Gen.KernelIdeal.Launch
import proofs.«409303_j18760417149025_3_alg».proof.Proof.Gen.KernelIdeal.Skeleton
import proofs.«409303_j18760417149025_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c)
    (hA : dat.A 0 = V c (Pipeline.arrRef spec2 0)) (hafter : ∀ t, dat.after 0 t = iblk V c 0 t)
    (t : Fin cfg2.N) (d) : dat.before 0 t d = iblk V c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before2_1_of {c : Dev nD} (dat : Dat τ (Elt F) Unit ℕ (UR sig nD τ) ℕ cfg2 c)
    (hA : dat.A 1 = V c (Pipeline.arrRef spec2 1)) (hafter : ∀ t, dat.after 1 t = iblk V c 1 t)
    (t : Fin cfg2.N) (d) : dat.before 1 t d = iblk V c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)

abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) →
    cfg2.idle 2 (grid2.coords t) = true := by decide +kernel
theorem noFlush2_2_A : ∀ t : Fin cfg2.N, cond2_0 (grid2.coords t) → ¬cond2_1 (grid2.coords t) →
    (cfg2.win 2).flush t = false := by decide +kernel
theorem liveAt2_2_C : ∀ t : Fin cfg2.N, ¬cond2_0 (grid2.coords t) → cond2_1 (grid2.coords t) →
    cfg2.idle 2 (grid2.coords t) = false := by decide +kernel

abbrev VO2_2 : View sig .tc .vmem S1x128 .f32 := (Memref.whole cc2_stg2_0 : Memref sig .tc .vmem S1x128 .f32).view
abbrev ms2_0 (t : Fin cfg2.N) : Memref sig .tc .vmem S32x5x40x40 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x5x40x40 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev scM2_0 : Memref sig .tc .vmem S1x128 .f32 := Memref.whole cc2_scratch0
abbrev VS2_0 : View sig .tc .vmem S1x128 .f32 := scM2_0.view

abbrev Rest2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

end Cert.KernelIdeal.Hand.R2

end
-- ==== Proof.KR2RunA.lean ====
import proofs.«409303_j18760417149025_3_alg».proof.Proof.KR2Runs

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_A (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole)
    (hc0 : cond2_0 i) (hc1 : ¬cond2_1 i) (x0 : Vec F S32x5x40x40 .f32) (x1 : Vec F S32x5x40x40 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__loss_kernel i arg2 harg2 arg3 harg3 arg4 harg4 arg5 harg5) K } := by
  refine ⟨[], ?_, fun xi2 E K => ?run⟩
  case run =>
    simp only [cc2__loss_kernel_eq_skeleton]; unfold cc2__loss_kernel_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand.R2

end
-- ==== Proof.KR2RunC.lean ====
import proofs.«409303_j18760417149025_3_alg».proof.Proof.KR2RunA

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun2_C (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole)
    (hc0 : ¬cond2_0 i) (hc1 : cond2_1 i) (x0 : Vec F S32x5x40x40 .f32) (x1 : Vec F S32x5x40x40 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__loss_kernel i arg2 harg2 arg3 harg3 arg4 harg4 arg5 harg5) K } := by
  refine ⟨?_, ?_, fun E K => ?run⟩
  case run =>
    simp only [cc2__loss_kernel_eq_skeleton]; unfold cc2__loss_kernel_skel
    simp only [k2_part1_eq_skeleton, k2_part2_eq_skeleton, k2_part3_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand.R2

end
-- ==== Proof.KR2Dat.lean ====
import proofs.«409303_j18760417149025_3_alg».proof.Proof.KR2RunC

set_option maxRecDepth 16384

noncomputable section

namespace Cert.KernelIdeal.Hand.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def out2_A_2 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S32x5x40x40 .f32) (x1 : Vec F S32x5x40x40 .f32) : Vec F S1x128 .f32 :=
  VO2_2.read (Elt F) (VO2_2.writes (Elt F) VO2_2.junk (kernelRun2_A c i arg2 harg2 arg3 harg3 arg4 harg4 arg5 harg5 hc0 hc1 x0 x1).1)

theorem scover2_A_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S32x5x40x40 .f32) (x1 : Vec F S32x5x40x40 .f32) (y : S1x128.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S1x128.size (by sl_kernel_rfl) y

def sout2_A_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S32x5x40x40 .f32) (x1 : Vec F S32x5x40x40 .f32) : Vec F S1x128 .f32 :=
  VS2_0.read (Elt F) (VS2_0.writes (Elt F) VS2_0.junk (kernelRun2_A c i arg2 harg2 arg3 harg3 arg4 harg4 arg5 harg5 hc0 hc1 x0 x1).2.1)

theorem cover2_C_2 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) (y : S1x128.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S1x128.size (by sl_kernel_rfl) y

def out2_C_2 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) : Vec F S1x128 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) (y : S1x128.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S1x128.size (by sl_kernel_rfl) y

def sout2_C_0 (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) : Vec F S1x128 .f32 :=
  VS2_0.read (Elt F) (VS2_0.writes (Elt F) VS2_0.junk (kernelRun2_C c i arg2 harg2 arg3 harg3 arg4 harg4 arg5 harg5 hc0 hc1 x0 x1 xs0).2.1)

theorem c0_of_even (t : Fin cfg2.N) (h0 : t.val % 2 = 0) : cond2_0 (grid2.coords t) := (hcond2_0 t).mpr h0
theorem nc1_of_even (t : Fin cfg2.N) (h0 : t.val % 2 = 0) : ¬cond2_1 (grid2.coords t) :=
  fun h => by have := (hcond2_1 t).mp h; omega
theorem nc0_of_odd (t : Fin cfg2.N) (h0 : ¬t.val % 2 = 0) : ¬cond2_0 (grid2.coords t) := fun h => h0 ((hcond2_0 t).mp h)
theorem c1_of_odd (t : Fin cfg2.N) (h0 : ¬t.val % 2 = 0) : cond2_1 (grid2.coords t) := (hcond2_1 t).mpr (by omega)

def atA (c : Dev nD) (t : Fin cfg2.N) (h0 : t.val % 2 = 0) : Vec F S1x128 .f32 × Vec F S1x128 .f32 :=
  (out2_A_2 c (grid2.coords t) (ms2_0 t) (hs2_0 t) (ms2_1 t) (hs2_1 t) (ms2_2 t) (hs2_2 t) scM2_0 (Memref.isWhole_whole _) (c0_of_even t h0) (nc1_of_even t h0) (iblk V c 0 t) (iblk V c 1 t), sout2_A_0 c (grid2.coords t) (ms2_0 t) (hs2_0 t) (ms2_1 t) (hs2_1 t) (ms2_2 t) (hs2_2 t) scM2_0 (Memref.isWhole_whole _) (c0_of_even t h0) (nc1_of_even t h0) (iblk V c 0 t) (iblk V c 1 t))

def atC (c : Dev nD) (t : Fin cfg2.N) (h0 : ¬t.val % 2 = 0) (xs : Vec F S1x128 .f32) : Vec F S1x128 .f32 × Vec F S1x128 .f32 :=
  (out2_C_2 c (grid2.coords t) (ms2_0 t) (hs2_0 t) (ms2_1 t) (hs2_1 t) (ms2_2 t) (hs2_2 t) scM2_0 (Memref.isWhole_whole _) (nc0_of_odd t h0) (c1_of_odd t h0) (iblk V c 0 t) (iblk V c 1 t) xs, sout2_C_0 c (grid2.coords t) (ms2_0 t) (hs2_0 t) (ms2_1 t) (hs2_1 t) (ms2_2 t) (hs2_2 t) scM2_0 (Memref.isWhole_whole _) (nc0_of_odd t h0) (c1_of_odd t h0) (iblk V c 0 t) (iblk V c 1 t) xs)

def outsAt2 (c : Dev nD) : (n : ℕ) → n < cfg2.N → Vec F S1x128 .f32 × Vec F S1x128 .f32
  | 0, hn => atA V c ⟨0, hn⟩ (Nat.zero_mod _)
  | n + 1, hn =>
    if h0 : (n + 1) % 2 = 0 then atA V c ⟨n + 1, hn⟩ h0
    else atC V c ⟨n + 1, hn⟩ h0 (outsAt2 c n (Nat.lt_of_succ_lt hn)).2

theorem outsAt2_A (c : Dev nD) (t : Fin cfg2.N) (h0 : t.val % 2 = 0) :
    outsAt2 V c t.val t.isLt = atA V c t h0 := by
  obtain ⟨n, hn⟩ := t
  cases n with
  | zero => rfl
  | succ n => exact (dif_pos h0).trans rfl

theorem outsAt2_C (c : Dev nD) (t : Fin cfg2.N) (h0 : ¬t.val % 2 = 0) :
    outsAt2 V c t.val t.isLt
      = atC V c t h0 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans rfl

def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ Rest2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => (outsAt2 V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after2_0 (c : Dev nD) (t : Fin cfg2.N) : (dat V c).after 0 t = iblk V c 0 t := by dsimp only [dat]
theorem after2_1 (c : Dev nD) (t : Fin cfg2.N) : (dat V c).after 1 t = iblk V c 1 t := by dsimp only [dat]
theorem after2_2 (c : Dev nD) (t : Fin cfg2.N) : (dat V c).after 2 t = (outsAt2 V c t.val t.isLt).1 := by dsimp only [dat]

theorem before2_0 (c : Dev nD) (t : Fin cfg2.N) (d) : (dat V c).before 0 t d = iblk V c 0 t :=
  before2_0_of V (dat V c) (A_eq V c 0) (after2_0 V c) t d
theorem before2_1 (c : Dev nD) (t : Fin cfg2.N) (d) : (dat V c).before 1 t d = iblk V c 1 t :=
  before2_1_of V (dat V c) (A_eq V c 1) (after2_1 V c) t d

def bodyPre (c : Dev nD) (t : Fin cfg2.N) : sProp 𝕄 :=
  iprop((dat V c).Φ t.castSucc ∗ (dat V c).owesAt () t.castSucc
    ∗ (∃ d, owns (c : Thread nD τ) (ms2_0 t) fullShare ((dat V c).before 0 t d))
    ∗ (∃ d, owns (c : Thread nD τ) (ms2_1 t) fullShare ((dat V c).before 1 t d))
    ∗ (∃ d, owns (c : Thread nD τ) (ms2_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before2_0, before2_1]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg2.N = 4 from N_2)
  rw [show (dat V c).leavesExact 0 t = owns (c : Thread nD τ) (ms2_0 t) fullShare ((dat V c).after 0 t) from by
      unfold Dat.leavesExact; rw [liveAt2_0 t], after2_0]
  rw [show (dat V c).leavesExact 1 t = owns (c : Thread nD τ) (ms2_1 t) fullShare ((dat V c).after 1 t) from by
      unfold Dat.leavesExact; rw [liveAt2_1 t], after2_1]
  by_cases h0 : t.val % 2 = 0
  · rw [Dat.leavesExact_idle (dat V c) 2 t (idleAt2_2_A t (c0_of_even t h0) (nc1_of_even t h0)) (noFlush2_2_A t (c0_of_even t h0) (nc1_of_even t h0))]
    rw [outsAt2_A V c t h0]
    unfold atA sout2_A_0; (try dsimp only)
    by_cases hz : t.val = 0
    · rw [PhiS_castSucc V c t, PhiS_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HR⟩, Hg⟩, Ho, ⟨%d0, H0⟩, ⟨%d1, H1⟩, ⟨%d2, H2⟩⟩
      iapply ((kernelRun2_A c (grid2.coords t) _ _ _ _ _ _ _ _ (c0_of_even t h0) (nc1_of_even t h0) (iblk V c 0 t) (iblk V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := by omega
    rw [show (dat V c).leavesExact 2 t = owns (c : Thread nD τ) (ms2_2 t) fullShare ((dat V c).after 2 t) from by
      unfold Dat.leavesExact; rw [liveAt2_2_C t (nc0_of_odd t h0) (c1_of_odd t h0)], after2_2]
    rw [outsAt2_C V c t h0]
    unfold atC out2_C_2 sout2_C_0; (try dsimp only)
    rw [PhiS_castSucc V c t, PhiS_pos V c _ _ hz]
    iintro ⟨⟨⟨HS0, HR⟩, Hg⟩, Ho, ⟨%d0, H0⟩, ⟨%d1, H1⟩, ⟨%d2, H2⟩⟩
    iapply ((kernelRun2_C c (grid2.coords t) _ _ _ _ _ _ _ _ (nc0_of_odd t h0) (c1_of_odd t h0) (iblk V c 0 t) (iblk V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C_0 c _ _ _ _ _ _ _ _ _ _ _ _ _ _)
        iexact HR
      iexact Hg
    isplitl [Ho]; · iexact Ho
    isplitl [H0]; · iexact H0
    isplitl [H1]; · iexact H1
    unfold owns; iexists _; isplitr
    swap; · iexact H2
    ipureintro; exact View.read_writes_of_cover _ _ _ _ _ (cover2_C_2 c _ _ _ _ _ _ _ _ _ _ _ _ _ _)

theorem body_obligation (c : Dev nD) : BodyObligation (dat V c) (defs₀ (F := F)) Variants.none () Set.univ := fun t => by
  rw [bigSep_W2, bigSep_W2]
  exact sound_body V c t

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA2_eq]
  iintro ⟨⟨HS0, HR⟩, Hg⟩
  isplitl [HS0 HR]
  · isplitl [HS0]
    · iexists _; iexact HS0
    iexact HR
  iexact Hg

theorem hout (c : Dev nD) : (dat V c).Φ (Fin.last cfg2.N) ⊢ Pipeline.ΦA spec2 c :=
  Phi_out V c _ (by rw [Fin.val_last]; have : cfg2.N = 4 := N_2; omega)

end Cert.KernelIdeal.Hand.R2

end
-- ==== Proof.KLaunch.lean ====
import proofs.«409303_j18760417149025_3_alg».proof.Proof.KLaunchOf
import proofs.«409303_j18760417149025_3_alg».proof.Proof.KR0Dat
import proofs.«409303_j18760417149025_3_alg».proof.Proof.KR1Dat
import proofs.«409303_j18760417149025_3_alg».proof.Proof.KR2Dat

set_option maxRecDepth 2684

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

@[reducible] def D0 : LaunchOf.RegData (F := F) cfg0 where
  dat := R0.dat
  A_eq := R0.A_eq
  q_eq _ _ _ := rfl
  owed_eq _ _ _ := rfl
  rec_eq _ _ _ := rfl
  body := R0.body_obligation
  hin := R0.hin
  hout := R0.hout

@[reducible] def D1 : LaunchOf.RegData (F := F) cfg1 where
  dat := R1.dat
  A_eq := R1.A_eq
  q_eq _ _ _ := rfl
  owed_eq _ _ _ := rfl
  rec_eq _ _ _ := rfl
  body := R1.body_obligation
  hin := R1.hin
  hout := R1.hout

@[reducible] def D2 : LaunchOf.RegData (F := F) cfg2 where
  dat := R2.dat
  A_eq := R2.A_eq
  q_eq _ _ _ := rfl
  owed_eq _ _ _ := rfl
  rec_eq _ _ _ := rfl
  body := R2.body_obligation
  hin := R2.hin
  hout := R2.hout

variable (m : (ℓ : Loc nD τ sig) → Buf (Elt F) ℓ)

abbrev pdats : (p : Fin 3) → (c : Dev nD) → Dat τ (Elt F) Unit ℕ (UR sig nD τ) ℕ (cfgs p) c :=
  LaunchOf.pdats (F := F) D0 D1 D2 m

abbrev outsH : GenP.Outs (F := F) := LaunchOf.outsH (F := F) D0 D1 D2 m

abbrev reg0 := LaunchOf.reg0 (F := F) D0 D1 D2 m
abbrev reg1 := LaunchOf.reg1 (F := F) D0 D1 D2 m
abbrev reg2 := LaunchOf.reg2 (F := F) D0 D1 D2 m

theorem outsH_8 (c : Dev nD) :
    outsH m 8 main_v82 c = (R0.dat (fun c b => GenP.V7 m c b) c).arrAt 2 cfg0.N :=
  LaunchOf.outsH_8_eq D0 D1 D2 m c
theorem outsH_22 (c : Dev nD) :
    outsH m 22 main_v202 c = (R1.dat (fun c b => GenP.V21 m (outsH m) c b) c).arrAt 2 cfg1.N :=
  LaunchOf.outsH_22_eq D0 D1 D2 m c
theorem outsH_36 (c : Dev nD) :
    outsH m 36 main_v320 c = (R2.dat (fun c b => GenP.V35 m (outsH m) c b) c).arrAt 2 cfg2.N :=
  LaunchOf.outsH_36_eq D0 D1 D2 m c

theorem run_main (ρ : Dev nD → PrngReg) :
    θ_run (defs (F := F)) (onTc (τ := τ) (main (F := F))) ⟨m, fun _ => 0, ρ⟩ (fun r => ∀ c : Dev nD,
      r.2.mem ((c.tc : Thread nD τ).loc main_v357) = GenP.V43 m (outsH m) c main_v357
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  LaunchOf.run_main_of D0 D1 D2 m ρ

theorem frame (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  LaunchOf.frame_of D0 D1 D2 m ρ

end Cert.KernelIdeal.Hand

end
-- ==== Proof.KerFun.lean ====
import proofs.«409303_j18760417149025_3_alg».proof.KernelIdeal

noncomputable section

namespace Cert.KernelIdeal.Hand

open Idealize.ShloMosaic
open Cert.KernelIdeal Cert.KernelIdeal.Facts₀ Cert.KernelIdeal.Facts

variable [Cert.KernelIdeal.Facts] {F : FTy → Type} [FloatOps F]

def kerVal_part42 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_v239 : FVec F S_ .f32) (main_v343 : FVec F S_ .f32) (main_v347 : FVec F S_ .f32) (main_v352 : FVec F S_ .f32) : FVec F S_ .f32 :=
  let main_cst_111 := constant S_ .f32 0x3D4CCCCD#32
  let main_v353 := mulf main_cst_111 main_v352
  let main_v354 := addf main_v347 main_v353
  let main_cst_112 := constant S_ .f32 0x3F800000#32
  let main_v355 := mulf main_v354 main_cst_112
  let main_v356 := addf main_v239 main_v343
  let main_v357 := addf main_v356 main_v355
  main_v357

def kerVal_part41 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_v239 : FVec F S_ .f32) (main_v343 : FVec F S_ .f32) (main_v347 : FVec F S_ .f32) (main_v350 : FVec F S_ .f32) (main_v351 : IVec S_ 1) (main_cst_110 : FVec F S_ .f32) : FVec F S_ .f32 :=
  let main_call17_v0 := id main_cst_110
  let main_v352 := select main_v351 main_v350 main_call17_v0
  kerVal_part42 (F := F) R0 R1 R2 main_v239 main_v343 main_v347 main_v352

def kerVal_part40 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_v239 : FVec F S_ .f32) (main_v331 : FVec F S_ .f32) (main_v335 : FVec F S_ .f32) (main_v343 : FVec F S_ .f32) (main_v347 : FVec F S_ .f32) : FVec F S_ .f32 :=
  let main_cst_107 := constant S_ .f32 0x48480000#32
  let main_v348 := subf main_cst_107 main_v331
  let main_cst_108 := constant S_ .f32 0x3F800000#32
  let main_v349 := maximumf main_v348 main_cst_108
  let main_v350 := Host.divf main_v335 main_v349
  let main_cst_109 := constant S_ .f32 0x00000000#32
  let main_v351 := cmpf .ogt main_v348 main_cst_109
  let main_cst_110 := constant S_ .f32 0x00000000#32
  kerVal_part41 (F := F) R0 R1 R2 main_v239 main_v343 main_v347 main_v350 main_v351 main_cst_110

def kerVal_part39 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_v239 : FVec F S_ .f32) (main_v331 : FVec F S_ .f32) (main_v335 : FVec F S_ .f32) (main_v343 : FVec F S_ .f32) (main_v345 : FVec F S_ .f32) (main_v346 : IVec S_ 1) (main_cst_106 : FVec F S_ .f32) : FVec F S_ .f32 :=
  let main_call16_v0 := id main_cst_106
  let main_v347 := select main_v346 main_v345 main_call16_v0
  kerVal_part40 (F := F) R0 R1 R2 main_v239 main_v331 main_v335 main_v343 main_v347

def kerVal_part38 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_v239 : FVec F S_ .f32) (main_v331 : FVec F S_ .f32) (main_v333 : FVec F S_ .f32) (main_v335 : FVec F S_ .f32) (main_v342 : FVec F S_ .f32) : FVec F S_ .f32 :=
  let main_cst_103 := constant S_ .f32 0x41100000#32
  let main_v343 := mulf main_v342 main_cst_103
  let main_cst_104 := constant S_ .f32 0x3F800000#32
  let main_v344 := maximumf main_v331 main_cst_104
  let main_v345 := Host.divf main_v333 main_v344
  let main_cst_105 := constant S_ .f32 0x00000000#32
  let main_v346 := cmpf .ogt main_v331 main_cst_105
  let main_cst_106 := constant S_ .f32 0x00000000#32
  kerVal_part39 (F := F) R0 R1 R2 main_v239 main_v331 main_v335 main_v343 main_v345 main_v346 main_cst_106

def kerVal_part37 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_v239 : FVec F S_ .f32) (main_v331 : FVec F S_ .f32) (main_v333 : FVec F S_ .f32) (main_v335 : FVec F S_ .f32) (main_v340 : IVec S_ 1) (main_v341 : FVec F S_ .f32) (main_cst_102 : FVec F S_ .f32) : FVec F S_ .f32 :=
  let main_call15_v0 := id main_cst_102
  let main_v342 := select main_v340 main_v341 main_call15_v0
  kerVal_part38 (F := F) R0 R1 R2 main_v239 main_v331 main_v333 main_v335 main_v342

def kerVal_part36 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_v239 : FVec F S_ .f32) (main_v320 : FVec F S1x256 .f32) : FVec F S_ .f32 :=
  let main_v321 := (extractStridedSlice S1x128 ![0, 0] · slices_S1x256_S1x128_0_0) main_v320
  let main_v322 := shapeCast S128 main_v321 shapeCasts_S1x128_S128
  let main_v323 := (extractStridedSlice S1x128 ![0, 128] · slices_S1x256_S1x128_0_128) main_v320
  let main_v324 := shapeCast S128 main_v323 shapeCasts_S1x128_S128
  let main_v325 := addf main_v322 main_v324
  let main_v326 := (extractStridedSlice S1 ![0] · slices_S128_S1_0) main_v325
  let main_v327 := shapeCast S_ main_v326 shapeCasts_S1_S_
  let main_v328 := (extractStridedSlice S1 ![1] · slices_S128_S1_1) main_v325
  let main_v329 := shapeCast S_ main_v328 shapeCasts_S1_S_
  let main_v330 := (extractStridedSlice S1 ![2] · slices_S128_S1_2) main_v325
  let main_v331 := shapeCast S_ main_v330 shapeCasts_S1_S_
  let main_v332 := (extractStridedSlice S1 ![3] · slices_S128_S1_3) main_v325
  let main_v333 := shapeCast S_ main_v332 shapeCasts_S1_S_
  let main_v334 := (extractStridedSlice S1 ![4] · slices_S128_S1_4) main_v325
  let main_v335 := shapeCast S_ main_v334 shapeCasts_S1_S_
  let main_cst_99 := constant S_ .f32 0x3F800000#32
  let main_v336 := maximumf main_v331 main_cst_99
  let main_cst_100 := constant S_ .f32 0x40000000#32
  let main_v337 := mulf main_v336 main_cst_100
  let main_v338 := Host.divf main_v327 main_v337
  let main_v339 := Host.divf main_v329 main_v337
  let main_cst_101 := constant S_ .f32 0x00000000#32
  let main_v340 := cmpf .ogt main_v331 main_cst_101
  let main_v341 := addf main_v338 main_v339
  let main_cst_102 := constant S_ .f32 0x00000000#32
  kerVal_part37 (F := F) R0 R1 R2 main_v239 main_v331 main_v333 main_v335 main_v340 main_v341 main_cst_102

def kerVal_part35 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v319 : FVec F S128x5x40x40 .f32) : FVec F S_ .f32 :=
  let main_v320 := R2 main_arg2 main_v319
  kerVal_part36 (F := F) R0 R1 R2 main_v239 main_v320

def kerVal_part34_1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v256 : IVec S4096 32) (main_v258 : IVec S4096 32) (main_v273 : FVec F S4096x5 .f32) (main_v299 : FVec F S128x5x40x40 .f32) (main_v304 : IVec S4096 32) (main_v306 : IVec S4096 1) (main_v307 : IVec S4096 32) : FVec F S_ .f32 :=
  let main_v308 := addi main_v258 main_v307
  let main_v309 := select main_v306 main_v308 main_v258
  let main_c_97 := constantI S_ 32 0#32
  let main_v310 := broadcastInDim S4096 ![] bcast_S_S4096 main_c_97
  let main_v311 := cmpi .slt main_v256 main_v310
  let main_c_98 := constantI S_ 32 40#32
  let main_v312 := broadcastInDim S4096 ![] bcast_S_S4096 main_c_98
  let main_v313 := addi main_v256 main_v312
  let main_v314 := select main_v311 main_v313 main_v256
  let main_v315 := broadcastInDim S4096x1 ![0] bcast_S4096_S4096x1_0 main_v304
  let main_v316 := broadcastInDim S4096x1 ![0] bcast_S4096_S4096x1_0 main_v309
  let main_v317 := broadcastInDim S4096x1 ![0] bcast_S4096_S4096x1_0 main_v314
  let main_v318 := concatenate S4096x3 1 [⟨S4096x1, main_v315⟩, ⟨S4096x1, main_v316⟩, ⟨S4096x1, main_v317⟩] concatenates_S4096x1_S4096x1_S4096x1_S4096x3_d1
  let main_v319 := (fun x i u => Host.scatter scatter_S128x5x40x40_S4096x3_S4096x5_1_023_023_1 (fun _ b => b) x i u) main_v299 main_v318 main_v273
  kerVal_part35 (F := F) R0 R1 R2 main_arg2 main_v239 main_v319

def kerVal_part34 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v256 : IVec S4096 32) (main_v258 : IVec S4096 32) (main_v273 : FVec F S4096x5 .f32) (main_v298 : IVec S4096 32) : FVec F S_ .f32 :=
  let main_cst_92 := constant S_ .f32 0x00000000#32
  let main_v299 := broadcastInDim S128x5x40x40 ![] bcast_S_S128x5x40x40 main_cst_92
  let main_c_93 := constantI S_ 32 0#32
  let main_v300 := broadcastInDim S4096 ![] bcast_S_S4096 main_c_93
  let main_v301 := cmpi .slt main_v298 main_v300
  let main_c_94 := constantI S_ 32 128#32
  let main_v302 := broadcastInDim S4096 ![] bcast_S_S4096 main_c_94
  let main_v303 := addi main_v298 main_v302
  let main_v304 := select main_v301 main_v303 main_v298
  let main_c_95 := constantI S_ 32 0#32
  let main_v305 := broadcastInDim S4096 ![] bcast_S_S4096 main_c_95
  let main_v306 := cmpi .slt main_v258 main_v305
  let main_c_96 := constantI S_ 32 40#32
  let main_v307 := broadcastInDim S4096 ![] bcast_S_S4096 main_c_96
  kerVal_part34_1 (F := F) R0 R1 R2 main_arg2 main_v239 main_v256 main_v258 main_v273 main_v299 main_v304 main_v306 main_v307

def kerVal_part33 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v242 : IVec S4096 32) (main_v256 : IVec S4096 32) (main_v258 : IVec S4096 32) (main_v273 : FVec F S4096x5 .f32) (main_v297 : IVec S4096 1) (main_c_91 : IVec S_ 32) : FVec F S_ .f32 :=
  let main_call14_v0 := id main_c_91
  let main_call14_v1 := broadcastInDim S4096 ![] bcast_S_S4096 main_call14_v0
  let main_v298 := select main_v297 main_v242 main_call14_v1
  kerVal_part34 (F := F) R0 R1 R2 main_arg2 main_v239 main_v256 main_v258 main_v273 main_v298

def kerVal_part32_1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v242 : IVec S4096 32) (main_v256 : IVec S4096 32) (main_v258 : IVec S4096 32) (main_v273 : FVec F S4096x5 .f32) (main_v278 : IVec S4096 32) : FVec F S_ .f32 :=
  let main_v279 := addi main_v278 main_v256
  let main_c_86 := constantI S_ 32 0#32
  let main_v280 := broadcastInDim S204800 ![] bcast_S_S204800 main_c_86
  let main_v281 := iotaInDim S4096 32 0
  let main_c_87 := constantI S_ 32 0#32
  let main_v282 := broadcastInDim S4096 ![] bcast_S_S4096 main_c_87
  let main_v283 := cmpi .slt main_v279 main_v282
  let main_c_88 := constantI S_ 32 204800#32
  let main_v284 := broadcastInDim S4096 ![] bcast_S_S4096 main_c_88
  let main_v285 := addi main_v279 main_v284
  let main_v286 := select main_v283 main_v285 main_v279
  let main_v287 := broadcastInDim S4096x1 ![0] bcast_S4096_S4096x1_0 main_v286
  let main_v288 := (fun x i u => Host.scatter scatter_S204800_S4096x1_S4096_n_0_0_1 (fun _ b => b) x i u) main_v280 main_v287 main_v281
  let main_c_89 := constantI S_ 32 0#32
  let main_v289 := broadcastInDim S4096 ![] bcast_S_S4096 main_c_89
  let main_v290 := cmpi .slt main_v279 main_v289
  let main_c_90 := constantI S_ 32 204800#32
  let main_v291 := broadcastInDim S4096 ![] bcast_S_S4096 main_c_90
  let main_v292 := addi main_v279 main_v291
  let main_v293 := select main_v290 main_v292 main_v279
  let main_v294 := broadcastInDim S4096x1 ![0] bcast_S4096_S4096x1_0 main_v293
  let main_v295 := (fun x i => Host.gather gather_S204800_S4096x1_S4096_n_0_n_n_0_1_1 x i) main_v288 main_v294
  let main_v296 := iotaInDim S4096 32 0
  let main_v297 := cmpi .eq main_v295 main_v296
  let main_c_91 := constantI S_ 32 128#32
  kerVal_part33 (F := F) R0 R1 R2 main_arg2 main_v239 main_v242 main_v256 main_v258 main_v273 main_v297 main_c_91

def kerVal_part32 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v242 : IVec S4096 32) (main_v248 : FVec F S4096 .f32) (main_v250 : FVec F S4096 .f32) (main_v252 : FVec F S4096 .f32) (main_v254 : FVec F S4096 .f32) (main_v256 : IVec S4096 32) (main_v257 : FVec F S4096 .f32) : FVec F S_ .f32 :=
  let main_v258 := fptosi 32 main_v257
  let main_v259 := sitofp .f32 main_v256
  let main_v260 := subf main_v252 main_v259
  let main_v261 := sitofp .f32 main_v258
  let main_v262 := subf main_v254 main_v261
  let main_cst_81 := constant S_ .f32 0x42200000#32
  let main_v263 := broadcastInDim S4096 ![] bcast_S_S4096 main_cst_81
  let main_v264 := mulf main_v248 main_v263
  let main_cst_82 := constant S_ .f32 0x42200000#32
  let main_v265 := broadcastInDim S4096 ![] bcast_S_S4096 main_cst_82
  let main_v266 := mulf main_v250 main_v265
  let main_cst_83 := constant S_ .f32 0x3F800000#32
  let main_v267 := broadcastInDim S4096 ![] bcast_S_S4096 main_cst_83
  let main_v268 := broadcastInDim S4096x1 ![0] bcast_S4096_S4096x1_0 main_v260
  let main_v269 := broadcastInDim S4096x1 ![0] bcast_S4096_S4096x1_0 main_v262
  let main_v270 := broadcastInDim S4096x1 ![0] bcast_S4096_S4096x1_0 main_v264
  let main_v271 := broadcastInDim S4096x1 ![0] bcast_S4096_S4096x1_0 main_v266
  let main_v272 := broadcastInDim S4096x1 ![0] bcast_S4096_S4096x1_0 main_v267
  let main_v273 := concatenate S4096x5 1 [⟨S4096x1, main_v268⟩, ⟨S4096x1, main_v269⟩, ⟨S4096x1, main_v270⟩, ⟨S4096x1, main_v271⟩, ⟨S4096x1, main_v272⟩] concatenates_S4096x1_S4096x1_S4096x1_S4096x1_S4096x1_S4096x5_d1
  let main_c_84 := constantI S_ 32 40#32
  let main_v274 := broadcastInDim S4096 ![] bcast_S_S4096 main_c_84
  let main_v275 := muli main_v242 main_v274
  let main_v276 := addi main_v275 main_v258
  let main_c_85 := constantI S_ 32 40#32
  let main_v277 := broadcastInDim S4096 ![] bcast_S_S4096 main_c_85
  let main_v278 := muli main_v276 main_v277
  kerVal_part32_1 (F := F) R0 R1 R2 main_arg2 main_v239 main_v242 main_v256 main_v258 main_v273 main_v278

def kerVal_part31 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v242 : IVec S4096 32) (main_v248 : FVec F S4096 .f32) (main_v250 : FVec F S4096 .f32) (main_v252 : FVec F S4096 .f32) (main_v254 : FVec F S4096 .f32) (main_v256 : IVec S4096 32) (main_c_79 : IVec S_ 32) (main_c_80 : IVec S_ 32) : FVec F S_ .f32 :=
  let main_call13_v0 := sitofp .f32 main_c_79
  let main_call13_v1 := broadcastInDim S4096 ![] bcast_S_S4096 main_call13_v0
  let main_call13_v2 := maximumf main_call13_v1 main_v254
  let main_call13_v3 := sitofp .f32 main_c_80
  let main_call13_v4 := broadcastInDim S4096 ![] bcast_S_S4096 main_call13_v3
  let main_v257 := minimumf main_call13_v4 main_call13_v2
  kerVal_part32 (F := F) R0 R1 R2 main_arg2 main_v239 main_v242 main_v248 main_v250 main_v252 main_v254 main_v256 main_v257

def kerVal_part30 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v242 : IVec S4096 32) (main_v248 : FVec F S4096 .f32) (main_v250 : FVec F S4096 .f32) (main_v252 : FVec F S4096 .f32) (main_v254 : FVec F S4096 .f32) (main_v255 : FVec F S4096 .f32) : FVec F S_ .f32 :=
  let main_v256 := fptosi 32 main_v255
  let main_c_79 := constantI S_ 32 0#32
  let main_c_80 := constantI S_ 32 39#32
  kerVal_part31 (F := F) R0 R1 R2 main_arg2 main_v239 main_v242 main_v248 main_v250 main_v252 main_v254 main_v256 main_c_79 main_c_80

def kerVal_part29 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_v239 : FVec F S_ .f32) (main_v242 : IVec S4096 32) (main_v248 : FVec F S4096 .f32) (main_v250 : FVec F S4096 .f32) (main_v252 : FVec F S4096 .f32) (main_v254 : FVec F S4096 .f32) (main_c_77 : IVec S_ 32) (main_c_78 : IVec S_ 32) : FVec F S_ .f32 :=
  let main_call12_v0 := sitofp .f32 main_c_77
  let main_call12_v1 := broadcastInDim S4096 ![] bcast_S_S4096 main_call12_v0
  let main_call12_v2 := maximumf main_call12_v1 main_v252
  let main_call12_v3 := sitofp .f32 main_c_78
  let main_call12_v4 := broadcastInDim S4096 ![] bcast_S_S4096 main_call12_v3
  let main_v255 := minimumf main_call12_v4 main_call12_v2
  kerVal_part30 (F := F) R0 R1 R2 main_arg2 main_v239 main_v242 main_v248 main_v250 main_v252 main_v254 main_v255

def kerVal_part28 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v225 : FVec F S_ .f32) (main_v229 : FVec F S_ .f32) (main_v234 : FVec F S_ .f32) : FVec F S_ .f32 :=
  let main_cst_73 := constant S_ .f32 0x3D4CCCCD#32
  let main_v235 := mulf main_cst_73 main_v234
  let main_v236 := addf main_v229 main_v235
  let main_cst_74 := constant S_ .f32 0x3F800000#32
  let main_v237 := mulf main_v236 main_cst_74
  let main_v238 := addf main_v119 main_v225
  let main_v239 := addf main_v238 main_v237
  let main_v240 := (extractStridedSlice S4096x1 ![0, 0] · slices_S4096x6_S4096x1_0_0) main_arg3
  let main_v241 := shapeCast S4096 main_v240 shapeCasts_S4096x1_S4096
  let main_v242 := fptosi 32 main_v241
  let main_v243 := (extractStridedSlice S4096x1 ![0, 2] · slices_S4096x6_S4096x1_0_2) main_arg3
  let main_v244 := shapeCast S4096 main_v243 shapeCasts_S4096x1_S4096
  let main_v245 := (extractStridedSlice S4096x1 ![0, 3] · slices_S4096x6_S4096x1_0_3) main_arg3
  let main_v246 := shapeCast S4096 main_v245 shapeCasts_S4096x1_S4096
  let main_v247 := (extractStridedSlice S4096x1 ![0, 4] · slices_S4096x6_S4096x1_0_4) main_arg3
  let main_v248 := shapeCast S4096 main_v247 shapeCasts_S4096x1_S4096
  let main_v249 := (extractStridedSlice S4096x1 ![0, 5] · slices_S4096x6_S4096x1_0_5) main_arg3
  let main_v250 := shapeCast S4096 main_v249 shapeCasts_S4096x1_S4096
  let main_cst_75 := constant S_ .f32 0x42200000#32
  let main_v251 := broadcastInDim S4096 ![] bcast_S_S4096 main_cst_75
  let main_v252 := mulf main_v244 main_v251
  let main_cst_76 := constant S_ .f32 0x42200000#32
  let main_v253 := broadcastInDim S4096 ![] bcast_S_S4096 main_cst_76
  let main_v254 := mulf main_v246 main_v253
  let main_c_77 := constantI S_ 32 0#32
  let main_c_78 := constantI S_ 32 39#32
  kerVal_part29 (F := F) R0 R1 R2 main_arg2 main_v239 main_v242 main_v248 main_v250 main_v252 main_v254 main_c_77 main_c_78

def kerVal_part27 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v225 : FVec F S_ .f32) (main_v229 : FVec F S_ .f32) (main_v232 : FVec F S_ .f32) (main_v233 : IVec S_ 1) (main_cst_72 : FVec F S_ .f32) : FVec F S_ .f32 :=
  let main_call11_v0 := id main_cst_72
  let main_v234 := select main_v233 main_v232 main_call11_v0
  kerVal_part28 (F := F) R0 R1 R2 main_arg2 main_arg3 main_v119 main_v225 main_v229 main_v234

def kerVal_part26 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v213 : FVec F S_ .f32) (main_v217 : FVec F S_ .f32) (main_v225 : FVec F S_ .f32) (main_v229 : FVec F S_ .f32) : FVec F S_ .f32 :=
  let main_cst_69 := constant S_ .f32 0x49480000#32
  let main_v230 := subf main_cst_69 main_v213
  let main_cst_70 := constant S_ .f32 0x3F800000#32
  let main_v231 := maximumf main_v230 main_cst_70
  let main_v232 := Host.divf main_v217 main_v231
  let main_cst_71 := constant S_ .f32 0x00000000#32
  let main_v233 := cmpf .ogt main_v230 main_cst_71
  let main_cst_72 := constant S_ .f32 0x00000000#32
  kerVal_part27 (F := F) R0 R1 R2 main_arg2 main_arg3 main_v119 main_v225 main_v229 main_v232 main_v233 main_cst_72

def kerVal_part25 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v213 : FVec F S_ .f32) (main_v217 : FVec F S_ .f32) (main_v225 : FVec F S_ .f32) (main_v227 : FVec F S_ .f32) (main_v228 : IVec S_ 1) (main_cst_68 : FVec F S_ .f32) : FVec F S_ .f32 :=
  let main_call10_v0 := id main_cst_68
  let main_v229 := select main_v228 main_v227 main_call10_v0
  kerVal_part26 (F := F) R0 R1 R2 main_arg2 main_arg3 main_v119 main_v213 main_v217 main_v225 main_v229

def kerVal_part24 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v213 : FVec F S_ .f32) (main_v215 : FVec F S_ .f32) (main_v217 : FVec F S_ .f32) (main_v224 : FVec F S_ .f32) : FVec F S_ .f32 :=
  let main_cst_65 := constant S_ .f32 0x40F00000#32
  let main_v225 := mulf main_v224 main_cst_65
  let main_cst_66 := constant S_ .f32 0x3F800000#32
  let main_v226 := maximumf main_v213 main_cst_66
  let main_v227 := Host.divf main_v215 main_v226
  let main_cst_67 := constant S_ .f32 0x00000000#32
  let main_v228 := cmpf .ogt main_v213 main_cst_67
  let main_cst_68 := constant S_ .f32 0x00000000#32
  kerVal_part25 (F := F) R0 R1 R2 main_arg2 main_arg3 main_v119 main_v213 main_v217 main_v225 main_v227 main_v228 main_cst_68

def kerVal_part23 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v213 : FVec F S_ .f32) (main_v215 : FVec F S_ .f32) (main_v217 : FVec F S_ .f32) (main_v222 : IVec S_ 1) (main_v223 : FVec F S_ .f32) (main_cst_64 : FVec F S_ .f32) : FVec F S_ .f32 :=
  let main_call9_v0 := id main_cst_64
  let main_v224 := select main_v222 main_v223 main_call9_v0
  kerVal_part24 (F := F) R0 R1 R2 main_arg2 main_arg3 main_v119 main_v213 main_v215 main_v217 main_v224

def kerVal_part22 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v202 : FVec F S1x256 .f32) : FVec F S_ .f32 :=
  let main_v203 := (extractStridedSlice S1x128 ![0, 0] · slices_S1x256_S1x128_0_0) main_v202
  let main_v204 := shapeCast S128 main_v203 shapeCasts_S1x128_S128
  let main_v205 := (extractStridedSlice S1x128 ![0, 128] · slices_S1x256_S1x128_0_128) main_v202
  let main_v206 := shapeCast S128 main_v205 shapeCasts_S1x128_S128
  let main_v207 := addf main_v204 main_v206
  let main_v208 := (extractStridedSlice S1 ![0] · slices_S128_S1_0) main_v207
  let main_v209 := shapeCast S_ main_v208 shapeCasts_S1_S_
  let main_v210 := (extractStridedSlice S1 ![1] · slices_S128_S1_1) main_v207
  let main_v211 := shapeCast S_ main_v210 shapeCasts_S1_S_
  let main_v212 := (extractStridedSlice S1 ![2] · slices_S128_S1_2) main_v207
  let main_v213 := shapeCast S_ main_v212 shapeCasts_S1_S_
  let main_v214 := (extractStridedSlice S1 ![3] · slices_S128_S1_3) main_v207
  let main_v215 := shapeCast S_ main_v214 shapeCasts_S1_S_
  let main_v216 := (extractStridedSlice S1 ![4] · slices_S128_S1_4) main_v207
  let main_v217 := shapeCast S_ main_v216 shapeCasts_S1_S_
  let main_cst_61 := constant S_ .f32 0x3F800000#32
  let main_v218 := maximumf main_v213 main_cst_61
  let main_cst_62 := constant S_ .f32 0x40000000#32
  let main_v219 := mulf main_v218 main_cst_62
  let main_v220 := Host.divf main_v209 main_v219
  let main_v221 := Host.divf main_v211 main_v219
  let main_cst_63 := constant S_ .f32 0x00000000#32
  let main_v222 := cmpf .ogt main_v213 main_cst_63
  let main_v223 := addf main_v220 main_v221
  let main_cst_64 := constant S_ .f32 0x00000000#32
  kerVal_part23 (F := F) R0 R1 R2 main_arg2 main_arg3 main_v119 main_v213 main_v215 main_v217 main_v222 main_v223 main_cst_64

def kerVal_part21 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg2 : FVec F S128x5x40x40 .f32) (main_arg3 : FVec F S4096x6 .f32) (main_v119 : FVec F S_ .f32) (main_v200 : FVec F S128x5x50x128 .f32) (main_v201 : FVec F S128x5x50x128 .f32) : FVec F S_ .f32 :=
  let main_v202 := R1 main_v200 main_v201
  kerVal_part22 (F := F) R0 R1 R2 main_arg2 main_arg3 main_v119 main_v202

def kerVal_part20_1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v136 : IVec S4096 32) (main_v138 : IVec S4096 32) (main_v153 : FVec F S4096x5 .f32) (main_v179 : FVec F S128x5x80x80 .f32) (main_v184 : IVec S4096 32) (main_v186 : IVec S4096 1) (main_v188 : IVec S4096 32) : FVec F S_ .f32 :=
  let main_v189 := select main_v186 main_v188 main_v138
  let main_c_59 := constantI S_ 32 0#32
  let main_v190 := broadcastInDim S4096 ![] bcast_S_S4096 main_c_59
  let main_v191 := cmpi .slt main_v136 main_v190
  let main_c_60 := constantI S_ 32 80#32
  let main_v192 := broadcastInDim S4096 ![] bcast_S_S4096 main_c_60
  let main_v193 := addi main_v136 main_v192
  let main_v194 := select main_v191 main_v193 main_v136
  let main_v195 := broadcastInDim S4096x1 ![0] bcast_S4096_S4096x1_0 main_v184
  let main_v196 := broadcastInDim S4096x1 ![0] bcast_S4096_S4096x1_0 main_v189
  let main_v197 := broadcastInDim S4096x1 ![0] bcast_S4096_S4096x1_0 main_v194
  let main_v198 := concatenate S4096x3 1 [⟨S4096x1, main_v195⟩, ⟨S4096x1, main_v196⟩, ⟨S4096x1, main_v197⟩] concatenates_S4096x1_S4096x1_S4096x1_S4096x3_d1
  let main_v199 := (fun x i u => Host.scatter scatter_S128x5x80x80_S4096x3_S4096x5_1_023_023_1 (fun _ b => b) x i u) main_v179 main_v198 main_v153
  let main_v200 := shapeCast S128x5x50x128 main_arg1 shapeCasts_S128x5x80x80_S128x5x50x128
  let main_v201 := shapeCast S128x5x50x128 main_v199 shapeCasts_S128x5x80x80_S128x5x50x128
  kerVal_part21 (F := F) R0 R1 R2 main_arg2 main_arg3 main_v119 main_v200 main_v201

def kerVal_part20 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v136 : IVec S4096 32) (main_v138 : IVec S4096 32) (main_v153 : FVec F S4096x5 .f32) (main_v178 : IVec S4096 32) : FVec F S_ .f32 :=
  let main_cst_54 := constant S_ .f32 0x00000000#32
  let main_v179 := broadcastInDim S128x5x80x80 ![] bcast_S_S128x5x80x80 main_cst_54
  let main_c_55 := constantI S_ 32 0#32
  let main_v180 := broadcastInDim S4096 ![] bcast_S_S4096 main_c_55
  let main_v181 := cmpi .slt main_v178 main_v180
  let main_c_56 := constantI S_ 32 128#32
  let main_v182 := broadcastInDim S4096 ![] bcast_S_S4096 main_c_56
  let main_v183 := addi main_v178 main_v182
  let main_v184 := select main_v181 main_v183 main_v178
  let main_c_57 := constantI S_ 32 0#32
  let main_v185 := broadcastInDim S4096 ![] bcast_S_S4096 main_c_57
  let main_v186 := cmpi .slt main_v138 main_v185
  let main_c_58 := constantI S_ 32 80#32
  let main_v187 := broadcastInDim S4096 ![] bcast_S_S4096 main_c_58
  let main_v188 := addi main_v138 main_v187
  kerVal_part20_1 (F := F) R0 R1 R2 main_arg1 main_arg2 main_arg3 main_v119 main_v136 main_v138 main_v153 main_v179 main_v184 main_v186 main_v188

def kerVal_part19 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v122 : IVec S4096 32) (main_v136 : IVec S4096 32) (main_v138 : IVec S4096 32) (main_v153 : FVec F S4096x5 .f32) (main_v177 : IVec S4096 1) (main_c_53 : IVec S_ 32) : FVec F S_ .f32 :=
  let main_call8_v0 := id main_c_53
  let main_call8_v1 := broadcastInDim S4096 ![] bcast_S_S4096 main_call8_v0
  let main_v178 := select main_v177 main_v122 main_call8_v1
  kerVal_part20 (F := F) R0 R1 R2 main_arg1 main_arg2 main_arg3 main_v119 main_v136 main_v138 main_v153 main_v178

def kerVal_part18_1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v122 : IVec S4096 32) (main_v136 : IVec S4096 32) (main_v138 : IVec S4096 32) (main_v153 : FVec F S4096x5 .f32) (main_v158 : IVec S4096 32) : FVec F S_ .f32 :=
  let main_v159 := addi main_v158 main_v136
  let main_c_48 := constantI S_ 32 0#32
  let main_v160 := broadcastInDim S819200 ![] bcast_S_S819200 main_c_48
  let main_v161 := iotaInDim S4096 32 0
  let main_c_49 := constantI S_ 32 0#32
  let main_v162 := broadcastInDim S4096 ![] bcast_S_S4096 main_c_49
  let main_v163 := cmpi .slt main_v159 main_v162
  let main_c_50 := constantI S_ 32 819200#32
  let main_v164 := broadcastInDim S4096 ![] bcast_S_S4096 main_c_50
  let main_v165 := addi main_v159 main_v164
  let main_v166 := select main_v163 main_v165 main_v159
  let main_v167 := broadcastInDim S4096x1 ![0] bcast_S4096_S4096x1_0 main_v166
  let main_v168 := (fun x i u => Host.scatter scatter_S819200_S4096x1_S4096_n_0_0_1 (fun _ b => b) x i u) main_v160 main_v167 main_v161
  let main_c_51 := constantI S_ 32 0#32
  let main_v169 := broadcastInDim S4096 ![] bcast_S_S4096 main_c_51
  let main_v170 := cmpi .slt main_v159 main_v169
  let main_c_52 := constantI S_ 32 819200#32
  let main_v171 := broadcastInDim S4096 ![] bcast_S_S4096 main_c_52
  let main_v172 := addi main_v159 main_v171
  let main_v173 := select main_v170 main_v172 main_v159
  let main_v174 := broadcastInDim S4096x1 ![0] bcast_S4096_S4096x1_0 main_v173
  let main_v175 := (fun x i => Host.gather gather_S819200_S4096x1_S4096_n_0_n_n_0_1_1 x i) main_v168 main_v174
  let main_v176 := iotaInDim S4096 32 0
  let main_v177 := cmpi .eq main_v175 main_v176
  let main_c_53 := constantI S_ 32 128#32
  kerVal_part19 (F := F) R0 R1 R2 main_arg1 main_arg2 main_arg3 main_v119 main_v122 main_v136 main_v138 main_v153 main_v177 main_c_53

def kerVal_part18 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v122 : IVec S4096 32) (main_v128 : FVec F S4096 .f32) (main_v130 : FVec F S4096 .f32) (main_v132 : FVec F S4096 .f32) (main_v134 : FVec F S4096 .f32) (main_v136 : IVec S4096 32) (main_v137 : FVec F S4096 .f32) : FVec F S_ .f32 :=
  let main_v138 := fptosi 32 main_v137
  let main_v139 := sitofp .f32 main_v136
  let main_v140 := subf main_v132 main_v139
  let main_v141 := sitofp .f32 main_v138
  let main_v142 := subf main_v134 main_v141
  let main_cst_43 := constant S_ .f32 0x42A00000#32
  let main_v143 := broadcastInDim S4096 ![] bcast_S_S4096 main_cst_43
  let main_v144 := mulf main_v128 main_v143
  let main_cst_44 := constant S_ .f32 0x42A00000#32
  let main_v145 := broadcastInDim S4096 ![] bcast_S_S4096 main_cst_44
  let main_v146 := mulf main_v130 main_v145
  let main_cst_45 := constant S_ .f32 0x3F800000#32
  let main_v147 := broadcastInDim S4096 ![] bcast_S_S4096 main_cst_45
  let main_v148 := broadcastInDim S4096x1 ![0] bcast_S4096_S4096x1_0 main_v140
  let main_v149 := broadcastInDim S4096x1 ![0] bcast_S4096_S4096x1_0 main_v142
  let main_v150 := broadcastInDim S4096x1 ![0] bcast_S4096_S4096x1_0 main_v144
  let main_v151 := broadcastInDim S4096x1 ![0] bcast_S4096_S4096x1_0 main_v146
  let main_v152 := broadcastInDim S4096x1 ![0] bcast_S4096_S4096x1_0 main_v147
  let main_v153 := concatenate S4096x5 1 [⟨S4096x1, main_v148⟩, ⟨S4096x1, main_v149⟩, ⟨S4096x1, main_v150⟩, ⟨S4096x1, main_v151⟩, ⟨S4096x1, main_v152⟩] concatenates_S4096x1_S4096x1_S4096x1_S4096x1_S4096x1_S4096x5_d1
  let main_c_46 := constantI S_ 32 80#32
  let main_v154 := broadcastInDim S4096 ![] bcast_S_S4096 main_c_46
  let main_v155 := muli main_v122 main_v154
  let main_v156 := addi main_v155 main_v138
  let main_c_47 := constantI S_ 32 80#32
  let main_v157 := broadcastInDim S4096 ![] bcast_S_S4096 main_c_47
  let main_v158 := muli main_v156 main_v157
  kerVal_part18_1 (F := F) R0 R1 R2 main_arg1 main_arg2 main_arg3 main_v119 main_v122 main_v136 main_v138 main_v153 main_v158

def kerVal_part17 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v122 : IVec S4096 32) (main_v128 : FVec F S4096 .f32) (main_v130 : FVec F S4096 .f32) (main_v132 : FVec F S4096 .f32) (main_v134 : FVec F S4096 .f32) (main_v136 : IVec S4096 32) (main_c_41 : IVec S_ 32) (main_c_42 : IVec S_ 32) : FVec F S_ .f32 :=
  let main_call7_v0 := sitofp .f32 main_c_41
  let main_call7_v1 := broadcastInDim S4096 ![] bcast_S_S4096 main_call7_v0
  let main_call7_v2 := maximumf main_call7_v1 main_v134
  let main_call7_v3 := sitofp .f32 main_c_42
  let main_call7_v4 := broadcastInDim S4096 ![] bcast_S_S4096 main_call7_v3
  let main_v137 := minimumf main_call7_v4 main_call7_v2
  kerVal_part18 (F := F) R0 R1 R2 main_arg1 main_arg2 main_arg3 main_v119 main_v122 main_v128 main_v130 main_v132 main_v134 main_v136 main_v137

def kerVal_part16 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v122 : IVec S4096 32) (main_v128 : FVec F S4096 .f32) (main_v130 : FVec F S4096 .f32) (main_v132 : FVec F S4096 .f32) (main_v134 : FVec F S4096 .f32) (main_v135 : FVec F S4096 .f32) : FVec F S_ .f32 :=
  let main_v136 := fptosi 32 main_v135
  let main_c_41 := constantI S_ 32 0#32
  let main_c_42 := constantI S_ 32 79#32
  kerVal_part17 (F := F) R0 R1 R2 main_arg1 main_arg2 main_arg3 main_v119 main_v122 main_v128 main_v130 main_v132 main_v134 main_v136 main_c_41 main_c_42

def kerVal_part15 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v122 : IVec S4096 32) (main_v128 : FVec F S4096 .f32) (main_v130 : FVec F S4096 .f32) (main_v132 : FVec F S4096 .f32) (main_v134 : FVec F S4096 .f32) (main_c_39 : IVec S_ 32) (main_c_40 : IVec S_ 32) : FVec F S_ .f32 :=
  let main_call6_v0 := sitofp .f32 main_c_39
  let main_call6_v1 := broadcastInDim S4096 ![] bcast_S_S4096 main_call6_v0
  let main_call6_v2 := maximumf main_call6_v1 main_v132
  let main_call6_v3 := sitofp .f32 main_c_40
  let main_call6_v4 := broadcastInDim S4096 ![] bcast_S_S4096 main_call6_v3
  let main_v135 := minimumf main_call6_v4 main_call6_v2
  kerVal_part16 (F := F) R0 R1 R2 main_arg1 main_arg2 main_arg3 main_v119 main_v122 main_v128 main_v130 main_v132 main_v134 main_v135

def kerVal_part14_1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v119 : FVec F S_ .f32) (main_v122 : IVec S4096 32) (main_v124 : FVec F S4096 .f32) (main_v125 : FVec F S4096x1 .f32) : FVec F S_ .f32 :=
  let main_v126 := shapeCast S4096 main_v125 shapeCasts_S4096x1_S4096
  let main_v127 := (extractStridedSlice S4096x1 ![0, 4] · slices_S4096x6_S4096x1_0_4) main_arg3
  let main_v128 := shapeCast S4096 main_v127 shapeCasts_S4096x1_S4096
  let main_v129 := (extractStridedSlice S4096x1 ![0, 5] · slices_S4096x6_S4096x1_0_5) main_arg3
  let main_v130 := shapeCast S4096 main_v129 shapeCasts_S4096x1_S4096
  let main_cst_37 := constant S_ .f32 0x42A00000#32
  let main_v131 := broadcastInDim S4096 ![] bcast_S_S4096 main_cst_37
  let main_v132 := mulf main_v124 main_v131
  let main_cst_38 := constant S_ .f32 0x42A00000#32
  let main_v133 := broadcastInDim S4096 ![] bcast_S_S4096 main_cst_38
  let main_v134 := mulf main_v126 main_v133
  let main_c_39 := constantI S_ 32 0#32
  let main_c_40 := constantI S_ 32 79#32
  kerVal_part15 (F := F) R0 R1 R2 main_arg1 main_arg2 main_arg3 main_v119 main_v122 main_v128 main_v130 main_v132 main_v134 main_c_39 main_c_40

def kerVal_part14 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v105 : FVec F S_ .f32) (main_v109 : FVec F S_ .f32) (main_v114 : FVec F S_ .f32) : FVec F S_ .f32 :=
  let main_cst_34 := constant S_ .f32 0x3D4CCCCD#32
  let main_v115 := mulf main_cst_34 main_v114
  let main_v116 := addf main_v109 main_v115
  let main_cst_35 := constant S_ .f32 0x3F800000#32
  let main_v117 := mulf main_v116 main_cst_35
  let main_cst_36 := constant S_ .f32 0x00000000#32
  let main_v118 := addf main_cst_36 main_v105
  let main_v119 := addf main_v118 main_v117
  let main_v120 := (extractStridedSlice S4096x1 ![0, 0] · slices_S4096x6_S4096x1_0_0) main_arg3
  let main_v121 := shapeCast S4096 main_v120 shapeCasts_S4096x1_S4096
  let main_v122 := fptosi 32 main_v121
  let main_v123 := (extractStridedSlice S4096x1 ![0, 2] · slices_S4096x6_S4096x1_0_2) main_arg3
  let main_v124 := shapeCast S4096 main_v123 shapeCasts_S4096x1_S4096
  let main_v125 := (extractStridedSlice S4096x1 ![0, 3] · slices_S4096x6_S4096x1_0_3) main_arg3
  kerVal_part14_1 (F := F) R0 R1 R2 main_arg1 main_arg2 main_arg3 main_v119 main_v122 main_v124 main_v125

def kerVal_part13 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v105 : FVec F S_ .f32) (main_v109 : FVec F S_ .f32) (main_v112 : FVec F S_ .f32) (main_v113 : IVec S_ 1) (main_cst_33 : FVec F S_ .f32) : FVec F S_ .f32 :=
  let main_call5_v0 := id main_cst_33
  let main_v114 := select main_v113 main_v112 main_call5_v0
  kerVal_part14 (F := F) R0 R1 R2 main_arg1 main_arg2 main_arg3 main_v105 main_v109 main_v114

def kerVal_part12 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v93 : FVec F S_ .f32) (main_v97 : FVec F S_ .f32) (main_v105 : FVec F S_ .f32) (main_v109 : FVec F S_ .f32) : FVec F S_ .f32 :=
  let main_cst_30 := constant S_ .f32 0x4A480000#32
  let main_v110 := subf main_cst_30 main_v93
  let main_cst_31 := constant S_ .f32 0x3F800000#32
  let main_v111 := maximumf main_v110 main_cst_31
  let main_v112 := Host.divf main_v97 main_v111
  let main_cst_32 := constant S_ .f32 0x00000000#32
  let main_v113 := cmpf .ogt main_v110 main_cst_32
  let main_cst_33 := constant S_ .f32 0x00000000#32
  kerVal_part13 (F := F) R0 R1 R2 main_arg1 main_arg2 main_arg3 main_v105 main_v109 main_v112 main_v113 main_cst_33

def kerVal_part11 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v93 : FVec F S_ .f32) (main_v97 : FVec F S_ .f32) (main_v105 : FVec F S_ .f32) (main_v107 : FVec F S_ .f32) (main_v108 : IVec S_ 1) (main_cst_29 : FVec F S_ .f32) : FVec F S_ .f32 :=
  let main_call4_v0 := id main_cst_29
  let main_v109 := select main_v108 main_v107 main_call4_v0
  kerVal_part12 (F := F) R0 R1 R2 main_arg1 main_arg2 main_arg3 main_v93 main_v97 main_v105 main_v109

def kerVal_part10 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v93 : FVec F S_ .f32) (main_v95 : FVec F S_ .f32) (main_v97 : FVec F S_ .f32) (main_v104 : FVec F S_ .f32) : FVec F S_ .f32 :=
  let main_cst_26 := constant S_ .f32 0x40F00000#32
  let main_v105 := mulf main_v104 main_cst_26
  let main_cst_27 := constant S_ .f32 0x3F800000#32
  let main_v106 := maximumf main_v93 main_cst_27
  let main_v107 := Host.divf main_v95 main_v106
  let main_cst_28 := constant S_ .f32 0x00000000#32
  let main_v108 := cmpf .ogt main_v93 main_cst_28
  let main_cst_29 := constant S_ .f32 0x00000000#32
  kerVal_part11 (F := F) R0 R1 R2 main_arg1 main_arg2 main_arg3 main_v93 main_v97 main_v105 main_v107 main_v108 main_cst_29

def kerVal_part9 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v93 : FVec F S_ .f32) (main_v95 : FVec F S_ .f32) (main_v97 : FVec F S_ .f32) (main_v102 : IVec S_ 1) (main_v103 : FVec F S_ .f32) (main_cst_25 : FVec F S_ .f32) : FVec F S_ .f32 :=
  let main_call3_v0 := id main_cst_25
  let main_v104 := select main_v102 main_v103 main_call3_v0
  kerVal_part10 (F := F) R0 R1 R2 main_arg1 main_arg2 main_arg3 main_v93 main_v95 main_v97 main_v104

def kerVal_part8 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v82 : FVec F S1x256 .f32) : FVec F S_ .f32 :=
  let main_v83 := (extractStridedSlice S1x128 ![0, 0] · slices_S1x256_S1x128_0_0) main_v82
  let main_v84 := shapeCast S128 main_v83 shapeCasts_S1x128_S128
  let main_v85 := (extractStridedSlice S1x128 ![0, 128] · slices_S1x256_S1x128_0_128) main_v82
  let main_v86 := shapeCast S128 main_v85 shapeCasts_S1x128_S128
  let main_v87 := addf main_v84 main_v86
  let main_v88 := (extractStridedSlice S1 ![0] · slices_S128_S1_0) main_v87
  let main_v89 := shapeCast S_ main_v88 shapeCasts_S1_S_
  let main_v90 := (extractStridedSlice S1 ![1] · slices_S128_S1_1) main_v87
  let main_v91 := shapeCast S_ main_v90 shapeCasts_S1_S_
  let main_v92 := (extractStridedSlice S1 ![2] · slices_S128_S1_2) main_v87
  let main_v93 := shapeCast S_ main_v92 shapeCasts_S1_S_
  let main_v94 := (extractStridedSlice S1 ![3] · slices_S128_S1_3) main_v87
  let main_v95 := shapeCast S_ main_v94 shapeCasts_S1_S_
  let main_v96 := (extractStridedSlice S1 ![4] · slices_S128_S1_4) main_v87
  let main_v97 := shapeCast S_ main_v96 shapeCasts_S1_S_
  let main_cst_22 := constant S_ .f32 0x3F800000#32
  let main_v98 := maximumf main_v93 main_cst_22
  let main_cst_23 := constant S_ .f32 0x40000000#32
  let main_v99 := mulf main_v98 main_cst_23
  let main_v100 := Host.divf main_v89 main_v99
  let main_v101 := Host.divf main_v91 main_v99
  let main_cst_24 := constant S_ .f32 0x00000000#32
  let main_v102 := cmpf .ogt main_v93 main_cst_24
  let main_v103 := addf main_v100 main_v101
  let main_cst_25 := constant S_ .f32 0x00000000#32
  kerVal_part9 (F := F) R0 R1 R2 main_arg1 main_arg2 main_arg3 main_v93 main_v95 main_v97 main_v102 main_v103 main_cst_25

def kerVal_part7 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg1 : FVec F S128x5x80x80 .f32) (main_arg2 : FVec F S128x5x40x40 .f32) (main_arg3 : FVec F S4096x6 .f32) (main_v80 : FVec F S128x5x200x128 .f32) (main_v81 : FVec F S128x5x200x128 .f32) : FVec F S_ .f32 :=
  let main_v82 := R0 main_v80 main_v81
  kerVal_part8 (F := F) R0 R1 R2 main_arg1 main_arg2 main_arg3 main_v82

def kerVal_part6_1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v16 : IVec S4096 32) (main_v18 : IVec S4096 32) (main_v33 : FVec F S4096x5 .f32) (main_v59 : FVec F S128x5x160x160 .f32) (main_v64 : IVec S4096 32) (main_v66 : IVec S4096 1) (main_v68 : IVec S4096 32) : FVec F S_ .f32 :=
  let main_v69 := select main_v66 main_v68 main_v18
  let main_c_20 := constantI S_ 32 0#32
  let main_v70 := broadcastInDim S4096 ![] bcast_S_S4096 main_c_20
  let main_v71 := cmpi .slt main_v16 main_v70
  let main_c_21 := constantI S_ 32 160#32
  let main_v72 := broadcastInDim S4096 ![] bcast_S_S4096 main_c_21
  let main_v73 := addi main_v16 main_v72
  let main_v74 := select main_v71 main_v73 main_v16
  let main_v75 := broadcastInDim S4096x1 ![0] bcast_S4096_S4096x1_0 main_v64
  let main_v76 := broadcastInDim S4096x1 ![0] bcast_S4096_S4096x1_0 main_v69
  let main_v77 := broadcastInDim S4096x1 ![0] bcast_S4096_S4096x1_0 main_v74
  let main_v78 := concatenate S4096x3 1 [⟨S4096x1, main_v75⟩, ⟨S4096x1, main_v76⟩, ⟨S4096x1, main_v77⟩] concatenates_S4096x1_S4096x1_S4096x1_S4096x3_d1
  let main_v79 := (fun x i u => Host.scatter scatter_S128x5x160x160_S4096x3_S4096x5_1_023_023_1 (fun _ b => b) x i u) main_v59 main_v78 main_v33
  let main_v80 := shapeCast S128x5x200x128 main_arg0 shapeCasts_S128x5x160x160_S128x5x200x128
  let main_v81 := shapeCast S128x5x200x128 main_v79 shapeCasts_S128x5x160x160_S128x5x200x128
  kerVal_part7 (F := F) R0 R1 R2 main_arg1 main_arg2 main_arg3 main_v80 main_v81

def kerVal_part6 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v16 : IVec S4096 32) (main_v18 : IVec S4096 32) (main_v33 : FVec F S4096x5 .f32) (main_v58 : IVec S4096 32) : FVec F S_ .f32 :=
  let main_cst_15 := constant S_ .f32 0x00000000#32
  let main_v59 := broadcastInDim S128x5x160x160 ![] bcast_S_S128x5x160x160 main_cst_15
  let main_c_16 := constantI S_ 32 0#32
  let main_v60 := broadcastInDim S4096 ![] bcast_S_S4096 main_c_16
  let main_v61 := cmpi .slt main_v58 main_v60
  let main_c_17 := constantI S_ 32 128#32
  let main_v62 := broadcastInDim S4096 ![] bcast_S_S4096 main_c_17
  let main_v63 := addi main_v58 main_v62
  let main_v64 := select main_v61 main_v63 main_v58
  let main_c_18 := constantI S_ 32 0#32
  let main_v65 := broadcastInDim S4096 ![] bcast_S_S4096 main_c_18
  let main_v66 := cmpi .slt main_v18 main_v65
  let main_c_19 := constantI S_ 32 160#32
  let main_v67 := broadcastInDim S4096 ![] bcast_S_S4096 main_c_19
  let main_v68 := addi main_v18 main_v67
  kerVal_part6_1 (F := F) R0 R1 R2 main_arg0 main_arg1 main_arg2 main_arg3 main_v16 main_v18 main_v33 main_v59 main_v64 main_v66 main_v68

def kerVal_part5 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v2 : IVec S4096 32) (main_v16 : IVec S4096 32) (main_v18 : IVec S4096 32) (main_v33 : FVec F S4096x5 .f32) (main_v57 : IVec S4096 1) (main_c_14 : IVec S_ 32) : FVec F S_ .f32 :=
  let main_call2_v0 := id main_c_14
  let main_call2_v1 := broadcastInDim S4096 ![] bcast_S_S4096 main_call2_v0
  let main_v58 := select main_v57 main_v2 main_call2_v1
  kerVal_part6 (F := F) R0 R1 R2 main_arg0 main_arg1 main_arg2 main_arg3 main_v16 main_v18 main_v33 main_v58

def kerVal_part4_1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v2 : IVec S4096 32) (main_v16 : IVec S4096 32) (main_v18 : IVec S4096 32) (main_v33 : FVec F S4096x5 .f32) (main_v38 : IVec S4096 32) : FVec F S_ .f32 :=
  let main_v39 := addi main_v38 main_v16
  let main_c_9 := constantI S_ 32 0#32
  let main_v40 := broadcastInDim S3276800 ![] bcast_S_S3276800 main_c_9
  let main_v41 := iotaInDim S4096 32 0
  let main_c_10 := constantI S_ 32 0#32
  let main_v42 := broadcastInDim S4096 ![] bcast_S_S4096 main_c_10
  let main_v43 := cmpi .slt main_v39 main_v42
  let main_c_11 := constantI S_ 32 3276800#32
  let main_v44 := broadcastInDim S4096 ![] bcast_S_S4096 main_c_11
  let main_v45 := addi main_v39 main_v44
  let main_v46 := select main_v43 main_v45 main_v39
  let main_v47 := broadcastInDim S4096x1 ![0] bcast_S4096_S4096x1_0 main_v46
  let main_v48 := (fun x i u => Host.scatter scatter_S3276800_S4096x1_S4096_n_0_0_1 (fun _ b => b) x i u) main_v40 main_v47 main_v41
  let main_c_12 := constantI S_ 32 0#32
  let main_v49 := broadcastInDim S4096 ![] bcast_S_S4096 main_c_12
  let main_v50 := cmpi .slt main_v39 main_v49
  let main_c_13 := constantI S_ 32 3276800#32
  let main_v51 := broadcastInDim S4096 ![] bcast_S_S4096 main_c_13
  let main_v52 := addi main_v39 main_v51
  let main_v53 := select main_v50 main_v52 main_v39
  let main_v54 := broadcastInDim S4096x1 ![0] bcast_S4096_S4096x1_0 main_v53
  let main_v55 := (fun x i => Host.gather gather_S3276800_S4096x1_S4096_n_0_n_n_0_1_1 x i) main_v48 main_v54
  let main_v56 := iotaInDim S4096 32 0
  let main_v57 := cmpi .eq main_v55 main_v56
  let main_c_14 := constantI S_ 32 128#32
  kerVal_part5 (F := F) R0 R1 R2 main_arg0 main_arg1 main_arg2 main_arg3 main_v2 main_v16 main_v18 main_v33 main_v57 main_c_14

def kerVal_part4 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v2 : IVec S4096 32) (main_v8 : FVec F S4096 .f32) (main_v10 : FVec F S4096 .f32) (main_v12 : FVec F S4096 .f32) (main_v14 : FVec F S4096 .f32) (main_v16 : IVec S4096 32) (main_v17 : FVec F S4096 .f32) : FVec F S_ .f32 :=
  let main_v18 := fptosi 32 main_v17
  let main_v19 := sitofp .f32 main_v16
  let main_v20 := subf main_v12 main_v19
  let main_v21 := sitofp .f32 main_v18
  let main_v22 := subf main_v14 main_v21
  let main_cst_4 := constant S_ .f32 0x43200000#32
  let main_v23 := broadcastInDim S4096 ![] bcast_S_S4096 main_cst_4
  let main_v24 := mulf main_v8 main_v23
  let main_cst_5 := constant S_ .f32 0x43200000#32
  let main_v25 := broadcastInDim S4096 ![] bcast_S_S4096 main_cst_5
  let main_v26 := mulf main_v10 main_v25
  let main_cst_6 := constant S_ .f32 0x3F800000#32
  let main_v27 := broadcastInDim S4096 ![] bcast_S_S4096 main_cst_6
  let main_v28 := broadcastInDim S4096x1 ![0] bcast_S4096_S4096x1_0 main_v20
  let main_v29 := broadcastInDim S4096x1 ![0] bcast_S4096_S4096x1_0 main_v22
  let main_v30 := broadcastInDim S4096x1 ![0] bcast_S4096_S4096x1_0 main_v24
  let main_v31 := broadcastInDim S4096x1 ![0] bcast_S4096_S4096x1_0 main_v26
  let main_v32 := broadcastInDim S4096x1 ![0] bcast_S4096_S4096x1_0 main_v27
  let main_v33 := concatenate S4096x5 1 [⟨S4096x1, main_v28⟩, ⟨S4096x1, main_v29⟩, ⟨S4096x1, main_v30⟩, ⟨S4096x1, main_v31⟩, ⟨S4096x1, main_v32⟩] concatenates_S4096x1_S4096x1_S4096x1_S4096x1_S4096x1_S4096x5_d1
  let main_c_7 := constantI S_ 32 160#32
  let main_v34 := broadcastInDim S4096 ![] bcast_S_S4096 main_c_7
  let main_v35 := muli main_v2 main_v34
  let main_v36 := addi main_v35 main_v18
  let main_c_8 := constantI S_ 32 160#32
  let main_v37 := broadcastInDim S4096 ![] bcast_S_S4096 main_c_8
  let main_v38 := muli main_v36 main_v37
  kerVal_part4_1 (F := F) R0 R1 R2 main_arg0 main_arg1 main_arg2 main_arg3 main_v2 main_v16 main_v18 main_v33 main_v38

def kerVal_part3 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v2 : IVec S4096 32) (main_v8 : FVec F S4096 .f32) (main_v10 : FVec F S4096 .f32) (main_v12 : FVec F S4096 .f32) (main_v14 : FVec F S4096 .f32) (main_v16 : IVec S4096 32) (main_c_2 : IVec S_ 32) (main_c_3 : IVec S_ 32) : FVec F S_ .f32 :=
  let main_call1_v0 := sitofp .f32 main_c_2
  let main_call1_v1 := broadcastInDim S4096 ![] bcast_S_S4096 main_call1_v0
  let main_call1_v2 := maximumf main_call1_v1 main_v14
  let main_call1_v3 := sitofp .f32 main_c_3
  let main_call1_v4 := broadcastInDim S4096 ![] bcast_S_S4096 main_call1_v3
  let main_v17 := minimumf main_call1_v4 main_call1_v2
  kerVal_part4 (F := F) R0 R1 R2 main_arg0 main_arg1 main_arg2 main_arg3 main_v2 main_v8 main_v10 main_v12 main_v14 main_v16 main_v17

def kerVal_part2 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v2 : IVec S4096 32) (main_v8 : FVec F S4096 .f32) (main_v10 : FVec F S4096 .f32) (main_v12 : FVec F S4096 .f32) (main_v14 : FVec F S4096 .f32) (main_v15 : FVec F S4096 .f32) : FVec F S_ .f32 :=
  let main_v16 := fptosi 32 main_v15
  let main_c_2 := constantI S_ 32 0#32
  let main_c_3 := constantI S_ 32 159#32
  kerVal_part3 (F := F) R0 R1 R2 main_arg0 main_arg1 main_arg2 main_arg3 main_v2 main_v8 main_v10 main_v12 main_v14 main_v16 main_c_2 main_c_3

def kerVal_part1 (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) (main_v2 : IVec S4096 32) (main_v8 : FVec F S4096 .f32) (main_v10 : FVec F S4096 .f32) (main_v12 : FVec F S4096 .f32) (main_v14 : FVec F S4096 .f32) (main_c : IVec S_ 32) (main_c_1 : IVec S_ 32) : FVec F S_ .f32 :=
  let main_call0_v0 := sitofp .f32 main_c
  let main_call0_v1 := broadcastInDim S4096 ![] bcast_S_S4096 main_call0_v0
  let main_call0_v2 := maximumf main_call0_v1 main_v12
  let main_call0_v3 := sitofp .f32 main_c_1
  let main_call0_v4 := broadcastInDim S4096 ![] bcast_S_S4096 main_call0_v3
  let main_v15 := minimumf main_call0_v4 main_call0_v2
  kerVal_part2 (F := F) R0 R1 R2 main_arg0 main_arg1 main_arg2 main_arg3 main_v2 main_v8 main_v10 main_v12 main_v14 main_v15

def kerVal (R0 : FVec F S128x5x200x128 .f32 → FVec F S128x5x200x128 .f32 → FVec F S1x256 .f32) (R1 : FVec F S128x5x50x128 .f32 → FVec F S128x5x50x128 .f32 → FVec F S1x256 .f32) (R2 : FVec F S128x5x40x40 .f32 → FVec F S128x5x40x40 .f32 → FVec F S1x256 .f32) (main_arg0 : FVec F S128x5x160x160 .f32) (main_arg1 : FVec F S128x5x80x80 .f32) (main_arg2 : FVec F S128x5x40x40 .f32) (main_arg3 : FVec F S4096x6 .f32) : FVec F S_ .f32 :=
  let main_v0 := (extractStridedSlice S4096x1 ![0, 0] · slices_S4096x6_S4096x1_0_0) main_arg3
  let main_v1 := shapeCast S4096 main_v0 shapeCasts_S4096x1_S4096
  let main_v2 := fptosi 32 main_v1
  let main_v3 := (extractStridedSlice S4096x1 ![0, 2] · slices_S4096x6_S4096x1_0_2) main_arg3
  let main_v4 := shapeCast S4096 main_v3 shapeCasts_S4096x1_S4096
  let main_v5 := (extractStridedSlice S4096x1 ![0, 3] · slices_S4096x6_S4096x1_0_3) main_arg3
  let main_v6 := shapeCast S4096 main_v5 shapeCasts_S4096x1_S4096
  let main_v7 := (extractStridedSlice S4096x1 ![0, 4] · slices_S4096x6_S4096x1_0_4) main_arg3
  let main_v8 := shapeCast S4096 main_v7 shapeCasts_S4096x1_S4096
  let main_v9 := (extractStridedSlice S4096x1 ![0, 5] · slices_S4096x6_S4096x1_0_5) main_arg3
  let main_v10 := shapeCast S4096 main_v9 shapeCasts_S4096x1_S4096
  let main_cst := constant S_ .f32 0x43200000#32
  let main_v11 := broadcastInDim S4096 ![] bcast_S_S4096 main_cst
  let main_v12 := mulf main_v4 main_v11
  let main_cst_0 := constant S_ .f32 0x43200000#32
  let main_v13 := broadcastInDim S4096 ![] bcast_S_S4096 main_cst_0
  let main_v14 := mulf main_v6 main_v13
  let main_c := constantI S_ 32 0#32
  let main_c_1 := constantI S_ 32 159#32
  kerVal_part1 (F := F) R0 R1 R2 main_arg0 main_arg1 main_arg2 main_arg3 main_v2 main_v8 main_v10 main_v12 main_v14 main_c main_c_1

end Cert.KernelIdeal.Hand

end
-- ==== Proof.LibHostResults.lean ====
import Idealize.ShloMosaic.Lib.StableHlo.Run

namespace KH

open Idealize.ShloMosaic Idealize.ShloMosaic.StableHlo

section

variable {nD : ℕ} {τ : Topo} {sig : RefSig} {Val : EltTy → Type} {x a b c e y : Ref sig .tc}

def ap3 (f : ((k : Fin 3) → ((![x, a, b] : Fin 3 → Ref sig .tc) k).ty.Contents Val) → y.ty.Contents Val)
    (v0 : x.ty.Contents Val) (v1 : a.ty.Contents Val) (v2 : b.ty.Contents Val) : y.ty.Contents Val :=
  f (Fin.cons v0 (Fin.cons v1 (Fin.cons v2 (fun i => i.elim0))))

def ap5 (f : ((k : Fin 5) → ((![x, a, b, c, e] : Fin 5 → Ref sig .tc) k).ty.Contents Val) → y.ty.Contents Val)
    (v0 : x.ty.Contents Val) (v1 : a.ty.Contents Val) (v2 : b.ty.Contents Val) (v3 : c.ty.Contents Val)
    (v4 : e.ty.Contents Val) : y.ty.Contents Val :=
  f (Fin.cons v0 (Fin.cons v1 (Fin.cons v2 (Fin.cons v3 (Fin.cons v4 (fun i => i.elim0))))))

theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = ap3 f (G (Proc.devRef .tc x)) (G (Proc.devRef .tc a)) (G (Proc.devRef .tc b)) := by
  rw [nary_result]; unfold ap3; congr 1; funext k; fin_cases k <;> rfl

theorem nary5_result'
    (f : ((k : Fin 5) → ((![x, a, b, c, e] : Fin 5 → Ref sig .tc) k).ty.Contents Val) → y.ty.Contents Val) (hxs hy)
    (G : Valuation τ sig Val) :
    (nary (τ := τ) ![x, a, b, c, e] y f hxs hy).result G (no_index (Proc.devRef .tc y))
      = ap5 f (G (Proc.devRef .tc x)) (G (Proc.devRef .tc a)) (G (Proc.devRef .tc b)) (G (Proc.devRef .tc c))
          (G (Proc.devRef .tc e)) := by
  rw [nary_result]; unfold ap5; congr 1; funext k; fin_cases k <;> rfl

end

macro "kh_results" : tactic =>
  `(tactic| (simp (disch := decide) only [after_cons, after_nil,
      nullary_result', unary_result', binary_result', ternary_result', quaternary_result', reshape_result',
      KH.nary3_result', KH.nary5_result',
      nullary_result_ne', unary_result_ne', binary_result_ne', ternary_result_ne', quaternary_result_ne', reshape_result_ne',
      nary_result_ne']))

end KH
-- ==== Proof.KHost0.lean ====
import proofs.«409303_j18760417149025_3_alg».proof.Proof.KernelIdealRegions
import proofs.«409303_j18760417149025_3_alg».proof.Proof.KerFun
import proofs.«409303_j18760417149025_3_alg».proof.Proof.LibHostResults

set_option maxRecDepth 2684

noncomputable section

namespace Cert.KernelIdeal.Hand

open Cert.KernelIdeal Cert.KernelIdeal.Gen
open Idealize.ShloMosaic Idealize.ShloMosaic.TcCoe

variable {F : FTy → Type} [FloatOps F]

local notation "RT0" => FVec F S128x5x200x128 FTy.f32 → FVec F S128x5x200x128 FTy.f32 → FVec F S1x256 FTy.f32
local notation "RT1" => FVec F S128x5x50x128 FTy.f32 → FVec F S128x5x50x128 FTy.f32 → FVec F S1x256 FTy.f32
local notation "RT2" => FVec F S128x5x40x40 FTy.f32 → FVec F S128x5x40x40 FTy.f32 → FVec F S1x256 FTy.f32

/-! ## Items 0 … 7 of @main, each against its part of `kerVal` -/

/-- Item 0, the host stretch `hostOps0`: its operations' results, from any contents `W`, are the part's lets. -/
theorem step0 (R0 : RT0) (R1 : RT1) (R2 : RT2) (W : Valuation τ sig (Elt F)) :
    kerVal R0 R1 R2 (W main_arg0) (W main_arg1) (W main_arg2) (W main_arg3)
      = kerVal_part1 R0 R1 R2 (StableHlo.after hostOps0 W main_arg0) (StableHlo.after hostOps0 W main_arg1) (StableHlo.after hostOps0 W main_arg2) (StableHlo.after hostOps0 W main_arg3) (StableHlo.after hostOps0 W main_v2) (StableHlo.after hostOps0 W main_v8) (StableHlo.after hostOps0 W main_v10) (StableHlo.after hostOps0 W main_v12) (StableHlo.after hostOps0 W main_v14) (StableHlo.after hostOps0 W main_c) (StableHlo.after hostOps0 W main_c_1) := by
  rw [StableHlo.after_of_writes_sub hostOps0 W GenP.hostOps0_writes (by decide : main_arg0 ∉ GenP.hostOps0_W)]
  rw [StableHlo.after_of_writes_sub hostOps0 W GenP.hostOps0_writes (by decide : main_arg1 ∉ GenP.hostOps0_W)]
  rw [StableHlo.after_of_writes_sub hostOps0 W GenP.hostOps0_writes (by decide : main_arg2 ∉ GenP.hostOps0_W)]
  rw [StableHlo.after_of_writes_sub hostOps0 W GenP.hostOps0_writes (by decide : main_arg3 ∉ GenP.hostOps0_W)]
  dsimp only [hostOps0]
  kh_results
  rfl

/-- Item 1, the host stretch `hostOps0_1`: its operations' results, from any contents `W`, are the part's lets. -/
theorem step1 (R0 : RT0) (R1 : RT1) (R2 : RT2) (W : Valuation τ sig (Elt F)) :
    kerVal_part1 R0 R1 R2 (W main_arg0) (W main_arg1) (W main_arg2) (W main_arg3) (W main_v2) (W main_v8) (W main_v10) (W main_v12) (W main_v14) (W main_c) (W main_c_1)
      = kerVal_part2 R0 R1 R2 (StableHlo.after hostOps0_1 W main_arg0) (StableHlo.after hostOps0_1 W main_arg1) (StableHlo.after hostOps0_1 W main_arg2) (StableHlo.after hostOps0_1 W main_arg3) (StableHlo.after hostOps0_1 W main_v2) (StableHlo.after hostOps0_1 W main_v8) (StableHlo.after hostOps0_1 W main_v10) (StableHlo.after hostOps0_1 W main_v12) (StableHlo.after hostOps0_1 W main_v14) (StableHlo.after hostOps0_1 W main_v15) := by
  rw [StableHlo.after_of_writes_sub hostOps0_1 W GenP.hostOps0_1_writes (by decide : main_arg0 ∉ GenP.hostOps0_1_W)]
  rw [StableHlo.after_of_writes_sub hostOps0_1 W GenP.hostOps0_1_writes (by decide : main_arg1 ∉ GenP.hostOps0_1_W)]
  rw [StableHlo.after_of_writes_sub hostOps0_1 W GenP.hostOps0_1_writes (by decide : main_arg2 ∉ GenP.hostOps0_1_W)]
  rw [StableHlo.after_of_writes_sub hostOps0_1 W GenP.hostOps0_1_writes (by decide : main_arg3 ∉ GenP.hostOps0_1_W)]
  rw [StableHlo.after_of_writes_sub hostOps0_1 W GenP.hostOps0_1_writes (by decide : main_v2 ∉ GenP.hostOps0_1_W)]
  rw [StableHlo.after_of_writes_sub hostOps0_1 W GenP.hostOps0_1_writes (by decide : main_v8 ∉ GenP.hostOps0_1_W)]
  rw [StableHlo.after_of_writes_sub hostOps0_1 W GenP.hostOps0_1_writes (by decide : main_v10 ∉ GenP.hostOps0_1_W)]
  rw [StableHlo.after_of_writes_sub hostOps0_1 W GenP.hostOps0_1_writes (by decide : main_v12 ∉ GenP.hostOps0_1_W)]
  rw [StableHlo.after_of_writes_sub hostOps0_1 W GenP.hostOps0_1_writes (by decide : main_v14 ∉ GenP.hostOps0_1_W)]
  dsimp only [hostOps0_1]
  kh_results
  rfl

/-- Item 2, the host stretch `hostOps0_2`: its operations' results, from any contents `W`, are the part's lets. -/
theorem step2 (R0 : RT0) (R1 : RT1) (R2 : RT2) (W : Valuation τ sig (Elt F)) :
    kerVal_part2 R0 R1 R2 (W main_arg0) (W main_arg1) (W main_arg2) (W main_arg3) (W main_v2) (W main_v8) (W main_v10) (W main_v12) (W main_v14) (W main_v15)
      = kerVal_part3 R0 R1 R2 (StableHlo.after hostOps0_2 W main_arg0) (StableHlo.after hostOps0_2 W main_arg1) (StableHlo.after hostOps0_2 W main_arg2) (StableHlo.after hostOps0_2 W main_arg3) (StableHlo.after hostOps0_2 W main_v2) (StableHlo.after hostOps0_2 W main_v8) (StableHlo.after hostOps0_2 W main_v10) (StableHlo.after hostOps0_2 W main_v12) (StableHlo.after hostOps0_2 W main_v14) (StableHlo.after hostOps0_2 W main_v16) (StableHlo.after hostOps0_2 W main_c_2) (StableHlo.after hostOps0_2 W main_c_3) := by
  rw [StableHlo.after_of_writes_sub hostOps0_2 W GenP.hostOps0_2_writes (by decide : main_arg0 ∉ GenP.hostOps0_2_W)]
  rw [StableHlo.after_of_writes_sub hostOps0_2 W GenP.hostOps0_2_writes (by decide : main_arg1 ∉ GenP.hostOps0_2_W)]
  rw [StableHlo.after_of_writes_sub hostOps0_2 W GenP.hostOps0_2_writes (by decide : main_arg2 ∉ GenP.hostOps0_2_W)]
  rw [StableHlo.after_of_writes_sub hostOps0_2 W GenP.hostOps0_2_writes (by decide : main_arg3 ∉ GenP.hostOps0_2_W)]
  rw [StableHlo.after_of_writes_sub hostOps0_2 W GenP.hostOps0_2_writes (by decide : main_v2 ∉ GenP.hostOps0_2_W)]
  rw [StableHlo.after_of_writes_sub hostOps0_2 W GenP.hostOps0_2_writes (by decide : main_v8 ∉ GenP.hostOps0_2_W)]
  rw [StableHlo.after_of_writes_sub hostOps0_2 W GenP.hostOps0_2_writes (by decide : main_v10 ∉ GenP.hostOps0_2_W)]
  rw [StableHlo.after_of_writes_sub hostOps0_2 W GenP.hostOps0_2_writes (by decide : main_v12 ∉ GenP.hostOps0_2_W)]
  rw [StableHlo.after_of_writes_sub hostOps0_2 W GenP.hostOps0_2_writes (by decide : main_v14 ∉ GenP.hostOps0_2_W)]
  dsimp only [hostOps0_2]
  kh_results
  rfl

/-- Item 3, the host stretch `hostOps0_3`: its operations' results, from any contents `W`, are the part's lets. -/
theorem step3 (R0 : RT0) (R1 : RT1) (R2 : RT2) (W : Valuation τ sig (Elt F)) :
    kerVal_part3 R0 R1 R2 (W main_arg0) (W main_arg1) (W main_arg2) (W main_arg3) (W main_v2) (W main_v8) (W main_v10) (W main_v12) (W main_v14) (W main_v16) (W main_c_2) (W main_c_3)
      = kerVal_part4 R0 R1 R2 (StableHlo.after hostOps0_3 W main_arg0) (StableHlo.after hostOps0_3 W main_arg1) (StableHlo.after hostOps0_3 W main_arg2) (StableHlo.after hostOps0_3 W main_arg3) (StableHlo.after hostOps0_3 W main_v2) (StableHlo.after hostOps0_3 W main_v8) (StableHlo.after hostOps0_3 W main_v10) (StableHlo.after hostOps0_3 W main_v12) (StableHlo.after hostOps0_3 W main_v14) (StableHlo.after hostOps0_3 W main_v16) (StableHlo.after hostOps0_3 W main_v17) := by
  rw [StableHlo.after_of_writes_sub hostOps0_3 W GenP.hostOps0_3_writes (by decide : main_arg0 ∉ GenP.hostOps0_3_W)]
  rw [StableHlo.after_of_writes_sub hostOps0_3 W GenP.hostOps0_3_writes (by decide : main_arg1 ∉ GenP.hostOps0_3_W)]
  rw [StableHlo.after_of_writes_sub hostOps0_3 W GenP.hostOps0_3_writes (by decide : main_arg2 ∉ GenP.hostOps0_3_W)]
  rw [StableHlo.after_of_writes_sub hostOps0_3 W GenP.hostOps0_3_writes (by decide : main_arg3 ∉ GenP.hostOps0_3_W)]
  rw [StableHlo.after_of_writes_sub hostOps0_3 W GenP.hostOps0_3_writes (by decide : main_v2 ∉ GenP.hostOps0_3_W)]
  rw [StableHlo.after_of_writes_sub hostOps0_3 W GenP.hostOps0_3_writes (by decide : main_v8 ∉ GenP.hostOps0_3_W)]
  rw [StableHlo.after_of_writes_sub hostOps0_3 W GenP.hostOps0_3_writes (by decide : main_v10 ∉ GenP.hostOps0_3_W)]
  rw [StableHlo.after_of_writes_sub hostOps0_3 W GenP.hostOps0_3_writes (by decide : main_v12 ∉ GenP.hostOps0_3_W)]
  rw [StableHlo.after_of_writes_sub hostOps0_3 W GenP.hostOps0_3_writes (by decide : main_v14 ∉ GenP.hostOps0_3_W)]
  rw [StableHlo.after_of_writes_sub hostOps0_3 W GenP.hostOps0_3_writes (by decide : main_v16 ∉ GenP.hostOps0_3_W)]
  dsimp only [hostOps0_3]
  kh_results
  rfl

set_option maxHeartbeats 1000000 in
/-- Item 4, the host stretch `hostOps0_4`: its operations' results, from any contents `W`, are the part's lets. -/
theorem step4 (R0 : RT0) (R1 : RT1) (R2 : RT2) (W : Valuation τ sig (Elt F)) :
    kerVal_part4 R0 R1 R2 (W main_arg0) (W main_arg1) (W main_arg2) (W main_arg3) (W main_v2) (W main_v8) (W main_v10) (W main_v12) (W main_v14) (W main_v16) (W main_v17)
      = kerVal_part5 R0 R1 R2 (StableHlo.after hostOps0_4 W main_arg0) (StableHlo.after hostOps0_4 W main_arg1) (StableHlo.after hostOps0_4 W main_arg2) (StableHlo.after hostOps0_4 W main_arg3) (StableHlo.after hostOps0_4 W main_v2) (StableHlo.after hostOps0_4 W main_v16) (StableHlo.after hostOps0_4 W main_v18) (StableHlo.after hostOps0_4 W main_v33) (StableHlo.after hostOps0_4 W main_v57) (StableHlo.after hostOps0_4 W main_c_14) := by
  rw [StableHlo.after_of_writes_sub hostOps0_4 W GenP.hostOps0_4_writes (by decide : main_arg0 ∉ GenP.hostOps0_4_W)]
  rw [StableHlo.after_of_writes_sub hostOps0_4 W GenP.hostOps0_4_writes (by decide : main_arg1 ∉ GenP.hostOps0_4_W)]
  rw [StableHlo.after_of_writes_sub hostOps0_4 W GenP.hostOps0_4_writes (by decide : main_arg2 ∉ GenP.hostOps0_4_W)]
  rw [StableHlo.after_of_writes_sub hostOps0_4 W GenP.hostOps0_4_writes (by decide : main_arg3 ∉ GenP.hostOps0_4_W)]
  rw [StableHlo.after_of_writes_sub hostOps0_4 W GenP.hostOps0_4_writes (by decide : main_v2 ∉ GenP.hostOps0_4_W)]
  rw [StableHlo.after_of_writes_sub hostOps0_4 W GenP.hostOps0_4_writes (by decide : main_v16 ∉ GenP.hostOps0_4_W)]
  dsimp only [hostOps0_4]
  kh_results
  rfl

/-- Item 5, the host stretch `hostOps0_5`: its operations' results, from any contents `W`, are the part's lets. -/
theorem step5 (R0 : RT0) (R1 : RT1) (R2 : RT2) (W : Valuation τ sig (Elt F)) :
    kerVal_part5 R0 R1 R2 (W main_arg0) (W main_arg1) (W main_arg2) (W main_arg3) (W main_v2) (W main_v16) (W main_v18) (W main_v33) (W main_v57) (W main_c_14)
      = kerVal_part6 R0 R1 R2 (StableHlo.after hostOps0_5 W main_arg0) (StableHlo.after hostOps0_5 W main_arg1) (StableHlo.after hostOps0_5 W main_arg2) (StableHlo.after hostOps0_5 W main_arg3) (StableHlo.after hostOps0_5 W main_v16) (StableHlo.after hostOps0_5 W main_v18) (StableHlo.after hostOps0_5 W main_v33) (StableHlo.after hostOps0_5 W main_v58) := by
  rw [StableHlo.after_of_writes_sub hostOps0_5 W GenP.hostOps0_5_writes (by decide : main_arg0 ∉ GenP.hostOps0_5_W)]
  rw [StableHlo.after_of_writes_sub hostOps0_5 W GenP.hostOps0_5_writes (by decide : main_arg1 ∉ GenP.hostOps0_5_W)]
  rw [StableHlo.after_of_writes_sub hostOps0_5 W GenP.hostOps0_5_writes (by decide : main_arg2 ∉ GenP.hostOps0_5_W)]
  rw [StableHlo.after_of_writes_sub hostOps0_5 W GenP.hostOps0_5_writes (by decide : main_arg3 ∉ GenP.hostOps0_5_W)]
  rw [StableHlo.after_of_writes_sub hostOps0_5 W GenP.hostOps0_5_writes (by decide : main_v16 ∉ GenP.hostOps0_5_W)]
  rw [StableHlo.after_of_writes_sub hostOps0_5 W GenP.hostOps0_5_writes (by decide : main_v18 ∉ GenP.hostOps0_5_W)]
  rw [StableHlo.after_of_writes_sub hostOps0_5 W GenP.hostOps0_5_writes (by decide : main_v33 ∉ GenP.hostOps0_5_W)]
  dsimp only [hostOps0_5]
  kh_results
  rfl

set_option maxHeartbeats 1000000 in
/-- Item 6, the host stretch `hostOps0_6`: its operations' results, from any contents `W`, are the part's lets. -/
theorem step6 (R0 : RT0) (R1 : RT1) (R2 : RT2) (W : Valuation τ sig (Elt F)) :
    kerVal_part6 R0 R1 R2 (W main_arg0) (W main_arg1) (W main_arg2) (W main_arg3) (W main_v16) (W main_v18) (W main_v33) (W main_v58)
      = kerVal_part7 R0 R1 R2 (StableHlo.after hostOps0_6 W main_arg1) (StableHlo.after hostOps0_6 W main_arg2) (StableHlo.after hostOps0_6 W main_arg3) (StableHlo.after hostOps0_6 W main_v80) (StableHlo.after hostOps0_6 W main_v81) := by
  rw [StableHlo.after_of_writes_sub hostOps0_6 W GenP.hostOps0_6_writes (by decide : main_arg1 ∉ GenP.hostOps0_6_W)]
  rw [StableHlo.after_of_writes_sub hostOps0_6 W GenP.hostOps0_6_writes (by decide : main_arg2 ∉ GenP.hostOps0_6_W)]
  rw [StableHlo.after_of_writes_sub hostOps0_6 W GenP.hostOps0_6_writes (by decide : main_arg3 ∉ GenP.hostOps0_6_W)]
  dsimp only [hostOps0_6]
  kh_results
  rfl

/-- Item 7, region 0: its output array holds the region's function of its two input arrays; every other array is unchanged. -/
theorem step7 (R0 : RT0) (R1 : RT1) (R2 : RT2) (m : (ℓ : Loc nD τ sig) → Buf (Elt F) ℓ) (outs : GenP.Outs (F := F)) (c : Dev nD)
    (h : outs 8 main_v82 c = R0 (GenP.V7 m c main_v80) (GenP.V7 m c main_v81)) :
    kerVal_part7 R0 R1 R2 (GenP.V7 m c main_arg1) (GenP.V7 m c main_arg2) (GenP.V7 m c main_arg3) (GenP.V7 m c main_v80) (GenP.V7 m c main_v81)
      = kerVal_part8 R0 R1 R2 (GenP.V8 m outs c main_arg1) (GenP.V8 m outs c main_arg2) (GenP.V8 m outs c main_arg3) (GenP.V8 m outs c main_v82) := by
  have e : GenP.V8 m outs c main_v82 = outs 8 main_v82 c := Function.update_self _ _ _
  rw [GenP.V8_of m outs c main_arg1 (by decide), GenP.V8_of m outs c main_arg2 (by decide), GenP.V8_of m outs c main_arg3 (by decide), e, h]
  rfl

end Cert.KernelIdeal.Hand

end
-- ==== Proof.KHost1.lean ====
import proofs.«409303_j18760417149025_3_alg».proof.Proof.KernelIdealRegions
import proofs.«409303_j18760417149025_3_alg».proof.Proof.KerFun
import proofs.«409303_j18760417149025_3_alg».proof.Proof.LibHostResults

set_option maxRecDepth 2684

noncomputable section

namespace Cert.KernelIdeal.Hand

open Cert.KernelIdeal Cert.KernelIdeal.Gen
open Idealize.ShloMosaic Idealize.ShloMosaic.TcCoe

variable {F : FTy → Type} [FloatOps F]

local notation "RT0" => FVec F S128x5x200x128 FTy.f32 → FVec F S128x5x200x128 FTy.f32 → FVec F S1x256 FTy.f32
local notation "RT1" => FVec F S128x5x50x128 FTy.f32 → FVec F S128x5x50x128 FTy.f32 → FVec F S1x256 FTy.f32
local notation "RT2" => FVec F S128x5x40x40 FTy.f32 → FVec F S128x5x40x40 FTy.f32 → FVec F S1x256 FTy.f32

/-! ## Items 8 … 21 of @main, each against its part of `kerVal` -/

set_option maxHeartbeats 1000000 in
/-- Item 8, the host stretch `hostOps1`: its operations' results, from any contents `W`, are the part's lets. -/
theorem step8 (R0 : RT0) (R1 : RT1) (R2 : RT2) (W : Valuation τ sig (Elt F)) :
    kerVal_part8 R0 R1 R2 (W main_arg1) (W main_arg2) (W main_arg3) (W main_v82)
      = kerVal_part9 R0 R1 R2 (StableHlo.after hostOps1 W main_arg1) (StableHlo.after hostOps1 W main_arg2) (StableHlo.after hostOps1 W main_arg3) (StableHlo.after hostOps1 W main_v93) (StableHlo.after hostOps1 W main_v95) (StableHlo.after hostOps1 W main_v97) (StableHlo.after hostOps1 W main_v102) (StableHlo.after hostOps1 W main_v103) (StableHlo.after hostOps1 W main_cst_25) := by
  rw [StableHlo.after_of_writes_sub hostOps1 W GenP.hostOps1_writes (by decide : main_arg1 ∉ GenP.hostOps1_W)]
  rw [StableHlo.after_of_writes_sub hostOps1 W GenP.hostOps1_writes (by decide : main_arg2 ∉ GenP.hostOps1_W)]
  rw [StableHlo.after_of_writes_sub hostOps1 W GenP.hostOps1_writes (by decide : main_arg3 ∉ GenP.hostOps1_W)]
  dsimp only [hostOps1]
  kh_results
  rfl

/-- Item 9, the host stretch `hostOps1_1`: its operations' results, from any contents `W`, are the part's lets. -/
theorem step9 (R0 : RT0) (R1 : RT1) (R2 : RT2) (W : Valuation τ sig (Elt F)) :
    kerVal_part9 R0 R1 R2 (W main_arg1) (W main_arg2) (W main_arg3) (W main_v93) (W main_v95) (W main_v97) (W main_v102) (W main_v103) (W main_cst_25)
      = kerVal_part10 R0 R1 R2 (StableHlo.after hostOps1_1 W main_arg1) (StableHlo.after hostOps1_1 W main_arg2) (StableHlo.after hostOps1_1 W main_arg3) (StableHlo.after hostOps1_1 W main_v93) (StableHlo.after hostOps1_1 W main_v95) (StableHlo.after hostOps1_1 W main_v97) (StableHlo.after hostOps1_1 W main_v104) := by
  rw [StableHlo.after_of_writes_sub hostOps1_1 W GenP.hostOps1_1_writes (by decide : main_arg1 ∉ GenP.hostOps1_1_W)]
  rw [StableHlo.after_of_writes_sub hostOps1_1 W GenP.hostOps1_1_writes (by decide : main_arg2 ∉ GenP.hostOps1_1_W)]
  rw [StableHlo.after_of_writes_sub hostOps1_1 W GenP.hostOps1_1_writes (by decide : main_arg3 ∉ GenP.hostOps1_1_W)]
  rw [StableHlo.after_of_writes_sub hostOps1_1 W GenP.hostOps1_1_writes (by decide : main_v93 ∉ GenP.hostOps1_1_W)]
  rw [StableHlo.after_of_writes_sub hostOps1_1 W GenP.hostOps1_1_writes (by decide : main_v95 ∉ GenP.hostOps1_1_W)]
  rw [StableHlo.after_of_writes_sub hostOps1_1 W GenP.hostOps1_1_writes (by decide : main_v97 ∉ GenP.hostOps1_1_W)]
  dsimp only [hostOps1_1]
  kh_results
  rfl

/-- Item 10, the host stretch `hostOps1_2`: its operations' results, from any contents `W`, are the part's lets. -/
theorem step10 (R0 : RT0) (R1 : RT1) (R2 : RT2) (W : Valuation τ sig (Elt F)) :
    kerVal_part10 R0 R1 R2 (W main_arg1) (W main_arg2) (W main_arg3) (W main_v93) (W main_v95) (W main_v97) (W main_v104)
      = kerVal_part11 R0 R1 R2 (StableHlo.after hostOps1_2 W main_arg1) (StableHlo.after hostOps1_2 W main_arg2) (StableHlo.after hostOps1_2 W main_arg3) (StableHlo.after hostOps1_2 W main_v93) (StableHlo.after hostOps1_2 W main_v97) (StableHlo.after hostOps1_2 W main_v105) (StableHlo.after hostOps1_2 W main_v107) (StableHlo.after hostOps1_2 W main_v108) (StableHlo.after hostOps1_2 W main_cst_29) := by
  rw [StableHlo.after_of_writes_sub hostOps1_2 W GenP.hostOps1_2_writes (by decide : main_arg1 ∉ GenP.hostOps1_2_W)]
  rw [StableHlo.after_of_writes_sub hostOps1_2 W GenP.hostOps1_2_writes (by decide : main_arg2 ∉ GenP.hostOps1_2_W)]
  rw [StableHlo.after_of_writes_sub hostOps1_2 W GenP.hostOps1_2_writes (by decide : main_arg3 ∉ GenP.hostOps1_2_W)]
  rw [StableHlo.after_of_writes_sub hostOps1_2 W GenP.hostOps1_2_writes (by decide : main_v93 ∉ GenP.hostOps1_2_W)]
  rw [StableHlo.after_of_writes_sub hostOps1_2 W GenP.hostOps1_2_writes (by decide : main_v97 ∉ GenP.hostOps1_2_W)]
  dsimp only [hostOps1_2]
  kh_results
  rfl

/-- Item 11, the host stretch `hostOps1_3`: its operations' results, from any contents `W`, are the part's lets. -/
theorem step11 (R0 : RT0) (R1 : RT1) (R2 : RT2) (W : Valuation τ sig (Elt F)) :
    kerVal_part11 R0 R1 R2 (W main_arg1) (W main_arg2) (W main_arg3) (W main_v93) (W main_v97) (W main_v105) (W main_v107) (W main_v108) (W main_cst_29)
      = kerVal_part12 R0 R1 R2 (StableHlo.after hostOps1_3 W main_arg1) (StableHlo.after hostOps1_3 W main_arg2) (StableHlo.after hostOps1_3 W main_arg3) (StableHlo.after hostOps1_3 W main_v93) (StableHlo.after hostOps1_3 W main_v97) (StableHlo.after hostOps1_3 W main_v105) (StableHlo.after hostOps1_3 W main_v109) := by
  rw [StableHlo.after_of_writes_sub hostOps1_3 W GenP.hostOps1_3_writes (by decide : main_arg1 ∉ GenP.hostOps1_3_W)]
  rw [StableHlo.after_of_writes_sub hostOps1_3 W GenP.hostOps1_3_writes (by decide : main_arg2 ∉ GenP.hostOps1_3_W)]
  rw [StableHlo.after_of_writes_sub hostOps1_3 W GenP.hostOps1_3_writes (by decide : main_arg3 ∉ GenP.hostOps1_3_W)]
  rw [StableHlo.after_of_writes_sub hostOps1_3 W GenP.hostOps1_3_writes (by decide : main_v93 ∉ GenP.hostOps1_3_W)]
  rw [StableHlo.after_of_writes_sub hostOps1_3 W GenP.hostOps1_3_writes (by decide : main_v97 ∉ GenP.hostOps1_3_W)]
  rw [StableHlo.after_of_writes_sub hostOps1_3 W GenP.hostOps1_3_writes (by decide : main_v105 ∉ GenP.hostOps1_3_W)]
  dsimp only [hostOps1_3]
  kh_results
  rfl

/-- Item 12, the host stretch `hostOps1_4`: its operations' results, from any contents `W`, are the part's lets. -/
theorem step12 (R0 : RT0) (R1 : RT1) (R2 : RT2) (W : Valuation τ sig (Elt F)) :
    kerVal_part12 R0 R1 R2 (W main_arg1) (W main_arg2) (W main_arg3) (W main_v93) (W main_v97) (W main_v105) (W main_v109)
      = kerVal_part13 R0 R1 R2 (StableHlo.after hostOps1_4 W main_arg1) (StableHlo.after hostOps1_4 W main_arg2) (StableHlo.after hostOps1_4 W main_arg3) (StableHlo.after hostOps1_4 W main_v105) (StableHlo.after hostOps1_4 W main_v109) (StableHlo.after hostOps1_4 W main_v112) (StableHlo.after hostOps1_4 W main_v113) (StableHlo.after hostOps1_4 W main_cst_33) := by
  rw [StableHlo.after_of_writes_sub hostOps1_4 W GenP.hostOps1_4_writes (by decide : main_arg1 ∉ GenP.hostOps1_4_W)]
  rw [StableHlo.after_of_writes_sub hostOps1_4 W GenP.hostOps1_4_writes (by decide : main_arg2 ∉ GenP.hostOps1_4_W)]
  rw [StableHlo.after_of_writes_sub hostOps1_4 W GenP.hostOps1_4_writes (by decide : main_arg3 ∉ GenP.hostOps1_4_W)]
  rw [StableHlo.after_of_writes_sub hostOps1_4 W GenP.hostOps1_4_writes (by decide : main_v105 ∉ GenP.hostOps1_4_W)]
  rw [StableHlo.after_of_writes_sub hostOps1_4 W GenP.hostOps1_4_writes (by decide : main_v109 ∉ GenP.hostOps1_4_W)]
  dsimp only [hostOps1_4]
  kh_results
  rfl

/-- Item 13, the host stretch `hostOps1_5`: its operations' results, from any contents `W`, are the part's lets. -/
theorem step13 (R0 : RT0) (R1 : RT1) (R2 : RT2) (W : Valuation τ sig (Elt F)) :
    kerVal_part13 R0 R1 R2 (W main_arg1) (W main_arg2) (W main_arg3) (W main_v105) (W main_v109) (W main_v112) (W main_v113) (W main_cst_33)
      = kerVal_part14 R0 R1 R2 (StableHlo.after hostOps1_5 W main_arg1) (StableHlo.after hostOps1_5 W main_arg2) (StableHlo.after hostOps1_5 W main_arg3) (StableHlo.after hostOps1_5 W main_v105) (StableHlo.after hostOps1_5 W main_v109) (StableHlo.after hostOps1_5 W main_v114) := by
  rw [StableHlo.after_of_writes_sub hostOps1_5 W GenP.hostOps1_5_writes (by decide : main_arg1 ∉ GenP.hostOps1_5_W)]
  rw [StableHlo.after_of_writes_sub hostOps1_5 W GenP.hostOps1_5_writes (by decide : main_arg2 ∉ GenP.hostOps1_5_W)]
  rw [StableHlo.after_of_writes_sub hostOps1_5 W GenP.hostOps1_5_writes (by decide : main_arg3 ∉ GenP.hostOps1_5_W)]
  rw [StableHlo.after_of_writes_sub hostOps1_5 W GenP.hostOps1_5_writes (by decide : main_v105 ∉ GenP.hostOps1_5_W)]
  rw [StableHlo.after_of_writes_sub hostOps1_5 W GenP.hostOps1_5_writes (by decide : main_v109 ∉ GenP.hostOps1_5_W)]
  dsimp only [hostOps1_5]
  kh_results
  rfl

set_option maxHeartbeats 1000000 in
/-- Item 14, the host stretch `hostOps1_6`: its operations' results, from any contents `W`, are the part's lets. -/
theorem step14 (R0 : RT0) (R1 : RT1) (R2 : RT2) (W : Valuation τ sig (Elt F)) :
    kerVal_part14 R0 R1 R2 (W main_arg1) (W main_arg2) (W main_arg3) (W main_v105) (W main_v109) (W main_v114)
      = kerVal_part15 R0 R1 R2 (StableHlo.after hostOps1_6 W main_arg1) (StableHlo.after hostOps1_6 W main_arg2) (StableHlo.after hostOps1_6 W main_arg3) (StableHlo.after hostOps1_6 W main_v119) (StableHlo.after hostOps1_6 W main_v122) (StableHlo.after hostOps1_6 W main_v128) (StableHlo.after hostOps1_6 W main_v130) (StableHlo.after hostOps1_6 W main_v132) (StableHlo.after hostOps1_6 W main_v134) (StableHlo.after hostOps1_6 W main_c_39) (StableHlo.after hostOps1_6 W main_c_40) := by
  rw [StableHlo.after_of_writes_sub hostOps1_6 W GenP.hostOps1_6_writes (by decide : main_arg1 ∉ GenP.hostOps1_6_W)]
  rw [StableHlo.after_of_writes_sub hostOps1_6 W GenP.hostOps1_6_writes (by decide : main_arg2 ∉ GenP.hostOps1_6_W)]
  rw [StableHlo.after_of_writes_sub hostOps1_6 W GenP.hostOps1_6_writes (by decide : main_arg3 ∉ GenP.hostOps1_6_W)]
  dsimp only [hostOps1_6]
  kh_results
  rfl

/-- Item 15, the host stretch `hostOps1_7`: its operations' results, from any contents `W`, are the part's lets. -/
theorem step15 (R0 : RT0) (R1 : RT1) (R2 : RT2) (W : Valuation τ sig (Elt F)) :
    kerVal_part15 R0 R1 R2 (W main_arg1) (W main_arg2) (W main_arg3) (W main_v119) (W main_v122) (W main_v128) (W main_v130) (W main_v132) (W main_v134) (W main_c_39) (W main_c_40)
      = kerVal_part16 R0 R1 R2 (StableHlo.after hostOps1_7 W main_arg1) (StableHlo.after hostOps1_7 W main_arg2) (StableHlo.after hostOps1_7 W main_arg3) (StableHlo.after hostOps1_7 W main_v119) (StableHlo.after hostOps1_7 W main_v122) (StableHlo.after hostOps1_7 W main_v128) (StableHlo.after hostOps1_7 W main_v130) (StableHlo.after hostOps1_7 W main_v132) (StableHlo.after hostOps1_7 W main_v134) (StableHlo.after hostOps1_7 W main_v135) := by
  rw [StableHlo.after_of_writes_sub hostOps1_7 W GenP.hostOps1_7_writes (by decide : main_arg1 ∉ GenP.hostOps1_7_W)]
  rw [StableHlo.after_of_writes_sub hostOps1_7 W GenP.hostOps1_7_writes (by decide : main_arg2 ∉ GenP.hostOps1_7_W)]
  rw [StableHlo.after_of_writes_sub hostOps1_7 W GenP.hostOps1_7_writes (by decide : main_arg3 ∉ GenP.hostOps1_7_W)]
  rw [StableHlo.after_of_writes_sub hostOps1_7 W GenP.hostOps1_7_writes (by decide : main_v119 ∉ GenP.hostOps1_7_W)]
  rw [StableHlo.after_of_writes_sub hostOps1_7 W GenP.hostOps1_7_writes (by decide : main_v122 ∉ GenP.hostOps1_7_W)]
  rw [StableHlo.after_of_writes_sub hostOps1_7 W GenP.hostOps1_7_writes (by decide : main_v128 ∉ GenP.hostOps1_7_W)]
  rw [StableHlo.after_of_writes_sub hostOps1_7 W GenP.hostOps1_7_writes (by decide : main_v130 ∉ GenP.hostOps1_7_W)]
  rw [StableHlo.after_of_writes_sub hostOps1_7 W GenP.hostOps1_7_writes (by decide : main_v132 ∉ GenP.hostOps1_7_W)]
  rw [StableHlo.after_of_writes_sub hostOps1_7 W GenP.hostOps1_7_writes (by decide : main_v134 ∉ GenP.hostOps1_7_W)]
  dsimp only [hostOps1_7]
  kh_results
  rfl

/-- Item 16, the host stretch `hostOps1_8`: its operations' results, from any contents `W`, are the part's lets. -/
theorem step16 (R0 : RT0) (R1 : RT1) (R2 : RT2) (W : Valuation τ sig (Elt F)) :
    kerVal_part16 R0 R1 R2 (W main_arg1) (W main_arg2) (W main_arg3) (W main_v119) (W main_v122) (W main_v128) (W main_v130) (W main_v132) (W main_v134) (W main_v135)
      = kerVal_part17 R0 R1 R2 (StableHlo.after hostOps1_8 W main_arg1) (StableHlo.after hostOps1_8 W main_arg2) (StableHlo.after hostOps1_8 W main_arg3) (StableHlo.after hostOps1_8 W main_v119) (StableHlo.after hostOps1_8 W main_v122) (StableHlo.after hostOps1_8 W main_v128) (StableHlo.after hostOps1_8 W main_v130) (StableHlo.after hostOps1_8 W main_v132) (StableHlo.after hostOps1_8 W main_v134) (StableHlo.after hostOps1_8 W main_v136) (StableHlo.after hostOps1_8 W main_c_41) (StableHlo.after hostOps1_8 W main_c_42) := by
  rw [StableHlo.after_of_writes_sub hostOps1_8 W GenP.hostOps1_8_writes (by decide : main_arg1 ∉ GenP.hostOps1_8_W)]
  rw [StableHlo.after_of_writes_sub hostOps1_8 W GenP.hostOps1_8_writes (by decide : main_arg2 ∉ GenP.hostOps1_8_W)]
  rw [StableHlo.after_of_writes_sub hostOps1_8 W GenP.hostOps1_8_writes (by decide : main_arg3 ∉ GenP.hostOps1_8_W)]
  rw [StableHlo.after_of_writes_sub hostOps1_8 W GenP.hostOps1_8_writes (by decide : main_v119 ∉ GenP.hostOps1_8_W)]
  rw [StableHlo.after_of_writes_sub hostOps1_8 W GenP.hostOps1_8_writes (by decide : main_v122 ∉ GenP.hostOps1_8_W)]
  rw [StableHlo.after_of_writes_sub hostOps1_8 W GenP.hostOps1_8_writes (by decide : main_v128 ∉ GenP.hostOps1_8_W)]
  rw [StableHlo.after_of_writes_sub hostOps1_8 W GenP.hostOps1_8_writes (by decide : main_v130 ∉ GenP.hostOps1_8_W)]
  rw [StableHlo.after_of_writes_sub hostOps1_8 W GenP.hostOps1_8_writes (by decide : main_v132 ∉ GenP.hostOps1_8_W)]
  rw [StableHlo.after_of_writes_sub hostOps1_8 W GenP.hostOps1_8_writes (by decide : main_v134 ∉ GenP.hostOps1_8_W)]
  dsimp only [hostOps1_8]
  kh_results
  rfl

/-- Item 17, the host stretch `hostOps1_9`: its operations' results, from any contents `W`, are the part's lets. -/
theorem step17 (R0 : RT0) (R1 : RT1) (R2 : RT2) (W : Valuation τ sig (Elt F)) :
    kerVal_part17 R0 R1 R2 (W main_arg1) (W main_arg2) (W main_arg3) (W main_v119) (W main_v122) (W main_v128) (W main_v130) (W main_v132) (W main_v134) (W main_v136) (W main_c_41) (W main_c_42)
      = kerVal_part18 R0 R1 R2 (StableHlo.after hostOps1_9 W main_arg1) (StableHlo.after hostOps1_9 W main_arg2) (StableHlo.after hostOps1_9 W main_arg3) (StableHlo.after hostOps1_9 W main_v119) (StableHlo.after hostOps1_9 W main_v122) (StableHlo.after hostOps1_9 W main_v128) (StableHlo.after hostOps1_9 W main_v130) (StableHlo.after hostOps1_9 W main_v132) (StableHlo.after hostOps1_9 W main_v134) (StableHlo.after hostOps1_9 W main_v136) (StableHlo.after hostOps1_9 W main_v137) := by
  rw [StableHlo.after_of_writes_sub hostOps1_9 W GenP.hostOps1_9_writes (by decide : main_arg1 ∉ GenP.hostOps1_9_W)]
  rw [StableHlo.after_of_writes_sub hostOps1_9 W GenP.hostOps1_9_writes (by decide : main_arg2 ∉ GenP.hostOps1_9_W)]
  rw [StableHlo.after_of_writes_sub hostOps1_9 W GenP.hostOps1_9_writes (by decide : main_arg3 ∉ GenP.hostOps1_9_W)]
  rw [StableHlo.after_of_writes_sub hostOps1_9 W GenP.hostOps1_9_writes (by decide : main_v119 ∉ GenP.hostOps1_9_W)]
  rw [StableHlo.after_of_writes_sub hostOps1_9 W GenP.hostOps1_9_writes (by decide : main_v122 ∉ GenP.hostOps1_9_W)]
  rw [StableHlo.after_of_writes_sub hostOps1_9 W GenP.hostOps1_9_writes (by decide : main_v128 ∉ GenP.hostOps1_9_W)]
  rw [StableHlo.after_of_writes_sub hostOps1_9 W GenP.hostOps1_9_writes (by decide : main_v130 ∉ GenP.hostOps1_9_W)]
  rw [StableHlo.after_of_writes_sub hostOps1_9 W GenP.hostOps1_9_writes (by decide : main_v132 ∉ GenP.hostOps1_9_W)]
  rw [StableHlo.after_of_writes_sub hostOps1_9 W GenP.hostOps1_9_writes (by decide : main_v134 ∉ GenP.hostOps1_9_W)]
  rw [StableHlo.after_of_writes_sub hostOps1_9 W GenP.hostOps1_9_writes (by decide : main_v136 ∉ GenP.hostOps1_9_W)]
  dsimp only [hostOps1_9]
  kh_results
  rfl

set_option maxHeartbeats 1000000 in
/-- Item 18, the host stretch `hostOps1_10`: its operations' results, from any contents `W`, are the part's lets. -/
theorem step18 (R0 : RT0) (R1 : RT1) (R2 : RT2) (W : Valuation τ sig (Elt F)) :
    kerVal_part18 R0 R1 R2 (W main_arg1) (W main_arg2) (W main_arg3) (W main_v119) (W main_v122) (W main_v128) (W main_v130) (W main_v132) (W main_v134) (W main_v136) (W main_v137)
      = kerVal_part19 R0 R1 R2 (StableHlo.after hostOps1_10 W main_arg1) (StableHlo.after hostOps1_10 W main_arg2) (StableHlo.after hostOps1_10 W main_arg3) (StableHlo.after hostOps1_10 W main_v119) (StableHlo.after hostOps1_10 W main_v122) (StableHlo.after hostOps1_10 W main_v136) (StableHlo.after hostOps1_10 W main_v138) (StableHlo.after hostOps1_10 W main_v153) (StableHlo.after hostOps1_10 W main_v177) (StableHlo.after hostOps1_10 W main_c_53) := by
  rw [StableHlo.after_of_writes_sub hostOps1_10 W GenP.hostOps1_10_writes (by decide : main_arg1 ∉ GenP.hostOps1_10_W)]
  rw [StableHlo.after_of_writes_sub hostOps1_10 W GenP.hostOps1_10_writes (by decide : main_arg2 ∉ GenP.hostOps1_10_W)]
  rw [StableHlo.after_of_writes_sub hostOps1_10 W GenP.hostOps1_10_writes (by decide : main_arg3 ∉ GenP.hostOps1_10_W)]
  rw [StableHlo.after_of_writes_sub hostOps1_10 W GenP.hostOps1_10_writes (by decide : main_v119 ∉ GenP.hostOps1_10_W)]
  rw [StableHlo.after_of_writes_sub hostOps1_10 W GenP.hostOps1_10_writes (by decide : main_v122 ∉ GenP.hostOps1_10_W)]
  rw [StableHlo.after_of_writes_sub hostOps1_10 W GenP.hostOps1_10_writes (by decide : main_v136 ∉ GenP.hostOps1_10_W)]
  dsimp only [hostOps1_10]
  kh_results
  rfl

/-- Item 19, the host stretch `hostOps1_11`: its operations' results, from any contents `W`, are the part's lets. -/
theorem step19 (R0 : RT0) (R1 : RT1) (R2 : RT2) (W : Valuation τ sig (Elt F)) :
    kerVal_part19 R0 R1 R2 (W main_arg1) (W main_arg2) (W main_arg3) (W main_v119) (W main_v122) (W main_v136) (W main_v138) (W main_v153) (W main_v177) (W main_c_53)
      = kerVal_part20 R0 R1 R2 (StableHlo.after hostOps1_11 W main_arg1) (StableHlo.after hostOps1_11 W main_arg2) (StableHlo.after hostOps1_11 W main_arg3) (StableHlo.after hostOps1_11 W main_v119) (StableHlo.after hostOps1_11 W main_v136) (StableHlo.after hostOps1_11 W main_v138) (StableHlo.after hostOps1_11 W main_v153) (StableHlo.after hostOps1_11 W main_v178) := by
  rw [StableHlo.after_of_writes_sub hostOps1_11 W GenP.hostOps1_11_writes (by decide : main_arg1 ∉ GenP.hostOps1_11_W)]
  rw [StableHlo.after_of_writes_sub hostOps1_11 W GenP.hostOps1_11_writes (by decide : main_arg2 ∉ GenP.hostOps1_11_W)]
  rw [StableHlo.after_of_writes_sub hostOps1_11 W GenP.hostOps1_11_writes (by decide : main_arg3 ∉ GenP.hostOps1_11_W)]
  rw [StableHlo.after_of_writes_sub hostOps1_11 W GenP.hostOps1_11_writes (by decide : main_v119 ∉ GenP.hostOps1_11_W)]
  rw [StableHlo.after_of_writes_sub hostOps1_11 W GenP.hostOps1_11_writes (by decide : main_v136 ∉ GenP.hostOps1_11_W)]
  rw [StableHlo.after_of_writes_sub hostOps1_11 W GenP.hostOps1_11_writes (by decide : main_v138 ∉ GenP.hostOps1_11_W)]
  rw [StableHlo.after_of_writes_sub hostOps1_11 W GenP.hostOps1_11_writes (by decide : main_v153 ∉ GenP.hostOps1_11_W)]
  dsimp only [hostOps1_11]
  kh_results
  rfl

set_option maxHeartbeats 1000000 in
/-- Item 20, the host stretch `hostOps1_12`: its operations' results, from any contents `W`, are the part's lets. -/
theorem step20 (R0 : RT0) (R1 : RT1) (R2 : RT2) (W : Valuation τ sig (Elt F)) :
    kerVal_part20 R0 R1 R2 (W main_arg1) (W main_arg2) (W main_arg3) (W main_v119) (W main_v136) (W main_v138) (W main_v153) (W main_v178)
      = kerVal_part21 R0 R1 R2 (StableHlo.after hostOps1_12 W main_arg2) (StableHlo.after hostOps1_12 W main_arg3) (StableHlo.after hostOps1_12 W main_v119) (StableHlo.after hostOps1_12 W main_v200) (StableHlo.after hostOps1_12 W main_v201) := by
  rw [StableHlo.after_of_writes_sub hostOps1_12 W GenP.hostOps1_12_writes (by decide : main_arg2 ∉ GenP.hostOps1_12_W)]
  rw [StableHlo.after_of_writes_sub hostOps1_12 W GenP.hostOps1_12_writes (by decide : main_arg3 ∉ GenP.hostOps1_12_W)]
  rw [StableHlo.after_of_writes_sub hostOps1_12 W GenP.hostOps1_12_writes (by decide : main_v119 ∉ GenP.hostOps1_12_W)]
  dsimp only [hostOps1_12]
  kh_results
  rfl

/-- Item 21, region 1: its output array holds the region's function of its two input arrays; every other array is unchanged. -/
theorem step21 (R0 : RT0) (R1 : RT1) (R2 : RT2) (m : (ℓ : Loc nD τ sig) → Buf (Elt F) ℓ) (outs : GenP.Outs (F := F)) (c : Dev nD)
    (h : outs 22 main_v202 c = R1 (GenP.V21 m outs c main_v200) (GenP.V21 m outs c main_v201)) :
    kerVal_part21 R0 R1 R2 (GenP.V21 m outs c main_arg2) (GenP.V21 m outs c main_arg3) (GenP.V21 m outs c main_v119) (GenP.V21 m outs c main_v200) (GenP.V21 m outs c main_v201)
      = kerVal_part22 R0 R1 R2 (GenP.V22 m outs c main_arg2) (GenP.V22 m outs c main_arg3) (GenP.V22 m outs c main_v119) (GenP.V22 m outs c main_v202) := by
  have e : GenP.V22 m outs c main_v202 = outs 22 main_v202 c := Function.update_self _ _ _
  rw [GenP.V22_of m outs c main_arg2 (by decide), GenP.V22_of m outs c main_arg3 (by decide), GenP.V22_of m outs c main_v119 (by decide), e, h]
  rfl

end Cert.KernelIdeal.Hand

end
-- ==== Proof.KHost2.lean ====
import proofs.«409303_j18760417149025_3_alg».proof.Proof.KernelIdealRegions
import proofs.«409303_j18760417149025_3_alg».proof.Proof.KerFun
import proofs.«409303_j18760417149025_3_alg».proof.Proof.LibHostResults

set_option maxRecDepth 2684

noncomputable section

namespace Cert.KernelIdeal.Hand

open Cert.KernelIdeal Cert.KernelIdeal.Gen
open Idealize.ShloMosaic Idealize.ShloMosaic.TcCoe

variable {F : FTy → Type} [FloatOps F]

local notation "RT0" => FVec F S128x5x200x128 FTy.f32 → FVec F S128x5x200x128 FTy.f32 → FVec F S1x256 FTy.f32
local notation "RT1" => FVec F S128x5x50x128 FTy.f32 → FVec F S128x5x50x128 FTy.f32 → FVec F S1x256 FTy.f32
local notation "RT2" => FVec F S128x5x40x40 FTy.f32 → FVec F S128x5x40x40 FTy.f32 → FVec F S1x256 FTy.f32

/-! ## Items 22 … 35 of @main, each against its part of `kerVal` -/

set_option maxHeartbeats 1000000 in
/-- Item 22, the host stretch `hostOps2`: its operations' results, from any contents `W`, are the part's lets. -/
theorem step22 (R0 : RT0) (R1 : RT1) (R2 : RT2) (W : Valuation τ sig (Elt F)) :
    kerVal_part22 R0 R1 R2 (W main_arg2) (W main_arg3) (W main_v119) (W main_v202)
      = kerVal_part23 R0 R1 R2 (StableHlo.after hostOps2 W main_arg2) (StableHlo.after hostOps2 W main_arg3) (StableHlo.after hostOps2 W main_v119) (StableHlo.after hostOps2 W main_v213) (StableHlo.after hostOps2 W main_v215) (StableHlo.after hostOps2 W main_v217) (StableHlo.after hostOps2 W main_v222) (StableHlo.after hostOps2 W main_v223) (StableHlo.after hostOps2 W main_cst_64) := by
  rw [StableHlo.after_of_writes_sub hostOps2 W GenP.hostOps2_writes (by decide : main_arg2 ∉ GenP.hostOps2_W)]
  rw [StableHlo.after_of_writes_sub hostOps2 W GenP.hostOps2_writes (by decide : main_arg3 ∉ GenP.hostOps2_W)]
  rw [StableHlo.after_of_writes_sub hostOps2 W GenP.hostOps2_writes (by decide : main_v119 ∉ GenP.hostOps2_W)]
  dsimp only [hostOps2]
  kh_results
  rfl

/-- Item 23, the host stretch `hostOps2_1`: its operations' results, from any contents `W`, are the part's lets. -/
theorem step23 (R0 : RT0) (R1 : RT1) (R2 : RT2) (W : Valuation τ sig (Elt F)) :
    kerVal_part23 R0 R1 R2 (W main_arg2) (W main_arg3) (W main_v119) (W main_v213) (W main_v215) (W main_v217) (W main_v222) (W main_v223) (W main_cst_64)
      = kerVal_part24 R0 R1 R2 (StableHlo.after hostOps2_1 W main_arg2) (StableHlo.after hostOps2_1 W main_arg3) (StableHlo.after hostOps2_1 W main_v119) (StableHlo.after hostOps2_1 W main_v213) (StableHlo.after hostOps2_1 W main_v215) (StableHlo.after hostOps2_1 W main_v217) (StableHlo.after hostOps2_1 W main_v224) := by
  rw [StableHlo.after_of_writes_sub hostOps2_1 W GenP.hostOps2_1_writes (by decide : main_arg2 ∉ GenP.hostOps2_1_W)]
  rw [StableHlo.after_of_writes_sub hostOps2_1 W GenP.hostOps2_1_writes (by decide : main_arg3 ∉ GenP.hostOps2_1_W)]
  rw [StableHlo.after_of_writes_sub hostOps2_1 W GenP.hostOps2_1_writes (by decide : main_v119 ∉ GenP.hostOps2_1_W)]
  rw [StableHlo.after_of_writes_sub hostOps2_1 W GenP.hostOps2_1_writes (by decide : main_v213 ∉ GenP.hostOps2_1_W)]
  rw [StableHlo.after_of_writes_sub hostOps2_1 W GenP.hostOps2_1_writes (by decide : main_v215 ∉ GenP.hostOps2_1_W)]
  rw [StableHlo.after_of_writes_sub hostOps2_1 W GenP.hostOps2_1_writes (by decide : main_v217 ∉ GenP.hostOps2_1_W)]
  dsimp only [hostOps2_1]
  kh_results
  rfl

/-- Item 24, the host stretch `hostOps2_2`: its operations' results, from any contents `W`, are the part's lets. -/
theorem step24 (R0 : RT0) (R1 : RT1) (R2 : RT2) (W : Valuation τ sig (Elt F)) :
    kerVal_part24 R0 R1 R2 (W main_arg2) (W main_arg3) (W main_v119) (W main_v213) (W main_v215) (W main_v217) (W main_v224)
      = kerVal_part25 R0 R1 R2 (StableHlo.after hostOps2_2 W main_arg2) (StableHlo.after hostOps2_2 W main_arg3) (StableHlo.after hostOps2_2 W main_v119) (StableHlo.after hostOps2_2 W main_v213) (StableHlo.after hostOps2_2 W main_v217) (StableHlo.after hostOps2_2 W main_v225) (StableHlo.after hostOps2_2 W main_v227) (StableHlo.after hostOps2_2 W main_v228) (StableHlo.after hostOps2_2 W main_cst_68) := by
  rw [StableHlo.after_of_writes_sub hostOps2_2 W GenP.hostOps2_2_writes (by decide : main_arg2 ∉ GenP.hostOps2_2_W)]
  rw [StableHlo.after_of_writes_sub hostOps2_2 W GenP.hostOps2_2_writes (by decide : main_arg3 ∉ GenP.hostOps2_2_W)]
  rw [StableHlo.after_of_writes_sub hostOps2_2 W GenP.hostOps2_2_writes (by decide : main_v119 ∉ GenP.hostOps2_2_W)]
  rw [StableHlo.after_of_writes_sub hostOps2_2 W GenP.hostOps2_2_writes (by decide : main_v213 ∉ GenP.hostOps2_2_W)]
  rw [StableHlo.after_of_writes_sub hostOps2_2 W GenP.hostOps2_2_writes (by decide : main_v217 ∉ GenP.hostOps2_2_W)]
  dsimp only [hostOps2_2]
  kh_results
  rfl

/-- Item 25, the host stretch `hostOps2_3`: its operations' results, from any contents `W`, are the part's lets. -/
theorem step25 (R0 : RT0) (R1 : RT1) (R2 : RT2) (W : Valuation τ sig (Elt F)) :
    kerVal_part25 R0 R1 R2 (W main_arg2) (W main_arg3) (W main_v119) (W main_v213) (W main_v217) (W main_v225) (W main_v227) (W main_v228) (W main_cst_68)
      = kerVal_part26 R0 R1 R2 (StableHlo.after hostOps2_3 W main_arg2) (StableHlo.after hostOps2_3 W main_arg3) (StableHlo.after hostOps2_3 W main_v119) (StableHlo.after hostOps2_3 W main_v213) (StableHlo.after hostOps2_3 W main_v217) (StableHlo.after hostOps2_3 W main_v225) (StableHlo.after hostOps2_3 W main_v229) := by
  rw [StableHlo.after_of_writes_sub hostOps2_3 W GenP.hostOps2_3_writes (by decide : main_arg2 ∉ GenP.hostOps2_3_W)]
  rw [StableHlo.after_of_writes_sub hostOps2_3 W GenP.hostOps2_3_writes (by decide : main_arg3 ∉ GenP.hostOps2_3_W)]
  rw [StableHlo.after_of_writes_sub hostOps2_3 W GenP.hostOps2_3_writes (by decide : main_v119 ∉ GenP.hostOps2_3_W)]
  rw [StableHlo.after_of_writes_sub hostOps2_3 W GenP.hostOps2_3_writes (by decide : main_v213 ∉ GenP.hostOps2_3_W)]
  rw [StableHlo.after_of_writes_sub hostOps2_3 W GenP.hostOps2_3_writes (by decide : main_v217 ∉ GenP.hostOps2_3_W)]
  rw [StableHlo.after_of_writes_sub hostOps2_3 W GenP.hostOps2_3_writes (by decide : main_v225 ∉ GenP.hostOps2_3_W)]
  dsimp only [hostOps2_3]
  kh_results
  rfl

/-- Item 26, the host stretch `hostOps2_4`: its operations' results, from any contents `W`, are the part's lets. -/
theorem step26 (R0 : RT0) (R1 : RT1) (R2 : RT2) (W : Valuation τ sig (Elt F)) :
    kerVal_part26 R0 R1 R2 (W main_arg2) (W main_arg3) (W main_v119) (W main_v213) (W main_v217) (W main_v225) (W main_v229)
      = kerVal_part27 R0 R1 R2 (StableHlo.after hostOps2_4 W main_arg2) (StableHlo.after hostOps2_4 W main_arg3) (StableHlo.after hostOps2_4 W main_v119) (StableHlo.after hostOps2_4 W main_v225) (StableHlo.after hostOps2_4 W main_v229) (StableHlo.after hostOps2_4 W main_v232) (StableHlo.after hostOps2_4 W main_v233) (StableHlo.after hostOps2_4 W main_cst_72) := by
  rw [StableHlo.after_of_writes_sub hostOps2_4 W GenP.hostOps2_4_writes (by decide : main_arg2 ∉ GenP.hostOps2_4_W)]
  rw [StableHlo.after_of_writes_sub hostOps2_4 W GenP.hostOps2_4_writes (by decide : main_arg3 ∉ GenP.hostOps2_4_W)]
  rw [StableHlo.after_of_writes_sub hostOps2_4 W GenP.hostOps2_4_writes (by decide : main_v119 ∉ GenP.hostOps2_4_W)]
  rw [StableHlo.after_of_writes_sub hostOps2_4 W GenP.hostOps2_4_writes (by decide : main_v225 ∉ GenP.hostOps2_4_W)]
  rw [StableHlo.after_of_writes_sub hostOps2_4 W GenP.hostOps2_4_writes (by decide : main_v229 ∉ GenP.hostOps2_4_W)]
  dsimp only [hostOps2_4]
  kh_results
  rfl

/-- Item 27, the host stretch `hostOps2_5`: its operations' results, from any contents `W`, are the part's lets. -/
theorem step27 (R0 : RT0) (R1 : RT1) (R2 : RT2) (W : Valuation τ sig (Elt F)) :
    kerVal_part27 R0 R1 R2 (W main_arg2) (W main_arg3) (W main_v119) (W main_v225) (W main_v229) (W main_v232) (W main_v233) (W main_cst_72)
      = kerVal_part28 R0 R1 R2 (StableHlo.after hostOps2_5 W main_arg2) (StableHlo.after hostOps2_5 W main_arg3) (StableHlo.after hostOps2_5 W main_v119) (StableHlo.after hostOps2_5 W main_v225) (StableHlo.after hostOps2_5 W main_v229) (StableHlo.after hostOps2_5 W main_v234) := by
  rw [StableHlo.after_of_writes_sub hostOps2_5 W GenP.hostOps2_5_writes (by decide : main_arg2 ∉ GenP.hostOps2_5_W)]
  rw [StableHlo.after_of_writes_sub hostOps2_5 W GenP.hostOps2_5_writes (by decide : main_arg3 ∉ GenP.hostOps2_5_W)]
  rw [StableHlo.after_of_writes_sub hostOps2_5 W GenP.hostOps2_5_writes (by decide : main_v119 ∉ GenP.hostOps2_5_W)]
  rw [StableHlo.after_of_writes_sub hostOps2_5 W GenP.hostOps2_5_writes (by decide : main_v225 ∉ GenP.hostOps2_5_W)]
  rw [StableHlo.after_of_writes_sub hostOps2_5 W GenP.hostOps2_5_writes (by decide : main_v229 ∉ GenP.hostOps2_5_W)]
  dsimp only [hostOps2_5]
  kh_results
  rfl

set_option maxHeartbeats 1000000 in
/-- Item 28, the host stretch `hostOps2_6`: its operations' results, from any contents `W`, are the part's lets. -/
theorem step28 (R0 : RT0) (R1 : RT1) (R2 : RT2) (W : Valuation τ sig (Elt F)) :
    kerVal_part28 R0 R1 R2 (W main_arg2) (W main_arg3) (W main_v119) (W main_v225) (W main_v229) (W main_v234)
      = kerVal_part29 R0 R1 R2 (StableHlo.after hostOps2_6 W main_arg2) (StableHlo.after hostOps2_6 W main_v239) (StableHlo.after hostOps2_6 W main_v242) (StableHlo.after hostOps2_6 W main_v248) (StableHlo.after hostOps2_6 W main_v250) (StableHlo.after hostOps2_6 W main_v252) (StableHlo.after hostOps2_6 W main_v254) (StableHlo.after hostOps2_6 W main_c_77) (StableHlo.after hostOps2_6 W main_c_78) := by
  rw [StableHlo.after_of_writes_sub hostOps2_6 W GenP.hostOps2_6_writes (by decide : main_arg2 ∉ GenP.hostOps2_6_W)]
  dsimp only [hostOps2_6]
  kh_results
  rfl

/-- Item 29, the host stretch `hostOps2_7`: its operations' results, from any contents `W`, are the part's lets. -/
theorem step29 (R0 : RT0) (R1 : RT1) (R2 : RT2) (W : Valuation τ sig (Elt F)) :
    kerVal_part29 R0 R1 R2 (W main_arg2) (W main_v239) (W main_v242) (W main_v248) (W main_v250) (W main_v252) (W main_v254) (W main_c_77) (W main_c_78)
      = kerVal_part30 R0 R1 R2 (StableHlo.after hostOps2_7 W main_arg2) (StableHlo.after hostOps2_7 W main_v239) (StableHlo.after hostOps2_7 W main_v242) (StableHlo.after hostOps2_7 W main_v248) (StableHlo.after hostOps2_7 W main_v250) (StableHlo.after hostOps2_7 W main_v252) (StableHlo.after hostOps2_7 W main_v254) (StableHlo.after hostOps2_7 W main_v255) := by
  rw [StableHlo.after_of_writes_sub hostOps2_7 W GenP.hostOps2_7_writes (by decide : main_arg2 ∉ GenP.hostOps2_7_W)]
  rw [StableHlo.after_of_writes_sub hostOps2_7 W GenP.hostOps2_7_writes (by decide : main_v239 ∉ GenP.hostOps2_7_W)]
  rw [StableHlo.after_of_writes_sub hostOps2_7 W GenP.hostOps2_7_writes (by decide : main_v242 ∉ GenP.hostOps2_7_W)]
  rw [StableHlo.after_of_writes_sub hostOps2_7 W GenP.hostOps2_7_writes (by decide : main_v248 ∉ GenP.hostOps2_7_W)]
  rw [StableHlo.after_of_writes_sub hostOps2_7 W GenP.hostOps2_7_writes (by decide : main_v250 ∉ GenP.hostOps2_7_W)]
  rw [StableHlo.after_of_writes_sub hostOps2_7 W GenP.hostOps2_7_writes (by decide : main_v252 ∉ GenP.hostOps2_7_W)]
  rw [StableHlo.after_of_writes_sub hostOps2_7 W GenP.hostOps2_7_writes (by decide : main_v254 ∉ GenP.hostOps2_7_W)]
  dsimp only [hostOps2_7]
  kh_results
  rfl

/-- Item 30, the host stretch `hostOps2_8`: its operations' results, from any contents `W`, are the part's lets. -/
theorem step30 (R0 : RT0) (R1 : RT1) (R2 : RT2) (W : Valuation τ sig (Elt F)) :
    kerVal_part30 R0 R1 R2 (W main_arg2) (W main_v239) (W main_v242) (W main_v248) (W main_v250) (W main_v252) (W main_v254) (W main_v255)
      = kerVal_part31 R0 R1 R2 (StableHlo.after hostOps2_8 W main_arg2) (StableHlo.after hostOps2_8 W main_v239) (StableHlo.after hostOps2_8 W main_v242) (StableHlo.after hostOps2_8 W main_v248) (StableHlo.after hostOps2_8 W main_v250) (StableHlo.after hostOps2_8 W main_v252) (StableHlo.after hostOps2_8 W main_v254) (StableHlo.after hostOps2_8 W main_v256) (StableHlo.after hostOps2_8 W main_c_79) (StableHlo.after hostOps2_8 W main_c_80) := by
  rw [StableHlo.after_of_writes_sub hostOps2_8 W GenP.hostOps2_8_writes (by decide : main_arg2 ∉ GenP.hostOps2_8_W)]
  rw [StableHlo.after_of_writes_sub hostOps2_8 W GenP.hostOps2_8_writes (by decide : main_v239 ∉ GenP.hostOps2_8_W)]
  rw [StableHlo.after_of_writes_sub hostOps2_8 W GenP.hostOps2_8_writes (by decide : main_v242 ∉ GenP.hostOps2_8_W)]
  rw [StableHlo.after_of_writes_sub hostOps2_8 W GenP.hostOps2_8_writes (by decide : main_v248 ∉ GenP.hostOps2_8_W)]
  rw [StableHlo.after_of_writes_sub hostOps2_8 W GenP.hostOps2_8_writes (by decide : main_v250 ∉ GenP.hostOps2_8_W)]
  rw [StableHlo.after_of_writes_sub hostOps2_8 W GenP.hostOps2_8_writes (by decide : main_v252 ∉ GenP.hostOps2_8_W)]
  rw [StableHlo.after_of_writes_sub hostOps2_8 W GenP.hostOps2_8_writes (by decide : main_v254 ∉ GenP.hostOps2_8_W)]
  dsimp only [hostOps2_8]
  kh_results
  rfl

/-- Item 31, the host stretch `hostOps2_9`: its operations' results, from any contents `W`, are the part's lets. -/
theorem step31 (R0 : RT0) (R1 : RT1) (R2 : RT2) (W : Valuation τ sig (Elt F)) :
    kerVal_part31 R0 R1 R2 (W main_arg2) (W main_v239) (W main_v242) (W main_v248) (W main_v250) (W main_v252) (W main_v254) (W main_v256) (W main_c_79) (W main_c_80)
      = kerVal_part32 R0 R1 R2 (StableHlo.after hostOps2_9 W main_arg2) (StableHlo.after hostOps2_9 W main_v239) (StableHlo.after hostOps2_9 W main_v242) (StableHlo.after hostOps2_9 W main_v248) (StableHlo.after hostOps2_9 W main_v250) (StableHlo.after hostOps2_9 W main_v252) (StableHlo.after hostOps2_9 W main_v254) (StableHlo.after hostOps2_9 W main_v256) (StableHlo.after hostOps2_9 W main_v257) := by
  rw [StableHlo.after_of_writes_sub hostOps2_9 W GenP.hostOps2_9_writes (by decide : main_arg2 ∉ GenP.hostOps2_9_W)]
  rw [StableHlo.after_of_writes_sub hostOps2_9 W GenP.hostOps2_9_writes (by decide : main_v239 ∉ GenP.hostOps2_9_W)]
  rw [StableHlo.after_of_writes_sub hostOps2_9 W GenP.hostOps2_9_writes (by decide : main_v242 ∉ GenP.hostOps2_9_W)]
  rw [StableHlo.after_of_writes_sub hostOps2_9 W GenP.hostOps2_9_writes (by decide : main_v248 ∉ GenP.hostOps2_9_W)]
  rw [StableHlo.after_of_writes_sub hostOps2_9 W GenP.hostOps2_9_writes (by decide : main_v250 ∉ GenP.hostOps2_9_W)]
  rw [StableHlo.after_of_writes_sub hostOps2_9 W GenP.hostOps2_9_writes (by decide : main_v252 ∉ GenP.hostOps2_9_W)]
  rw [StableHlo.after_of_writes_sub hostOps2_9 W GenP.hostOps2_9_writes (by decide : main_v254 ∉ GenP.hostOps2_9_W)]
  rw [StableHlo.after_of_writes_sub hostOps2_9 W GenP.hostOps2_9_writes (by decide : main_v256 ∉ GenP.hostOps2_9_W)]
  dsimp only [hostOps2_9]
  kh_results
  rfl

set_option maxHeartbeats 1000000 in
/-- Item 32, the host stretch `hostOps2_10`: its operations' results, from any contents `W`, are the part's lets. -/
theorem step32 (R0 : RT0) (R1 : RT1) (R2 : RT2) (W : Valuation τ sig (Elt F)) :
    kerVal_part32 R0 R1 R2 (W main_arg2) (W main_v239) (W main_v242) (W main_v248) (W main_v250) (W main_v252) (W main_v254) (W main_v256) (W main_v257)
      = kerVal_part33 R0 R1 R2 (StableHlo.after hostOps2_10 W main_arg2) (StableHlo.after hostOps2_10 W main_v239) (StableHlo.after hostOps2_10 W main_v242) (StableHlo.after hostOps2_10 W main_v256) (StableHlo.after hostOps2_10 W main_v258) (StableHlo.after hostOps2_10 W main_v273) (StableHlo.after hostOps2_10 W main_v297) (StableHlo.after hostOps2_10 W main_c_91) := by
  rw [StableHlo.after_of_writes_sub hostOps2_10 W GenP.hostOps2_10_writes (by decide : main_arg2 ∉ GenP.hostOps2_10_W)]
  rw [StableHlo.after_of_writes_sub hostOps2_10 W GenP.hostOps2_10_writes (by decide : main_v239 ∉ GenP.hostOps2_10_W)]
  rw [StableHlo.after_of_writes_sub hostOps2_10 W GenP.hostOps2_10_writes (by decide : main_v242 ∉ GenP.hostOps2_10_W)]
  rw [StableHlo.after_of_writes_sub hostOps2_10 W GenP.hostOps2_10_writes (by decide : main_v256 ∉ GenP.hostOps2_10_W)]
  dsimp only [hostOps2_10]
  kh_results
  rfl

/-- Item 33, the host stretch `hostOps2_11`: its operations' results, from any contents `W`, are the part's lets. -/
theorem step33 (R0 : RT0) (R1 : RT1) (R2 : RT2) (W : Valuation τ sig (Elt F)) :
    kerVal_part33 R0 R1 R2 (W main_arg2) (W main_v239) (W main_v242) (W main_v256) (W main_v258) (W main_v273) (W main_v297) (W main_c_91)
      = kerVal_part34 R0 R1 R2 (StableHlo.after hostOps2_11 W main_arg2) (StableHlo.after hostOps2_11 W main_v239) (StableHlo.after hostOps2_11 W main_v256) (StableHlo.after hostOps2_11 W main_v258) (StableHlo.after hostOps2_11 W main_v273) (StableHlo.after hostOps2_11 W main_v298) := by
  rw [StableHlo.after_of_writes_sub hostOps2_11 W GenP.hostOps2_11_writes (by decide : main_arg2 ∉ GenP.hostOps2_11_W)]
  rw [StableHlo.after_of_writes_sub hostOps2_11 W GenP.hostOps2_11_writes (by decide : main_v239 ∉ GenP.hostOps2_11_W)]
  rw [StableHlo.after_of_writes_sub hostOps2_11 W GenP.hostOps2_11_writes (by decide : main_v256 ∉ GenP.hostOps2_11_W)]
  rw [StableHlo.after_of_writes_sub hostOps2_11 W GenP.hostOps2_11_writes (by decide : main_v258 ∉ GenP.hostOps2_11_W)]
  rw [StableHlo.after_of_writes_sub hostOps2_11 W GenP.hostOps2_11_writes (by decide : main_v273 ∉ GenP.hostOps2_11_W)]
  dsimp only [hostOps2_11]
  kh_results
  rfl

set_option maxHeartbeats 1000000 in
/-- Item 34, the host stretch `hostOps2_12`: its operations' results, from any contents `W`, are the part's lets. -/
theorem step34 (R0 : RT0) (R1 : RT1) (R2 : RT2) (W : Valuation τ sig (Elt F)) :
    kerVal_part34 R0 R1 R2 (W main_arg2) (W main_v239) (W main_v256) (W main_v258) (W main_v273) (W main_v298)
      = kerVal_part35 R0 R1 R2 (StableHlo.after hostOps2_12 W main_arg2) (StableHlo.after hostOps2_12 W main_v239) (StableHlo.after hostOps2_12 W main_v319) := by
  rw [StableHlo.after_of_writes_sub hostOps2_12 W GenP.hostOps2_12_writes (by decide : main_arg2 ∉ GenP.hostOps2_12_W)]
  rw [StableHlo.after_of_writes_sub hostOps2_12 W GenP.hostOps2_12_writes (by decide : main_v239 ∉ GenP.hostOps2_12_W)]
  dsimp only [hostOps2_12]
  kh_results
  rfl

/-- Item 35, region 2: its output array holds the region's function of its two input arrays; every other array is unchanged. -/
theorem step35 (R0 : RT0) (R1 : RT1) (R2 : RT2) (m : (ℓ : Loc nD τ sig) → Buf (Elt F) ℓ) (outs : GenP.Outs (F := F)) (c : Dev nD)
    (h : outs 36 main_v320 c = R2 (GenP.V35 m outs c main_arg2) (GenP.V35 m outs c main_v319)) :
    kerVal_part35 R0 R1 R2 (GenP.V35 m outs c main_arg2) (GenP.V35 m outs c main_v239) (GenP.V35 m outs c main_v319)
      = kerVal_part36 R0 R1 R2 (GenP.V36 m outs c main_v239) (GenP.V36 m outs c main_v320) := by
  have e : GenP.V36 m outs c main_v320 = outs 36 main_v320 c := Function.update_self _ _ _
  rw [GenP.V36_of m outs c main_v239 (by decide), e, h]
  rfl

end Cert.KernelIdeal.Hand

end
-- ==== Proof.KHost3.lean ====
import proofs.«409303_j18760417149025_3_alg».proof.Proof.KernelIdealRegions
import proofs.«409303_j18760417149025_3_alg».proof.Proof.KerFun
import proofs.«409303_j18760417149025_3_alg».proof.Proof.LibHostResults

set_option maxRecDepth 2684

noncomputable section

namespace Cert.KernelIdeal.Hand

open Cert.KernelIdeal Cert.KernelIdeal.Gen
open Idealize.ShloMosaic Idealize.ShloMosaic.TcCoe

variable {F : FTy → Type} [FloatOps F]

local notation "RT0" => FVec F S128x5x200x128 FTy.f32 → FVec F S128x5x200x128 FTy.f32 → FVec F S1x256 FTy.f32
local notation "RT1" => FVec F S128x5x50x128 FTy.f32 → FVec F S128x5x50x128 FTy.f32 → FVec F S1x256 FTy.f32
local notation "RT2" => FVec F S128x5x40x40 FTy.f32 → FVec F S128x5x40x40 FTy.f32 → FVec F S1x256 FTy.f32

/-! ## Items 36 … 42 of @main, each against its part of `kerVal` -/

set_option maxHeartbeats 1000000 in
/-- Item 36, the host stretch `hostOps3`: its operations' results, from any contents `W`, are the part's lets. -/
theorem step36 (R0 : RT0) (R1 : RT1) (R2 : RT2) (W : Valuation τ sig (Elt F)) :
    kerVal_part36 R0 R1 R2 (W main_v239) (W main_v320)
      = kerVal_part37 R0 R1 R2 (StableHlo.after hostOps3 W main_v239) (StableHlo.after hostOps3 W main_v331) (StableHlo.after hostOps3 W main_v333) (StableHlo.after hostOps3 W main_v335) (StableHlo.after hostOps3 W main_v340) (StableHlo.after hostOps3 W main_v341) (StableHlo.after hostOps3 W main_cst_102) := by
  rw [StableHlo.after_of_writes_sub hostOps3 W GenP.hostOps3_writes (by decide : main_v239 ∉ GenP.hostOps3_W)]
  dsimp only [hostOps3]
  kh_results
  rfl

/-- Item 37, the host stretch `hostOps3_1`: its operations' results, from any contents `W`, are the part's lets. -/
theorem step37 (R0 : RT0) (R1 : RT1) (R2 : RT2) (W : Valuation τ sig (Elt F)) :
    kerVal_part37 R0 R1 R2 (W main_v239) (W main_v331) (W main_v333) (W main_v335) (W main_v340) (W main_v341) (W main_cst_102)
      = kerVal_part38 R0 R1 R2 (StableHlo.after hostOps3_1 W main_v239) (StableHlo.after hostOps3_1 W main_v331) (StableHlo.after hostOps3_1 W main_v333) (StableHlo.after hostOps3_1 W main_v335) (StableHlo.after hostOps3_1 W main_v342) := by
  rw [StableHlo.after_of_writes_sub hostOps3_1 W GenP.hostOps3_1_writes (by decide : main_v239 ∉ GenP.hostOps3_1_W)]
  rw [StableHlo.after_of_writes_sub hostOps3_1 W GenP.hostOps3_1_writes (by decide : main_v331 ∉ GenP.hostOps3_1_W)]
  rw [StableHlo.after_of_writes_sub hostOps3_1 W GenP.hostOps3_1_writes (by decide : main_v333 ∉ GenP.hostOps3_1_W)]
  rw [StableHlo.after_of_writes_sub hostOps3_1 W GenP.hostOps3_1_writes (by decide : main_v335 ∉ GenP.hostOps3_1_W)]
  dsimp only [hostOps3_1]
  kh_results
  rfl

/-- Item 38, the host stretch `hostOps3_2`: its operations' results, from any contents `W`, are the part's lets. -/
theorem step38 (R0 : RT0) (R1 : RT1) (R2 : RT2) (W : Valuation τ sig (Elt F)) :
    kerVal_part38 R0 R1 R2 (W main_v239) (W main_v331) (W main_v333) (W main_v335) (W main_v342)
      = kerVal_part39 R0 R1 R2 (StableHlo.after hostOps3_2 W main_v239) (StableHlo.after hostOps3_2 W main_v331) (StableHlo.after hostOps3_2 W main_v335) (StableHlo.after hostOps3_2 W main_v343) (StableHlo.after hostOps3_2 W main_v345) (StableHlo.after hostOps3_2 W main_v346) (StableHlo.after hostOps3_2 W main_cst_106) := by
  rw [StableHlo.after_of_writes_sub hostOps3_2 W GenP.hostOps3_2_writes (by decide : main_v239 ∉ GenP.hostOps3_2_W)]
  rw [StableHlo.after_of_writes_sub hostOps3_2 W GenP.hostOps3_2_writes (by decide : main_v331 ∉ GenP.hostOps3_2_W)]
  rw [StableHlo.after_of_writes_sub hostOps3_2 W GenP.hostOps3_2_writes (by decide : main_v335 ∉ GenP.hostOps3_2_W)]
  dsimp only [hostOps3_2]
  kh_results
  rfl

/-- Item 39, the host stretch `hostOps3_3`: its operations' results, from any contents `W`, are the part's lets. -/
theorem step39 (R0 : RT0) (R1 : RT1) (R2 : RT2) (W : Valuation τ sig (Elt F)) :
    kerVal_part39 R0 R1 R2 (W main_v239) (W main_v331) (W main_v335) (W main_v343) (W main_v345) (W main_v346) (W main_cst_106)
      = kerVal_part40 R0 R1 R2 (StableHlo.after hostOps3_3 W main_v239) (StableHlo.after hostOps3_3 W main_v331) (StableHlo.after hostOps3_3 W main_v335) (StableHlo.after hostOps3_3 W main_v343) (StableHlo.after hostOps3_3 W main_v347) := by
  rw [StableHlo.after_of_writes_sub hostOps3_3 W GenP.hostOps3_3_writes (by decide : main_v239 ∉ GenP.hostOps3_3_W)]
  rw [StableHlo.after_of_writes_sub hostOps3_3 W GenP.hostOps3_3_writes (by decide : main_v331 ∉ GenP.hostOps3_3_W)]
  rw [StableHlo.after_of_writes_sub hostOps3_3 W GenP.hostOps3_3_writes (by decide : main_v335 ∉ GenP.hostOps3_3_W)]
  rw [StableHlo.after_of_writes_sub hostOps3_3 W GenP.hostOps3_3_writes (by decide : main_v343 ∉ GenP.hostOps3_3_W)]
  dsimp only [hostOps3_3]
  kh_results
  rfl

/-- Item 40, the host stretch `hostOps3_4`: its operations' results, from any contents `W`, are the part's lets. -/
theorem step40 (R0 : RT0) (R1 : RT1) (R2 : RT2) (W : Valuation τ sig (Elt F)) :
    kerVal_part40 R0 R1 R2 (W main_v239) (W main_v331) (W main_v335) (W main_v343) (W main_v347)
      = kerVal_part41 R0 R1 R2 (StableHlo.after hostOps3_4 W main_v239) (StableHlo.after hostOps3_4 W main_v343) (StableHlo.after hostOps3_4 W main_v347) (StableHlo.after hostOps3_4 W main_v350) (StableHlo.after hostOps3_4 W main_v351) (StableHlo.after hostOps3_4 W main_cst_110) := by
  rw [StableHlo.after_of_writes_sub hostOps3_4 W GenP.hostOps3_4_writes (by decide : main_v239 ∉ GenP.hostOps3_4_W)]
  rw [StableHlo.after_of_writes_sub hostOps3_4 W GenP.hostOps3_4_writes (by decide : main_v343 ∉ GenP.hostOps3_4_W)]
  rw [StableHlo.after_of_writes_sub hostOps3_4 W GenP.hostOps3_4_writes (by decide : main_v347 ∉ GenP.hostOps3_4_W)]
  dsimp only [hostOps3_4]
  kh_results
  rfl

/-- Item 41, the host stretch `hostOps3_5`: its operations' results, from any contents `W`, are the part's lets. -/
theorem step41 (R0 : RT0) (R1 : RT1) (R2 : RT2) (W : Valuation τ sig (Elt F)) :
    kerVal_part41 R0 R1 R2 (W main_v239) (W main_v343) (W main_v347) (W main_v350) (W main_v351) (W main_cst_110)
      = kerVal_part42 R0 R1 R2 (StableHlo.after hostOps3_5 W main_v239) (StableHlo.after hostOps3_5 W main_v343) (StableHlo.after hostOps3_5 W main_v347) (StableHlo.after hostOps3_5 W main_v352) := by
  rw [StableHlo.after_of_writes_sub hostOps3_5 W GenP.hostOps3_5_writes (by decide : main_v239 ∉ GenP.hostOps3_5_W)]
  rw [StableHlo.after_of_writes_sub hostOps3_5 W GenP.hostOps3_5_writes (by decide : main_v343 ∉ GenP.hostOps3_5_W)]
  rw [StableHlo.after_of_writes_sub hostOps3_5 W GenP.hostOps3_5_writes (by decide : main_v347 ∉ GenP.hostOps3_5_W)]
  dsimp only [hostOps3_5]
  kh_results
  rfl

/-- Item 42, the host stretch `hostOps3_6`: its operations' results, from any contents `W`, are the part's lets. -/
theorem step42 (R0 : RT0) (R1 : RT1) (R2 : RT2) (W : Valuation τ sig (Elt F)) :
    kerVal_part42 R0 R1 R2 (W main_v239) (W main_v343) (W main_v347) (W main_v352)
      = StableHlo.after hostOps3_6 W main_v357 := by
  dsimp only [hostOps3_6]
  kh_results
  rfl

end Cert.KernelIdeal.Hand

end
-- ==== Proof.KHost.lean ====
import proofs.«409303_j18760417149025_3_alg».proof.Proof.KernelIdealRegions
import proofs.«409303_j18760417149025_3_alg».proof.Proof.KerFun
import proofs.«409303_j18760417149025_3_alg».proof.Proof.LibHostResults
import proofs.«409303_j18760417149025_3_alg».proof.Proof.KHost0
import proofs.«409303_j18760417149025_3_alg».proof.Proof.KHost1
import proofs.«409303_j18760417149025_3_alg».proof.Proof.KHost2
import proofs.«409303_j18760417149025_3_alg».proof.Proof.KHost3

set_option maxRecDepth 2684

noncomputable section

namespace Cert.KernelIdeal.Hand

open Cert.KernelIdeal Cert.KernelIdeal.Gen
open Idealize.ShloMosaic Idealize.ShloMosaic.TcCoe

variable {F : FTy → Type} [FloatOps F]

local notation "RT0" => FVec F S128x5x200x128 FTy.f32 → FVec F S128x5x200x128 FTy.f32 → FVec F S1x256 FTy.f32
local notation "RT1" => FVec F S128x5x50x128 FTy.f32 → FVec F S128x5x50x128 FTy.f32 → FVec F S1x256 FTy.f32
local notation "RT2" => FVec F S128x5x40x40 FTy.f32 → FVec F S128x5x40x40 FTy.f32 → FVec F S1x256 FTy.f32

/-- The kernel program's result buffer after its last item is `kerVal` of the launch contents of the four arguments,
    given that each region leaves in its output array its function (`R0`, `R1`, `R2`) of its two input arrays. -/
theorem V43_val (R0 : RT0) (R1 : RT1) (R2 : RT2) (m : (ℓ : Loc nD τ sig) → Buf (Elt F) ℓ) (outs : GenP.Outs (F := F)) (c : Dev nD)
    (h0 : outs 8 main_v82 c = R0 (GenP.V7 m c main_v80) (GenP.V7 m c main_v81))
    (h1 : outs 22 main_v202 c = R1 (GenP.V21 m outs c main_v200) (GenP.V21 m outs c main_v201))
    (h2 : outs 36 main_v320 c = R2 (GenP.V35 m outs c main_arg2) (GenP.V35 m outs c main_v319))
    : GenP.V43 m outs c main_v357 = kerVal R0 R1 R2 (m ((c : Thread nD τ).loc main_arg0)) (m ((c : Thread nD τ).loc main_arg1)) (m ((c : Thread nD τ).loc main_arg2)) (m ((c : Thread nD τ).loc main_arg3)) :=
  Eq.symm <|
  (step0 R0 R1 R2 (GenP.V0 m c)).trans <|
  (step1 R0 R1 R2 (GenP.V1 m c)).trans <|
  (step2 R0 R1 R2 (GenP.V2 m c)).trans <|
  (step3 R0 R1 R2 (GenP.V3 m c)).trans <|
  (step4 R0 R1 R2 (GenP.V4 m c)).trans <|
  (step5 R0 R1 R2 (GenP.V5 m c)).trans <|
  (step6 R0 R1 R2 (GenP.V6 m c)).trans <|
  (step7 R0 R1 R2 m outs c h0).trans <|
  (step8 R0 R1 R2 (GenP.V8 m outs c)).trans <|
  (step9 R0 R1 R2 (GenP.V9 m outs c)).trans <|
  (step10 R0 R1 R2 (GenP.V10 m outs c)).trans <|
  (step11 R0 R1 R2 (GenP.V11 m outs c)).trans <|
  (step12 R0 R1 R2 (GenP.V12 m outs c)).trans <|
  (step13 R0 R1 R2 (GenP.V13 m outs c)).trans <|
  (step14 R0 R1 R2 (GenP.V14 m outs c)).trans <|
  (step15 R0 R1 R2 (GenP.V15 m outs c)).trans <|
  (step16 R0 R1 R2 (GenP.V16 m outs c)).trans <|
  (step17 R0 R1 R2 (GenP.V17 m outs c)).trans <|
  (step18 R0 R1 R2 (GenP.V18 m outs c)).trans <|
  (step19 R0 R1 R2 (GenP.V19 m outs c)).trans <|
  (step20 R0 R1 R2 (GenP.V20 m outs c)).trans <|
  (step21 R0 R1 R2 m outs c h1).trans <|
  (step22 R0 R1 R2 (GenP.V22 m outs c)).trans <|
  (step23 R0 R1 R2 (GenP.V23 m outs c)).trans <|
  (step24 R0 R1 R2 (GenP.V24 m outs c)).trans <|
  (step25 R0 R1 R2 (GenP.V25 m outs c)).trans <|
  (step26 R0 R1 R2 (GenP.V26 m outs c)).trans <|
  (step27 R0 R1 R2 (GenP.V27 m outs c)).trans <|
  (step28 R0 R1 R2 (GenP.V28 m outs c)).trans <|
  (step29 R0 R1 R2 (GenP.V29 m outs c)).trans <|
  (step30 R0 R1 R2 (GenP.V30 m outs c)).trans <|
  (step31 R0 R1 R2 (GenP.V31 m outs c)).trans <|
  (step32 R0 R1 R2 (GenP.V32 m outs c)).trans <|
  (step33 R0 R1 R2 (GenP.V33 m outs c)).trans <|
  (step34 R0 R1 R2 (GenP.V34 m outs c)).trans <|
  (step35 R0 R1 R2 m outs c h2).trans <|
  (step36 R0 R1 R2 (GenP.V36 m outs c)).trans <|
  (step37 R0 R1 R2 (GenP.V37 m outs c)).trans <|
  (step38 R0 R1 R2 (GenP.V38 m outs c)).trans <|
  (step39 R0 R1 R2 (GenP.V39 m outs c)).trans <|
  (step40 R0 R1 R2 (GenP.V40 m outs c)).trans <|
  (step41 R0 R1 R2 (GenP.V41 m outs c)).trans <|
  (step42 R0 R1 R2 (GenP.V42 m outs c))

end Cert.KernelIdeal.Hand

end
-- ==== Proof.KR0Row.lean ====
import proofs.«409303_j18760417149025_3_alg».proof.Proof.Gen.KernelIdeal.Launch
import proofs.«409303_j18760417149025_3_alg».proof.Proof.Gen.KernelIdeal.Skeleton
import proofs.«409303_j18760417149025_3_alg».proof.Proof.Gen.KernelIdeal.Points
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand.R0

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

abbrev zrow : FVec F S1x128 .f32 := broadcast S1x128 (Scalar.ofBits .f32 0x00000000#32)

def stepOf (x0 x1 : Vec F S8x5x200x128 .f32) (acc : Vec F S1x128 .f32) : FVec F S1x128 .f32 :=
  k0_pay1 (k0_pay13 (k0_pay6 x1) (k0_pay12 (k0_pay5 x0) (k0_pay6 x1)))
    (k0_pay14 (k0_pay6 x1) (k0_pay8 x0 x1) (k0_pay9 x0 x1) (k0_pay11 (k0_pay10 x1)) (k0_pay12 (k0_pay5 x0) (k0_pay6 x1)))
    k0_pay15 acc

theorem pay2_eq : (k0_pay2 : FVec F S1x128 .f32) = zrow := by
  unfold k0_pay2
  simp only [shapeCast_self]

theorem zrow_apply (i : S1x128.Idx) : (zrow : FVec Ideal S1x128 .f32) i = 0 := Ideal.ofBits_zero_f32

theorem fold_sum (row : Vec Ideal S8x5x200x128 .f32 → Vec Ideal S8x5x200x128 .f32 → S1x128.Idx → EReal)
    (hstep : ∀ (x0 x1 : Vec Ideal S8x5x200x128 .f32) (acc : Vec Ideal S1x128 .f32) (i : S1x128.Idx),
      stepOf x0 x1 acc i = acc i + row x0 x1 i)
    {N : ℕ} (f : (n : ℕ) → n < N → Vec Ideal S1x128 .f32) (b0 b1 : ℕ → Vec Ideal S8x5x200x128 .f32)
    (hA : ∀ (n : ℕ) (h : n < N), n % 8 = 0 → f n h = stepOf (b0 n) (b1 n) (zrow (F := Ideal)))
    (hS : ∀ (n : ℕ) (h : n + 1 < N), ¬(n + 1) % 8 = 0 → f (n + 1) h = stepOf (b0 (n + 1)) (b1 (n + 1)) (f n (Nat.lt_of_succ_lt h)))
    (t : ℕ) (ht : t < N) (i : S1x128.Idx) :
    f t ht i = ∑ s ∈ Finset.range (t % 8 + 1), row (b0 (8 * (t / 8) + s)) (b1 (8 * (t / 8) + s)) i := by
  have h' : 8 * (t / 8) + t % 8 < N := by have := Nat.div_add_mod t 8; omega
  rw [Pipeline.eq_accAt_of_mod f 8 (fun n _ => stepOf (b0 n) (b1 n) (zrow (F := Ideal))) (fun n _ acc => stepOf (b0 n) (b1 n) acc)
    hA hS (by decide) t ht h']
  rw [Pipeline.accAt_add_apply (fun n _ => stepOf (b0 n) (b1 n) (zrow (F := Ideal))) (fun n _ acc => stepOf (b0 n) (b1 n) acc)
    (fun _ => (0 : EReal)) (fun n i => row (b0 n) (b1 n) i) (8 * (t / 8)) (t % 8)
    (fun _ i => by rw [hstep, zrow_apply]) (fun n _ acc i _ _ => hstep _ _ acc i) (t % 8) (Nat.le_refl _) h' i, zero_add]

theorem idx_2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

def sideBySide (S : Fin 2 → Vec F S1x128 .f32) : Vec F S1x256 .f32 :=
  fun i => S ⟨(i 1).val / 128, by have := idx2_lt1 i; omega⟩ (ix2 (0 : Fin 1) ⟨(i 1).val % 128, Nat.mod_lt _ (by decide)⟩)

abbrev halfOf (t : Fin cfg0.N) : Fin 2 := ⟨t.val / 8, by have := lt_of_lt_of_eq t.isLt (show cfg0.N = 16 from N_0); omega⟩

theorem mem_blk_2 (t : Fin cfg0.N) (i : S1x256.Idx) :
    i ∈ ((cfg0.win 2).blk t).view.set ↔ ∀ a : Fin 2, win0_2.index t a * S1x128.size a ≤ (i a).val ∧ (i a).val < win0_2.index t a * S1x128.size a + S1x128.size a := by
  show i ∈ ((View.whole main_v82).slice (win0_2.rect t)).set ↔ _
  rw [View.set_slice_whole, Rect.mem_set_unit]
  exact Iff.rfl

theorem arr_of_halves {c : Dev nD} (dat : Dat τ (Elt F) Unit ℕ (UR sig nD τ) ℕ cfg0 c) (S : Fin 2 → Vec F S1x128 .f32)
    (hS : ∀ t : Fin cfg0.N, t.val % 8 = 7 → dat.after 2 t = S (halfOf t)) :
    dat.arrAt 2 cfg0.N = sideBySide S := by
  have hN : cfg0.N = 16 := N_0
  refine dat.arrAt_eq_of_cover 2 (sideBySide S) (fun t hf => ?_) (fun i => ?_)
  · have h7 : t.val % 8 = 7 := (flush0_2 t).mp hf
    show (cfg0.win 2).cut (grid0.coords t) (dat.after 2 t) = _
    rw [hS t h7]
    obtain ⟨e0, e1⟩ := idx_2 t
    funext j
    rw [View.read_apply]
    have hj0 : (j 0).val < 1 := (j 0).isLt
    have hj1 : (j 1).val < 128 := (j 1).isLt
    have hemb : ((((cfg0.win 2).blk t).view.emb j) 1).val = t.val / 8 * 128 + (j 1).val := by
      show win0_2.index t (1 : Fin 2) * 128 + 1 * (j 1).val = _
      rw [e1]; omega
    show S (halfOf t) (win0_2.xinj (grid0.coords t) j) = S ⟨((((cfg0.win 2).blk t).view.emb j) 1).val / 128, _⟩ (ix2 (0 : Fin 1) ⟨((((cfg0.win 2).blk t).view.emb j) 1).val % 128, _⟩)
    have hq : ((((cfg0.win 2).blk t).view.emb j) 1).val / 128 = t.val / 8 := by rw [hemb]; omega
    have hr : ((((cfg0.win 2).blk t).view.emb j) 1).val % 128 = (j 1).val := by rw [hemb]; omega
    congr 1
    · exact Fin.ext hq.symm
    · funext a
      apply Fin.ext
      match a with
      | ⟨0, _⟩ => show (j 0).val = 0; omega
      | ⟨1, _⟩ => show (j 1).val = ((((cfg0.win 2).blk t).view.emb j) 1).val % 128; exact hr.symm
  · have hi0 : (i 0).val < 1 := (i 0).isLt
    have hi1 : (i 1).val < 256 := (i 1).isLt
    refine ⟨⟨8 * ((i 1).val / 128) + 7, by omega⟩, (flush0_2 _).mpr (by show (8 * ((i 1).val / 128) + 7) % 8 = 7; omega), ?_⟩
    rw [mem_blk_2]
    obtain ⟨e0, e1⟩ := idx_2 ⟨8 * ((i 1).val / 128) + 7, by omega⟩
    intro a
    match a with
    | ⟨0, _⟩ =>
      show win0_2.index _ (0 : Fin 2) * 1 ≤ (i 0).val ∧ (i 0).val < win0_2.index _ (0 : Fin 2) * 1 + 1
      rw [e0]; omega
    | ⟨1, _⟩ =>
      show win0_2.index _ (1 : Fin 2) * 128 ≤ (i 1).val ∧ (i 1).val < win0_2.index _ (1 : Fin 2) * 128 + 128
      rw [e1]; show (8 * ((i 1).val / 128) + 7) / 8 * 128 ≤ (i 1).val ∧ (i 1).val < (8 * ((i 1).val / 128) + 7) / 8 * 128 + 128
      omega

end Cert.KernelIdeal.Hand.R0

end
-- ==== Proof.KR0Blk.lean ====
import proofs.«409303_j18760417149025_3_alg».proof.Proof.KR0Runs
import Idealize.ShloMosaic.Lib.ValueIdx
import Idealize.ShloMosaic.Lib.Pipeline.Value

set_option maxRecDepth 16384

noncomputable section

namespace Cert.KernelIdeal.Hand.R0

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

abbrev darr (c : Dev nD) : Vec F S128x5x200x128 .f32 := V c main_v80
abbrev tarr (c : Dev nD) : Vec F S128x5x200x128 .f32 := V c main_v81

theorem idx_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, win0_0.index t (0 : Fin 4) = t.val ∧ win0_0.index t (1 : Fin 4) = 0 ∧ win0_0.index t (2 : Fin 4) = 0 ∧ win0_0.index t (3 : Fin 4) = 0)
theorem idx_1 : ∀ t : Fin cfg0.N, win0_1.index t (0 : Fin 4) = t.val ∧ win0_1.index t (1 : Fin 4) = 0 ∧ win0_1.index t (2 : Fin 4) = 0 ∧ win0_1.index t (3 : Fin 4) = 0 :=
  (by decide +kernel : ∀ t : Fin grid0.N, win0_1.index t (0 : Fin 4) = t.val ∧ win0_1.index t (1 : Fin 4) = 0 ∧ win0_1.index t (2 : Fin 4) = 0 ∧ win0_1.index t (3 : Fin 4) = 0)

abbrev brow (n : ℕ) (hn : n < 16) (b : Fin 8) : Fin 128 := ⟨8 * n + b.val, by have := b.isLt; omega⟩

theorem iblk0_apply (c : Dev nD) (t : Fin cfg0.N) (b : Fin 8) (ch : Fin 5) (r : Fin 200) (l : Fin 128) :
    (iblk V c 0 t : Vec F SIN .f32) (ix4 b ch r l)
      = darr V c (ix4 (brow t.val (lt_of_lt_of_eq t.isLt N_0) b) ch r l) := by
  obtain ⟨e0, e1, e2, e3⟩ := idx_0 t
  unfold iblk
  rw [View.read_apply]
  show V c main_v80 _ = V c main_v80 _
  congr 1
  funext a
  apply Fin.ext
  match a with
  | ⟨0, _⟩ => show win0_0.index t (0 : Fin 4) * 8 + 1 * b.val = 8 * t.val + b.val; rw [e0]; omega
  | ⟨1, _⟩ => show win0_0.index t (1 : Fin 4) * 5 + 1 * ch.val = ch.val; rw [e1]; omega
  | ⟨2, _⟩ => show win0_0.index t (2 : Fin 4) * 200 + 1 * r.val = r.val; rw [e2]; omega
  | ⟨3, _⟩ => show win0_0.index t (3 : Fin 4) * 128 + 1 * l.val = l.val; rw [e3]; omega

theorem iblk1_apply (c : Dev nD) (t : Fin cfg0.N) (b : Fin 8) (ch : Fin 5) (r : Fin 200) (l : Fin 128) :
    (iblk V c 1 t : Vec F SIN .f32) (ix4 b ch r l)
      = tarr V c (ix4 (brow t.val (lt_of_lt_of_eq t.isLt N_0) b) ch r l) := by
  obtain ⟨e0, e1, e2, e3⟩ := idx_1 t
  unfold iblk
  rw [View.read_apply]
  show V c main_v81 _ = V c main_v81 _
  congr 1
  funext a
  apply Fin.ext
  match a with
  | ⟨0, _⟩ => show win0_1.index t (0 : Fin 4) * 8 + 1 * b.val = 8 * t.val + b.val; rw [e0]; omega
  | ⟨1, _⟩ => show win0_1.index t (1 : Fin 4) * 5 + 1 * ch.val = ch.val; rw [e1]; omega
  | ⟨2, _⟩ => show win0_1.index t (2 : Fin 4) * 200 + 1 * r.val = r.val; rw [e2]; omega
  | ⟨3, _⟩ => show win0_1.index t (3 : Fin 4) * 128 + 1 * l.val = l.val; rw [e3]; omega

def dblk (c : Dev nD) (n : ℕ) : Vec F SIN .f32 :=
  if h : n < cfg0.N then iblk V c 0 ⟨n, h⟩ else broadcast SIN (Scalar.ofBits .f32 0x00000000#32)
def tblk (c : Dev nD) (n : ℕ) : Vec F SIN .f32 :=
  if h : n < cfg0.N then iblk V c 1 ⟨n, h⟩ else broadcast SIN (Scalar.ofBits .f32 0x00000000#32)

theorem dblk_of_lt (c : Dev nD) (n : ℕ) (h : n < cfg0.N) : dblk V c n = iblk V c 0 ⟨n, h⟩ := dif_pos h
theorem tblk_of_lt (c : Dev nD) (n : ℕ) (h : n < cfg0.N) : tblk V c n = iblk V c 1 ⟨n, h⟩ := dif_pos h

theorem dblk_apply (c : Dev nD) (n : ℕ) (hn : n < 16) (b : Fin 8) (ch : Fin 5) (r : Fin 200) (l : Fin 128) :
    dblk V c n (ix4 b ch r l) = darr V c (ix4 (brow n hn b) ch r l) := by
  rw [dblk_of_lt V c n (lt_of_lt_of_eq hn N_0.symm)]
  exact iblk0_apply V c ⟨n, lt_of_lt_of_eq hn N_0.symm⟩ b ch r l
theorem tblk_apply (c : Dev nD) (n : ℕ) (hn : n < 16) (b : Fin 8) (ch : Fin 5) (r : Fin 200) (l : Fin 128) :
    tblk V c n (ix4 b ch r l) = tarr V c (ix4 (brow n hn b) ch r l) := by
  rw [tblk_of_lt V c n (lt_of_lt_of_eq hn N_0.symm)]
  exact iblk1_apply V c ⟨n, lt_of_lt_of_eq hn N_0.symm⟩ b ch r l

end Cert.KernelIdeal.Hand.R0

end
-- ==== Proof.KR0Value.lean ====
import proofs.«409303_j18760417149025_3_alg».proof.Proof.KR0Dat
import proofs.«409303_j18760417149025_3_alg».proof.Proof.KR0Row
import proofs.«409303_j18760417149025_3_alg».proof.Proof.KR0Blk

set_option maxRecDepth 16384

noncomputable section

namespace Cert.KernelIdeal.Hand.R0

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

theorem soutA_eq (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : cond_r i) (hc1 : ¬cond_w i) (x0 x1 : Vec F SIN .f32) :
    sout_A c i arg2 harg2 arg3 harg3 arg4 harg4 arg5 harg5 hc0 hc1 x0 x1 = stepOf x0 x1 zrow := by
  unfold sout_A
  rw [View.read_writes_eq_canon _ _ _ (scover_A c i arg2 harg2 arg3 harg3 arg4 harg4 arg5 harg5 hc0 hc1 x0 x1)]
  unfold kernelRun_A
  dsimp only
  sl_unfold_words
  rw [View.canon_cons_unit_zero (S := S1x128) hz2]
  unfold stepOf
  simp only [View.readAt_eq_ld, harg2.read_unread, harg3.read_unread, View.ld_unit_zero (S := SIN) hz4,
    View.readCov_unit_zero (S := S1x128) _ hz2, shapeCast_self, pay2_eq]

theorem soutB_eq (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : ¬cond_w i) (x0 x1 : Vec F SIN .f32) (xs : Vec F S1x128 .f32) :
    sout_B c i arg2 harg2 arg3 harg3 arg4 harg4 arg5 harg5 hc0 hc1 x0 x1 xs = stepOf x0 x1 xs := by
  unfold sout_B
  rw [View.read_writes_eq_canon _ _ _ (scover_B c i arg2 harg2 arg3 harg3 arg4 harg4 arg5 harg5 hc0 hc1 x0 x1 xs)]
  unfold kernelRun_B
  dsimp only
  sl_unfold_words
  rw [View.canon_unit_zero hz2]
  unfold stepOf
  simp only [View.readAt_eq_ld, harg2.read_unread, harg3.read_unread, harg5.read_unread, View.ld_unit_zero (S := SIN) hz4,
    View.ld_unit_zero (S := S1x128) hz2, shapeCast_self]

theorem soutC_eq (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 x1 : Vec F SIN .f32) (xs : Vec F S1x128 .f32) :
    sout_C c i arg2 harg2 arg3 harg3 arg4 harg4 arg5 harg5 hc0 hc1 x0 x1 xs = stepOf x0 x1 xs := by
  unfold sout_C
  rw [View.read_writes_eq_canon _ _ _ (scover_C c i arg2 harg2 arg3 harg3 arg4 harg4 arg5 harg5 hc0 hc1 x0 x1 xs)]
  unfold kernelRun_C
  dsimp only
  sl_unfold_words
  rw [View.canon_unit_zero hz2]
  unfold stepOf
  simp only [View.readAt_eq_ld, harg2.read_unread, harg3.read_unread, harg5.read_unread, View.ld_unit_zero (S := SIN) hz4,
    View.ld_unit_zero (S := S1x128) hz2, shapeCast_self]

theorem outC_eq (c : Dev nD) (i : grid0.Coords) (arg2 : Memref sig .tc .vmem SIN .f32) (harg2 : arg2.IsWhole) (arg3 : Memref sig .tc .vmem SIN .f32) (harg3 : arg3.IsWhole) (arg4 : Memref sig .tc .vmem S1x128 .f32) (harg4 : arg4.IsWhole) (arg5 : Memref sig .tc .vmem S1x128 .f32) (harg5 : arg5.IsWhole) (hc0 : ¬cond_r i) (hc1 : cond_w i) (x0 x1 : Vec F SIN .f32) (xs : Vec F S1x128 .f32) :
    out_C c i arg2 harg2 arg3 harg3 arg4 harg4 arg5 harg5 hc0 hc1 x0 x1 xs = stepOf x0 x1 xs := by
  unfold out_C
  rw [View.read_writes_eq_canon _ _ _ (cover_C c i arg2 harg2 arg3 harg3 arg4 harg4 arg5 harg5 hc0 hc1 x0 x1 xs)]
  unfold kernelRun_C
  dsimp only
  sl_unfold_words
  rw [View.canon_unit_zero hz2]
  unfold stepOf
  simp only [View.readAt_eq_ld, harg2.read_unread, harg3.read_unread, harg5.read_unread, View.ld_unit_zero (S := SIN) hz4,
    View.ld_unit_zero (S := S1x128) hz2, View.readCov_unit_zero (S := S1x128) _ hz2, shapeCast_self]

section Points
variable (V : (c : Dev nD) → (b : Ref sig .tc) → Buf (Elt F) ((c : Thread nD τ).loc b))

theorem scr_A (c : Dev nD) (n : ℕ) (h : n < cfg0.N) (h0 : n % 8 = 0) :
    (outsAt V c n h).2 = stepOf (dblk V c n) (tblk V c n) zrow := by
  rw [outsAt_A V c (⟨n, h⟩ : Fin cfg0.N) h0, dblk_of_lt V c n h, tblk_of_lt V c n h]
  dsimp only
  exact soutA_eq c (grid0.coords (⟨n, h⟩ : Fin cfg0.N)) (ms_0 (⟨n, h⟩ : Fin cfg0.N)) (hs_0 (⟨n, h⟩ : Fin cfg0.N)) (ms_1 (⟨n, h⟩ : Fin cfg0.N)) (hs_1 (⟨n, h⟩ : Fin cfg0.N)) (ms_2 (⟨n, h⟩ : Fin cfg0.N)) (hs_2 (⟨n, h⟩ : Fin cfg0.N)) scM (Memref.isWhole_whole _) ((hcond_r (⟨n, h⟩ : Fin cfg0.N)).mpr h0) (fun h' => not_w_of_r h0 ((hcond_w (⟨n, h⟩ : Fin cfg0.N)).mp h')) (iblk V c 0 (⟨n, h⟩ : Fin cfg0.N)) (iblk V c 1 (⟨n, h⟩ : Fin cfg0.N))

theorem scr_S (c : Dev nD) (n : ℕ) (h : n + 1 < cfg0.N) (h0 : ¬(n + 1) % 8 = 0) :
    (outsAt V c (n + 1) h).2 = stepOf (dblk V c (n + 1)) (tblk V c (n + 1)) (outsAt V c n (Nat.lt_of_succ_lt h)).2 := by
  rw [dblk_of_lt V c (n + 1) h, tblk_of_lt V c (n + 1) h]
  by_cases h2 : (n + 1) % 8 = 7
  · rw [outsAt_C V c (⟨n + 1, h⟩ : Fin cfg0.N) h2]
    dsimp only
    exact soutC_eq c (grid0.coords (⟨n + 1, h⟩ : Fin cfg0.N)) (ms_0 (⟨n + 1, h⟩ : Fin cfg0.N)) (hs_0 (⟨n + 1, h⟩ : Fin cfg0.N)) (ms_1 (⟨n + 1, h⟩ : Fin cfg0.N)) (hs_1 (⟨n + 1, h⟩ : Fin cfg0.N)) (ms_2 (⟨n + 1, h⟩ : Fin cfg0.N)) (hs_2 (⟨n + 1, h⟩ : Fin cfg0.N)) scM (Memref.isWhole_whole _) (fun h' => not_r_of_w h2 ((hcond_r (⟨n + 1, h⟩ : Fin cfg0.N)).mp h')) ((hcond_w (⟨n + 1, h⟩ : Fin cfg0.N)).mpr h2) (iblk V c 0 (⟨n + 1, h⟩ : Fin cfg0.N)) (iblk V c 1 (⟨n + 1, h⟩ : Fin cfg0.N)) (outsAt V c n (Nat.lt_of_succ_lt h)).2
  · rw [outsAt_B V c (⟨n + 1, h⟩ : Fin cfg0.N) h0 h2]
    dsimp only
    exact soutB_eq c (grid0.coords (⟨n + 1, h⟩ : Fin cfg0.N)) (ms_0 (⟨n + 1, h⟩ : Fin cfg0.N)) (hs_0 (⟨n + 1, h⟩ : Fin cfg0.N)) (ms_1 (⟨n + 1, h⟩ : Fin cfg0.N)) (hs_1 (⟨n + 1, h⟩ : Fin cfg0.N)) (ms_2 (⟨n + 1, h⟩ : Fin cfg0.N)) (hs_2 (⟨n + 1, h⟩ : Fin cfg0.N)) scM (Memref.isWhole_whole _) (fun h' => h0 ((hcond_r (⟨n + 1, h⟩ : Fin cfg0.N)).mp h')) (fun h' => h2 ((hcond_w (⟨n + 1, h⟩ : Fin cfg0.N)).mp h')) (iblk V c 0 (⟨n + 1, h⟩ : Fin cfg0.N)) (iblk V c 1 (⟨n + 1, h⟩ : Fin cfg0.N)) (outsAt V c n (Nat.lt_of_succ_lt h)).2

theorem out_last (c : Dev nD) (t : Fin cfg0.N) (h2 : t.val % 8 = 7) :
    (outsAt V c t.val t.isLt).1 = (outsAt V c t.val t.isLt).2 := by
  rw [outsAt_C V c t h2]
  dsimp only
  exact (outC_eq c (grid0.coords t) (ms_0 t) (hs_0 t) (ms_1 t) (hs_1 t) (ms_2 t) (hs_2 t) scM (Memref.isWhole_whole _) (fun h' => not_r_of_w h2 ((hcond_r t).mp h')) ((hcond_w t).mpr h2) (iblk V c 0 t) (iblk V c 1 t) (outsAt V c (t.val - 1) (Nat.lt_of_le_of_lt (Nat.sub_le _ _) t.isLt)).2).trans
    (soutC_eq c (grid0.coords t) (ms_0 t) (hs_0 t) (ms_1 t) (hs_1 t) (ms_2 t) (hs_2 t) scM (Memref.isWhole_whole _) (fun h' => not_r_of_w h2 ((hcond_r t).mp h')) ((hcond_w t).mpr h2) (iblk V c 0 t) (iblk V c 1 t) (outsAt V c (t.val - 1) (Nat.lt_of_le_of_lt (Nat.sub_le _ _) t.isLt)).2).symm

end Points

section Sums
variable (V : (c : Dev nD) → (b : Ref sig .tc) → Buf (Elt Ideal) ((c : Thread nD τ).loc b))
variable (row : Vec Ideal SIN .f32 → Vec Ideal SIN .f32 → S1x128.Idx → EReal)

abbrev StepAdds : Prop :=
  ∀ (x0 x1 : Vec Ideal SIN .f32) (acc : Vec Ideal S1x128 .f32) (i : S1x128.Idx), stepOf x0 x1 acc i = acc i + row x0 x1 i

theorem scratch_sum (hstep : StepAdds row) (c : Dev nD) (t : Fin cfg0.N) (i : S1x128.Idx) :
    (outsAt V c t.val t.isLt).2 i
      = ∑ s ∈ Finset.range (t.val % 8 + 1), row (dblk V c (8 * (t.val / 8) + s)) (tblk V c (8 * (t.val / 8) + s)) i :=
  fold_sum row hstep (fun n h => (outsAt V c n h).2) (dblk V c) (tblk V c) (scr_A V c) (scr_S V c) t.val t.isLt i

def halfAcc (c : Dev nD) (q : Fin 2) : Vec Ideal S1x128 .f32 :=
  fun i => ∑ s ∈ Finset.range 8, row (dblk V c (8 * q.val + s)) (tblk V c (8 * q.val + s)) i

theorem after_last (hstep : StepAdds row) (c : Dev nD) (t : Fin cfg0.N) (h7 : t.val % 8 = 7) :
    (dat V c).after 2 t = halfAcc V row c (halfOf t) := by
  rw [after_2, out_last V c t h7]
  funext i
  rw [scratch_sum V row hstep c t i, h7]
  rfl

theorem arr_eq (hstep : StepAdds row) (c : Dev nD) : (dat V c).arrAt 2 cfg0.N = sideBySide (halfAcc V row c) :=
  arr_of_halves (dat V c) (halfAcc V row c) (after_last V row hstep c)

end Sums

end Cert.KernelIdeal.Hand.R0

end
-- ==== Proof.LibFullSum.lean ====
import Mathlib.Algebra.BigOperators.Fin
import Mathlib.Algebra.BigOperators.Group.Finset.Basic
import Idealize.ShloMosaic.PureOps.Ideal.Laws
import Idealize.ShloMosaic.Lib.ValueIdx
import Idealize.ShloMosaic.Lib.Pipeline.Value
import Idealize.ShloMosaic.Lib.ValueLayout

open scoped BigOperators
open Idealize.ShloMosaic Idealize.ShloMosaic.ValueIdx

namespace Cert.Hand

theorem lift0_ix3 {A B C D : Nat} (h : (⟨4, ![A, B, C, D]⟩ : Shape).Reduces [0] (⟨3, ![B, C, D]⟩ : Shape))
    (b : Fin B) (c : Fin C) (d : Fin D) (a : Fin A) : h.lift (ix3 b c d) a = ix4 a b c d := by
  funext k; apply Fin.ext
  fin_cases k <;> rfl

theorem lift0_ix2 {B R L : Nat} (h : (⟨3, ![B, R, L]⟩ : Shape).Reduces [0] (⟨2, ![R, L]⟩ : Shape))
    (r : Fin R) (l : Fin L) (b : Fin B) : h.lift (ix2 r l) b = ix3 b r l := by
  funext k; apply Fin.ext
  fin_cases k <;> rfl

theorem lift1_ix1 {R L : Nat} (h : (⟨2, ![R, L]⟩ : Shape).Reduces [1] (⟨1, ![R]⟩ : Shape))
    (r : Fin R) (l : Fin L) : h.lift (ix1 r) l = ix2 r l := by
  funext k; apply Fin.ext
  fin_cases k <;> rfl

theorem lift0_ix1 {R : Nat} (h : (⟨2, ![R, 1]⟩ : Shape).Reduces [0] (⟨1, ![1]⟩ : Shape))
    (u : Fin 1) (r : Fin R) : h.lift (ix1 u) r = ix2 r u := by
  funext k; apply Fin.ext
  fin_cases k <;> rfl

section steps
variable (hφ : FKind.Formats .f32) (hacc : (0x00000000#32 : BitVec 32) = FKind.add.neutral .f32 hφ)

theorem reduce0_rank4 {A B C D : Nat} (x : FVec Ideal ⟨4, ![A, B, C, D]⟩ .f32)
    (h : (⟨4, ![A, B, C, D]⟩ : Shape).Reduces [0] (⟨3, ![B, C, D]⟩ : Shape)) (b : Fin B) (c : Fin C) (d : Fin D) :
    multiReduction .add [0] ⟨3, ![B, C, D]⟩ x 0x00000000#32 h hφ hacc (ix3 b c d) = ∑ a : Fin A, x (ix4 a b c d) := by
  refine (Ideal.multiReduction_add_single x _ h hφ hacc (ix3 b c d)).trans ?_
  exact Finset.sum_congr rfl fun a _ => congrArg x (lift0_ix3 h b c d a)

theorem reduce0_rank3 {B R L : Nat} (x : FVec Ideal ⟨3, ![B, R, L]⟩ .f32)
    (h : (⟨3, ![B, R, L]⟩ : Shape).Reduces [0] (⟨2, ![R, L]⟩ : Shape)) (r : Fin R) (l : Fin L) :
    multiReduction .add [0] ⟨2, ![R, L]⟩ x 0x00000000#32 h hφ hacc (ix2 r l) = ∑ b : Fin B, x (ix3 b r l) := by
  refine (Ideal.multiReduction_add_single x _ h hφ hacc (ix2 r l)).trans ?_
  exact Finset.sum_congr rfl fun b _ => congrArg x (lift0_ix2 h r l b)

theorem reduce1_rank2 {R L : Nat} (x : FVec Ideal ⟨2, ![R, L]⟩ .f32)
    (h : (⟨2, ![R, L]⟩ : Shape).Reduces [1] (⟨1, ![R]⟩ : Shape)) (r : Fin R) :
    multiReduction .add [1] ⟨1, ![R]⟩ x 0x00000000#32 h hφ hacc (ix1 r) = ∑ l : Fin L, x (ix2 r l) := by
  refine (Ideal.multiReduction_add_single x _ h hφ hacc (ix1 r)).trans ?_
  exact Finset.sum_congr rfl fun l _ => congrArg x (lift1_ix1 h r l)

theorem reduce0_col {R : Nat} (x : FVec Ideal ⟨2, ![R, 1]⟩ .f32)
    (h : (⟨2, ![R, 1]⟩ : Shape).Reduces [0] (⟨1, ![1]⟩ : Shape)) (u : Fin 1) :
    multiReduction .add [0] ⟨1, ![1]⟩ x 0x00000000#32 h hφ hacc (ix1 u) = ∑ r : Fin R, x (ix2 r u) := by
  refine (Ideal.multiReduction_add_single x _ h hφ hacc (ix1 u)).trans ?_
  exact Finset.sum_congr rfl fun r _ => congrArg x (lift0_ix1 h u r)

theorem shapeCast_col_apply {α : Type} {R : Nat} (x : (⟨1, ![R]⟩ : Shape).Idx → α)
    (h : (⟨1, ![R]⟩ : Shape).ShapeCasts ⟨2, ![R, 1]⟩) (r : Fin R) (u : Fin 1) :
    shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    omega)

theorem shapeCast_one_apply {α : Type} (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) :=
  shapeCast_apply x h _ _ (by
    have h0 : (j 0).val = 0 := by have := (j 0).isLt; simp at this; omega
    have h1 : (j 1).val = 0 := by have := (j 1).isLt; simp at this; omega
    rw [Shape.rowMajor_val_two, Shape.rowMajor_val_one]
    show (0 : Nat) = (j 0).val * 1 + (j 1).val
    omega)

theorem fullSum2 {R L : Nat} (x : FVec Ideal ⟨2, ![R, L]⟩ .f32)
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩ x 0x00000000#32 h1 hφ hacc) hc)
        0x00000000#32 h2 hφ hacc) hc2 j
      = ∑ r : Fin R, ∑ l : Fin L, x (ix2 r l) := by
  rw [shapeCast_one_apply, reduce0_col]
  refine Finset.sum_congr rfl fun r _ => ?_
  rw [shapeCast_col_apply, reduce1_rank2]

theorem fullSum3 {B R L : Nat} (x : FVec Ideal ⟨3, ![B, R, L]⟩ .f32)
    (h0 : (⟨3, ![B, R, L]⟩ : Shape).Reduces [0] (⟨2, ![R, L]⟩ : Shape))
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩
          (multiReduction .add [0] ⟨2, ![R, L]⟩ x 0x00000000#32 h0 hφ hacc) 0x00000000#32 h1 hφ hacc) hc)
        0x00000000#32 h2 hφ hacc) hc2 j
      = ∑ b : Fin B, ∑ r : Fin R, ∑ l : Fin L, x (ix3 b r l) := by
  rw [fullSum2]
  have e : ∀ r : Fin R, ∀ l : Fin L,
      multiReduction .add [0] ⟨2, ![R, L]⟩ x 0x00000000#32 h0 hφ hacc (ix2 r l) = ∑ b : Fin B, x (ix3 b r l) :=
    fun r l => reduce0_rank3 hφ hacc x h0 r l
  simp only [e]
  calc ∑ r : Fin R, ∑ l : Fin L, ∑ b : Fin B, x (ix3 b r l)
      = ∑ r : Fin R, ∑ b : Fin B, ∑ l : Fin L, x (ix3 b r l) := Finset.sum_congr rfl fun r _ => Finset.sum_comm
    _ = ∑ b : Fin B, ∑ r : Fin R, ∑ l : Fin L, x (ix3 b r l) := Finset.sum_comm

theorem fullSum4 {B C R L : Nat} (x : FVec Ideal ⟨4, ![B, C, R, L]⟩ .f32)
    (h00 : (⟨4, ![B, C, R, L]⟩ : Shape).Reduces [0] (⟨3, ![C, R, L]⟩ : Shape))
    (h0 : (⟨3, ![C, R, L]⟩ : Shape).Reduces [0] (⟨2, ![R, L]⟩ : Shape))
    (h1 : (⟨2, ![R, L]⟩ : Shape).Reduces [1] (⟨1, ![R]⟩ : Shape))
    (hc : (⟨1, ![R]⟩ : Shape).ShapeCasts ⟨2, ![R, 1]⟩)
    (h2 : (⟨2, ![R, 1]⟩ : Shape).Reduces [0] (⟨1, ![1]⟩ : Shape))
    (hc2 : (⟨1, ![1]⟩ : Shape).ShapeCasts ⟨2, ![1, 1]⟩) (j : (⟨2, ![1, 1]⟩ : Shape).Idx) :
    shapeCast ⟨2, ![1, 1]⟩
      (multiReduction .add [0] ⟨1, ![1]⟩
        (shapeCast ⟨2, ![R, 1]⟩ (multiReduction .add [1] ⟨1, ![R]⟩
          (multiReduction .add [0] ⟨2, ![R, L]⟩
            (multiReduction .add [0] ⟨3, ![C, R, L]⟩ x 0x00000000#32 h00 hφ hacc) 0x00000000#32 h0 hφ hacc)
          0x00000000#32 h1 hφ hacc) hc)
        0x00000000#32 h2 hφ hacc) hc2 j
      = ∑ b : Fin B, ∑ c : Fin C, ∑ r : Fin R, ∑ l : Fin L, x (ix4 b c r l) := by
  rw [fullSum3]
  have e : ∀ (c : Fin C) (r : Fin R) (l : Fin L),
      multiReduction .add [0] ⟨3, ![C, R, L]⟩ x 0x00000000#32 h00 hφ hacc (ix3 c r l) = ∑ b : Fin B, x (ix4 b c r l) :=
    fun c r l => reduce0_rank4 hφ hacc x h00 c r l
  simp only [e]
  calc ∑ c : Fin C, ∑ r : Fin R, ∑ l : Fin L, ∑ b : Fin B, x (ix4 b c r l)
      = ∑ c : Fin C, ∑ r : Fin R, ∑ b : Fin B, ∑ l : Fin L, x (ix4 b c r l) :=
        Finset.sum_congr rfl fun c _ => Finset.sum_congr rfl fun r _ => Finset.sum_comm
    _ = ∑ c : Fin C, ∑ b : Fin B, ∑ r : Fin R, ∑ l : Fin L, x (ix4 b c r l) :=
        Finset.sum_congr rfl fun c _ => Finset.sum_comm
    _ = ∑ b : Fin B, ∑ c : Fin C, ∑ r : Fin R, ∑ l : Fin L, x (ix4 b c r l) := Finset.sum_comm

end steps

end Cert.Hand
-- ==== Proof.LibBlockOps.lean ====
import Idealize.ShloMosaic.Lib.ValueIdx
import Idealize.ShloMosaic.Lib.Pipeline.Value
import Idealize.ShloMosaic.Lib.ValueLayout

open Idealize.ShloMosaic Idealize.ShloMosaic.ValueIdx

namespace Cert.Hand

variable {α : Type}

theorem shapeCast_dropChan_apply {B R L : Nat} (x : (⟨4, ![B, 1, R, L]⟩ : Shape).Idx → α)
    (h : (⟨4, ![B, 1, R, L]⟩ : Shape).ShapeCasts ⟨3, ![B, R, L]⟩) (b : Fin B) (r : Fin R) (l : Fin L) :
    shapeCast ⟨3, ![B, R, L]⟩ x h (ix3 b r l) = x (ix4 b (0 : Fin 1) r l) :=
  shapeCast_apply x h _ _ (by
    rw [Shape.rowMajor_val_four, Shape.rowMajor_val_three]
    show ((b.val * 1 + 0) * R + r.val) * L + l.val = (b.val * R + r.val) * L + l.val
    rw [Nat.mul_one, Nat.add_zero])

theorem shapeCast_addChan_apply {B R L : Nat} (x : (⟨3, ![B, R, L]⟩ : Shape).Idx → α)
    (h : (⟨3, ![B, R, L]⟩ : Shape).ShapeCasts ⟨4, ![B, 1, R, L]⟩) (b : Fin B) (u : Fin 1) (r : Fin R) (l : Fin L) :
    shapeCast ⟨4, ![B, 1, R, L]⟩ x h (ix4 b u r l) = x (ix3 b r l) :=
  shapeCast_apply x h _ _ (by
    have hu : u.val = 0 := by omega
    rw [Shape.rowMajor_val_three, Shape.rowMajor_val_four]
    show (b.val * R + r.val) * L + l.val = ((b.val * 1 + u.val) * R + r.val) * L + l.val
    rw [hu, Nat.mul_one, Nat.add_zero])

theorem broadcastTo_chan_apply {B C R L : Nat} (x : (⟨4, ![B, 1, R, L]⟩ : Shape).Idx → α)
    (h : (⟨4, ![B, 1, R, L]⟩ : Shape).Broadcasts ⟨4, ![B, C, R, L]⟩) (b : Fin B) (c : Fin C) (r : Fin R) (l : Fin L) :
    broadcastTo ⟨4, ![B, C, R, L]⟩ x h (ix4 b c r l) = x (ix4 b (0 : Fin 1) r l) := by
  refine broadcastTo_apply x h (ix4 b c r l) (ix4 b (0 : Fin 1) r l) fun ax => ?_
  match ax with
  | ⟨0, _⟩ =>
    show b.val = if B = 1 then 0 else b.val
    split
    · have := b.isLt; omega
    · rfl
  | ⟨1, _⟩ => rfl
  | ⟨2, _⟩ =>
    show r.val = if R = 1 then 0 else r.val
    split
    · have := r.isLt; omega
    · rfl
  | ⟨3, _⟩ =>
    show l.val = if L = 1 then 0 else l.val
    split
    · have := l.isLt; omega
    · rfl

theorem broadcastTo_one_row_apply {n : Nat} (x : (⟨2, ![1, 1]⟩ : Shape).Idx → α)
    (h : (⟨2, ![1, 1]⟩ : Shape).Broadcasts ⟨2, ![1, n]⟩) (u : Fin 1) (i : Fin n) :
    broadcastTo ⟨2, ![1, n]⟩ x h (ix2 u i) = x (ix2 (0 : Fin 1) (0 : Fin 1)) := by
  refine broadcastTo_apply x h (ix2 u i) (ix2 (0 : Fin 1) (0 : Fin 1)) fun ax => ?_
  match ax with
  | ⟨0, _⟩ => rfl
  | ⟨1, _⟩ => rfl

theorem select_cmpi_eq_ofNat (i k : Nat) (hi : i < 2 ^ 32) (hk : k < 2 ^ 32) (a b : α) :
    Scalar.select (IntOp.cmpi .eq (BitVec.ofNat 32 i) (BitVec.ofNat 32 k)) a b = if i = k then a else b := by
  unfold Scalar.select
  by_cases h : i = k
  · subst h
    simp [IntOp.cmpi]
  · have hne : BitVec.ofNat 32 i ≠ BitVec.ofNat 32 k := by
      intro e
      apply h
      have := congrArg BitVec.toNat e
      simp only [BitVec.toNat_ofNat] at this
      rw [Nat.mod_eq_of_lt hi, Nat.mod_eq_of_lt hk] at this
      exact this
    have hb : (BitVec.ofNat 32 i == BitVec.ofNat 32 k) = false := beq_eq_false_iff_ne.mpr hne
    show (if BitVec.ofBool (BitVec.ofNat 32 i == BitVec.ofNat 32 k) = 1#1 then a else b) = if i = k then a else b
    rw [hb, if_neg h, if_neg (by decide)]

theorem iota_lane_apply {n : Nat} (h : (⟨2, ![1, n]⟩ : Shape).Iotas .tc 32 [1]) (u : Fin 1) (i : Fin n) :
    iota .tc ⟨2, ![1, n]⟩ 32 [1] h (ix2 u i) = BitVec.ofNat 32 i.val :=
  iota_single_apply .tc _ 32 1 h (ix2 u i)

theorem select_lane_apply {n : Nat} (hn : n ≤ 2 ^ 32) (k : Nat) (hk : k < 2 ^ 32)
    (h : (⟨2, ![1, n]⟩ : Shape).Iotas .tc 32 [1]) (x y : (⟨2, ![1, n]⟩ : Shape).Idx → α) (u : Fin 1) (i : Fin n) :
    select (cmpi .eq (iota .tc ⟨2, ![1, n]⟩ 32 [1] h) (broadcast ⟨2, ![1, n]⟩ (BitVec.ofNat 32 k))) x y (ix2 u i)
      = if i.val = k then x (ix2 u i) else y (ix2 u i) := by
  show Scalar.select (IntOp.cmpi .eq (iota .tc ⟨2, ![1, n]⟩ 32 [1] h (ix2 u i)) (BitVec.ofNat 32 k)) _ _ = _
  rw [iota_lane_apply, select_cmpi_eq_ofNat i.val k (by have := i.isLt; omega) hk]

end Cert.Hand
-- ==== Proof.LibLaneRow.lean ====
import proofs.«409303_j18760417149025_3_alg».proof.Proof.LibBlockOps
import Idealize.ShloMosaic.PureOps.Ideal.Laws
import Idealize.ShloMosaic.Lib.IdealHost

open Idealize.ShloMosaic Idealize.ShloMosaic.ValueIdx

namespace Cert.Hand

noncomputable def laneRow (S0 S1 S2 S3 S4 : EReal) (i : ℕ) : EReal :=
  if i = 0 then S0 else if i = 1 then S1 else if i = 2 then S2 else if i = 3 then S3 else if i = 4 then S4 else 0

theorem laneRow_sum4 (S0 S1 S2 S3 : EReal) (i : ℕ) :
    (((if i = 0 then S0 else 0) + (if i = 1 then S1 else 0)) + (if i = 2 then S2 else 0)) + (if i = 3 then S3 else 0)
      = laneRow S0 S1 S2 S3 0 i := by
  unfold laneRow
  by_cases h0 : i = 0
  · subst h0; simp
  by_cases h1 : i = 1
  · subst h1; simp
  by_cases h2 : i = 2
  · subst h2; simp
  by_cases h3 : i = 3
  · subst h3; simp
  simp [h0, h1, h2, h3]

theorem laneRow_add5 (S0 S1 S2 S3 S4 : EReal) (i : ℕ) :
    laneRow S0 S1 S2 S3 0 i + (if i = 4 then S4 else 0) = laneRow S0 S1 S2 S3 S4 i := by
  unfold laneRow
  by_cases h4 : i = 4
  · subst h4; simp
  simp [h4]

section rows
variable {n : Nat} (hn : n ≤ 2 ^ 32) (hi : (⟨2, ![1, n]⟩ : Shape).Iotas .tc 32 [1])
  (hc : (⟨2, ![1, 1]⟩ : Shape).ShapeCasts ⟨2, ![1, 1]⟩) (hb : (⟨2, ![1, 1]⟩ : Shape).Broadcasts ⟨2, ![1, n]⟩)
include hn

theorem oneLane_apply (k : Nat) (hk : k < 2 ^ 32) (v : FVec Ideal ⟨2, ![1, 1]⟩ .f32) (u : Fin 1) (i : Fin n) :
    select (cmpi .eq (iota .tc ⟨2, ![1, n]⟩ 32 [1] hi) (broadcast ⟨2, ![1, n]⟩ (BitVec.ofNat 32 k)))
        (broadcastTo ⟨2, ![1, n]⟩ (shapeCast ⟨2, ![1, 1]⟩ v hc) hb)
        (broadcast ⟨2, ![1, n]⟩ (Scalar.ofBits .f32 0x00000000#32 : Ideal .f32)) (ix2 u i)
      = if i.val = k then v (ix2 (0 : Fin 1) (0 : Fin 1)) else 0 := by
  have hz : (Scalar.ofBits .f32 0x00000000#32 : Ideal .f32) = 0 := Ideal.ofBits_zero_f32
  rw [select_lane_apply hn k hk hi, broadcastTo_one_row_apply, shapeCast_self, broadcast_apply, hz]

theorem rowAssemble (v30 v36 v41 v90 : FVec Ideal ⟨2, ![1, 1]⟩ .f32) (u : Fin 1) (i : Fin n) :
    addf (addf (addf
        (select (cmpi .eq (iota .tc ⟨2, ![1, n]⟩ 32 [1] hi) (broadcast ⟨2, ![1, n]⟩ 0#32))
          (broadcastTo ⟨2, ![1, n]⟩ (shapeCast ⟨2, ![1, 1]⟩ v30 hc) hb)
          (broadcast ⟨2, ![1, n]⟩ (Scalar.ofBits .f32 0x00000000#32 : Ideal .f32)))
        (select (cmpi .eq (iota .tc ⟨2, ![1, n]⟩ 32 [1] hi) (broadcast ⟨2, ![1, n]⟩ 1#32))
          (broadcastTo ⟨2, ![1, n]⟩ (shapeCast ⟨2, ![1, 1]⟩ v36 hc) hb)
          (broadcast ⟨2, ![1, n]⟩ (Scalar.ofBits .f32 0x00000000#32 : Ideal .f32))))
        (select (cmpi .eq (iota .tc ⟨2, ![1, n]⟩ 32 [1] hi) (broadcast ⟨2, ![1, n]⟩ 2#32))
          (broadcastTo ⟨2, ![1, n]⟩ (shapeCast ⟨2, ![1, 1]⟩ v41 hc) hb)
          (broadcast ⟨2, ![1, n]⟩ (Scalar.ofBits .f32 0x00000000#32 : Ideal .f32))))
        (select (cmpi .eq (iota .tc ⟨2, ![1, n]⟩ 32 [1] hi) (broadcast ⟨2, ![1, n]⟩ 3#32))
          (broadcastTo ⟨2, ![1, n]⟩ (shapeCast ⟨2, ![1, 1]⟩ v90 hc) hb)
          (broadcast ⟨2, ![1, n]⟩ (Scalar.ofBits .f32 0x00000000#32 : Ideal .f32))) (ix2 u i)
      = laneRow (v30 (ix2 (0 : Fin 1) (0 : Fin 1))) (v36 (ix2 (0 : Fin 1) (0 : Fin 1)))
          (v41 (ix2 (0 : Fin 1) (0 : Fin 1))) (v90 (ix2 (0 : Fin 1) (0 : Fin 1))) 0 i.val := by
  rw [addf_apply, addf_apply, addf_apply,
    oneLane_apply hn hi hc hb 0 (by norm_num) v30, oneLane_apply hn hi hc hb 1 (by norm_num) v36,
    oneLane_apply hn hi hc hb 2 (by norm_num) v41, oneLane_apply hn hi hc hb 3 (by norm_num) v90]
  exact laneRow_sum4 _ _ _ _ _

theorem rowAccumulate (hcc : (⟨2, ![1, n]⟩ : Shape).ShapeCasts ⟨2, ![1, n]⟩)
    (v98 : FVec Ideal ⟨2, ![1, 1]⟩ .f32) (v126 acc : FVec Ideal ⟨2, ![1, n]⟩ .f32) (u : Fin 1) (i : Fin n) :
    shapeCast ⟨2, ![1, n]⟩ (addf acc (addf v126
        (select (cmpi .eq (iota .tc ⟨2, ![1, n]⟩ 32 [1] hi) (broadcast ⟨2, ![1, n]⟩ 4#32))
          (broadcastTo ⟨2, ![1, n]⟩ (shapeCast ⟨2, ![1, 1]⟩ v98 hc) hb)
          (broadcast ⟨2, ![1, n]⟩ (Scalar.ofBits .f32 0x00000000#32 : Ideal .f32))))) hcc (ix2 u i)
      = acc (ix2 u i) + (v126 (ix2 u i) + if i.val = 4 then v98 (ix2 (0 : Fin 1) (0 : Fin 1)) else 0) := by
  rw [shapeCast_self, addf_apply, addf_apply, oneLane_apply hn hi hc hb 4 (by norm_num) v98]

end rows

end Cert.Hand
-- ==== Proof.LibSums.lean ====
import Mathlib.Algebra.BigOperators.Fin
import Mathlib.Algebra.BigOperators.Group.Finset.Basic
import Mathlib.Data.Fintype.BigOperators
import Mathlib.Logic.Equiv.Fin.Basic
import Mathlib.Tactic.Ring
import Idealize.ShloMosaic.Lib.ValueIdx
import Idealize.ShloMosaic.Lib.Pipeline.Value

open scoped BigOperators
open Idealize.ShloMosaic Idealize.ShloMosaic.ValueIdx

namespace Cert.Hand

variable {M : Type*} [AddCommMonoid M]

theorem sum_rowMajor (R L : Nat) (g : ℕ → M) :
    ∑ r : Fin R, ∑ l : Fin L, g (r.val * L + l.val) = ∑ p : Fin (R * L), g p.val := by
  rw [← Equiv.sum_comp finProdFinEquiv (fun p : Fin (R * L) => g p.val), Fintype.sum_prod_type]
  refine Finset.sum_congr rfl fun r _ => Finset.sum_congr rfl fun l _ => ?_
  congr 1
  show r.val * L + l.val = l.val + L * r.val
  rw [Nat.mul_comm, Nat.add_comm]

theorem sum_fin_of_eq {N N' : Nat} (e : N = N') (g : ℕ → M) : ∑ p : Fin N, g p.val = ∑ p : Fin N', g p.val := by
  subst e; rfl

theorem sum_reshape {R L H W : Nat} (e : R * L = H * W) (g : ℕ → M) :
    ∑ r : Fin R, ∑ l : Fin L, g (r.val * L + l.val) = ∑ h : Fin H, ∑ w : Fin W, g (h.val * W + w.val) := by
  rw [sum_rowMajor, sum_rowMajor, sum_fin_of_eq e]

theorem sum_blocks (nb bs : Nat) (g : ℕ → M) :
    ∑ k : Fin (nb * bs), g k.val = ∑ s : Fin nb, ∑ b : Fin bs, g (bs * s.val + b.val) := by
  rw [← sum_rowMajor nb bs g]
  refine Finset.sum_congr rfl fun s _ => Finset.sum_congr rfl fun b _ => ?_
  rw [Nat.mul_comm]

theorem sum_blocks_of_eq {N : Nat} (nb bs : Nat) (e : N = nb * bs) (g : ℕ → M) :
    ∑ k : Fin N, g k.val = ∑ s : Fin nb, ∑ b : Fin bs, g (bs * s.val + b.val) := by
  rw [sum_fin_of_eq e, sum_blocks]

theorem sum_blocks_fin {N : Nat} (nb bs : Nat) (e : N = nb * bs) (f : Fin N → M) :
    ∑ k : Fin N, f k = ∑ s : Fin nb, ∑ b : Fin bs,
      f ⟨bs * s.val + b.val, by
        have hs := s.isLt; have hb := b.isLt
        calc bs * s.val + b.val < bs * s.val + bs := by omega
          _ = bs * (s.val + 1) := by ring
          _ ≤ bs * nb := Nat.mul_le_mul_left _ hs
          _ = N := by rw [e, Nat.mul_comm]⟩ := by
  have key := sum_blocks_of_eq nb bs e (fun k => if h : k < N then f ⟨k, h⟩ else 0)
  have lhs : ∑ k : Fin N, (fun k => if h : k < N then f ⟨k, h⟩ else 0) k.val = ∑ k : Fin N, f k :=
    Finset.sum_congr rfl fun k _ => by simp only [k.isLt, dite_true]
  rw [← lhs, key]
  refine Finset.sum_congr rfl fun s _ => Finset.sum_congr rfl fun b _ => ?_
  have hlt : bs * s.val + b.val < N := by
    have hs := s.isLt; have hb := b.isLt
    calc bs * s.val + b.val < bs * s.val + bs := by omega
      _ = bs * (s.val + 1) := by ring
      _ ≤ bs * nb := Nat.mul_le_mul_left _ hs
      _ = N := by rw [e, Nat.mul_comm]
  simp only [hlt, dite_true]

theorem sum_chan_last {β γ η ω : Type*} [Fintype β] [Fintype γ] [Fintype η] [Fintype ω] (f : β → γ → η → ω → M) :
    ∑ b, ∑ c, ∑ h, ∑ w, f b c h w = ∑ b, ∑ h, ∑ w, ∑ c, f b c h w := by
  refine Finset.sum_congr rfl fun b _ => ?_
  rw [Finset.sum_comm]
  refine Finset.sum_congr rfl fun h _ => ?_
  rw [Finset.sum_comm]

theorem shapeCast_inner_apply {α : Type} {B C H W R L : Nat} (x : (⟨4, ![B, C, H, W]⟩ : Shape).Idx → α)
    (hs : (⟨4, ![B, C, H, W]⟩ : Shape).ShapeCasts ⟨4, ![B, C, R, L]⟩) (e : R * L = H * W)
    (b : Fin B) (c : Fin C) (r : Fin R) (l : Fin L) (h : Fin H) (w : Fin W) (hp : r.val * L + l.val = h.val * W + w.val) :
    shapeCast ⟨4, ![B, C, R, L]⟩ x hs (ix4 b c r l) = x (ix4 b c h w) :=
  shapeCast_apply x hs _ _ (by
    rw [Shape.rowMajor_val_four, Shape.rowMajor_val_four]
    show (((b.val * C + c.val) * H + h.val) * W + w.val) = (((b.val * C + c.val) * R + r.val) * L + l.val)
    have e1 : ((b.val * C + c.val) * H + h.val) * W + w.val = (b.val * C + c.val) * (H * W) + (h.val * W + w.val) := by ring
    have e2 : ((b.val * C + c.val) * R + r.val) * L + l.val = (b.val * C + c.val) * (R * L) + (r.val * L + l.val) := by ring
    rw [e1, e2, e, hp])

end Cert.Hand
-- ==== Proof.RegSpec.lean ====
import proofs.«409303_j18760417149025_3_alg».proof.KernelIdeal
import Idealize.ShloMosaic.PureOps.Ideal
import Idealize.ShloMosaic.Lib.ValueIdx

noncomputable section

open scoped BigOperators

namespace Cert.KernelIdeal.Hand

open Idealize.ShloMosaic Idealize.ShloMosaic.ValueIdx Cert.KernelIdeal

def kFlossS (x t : EReal) : EReal :=
  let c0 : EReal := Ideal.ofBits .f32 0x00000000#32
  let c1 : EReal := Ideal.ofBits .f32 0x3F800000#32
  let cq : EReal := Ideal.ofBits .f32 0x3E800000#32
  let v43 := c0 - x
  let v45 := max v43 c0
  let v47 := v43 - c0
  let v48 := Ideal.cmp .one v47 v47
  let v50 := v43 + c0
  let v51 := max v47 (-v47)
  let v53 := c0 - v51
  let v54 := Ideal.exp v53
  let v55 := Ideal.log1p v54
  let v56 := v45 + v55
  let v57 := Scalar.select v48 v50 v56
  let v59 := c0 - v57
  let v60 := v59 - x
  let v61 := Ideal.exp v59
  let v62 := t * v59
  let v64 := c1 - t
  let v65 := v64 * v60
  let v66 := v62 + v65
  let v68 := c0 - v66
  let v69 := t * v61
  let v71 := c1 - t
  let v73 := c1 - v61
  let v74 := v71 * v73
  let v75 := v69 + v74
  let v77 := c1 - v75
  let v79 := max v77 c0
  let v80 := Ideal.sqrt v79
  let v81 := v79 * v80
  let v83 := cq * v81
  v83 * v68

section Generic
variable {H W : ℕ}

abbrev chan (o : ℕ) (ho : o + 2 ≤ 5) (k : Fin 2) : Fin 5 := ⟨o + k.val, by have := k.isLt; omega⟩

def cellTerm (d tt : (⟨4, ![128, 5, H, W]⟩ : Shape).Idx → EReal) (j : ℕ) (b : Fin 128) (h : Fin H) (w : Fin W) : EReal :=
  if j = 0 then
    ∑ k : Fin 2, ((Ideal.logistic (d (ix4 b (chan 0 (by omega) k) h w)) - tt (ix4 b (chan 0 (by omega) k) h w))
      * (Ideal.logistic (d (ix4 b (chan 0 (by omega) k) h w)) - tt (ix4 b (chan 0 (by omega) k) h w)))
      * tt (ix4 b (4 : Fin 5) h w)
  else if j = 1 then
    ∑ k : Fin 2, ((d (ix4 b (chan 2 (by omega) k) h w) - tt (ix4 b (chan 2 (by omega) k) h w))
      * (d (ix4 b (chan 2 (by omega) k) h w) - tt (ix4 b (chan 2 (by omega) k) h w)))
      * tt (ix4 b (4 : Fin 5) h w)
  else if j = 2 then tt (ix4 b (4 : Fin 5) h w)
  else if j = 3 then kFlossS (d (ix4 b (4 : Fin 5) h w)) (tt (ix4 b (4 : Fin 5) h w)) * tt (ix4 b (4 : Fin 5) h w)
  else if j = 4 then kFlossS (d (ix4 b (4 : Fin 5) h w)) (tt (ix4 b (4 : Fin 5) h w)) * (1 - tt (ix4 b (4 : Fin 5) h w))
  else 0

abbrev halfRow (c : Fin 2) (r : Fin 64) : Fin 128 := ⟨64 * c.val + r.val, by have := c.isLt; have := r.isLt; omega⟩

def halfSum (d tt : (⟨4, ![128, 5, H, W]⟩ : Shape).Idx → EReal) (c : Fin 2) (j : ℕ) : EReal :=
  ∑ r : Fin 64, ∑ h : Fin H, ∑ w : Fin W, cellTerm d tt j (halfRow c r) h w

def regSums (d tt : (⟨4, ![128, 5, H, W]⟩ : Shape).Idx → EReal) : (⟨2, ![1, 256]⟩ : Shape).Idx → EReal :=
  fun i => if (i 1).val % 128 < 5
    then halfSum d tt ⟨(i 1).val / 128, by have := idx2_lt1 i; omega⟩ ((i 1).val % 128)
    else 0

theorem regSums_lane (d tt : (⟨4, ![128, 5, H, W]⟩ : Shape).Idx → EReal) (c : Fin 2) (j : Fin 128) :
    regSums d tt (ix2 (0 : Fin 1) (⟨128 * c.val + j.val, by have := c.isLt; have := j.isLt; omega⟩ : Fin 256))
      = if j.val < 5 then halfSum d tt c j.val else 0 := by
  have hc := c.isLt; have hj := j.isLt
  have h1 : (128 * c.val + j.val) % 128 = j.val := by omega
  have h2 : (128 * c.val + j.val) / 128 = c.val := by omega
  show (if (128 * c.val + j.val) % 128 < 5 then halfSum d tt ⟨(128 * c.val + j.val) / 128, _⟩ ((128 * c.val + j.val) % 128) else 0) = _
  simp only [h1, h2]

end Generic

def R0s (d tt : FVec Ideal S128x5x200x128 .f32) : FVec Ideal S1x256 .f32 := regSums (H := 200) (W := 128) d tt
def R1s (d tt : FVec Ideal S128x5x50x128 .f32) : FVec Ideal S1x256 .f32 := regSums (H := 50) (W := 128) d tt
def R2s (d tt : FVec Ideal S128x5x40x40 .f32) : FVec Ideal S1x256 .f32 := regSums (H := 40) (W := 40) d tt

end Cert.KernelIdeal.Hand

end
-- ==== Proof.KCell.lean ====
import proofs.«409303_j18760417149025_3_alg».proof.Proof.RegSpec
import proofs.«409303_j18760417149025_3_alg».proof.Proof.LibLaneRow

noncomputable section

open scoped BigOperators

namespace Cert.KernelIdeal.Hand

open Idealize.ShloMosaic Idealize.ShloMosaic.ValueIdx Cert.Hand

variable {B H W : ℕ}

abbrev cellXY (d tt : (⟨4, ![B, 5, H, W]⟩ : Shape).Idx → EReal) (b : Fin B) (k : Fin 2) (h : Fin H) (w : Fin W) : EReal :=
  ((Ideal.logistic (d (ix4 b (chan 0 (by omega) k) h w)) - tt (ix4 b (chan 0 (by omega) k) h w))
    * (Ideal.logistic (d (ix4 b (chan 0 (by omega) k) h w)) - tt (ix4 b (chan 0 (by omega) k) h w)))
    * tt (ix4 b (4 : Fin 5) h w)

abbrev cellWH (d tt : (⟨4, ![B, 5, H, W]⟩ : Shape).Idx → EReal) (b : Fin B) (k : Fin 2) (h : Fin H) (w : Fin W) : EReal :=
  ((d (ix4 b (chan 2 (by omega) k) h w) - tt (ix4 b (chan 2 (by omega) k) h w))
    * (d (ix4 b (chan 2 (by omega) k) h w) - tt (ix4 b (chan 2 (by omega) k) h w)))
    * tt (ix4 b (4 : Fin 5) h w)

def cellTermB (d tt : (⟨4, ![B, 5, H, W]⟩ : Shape).Idx → EReal) (j : ℕ) (b : Fin B) (h : Fin H) (w : Fin W) : EReal :=
  if j = 0 then ∑ k : Fin 2, cellXY d tt b k h w
  else if j = 1 then ∑ k : Fin 2, cellWH d tt b k h w
  else if j = 2 then tt (ix4 b (4 : Fin 5) h w)
  else if j = 3 then kFlossS (d (ix4 b (4 : Fin 5) h w)) (tt (ix4 b (4 : Fin 5) h w)) * tt (ix4 b (4 : Fin 5) h w)
  else if j = 4 then kFlossS (d (ix4 b (4 : Fin 5) h w)) (tt (ix4 b (4 : Fin 5) h w)) * (1 - tt (ix4 b (4 : Fin 5) h w))
  else 0

theorem cellTermB_eq_cellTerm (d tt : (⟨4, ![128, 5, H, W]⟩ : Shape).Idx → EReal) : cellTermB d tt = cellTerm d tt := rfl

theorem cellTermB_congr {B' : ℕ} (d tt : (⟨4, ![B, 5, H, W]⟩ : Shape).Idx → EReal)
    (d' tt' : (⟨4, ![B', 5, H, W]⟩ : Shape).Idx → EReal) (j : ℕ) (b : Fin B) (b' : Fin B') (h : Fin H) (w : Fin W)
    (hd : ∀ c : Fin 5, d (ix4 b c h w) = d' (ix4 b' c h w)) (ht : ∀ c : Fin 5, tt (ix4 b c h w) = tt' (ix4 b' c h w)) :
    cellTermB d tt j b h w = cellTermB d' tt' j b' h w := by
  unfold cellTermB
  simp only [cellXY, cellWH, hd, ht]

def blockSum (d tt : (⟨4, ![B, 5, H, W]⟩ : Shape).Idx → EReal) (j : ℕ) : EReal :=
  ∑ b : Fin B, ∑ h : Fin H, ∑ w : Fin W, cellTermB d tt j b h w

theorem laneRow_blockSum (d tt : (⟨4, ![B, 5, H, W]⟩ : Shape).Idx → EReal) (i : ℕ) :
    laneRow (blockSum d tt 0) (blockSum d tt 1) (blockSum d tt 2) (blockSum d tt 3) (blockSum d tt 4) i
      = if i < 5 then blockSum d tt i else 0 := by
  unfold laneRow
  by_cases h0 : i = 0
  · subst h0; simp
  by_cases h1 : i = 1
  · subst h1; simp
  by_cases h2 : i = 2
  · subst h2; simp
  by_cases h3 : i = 3
  · subst h3; simp
  by_cases h4 : i = 4
  · subst h4; simp
  have h5 : ¬ i < 5 := by omega
  simp [h0, h1, h2, h3, h4, h5]

end Cert.KernelIdeal.Hand

end
-- ==== Proof.KPay0.lean ====
import proofs.«409303_j18760417149025_3_alg».proof.Proof.Gen.KernelIdeal.Skeleton
import proofs.«409303_j18760417149025_3_alg».proof.Proof.LibFullSum
import proofs.«409303_j18760417149025_3_alg».proof.Proof.LibBlockOps
import proofs.«409303_j18760417149025_3_alg».proof.Proof.LibLaneRow
import proofs.«409303_j18760417149025_3_alg».proof.Proof.LibSums
import proofs.«409303_j18760417149025_3_alg».proof.Proof.KCell

noncomputable section

open scoped BigOperators

namespace Cert.KernelIdeal.Hand.R0

open Idealize.ShloMosaic Idealize.ShloMosaic.ValueIdx Cert.KernelIdeal Cert.KernelIdeal.Gen Cert.Hand Cert.KernelIdeal.Hand

variable (v3 v5 : Vec Ideal S8x5x200x128 .f32)

theorem pay3_eq : k0_pay3 v3 = v3 := shapeCast_self v3 _
theorem pay4_eq : k0_pay4 v5 = v5 := shapeCast_self v5 _

theorem pay5_apply (b : Fin 8) (r : Fin 200) (l : Fin 128) : k0_pay5 v3 (ix3 b r l) = v3 (ix4 b (4 : Fin 5) r l) := by
  unfold k0_pay5
  refine (shapeCast_dropChan_apply _ _ b r l).trans ?_
  refine (slice4_axis1_apply 4 (k0_pay3 v3) _ b (0 : Fin 1) r l (4 : Fin 5) rfl).trans ?_
  rw [pay3_eq]

theorem pay6_apply (b : Fin 8) (r : Fin 200) (l : Fin 128) : k0_pay6 v5 (ix3 b r l) = v5 (ix4 b (4 : Fin 5) r l) := by
  unfold k0_pay6
  refine (shapeCast_dropChan_apply _ _ b r l).trans ?_
  refine (slice4_axis1_apply 4 (k0_pay4 v5) _ b (0 : Fin 1) r l (4 : Fin 5) rfl).trans ?_
  rw [pay4_eq]

theorem pay7_apply (b : Fin 8) (u : Fin 1) (r : Fin 200) (l : Fin 128) :
    k0_pay7 v5 (ix4 b u r l) = v5 (ix4 b (4 : Fin 5) r l) := by
  unfold k0_pay7
  exact (shapeCast_addChan_apply _ _ b u r l).trans (pay6_apply v5 b r l)

theorem pay12_apply (b : Fin 8) (r : Fin 200) (l : Fin 128) :
    k0_pay12 (k0_pay5 v3) (k0_pay6 v5) (ix3 b r l) = kFlossS (v3 (ix4 b (4 : Fin 5) r l)) (v5 (ix4 b (4 : Fin 5) r l)) := by
  rw [← pay5_apply v3 b r l, ← pay6_apply v5 b r l]
  rfl

theorem pay8_eq (j : S1x1.Idx) : k0_pay8 v3 v5 j = blockSum v3 v5 0 := by
  unfold k0_pay8
  refine (fullSum4 (.inl rfl) rfl _ reduces_S8x2x200x128_S2x200x128 reduces_S2x200x128_S200x128 reduces_S200x128_S200 shapeCasts_S200_S200x1 reduces_S200x1_S1 shapeCasts_S1_S1x1 j).trans ?_
  show _ = ∑ b : Fin 8, ∑ h : Fin 200, ∑ w : Fin 128, ∑ k : Fin 2, cellXY v3 v5 b k h w
  refine Eq.trans ?_ (sum_chan_last (fun b k h w => cellXY v3 v5 b k h w))
  refine Finset.sum_congr rfl fun b _ => Finset.sum_congr rfl fun c _ => Finset.sum_congr rfl fun r _ =>
    Finset.sum_congr rfl fun l _ => ?_
  have hA : extractStridedSlice S8x2x200x128 ![0, 0, 0, 0] (k0_pay3 v3) slices_S8x5x200x128_o0_0_0_0_S8x2x200x128 (ix4 b c r l) = v3 (ix4 b (chan 0 (by omega) c) r l) :=
    (slice4_axis1_apply 0 (k0_pay3 v3) _ b c r l (chan 0 (by omega) c) rfl).trans (congrFun (pay3_eq v3) _)
  have hB : extractStridedSlice S8x2x200x128 ![0, 0, 0, 0] (k0_pay4 v5) slices_S8x5x200x128_o0_0_0_0_S8x2x200x128 (ix4 b c r l) = v5 (ix4 b (chan 0 (by omega) c) r l) :=
    (slice4_axis1_apply 0 (k0_pay4 v5) _ b c r l (chan 0 (by omega) c) rfl).trans (congrFun (pay4_eq v5) _)
  have hC : broadcastTo S8x2x200x128 (k0_pay7 v5) broadcasts_S8x1x200x128_S8x2x200x128 (ix4 b c r l) = v5 (ix4 b (4 : Fin 5) r l) :=
    (broadcastTo_chan_apply _ _ b c r l).trans (pay7_apply v5 b 0 r l)
  show ((Ideal.logistic (extractStridedSlice S8x2x200x128 ![0, 0, 0, 0] (k0_pay3 v3) slices_S8x5x200x128_o0_0_0_0_S8x2x200x128 (ix4 b c r l)) - extractStridedSlice S8x2x200x128 ![0, 0, 0, 0] (k0_pay4 v5) slices_S8x5x200x128_o0_0_0_0_S8x2x200x128 (ix4 b c r l))
      * (Ideal.logistic (extractStridedSlice S8x2x200x128 ![0, 0, 0, 0] (k0_pay3 v3) slices_S8x5x200x128_o0_0_0_0_S8x2x200x128 (ix4 b c r l)) - extractStridedSlice S8x2x200x128 ![0, 0, 0, 0] (k0_pay4 v5) slices_S8x5x200x128_o0_0_0_0_S8x2x200x128 (ix4 b c r l)))
      * broadcastTo S8x2x200x128 (k0_pay7 v5) broadcasts_S8x1x200x128_S8x2x200x128 (ix4 b c r l) = cellXY v3 v5 b c r l
  rw [hA, hB, hC]

theorem pay9_eq (j : S1x1.Idx) : k0_pay9 v3 v5 j = blockSum v3 v5 1 := by
  unfold k0_pay9
  refine (fullSum4 (.inl rfl) rfl _ reduces_S8x2x200x128_S2x200x128 reduces_S2x200x128_S200x128 reduces_S200x128_S200 shapeCasts_S200_S200x1 reduces_S200x1_S1 shapeCasts_S1_S1x1 j).trans ?_
  show _ = ∑ b : Fin 8, ∑ h : Fin 200, ∑ w : Fin 128, ∑ k : Fin 2, cellWH v3 v5 b k h w
  refine Eq.trans ?_ (sum_chan_last (fun b k h w => cellWH v3 v5 b k h w))
  refine Finset.sum_congr rfl fun b _ => Finset.sum_congr rfl fun c _ => Finset.sum_congr rfl fun r _ =>
    Finset.sum_congr rfl fun l _ => ?_
  have hA : extractStridedSlice S8x2x200x128 ![0, 2, 0, 0] (k0_pay3 v3) slices_S8x5x200x128_o0_2_0_0_S8x2x200x128 (ix4 b c r l) = v3 (ix4 b (chan 2 (by omega) c) r l) :=
    (slice4_axis1_apply 2 (k0_pay3 v3) _ b c r l (chan 2 (by omega) c) rfl).trans (congrFun (pay3_eq v3) _)
  have hB : extractStridedSlice S8x2x200x128 ![0, 2, 0, 0] (k0_pay4 v5) slices_S8x5x200x128_o0_2_0_0_S8x2x200x128 (ix4 b c r l) = v5 (ix4 b (chan 2 (by omega) c) r l) :=
    (slice4_axis1_apply 2 (k0_pay4 v5) _ b c r l (chan 2 (by omega) c) rfl).trans (congrFun (pay4_eq v5) _)
  have hC : broadcastTo S8x2x200x128 (k0_pay7 v5) broadcasts_S8x1x200x128_S8x2x200x128 (ix4 b c r l) = v5 (ix4 b (4 : Fin 5) r l) :=
    (broadcastTo_chan_apply _ _ b c r l).trans (pay7_apply v5 b 0 r l)
  show ((extractStridedSlice S8x2x200x128 ![0, 2, 0, 0] (k0_pay3 v3) slices_S8x5x200x128_o0_2_0_0_S8x2x200x128 (ix4 b c r l) - extractStridedSlice S8x2x200x128 ![0, 2, 0, 0] (k0_pay4 v5) slices_S8x5x200x128_o0_2_0_0_S8x2x200x128 (ix4 b c r l))
      * (extractStridedSlice S8x2x200x128 ![0, 2, 0, 0] (k0_pay3 v3) slices_S8x5x200x128_o0_2_0_0_S8x2x200x128 (ix4 b c r l) - extractStridedSlice S8x2x200x128 ![0, 2, 0, 0] (k0_pay4 v5) slices_S8x5x200x128_o0_2_0_0_S8x2x200x128 (ix4 b c r l)))
      * broadcastTo S8x2x200x128 (k0_pay7 v5) broadcasts_S8x1x200x128_S8x2x200x128 (ix4 b c r l) = cellWH v3 v5 b c r l
  rw [hA, hB, hC]

theorem pay11_eq (j : S1x1.Idx) : k0_pay11 (k0_pay10 v5) j = blockSum v3 v5 2 := by
  unfold k0_pay11 k0_pay10
  refine (fullSum3 (.inl rfl) rfl (k0_pay6 v5) reduces_S8x200x128_S200x128 reduces_S200x128_S200 shapeCasts_S200_S200x1 reduces_S200x1_S1 shapeCasts_S1_S1x1 j).trans ?_
  exact Finset.sum_congr rfl fun b _ => Finset.sum_congr rfl fun r _ => Finset.sum_congr rfl fun l _ =>
    pay6_apply v5 b r l

theorem pay13_eq (j : S1x1.Idx) :
    k0_pay13 (k0_pay6 v5) (k0_pay12 (k0_pay5 v3) (k0_pay6 v5)) j = blockSum v3 v5 4 := by
  unfold k0_pay13
  refine (fullSum3 (.inl rfl) rfl _ reduces_S8x200x128_S200x128 reduces_S200x128_S200 shapeCasts_S200_S200x1 reduces_S200x1_S1 shapeCasts_S1_S1x1 j).trans ?_
  refine Finset.sum_congr rfl fun b _ => Finset.sum_congr rfl fun r _ => Finset.sum_congr rfl fun l _ => ?_
  have h1 : (Scalar.ofBits .f32 0x3F800000#32 : Ideal .f32) = 1 := Ideal.ofBits_one_f32
  show k0_pay12 (k0_pay5 v3) (k0_pay6 v5) (ix3 b r l)
      * ((Scalar.ofBits .f32 0x3F800000#32 : Ideal .f32) - k0_pay6 v5 (ix3 b r l)) = cellTermB v3 v5 4 b r l
  rw [h1, pay12_apply, pay6_apply]
  rfl

theorem posSum_eq (j : S1x1.Idx) :
    shapeCast S1x1 (multiReduction .add [0] S1
      (shapeCast S200x1 (multiReduction .add [1] S200
        (multiReduction .add [0] S200x128 (mulf (k0_pay12 (k0_pay5 v3) (k0_pay6 v5)) (k0_pay6 v5)) 0x00000000#32
          reduces_S8x200x128_S200x128 (.inl rfl) rfl) 0x00000000#32 reduces_S200x128_S200 (.inl rfl) rfl) shapeCasts_S200_S200x1)
      0x00000000#32 reduces_S200x1_S1 (.inl rfl) rfl) shapeCasts_S1_S1x1 j = blockSum v3 v5 3 := by
  refine (fullSum3 (.inl rfl) rfl _ reduces_S8x200x128_S200x128 reduces_S200x128_S200 shapeCasts_S200_S200x1 reduces_S200x1_S1 shapeCasts_S1_S1x1 j).trans ?_
  refine Finset.sum_congr rfl fun b _ => Finset.sum_congr rfl fun r _ => Finset.sum_congr rfl fun l _ => ?_
  show k0_pay12 (k0_pay5 v3) (k0_pay6 v5) (ix3 b r l) * k0_pay6 v5 (ix3 b r l) = cellTermB v3 v5 3 b r l
  rw [pay12_apply, pay6_apply]
  rfl

theorem pay14_apply (u : Fin 1) (i : Fin 128) :
    k0_pay14 (k0_pay6 v5) (k0_pay8 v3 v5) (k0_pay9 v3 v5) (k0_pay11 (k0_pay10 v5)) (k0_pay12 (k0_pay5 v3) (k0_pay6 v5)) (ix2 u i)
      = laneRow (blockSum v3 v5 0) (blockSum v3 v5 1) (blockSum v3 v5 2) (blockSum v3 v5 3) 0 i.val := by
  unfold k0_pay14
  refine (rowAssemble (n := 128) (by norm_num) iota_S1x128_d1_w32 shapeCasts_S1x1_S1x1 broadcasts_S1x1_S1x128
    _ _ _ _ u i).trans ?_
  rw [pay8_eq, pay9_eq, pay11_eq v3 v5, posSum_eq]

theorem step_apply (acc : Vec Ideal S1x128 .f32) (u : Fin 1) (i : Fin 128) :
    k0_pay1 (k0_pay13 (k0_pay6 v5) (k0_pay12 (k0_pay5 v3) (k0_pay6 v5)))
        (k0_pay14 (k0_pay6 v5) (k0_pay8 v3 v5) (k0_pay9 v3 v5) (k0_pay11 (k0_pay10 v5)) (k0_pay12 (k0_pay5 v3) (k0_pay6 v5)))
        k0_pay15 acc (ix2 u i)
      = acc (ix2 u i) + (if i.val < 5 then blockSum v3 v5 i.val else 0) := by
  unfold k0_pay1 k0_pay15
  refine (rowAccumulate (n := 128) (by norm_num) iota_S1x128_d1_w32 shapeCasts_S1x1_S1x1 broadcasts_S1x1_S1x128
    shapeCasts_S1x128_S1x128 _ _ acc u i).trans ?_
  rw [pay14_apply, pay13_eq, laneRow_add5, laneRow_blockSum]

end Cert.KernelIdeal.Hand.R0

end
-- ==== Proof.KR0Reg.lean ====
import proofs.«409303_j18760417149025_3_alg».proof.Proof.KR0Value
import proofs.«409303_j18760417149025_3_alg».proof.Proof.KPay0

set_option maxRecDepth 16384

noncomputable section

open scoped BigOperators

namespace Cert.KernelIdeal.Hand.R0

open Cert.KernelIdeal Cert.KernelIdeal.Gen Cert.KernelIdeal.Hand Cert.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

def rowB (x0 x1 : Vec Ideal SIN .f32) (i : S1x128.Idx) : EReal :=
  if (i 1).val < 5 then blockSum x0 x1 (i 1).val else 0

theorem hstepB (x0 x1 : Vec Ideal SIN .f32) (acc : Vec Ideal S1x128 .f32) (i : S1x128.Idx) :
    stepOf x0 x1 acc i = acc i + rowB x0 x1 i := by
  obtain ⟨u, l, rfl⟩ : ∃ (u : Fin 1) (l : Fin 128), i = ix2 u l := ⟨i 0, i 1, eq_ix2 i⟩
  exact step_apply x0 x1 acc u l

theorem blockSum_blk (c : Dev nD) (n : ℕ) (hn : n < 16) (j : ℕ) :
    blockSum (dblk V c n) (tblk V c n) j
      = ∑ b : Fin 8, ∑ h : Fin 200, ∑ w : Fin 128, cellTerm (darr V c) (tarr V c) j (brow n hn b) h w := by
  unfold blockSum
  refine Finset.sum_congr rfl fun b _ => Finset.sum_congr rfl fun h _ => Finset.sum_congr rfl fun w _ => ?_
  rw [← cellTermB_eq_cellTerm]
  exact cellTermB_congr (dblk V c n) (tblk V c n) (darr V c) (tarr V c) j b (brow n hn b) h w
    (fun ch => dblk_apply V c n hn b ch h w) (fun ch => tblk_apply V c n hn b ch h w)

theorem half_sum (c : Dev nD) (q : Fin 2) (j : ℕ) :
    ∑ s ∈ Finset.range 8, blockSum (dblk V c (8 * q.val + s)) (tblk V c (8 * q.val + s)) j
      = halfSum (darr V c) (tarr V c) q j := by
  have hq := q.isLt
  unfold halfSum
  rw [sum_blocks_fin 8 8 (by norm_num : 64 = 8 * 8) (fun r : Fin 64 => ∑ h : Fin 200, ∑ w : Fin 128, cellTerm (darr V c) (tarr V c) j (halfRow q r) h w),
    Finset.sum_range]
  refine Finset.sum_congr rfl fun s _ => ?_
  have hs := s.isLt
  rw [blockSum_blk V c (8 * q.val + s.val) (by omega) j]
  refine Finset.sum_congr rfl fun b _ => ?_
  have hb := b.isLt
  have e : brow (8 * q.val + s.val) (by omega) b = halfRow q ⟨8 * s.val + b.val, by omega⟩ := Fin.ext (by show 8 * (8 * q.val + s.val) + b.val = 64 * q.val + (8 * s.val + b.val); omega)
  rw [e]

theorem regOut_eq (c : Dev nD) : (dat V c).arrAt 2 cfg0.N = R0s (V c main_v80) (V c main_v81) := by
  refine (arr_eq V rowB hstepB c).trans ?_
  show sideBySide (halfAcc V rowB c) = R0s (darr V c) (tarr V c)
  funext i
  have hi1 : (i 1).val < 256 := idx2_lt1 i
  show halfAcc V rowB c ⟨(i 1).val / 128, _⟩ (ix2 (0 : Fin 1) ⟨(i 1).val % 128, _⟩) = regSums (H := 200) (W := 128) (darr V c) (tarr V c) i
  unfold halfAcc regSums rowB
  show (∑ s ∈ Finset.range 8, if (i 1).val % 128 < 5 then blockSum (dblk V c (8 * ((i 1).val / 128) + s)) (tblk V c (8 * ((i 1).val / 128) + s)) ((i 1).val % 128) else 0) = _
  by_cases h5 : (i 1).val % 128 < 5
  · simp only [if_pos h5]
    exact half_sum V c ⟨(i 1).val / 128, by omega⟩ ((i 1).val % 128)
  · simp only [if_neg h5, Finset.sum_const_zero]

end Cert.KernelIdeal.Hand.R0

end
-- ==== Proof.KR1Row.lean ====
import proofs.«409303_j18760417149025_3_alg».proof.Proof.Gen.KernelIdeal.Launch
import proofs.«409303_j18760417149025_3_alg».proof.Proof.Gen.KernelIdeal.Skeleton
import proofs.«409303_j18760417149025_3_alg».proof.Proof.Gen.KernelIdeal.Points
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

abbrev zrow : FVec F S1x128 .f32 := broadcast S1x128 (Scalar.ofBits .f32 0x00000000#32)

def stepOf (x0 x1 : Vec F S32x5x50x128 .f32) (acc : Vec F S1x128 .f32) : FVec F S1x128 .f32 :=
  k1_pay1 (k1_pay13 (k1_pay6 x1) (k1_pay12 (k1_pay5 x0) (k1_pay6 x1)))
    (k1_pay14 (k1_pay6 x1) (k1_pay8 x0 x1) (k1_pay9 x0 x1) (k1_pay11 (k1_pay10 x1)) (k1_pay12 (k1_pay5 x0) (k1_pay6 x1)))
    k1_pay15 acc

theorem pay2_eq : (k1_pay2 : FVec F S1x128 .f32) = zrow := by
  unfold k1_pay2
  simp only [shapeCast_self]

theorem zrow_apply (i : S1x128.Idx) : (zrow : FVec Ideal S1x128 .f32) i = 0 := Ideal.ofBits_zero_f32

theorem fold_sum (row : Vec Ideal S32x5x50x128 .f32 → Vec Ideal S32x5x50x128 .f32 → S1x128.Idx → EReal)
    (hstep : ∀ (x0 x1 : Vec Ideal S32x5x50x128 .f32) (acc : Vec Ideal S1x128 .f32) (i : S1x128.Idx),
      stepOf x0 x1 acc i = acc i + row x0 x1 i)
    {N : ℕ} (f : (n : ℕ) → n < N → Vec Ideal S1x128 .f32) (b0 b1 : ℕ → Vec Ideal S32x5x50x128 .f32)
    (hA : ∀ (n : ℕ) (h : n < N), n % 2 = 0 → f n h = stepOf (b0 n) (b1 n) (zrow (F := Ideal)))
    (hS : ∀ (n : ℕ) (h : n + 1 < N), ¬(n + 1) % 2 = 0 → f (n + 1) h = stepOf (b0 (n + 1)) (b1 (n + 1)) (f n (Nat.lt_of_succ_lt h)))
    (t : ℕ) (ht : t < N) (i : S1x128.Idx) :
    f t ht i = ∑ s ∈ Finset.range (t % 2 + 1), row (b0 (2 * (t / 2) + s)) (b1 (2 * (t / 2) + s)) i := by
  have h' : 2 * (t / 2) + t % 2 < N := by have := Nat.div_add_mod t 2; omega
  rw [Pipeline.eq_accAt_of_mod f 2 (fun n _ => stepOf (b0 n) (b1 n) (zrow (F := Ideal))) (fun n _ acc => stepOf (b0 n) (b1 n) acc)
    hA hS (by decide) t ht h']
  rw [Pipeline.accAt_add_apply (fun n _ => stepOf (b0 n) (b1 n) (zrow (F := Ideal))) (fun n _ acc => stepOf (b0 n) (b1 n) acc)
    (fun _ => (0 : EReal)) (fun n i => row (b0 n) (b1 n) i) (2 * (t / 2)) (t % 2)
    (fun _ i => by rw [hstep, zrow_apply]) (fun n _ acc i _ _ => hstep _ _ acc i) (t % 2) (Nat.le_refl _) h' i, zero_add]

theorem idx_2 : ∀ t : Fin cfg1.N, win1_2.index t (0 : Fin 2) = 0 ∧ win1_2.index t (1 : Fin 2) = t.val / 2 :=
  (by decide +kernel : ∀ t : Fin grid1.N, win1_2.index t (0 : Fin 2) = 0 ∧ win1_2.index t (1 : Fin 2) = t.val / 2)

def sideBySide (S : Fin 2 → Vec F S1x128 .f32) : Vec F S1x256 .f32 :=
  fun i => S ⟨(i 1).val / 128, by have := idx2_lt1 i; omega⟩ (ix2 (0 : Fin 1) ⟨(i 1).val % 128, Nat.mod_lt _ (by decide)⟩)

abbrev halfOf (t : Fin cfg1.N) : Fin 2 := ⟨t.val / 2, by have := lt_of_lt_of_eq t.isLt (show cfg1.N = 4 from N_1); omega⟩

theorem mem_blk_2 (t : Fin cfg1.N) (i : S1x256.Idx) :
    i ∈ ((cfg1.win 2).blk t).view.set ↔ ∀ a : Fin 2, win1_2.index t a * S1x128.size a ≤ (i a).val ∧ (i a).val < win1_2.index t a * S1x128.size a + S1x128.size a := by
  show i ∈ ((View.whole main_v202).slice (win1_2.rect t)).set ↔ _
  rw [View.set_slice_whole, Rect.mem_set_unit]
  exact Iff.rfl

theorem arr_of_halves {c : Dev nD} (dat : Dat τ (Elt F) Unit ℕ (UR sig nD τ) ℕ cfg1 c) (S : Fin 2 → Vec F S1x128 .f32)
    (hS : ∀ t : Fin cfg1.N, t.val % 2 = 1 → dat.after 2 t = S (halfOf t)) :
    dat.arrAt 2 cfg1.N = sideBySide S := by
  have hN : cfg1.N = 4 := N_1
  refine dat.arrAt_eq_of_cover 2 (sideBySide S) (fun t hf => ?_) (fun i => ?_)
  · have h7 : t.val % 2 = 1 := (flush1_2 t).mp hf
    show (cfg1.win 2).cut (grid1.coords t) (dat.after 2 t) = _
    rw [hS t h7]
    obtain ⟨e0, e1⟩ := idx_2 t
    funext j
    rw [View.read_apply]
    have hj0 : (j 0).val < 1 := (j 0).isLt
    have hj1 : (j 1).val < 128 := (j 1).isLt
    have hemb : ((((cfg1.win 2).blk t).view.emb j) 1).val = t.val / 2 * 128 + (j 1).val := by
      show win1_2.index t (1 : Fin 2) * 128 + 1 * (j 1).val = _
      rw [e1]; omega
    show S (halfOf t) (win1_2.xinj (grid1.coords t) j) = S ⟨((((cfg1.win 2).blk t).view.emb j) 1).val / 128, _⟩ (ix2 (0 : Fin 1) ⟨((((cfg1.win 2).blk t).view.emb j) 1).val % 128, _⟩)
    have hq : ((((cfg1.win 2).blk t).view.emb j) 1).val / 128 = t.val / 2 := by rw [hemb]; omega
    have hr : ((((cfg1.win 2).blk t).view.emb j) 1).val % 128 = (j 1).val := by rw [hemb]; omega
    congr 1
    · exact Fin.ext hq.symm
    · funext a
      apply Fin.ext
      match a with
      | ⟨0, _⟩ => show (j 0).val = 0; omega
      | ⟨1, _⟩ => show (j 1).val = ((((cfg1.win 2).blk t).view.emb j) 1).val % 128; exact hr.symm
  · have hi0 : (i 0).val < 1 := (i 0).isLt
    have hi1 : (i 1).val < 256 := (i 1).isLt
    refine ⟨⟨2 * ((i 1).val / 128) + 1, by omega⟩, (flush1_2 _).mpr (by show (2 * ((i 1).val / 128) + 1) % 2 = 1; omega), ?_⟩
    rw [mem_blk_2]
    obtain ⟨e0, e1⟩ := idx_2 ⟨2 * ((i 1).val / 128) + 1, by omega⟩
    intro a
    match a with
    | ⟨0, _⟩ =>
      show win1_2.index _ (0 : Fin 2) * 1 ≤ (i 0).val ∧ (i 0).val < win1_2.index _ (0 : Fin 2) * 1 + 1
      rw [e0]; omega
    | ⟨1, _⟩ =>
      show win1_2.index _ (1 : Fin 2) * 128 ≤ (i 1).val ∧ (i 1).val < win1_2.index _ (1 : Fin 2) * 128 + 128
      rw [e1]; show (2 * ((i 1).val / 128) + 1) / 2 * 128 ≤ (i 1).val ∧ (i 1).val < (2 * ((i 1).val / 128) + 1) / 2 * 128 + 128
      omega

end Cert.KernelIdeal.Hand.R1

end
-- ==== Proof.KR1Blk.lean ====
import proofs.«409303_j18760417149025_3_alg».proof.Proof.KR1Runs
import Idealize.ShloMosaic.Lib.ValueIdx
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

abbrev darr (c : Dev nD) : Vec F S128x5x50x128 .f32 := V c main_v200
abbrev tarr (c : Dev nD) : Vec F S128x5x50x128 .f32 := V c main_v201

theorem idx_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, win1_0.index t (0 : Fin 4) = t.val ∧ win1_0.index t (1 : Fin 4) = 0 ∧ win1_0.index t (2 : Fin 4) = 0 ∧ win1_0.index t (3 : Fin 4) = 0)
theorem idx_1 : ∀ t : Fin cfg1.N, win1_1.index t (0 : Fin 4) = t.val ∧ win1_1.index t (1 : Fin 4) = 0 ∧ win1_1.index t (2 : Fin 4) = 0 ∧ win1_1.index t (3 : Fin 4) = 0 :=
  (by decide +kernel : ∀ t : Fin grid1.N, win1_1.index t (0 : Fin 4) = t.val ∧ win1_1.index t (1 : Fin 4) = 0 ∧ win1_1.index t (2 : Fin 4) = 0 ∧ win1_1.index t (3 : Fin 4) = 0)

abbrev brow (n : ℕ) (hn : n < 4) (b : Fin 32) : Fin 128 := ⟨32 * n + b.val, by have := b.isLt; omega⟩

theorem iblk0_apply (c : Dev nD) (t : Fin cfg1.N) (b : Fin 32) (ch : Fin 5) (r : Fin 50) (l : Fin 128) :
    (iblk V c 0 t : Vec F S32x5x50x128 .f32) (ix4 b ch r l)
      = darr V c (ix4 (brow t.val (lt_of_lt_of_eq t.isLt N_1) b) ch r l) := by
  obtain ⟨e0, e1, e2, e3⟩ := idx_0 t
  unfold iblk
  rw [View.read_apply]
  show V c main_v200 _ = V c main_v200 _
  congr 1
  funext a
  apply Fin.ext
  match a with
  | ⟨0, _⟩ => show win1_0.index t (0 : Fin 4) * 32 + 1 * b.val = 32 * t.val + b.val; rw [e0]; omega
  | ⟨1, _⟩ => show win1_0.index t (1 : Fin 4) * 5 + 1 * ch.val = ch.val; rw [e1]; omega
  | ⟨2, _⟩ => show win1_0.index t (2 : Fin 4) * 50 + 1 * r.val = r.val; rw [e2]; omega
  | ⟨3, _⟩ => show win1_0.index t (3 : Fin 4) * 128 + 1 * l.val = l.val; rw [e3]; omega

theorem iblk1_apply (c : Dev nD) (t : Fin cfg1.N) (b : Fin 32) (ch : Fin 5) (r : Fin 50) (l : Fin 128) :
    (iblk V c 1 t : Vec F S32x5x50x128 .f32) (ix4 b ch r l)
      = tarr V c (ix4 (brow t.val (lt_of_lt_of_eq t.isLt N_1) b) ch r l) := by
  obtain ⟨e0, e1, e2, e3⟩ := idx_1 t
  unfold iblk
  rw [View.read_apply]
  show V c main_v201 _ = V c main_v201 _
  congr 1
  funext a
  apply Fin.ext
  match a with
  | ⟨0, _⟩ => show win1_1.index t (0 : Fin 4) * 32 + 1 * b.val = 32 * t.val + b.val; rw [e0]; omega
  | ⟨1, _⟩ => show win1_1.index t (1 : Fin 4) * 5 + 1 * ch.val = ch.val; rw [e1]; omega
  | ⟨2, _⟩ => show win1_1.index t (2 : Fin 4) * 50 + 1 * r.val = r.val; rw [e2]; omega
  | ⟨3, _⟩ => show win1_1.index t (3 : Fin 4) * 128 + 1 * l.val = l.val; rw [e3]; omega

def dblk (c : Dev nD) (n : ℕ) : Vec F S32x5x50x128 .f32 :=
  if h : n < cfg1.N then iblk V c 0 ⟨n, h⟩ else broadcast S32x5x50x128 (Scalar.ofBits .f32 0x00000000#32)
def tblk (c : Dev nD) (n : ℕ) : Vec F S32x5x50x128 .f32 :=
  if h : n < cfg1.N then iblk V c 1 ⟨n, h⟩ else broadcast S32x5x50x128 (Scalar.ofBits .f32 0x00000000#32)

theorem dblk_of_lt (c : Dev nD) (n : ℕ) (h : n < cfg1.N) : dblk V c n = iblk V c 0 ⟨n, h⟩ := dif_pos h
theorem tblk_of_lt (c : Dev nD) (n : ℕ) (h : n < cfg1.N) : tblk V c n = iblk V c 1 ⟨n, h⟩ := dif_pos h

theorem dblk_apply (c : Dev nD) (n : ℕ) (hn : n < 4) (b : Fin 32) (ch : Fin 5) (r : Fin 50) (l : Fin 128) :
    dblk V c n (ix4 b ch r l) = darr V c (ix4 (brow n hn b) ch r l) := by
  rw [dblk_of_lt V c n (lt_of_lt_of_eq hn N_1.symm)]
  exact iblk0_apply V c ⟨n, lt_of_lt_of_eq hn N_1.symm⟩ b ch r l
theorem tblk_apply (c : Dev nD) (n : ℕ) (hn : n < 4) (b : Fin 32) (ch : Fin 5) (r : Fin 50) (l : Fin 128) :
    tblk V c n (ix4 b ch r l) = tarr V c (ix4 (brow n hn b) ch r l) := by
  rw [tblk_of_lt V c n (lt_of_lt_of_eq hn N_1.symm)]
  exact iblk1_apply V c ⟨n, lt_of_lt_of_eq hn N_1.symm⟩ b ch r l

end Cert.KernelIdeal.Hand.R1

end
-- ==== Proof.KR1Value.lean ====
import proofs.«409303_j18760417149025_3_alg».proof.Proof.KR1Dat
import proofs.«409303_j18760417149025_3_alg».proof.Proof.KR1Row
import proofs.«409303_j18760417149025_3_alg».proof.Proof.KR1Blk

set_option maxRecDepth 16384

noncomputable section

namespace Cert.KernelIdeal.Hand.R1

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

theorem soutA_eq (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : cond1_0 i) (hc1 : ¬cond1_1 i) (x0 x1 : Vec F S32x5x50x128 .f32) :
    sout1_A_0 c i arg2 harg2 arg3 harg3 arg4 harg4 arg5 harg5 hc0 hc1 x0 x1 = stepOf x0 x1 zrow := by
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1x128) hz2]
  unfold stepOf
  simp only [View.readAt_eq_ld, harg2.read_unread, harg3.read_unread, View.ld_unit_zero (S := S32x5x50x128) hz4,
    View.readCov_unit_zero (S := S1x128) _ hz2, shapeCast_self, pay2_eq]

theorem soutC_eq (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 x1 : Vec F S32x5x50x128 .f32) (xs : Vec F S1x128 .f32) :
    sout1_C_0 c i arg2 harg2 arg3 harg3 arg4 harg4 arg5 harg5 hc0 hc1 x0 x1 xs = stepOf x0 x1 xs := by
  unfold sout1_C_0
  rw [View.read_writes_eq_canon _ _ _ (scover1_C_0 c i arg2 harg2 arg3 harg3 arg4 harg4 arg5 harg5 hc0 hc1 x0 x1 xs)]
  unfold kernelRun1_C
  dsimp only
  sl_unfold_words
  rw [View.canon_unit_zero hz2]
  unfold stepOf
  simp only [View.readAt_eq_ld, harg2.read_unread, harg3.read_unread, harg5.read_unread, View.ld_unit_zero (S := S32x5x50x128) hz4,
    View.ld_unit_zero (S := S1x128) hz2, shapeCast_self]

theorem outC_eq (c : Dev nD) (i : grid1.Coords) (arg2 : Memref sig .tc .vmem S32x5x50x128 .f32) (harg2 : arg2.IsWhole) (arg3 : Memref sig .tc .vmem S32x5x50x128 .f32) (harg3 : arg3.IsWhole) (arg4 : Memref sig .tc .vmem S1x128 .f32) (harg4 : arg4.IsWhole) (arg5 : Memref sig .tc .vmem S1x128 .f32) (harg5 : arg5.IsWhole) (hc0 : ¬cond1_0 i) (hc1 : cond1_1 i) (x0 x1 : Vec F S32x5x50x128 .f32) (xs : Vec F S1x128 .f32) :
    out1_C_2 c i arg2 harg2 arg3 harg3 arg4 harg4 arg5 harg5 hc0 hc1 x0 x1 xs = stepOf x0 x1 xs := by
  unfold out1_C_2
  rw [View.read_writes_eq_canon _ _ _ (cover1_C_2 c i arg2 harg2 arg3 harg3 arg4 harg4 arg5 harg5 hc0 hc1 x0 x1 xs)]
  unfold kernelRun1_C
  dsimp only
  sl_unfold_words
  rw [View.canon_unit_zero hz2]
  unfold stepOf
  simp only [View.readAt_eq_ld, harg2.read_unread, harg3.read_unread, harg5.read_unread, View.ld_unit_zero (S := S32x5x50x128) hz4,
    View.ld_unit_zero (S := S1x128) hz2, View.readCov_unit_zero (S := S1x128) _ hz2, shapeCast_self]

section Points
variable (V : (c : Dev nD) → (b : Ref sig .tc) → Buf (Elt F) ((c : Thread nD τ).loc b))

theorem scr_A (c : Dev nD) (n : ℕ) (h : n < cfg1.N) (h0 : n % 2 = 0) :
    (outsAt1 V c n h).2 = stepOf (dblk V c n) (tblk V c n) zrow := by
  rw [outsAt1_A V c (⟨n, h⟩ : Fin cfg1.N) h0, dblk_of_lt V c n h, tblk_of_lt V c n h]
  unfold atA
  dsimp only
  exact soutA_eq c (grid1.coords (⟨n, h⟩ : Fin cfg1.N)) (ms1_0 (⟨n, h⟩ : Fin cfg1.N)) (hs1_0 (⟨n, h⟩ : Fin cfg1.N)) (ms1_1 (⟨n, h⟩ : Fin cfg1.N)) (hs1_1 (⟨n, h⟩ : Fin cfg1.N)) (ms1_2 (⟨n, h⟩ : Fin cfg1.N)) (hs1_2 (⟨n, h⟩ : Fin cfg1.N)) scM1_0 (Memref.isWhole_whole _) (c0_of_even (⟨n, h⟩ : Fin cfg1.N) h0) (nc1_of_even (⟨n, h⟩ : Fin cfg1.N) h0) (iblk V c 0 (⟨n, h⟩ : Fin cfg1.N)) (iblk V c 1 (⟨n, h⟩ : Fin cfg1.N))

theorem scr_S (c : Dev nD) (n : ℕ) (h : n + 1 < cfg1.N) (h0 : ¬(n + 1) % 2 = 0) :
    (outsAt1 V c (n + 1) h).2 = stepOf (dblk V c (n + 1)) (tblk V c (n + 1)) (outsAt1 V c n (Nat.lt_of_succ_lt h)).2 := by
  rw [dblk_of_lt V c (n + 1) h, tblk_of_lt V c (n + 1) h, outsAt1_C V c (⟨n + 1, h⟩ : Fin cfg1.N) h0]
  unfold atC
  dsimp only
  exact soutC_eq c (grid1.coords (⟨n + 1, h⟩ : Fin cfg1.N)) (ms1_0 (⟨n + 1, h⟩ : Fin cfg1.N)) (hs1_0 (⟨n + 1, h⟩ : Fin cfg1.N)) (ms1_1 (⟨n + 1, h⟩ : Fin cfg1.N)) (hs1_1 (⟨n + 1, h⟩ : Fin cfg1.N)) (ms1_2 (⟨n + 1, h⟩ : Fin cfg1.N)) (hs1_2 (⟨n + 1, h⟩ : Fin cfg1.N)) scM1_0 (Memref.isWhole_whole _) (nc0_of_odd (⟨n + 1, h⟩ : Fin cfg1.N) h0) (c1_of_odd (⟨n + 1, h⟩ : Fin cfg1.N) h0) (iblk V c 0 (⟨n + 1, h⟩ : Fin cfg1.N)) (iblk V c 1 (⟨n + 1, h⟩ : Fin cfg1.N)) (outsAt1 V c n (Nat.lt_of_succ_lt h)).2

theorem out_last (c : Dev nD) (t : Fin cfg1.N) (h0 : ¬t.val % 2 = 0) :
    (outsAt1 V c t.val t.isLt).1 = (outsAt1 V c t.val t.isLt).2 := by
  rw [outsAt1_C V c t h0]
  unfold atC
  dsimp only
  exact (outC_eq c (grid1.coords t) (ms1_0 t) (hs1_0 t) (ms1_1 t) (hs1_1 t) (ms1_2 t) (hs1_2 t) scM1_0 (Memref.isWhole_whole _) (nc0_of_odd t h0) (c1_of_odd t h0) (iblk V c 0 t) (iblk V c 1 t) (outsAt1 V c (t.val - 1) (Nat.lt_of_le_of_lt (Nat.sub_le _ _) t.isLt)).2).trans
    (soutC_eq c (grid1.coords t) (ms1_0 t) (hs1_0 t) (ms1_1 t) (hs1_1 t) (ms1_2 t) (hs1_2 t) scM1_0 (Memref.isWhole_whole _) (nc0_of_odd t h0) (c1_of_odd t h0) (iblk V c 0 t) (iblk V c 1 t) (outsAt1 V c (t.val - 1) (Nat.lt_of_le_of_lt (Nat.sub_le _ _) t.isLt)).2).symm

end Points

section Sums
variable (V : (c : Dev nD) → (b : Ref sig .tc) → Buf (Elt Ideal) ((c : Thread nD τ).loc b))
variable (row : Vec Ideal S32x5x50x128 .f32 → Vec Ideal S32x5x50x128 .f32 → S1x128.Idx → EReal)

abbrev StepAdds : Prop :=
  ∀ (x0 x1 : Vec Ideal S32x5x50x128 .f32) (acc : Vec Ideal S1x128 .f32) (i : S1x128.Idx), stepOf x0 x1 acc i = acc i + row x0 x1 i

theorem scratch_sum (hstep : StepAdds row) (c : Dev nD) (t : Fin cfg1.N) (i : S1x128.Idx) :
    (outsAt1 V c t.val t.isLt).2 i
      = ∑ s ∈ Finset.range (t.val % 2 + 1), row (dblk V c (2 * (t.val / 2) + s)) (tblk V c (2 * (t.val / 2) + s)) i :=
  fold_sum row hstep (fun n h => (outsAt1 V c n h).2) (dblk V c) (tblk V c) (scr_A V c) (scr_S V c) t.val t.isLt i

def halfAcc (c : Dev nD) (q : Fin 2) : Vec Ideal S1x128 .f32 :=
  fun i => ∑ s ∈ Finset.range 2, row (dblk V c (2 * q.val + s)) (tblk V c (2 * q.val + s)) i

theorem after_last (hstep : StepAdds row) (c : Dev nD) (t : Fin cfg1.N) (h1 : t.val % 2 = 1) :
    (dat V c).after 2 t = halfAcc V row c (halfOf t) := by
  rw [after1_2, out_last V c t (by omega)]
  funext i
  rw [scratch_sum V row hstep c t i, h1]
  rfl

theorem arr_eq (hstep : StepAdds row) (c : Dev nD) : (dat V c).arrAt 2 cfg1.N = sideBySide (halfAcc V row c) :=
  arr_of_halves (dat V c) (halfAcc V row c) (after_last V row hstep c)

end Sums

end Cert.KernelIdeal.Hand.R1

end
-- ==== Proof.KPay1.lean ====
import proofs.«409303_j18760417149025_3_alg».proof.Proof.Gen.KernelIdeal.Skeleton
import proofs.«409303_j18760417149025_3_alg».proof.Proof.LibFullSum
import proofs.«409303_j18760417149025_3_alg».proof.Proof.LibBlockOps
import proofs.«409303_j18760417149025_3_alg».proof.Proof.LibLaneRow
import proofs.«409303_j18760417149025_3_alg».proof.Proof.LibSums
import proofs.«409303_j18760417149025_3_alg».proof.Proof.KCell

noncomputable section

open scoped BigOperators

namespace Cert.KernelIdeal.Hand.R1

open Idealize.ShloMosaic Idealize.ShloMosaic.ValueIdx Cert.KernelIdeal Cert.KernelIdeal.Gen Cert.Hand Cert.KernelIdeal.Hand

variable (v3 v5 : Vec Ideal S32x5x50x128 .f32)

theorem pay3_eq : k1_pay3 v3 = v3 := shapeCast_self v3 _
theorem pay4_eq : k1_pay4 v5 = v5 := shapeCast_self v5 _

theorem pay5_apply (b : Fin 32) (r : Fin 50) (l : Fin 128) : k1_pay5 v3 (ix3 b r l) = v3 (ix4 b (4 : Fin 5) r l) := by
  unfold k1_pay5
  refine (shapeCast_dropChan_apply _ _ b r l).trans ?_
  refine (slice4_axis1_apply 4 (k1_pay3 v3) _ b (0 : Fin 1) r l (4 : Fin 5) rfl).trans ?_
  rw [pay3_eq]

theorem pay6_apply (b : Fin 32) (r : Fin 50) (l : Fin 128) : k1_pay6 v5 (ix3 b r l) = v5 (ix4 b (4 : Fin 5) r l) := by
  unfold k1_pay6
  refine (shapeCast_dropChan_apply _ _ b r l).trans ?_
  refine (slice4_axis1_apply 4 (k1_pay4 v5) _ b (0 : Fin 1) r l (4 : Fin 5) rfl).trans ?_
  rw [pay4_eq]

theorem pay7_apply (b : Fin 32) (u : Fin 1) (r : Fin 50) (l : Fin 128) :
    k1_pay7 v5 (ix4 b u r l) = v5 (ix4 b (4 : Fin 5) r l) := by
  unfold k1_pay7
  exact (shapeCast_addChan_apply _ _ b u r l).trans (pay6_apply v5 b r l)

theorem pay12_apply (b : Fin 32) (r : Fin 50) (l : Fin 128) :
    k1_pay12 (k1_pay5 v3) (k1_pay6 v5) (ix3 b r l) = kFlossS (v3 (ix4 b (4 : Fin 5) r l)) (v5 (ix4 b (4 : Fin 5) r l)) := by
  rw [← pay5_apply v3 b r l, ← pay6_apply v5 b r l]
  rfl

theorem pay8_eq (j : S1x1.Idx) : k1_pay8 v3 v5 j = blockSum v3 v5 0 := by
  unfold k1_pay8
  refine (fullSum4 (.inl rfl) rfl _ reduces_S32x2x50x128_S2x50x128 reduces_S2x50x128_S50x128 reduces_S50x128_S50 shapeCasts_S50_S50x1 reduces_S50x1_S1 shapeCasts_S1_S1x1 j).trans ?_
  show _ = ∑ b : Fin 32, ∑ h : Fin 50, ∑ w : Fin 128, ∑ k : Fin 2, cellXY v3 v5 b k h w
  refine Eq.trans ?_ (sum_chan_last (fun b k h w => cellXY v3 v5 b k h w))
  refine Finset.sum_congr rfl fun b _ => Finset.sum_congr rfl fun c _ => Finset.sum_congr rfl fun r _ =>
    Finset.sum_congr rfl fun l _ => ?_
  have hA : extractStridedSlice S32x2x50x128 ![0, 0, 0, 0] (k1_pay3 v3) slices_S32x5x50x128_o0_0_0_0_S32x2x50x128 (ix4 b c r l) = v3 (ix4 b (chan 0 (by omega) c) r l) :=
    (slice4_axis1_apply 0 (k1_pay3 v3) _ b c r l (chan 0 (by omega) c) rfl).trans (congrFun (pay3_eq v3) _)
  have hB : extractStridedSlice S32x2x50x128 ![0, 0, 0, 0] (k1_pay4 v5) slices_S32x5x50x128_o0_0_0_0_S32x2x50x128 (ix4 b c r l) = v5 (ix4 b (chan 0 (by omega) c) r l) :=
    (slice4_axis1_apply 0 (k1_pay4 v5) _ b c r l (chan 0 (by omega) c) rfl).trans (congrFun (pay4_eq v5) _)
  have hC : broadcastTo S32x2x50x128 (k1_pay7 v5) broadcasts_S32x1x50x128_S32x2x50x128 (ix4 b c r l) = v5 (ix4 b (4 : Fin 5) r l) :=
    (broadcastTo_chan_apply _ _ b c r l).trans (pay7_apply v5 b 0 r l)
  show ((Ideal.logistic (extractStridedSlice S32x2x50x128 ![0, 0, 0, 0] (k1_pay3 v3) slices_S32x5x50x128_o0_0_0_0_S32x2x50x128 (ix4 b c r l)) - extractStridedSlice S32x2x50x128 ![0, 0, 0, 0] (k1_pay4 v5) slices_S32x5x50x128_o0_0_0_0_S32x2x50x128 (ix4 b c r l))
      * (Ideal.logistic (extractStridedSlice S32x2x50x128 ![0, 0, 0, 0] (k1_pay3 v3) slices_S32x5x50x128_o0_0_0_0_S32x2x50x128 (ix4 b c r l)) - extractStridedSlice S32x2x50x128 ![0, 0, 0, 0] (k1_pay4 v5) slices_S32x5x50x128_o0_0_0_0_S32x2x50x128 (ix4 b c r l)))
      * broadcastTo S32x2x50x128 (k1_pay7 v5) broadcasts_S32x1x50x128_S32x2x50x128 (ix4 b c r l) = cellXY v3 v5 b c r l
  rw [hA, hB, hC]

theorem pay9_eq (j : S1x1.Idx) : k1_pay9 v3 v5 j = blockSum v3 v5 1 := by
  unfold k1_pay9
  refine (fullSum4 (.inl rfl) rfl _ reduces_S32x2x50x128_S2x50x128 reduces_S2x50x128_S50x128 reduces_S50x128_S50 shapeCasts_S50_S50x1 reduces_S50x1_S1 shapeCasts_S1_S1x1 j).trans ?_
  show _ = ∑ b : Fin 32, ∑ h : Fin 50, ∑ w : Fin 128, ∑ k : Fin 2, cellWH v3 v5 b k h w
  refine Eq.trans ?_ (sum_chan_last (fun b k h w => cellWH v3 v5 b k h w))
  refine Finset.sum_congr rfl fun b _ => Finset.sum_congr rfl fun c _ => Finset.sum_congr rfl fun r _ =>
    Finset.sum_congr rfl fun l _ => ?_
  have hA : extractStridedSlice S32x2x50x128 ![0, 2, 0, 0] (k1_pay3 v3) slices_S32x5x50x128_o0_2_0_0_S32x2x50x128 (ix4 b c r l) = v3 (ix4 b (chan 2 (by omega) c) r l) :=
    (slice4_axis1_apply 2 (k1_pay3 v3) _ b c r l (chan 2 (by omega) c) rfl).trans (congrFun (pay3_eq v3) _)
  have hB : extractStridedSlice S32x2x50x128 ![0, 2, 0, 0] (k1_pay4 v5) slices_S32x5x50x128_o0_2_0_0_S32x2x50x128 (ix4 b c r l) = v5 (ix4 b (chan 2 (by omega) c) r l) :=
    (slice4_axis1_apply 2 (k1_pay4 v5) _ b c r l (chan 2 (by omega) c) rfl).trans (congrFun (pay4_eq v5) _)
  have hC : broadcastTo S32x2x50x128 (k1_pay7 v5) broadcasts_S32x1x50x128_S32x2x50x128 (ix4 b c r l) = v5 (ix4 b (4 : Fin 5) r l) :=
    (broadcastTo_chan_apply _ _ b c r l).trans (pay7_apply v5 b 0 r l)
  show ((extractStridedSlice S32x2x50x128 ![0, 2, 0, 0] (k1_pay3 v3) slices_S32x5x50x128_o0_2_0_0_S32x2x50x128 (ix4 b c r l) - extractStridedSlice S32x2x50x128 ![0, 2, 0, 0] (k1_pay4 v5) slices_S32x5x50x128_o0_2_0_0_S32x2x50x128 (ix4 b c r l))
      * (extractStridedSlice S32x2x50x128 ![0, 2, 0, 0] (k1_pay3 v3) slices_S32x5x50x128_o0_2_0_0_S32x2x50x128 (ix4 b c r l) - extractStridedSlice S32x2x50x128 ![0, 2, 0, 0] (k1_pay4 v5) slices_S32x5x50x128_o0_2_0_0_S32x2x50x128 (ix4 b c r l)))
      * broadcastTo S32x2x50x128 (k1_pay7 v5) broadcasts_S32x1x50x128_S32x2x50x128 (ix4 b c r l) = cellWH v3 v5 b c r l
  rw [hA, hB, hC]

theorem pay11_eq (j : S1x1.Idx) : k1_pay11 (k1_pay10 v5) j = blockSum v3 v5 2 := by
  unfold k1_pay11 k1_pay10
  refine (fullSum3 (.inl rfl) rfl (k1_pay6 v5) reduces_S32x50x128_S50x128 reduces_S50x128_S50 shapeCasts_S50_S50x1 reduces_S50x1_S1 shapeCasts_S1_S1x1 j).trans ?_
  exact Finset.sum_congr rfl fun b _ => Finset.sum_congr rfl fun r _ => Finset.sum_congr rfl fun l _ =>
    pay6_apply v5 b r l

theorem pay13_eq (j : S1x1.Idx) :
    k1_pay13 (k1_pay6 v5) (k1_pay12 (k1_pay5 v3) (k1_pay6 v5)) j = blockSum v3 v5 4 := by
  unfold k1_pay13
  refine (fullSum3 (.inl rfl) rfl _ reduces_S32x50x128_S50x128 reduces_S50x128_S50 shapeCasts_S50_S50x1 reduces_S50x1_S1 shapeCasts_S1_S1x1 j).trans ?_
  refine Finset.sum_congr rfl fun b _ => Finset.sum_congr rfl fun r _ => Finset.sum_congr rfl fun l _ => ?_
  have h1 : (Scalar.ofBits .f32 0x3F800000#32 : Ideal .f32) = 1 := Ideal.ofBits_one_f32
  show k1_pay12 (k1_pay5 v3) (k1_pay6 v5) (ix3 b r l)
      * ((Scalar.ofBits .f32 0x3F800000#32 : Ideal .f32) - k1_pay6 v5 (ix3 b r l)) = cellTermB v3 v5 4 b r l
  rw [h1, pay12_apply, pay6_apply]
  rfl

theorem posSum_eq (j : S1x1.Idx) :
    shapeCast S1x1 (multiReduction .add [0] S1
      (shapeCast S50x1 (multiReduction .add [1] S50
        (multiReduction .add [0] S50x128 (mulf (k1_pay12 (k1_pay5 v3) (k1_pay6 v5)) (k1_pay6 v5)) 0x00000000#32
          reduces_S32x50x128_S50x128 (.inl rfl) rfl) 0x00000000#32 reduces_S50x128_S50 (.inl rfl) rfl) shapeCasts_S50_S50x1)
      0x00000000#32 reduces_S50x1_S1 (.inl rfl) rfl) shapeCasts_S1_S1x1 j = blockSum v3 v5 3 := by
  refine (fullSum3 (.inl rfl) rfl _ reduces_S32x50x128_S50x128 reduces_S50x128_S50 shapeCasts_S50_S50x1 reduces_S50x1_S1 shapeCasts_S1_S1x1 j).trans ?_
  refine Finset.sum_congr rfl fun b _ => Finset.sum_congr rfl fun r _ => Finset.sum_congr rfl fun l _ => ?_
  show k1_pay12 (k1_pay5 v3) (k1_pay6 v5) (ix3 b r l) * k1_pay6 v5 (ix3 b r l) = cellTermB v3 v5 3 b r l
  rw [pay12_apply, pay6_apply]
  rfl

theorem pay14_apply (u : Fin 1) (i : Fin 128) :
    k1_pay14 (k1_pay6 v5) (k1_pay8 v3 v5) (k1_pay9 v3 v5) (k1_pay11 (k1_pay10 v5)) (k1_pay12 (k1_pay5 v3) (k1_pay6 v5)) (ix2 u i)
      = laneRow (blockSum v3 v5 0) (blockSum v3 v5 1) (blockSum v3 v5 2) (blockSum v3 v5 3) 0 i.val := by
  unfold k1_pay14
  refine (rowAssemble (n := 128) (by norm_num) iota_S1x128_d1_w32 shapeCasts_S1x1_S1x1 broadcasts_S1x1_S1x128
    _ _ _ _ u i).trans ?_
  rw [pay8_eq, pay9_eq, pay11_eq v3 v5, posSum_eq]

theorem step_apply (acc : Vec Ideal S1x128 .f32) (u : Fin 1) (i : Fin 128) :
    k1_pay1 (k1_pay13 (k1_pay6 v5) (k1_pay12 (k1_pay5 v3) (k1_pay6 v5)))
        (k1_pay14 (k1_pay6 v5) (k1_pay8 v3 v5) (k1_pay9 v3 v5) (k1_pay11 (k1_pay10 v5)) (k1_pay12 (k1_pay5 v3) (k1_pay6 v5)))
        k1_pay15 acc (ix2 u i)
      = acc (ix2 u i) + (if i.val < 5 then blockSum v3 v5 i.val else 0) := by
  unfold k1_pay1 k1_pay15
  refine (rowAccumulate (n := 128) (by norm_num) iota_S1x128_d1_w32 shapeCasts_S1x1_S1x1 broadcasts_S1x1_S1x128
    shapeCasts_S1x128_S1x128 _ _ acc u i).trans ?_
  rw [pay14_apply, pay13_eq, laneRow_add5, laneRow_blockSum]

end Cert.KernelIdeal.Hand.R1

end
-- ==== Proof.KR1Reg.lean ====
import proofs.«409303_j18760417149025_3_alg».proof.Proof.KR1Value
import proofs.«409303_j18760417149025_3_alg».proof.Proof.KPay1

set_option maxRecDepth 16384

noncomputable section

open scoped BigOperators

namespace Cert.KernelIdeal.Hand.R1

open Cert.KernelIdeal Cert.KernelIdeal.Gen Cert.KernelIdeal.Hand Cert.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

def rowB (x0 x1 : Vec Ideal S32x5x50x128 .f32) (i : S1x128.Idx) : EReal :=
  if (i 1).val < 5 then blockSum x0 x1 (i 1).val else 0

theorem hstepB (x0 x1 : Vec Ideal S32x5x50x128 .f32) (acc : Vec Ideal S1x128 .f32) (i : S1x128.Idx) :
    stepOf x0 x1 acc i = acc i + rowB x0 x1 i := by
  obtain ⟨u, l, rfl⟩ : ∃ (u : Fin 1) (l : Fin 128), i = ix2 u l := ⟨i 0, i 1, eq_ix2 i⟩
  exact step_apply x0 x1 acc u l

theorem blockSum_blk (c : Dev nD) (n : ℕ) (hn : n < 4) (j : ℕ) :
    blockSum (dblk V c n) (tblk V c n) j
      = ∑ b : Fin 32, ∑ h : Fin 50, ∑ w : Fin 128, cellTerm (darr V c) (tarr V c) j (brow n hn b) h w := by
  unfold blockSum
  refine Finset.sum_congr rfl fun b _ => Finset.sum_congr rfl fun h _ => Finset.sum_congr rfl fun w _ => ?_
  rw [← cellTermB_eq_cellTerm]
  exact cellTermB_congr (dblk V c n) (tblk V c n) (darr V c) (tarr V c) j b (brow n hn b) h w
    (fun ch => dblk_apply V c n hn b ch h w) (fun ch => tblk_apply V c n hn b ch h w)

theorem half_sum (c : Dev nD) (q : Fin 2) (j : ℕ) :
    ∑ s ∈ Finset.range 2, blockSum (dblk V c (2 * q.val + s)) (tblk V c (2 * q.val + s)) j
      = halfSum (darr V c) (tarr V c) q j := by
  have hq := q.isLt
  unfold halfSum
  rw [sum_blocks_fin 2 32 (by norm_num : 64 = 2 * 32) (fun r : Fin 64 => ∑ h : Fin 50, ∑ w : Fin 128, cellTerm (darr V c) (tarr V c) j (halfRow q r) h w),
    Finset.sum_range]
  refine Finset.sum_congr rfl fun s _ => ?_
  have hs := s.isLt
  rw [blockSum_blk V c (2 * q.val + s.val) (by omega) j]
  refine Finset.sum_congr rfl fun b _ => ?_
  have hb := b.isLt
  have e : brow (2 * q.val + s.val) (by omega) b = halfRow q ⟨32 * s.val + b.val, by omega⟩ := Fin.ext (by show 32 * (2 * q.val + s.val) + b.val = 64 * q.val + (32 * s.val + b.val); omega)
  rw [e]

theorem regOut_eq (c : Dev nD) : (dat V c).arrAt 2 cfg1.N = R1s (V c main_v200) (V c main_v201) := by
  refine (arr_eq V rowB hstepB c).trans ?_
  show sideBySide (halfAcc V rowB c) = R1s (darr V c) (tarr V c)
  funext i
  have hi1 : (i 1).val < 256 := idx2_lt1 i
  show halfAcc V rowB c ⟨(i 1).val / 128, _⟩ (ix2 (0 : Fin 1) ⟨(i 1).val % 128, _⟩) = regSums (H := 50) (W := 128) (darr V c) (tarr V c) i
  unfold halfAcc regSums rowB
  show (∑ s ∈ Finset.range 2, if (i 1).val % 128 < 5 then blockSum (dblk V c (2 * ((i 1).val / 128) + s)) (tblk V c (2 * ((i 1).val / 128) + s)) ((i 1).val % 128) else 0) = _
  by_cases h5 : (i 1).val % 128 < 5
  · simp only [if_pos h5]
    exact half_sum V c ⟨(i 1).val / 128, by omega⟩ ((i 1).val % 128)
  · simp only [if_neg h5, Finset.sum_const_zero]

end Cert.KernelIdeal.Hand.R1

end
-- ==== Proof.KR2Row.lean ====
import proofs.«409303_j18760417149025_3_alg».proof.Proof.Gen.KernelIdeal.Launch
import proofs.«409303_j18760417149025_3_alg».proof.Proof.Gen.KernelIdeal.Skeleton
import proofs.«409303_j18760417149025_3_alg».proof.Proof.Gen.KernelIdeal.Points
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand.R2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

abbrev zrow : FVec F S1x128 .f32 := broadcast S1x128 (Scalar.ofBits .f32 0x00000000#32)

def stepOf (x0 x1 : Vec F S32x5x40x40 .f32) (acc : Vec F S1x128 .f32) : FVec F S1x128 .f32 :=
  k2_pay1 (k2_pay13 (k2_pay5 x1) (k2_pay11 (k2_pay4 x0) (k2_pay5 x1)))
    (k2_pay14 (k2_pay7 x0 x1) (k2_pay8 x0 x1) (k2_pay10 (k2_pay9 x1)) (k2_pay12 (k2_pay4 x0) (k2_pay5 x1)))
    k2_pay15 (Scalar.ofBits .f32 0x00000000#32) acc

theorem pay2_eq : (k2_pay2 : FVec F S1x128 .f32) = zrow := by
  unfold k2_pay2
  simp only [shapeCast_self]

theorem zrow_apply (i : S1x128.Idx) : (zrow : FVec Ideal S1x128 .f32) i = 0 := Ideal.ofBits_zero_f32

theorem idx_2 : ∀ t : Fin cfg2.N, win2_2.index t (0 : Fin 2) = 0 ∧ win2_2.index t (1 : Fin 2) = t.val / 2 :=
  (by decide +kernel : ∀ t : Fin grid2.N, win2_2.index t (0 : Fin 2) = 0 ∧ win2_2.index t (1 : Fin 2) = t.val / 2)

def sideBySide (S : Fin 2 → Vec F S1x128 .f32) : Vec F S1x256 .f32 :=
  fun i => S ⟨(i 1).val / 128, by have := idx2_lt1 i; omega⟩ (ix2 (0 : Fin 1) ⟨(i 1).val % 128, Nat.mod_lt _ (by decide)⟩)

abbrev halfOf (t : Fin cfg2.N) : Fin 2 := ⟨t.val / 2, by have := lt_of_lt_of_eq t.isLt (show cfg2.N = 4 from N_2); omega⟩

theorem mem_blk_2 (t : Fin cfg2.N) (i : S1x256.Idx) :
    i ∈ ((cfg2.win 2).blk t).view.set ↔ ∀ a : Fin 2, win2_2.index t a * S1x128.size a ≤ (i a).val ∧ (i a).val < win2_2.index t a * S1x128.size a + S1x128.size a := by
  show i ∈ ((View.whole main_v320).slice (win2_2.rect t)).set ↔ _
  rw [View.set_slice_whole, Rect.mem_set_unit]
  exact Iff.rfl

theorem arr_of_halves {c : Dev nD} (dat : Dat τ (Elt F) Unit ℕ (UR sig nD τ) ℕ cfg2 c) (S : Fin 2 → Vec F S1x128 .f32)
    (hS : ∀ t : Fin cfg2.N, t.val % 2 = 1 → dat.after 2 t = S (halfOf t)) :
    dat.arrAt 2 cfg2.N = sideBySide S := by
  have hN : cfg2.N = 4 := N_2
  refine dat.arrAt_eq_of_cover 2 (sideBySide S) (fun t hf => ?_) (fun i => ?_)
  · have h1 : t.val % 2 = 1 := (flush2_2 t).mp hf
    show (cfg2.win 2).cut (grid2.coords t) (dat.after 2 t) = _
    rw [hS t h1]
    obtain ⟨e0, e1⟩ := idx_2 t
    funext j
    rw [View.read_apply]
    have hj0 : (j 0).val < 1 := (j 0).isLt
    have hj1 : (j 1).val < 128 := (j 1).isLt
    have hemb : ((((cfg2.win 2).blk t).view.emb j) 1).val = t.val / 2 * 128 + (j 1).val := by
      show win2_2.index t (1 : Fin 2) * 128 + 1 * (j 1).val = _
      rw [e1]; omega
    show S (halfOf t) (win2_2.xinj (grid2.coords t) j) = S ⟨((((cfg2.win 2).blk t).view.emb j) 1).val / 128, _⟩ (ix2 (0 : Fin 1) ⟨((((cfg2.win 2).blk t).view.emb j) 1).val % 128, _⟩)
    have hq : ((((cfg2.win 2).blk t).view.emb j) 1).val / 128 = t.val / 2 := by rw [hemb]; omega
    have hr : ((((cfg2.win 2).blk t).view.emb j) 1).val % 128 = (j 1).val := by rw [hemb]; omega
    congr 1
    · exact Fin.ext hq.symm
    · funext a
      apply Fin.ext
      match a with
      | ⟨0, _⟩ => show (j 0).val = 0; omega
      | ⟨1, _⟩ => show (j 1).val = ((((cfg2.win 2).blk t).view.emb j) 1).val % 128; exact hr.symm
  · have hi0 : (i 0).val < 1 := (i 0).isLt
    have hi1 : (i 1).val < 256 := (i 1).isLt
    refine ⟨⟨2 * ((i 1).val / 128) + 1, by omega⟩, (flush2_2 _).mpr (by show (2 * ((i 1).val / 128) + 1) % 2 = 1; omega), ?_⟩
    rw [mem_blk_2]
    obtain ⟨e0, e1⟩ := idx_2 ⟨2 * ((i 1).val / 128) + 1, by omega⟩
    intro a
    match a with
    | ⟨0, _⟩ =>
      show win2_2.index _ (0 : Fin 2) * 1 ≤ (i 0).val ∧ (i 0).val < win2_2.index _ (0 : Fin 2) * 1 + 1
      rw [e0]; omega
    | ⟨1, _⟩ =>
      show win2_2.index _ (1 : Fin 2) * 128 ≤ (i 1).val ∧ (i 1).val < win2_2.index _ (1 : Fin 2) * 128 + 128
      rw [e1]; show (2 * ((i 1).val / 128) + 1) / 2 * 128 ≤ (i 1).val ∧ (i 1).val < (2 * ((i 1).val / 128) + 1) / 2 * 128 + 128
      omega

end Cert.KernelIdeal.Hand.R2

end
-- ==== Proof.KR2Blk.lean ====
import proofs.«409303_j18760417149025_3_alg».proof.Proof.KR2Runs
import Idealize.ShloMosaic.Lib.ValueIdx
import Idealize.ShloMosaic.Lib.Pipeline.Value

set_option maxRecDepth 16384

noncomputable section

namespace Cert.KernelIdeal.Hand.R2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

abbrev darr (c : Dev nD) : Vec F S128x5x40x40 .f32 := V c main_arg2
abbrev tarr (c : Dev nD) : Vec F S128x5x40x40 .f32 := V c main_v319

theorem idx_0 : ∀ t : Fin cfg2.N, win2_0.index t (0 : Fin 4) = t.val ∧ win2_0.index t (1 : Fin 4) = 0 ∧ win2_0.index t (2 : Fin 4) = 0 ∧ win2_0.index t (3 : Fin 4) = 0 :=
  (by decide +kernel : ∀ t : Fin grid2.N, win2_0.index t (0 : Fin 4) = t.val ∧ win2_0.index t (1 : Fin 4) = 0 ∧ win2_0.index t (2 : Fin 4) = 0 ∧ win2_0.index t (3 : Fin 4) = 0)
theorem idx_1 : ∀ t : Fin cfg2.N, win2_1.index t (0 : Fin 4) = t.val ∧ win2_1.index t (1 : Fin 4) = 0 ∧ win2_1.index t (2 : Fin 4) = 0 ∧ win2_1.index t (3 : Fin 4) = 0 :=
  (by decide +kernel : ∀ t : Fin grid2.N, win2_1.index t (0 : Fin 4) = t.val ∧ win2_1.index t (1 : Fin 4) = 0 ∧ win2_1.index t (2 : Fin 4) = 0 ∧ win2_1.index t (3 : Fin 4) = 0)

abbrev brow (n : ℕ) (hn : n < 4) (b : Fin 32) : Fin 128 := ⟨32 * n + b.val, by have := b.isLt; omega⟩

theorem iblk0_apply (c : Dev nD) (t : Fin cfg2.N) (b : Fin 32) (ch : Fin 5) (h : Fin 40) (w : Fin 40) :
    (iblk V c 0 t : Vec F S32x5x40x40 .f32) (ix4 b ch h w)
      = darr V c (ix4 (brow t.val (lt_of_lt_of_eq t.isLt N_2) b) ch h w) := by
  obtain ⟨e0, e1, e2, e3⟩ := idx_0 t
  unfold iblk
  rw [View.read_apply]
  show V c main_arg2 _ = V c main_arg2 _
  congr 1
  funext a
  apply Fin.ext
  match a with
  | ⟨0, _⟩ => show win2_0.index t (0 : Fin 4) * 32 + 1 * b.val = 32 * t.val + b.val; rw [e0]; omega
  | ⟨1, _⟩ => show win2_0.index t (1 : Fin 4) * 5 + 1 * ch.val = ch.val; rw [e1]; omega
  | ⟨2, _⟩ => show win2_0.index t (2 : Fin 4) * 40 + 1 * h.val = h.val; rw [e2]; omega
  | ⟨3, _⟩ => show win2_0.index t (3 : Fin 4) * 40 + 1 * w.val = w.val; rw [e3]; omega

theorem iblk1_apply (c : Dev nD) (t : Fin cfg2.N) (b : Fin 32) (ch : Fin 5) (h : Fin 40) (w : Fin 40) :
    (iblk V c 1 t : Vec F S32x5x40x40 .f32) (ix4 b ch h w)
      = tarr V c (ix4 (brow t.val (lt_of_lt_of_eq t.isLt N_2) b) ch h w) := by
  obtain ⟨e0, e1, e2, e3⟩ := idx_1 t
  unfold iblk
  rw [View.read_apply]
  show V c main_v319 _ = V c main_v319 _
  congr 1
  funext a
  apply Fin.ext
  match a with
  | ⟨0, _⟩ => show win2_1.index t (0 : Fin 4) * 32 + 1 * b.val = 32 * t.val + b.val; rw [e0]; omega
  | ⟨1, _⟩ => show win2_1.index t (1 : Fin 4) * 5 + 1 * ch.val = ch.val; rw [e1]; omega
  | ⟨2, _⟩ => show win2_1.index t (2 : Fin 4) * 40 + 1 * h.val = h.val; rw [e2]; omega
  | ⟨3, _⟩ => show win2_1.index t (3 : Fin 4) * 40 + 1 * w.val = w.val; rw [e3]; omega

end Cert.KernelIdeal.Hand.R2

end
-- ==== Proof.KR2Acc.lean ====
import proofs.«409303_j18760417149025_3_alg».proof.Proof.KR2Dat
import proofs.«409303_j18760417149025_3_alg».proof.Proof.KR2Row
import proofs.«409303_j18760417149025_3_alg».proof.Proof.KR2Blk
import Idealize.ShloMosaic.Lib.Pipeline.Value
import Idealize.ShloMosaic.Lib.ValueIdx

set_option maxRecDepth 16384

noncomputable section

namespace Cert.KernelIdeal.Hand.R2

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

theorem soutA_eq (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : cond2_0 i) (hc1 : ¬cond2_1 i) (x0 : Vec F S32x5x40x40 .f32) (x1 : Vec F S32x5x40x40 .f32) :
    sout2_A_0 c i arg2 harg2 arg3 harg3 arg4 harg4 arg5 harg5 hc0 hc1 x0 x1 = stepOf x0 x1 zrow := by
  unfold sout2_A_0
  rw [View.read_writes_eq_canon _ _ _ (scover2_A_0 c i arg2 harg2 arg3 harg3 arg4 harg4 arg5 harg5 hc0 hc1 x0 x1)]
  unfold kernelRun2_A
  dsimp only
  sl_unfold_words
  rw [View.canon_cons_unit_zero (S := S1x128) hz2]
  unfold stepOf
  simp only [View.readAt_eq_ld, harg2.read_unread, harg3.read_unread, View.ld_unit_zero (S := S32x5x40x40) hz4,
    View.ld_unit_zero (S := S1x128) hz2, View.readCov_unit_zero (S := S1x128) _ hz2, shapeCast_self, pay2_eq]

theorem soutC_eq (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) :
    sout2_C_0 c i arg2 harg2 arg3 harg3 arg4 harg4 arg5 harg5 hc0 hc1 x0 x1 xs0 = stepOf x0 x1 xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero hz2]
  unfold stepOf
  simp only [View.readAt_eq_ld, harg2.read_unread, harg3.read_unread, harg5.read_unread, View.ld_unit_zero (S := S32x5x40x40) hz4,
    View.ld_unit_zero (S := S1x128) hz2, View.readCov_unit_zero (S := S1x128) _ hz2, shapeCast_self, pay2_eq]

theorem outC_eq (c : Dev nD) (i : grid2.Coords) (arg2 : Memref sig .tc .vmem S32x5x40x40 .f32) (harg2 : arg2.IsWhole) (arg3 : Memref sig .tc .vmem S32x5x40x40 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (hc1 : cond2_1 i) (x0 : Vec F S32x5x40x40 .f32) (x1 : Vec F S32x5x40x40 .f32) (xs0 : Vec F S1x128 .f32) :
    out2_C_2 c i arg2 harg2 arg3 harg3 arg4 harg4 arg5 harg5 hc0 hc1 x0 x1 xs0 = stepOf x0 x1 xs0 := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero hz2]
  unfold stepOf
  simp only [View.readAt_eq_ld, harg2.read_unread, harg3.read_unread, harg5.read_unread, View.ld_unit_zero (S := S32x5x40x40) hz4,
    View.ld_unit_zero (S := S1x128) hz2, View.readCov_unit_zero (S := S1x128) _ hz2, shapeCast_self, pay2_eq]

section Points
variable (V : (c : Dev nD) → (b : Ref sig .tc) → Buf (Elt F) ((c : Thread nD τ).loc b))

theorem scr_A (c : Dev nD) (t : Fin cfg2.N) (h0 : t.val % 2 = 0) :
    (outsAt2 V c t.val t.isLt).2 = stepOf (iblk V c 0 t) (iblk V c 1 t) zrow := by
  rw [outsAt2_A V c t h0]
  unfold atA
  dsimp only
  exact soutA_eq c (grid2.coords t) (ms2_0 t) (hs2_0 t) (ms2_1 t) (hs2_1 t) (ms2_2 t) (hs2_2 t) scM2_0 (Memref.isWhole_whole _) (c0_of_even t h0) (nc1_of_even t h0) (iblk V c 0 t) (iblk V c 1 t)

theorem out_C (c : Dev nD) (t : Fin cfg2.N) (h0 : ¬t.val % 2 = 0) :
    (outsAt2 V c t.val t.isLt).1
      = stepOf (iblk V c 0 t) (iblk V c 1 t) (outsAt2 V c (t.val - 1) (Nat.lt_of_le_of_lt (Nat.sub_le _ _) t.isLt)).2 := by
  rw [outsAt2_C V c t h0]
  unfold atC
  dsimp only
  exact outC_eq c (grid2.coords t) (ms2_0 t) (hs2_0 t) (ms2_1 t) (hs2_1 t) (ms2_2 t) (hs2_2 t) scM2_0 (Memref.isWhole_whole _) (nc0_of_odd t h0) (c1_of_odd t h0) (iblk V c 0 t) (iblk V c 1 t) _

abbrev prev (t : Fin cfg2.N) : Fin cfg2.N := ⟨t.val - 1, Nat.lt_of_le_of_lt (Nat.sub_le _ _) t.isLt⟩

theorem after_odd (c : Dev nD) (t : Fin cfg2.N) (h1 : t.val % 2 = 1) :
    (dat V c).after 2 t
      = stepOf (iblk V c 0 t) (iblk V c 1 t) (stepOf (iblk V c 0 (prev t)) (iblk V c 1 (prev t)) zrow) := by
  have h0 : ¬t.val % 2 = 0 := by omega
  have hp : (prev t).val % 2 = 0 := by show (t.val - 1) % 2 = 0; omega
  rw [after2_2, out_C V c t h0]
  exact congrArg (stepOf (iblk V c 0 t) (iblk V c 1 t)) (scr_A V c (prev t) hp)

end Points

section Sums
variable (V : (c : Dev nD) → (b : Ref sig .tc) → Buf (Elt Ideal) ((c : Thread nD τ).loc b))
variable (row : Vec Ideal S32x5x40x40 .f32 → Vec Ideal S32x5x40x40 .f32 → S1x128.Idx → EReal)
variable (hstep : ∀ (x0 x1 : Vec Ideal S32x5x40x40 .f32) (acc : Vec Ideal S1x128 .f32) (i : S1x128.Idx), stepOf x0 x1 acc i = acc i + row x0 x1 i)

abbrev pt (q : Fin 2) (s : Fin 2) : Fin cfg2.N :=
  ⟨2 * q.val + s.val, by have := q.isLt; have := s.isLt; have : cfg2.N = 4 := N_2; omega⟩

def halfAcc (c : Dev nD) (q : Fin 2) : Vec Ideal S1x128 .f32 :=
  fun i => row (iblk V c 0 (pt q 0)) (iblk V c 1 (pt q 0)) i + row (iblk V c 0 (pt q 1)) (iblk V c 1 (pt q 1)) i

include hstep in
theorem after_last (c : Dev nD) (t : Fin cfg2.N) (h1 : t.val % 2 = 1) :
    (dat V c).after 2 t = halfAcc V row c (halfOf t) := by
  have hN : t.val < 4 := lt_of_lt_of_eq t.isLt (show cfg2.N = 4 from N_2)
  have e0 : prev t = pt (halfOf t) 0 := Fin.ext (by show t.val - 1 = 2 * (t.val / 2) + 0; omega)
  have e1 : t = pt (halfOf t) 1 := Fin.ext (by show t.val = 2 * (t.val / 2) + 1; omega)
  rw [after_odd V c t h1]
  funext i
  rw [hstep, hstep, zrow_apply, zero_add]
  unfold halfAcc
  rw [← e0, ← e1]

include hstep in
theorem arr_eq (c : Dev nD) : (dat V c).arrAt 2 cfg2.N = sideBySide (halfAcc V row c) :=
  arr_of_halves (dat V c) (halfAcc V row c) (after_last V row hstep c)

end Sums

end Cert.KernelIdeal.Hand.R2

end
-- ==== Proof.KPay2.lean ====
import proofs.«409303_j18760417149025_3_alg».proof.Proof.Gen.KernelIdeal.Skeleton
import proofs.«409303_j18760417149025_3_alg».proof.Proof.LibFullSum
import proofs.«409303_j18760417149025_3_alg».proof.Proof.LibBlockOps
import proofs.«409303_j18760417149025_3_alg».proof.Proof.LibLaneRow
import proofs.«409303_j18760417149025_3_alg».proof.Proof.LibSums
import proofs.«409303_j18760417149025_3_alg».proof.Proof.KCell

noncomputable section

open scoped BigOperators

namespace Cert.KernelIdeal.Hand.R2

open Idealize.ShloMosaic Idealize.ShloMosaic.ValueIdx Cert.KernelIdeal Cert.KernelIdeal.Gen Cert.Hand Cert.KernelIdeal.Hand

variable (v3 v4 : Vec Ideal S32x5x40x40 .f32)

theorem pay3_eq : k2_pay3 v4 = v4 := shapeCast_self v4 _

theorem pay4_apply (b : Fin 32) (r : Fin 40) (l : Fin 40) : k2_pay4 v3 (ix3 b r l) = v3 (ix4 b (4 : Fin 5) r l) := by
  unfold k2_pay4
  refine (shapeCast_dropChan_apply _ _ b r l).trans ?_
  exact slice4_axis1_apply 4 v3 _ b (0 : Fin 1) r l (4 : Fin 5) rfl

theorem pay5_apply (b : Fin 32) (r : Fin 40) (l : Fin 40) : k2_pay5 v4 (ix3 b r l) = v4 (ix4 b (4 : Fin 5) r l) := by
  unfold k2_pay5
  refine (shapeCast_dropChan_apply _ _ b r l).trans ?_
  refine (slice4_axis1_apply 4 (k2_pay3 v4) _ b (0 : Fin 1) r l (4 : Fin 5) rfl).trans ?_
  rw [pay3_eq]

theorem pay6_apply (b : Fin 32) (u : Fin 1) (r : Fin 40) (l : Fin 40) :
    k2_pay6 v4 (ix4 b u r l) = v4 (ix4 b (4 : Fin 5) r l) := by
  unfold k2_pay6
  exact (shapeCast_addChan_apply _ _ b u r l).trans (pay5_apply v4 b r l)

theorem pay11_apply (b : Fin 32) (r : Fin 40) (l : Fin 40) :
    k2_pay11 (k2_pay4 v3) (k2_pay5 v4) (ix3 b r l) = kFlossS (v3 (ix4 b (4 : Fin 5) r l)) (v4 (ix4 b (4 : Fin 5) r l)) := by
  rw [← pay4_apply v3 b r l, ← pay5_apply v4 b r l]
  rfl

theorem pay12_apply (b : Fin 32) (r : Fin 40) (l : Fin 40) :
    k2_pay12 (k2_pay4 v3) (k2_pay5 v4) (ix3 b r l)
      = kFlossS (v3 (ix4 b (4 : Fin 5) r l)) (v4 (ix4 b (4 : Fin 5) r l)) * v4 (ix4 b (4 : Fin 5) r l) := by
  show k2_pay11 (k2_pay4 v3) (k2_pay5 v4) (ix3 b r l) * k2_pay5 v4 (ix3 b r l) = _
  rw [pay11_apply, pay5_apply]

theorem pay7_eq (j : S1x1.Idx) : k2_pay7 v3 v4 j = blockSum v3 v4 0 := by
  unfold k2_pay7
  refine (fullSum4 (.inl rfl) rfl _ reduces_S32x2x40x40_S2x40x40 reduces_S2x40x40_S40x40 reduces_S40x40_S40 shapeCasts_S40_S40x1 reduces_S40x1_S1 shapeCasts_S1_S1x1 j).trans ?_
  show _ = ∑ b : Fin 32, ∑ h : Fin 40, ∑ w : Fin 40, ∑ k : Fin 2, cellXY v3 v4 b k h w
  refine Eq.trans ?_ (sum_chan_last (fun b k h w => cellXY v3 v4 b k h w))
  refine Finset.sum_congr rfl fun b _ => Finset.sum_congr rfl fun c _ => Finset.sum_congr rfl fun r _ =>
    Finset.sum_congr rfl fun l _ => ?_
  have hA : extractStridedSlice S32x2x40x40 ![0, 0, 0, 0] v3 slices_S32x5x40x40_o0_0_0_0_S32x2x40x40 (ix4 b c r l) = v3 (ix4 b (chan 0 (by omega) c) r l) :=
    slice4_axis1_apply 0 v3 _ b c r l (chan 0 (by omega) c) rfl
  have hB : extractStridedSlice S32x2x40x40 ![0, 0, 0, 0] (k2_pay3 v4) slices_S32x5x40x40_o0_0_0_0_S32x2x40x40 (ix4 b c r l) = v4 (ix4 b (chan 0 (by omega) c) r l) :=
    (slice4_axis1_apply 0 (k2_pay3 v4) _ b c r l (chan 0 (by omega) c) rfl).trans (congrFun (pay3_eq v4) _)
  have hC : broadcastTo S32x2x40x40 (k2_pay6 v4) broadcasts_S32x1x40x40_S32x2x40x40 (ix4 b c r l) = v4 (ix4 b (4 : Fin 5) r l) :=
    (broadcastTo_chan_apply _ _ b c r l).trans (pay6_apply v4 b 0 r l)
  show ((Ideal.logistic (extractStridedSlice S32x2x40x40 ![0, 0, 0, 0] v3 slices_S32x5x40x40_o0_0_0_0_S32x2x40x40 (ix4 b c r l)) - extractStridedSlice S32x2x40x40 ![0, 0, 0, 0] (k2_pay3 v4) slices_S32x5x40x40_o0_0_0_0_S32x2x40x40 (ix4 b c r l))
      * (Ideal.logistic (extractStridedSlice S32x2x40x40 ![0, 0, 0, 0] v3 slices_S32x5x40x40_o0_0_0_0_S32x2x40x40 (ix4 b c r l)) - extractStridedSlice S32x2x40x40 ![0, 0, 0, 0] (k2_pay3 v4) slices_S32x5x40x40_o0_0_0_0_S32x2x40x40 (ix4 b c r l)))
      * broadcastTo S32x2x40x40 (k2_pay6 v4) broadcasts_S32x1x40x40_S32x2x40x40 (ix4 b c r l) = cellXY v3 v4 b c r l
  rw [hA, hB, hC]

theorem pay8_eq (j : S1x1.Idx) : k2_pay8 v3 v4 j = blockSum v3 v4 1 := by
  unfold k2_pay8
  refine (fullSum4 (.inl rfl) rfl _ reduces_S32x2x40x40_S2x40x40 reduces_S2x40x40_S40x40 reduces_S40x40_S40 shapeCasts_S40_S40x1 reduces_S40x1_S1 shapeCasts_S1_S1x1 j).trans ?_
  show _ = ∑ b : Fin 32, ∑ h : Fin 40, ∑ w : Fin 40, ∑ k : Fin 2, cellWH v3 v4 b k h w
  refine Eq.trans ?_ (sum_chan_last (fun b k h w => cellWH v3 v4 b k h w))
  refine Finset.sum_congr rfl fun b _ => Finset.sum_congr rfl fun c _ => Finset.sum_congr rfl fun r _ =>
    Finset.sum_congr rfl fun l _ => ?_
  have hA : extractStridedSlice S32x2x40x40 ![0, 2, 0, 0] v3 slices_S32x5x40x40_o0_2_0_0_S32x2x40x40 (ix4 b c r l) = v3 (ix4 b (chan 2 (by omega) c) r l) :=
    slice4_axis1_apply 2 v3 _ b c r l (chan 2 (by omega) c) rfl
  have hB : extractStridedSlice S32x2x40x40 ![0, 2, 0, 0] (k2_pay3 v4) slices_S32x5x40x40_o0_2_0_0_S32x2x40x40 (ix4 b c r l) = v4 (ix4 b (chan 2 (by omega) c) r l) :=
    (slice4_axis1_apply 2 (k2_pay3 v4) _ b c r l (chan 2 (by omega) c) rfl).trans (congrFun (pay3_eq v4) _)
  have hC : broadcastTo S32x2x40x40 (k2_pay6 v4) broadcasts_S32x1x40x40_S32x2x40x40 (ix4 b c r l) = v4 (ix4 b (4 : Fin 5) r l) :=
    (broadcastTo_chan_apply _ _ b c r l).trans (pay6_apply v4 b 0 r l)
  show ((extractStridedSlice S32x2x40x40 ![0, 2, 0, 0] v3 slices_S32x5x40x40_o0_2_0_0_S32x2x40x40 (ix4 b c r l) - extractStridedSlice S32x2x40x40 ![0, 2, 0, 0] (k2_pay3 v4) slices_S32x5x40x40_o0_2_0_0_S32x2x40x40 (ix4 b c r l))
      * (extractStridedSlice S32x2x40x40 ![0, 2, 0, 0] v3 slices_S32x5x40x40_o0_2_0_0_S32x2x40x40 (ix4 b c r l) - extractStridedSlice S32x2x40x40 ![0, 2, 0, 0] (k2_pay3 v4) slices_S32x5x40x40_o0_2_0_0_S32x2x40x40 (ix4 b c r l)))
      * broadcastTo S32x2x40x40 (k2_pay6 v4) broadcasts_S32x1x40x40_S32x2x40x40 (ix4 b c r l) = cellWH v3 v4 b c r l
  rw [hA, hB, hC]

theorem pay10_eq (j : S1x1.Idx) : k2_pay10 (k2_pay9 v4) j = blockSum v3 v4 2 := by
  unfold k2_pay10 k2_pay9
  refine (fullSum3 (.inl rfl) rfl (k2_pay5 v4) reduces_S32x40x40_S40x40 reduces_S40x40_S40 shapeCasts_S40_S40x1 reduces_S40x1_S1 shapeCasts_S1_S1x1 j).trans ?_
  exact Finset.sum_congr rfl fun b _ => Finset.sum_congr rfl fun r _ => Finset.sum_congr rfl fun l _ =>
    pay5_apply v4 b r l

theorem pay13_eq (j : S1x1.Idx) :
    k2_pay13 (k2_pay5 v4) (k2_pay11 (k2_pay4 v3) (k2_pay5 v4)) j = blockSum v3 v4 4 := by
  unfold k2_pay13
  refine (fullSum3 (.inl rfl) rfl _ reduces_S32x40x40_S40x40 reduces_S40x40_S40 shapeCasts_S40_S40x1 reduces_S40x1_S1 shapeCasts_S1_S1x1 j).trans ?_
  refine Finset.sum_congr rfl fun b _ => Finset.sum_congr rfl fun r _ => Finset.sum_congr rfl fun l _ => ?_
  have h1 : (Scalar.ofBits .f32 0x3F800000#32 : Ideal .f32) = 1 := Ideal.ofBits_one_f32
  show k2_pay11 (k2_pay4 v3) (k2_pay5 v4) (ix3 b r l)
      * ((Scalar.ofBits .f32 0x3F800000#32 : Ideal .f32) - k2_pay5 v4 (ix3 b r l)) = cellTermB v3 v4 4 b r l
  rw [h1, pay11_apply, pay5_apply]
  rfl

theorem posSum_eq (j : S1x1.Idx) :
    shapeCast S1x1 (multiReduction .add [0] S1
      (shapeCast S40x1 (multiReduction .add [1] S40
        (multiReduction .add [0] S40x40 (k2_pay12 (k2_pay4 v3) (k2_pay5 v4)) 0x00000000#32
          reduces_S32x40x40_S40x40 (.inl rfl) rfl) 0x00000000#32 reduces_S40x40_S40 (.inl rfl) rfl) shapeCasts_S40_S40x1)
      0x00000000#32 reduces_S40x1_S1 (.inl rfl) rfl) shapeCasts_S1_S1x1 j = blockSum v3 v4 3 := by
  refine (fullSum3 (.inl rfl) rfl _ reduces_S32x40x40_S40x40 reduces_S40x40_S40 shapeCasts_S40_S40x1 reduces_S40x1_S1 shapeCasts_S1_S1x1 j).trans ?_
  refine Finset.sum_congr rfl fun b _ => Finset.sum_congr rfl fun r _ => Finset.sum_congr rfl fun l _ => ?_
  rw [pay12_apply]
  rfl

theorem pay14_apply (u : Fin 1) (i : Fin 128) :
    k2_pay14 (k2_pay7 v3 v4) (k2_pay8 v3 v4) (k2_pay10 (k2_pay9 v4)) (k2_pay12 (k2_pay4 v3) (k2_pay5 v4)) (ix2 u i)
      = laneRow (blockSum v3 v4 0) (blockSum v3 v4 1) (blockSum v3 v4 2) (blockSum v3 v4 3) 0 i.val := by
  unfold k2_pay14
  refine (rowAssemble (n := 128) (by norm_num) iota_S1x128_d1_w32 shapeCasts_S1x1_S1x1 broadcasts_S1x1_S1x128
    _ _ _ _ u i).trans ?_
  rw [pay7_eq, pay8_eq, pay10_eq v3 v4, posSum_eq]

theorem step_apply (acc : FVec Ideal S1x128 .f32) (u : Fin 1) (i : Fin 128) :
    k2_pay1 (k2_pay13 (k2_pay5 v4) (k2_pay11 (k2_pay4 v3) (k2_pay5 v4)))
        (k2_pay14 (k2_pay7 v3 v4) (k2_pay8 v3 v4) (k2_pay10 (k2_pay9 v4)) (k2_pay12 (k2_pay4 v3) (k2_pay5 v4)))
        k2_pay15 (Scalar.ofBits .f32 0x00000000#32) acc (ix2 u i)
      = acc (ix2 u i) + (if i.val < 5 then blockSum v3 v4 i.val else 0) := by
  unfold k2_pay1 k2_pay15
  refine (rowAccumulate (n := 128) (by norm_num) iota_S1x128_d1_w32 shapeCasts_S1x1_S1x1 broadcasts_S1x1_S1x128
    shapeCasts_S1x128_S1x128 _ _ acc u i).trans ?_
  rw [pay14_apply, pay13_eq, laneRow_add5, laneRow_blockSum]

end Cert.KernelIdeal.Hand.R2

end
-- ==== Proof.KR2Value.lean ====
import proofs.«409303_j18760417149025_3_alg».proof.Proof.KR2Acc
import proofs.«409303_j18760417149025_3_alg».proof.Proof.KPay2
import proofs.«409303_j18760417149025_3_alg».proof.Proof.LibSums
import proofs.«409303_j18760417149025_3_alg».proof.Proof.KCell
import Mathlib.Algebra.BigOperators.Fin

set_option maxRecDepth 16384

noncomputable section

open scoped BigOperators

namespace Cert.KernelIdeal.Hand.R2

open Cert.KernelIdeal Cert.KernelIdeal.Gen Cert.Hand Cert.KernelIdeal.Hand
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

def rowOf (x0 x1 : Vec Ideal S32x5x40x40 .f32) (i : S1x128.Idx) : EReal :=
  if (i 1).val < 5 then blockSum (B := 32) (H := 40) (W := 40) x0 x1 (i 1).val else 0

theorem hstep (x0 x1 : Vec Ideal S32x5x40x40 .f32) (acc : Vec Ideal S1x128 .f32) (i : S1x128.Idx) :
    stepOf x0 x1 acc i = acc i + rowOf x0 x1 i := by
  have key : ∀ (u : Fin 1) (l : Fin 128),
      stepOf x0 x1 acc (ix2 u l) = acc (ix2 u l) + rowOf x0 x1 (ix2 u l) := fun u l => step_apply x0 x1 acc u l
  rw [eq_ix2 i]
  exact key (i 0) (i 1)

theorem blk_sum (c : Dev nD) (q s : Fin 2) (j : ℕ)
    (hlt : ∀ b : Fin 32, 32 * s.val + b.val < 64) :
    ∑ b : Fin 32, ∑ h : Fin 40, ∑ w : Fin 40,
        cellTerm (H := 40) (W := 40) (darr V c) (tarr V c) j (halfRow q ⟨32 * s.val + b.val, hlt b⟩) h w
      = blockSum (B := 32) (H := 40) (W := 40) (iblk V c 0 (pt q s)) (iblk V c 1 (pt q s)) j := by
  unfold blockSum
  refine Finset.sum_congr rfl fun b _ => Finset.sum_congr rfl fun h _ => Finset.sum_congr rfl fun w _ => ?_
  have hq := q.isLt; have hs := s.isLt; have hb := b.isLt
  have hrow : brow (pt q s).val (lt_of_lt_of_eq (pt q s).isLt N_2) b = halfRow q ⟨32 * s.val + b.val, hlt b⟩ :=
    Fin.ext (by show 32 * (2 * q.val + s.val) + b.val = 64 * q.val + (32 * s.val + b.val); omega)
  show cellTermB (darr V c) (tarr V c) j (halfRow q ⟨32 * s.val + b.val, hlt b⟩) h w = _
  refine (cellTermB_congr _ _ _ _ j b (halfRow q ⟨32 * s.val + b.val, hlt b⟩) h w (fun ch => ?_) (fun ch => ?_)).symm
  · rw [iblk0_apply V c (pt q s) b ch h w, hrow]
  · rw [iblk1_apply V c (pt q s) b ch h w, hrow]

theorem halfSum_two (c : Dev nD) (q : Fin 2) (j : ℕ) :
    halfSum (H := 40) (W := 40) (darr V c) (tarr V c) q j
      = blockSum (B := 32) (H := 40) (W := 40) (iblk V c 0 (pt q 0)) (iblk V c 1 (pt q 0)) j
        + blockSum (B := 32) (H := 40) (W := 40) (iblk V c 0 (pt q 1)) (iblk V c 1 (pt q 1)) j := by
  unfold halfSum
  refine (sum_blocks_fin 2 32 (by norm_num)
    (fun r : Fin 64 => ∑ h : Fin 40, ∑ w : Fin 40, cellTerm (H := 40) (W := 40) (darr V c) (tarr V c) j (halfRow q r) h w)).trans ?_
  rw [Fin.sum_univ_two]
  exact congrArg₂ (· + ·) (blk_sum V c q 0 j _) (blk_sum V c q 1 j _)

theorem regOut_eq (c : Dev nD) : (dat V c).arrAt 2 cfg2.N = R2s (V c main_arg2) (V c main_v319) := by
  rw [arr_eq V rowOf hstep c]
  funext i
  have hi1 : (i 1).val < 256 := idx2_lt1 i
  show halfAcc V rowOf c ⟨(i 1).val / 128, _⟩ (ix2 (0 : Fin 1) ⟨(i 1).val % 128, _⟩)
    = regSums (H := 40) (W := 40) (darr V c) (tarr V c) i
  unfold halfAcc rowOf regSums
  show (if (i 1).val % 128 < 5 then _ else 0) + (if (i 1).val % 128 < 5 then _ else 0) = _
  by_cases h5 : (i 1).val % 128 < 5
  · rw [if_pos h5, if_pos h5, if_pos h5]
    exact (halfSum_two V c _ _).symm
  · rw [if_neg h5, if_neg h5, if_neg h5, add_zero]

end Cert.KernelIdeal.Hand.R2

end
-- ==== Proof.RefOps0.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP0 : List (HloOp τ sig (Elt F)) :=
  [ StableHlo.unary main_arg3 main_v0 ((extractStridedSlice S4096x1 ![0, 0] · slices_S4096x6_S4096x1_0_0) : (⟨S4096x6, .f32⟩ : BufTy).Contents (Elt F) → (⟨S4096x1, .f32⟩ : BufTy).Contents (Elt F)),
    StableHlo.reshape main_v0 main_v1 rfl shapeCasts_S4096x1_S4096,
    StableHlo.unary main_v1 main_v2 (fptosi 32 : (⟨S4096, .f32⟩ : BufTy).Contents (Elt F) → (⟨S4096, .i32⟩ : BufTy).Contents (Elt F)),
    StableHlo.unary main_arg3 main_v3 ((extractStridedSlice S4096x1 ![0, 2] · slices_S4096x6_S4096x1_0_2) : (⟨S4096x6, .f32⟩ : BufTy).Contents (Elt F) → (⟨S4096x1, .f32⟩ : BufTy).Contents (Elt F)),
    StableHlo.reshape main_v3 main_v4 rfl shapeCasts_S4096x1_S4096,
    StableHlo.unary main_arg3 main_v5 ((extractStridedSlice S4096x1 ![0, 3] · slices_S4096x6_S4096x1_0_3) : (⟨S4096x6, .f32⟩ : BufTy).Contents (Elt F) → (⟨S4096x1, .f32⟩ : BufTy).Contents (Elt F)),
    StableHlo.reshape main_v5 main_v6 rfl shapeCasts_S4096x1_S4096,
    StableHlo.unary main_arg3 main_v7 ((extractStridedSlice S4096x1 ![0, 4] · slices_S4096x6_S4096x1_0_4) : (⟨S4096x6, .f32⟩ : BufTy).Contents (Elt F) → (⟨S4096x1, .f32⟩ : BufTy).Contents (Elt F)),
    StableHlo.reshape main_v7 main_v8 rfl shapeCasts_S4096x1_S4096,
    StableHlo.unary main_arg3 main_v9 ((extractStridedSlice S4096x1 ![0, 5] · slices_S4096x6_S4096x1_0_5) : (⟨S4096x6, .f32⟩ : BufTy).Contents (Elt F) → (⟨S4096x1, .f32⟩ : BufTy).Contents (Elt F)),
    StableHlo.reshape main_v9 main_v10 rfl shapeCasts_S4096x1_S4096,
    StableHlo.nullary main_cst (constant S_ .f32 0x43200000#32),
    StableHlo.unary main_cst main_v11 (broadcastInDim S4096 ![] bcast_S_S4096 : (⟨S_, .f32⟩ : BufTy).Contents (Elt F) → (⟨S4096, .f32⟩ : BufTy).Contents (Elt F)),
    StableHlo.binary main_v4 main_v11 main_v12 (mulf : (⟨S4096, .f32⟩ : BufTy).Contents (Elt F) → (⟨S4096, .f32⟩ : BufTy).Contents (Elt F) → (⟨S4096, .f32⟩ : BufTy).Contents (Elt F)),
    StableHlo.nullary main_cst_0 (constant S_ .f32 0x43200000#32),
    StableHlo.unary main_cst_0 main_v13 (broadcastInDim S4096 ![] bcast_S_S4096 : (⟨S_, .f32⟩ : BufTy).Contents (Elt F) → (⟨S4096, .f32⟩ : BufTy).Contents (Elt F)),
    StableHlo.binary main_v6 main_v13 main_v14 (mulf : (⟨S4096, .f32⟩ : BufTy).Contents (Elt F) → (⟨S4096, .f32⟩ : BufTy).Contents (Elt F) → (⟨S4096, .f32⟩ : BufTy).Contents (Elt F)),
    StableHlo.nullary main_c (constantI S_ 32 0#32),
    StableHlo.nullary main_c_1 (constantI S_ 32 159#32),
    StableHlo.TRef.unary (.of main_c) main_call0.v0 (sitofp .f32),
    StableHlo.TRef.unary main_call0.v0 main_call0.v1 (broadcastInDim S4096 ![] bcast_S_S4096),
    StableHlo.TRef.binary main_call0.v1 (.of main_v12) main_call0.v2 maximumf,
    StableHlo.TRef.unary (.of main_c_1) main_call0.v3 (sitofp .f32),
    StableHlo.TRef.unary main_call0.v3 main_call0.v4 (broadcastInDim S4096 ![] bcast_S_S4096) ]
theorem opsP0_sub : (opsP0 : List (HloOp τ sig (Elt F))).Forall fun op => op.bufs ⊆ tcRefs τ sig :=
  ⟨unary_bufs_sub .., reshape_bufs_sub .., unary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub ..⟩
theorem opsP0_fresh : ∀ op ∈ (opsP0 : List (HloOp τ sig (Elt F))), op.fresh = ∅ := by
  intro _ h; (repeat (cases h with | head => rfl | tail _ h => ?_)); exact nomatch h
abbrev opsP0_W : List (Ref sig .tc) := [main_v0, main_v1, main_v2, main_v3, main_v4, main_v5, main_v6, main_v7, main_v8, main_v9, main_v10, main_cst, main_v11, main_v12, main_cst_0, main_v13, main_v14, main_c, main_c_1, main_call0_v0, main_call0_v1, main_call0_v2, main_call0_v3, main_call0_v4]
theorem opsP0_writes : (opsP0 : List (HloOp τ sig (Elt F))).Forall fun op => op.writes ⊆ (opsP0_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP0_keep (V : Valuation τ sig (Elt F)) (r : Ref sig .tc) (h : r ∉ opsP0_W) :
    after opsP0 V (Proc.devRef .tc r) = V (Proc.devRef .tc r) := after_of_writes_sub opsP0 _ opsP0_writes h

abbrev opsP1 : List (HloOp τ sig (Elt F)) :=
  [ StableHlo.TRef.binary main_call0.v4 main_call0.v2 main_call0.v5 minimumf,
    StableHlo.unary main_v15 main_v16 (fptosi 32 : (⟨S4096, .f32⟩ : BufTy).Contents (Elt F) → (⟨S4096, .i32⟩ : BufTy).Contents (Elt F)),
    StableHlo.nullary main_c_2 (constantI S_ 32 0#32),
    StableHlo.nullary main_c_3 (constantI S_ 32 159#32),
    StableHlo.TRef.unary (.of main_c_2) main_call1.v0 (sitofp .f32),
    StableHlo.TRef.unary main_call1.v0 main_call1.v1 (broadcastInDim S4096 ![] bcast_S_S4096),
    StableHlo.TRef.binary main_call1.v1 (.of main_v14) main_call1.v2 maximumf,
    StableHlo.TRef.unary (.of main_c_3) main_call1.v3 (sitofp .f32),
    StableHlo.TRef.unary main_call1.v3 main_call1.v4 (broadcastInDim S4096 ![] bcast_S_S4096),
    StableHlo.TRef.binary main_call1.v4 main_call1.v2 main_call1.v5 minimumf,
    StableHlo.unary main_v17 main_v18 (fptosi 32 : (⟨S4096, .f32⟩ : BufTy).Contents (Elt F) → (⟨S4096, .i32⟩ : BufTy).Contents (Elt F)),
    StableHlo.unary main_v16 main_v19 (sitofp .f32 : (⟨S4096, .i32⟩ : BufTy).Contents (Elt F) → (⟨S4096, .f32⟩ : BufTy).Contents (Elt F)),
    StableHlo.binary main_v12 main_v19 main_v20 (subf : (⟨S4096, .f32⟩ : BufTy).Contents (Elt F) → (⟨S4096, .f32⟩ : BufTy).Contents (Elt F) → (⟨S4096, .f32⟩ : BufTy).Contents (Elt F)),
    StableHlo.unary main_v18 main_v21 (sitofp .f32 : (⟨S4096, .i32⟩ : BufTy).Contents (Elt F) → (⟨S4096, .f32⟩ : BufTy).Contents (Elt F)),
    StableHlo.binary main_v14 main_v21 main_v22 (subf : (⟨S4096, .f32⟩ : BufTy).Contents (Elt F) → (⟨S4096, .f32⟩ : BufTy).Contents (Elt F) → (⟨S4096, .f32⟩ : BufTy).Contents (Elt F)),
    StableHlo.nullary main_cst_4 (constant S_ .f32 0x43200000#32),
    StableHlo.unary main_cst_4 main_v23 (broadcastInDim S4096 ![] bcast_S_S4096 : (⟨S_, .f32⟩ : BufTy).Contents (Elt F) → (⟨S4096, .f32⟩ : BufTy).Contents (Elt F)),
    StableHlo.binary main_v8 main_v23 main_v24 (mulf : (⟨S4096, .f32⟩ : BufTy).Contents (Elt F) → (⟨S4096, .f32⟩ : BufTy).Contents (Elt F) → (⟨S4096, .f32⟩ : BufTy).Contents (Elt F)),
    StableHlo.nullary main_cst_5 (constant S_ .f32 0x43200000#32),
    StableHlo.unary main_cst_5 main_v25 (broadcastInDim S4096 ![] bcast_S_S4096 : (⟨S_, .f32⟩ : BufTy).Contents (Elt F) → (⟨S4096, .f32⟩ : BufTy).Contents (Elt F)),
    StableHlo.binary main_v10 main_v25 main_v26 (mulf : (⟨S4096, .f32⟩ : BufTy).Contents (Elt F) → (⟨S4096, .f32⟩ : BufTy).Contents (Elt F) → (⟨S4096, .f32⟩ : BufTy).Contents (Elt F)),
    StableHlo.nullary main_cst_6 (constant S_ .f32 0x3F800000#32),
    StableHlo.unary main_cst_6 main_v27 (broadcastInDim S4096 ![] bcast_S_S4096 : (⟨S_, .f32⟩ : BufTy).Contents (Elt F) → (⟨S4096, .f32⟩ : BufTy).Contents (Elt F)),
    StableHlo.unary main_v20 main_v28 (broadcastInDim S4096x1 ![0] bcast_S4096_S4096x1_0 : (⟨S4096, .f32⟩ : BufTy).Contents (Elt F) → (⟨S4096x1, .f32⟩ : BufTy).Contents (Elt F)) ]
theorem opsP1_sub : (opsP1 : List (HloOp τ sig (Elt F))).Forall fun op => op.bufs ⊆ tcRefs τ sig :=
  ⟨binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub ..⟩
theorem opsP1_fresh : ∀ op ∈ (opsP1 : List (HloOp τ sig (Elt F))), op.fresh = ∅ := by
  intro _ h; (repeat (cases h with | head => rfl | tail _ h => ?_)); exact nomatch h
abbrev opsP1_W : List (Ref sig .tc) := [main_v15, main_v16, main_c_2, main_c_3, main_call1_v0, main_call1_v1, main_call1_v2, main_call1_v3, main_call1_v4, main_v17, main_v18, main_v19, main_v20, main_v21, main_v22, main_cst_4, main_v23, main_v24, main_cst_5, main_v25, main_v26, main_cst_6, main_v27, main_v28]
theorem opsP1_writes : (opsP1 : List (HloOp τ sig (Elt F))).Forall fun op => op.writes ⊆ (opsP1_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP1_keep (V : Valuation τ sig (Elt F)) (r : Ref sig .tc) (h : r ∉ opsP1_W) :
    after opsP1 V (Proc.devRef .tc r) = V (Proc.devRef .tc r) := after_of_writes_sub opsP1 _ opsP1_writes h

abbrev opsP2 : List (HloOp τ sig (Elt F)) :=
  [ StableHlo.unary main_v22 main_v29 (broadcastInDim S4096x1 ![0] bcast_S4096_S4096x1_0 : (⟨S4096, .f32⟩ : BufTy).Contents (Elt F) → (⟨S4096x1, .f32⟩ : BufTy).Contents (Elt F)),
    StableHlo.unary main_v24 main_v30 (broadcastInDim S4096x1 ![0] bcast_S4096_S4096x1_0 : (⟨S4096, .f32⟩ : BufTy).Contents (Elt F) → (⟨S4096x1, .f32⟩ : BufTy).Contents (Elt F)),
    StableHlo.unary main_v26 main_v31 (broadcastInDim S4096x1 ![0] bcast_S4096_S4096x1_0 : (⟨S4096, .f32⟩ : BufTy).Contents (Elt F) → (⟨S4096x1, .f32⟩ : BufTy).Contents (Elt F)),
    StableHlo.unary main_v27 main_v32 (broadcastInDim S4096x1 ![0] bcast_S4096_S4096x1_0 : (⟨S4096, .f32⟩ : BufTy).Contents (Elt F) → (⟨S4096x1, .f32⟩ : BufTy).Contents (Elt F)) ]
theorem opsP2_sub : (opsP2 : List (HloOp τ sig (Elt F))).Forall fun op => op.bufs ⊆ tcRefs τ sig :=
  ⟨unary_bufs_sub .., unary_bufs_sub .., unary_bufs_sub .., unary_bufs_sub ..⟩
theorem opsP2_fresh : ∀ op ∈ (opsP2 : List (HloOp τ sig (Elt F))), op.fresh = ∅ := by
  intro _ h; (repeat (cases h with | head => rfl | tail _ h => ?_)); exact nomatch h
abbrev opsP2_W : List (Ref sig .tc) := [main_v29, main_v30, main_v31, main_v32]
theorem opsP2_writes : (opsP2 : List (HloOp τ sig (Elt F))).Forall fun op => op.writes ⊆ (opsP2_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP2_keep (V : Valuation τ sig (Elt F)) (r : Ref sig .tc) (h : r ∉ opsP2_W) :
    after opsP2 V (Proc.devRef .tc r) = V (Proc.devRef .tc r) := after_of_writes_sub opsP2 _ opsP2_writes h

abbrev opsP3 : List (HloOp τ sig (Elt F)) :=
  [ StableHlo.nary ![main_v28, main_v29, main_v30, main_v31, main_v32] main_v33 (fun u => concatenate S4096x5 1 [⟨S4096x1, u 0⟩, ⟨S4096x1, u 1⟩, ⟨S4096x1, u 2⟩, ⟨S4096x1, u 3⟩, ⟨S4096x1, u 4⟩] concatenates_S4096x1_S4096x1_S4096x1_S4096x1_S4096x1_S4096x5_d1),
    StableHlo.nullary main_cst_7 (constant S_ .f32 0x00000000#32),
    StableHlo.unary main_cst_7 main_v34 (broadcastInDim S128x160x160x5 ![] bcast_S_S128x160x160x5 : (⟨S_, .f32⟩ : BufTy).Contents (Elt F) → (⟨S128x160x160x5, .f32⟩ : BufTy).Contents (Elt F)),
    StableHlo.nullary main_c_8 (constantI S_ 32 0#32),
    StableHlo.unary main_c_8 main_v35 (broadcastInDim S4096 ![] bcast_S_S4096 : (⟨S_, .i32⟩ : BufTy).Contents (Elt F) → (⟨S4096, .i32⟩ : BufTy).Contents (Elt F)),
    StableHlo.binary main_v2 main_v35 main_v36 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 128#32),
    StableHlo.unary main_c_9 main_v37 (broadcastInDim S4096 ![] bcast_S_S4096 : (⟨S_, .i32⟩ : BufTy).Contents (Elt F) → (⟨S4096, .i32⟩ : BufTy).Contents (Elt F)),
    StableHlo.binary main_v2 main_v37 main_v38 (addi : (⟨S4096, .i32⟩ : BufTy).Contents (Elt F) → (⟨S4096, .i32⟩ : BufTy).Contents (Elt F) → (⟨S4096, .i32⟩ : BufTy).Contents (Elt F)),
    StableHlo.ternary main_v36 main_v38 main_v2 main_v39 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_10 (constantI S_ 32 0#32),
    StableHlo.unary main_c_10 main_v40 (broadcastInDim S4096 ![] bcast_S_S4096 : (⟨S_, .i32⟩ : BufTy).Contents (Elt F) → (⟨S4096, .i32⟩ : BufTy).Contents (Elt F)),
    StableHlo.binary main_v18 main_v40 main_v41 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 160#32),
    StableHlo.unary main_c_11 main_v42 (broadcastInDim S4096 ![] bcast_S_S4096 : (⟨S_, .i32⟩ : BufTy).Contents (Elt F) → (⟨S4096, .i32⟩ : BufTy).Contents (Elt F)),
    StableHlo.binary main_v18 main_v42 main_v43 (addi : (⟨S4096, .i32⟩ : BufTy).Contents (Elt F) → (⟨S4096, .i32⟩ : BufTy).Contents (Elt F) → (⟨S4096, .i32⟩ : BufTy).Contents (Elt F)),
    StableHlo.ternary main_v41 main_v43 main_v18 main_v44 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_12 (constantI S_ 32 0#32) ]
theorem opsP3_sub : (opsP3 : List (HloOp τ sig (Elt F))).Forall fun op => op.bufs ⊆ tcRefs τ sig :=
  ⟨nary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub ..⟩
theorem opsP3_fresh : ∀ op ∈ (opsP3 : List (HloOp τ sig (Elt F))), op.fresh = ∅ := by
  intro _ h; (repeat (cases h with | head => rfl | tail _ h => ?_)); exact nomatch h
abbrev opsP3_W : List (Ref sig .tc) := [main_v33, main_cst_7, main_v34, main_c_8, main_v35, main_v36, main_c_9, main_v37, main_v38, main_v39, main_c_10, main_v40, main_v41, main_c_11, main_v42, main_v43, main_v44, main_c_12]
theorem opsP3_writes : (opsP3 : List (HloOp τ sig (Elt F))).Forall fun op => op.writes ⊆ (opsP3_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP3_keep (V : Valuation τ sig (Elt F)) (r : Ref sig .tc) (h : r ∉ opsP3_W) :
    after opsP3 V (Proc.devRef .tc r) = V (Proc.devRef .tc r) := after_of_writes_sub opsP3 _ opsP3_writes h

abbrev opsW0 : List (HloOp τ sig (Elt F)) := opsP0 ++ opsP1 ++ opsP2 ++ opsP3
set_option maxRecDepth 8192 in
set_option maxHeartbeats 4000000 in
theorem main_part0_eq (c : Dev nD) : main_part0 (F := F) c = seq opsW0 := by
  simp only [main_part0, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps1.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP4 : List (HloOp τ sig (Elt F)) :=
  [ StableHlo.unary main_c_12 main_v45 (broadcastInDim S4096 ![] bcast_S_S4096 : (⟨S_, .i32⟩ : BufTy).Contents (Elt F) → (⟨S4096, .i32⟩ : BufTy).Contents (Elt F)),
    StableHlo.binary main_v16 main_v45 main_v46 (cmpi .slt : (⟨S4096, .i32⟩ : BufTy).Contents (Elt F) → (⟨S4096, .i32⟩ : BufTy).Contents (Elt F) → (⟨S4096, .i1⟩ : BufTy).Contents (Elt F)),
    StableHlo.nullary main_c_13 (constantI S_ 32 160#32),
    StableHlo.unary main_c_13 main_v47 (broadcastInDim S4096 ![] bcast_S_S4096 : (⟨S_, .i32⟩ : BufTy).Contents (Elt F) → (⟨S4096, .i32⟩ : BufTy).Contents (Elt F)),
    StableHlo.binary main_v16 main_v47 main_v48 (addi : (⟨S4096, .i32⟩ : BufTy).Contents (Elt F) → (⟨S4096, .i32⟩ : BufTy).Contents (Elt F) → (⟨S4096, .i32⟩ : BufTy).Contents (Elt F)),
    StableHlo.ternary main_v46 main_v48 main_v16 main_v49 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v39 main_v50 (broadcastInDim S4096x1 ![0] bcast_S4096_S4096x1_0 : (⟨S4096, .i32⟩ : BufTy).Contents (Elt F) → (⟨S4096x1, .i32⟩ : BufTy).Contents (Elt F)),
    StableHlo.unary main_v44 main_v51 (broadcastInDim S4096x1 ![0] bcast_S4096_S4096x1_0 : (⟨S4096, .i32⟩ : BufTy).Contents (Elt F) → (⟨S4096x1, .i32⟩ : BufTy).Contents (Elt F)),
    StableHlo.unary main_v49 main_v52 (broadcastInDim S4096x1 ![0] bcast_S4096_S4096x1_0 : (⟨S4096, .i32⟩ : BufTy).Contents (Elt F) → (⟨S4096x1, .i32⟩ : BufTy).Contents (Elt F)) ]
theorem opsP4_sub : (opsP4 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., unary_bufs_sub .., unary_bufs_sub ..⟩
theorem opsP4_fresh : ∀ op ∈ (opsP4 : List (HloOp τ sig (Elt F))), op.fresh = ∅ := by
  intro _ h; (repeat (cases h with | head => rfl | tail _ h => ?_)); exact nomatch h
abbrev opsP4_W : List (Ref sig .tc) := [main_v45, main_v46, main_c_13, main_v47, main_v48, main_v49, main_v50, main_v51, main_v52]
theorem opsP4_writes : (opsP4 : List (HloOp τ sig (Elt F))).Forall fun op => op.writes ⊆ (opsP4_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP4_keep (V : Valuation τ sig (Elt F)) (r : Ref sig .tc) (h : r ∉ opsP4_W) :
    after opsP4 V (Proc.devRef .tc r) = V (Proc.devRef .tc r) := after_of_writes_sub opsP4 _ opsP4_writes h

abbrev opsP5 : List (HloOp τ sig (Elt F)) :=
  [ StableHlo.nary ![main_v50, main_v51, main_v52] main_v53 (fun u => concatenate S4096x3 1 [⟨S4096x1, u 0⟩, ⟨S4096x1, u 1⟩, ⟨S4096x1, u 2⟩] concatenates_S4096x1_S4096x1_S4096x1_S4096x3_d1),
    StableHlo.ternary main_v34 main_v53 main_v33 main_v54 ((fun x i u => Host.scatter scatter_S128x160x160x5_S4096x3_S4096x5_1_012_012_1 (fun _ b => b) x i u) : (⟨S128x160x160x5, .f32⟩ : BufTy).Contents (Elt F) → (⟨S4096x3, .i32⟩ : BufTy).Contents (Elt F) → (⟨S4096x5, .f32⟩ : BufTy).Contents (Elt F) → (⟨S128x160x160x5, .f32⟩ : BufTy).Contents (Elt F)),
    StableHlo.nullary main_c_14 (constantI S_ 1 0#1),
    StableHlo.unary main_c_14 main_v55 (broadcastInDim S128x160x160 ![] bcast_S_S128x160x160 : (⟨S_, .i1⟩ : BufTy).Contents (Elt F) → (⟨S128x160x160, .i1⟩ : BufTy).Contents (Elt F)),
    StableHlo.nullary main_c_15 (constantI S_ 32 0#32),
    StableHlo.unary main_c_15 main_v56 (broadcastInDim S4096 ![] bcast_S_S4096 : (⟨S_, .i32⟩ : BufTy).Contents (Elt F) → (⟨S4096, .i32⟩ : BufTy).Contents (Elt F)),
    StableHlo.binary main_v2 main_v56 main_v57 (cmpi .slt : (⟨S4096, .i32⟩ : BufTy).Contents (Elt F) → (⟨S4096, .i32⟩ : BufTy).Contents (Elt F) → (⟨S4096, .i1⟩ : BufTy).Contents (Elt F)),
    StableHlo.nullary main_c_16 (constantI S_ 32 128#32),
    StableHlo.unary main_c_16 main_v58 (broadcastInDim S4096 ![] bcast_S_S4096 : (⟨S_, .i32⟩ : BufTy).Contents (Elt F) → (⟨S4096, .i32⟩ : BufTy).Contents (Elt F)),
    StableHlo.binary main_v2 main_v58 main_v59 (addi : (⟨S4096, .i32⟩ : BufTy).Contents (Elt F) → (⟨S4096, .i32⟩ : BufTy).Contents (Elt F) → (⟨S4096, .i32⟩ : BufTy).Contents (Elt F)),
    StableHlo.ternary main_v57 main_v59 main_v2 main_v60 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_17 (constantI S_ 32 0#32),
    StableHlo.unary main_c_17 main_v61 (broadcastInDim S4096 ![] bcast_S_S4096 : (⟨S_, .i32⟩ : BufTy).Contents (Elt F) → (⟨S4096, .i32⟩ : BufTy).Contents (Elt F)),
    StableHlo.binary main_v18 main_v61 main_v62 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 160#32),
    StableHlo.unary main_c_18 main_v63 (broadcastInDim S4096 ![] bcast_S_S4096 : (⟨S_, .i32⟩ : BufTy).Contents (Elt F) → (⟨S4096, .i32⟩ : BufTy).Contents (Elt F)),
    StableHlo.binary main_v18 main_v63 main_v64 (addi : (⟨S4096, .i32⟩ : BufTy).Contents (Elt F) → (⟨S4096, .i32⟩ : BufTy).Contents (Elt F) → (⟨S4096, .i32⟩ : BufTy).Contents (Elt F)),
    StableHlo.ternary main_v62 main_v64 main_v18 main_v65 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_19 (constantI S_ 32 0#32),
    StableHlo.unary main_c_19 main_v66 (broadcastInDim S4096 ![] bcast_S_S4096 : (⟨S_, .i32⟩ : BufTy).Contents (Elt F) → (⟨S4096, .i32⟩ : BufTy).Contents (Elt F)),
    StableHlo.binary main_v16 main_v66 main_v67 (cmpi .slt : (⟨S4096, .i32⟩ : BufTy).Contents (Elt F) → (⟨S4096, .i32⟩ : BufTy).Contents (Elt F) → (⟨S4096, .i1⟩ : BufTy).Contents (Elt F)),
    StableHlo.nullary main_c_20 (constantI S_ 32 160#32),
    StableHlo.unary main_c_20 main_v68 (broadcastInDim S4096 ![] bcast_S_S4096 : (⟨S_, .i32⟩ : BufTy).Contents (Elt F) → (⟨S4096, .i32⟩ : BufTy).Contents (Elt F)),
    StableHlo.binary main_v16 main_v68 main_v69 (addi : (⟨S4096, .i32⟩ : BufTy).Contents (Elt F) → (⟨S4096, .i32⟩ : BufTy).Contents (Elt F) → (⟨S4096, .i32⟩ : BufTy).Contents (Elt F)) ]
theorem opsP5_sub : (opsP5 : List (HloOp τ sig (Elt F))).Forall fun op => op.bufs ⊆ tcRefs τ sig :=
  ⟨nary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
theorem opsP5_fresh : ∀ op ∈ (opsP5 : List (HloOp τ sig (Elt F))), op.fresh = ∅ := by
  intro _ h; (repeat (cases h with | head => rfl | tail _ h => ?_)); exact nomatch h
abbrev opsP5_W : List (Ref sig .tc) := [main_v53, main_v54, main_c_14, main_v55, main_c_15, main_v56, main_v57, main_c_16, main_v58, main_v59, main_v60, main_c_17, main_v61, main_v62, main_c_18, main_v63, main_v64, main_v65, main_c_19, main_v66, main_v67, main_c_20, main_v68, main_v69]
theorem opsP5_writes : (opsP5 : List (HloOp τ sig (Elt F))).Forall fun op => op.writes ⊆ (opsP5_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP5_keep (V : Valuation τ sig (Elt F)) (r : Ref sig .tc) (h : r ∉ opsP5_W) :
    after opsP5 V (Proc.devRef .tc r) = V (Proc.devRef .tc r) := after_of_writes_sub opsP5 _ opsP5_writes h

abbrev opsP6 : List (HloOp τ sig (Elt F)) :=
  [ StableHlo.ternary main_v67 main_v69 main_v16 main_v70 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v60 main_v71 (broadcastInDim S4096x1 ![0] bcast_S4096_S4096x1_0 : (⟨S4096, .i32⟩ : BufTy).Contents (Elt F) → (⟨S4096x1, .i32⟩ : BufTy).Contents (Elt F)),
    StableHlo.unary main_v65 main_v72 (broadcastInDim S4096x1 ![0] bcast_S4096_S4096x1_0 : (⟨S4096, .i32⟩ : BufTy).Contents (Elt F) → (⟨S4096x1, .i32⟩ : BufTy).Contents (Elt F)),
    StableHlo.unary main_v70 main_v73 (broadcastInDim S4096x1 ![0] bcast_S4096_S4096x1_0 : (⟨S4096, .i32⟩ : BufTy).Contents (Elt F) → (⟨S4096x1, .i32⟩ : BufTy).Contents (Elt F)) ]
theorem opsP6_sub : (opsP6 : List (HloOp τ sig (Elt F))).Forall fun op => op.bufs ⊆ tcRefs τ sig :=
  ⟨ternary_bufs_sub .., unary_bufs_sub .., unary_bufs_sub .., unary_bufs_sub ..⟩
theorem opsP6_fresh : ∀ op ∈ (opsP6 : List (HloOp τ sig (Elt F))), op.fresh = ∅ := by
  intro _ h; (repeat (cases h with | head => rfl | tail _ h => ?_)); exact nomatch h
abbrev opsP6_W : List (Ref sig .tc) := [main_v70, main_v71, main_v72, main_v73]
theorem opsP6_writes : (opsP6 : List (HloOp τ sig (Elt F))).Forall fun op => op.writes ⊆ (opsP6_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP6_keep (V : Valuation τ sig (Elt F)) (r : Ref sig .tc) (h : r ∉ opsP6_W) :
    after opsP6 V (Proc.devRef .tc r) = V (Proc.devRef .tc r) := after_of_writes_sub opsP6 _ opsP6_writes h

abbrev opsP7 : List (HloOp τ sig (Elt F)) :=
  [ StableHlo.nary ![main_v71, main_v72, main_v73] main_v74 (fun u => concatenate S4096x3 1 [⟨S4096x1, u 0⟩, ⟨S4096x1, u 1⟩, ⟨S4096x1, u 2⟩] concatenates_S4096x1_S4096x1_S4096x1_S4096x3_d1),
    StableHlo.nullary main_c_21 (constantI S_ 1 1#1),
    StableHlo.unary main_c_21 main_v75 (broadcastInDim S4096 ![] bcast_S_S4096 : (⟨S_, .i1⟩ : BufTy).Contents (Elt F) → (⟨S4096, .i1⟩ : BufTy).Contents (Elt F)),
    StableHlo.ternary main_v55 main_v74 main_v75 main_v76 ((fun x i u => Host.scatter scatter_S128x160x160_S4096x3_S4096_n_012_012_1 (fun _ b => b) x i u) : (⟨S128x160x160, .i1⟩ : BufTy).Contents (Elt F) → (⟨S4096x3, .i32⟩ : BufTy).Contents (Elt F) → (⟨S4096, .i1⟩ : BufTy).Contents (Elt F) → (⟨S128x160x160, .i1⟩ : BufTy).Contents (Elt F)),
    StableHlo.unary main_arg0 main_v77 ((transpose S128x160x160x5 [0, 2, 3, 1] · transposes_S128x5x160x160_S128x160x160x5_0_2_3_1) : (⟨S128x5x160x160, .f32⟩ : BufTy).Contents (Elt F) → (⟨S128x160x160x5, .f32⟩ : BufTy).Contents (Elt F)),
    StableHlo.unary main_v76 main_v78 (uitofp .f32 : (⟨S128x160x160, .i1⟩ : BufTy).Contents (Elt F) → (⟨S128x160x160, .f32⟩ : BufTy).Contents (Elt F)),
    StableHlo.nullary main_cst_22 (constant S_ .f32 0x00000000#32),
    StableHlo.binary main_v78 main_cst_22 main_v79 ((fun x v => Host.reduceAdd x v reducesTo_S128x160x160_S_d0_1_2 h_S_) : (⟨S128x160x160, .f32⟩ : BufTy).Contents (Elt F) → (⟨S_, .f32⟩ : BufTy).Contents (Elt F) → (⟨S_, .f32⟩ : BufTy).Contents (Elt F)),
    StableHlo.unary main_v77 main_v80 ((extractStridedSlice S128x160x160x2 ![0, 0, 0, 0] · slices_S128x160x160x5_S128x160x160x2_0_0_0_0) : (⟨S128x160x160x5, .f32⟩ : BufTy).Contents (Elt F) → (⟨S128x160x160x2, .f32⟩ : BufTy).Contents (Elt F)),
    StableHlo.unary main_v80 main_v81 (Host.negf : (⟨S128x160x160x2, .f32⟩ : BufTy).Contents (Elt F) → (⟨S128x160x160x2, .f32⟩ : BufTy).Contents (Elt F)),
    StableHlo.unary main_v81 main_v82 (Host.exp : (⟨S128x160x160x2, .f32⟩ : BufTy).Contents (Elt F) → (⟨S128x160x160x2, .f32⟩ : BufTy).Contents (Elt F)),
    StableHlo.nullary main_cst_23 (constant S_ .f32 0x3F800000#32),
    StableHlo.unary main_cst_23 main_v83 (broadcastInDim S128x160x160x2 ![] bcast_S_S128x160x160x2 : (⟨S_, .f32⟩ : BufTy).Contents (Elt F) → (⟨S128x160x160x2, .f32⟩ : BufTy).Contents (Elt F)),
    StableHlo.binary main_v83 main_v82 main_v84 (addf : (⟨S128x160x160x2, .f32⟩ : BufTy).Contents (Elt F) → (⟨S128x160x160x2, .f32⟩ : BufTy).Contents (Elt F) → (⟨S128x160x160x2, .f32⟩ : BufTy).Contents (Elt F)),
    StableHlo.nullary main_cst_24 (constant S_ .f32 0x3F800000#32),
    StableHlo.unary main_cst_24 main_v85 (broadcastInDim S128x160x160x2 ![] bcast_S_S128x160x160x2 : (⟨S_, .f32⟩ : BufTy).Contents (Elt F) → (⟨S128x160x160x2, .f32⟩ : BufTy).Contents (Elt F)),
    StableHlo.binary main_v85 main_v84 main_v86 (Host.divf : (⟨S128x160x160x2, .f32⟩ : BufTy).Contents (Elt F) → (⟨S128x160x160x2, .f32⟩ : BufTy).Contents (Elt F) → (⟨S128x160x160x2, .f32⟩ : BufTy).Contents (Elt F)),
    StableHlo.unary main_v77 main_v87 ((extractStridedSlice S128x160x160x2 ![0, 0, 0, 2] · slices_S128x160x160x5_S128x160x160x2_0_0_0_2) : (⟨S128x160x160x5, .f32⟩ : BufTy).Contents (Elt F) → (⟨S128x160x160x2, .f32⟩ : BufTy).Contents (Elt F)),
    StableHlo.unary main_v78 main_v88 (broadcastInDim S128x160x160x1 ![0, 1, 2] bcast_S128x160x160_S128x160x160x1_0_1_2 : (⟨S128x160x160, .f32⟩ : BufTy).Contents (Elt F) → (⟨S128x160x160x1, .f32⟩ : BufTy).Contents (Elt F)),
    StableHlo.nullary main_cst_25 (constant S_ .f32 0x3F800000#32),
    StableHlo.binary main_v79 main_cst_25 main_v89 (maximumf : (⟨S_, .f32⟩ : BufTy).Contents (Elt F) → (⟨S_, .f32⟩ : BufTy).Contents (Elt F) → (⟨S_, .f32⟩ : BufTy).Contents (Elt F)),
    StableHlo.nullary main_cst_26 (constant S_ .f32 0x40000000#32),
    StableHlo.binary main_v89 main_cst_26 main_v90 (mulf : (⟨S_, .f32⟩ : BufTy).Contents (Elt F) → (⟨S_, .f32⟩ : BufTy).Contents (Elt F) → (⟨S_, .f32⟩ : BufTy).Contents (Elt F)) ]
theorem opsP7_sub : (opsP7 : List (HloOp τ sig (Elt F))).Forall fun op => op.bufs ⊆ tcRefs τ sig :=
  ⟨nary_bufs_sub .., nullary_bufs_sub .., unary_bufs_sub .., ternary_bufs_sub .., unary_bufs_sub .., unary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., binary_bufs_sub .., nullary_bufs_sub .., binary_bufs_sub ..⟩
theorem opsP7_fresh : ∀ op ∈ (opsP7 : List (HloOp τ sig (Elt F))), op.fresh = ∅ := by
  intro _ h; (repeat (cases h with | head => rfl | tail _ h => ?_)); exact nomatch h
abbrev opsP7_W : List (Ref sig .tc) := [main_v74, main_c_21, main_v75, main_v76, main_v77, main_v78, main_cst_22, main_v79, main_v80, main_v81, main_v82, main_cst_23, main_v83, main_v84, main_cst_24, main_v85, main_v86, main_v87, main_v88, main_cst_25, main_v89, main_cst_26, main_v90]
theorem opsP7_writes : (opsP7 : List (HloOp τ sig (Elt F))).Forall fun op => op.writes ⊆ (opsP7_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP7_keep (V : Valuation τ sig (Elt F)) (r : Ref sig .tc) (h : r ∉ opsP7_W) :
    after opsP7 V (Proc.devRef .tc r) = V (Proc.devRef .tc r) := after_of_writes_sub opsP7 _ opsP7_writes h

abbrev opsW1 : List (HloOp τ sig (Elt F)) := opsP4 ++ opsP5 ++ opsP6 ++ opsP7
set_option maxRecDepth 8192 in
set_option maxHeartbeats 4000000 in
theorem main_part1_eq (c : Dev nD) : main_part1 (F := F) c = seq opsW1 := by
  simp only [main_part1, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps2.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP8 : List (HloOp τ sig (Elt F)) :=
  [ StableHlo.unary main_v54 main_v91 ((extractStridedSlice S128x160x160x2 ![0, 0, 0, 0] · slices_S128x160x160x5_S128x160x160x2_0_0_0_0) : (⟨S128x160x160x5, .f32⟩ : BufTy).Contents (Elt F) → (⟨S128x160x160x2, .f32⟩ : BufTy).Contents (Elt F)),
    StableHlo.binary main_v86 main_v91 main_v92 (subf : (⟨S128x160x160x2, .f32⟩ : BufTy).Contents (Elt F) → (⟨S128x160x160x2, .f32⟩ : BufTy).Contents (Elt F) → (⟨S128x160x160x2, .f32⟩ : BufTy).Contents (Elt F)),
    StableHlo.binary main_v92 main_v92 main_v93 (mulf : (⟨S128x160x160x2, .f32⟩ : BufTy).Contents (Elt F) → (⟨S128x160x160x2, .f32⟩ : BufTy).Contents (Elt F) → (⟨S128x160x160x2, .f32⟩ : BufTy).Contents (Elt F)),
    StableHlo.unary main_v88 main_v94 (broadcastInDim S128x160x160x2 ![0, 1, 2, 3] bcast_S128x160x160x1_S128x160x160x2_0_1_2_3 : (⟨S128x160x160x1, .f32⟩ : BufTy).Contents (Elt F) → (⟨S128x160x160x2, .f32⟩ : BufTy).Contents (Elt F)),
    StableHlo.binary main_v93 main_v94 main_v95 (mulf : (⟨S128x160x160x2, .f32⟩ : BufTy).Contents (Elt F) → (⟨S128x160x160x2, .f32⟩ : BufTy).Contents (Elt F) → (⟨S128x160x160x2, .f32⟩ : BufTy).Contents (Elt F)),
    StableHlo.nullary main_cst_27 (constant S_ .f32 0x00000000#32),
    StableHlo.binary main_v95 main_cst_27 main_v96 ((fun x v => Host.reduceAdd x v reducesTo_S128x160x160x2_S_d0_1_2_3 h_S_) : (⟨S128x160x160x2, .f32⟩ : BufTy).Contents (Elt F) → (⟨S_, .f32⟩ : BufTy).Contents (Elt F) → (⟨S_, .f32⟩ : BufTy).Contents (Elt F)),
    StableHlo.binary main_v96 main_v90 main_v97 (Host.divf : (⟨S_, .f32⟩ : BufTy).Contents (Elt F) → (⟨S_, .f32⟩ : BufTy).Contents (Elt F) → (⟨S_, .f32⟩ : BufTy).Contents (Elt F)),
    StableHlo.unary main_v54 main_v98 ((extractStridedSlice S128x160x160x2 ![0, 0, 0, 2] · slices_S128x160x160x5_S128x160x160x2_0_0_0_2) : (⟨S128x160x160x5, .f32⟩ : BufTy).Contents (Elt F) → (⟨S128x160x160x2, .f32⟩ : BufTy).Contents (Elt F)),
    StableHlo.binary main_v87 main_v98 main_v99 (subf : (⟨S128x160x160x2, .f32⟩ : BufTy).Contents (Elt F) → (⟨S128x160x160x2, .f32⟩ : BufTy).Contents (Elt F) → (⟨S128x160x160x2, .f32⟩ : BufTy).Contents (Elt F)),
    StableHlo.binary main_v99 main_v99 main_v100 (mulf : (⟨S128x160x160x2, .f32⟩ : BufTy).Contents (Elt F) → (⟨S128x160x160x2, .f32⟩ : BufTy).Contents (Elt F) → (⟨S128x160x160x2, .f32⟩ : BufTy).Contents (Elt F)),
    StableHlo.unary main_v88 main_v101 (broadcastInDim S128x160x160x2 ![0, 1, 2, 3] bcast_S128x160x160x1_S128x160x160x2_0_1_2_3 : (⟨S128x160x160x1, .f32⟩ : BufTy).Contents (Elt F) → (⟨S128x160x160x2, .f32⟩ : BufTy).Contents (Elt F)),
    StableHlo.binary main_v100 main_v101 main_v102 (mulf : (⟨S128x160x160x2, .f32⟩ : BufTy).Contents (Elt F) → (⟨S128x160x160x2, .f32⟩ : BufTy).Contents (Elt F) → (⟨S128x160x160x2, .f32⟩ : BufTy).Contents (Elt F)),
    StableHlo.nullary main_cst_28 (constant S_ .f32 0x00000000#32),
    StableHlo.binary main_v102 main_cst_28 main_v103 ((fun x v => Host.reduceAdd x v reducesTo_S128x160x160x2_S_d0_1_2_3 h_S_) : (⟨S128x160x160x2, .f32⟩ : BufTy).Contents (Elt F) → (⟨S_, .f32⟩ : BufTy).Contents (Elt F) → (⟨S_, .f32⟩ : BufTy).Contents (Elt F)),
    StableHlo.binary main_v103 main_v90 main_v104 (Host.divf : (⟨S_, .f32⟩ : BufTy).Contents (Elt F) → (⟨S_, .f32⟩ : BufTy).Contents (Elt F) → (⟨S_, .f32⟩ : BufTy).Contents (Elt F)),
    StableHlo.nullary main_cst_29 (constant S_ .f32 0x00000000#32),
    StableHlo.binary main_v79 main_cst_29 main_v105 (cmpf .ogt : (⟨S_, .f32⟩ : BufTy).Contents (Elt F) → (⟨S_, .f32⟩ : BufTy).Contents (Elt F) → (⟨S_, .i1⟩ : BufTy).Contents (Elt F)),
    StableHlo.binary main_v97 main_v104 main_v106 (addf : (⟨S_, .f32⟩ : BufTy).Contents (Elt F) → (⟨S_, .f32⟩ : BufTy).Contents (Elt F) → (⟨S_, .f32⟩ : BufTy).Contents (Elt F)),
    StableHlo.nullary main_cst_30 (constant S_ .f32 0x00000000#32),
    StableHlo.TRef.unary (.of main_cst_30) main_call2.v0 id,
    StableHlo.TRef.ternary (.of main_v105) (.of main_v106) main_call2.v0 main_call2.v1 select,
    StableHlo.unary main_v77 main_v108 ((extractStridedSlice S128x160x160x1 ![0, 0, 0, 4] · slices_S128x160x160x5_S128x160x160x1_0_0_0_4) : (⟨S128x160x160x5, .f32⟩ : BufTy).Contents (Elt F) → (⟨S128x160x160x1, .f32⟩ : BufTy).Contents (Elt F)),
    StableHlo.reshape main_v108 main_v109 rfl shapeCasts_S128x160x160x1_S128x160x160 ]
theorem opsP8_sub : (opsP8 : List (HloOp τ sig (Elt F))).Forall fun op => op.bufs ⊆ tcRefs τ sig :=
  ⟨unary_bufs_sub .., binary_bufs_sub .., binary_bufs_sub .., unary_bufs_sub .., binary_bufs_sub .., nullary_bufs_sub .., binary_bufs_sub .., binary_bufs_sub .., unary_bufs_sub .., binary_bufs_sub .., binary_bufs_sub .., unary_bufs_sub .., binary_bufs_sub .., nullary_bufs_sub .., binary_bufs_sub .., binary_bufs_sub .., nullary_bufs_sub .., binary_bufs_sub .., binary_bufs_sub .., nullary_bufs_sub .., unary_bufs_sub .., ternary_bufs_sub .., unary_bufs_sub .., reshape_bufs_sub ..⟩
theorem opsP8_fresh : ∀ op ∈ (opsP8 : List (HloOp τ sig (Elt F))), op.fresh = ∅ := by
  intro _ h; (repeat (cases h with | head => rfl | tail _ h => ?_)); exact nomatch h
abbrev opsP8_W : List (Ref sig .tc) := [main_v91, main_v92, main_v93, main_v94, main_v95, main_cst_27, main_v96, main_v97, main_v98, main_v99, main_v100, main_v101, main_v102, main_cst_28, main_v103, main_v104, main_cst_29, main_v105, main_v106, main_cst_30, main_call2_v0, main_v107, main_v108, main_v109]
theorem opsP8_writes : (opsP8 : List (HloOp τ sig (Elt F))).Forall fun op => op.writes ⊆ (opsP8_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP8_keep (V : Valuation τ sig (Elt F)) (r : Ref sig .tc) (h : r ∉ opsP8_W) :
    after opsP8 V (Proc.devRef .tc r) = V (Proc.devRef .tc r) := after_of_writes_sub opsP8 _ opsP8_writes h

abbrev opsP9 : List (HloOp τ sig (Elt F)) :=
  [ StableHlo.unary main_v54 main_v110 ((extractStridedSlice S128x160x160x1 ![0, 0, 0, 4] · slices_S128x160x160x5_S128x160x160x1_0_0_0_4) : (⟨S128x160x160x5, .f32⟩ : BufTy).Contents (Elt F) → (⟨S128x160x160x1, .f32⟩ : BufTy).Contents (Elt F)),
    StableHlo.reshape main_v110 main_v111 rfl shapeCasts_S128x160x160x1_S128x160x160,
    StableHlo.TRef.unary (.of main_v109) main_call3.v0 Host.negf,
    StableHlo.TRef.nullary main_call3.call0.cst (constant S_ .f32 0x00000000#32),
    StableHlo.TRef.unary main_call3.call0.cst main_call3.call0.v0 (broadcastInDim S128x160x160 ![] bcast_S_S128x160x160),
    StableHlo.TRef.binary main_call3.v0 main_call3.call0.v0 main_call3.call0.v1 maximumf,
    StableHlo.TRef.unary main_call3.call0.cst main_call3.call0.v2 (broadcastInDim S128x160x160 ![] bcast_S_S128x160x160),
    StableHlo.TRef.binary main_call3.v0 main_call3.call0.v2 main_call3.call0.v3 subf,
    StableHlo.TRef.binary main_call3.call0.v3 main_call3.call0.v3 main_call3.call0.v4 (cmpf .une),
    StableHlo.TRef.unary main_call3.call0.cst main_call3.call0.v5 (broadcastInDim S128x160x160 ![] bcast_S_S128x160x160),
    StableHlo.TRef.binary main_call3.v0 main_call3.call0.v5 main_call3.call0.v6 addf,
    StableHlo.TRef.unary main_call3.call0.v3 main_call3.call0.v7 Host.absf,
    StableHlo.TRef.unary main_call3.call0.v7 main_call3.call0.v8 Host.negf,
    StableHlo.TRef.unary main_call3.call0.v8 main_call3.call0.v9 Host.exp,
    StableHlo.TRef.unary main_call3.call0.v9 main_call3.call0.v10 Host.log1p,
    StableHlo.TRef.binary main_call3.call0.v1 main_call3.call0.v10 main_call3.call0.v11 addf,
    StableHlo.TRef.ternary main_call3.call0.v4 main_call3.call0.v6 main_call3.call0.v11 main_call3.call0.v12 select,
    StableHlo.TRef.unary main_call3.call0.v12 main_call3.v2 Host.negf,
    StableHlo.binary main_v111 main_v112 main_v113 (mulf : (⟨S128x160x160, .f32⟩ : BufTy).Contents (Elt F) → (⟨S128x160x160, .f32⟩ : BufTy).Contents (Elt F) → (⟨S128x160x160, .f32⟩ : BufTy).Contents (Elt F)),
    StableHlo.nullary main_cst_31 (constant S_ .f32 0x3F800000#32),
    StableHlo.unary main_cst_31 main_v114 (broadcastInDim S128x160x160 ![] bcast_S_S128x160x160 : (⟨S_, .f32⟩ : BufTy).Contents (Elt F) → (⟨S128x160x160, .f32⟩ : BufTy).Contents (Elt F)),
    StableHlo.binary main_v114 main_v111 main_v115 (subf : (⟨S128x160x160, .f32⟩ : BufTy).Contents (Elt F) → (⟨S128x160x160, .f32⟩ : BufTy).Contents (Elt F) → (⟨S128x160x160, .f32⟩ : BufTy).Contents (Elt F)),
    StableHlo.unary main_v109 main_v116 (Host.negf : (⟨S128x160x160, .f32⟩ : BufTy).Contents (Elt F) → (⟨S128x160x160, .f32⟩ : BufTy).Contents (Elt F)),
    StableHlo.TRef.unary (.of main_v116) main_call4.v0 Host.negf ]
theorem opsP9_sub : (opsP9 : List (HloOp τ sig (Elt F))).Forall fun op => op.bufs ⊆ tcRefs τ sig :=
  ⟨unary_bufs_sub .., reshape_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., unary_bufs_sub .., binary_bufs_sub .., unary_bufs_sub .., unary_bufs_sub ..⟩
theorem opsP9_fresh : ∀ op ∈ (opsP9 : List (HloOp τ sig (Elt F))), op.fresh = ∅ := by
  intro _ h; (repeat (cases h with | head => rfl | tail _ h => ?_)); exact nomatch h
abbrev opsP9_W : List (Ref sig .tc) := [main_v110, main_v111, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v112, main_v113, main_cst_31, main_v114, main_v115, main_v116, main_call4_v0]
theorem opsP9_writes : (opsP9 : List (HloOp τ sig (Elt F))).Forall fun op => op.writes ⊆ (opsP9_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP9_keep (V : Valuation τ sig (Elt F)) (r : Ref sig .tc) (h : r ∉ opsP9_W) :
    after opsP9 V (Proc.devRef .tc r) = V (Proc.devRef .tc r) := after_of_writes_sub opsP9 _ opsP9_writes h

abbrev opsP10 : List (HloOp τ sig (Elt F)) :=
  [ StableHlo.TRef.nullary main_call4.call0.cst (constant S_ .f32 0x00000000#32),
    StableHlo.TRef.unary main_call4.call0.cst main_call4.call0.v0 (broadcastInDim S128x160x160 ![] bcast_S_S128x160x160),
    StableHlo.TRef.binary main_call4.v0 main_call4.call0.v0 main_call4.call0.v1 maximumf,
    StableHlo.TRef.unary main_call4.call0.cst main_call4.call0.v2 (broadcastInDim S128x160x160 ![] bcast_S_S128x160x160),
    StableHlo.TRef.binary main_call4.v0 main_call4.call0.v2 main_call4.call0.v3 subf,
    StableHlo.TRef.binary main_call4.call0.v3 main_call4.call0.v3 main_call4.call0.v4 (cmpf .une),
    StableHlo.TRef.unary main_call4.call0.cst main_call4.call0.v5 (broadcastInDim S128x160x160 ![] bcast_S_S128x160x160),
    StableHlo.TRef.binary main_call4.v0 main_call4.call0.v5 main_call4.call0.v6 addf,
    StableHlo.TRef.unary main_call4.call0.v3 main_call4.call0.v7 Host.absf,
    StableHlo.TRef.unary main_call4.call0.v7 main_call4.call0.v8 Host.negf,
    StableHlo.TRef.unary main_call4.call0.v8 main_call4.call0.v9 Host.exp,
    StableHlo.TRef.unary main_call4.call0.v9 main_call4.call0.v10 Host.log1p,
    StableHlo.TRef.binary main_call4.call0.v1 main_call4.call0.v10 main_call4.call0.v11 addf,
    StableHlo.TRef.ternary main_call4.call0.v4 main_call4.call0.v6 main_call4.call0.v11 main_call4.call0.v12 select,
    StableHlo.TRef.unary main_call4.call0.v12 main_call4.v2 Host.negf,
    StableHlo.binary main_v115 main_v117 main_v118 (mulf : (⟨S128x160x160, .f32⟩ : BufTy).Contents (Elt F) → (⟨S128x160x160, .f32⟩ : BufTy).Contents (Elt F) → (⟨S128x160x160, .f32⟩ : BufTy).Contents (Elt F)),
    StableHlo.binary main_v113 main_v118 main_v119 (addf : (⟨S128x160x160, .f32⟩ : BufTy).Contents (Elt F) → (⟨S128x160x160, .f32⟩ : BufTy).Contents (Elt F) → (⟨S128x160x160, .f32⟩ : BufTy).Contents (Elt F)),
    StableHlo.unary main_v119 main_v120 (Host.negf : (⟨S128x160x160, .f32⟩ : BufTy).Contents (Elt F) → (⟨S128x160x160, .f32⟩ : BufTy).Contents (Elt F)),
    StableHlo.unary main_v109 main_v121 (Host.negf : (⟨S128x160x160, .f32⟩ : BufTy).Contents (Elt F) → (⟨S128x160x160, .f32⟩ : BufTy).Contents (Elt F)),
    StableHlo.unary main_v121 main_v122 (Host.exp : (⟨S128x160x160, .f32⟩ : BufTy).Contents (Elt F) → (⟨S128x160x160, .f32⟩ : BufTy).Contents (Elt F)),
    StableHlo.nullary main_cst_32 (constant S_ .f32 0x3F800000#32),
    StableHlo.unary main_cst_32 main_v123 (broadcastInDim S128x160x160 ![] bcast_S_S128x160x160 : (⟨S_, .f32⟩ : BufTy).Contents (Elt F) → (⟨S128x160x160, .f32⟩ : BufTy).Contents (Elt F)),
    StableHlo.binary main_v123 main_v122 main_v124 (addf : (⟨S128x160x160, .f32⟩ : BufTy).Contents (Elt F) → (⟨S128x160x160, .f32⟩ : BufTy).Contents (Elt F) → (⟨S128x160x160, .f32⟩ : BufTy).Contents (Elt F)),
    StableHlo.nullary main_cst_33 (constant S_ .f32 0x3F800000#32) ]
theorem opsP10_sub : (opsP10 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., unary_bufs_sub .., unary_bufs_sub .., nullary_bufs_sub .., unary_bufs_sub .., binary_bufs_sub .., nullary_bufs_sub ..⟩
theorem opsP10_fresh : ∀ op ∈ (opsP10 : List (HloOp τ sig (Elt F))), op.fresh = ∅ := by
  intro _ h; (repeat (cases h with | head => rfl | tail _ h => ?_)); exact nomatch h
abbrev opsP10_W : List (Ref sig .tc) := [main_call4_call0_cst, main_call4_call0_v0, main_call4_call0_v1, main_call4_call0_v2, main_call4_call0_v3, main_call4_call0_v4, main_call4_call0_v5, main_call4_call0_v6, main_call4_call0_v7, main_call4_call0_v8, main_call4_call0_v9, main_call4_call0_v10, main_call4_call0_v11, main_call4_v1, main_v117, main_v118, main_v119, main_v120, main_v121, main_v122, main_cst_32, main_v123, main_v124, main_cst_33]
theorem opsP10_writes : (opsP10 : List (HloOp τ sig (Elt F))).Forall fun op => op.writes ⊆ (opsP10_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP10_keep (V : Valuation τ sig (Elt F)) (r : Ref sig .tc) (h : r ∉ opsP10_W) :
    after opsP10 V (Proc.devRef .tc r) = V (Proc.devRef .tc r) := after_of_writes_sub opsP10 _ opsP10_writes h

abbrev opsP11 : List (HloOp τ sig (Elt F)) :=
  [ StableHlo.unary main_cst_33 main_v125 (broadcastInDim S128x160x160 ![] bcast_S_S128x160x160 : (⟨S_, .f32⟩ : BufTy).Contents (Elt F) → (⟨S128x160x160, .f32⟩ : BufTy).Contents (Elt F)),
    StableHlo.binary main_v125 main_v124 main_v126 (Host.divf : (⟨S128x160x160, .f32⟩ : BufTy).Contents (Elt F) → (⟨S128x160x160, .f32⟩ : BufTy).Contents (Elt F) → (⟨S128x160x160, .f32⟩ : BufTy).Contents (Elt F)),
    StableHlo.binary main_v111 main_v126 main_v127 (mulf : (⟨S128x160x160, .f32⟩ : BufTy).Contents (Elt F) → (⟨S128x160x160, .f32⟩ : BufTy).Contents (Elt F) → (⟨S128x160x160, .f32⟩ : BufTy).Contents (Elt F)),
    StableHlo.nullary main_cst_34 (constant S_ .f32 0x3F800000#32),
    StableHlo.unary main_cst_34 main_v128 (broadcastInDim S128x160x160 ![] bcast_S_S128x160x160 : (⟨S_, .f32⟩ : BufTy).Contents (Elt F) → (⟨S128x160x160, .f32⟩ : BufTy).Contents (Elt F)),
    StableHlo.binary main_v128 main_v111 main_v129 (subf : (⟨S128x160x160, .f32⟩ : BufTy).Contents (Elt F) → (⟨S128x160x160, .f32⟩ : BufTy).Contents (Elt F) → (⟨S128x160x160, .f32⟩ : BufTy).Contents (Elt F)),
    StableHlo.nullary main_cst_35 (constant S_ .f32 0x3F800000#32),
    StableHlo.unary main_cst_35 main_v130 (broadcastInDim S128x160x160 ![] bcast_S_S128x160x160 : (⟨S_, .f32⟩ : BufTy).Contents (Elt F) → (⟨S128x160x160, .f32⟩ : BufTy).Contents (Elt F)),
    StableHlo.binary main_v130 main_v126 main_v131 (subf : (⟨S128x160x160, .f32⟩ : BufTy).Contents (Elt F) → (⟨S128x160x160, .f32⟩ : BufTy).Contents (Elt F) → (⟨S128x160x160, .f32⟩ : BufTy).Contents (Elt F)),
    StableHlo.binary main_v129 main_v131 main_v132 (mulf : (⟨S128x160x160, .f32⟩ : BufTy).Contents (Elt F) → (⟨S128x160x160, .f32⟩ : BufTy).Contents (Elt F) → (⟨S128x160x160, .f32⟩ : BufTy).Contents (Elt F)),
    StableHlo.binary main_v127 main_v132 main_v133 (addf : (⟨S128x160x160, .f32⟩ : BufTy).Contents (Elt F) → (⟨S128x160x160, .f32⟩ : BufTy).Contents (Elt F) → (⟨S128x160x160, .f32⟩ : BufTy).Contents (Elt F)),
    StableHlo.nullary main_cst_36 (constant S_ .f32 0x3F800000#32),
    StableHlo.unary main_cst_36 main_v134 (broadcastInDim S128x160x160 ![] bcast_S_S128x160x160 : (⟨S_, .f32⟩ : BufTy).Contents (Elt F) → (⟨S128x160x160, .f32⟩ : BufTy).Contents (Elt F)),
    StableHlo.binary main_v134 main_v133 main_v135 (subf : (⟨S128x160x160, .f32⟩ : BufTy).Contents (Elt F) → (⟨S128x160x160, .f32⟩ : BufTy).Contents (Elt F) → (⟨S128x160x160, .f32⟩ : BufTy).Contents (Elt F)),
    StableHlo.nullary main_cst_37 (constant S_ .f32 0x3FC00000#32),
    StableHlo.unary main_cst_37 main_v136 (broadcastInDim S128x160x160 ![] bcast_S_S128x160x160 : (⟨S_, .f32⟩ : BufTy).Contents (Elt F) → (⟨S128x160x160, .f32⟩ : BufTy).Contents (Elt F)),
    StableHlo.binary main_v135 main_v136 main_v137 (Host.powf : (⟨S128x160x160, .f32⟩ : BufTy).Contents (Elt F) → (⟨S128x160x160, .f32⟩ : BufTy).Contents (Elt F) → (⟨S128x160x160, .f32⟩ : BufTy).Contents (Elt F)),
    StableHlo.nullary main_cst_38 (constant S_ .f32 0x3E800000#32),
    StableHlo.unary main_cst_38 main_v138 (broadcastInDim S128x160x160 ![] bcast_S_S128x160x160 : (⟨S_, .f32⟩ : BufTy).Contents (Elt F) → (⟨S128x160x160, .f32⟩ : BufTy).Contents (Elt F)) ]
theorem opsP11_sub : (opsP11 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub ..⟩
theorem opsP11_fresh : ∀ op ∈ (opsP11 : List (HloOp τ sig (Elt F))), op.fresh = ∅ := by
  intro _ h; (repeat (cases h with | head => rfl | tail _ h => ?_)); exact nomatch h
abbrev opsP11_W : List (Ref sig .tc) := [main_v125, main_v126, main_v127, main_cst_34, main_v128, main_v129, main_cst_35, main_v130, main_v131, main_v132, main_v133, main_cst_36, main_v134, main_v135, main_cst_37, main_v136, main_v137, main_cst_38, main_v138]
theorem opsP11_writes : (opsP11 : List (HloOp τ sig (Elt F))).Forall fun op => op.writes ⊆ (opsP11_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP11_keep (V : Valuation τ sig (Elt F)) (r : Ref sig .tc) (h : r ∉ opsP11_W) :
    after opsP11 V (Proc.devRef .tc r) = V (Proc.devRef .tc r) := after_of_writes_sub opsP11 _ opsP11_writes h

abbrev opsW2 : List (HloOp τ sig (Elt F)) := opsP8 ++ opsP9 ++ opsP10 ++ opsP11
set_option maxRecDepth 8192 in
set_option maxHeartbeats 4000000 in
theorem main_part2_eq (c : Dev nD) : main_part2 (F := F) c = seq opsW2 := by
  simp only [main_part2, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps3.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP12 : List (HloOp τ sig (Elt F)) :=
  [ StableHlo.binary main_v138 main_v137 main_v139 (mulf : (⟨S128x160x160, .f32⟩ : BufTy).Contents (Elt F) → (⟨S128x160x160, .f32⟩ : BufTy).Contents (Elt F) → (⟨S128x160x160, .f32⟩ : BufTy).Contents (Elt F)),
    StableHlo.binary main_v139 main_v120 main_v140 (mulf : (⟨S128x160x160, .f32⟩ : BufTy).Contents (Elt F) → (⟨S128x160x160, .f32⟩ : BufTy).Contents (Elt F) → (⟨S128x160x160, .f32⟩ : BufTy).Contents (Elt F)),
    StableHlo.binary main_v140 main_v78 main_v141 (mulf : (⟨S128x160x160, .f32⟩ : BufTy).Contents (Elt F) → (⟨S128x160x160, .f32⟩ : BufTy).Contents (Elt F) → (⟨S128x160x160, .f32⟩ : BufTy).Contents (Elt F)),
    StableHlo.nullary main_cst_39 (constant S_ .f32 0x00000000#32),
    StableHlo.binary main_v141 main_cst_39 main_v142 ((fun x v => Host.reduceAdd x v reducesTo_S128x160x160_S_d0_1_2 h_S_) : (⟨S128x160x160, .f32⟩ : BufTy).Contents (Elt F) → (⟨S_, .f32⟩ : BufTy).Contents (Elt F) → (⟨S_, .f32⟩ : BufTy).Contents (Elt F)),
    StableHlo.nullary main_cst_40 (constant S_ .f32 0x3F800000#32),
    StableHlo.binary main_v79 main_cst_40 main_v143 (maximumf : (⟨S_, .f32⟩ : BufTy).Contents (Elt F) → (⟨S_, .f32⟩ : BufTy).Contents (Elt F) → (⟨S_, .f32⟩ : BufTy).Contents (Elt F)),
    StableHlo.binary main_v142 main_v143 main_v144 (Host.divf : (⟨S_, .f32⟩ : BufTy).Contents (Elt F) → (⟨S_, .f32⟩ : BufTy).Contents (Elt F) → (⟨S_, .f32⟩ : BufTy).Contents (Elt F)),
    StableHlo.nullary main_cst_41 (constant S_ .f32 0x00000000#32),
    StableHlo.binary main_v79 main_cst_41 main_v145 (cmpf .ogt : (⟨S_, .f32⟩ : BufTy).Contents (Elt F) → (⟨S_, .f32⟩ : BufTy).Contents (Elt F) → (⟨S_, .i1⟩ : BufTy).Contents (Elt F)),
    StableHlo.nullary main_cst_42 (constant S_ .f32 0x00000000#32),
    StableHlo.TRef.unary (.of main_cst_42) main_call5.v0 id,
    StableHlo.TRef.ternary (.of main_v145) (.of main_v144) main_call5.v0 main_call5.v1 select,
    StableHlo.nullary main_cst_43 (constant S_ .f32 0x4A480000#32),
    StableHlo.binary main_cst_43 main_v79 main_v147 (subf : (⟨S_, .f32⟩ : BufTy).Contents (Elt F) → (⟨S_, .f32⟩ : BufTy).Contents (Elt F) → (⟨S_, .f32⟩ : BufTy).Contents (Elt F)),
    StableHlo.nullary main_cst_44 (constant S_ .f32 0x3F800000#32),
    StableHlo.unary main_cst_44 main_v148 (broadcastInDim S128x160x160 ![] bcast_S_S128x160x160 : (⟨S_, .f32⟩ : BufTy).Contents (Elt F) → (⟨S128x160x160, .f32⟩ : BufTy).Contents (Elt F)),
    StableHlo.binary main_v148 main_v78 main_v149 (subf : (⟨S128x160x160, .f32⟩ : BufTy).Contents (Elt F) → (⟨S128x160x160, .f32⟩ : BufTy).Contents (Elt F) → (⟨S128x160x160, .f32⟩ : BufTy).Contents (Elt F)),
    StableHlo.binary main_v140 main_v149 main_v150 (mulf : (⟨S128x160x160, .f32⟩ : BufTy).Contents (Elt F) → (⟨S128x160x160, .f32⟩ : BufTy).Contents (Elt F) → (⟨S128x160x160, .f32⟩ : BufTy).Contents (Elt F)),
    StableHlo.nullary main_cst_45 (constant S_ .f32 0x00000000#32),
    StableHlo.binary main_v150 main_cst_45 main_v151 ((fun x v => Host.reduceAdd x v reducesTo_S128x160x160_S_d0_1_2 h_S_) : (⟨S128x160x160, .f32⟩ : BufTy).Contents (Elt F) → (⟨S_, .f32⟩ : BufTy).Contents (Elt F) → (⟨S_, .f32⟩ : BufTy).Contents (Elt F)),
    StableHlo.nullary main_cst_46 (constant S_ .f32 0x3F800000#32),
    StableHlo.binary main_v147 main_cst_46 main_v152 (maximumf : (⟨S_, .f32⟩ : BufTy).Contents (Elt F) → (⟨S_, .f32⟩ : BufTy).Contents (Elt F) → (⟨S_, .f32⟩ : BufTy).Contents (Elt F)),
    StableHlo.binary main_v151 main_v152 main_v153 (Host.divf : (⟨S_, .f32⟩ : BufTy).Contents (Elt F) → (⟨S_, .f32⟩ : BufTy).Contents (Elt F) → (⟨S_, .f32⟩ : BufTy).Contents (Elt F)) ]
theorem opsP12_sub : (opsP12 : List (HloOp τ sig (Elt F))).Forall fun op => op.bufs ⊆ tcRefs τ sig :=
  ⟨binary_bufs_sub .., binary_bufs_sub .., binary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., nullary_bufs_sub .., binary_bufs_sub .., nullary_bufs_sub .., unary_bufs_sub .., binary_bufs_sub .., binary_bufs_sub .., nullary_bufs_sub .., binary_bufs_sub .., nullary_bufs_sub .., binary_bufs_sub .., binary_bufs_sub ..⟩
theorem opsP12_fresh : ∀ op ∈ (opsP12 : List (HloOp τ sig (Elt F))), op.fresh = ∅ := by
  intro _ h; (repeat (cases h with | head => rfl | tail _ h => ?_)); exact nomatch h
abbrev opsP12_W : List (Ref sig .tc) := [main_v139, main_v140, main_v141, main_cst_39, main_v142, main_cst_40, main_v143, main_v144, main_cst_41, main_v145, main_cst_42, main_call5_v0, main_v146, main_cst_43, main_v147, main_cst_44, main_v148, main_v149, main_v150, main_cst_45, main_v151, main_cst_46, main_v152, main_v153]
theorem opsP12_writes : (opsP12 : List (HloOp τ sig (Elt F))).Forall fun op => op.writes ⊆ (opsP12_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP12_keep (V : Valuation τ sig (Elt F)) (r : Ref sig .tc) (h : r ∉ opsP12_W) :
    after opsP12 V (Proc.devRef .tc r) = V (Proc.devRef .tc r) := after_of_writes_sub opsP12 _ opsP12_writes h

abbrev opsP13 : List (HloOp τ sig (Elt F)) :=
  [ StableHlo.nullary main_cst_47 (constant S_ .f32 0x00000000#32),
    StableHlo.binary main_v147 main_cst_47 main_v154 (cmpf .ogt : (⟨S_, .f32⟩ : BufTy).Contents (Elt F) → (⟨S_, .f32⟩ : BufTy).Contents (Elt F) → (⟨S_, .i1⟩ : BufTy).Contents (Elt F)),
    StableHlo.nullary main_cst_48 (constant S_ .f32 0x00000000#32),
    StableHlo.TRef.unary (.of main_cst_48) main_call6.v0 id,
    StableHlo.TRef.ternary (.of main_v154) (.of main_v153) main_call6.v0 main_call6.v1 select,
    StableHlo.nullary main_cst_49 (constant S_ .f32 0x3D4CCCCD#32),
    StableHlo.binary main_cst_49 main_v155 main_v156 (mulf : (⟨S_, .f32⟩ : BufTy).Contents (Elt F) → (⟨S_, .f32⟩ : BufTy).Contents (Elt F) → (⟨S_, .f32⟩ : BufTy).Contents (Elt F)),
    StableHlo.binary main_v146 main_v156 main_v157 (addf : (⟨S_, .f32⟩ : BufTy).Contents (Elt F) → (⟨S_, .f32⟩ : BufTy).Contents (Elt F) → (⟨S_, .f32⟩ : BufTy).Contents (Elt F)),
    StableHlo.nullary main_cst_50 (constant S_ .f32 0x40F00000#32),
    StableHlo.binary main_v107 main_cst_50 main_v158 (mulf : (⟨S_, .f32⟩ : BufTy).Contents (Elt F) → (⟨S_, .f32⟩ : BufTy).Contents (Elt F) → (⟨S_, .f32⟩ : BufTy).Contents (Elt F)),
    StableHlo.nullary main_cst_51 (constant S_ .f32 0x3F800000#32),
    StableHlo.binary main_v157 main_cst_51 main_v159 (mulf : (⟨S_, .f32⟩ : BufTy).Contents (Elt F) → (⟨S_, .f32⟩ : BufTy).Contents (Elt F) → (⟨S_, .f32⟩ : BufTy).Contents (Elt F)),
    StableHlo.nullary main_cst_52 (constant S_ .f32 0x00000000#32),
    StableHlo.binary main_cst_52 main_v158 main_v160 (addf : (⟨S_, .f32⟩ : BufTy).Contents (Elt F) → (⟨S_, .f32⟩ : BufTy).Contents (Elt F) → (⟨S_, .f32⟩ : BufTy).Contents (Elt F)),
    StableHlo.binary main_v160 main_v159 main_v161 (addf : (⟨S_, .f32⟩ : BufTy).Contents (Elt F) → (⟨S_, .f32⟩ : BufTy).Contents (Elt F) → (⟨S_, .f32⟩ : BufTy).Contents (Elt F)),
    StableHlo.unary main_arg3 main_v162 ((extractStridedSlice S4096x1 ![0, 0] · slices_S4096x6_S4096x1_0_0) : (⟨S4096x6, .f32⟩ : BufTy).Contents (Elt F) → (⟨S4096x1, .f32⟩ : BufTy).Contents (Elt F)),
    StableHlo.reshape main_v162 main_v163 rfl shapeCasts_S4096x1_S4096,
    StableHlo.unary main_v163 main_v164 (fptosi 32 : (⟨S4096, .f32⟩ : BufTy).Contents (Elt F) → (⟨S4096, .i32⟩ : BufTy).Contents (Elt F)),
    StableHlo.unary main_arg3 main_v165 ((extractStridedSlice S4096x1 ![0, 2] · slices_S4096x6_S4096x1_0_2) : (⟨S4096x6, .f32⟩ : BufTy).Contents (Elt F) → (⟨S4096x1, .f32⟩ : BufTy).Contents (Elt F)),
    StableHlo.reshape main_v165 main_v166 rfl shapeCasts_S4096x1_S4096,
    StableHlo.unary main_arg3 main_v167 ((extractStridedSlice S4096x1 ![0, 3] · slices_S4096x6_S4096x1_0_3) : (⟨S4096x6, .f32⟩ : BufTy).Contents (Elt F) → (⟨S4096x1, .f32⟩ : BufTy).Contents (Elt F)),
    StableHlo.reshape main_v167 main_v168 rfl shapeCasts_S4096x1_S4096,
    StableHlo.unary main_arg3 main_v169 ((extractStridedSlice S4096x1 ![0, 4] · slices_S4096x6_S4096x1_0_4) : (⟨S4096x6, .f32⟩ : BufTy).Contents (Elt F) → (⟨S4096x1, .f32⟩ : BufTy).Contents (Elt F)),
    StableHlo.reshape main_v169 main_v170 rfl shapeCasts_S4096x1_S4096 ]
theorem opsP13_sub : (opsP13 : List (HloOp τ sig (Elt F))).Forall fun op => op.bufs ⊆ tcRefs τ sig :=
  ⟨nullary_bufs_sub .., binary_bufs_sub .., nullary_bufs_sub .., unary_bufs_sub .., ternary_bufs_sub .., nullary_bufs_sub .., binary_bufs_sub .., binary_bufs_sub .., nullary_bufs_sub .., binary_bufs_sub .., nullary_bufs_sub .., binary_bufs_sub .., nullary_bufs_sub .., binary_bufs_sub .., binary_bufs_sub .., unary_bufs_sub .., reshape_bufs_sub .., unary_bufs_sub .., unary_bufs_sub .., reshape_bufs_sub .., unary_bufs_sub .., reshape_bufs_sub .., unary_bufs_sub .., reshape_bufs_sub ..⟩
theorem opsP13_fresh : ∀ op ∈ (opsP13 : List (HloOp τ sig (Elt F))), op.fresh = ∅ := by
  intro _ h; (repeat (cases h with | head => rfl | tail _ h => ?_)); exact nomatch h
abbrev opsP13_W : List (Ref sig .tc) := [main_cst_47, main_v154, main_cst_48, main_call6_v0, main_v155, main_cst_49, main_v156, main_v157, main_cst_50, main_v158, main_cst_51, main_v159, main_cst_52, main_v160, main_v161, main_v162, main_v163, main_v164, main_v165, main_v166, main_v167, main_v168, main_v169, main_v170]
theorem opsP13_writes : (opsP13 : List (HloOp τ sig (Elt F))).Forall fun op => op.writes ⊆ (opsP13_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP13_keep (V : Valuation τ sig (Elt F)) (r : Ref sig .tc) (h : r ∉ opsP13_W) :
    after opsP13 V (Proc.devRef .tc r) = V (Proc.devRef .tc r) := after_of_writes_sub opsP13 _ opsP13_writes h

abbrev opsP14 : List (HloOp τ sig (Elt F)) :=
  [ StableHlo.unary main_arg3 main_v171 ((extractStridedSlice S4096x1 ![0, 5] · slices_S4096x6_S4096x1_0_5) : (⟨S4096x6, .f32⟩ : BufTy).Contents (Elt F) → (⟨S4096x1, .f32⟩ : BufTy).Contents (Elt F)),
    StableHlo.reshape main_v171 main_v172 rfl shapeCasts_S4096x1_S4096,
    StableHlo.nullary main_cst_53 (constant S_ .f32 0x42A00000#32),
    StableHlo.unary main_cst_53 main_v173 (broadcastInDim S4096 ![] bcast_S_S4096 : (⟨S_, .f32⟩ : BufTy).Contents (Elt F) → (⟨S4096, .f32⟩ : BufTy).Contents (Elt F)),
    StableHlo.binary main_v166 main_v173 main_v174 (mulf : (⟨S4096, .f32⟩ : BufTy).Contents (Elt F) → (⟨S4096, .f32⟩ : BufTy).Contents (Elt F) → (⟨S4096, .f32⟩ : BufTy).Contents (Elt F)),
    StableHlo.nullary main_cst_54 (constant S_ .f32 0x42A00000#32),
    StableHlo.unary main_cst_54 main_v175 (broadcastInDim S4096 ![] bcast_S_S4096 : (⟨S_, .f32⟩ : BufTy).Contents (Elt F) → (⟨S4096, .f32⟩ : BufTy).Contents (Elt F)),
    StableHlo.binary main_v168 main_v175 main_v176 (mulf : (⟨S4096, .f32⟩ : BufTy).Contents (Elt F) → (⟨S4096, .f32⟩ : BufTy).Contents (Elt F) → (⟨S4096, .f32⟩ : BufTy).Contents (Elt F)),
    StableHlo.nullary main_c_55 (constantI S_ 32 0#32),
    StableHlo.nullary main_c_56 (constantI S_ 32 79#32),
    StableHlo.TRef.unary (.of main_c_55) main_call7.v0 (sitofp .f32),
    StableHlo.TRef.unary main_call7.v0 main_call7.v1 (broadcastInDim S4096 ![] bcast_S_S4096),
    StableHlo.TRef.binary main_call7.v1 (.of main_v174) main_call7.v2 maximumf,
    StableHlo.TRef.unary (.of main_c_56) main_call7.v3 (sitofp .f32),
    StableHlo.TRef.unary main_call7.v3 main_call7.v4 (broadcastInDim S4096 ![] bcast_S_S4096),
    StableHlo.TRef.binary main_call7.v4 main_call7.v2 main_call7.v5 minimumf,
    StableHlo.unary main_v177 main_v178 (fptosi 32 : (⟨S4096, .f32⟩ : BufTy).Contents (Elt F) → (⟨S4096, .i32⟩ : BufTy).Contents (Elt F)),
    StableHlo.nullary main_c_57 (constantI S_ 32 0#32),
    StableHlo.nullary main_c_58 (constantI S_ 32 79#32) ]
theorem opsP14_sub : (opsP14 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub ..⟩
theorem opsP14_fresh : ∀ op ∈ (opsP14 : List (HloOp τ sig (Elt F))), op.fresh = ∅ := by
  intro _ h; (repeat (cases h with | head => rfl | tail _ h => ?_)); exact nomatch h
abbrev opsP14_W : List (Ref sig .tc) := [main_v171, main_v172, main_cst_53, main_v173, main_v174, main_cst_54, main_v175, main_v176, main_c_55, main_c_56, main_call7_v0, main_call7_v1, main_call7_v2, main_call7_v3, main_call7_v4, main_v177, main_v178, main_c_57, main_c_58]
theorem opsP14_writes : (opsP14 : List (HloOp τ sig (Elt F))).Forall fun op => op.writes ⊆ (opsP14_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP14_keep (V : Valuation τ sig (Elt F)) (r : Ref sig .tc) (h : r ∉ opsP14_W) :
    after opsP14 V (Proc.devRef .tc r) = V (Proc.devRef .tc r) := after_of_writes_sub opsP14 _ opsP14_writes h

abbrev opsW3 : List (HloOp τ sig (Elt F)) := opsP12 ++ opsP13 ++ opsP14
set_option maxRecDepth 8192 in
set_option maxHeartbeats 4000000 in
theorem main_part3_eq (c : Dev nD) : main_part3 (F := F) c = seq opsW3 := by
  simp only [main_part3, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps4.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP15 : List (HloOp τ sig (Elt F)) :=
  [ StableHlo.TRef.unary (.of main_c_57) main_call8.v0 (sitofp .f32),
    StableHlo.TRef.unary main_call8.v0 main_call8.v1 (broadcastInDim S4096 ![] bcast_S_S4096),
    StableHlo.TRef.binary main_call8.v1 (.of main_v176) main_call8.v2 maximumf,
    StableHlo.TRef.unary (.of main_c_58) main_call8.v3 (sitofp .f32),
    StableHlo.TRef.unary main_call8.v3 main_call8.v4 (broadcastInDim S4096 ![] bcast_S_S4096),
    StableHlo.TRef.binary main_call8.v4 main_call8.v2 main_call8.v5 minimumf,
    StableHlo.unary main_v179 main_v180 (fptosi 32 : (⟨S4096, .f32⟩ : BufTy).Contents (Elt F) → (⟨S4096, .i32⟩ : BufTy).Contents (Elt F)),
    StableHlo.unary main_v178 main_v181 (sitofp .f32 : (⟨S4096, .i32⟩ : BufTy).Contents (Elt F) → (⟨S4096, .f32⟩ : BufTy).Contents (Elt F)),
    StableHlo.binary main_v174 main_v181 main_v182 (subf : (⟨S4096, .f32⟩ : BufTy).Contents (Elt F) → (⟨S4096, .f32⟩ : BufTy).Contents (Elt F) → (⟨S4096, .f32⟩ : BufTy).Contents (Elt F)),
    StableHlo.unary main_v180 main_v183 (sitofp .f32 : (⟨S4096, .i32⟩ : BufTy).Contents (Elt F) → (⟨S4096, .f32⟩ : BufTy).Contents (Elt F)),
    StableHlo.binary main_v176 main_v183 main_v184 (subf : (⟨S4096, .f32⟩ : BufTy).Contents (Elt F) → (⟨S4096, .f32⟩ : BufTy).Contents (Elt F) → (⟨S4096, .f32⟩ : BufTy).Contents (Elt F)),
    StableHlo.nullary main_cst_59 (constant S_ .f32 0x42A00000#32),
    StableHlo.unary main_cst_59 main_v185 (broadcastInDim S4096 ![] bcast_S_S4096 : (⟨S_, .f32⟩ : BufTy).Contents (Elt F) → (⟨S4096, .f32⟩ : BufTy).Contents (Elt F)),
    StableHlo.binary main_v170 main_v185 main_v186 (mulf : (⟨S4096, .f32⟩ : BufTy).Contents (Elt F) → (⟨S4096, .f32⟩ : BufTy).Contents (Elt F) → (⟨S4096, .f32⟩ : BufTy).Contents (Elt F)),
    StableHlo.nullary main_cst_60 (constant S_ .f32 0x42A00000#32),
    StableHlo.unary main_cst_60 main_v187 (broadcastInDim S4096 ![] bcast_S_S4096 : (⟨S_, .f32⟩ : BufTy).Contents (Elt F) → (⟨S4096, .f32⟩ : BufTy).Contents (Elt F)),
    StableHlo.binary main_v172 main_v187 main_v188 (mulf : (⟨S4096, .f32⟩ : BufTy).Contents (Elt F) → (⟨S4096, .f32⟩ : BufTy).Contents (Elt F) → (⟨S4096, .f32⟩ : BufTy).Contents (Elt F)),
    StableHlo.nullary main_cst_61 (constant S_ .f32 0x3F800000#32),
    StableHlo.unary main_cst_61 main_v189 (broadcastInDim S4096 ![] bcast_S_S4096 : (⟨S_, .f32⟩ : BufTy).Contents (Elt F) → (⟨S4096, .f32⟩ : BufTy).Contents (Elt F)),
    StableHlo.unary main_v182 main_v190 (broadcastInDim S4096x1 ![0] bcast_S4096_S4096x1_0 : (⟨S4096, .f32⟩ : BufTy).Contents (Elt F) → (⟨S4096x1, .f32⟩ : BufTy).Contents (Elt F)),
    StableHlo.unary main_v184 main_v191 (broadcastInDim S4096x1 ![0] bcast_S4096_S4096x1_0 : (⟨S4096, .f32⟩ : BufTy).Contents (Elt F) → (⟨S4096x1, .f32⟩ : BufTy).Contents (Elt F)),
    StableHlo.unary main_v186 main_v192 (broadcastInDim S4096x1 ![0] bcast_S4096_S4096x1_0 : (⟨S4096, .f32⟩ : BufTy).Contents (Elt F) → (⟨S4096x1, .f32⟩ : BufTy).Contents (Elt F)),
    StableHlo.unary main_v188 main_v193 (broadcastInDim S4096x1 ![0] bcast_S4096_S4096x1_0 : (⟨S4096, .f32⟩ : BufTy).Contents (Elt F) → (⟨S4096x1, .f32⟩ : BufTy).Contents (Elt F)),
    StableHlo.unary main_v189 main_v194 (broadcastInDim S4096x1 ![0] bcast_S4096_S4096x1_0 : (⟨S4096, .f32⟩ : BufTy).Contents (Elt F) → (⟨S4096x1, .f32⟩ : BufTy).Contents (Elt F)) ]
theorem opsP15_sub : (opsP15 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., unary_bufs_sub .., unary_bufs_sub ..⟩
theorem opsP15_fresh : ∀ op ∈ (opsP15 : List (HloOp τ sig (Elt F))), op.fresh = ∅ := by
  intro _ h; (repeat (cases h with | head => rfl | tail _ h => ?_)); exact nomatch h
abbrev opsP15_W : List (Ref sig .tc) := [main_call8_v0, main_call8_v1, main_call8_v2, main_call8_v3, main_call8_v4, main_v179, main_v180, main_v181, main_v182, main_v183, main_v184, main_cst_59, main_v185, main_v186, main_cst_60, main_v187, main_v188, main_cst_61, main_v189, main_v190, main_v191, main_v192, main_v193, main_v194]
theorem opsP15_writes : (opsP15 : List (HloOp τ sig (Elt F))).Forall fun op => op.writes ⊆ (opsP15_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP15_keep (V : Valuation τ sig (Elt F)) (r : Ref sig .tc) (h : r ∉ opsP15_W) :
    after opsP15 V (Proc.devRef .tc r) = V (Proc.devRef .tc r) := after_of_writes_sub opsP15 _ opsP15_writes h

abbrev opsP16 : List (HloOp τ sig (Elt F)) :=
  [ StableHlo.nary ![main_v190, main_v191, main_v192, main_v193, main_v194] main_v195 (fun u => concatenate S4096x5 1 [⟨S4096x1, u 0⟩, ⟨S4096x1, u 1⟩, ⟨S4096x1, u 2⟩, ⟨S4096x1, u 3⟩, ⟨S4096x1, u 4⟩] concatenates_S4096x1_S4096x1_S4096x1_S4096x1_S4096x1_S4096x5_d1),
    StableHlo.nullary main_cst_62 (constant S_ .f32 0x00000000#32),
    StableHlo.unary main_cst_62 main_v196 (broadcastInDim S128x80x80x5 ![] bcast_S_S128x80x80x5 : (⟨S_, .f32⟩ : BufTy).Contents (Elt F) → (⟨S128x80x80x5, .f32⟩ : BufTy).Contents (Elt F)),
    StableHlo.nullary main_c_63 (constantI S_ 32 0#32),
    StableHlo.unary main_c_63 main_v197 (broadcastInDim S4096 ![] bcast_S_S4096 : (⟨S_, .i32⟩ : BufTy).Contents (Elt F) → (⟨S4096, .i32⟩ : BufTy).Contents (Elt F)),
    StableHlo.binary main_v164 main_v197 main_v198 (cmpi .slt : (⟨S4096, .i32⟩ : BufTy).Contents (Elt F) → (⟨S4096, .i32⟩ : BufTy).Contents (Elt F) → (⟨S4096, .i1⟩ : BufTy).Contents (Elt F)),
    StableHlo.nullary main_c_64 (constantI S_ 32 128#32),
    StableHlo.unary main_c_64 main_v199 (broadcastInDim S4096 ![] bcast_S_S4096 : (⟨S_, .i32⟩ : BufTy).Contents (Elt F) → (⟨S4096, .i32⟩ : BufTy).Contents (Elt F)),
    StableHlo.binary main_v164 main_v199 main_v200 (addi : (⟨S4096, .i32⟩ : BufTy).Contents (Elt F) → (⟨S4096, .i32⟩ : BufTy).Contents (Elt F) → (⟨S4096, .i32⟩ : BufTy).Contents (Elt F)),
    StableHlo.ternary main_v198 main_v200 main_v164 main_v201 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_65 (constantI S_ 32 0#32),
    StableHlo.unary main_c_65 main_v202 (broadcastInDim S4096 ![] bcast_S_S4096 : (⟨S_, .i32⟩ : BufTy).Contents (Elt F) → (⟨S4096, .i32⟩ : BufTy).Contents (Elt F)),
    StableHlo.binary main_v180 main_v202 main_v203 (cmpi .slt : (⟨S4096, .i32⟩ : BufTy).Contents (Elt F) → (⟨S4096, .i32⟩ : BufTy).Contents (Elt F) → (⟨S4096, .i1⟩ : BufTy).Contents (Elt F)),
    StableHlo.nullary main_c_66 (constantI S_ 32 80#32),
    StableHlo.unary main_c_66 main_v204 (broadcastInDim S4096 ![] bcast_S_S4096 : (⟨S_, .i32⟩ : BufTy).Contents (Elt F) → (⟨S4096, .i32⟩ : BufTy).Contents (Elt F)),
    StableHlo.binary main_v180 main_v204 main_v205 (addi : (⟨S4096, .i32⟩ : BufTy).Contents (Elt F) → (⟨S4096, .i32⟩ : BufTy).Contents (Elt F) → (⟨S4096, .i32⟩ : BufTy).Contents (Elt F)),
    StableHlo.ternary main_v203 main_v205 main_v180 main_v206 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_67 (constantI S_ 32 0#32),
    StableHlo.unary main_c_67 main_v207 (broadcastInDim S4096 ![] bcast_S_S4096 : (⟨S_, .i32⟩ : BufTy).Contents (Elt F) → (⟨S4096, .i32⟩ : BufTy).Contents (Elt F)),
    StableHlo.binary main_v178 main_v207 main_v208 (cmpi .slt : (⟨S4096, .i32⟩ : BufTy).Contents (Elt F) → (⟨S4096, .i32⟩ : BufTy).Contents (Elt F) → (⟨S4096, .i1⟩ : BufTy).Contents (Elt F)),
    StableHlo.nullary main_c_68 (constantI S_ 32 80#32),
    StableHlo.unary main_c_68 main_v209 (broadcastInDim S4096 ![] bcast_S_S4096 : (⟨S_, .i32⟩ : BufTy).Contents (Elt F) → (⟨S4096, .i32⟩ : BufTy).Contents (Elt F)),
    StableHlo.binary main_v178 main_v209 main_v210 (addi : (⟨S4096, .i32⟩ : BufTy).Contents (Elt F) → (⟨S4096, .i32⟩ : BufTy).Contents (Elt F) → (⟨S4096, .i32⟩ : BufTy).Contents (Elt F)),
    StableHlo.ternary main_v208 main_v210 main_v178 main_v211 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]
theorem opsP16_sub : (opsP16 : List (HloOp τ sig (Elt F))).Forall fun op => op.bufs ⊆ tcRefs τ sig :=
  ⟨nary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩
theorem opsP16_fresh : ∀ op ∈ (opsP16 : List (HloOp τ sig (Elt F))), op.fresh = ∅ := by
  intro _ h; (repeat (cases h with | head => rfl | tail _ h => ?_)); exact nomatch h
abbrev opsP16_W : List (Ref sig .tc) := [main_v195, main_cst_62, main_v196, main_c_63, main_v197, main_v198, main_c_64, main_v199, main_v200, main_v201, main_c_65, main_v202, main_v203, main_c_66, main_v204, main_v205, main_v206, main_c_67, main_v207, main_v208, main_c_68, main_v209, main_v210, main_v211]
theorem opsP16_writes : (opsP16 : List (HloOp τ sig (Elt F))).Forall fun op => op.writes ⊆ (opsP16_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP16_keep (V : Valuation τ sig (Elt F)) (r : Ref sig .tc) (h : r ∉ opsP16_W) :
    after opsP16 V (Proc.devRef .tc r) = V (Proc.devRef .tc r) := after_of_writes_sub opsP16 _ opsP16_writes h

abbrev opsP17 : List (HloOp τ sig (Elt F)) :=
  [ StableHlo.unary main_v201 main_v212 (broadcastInDim S4096x1 ![0] bcast_S4096_S4096x1_0 : (⟨S4096, .i32⟩ : BufTy).Contents (Elt F) → (⟨S4096x1, .i32⟩ : BufTy).Contents (Elt F)),
    StableHlo.unary main_v206 main_v213 (broadcastInDim S4096x1 ![0] bcast_S4096_S4096x1_0 : (⟨S4096, .i32⟩ : BufTy).Contents (Elt F) → (⟨S4096x1, .i32⟩ : BufTy).Contents (Elt F)),
    StableHlo.unary main_v211 main_v214 (broadcastInDim S4096x1 ![0] bcast_S4096_S4096x1_0 : (⟨S4096, .i32⟩ : BufTy).Contents (Elt F) → (⟨S4096x1, .i32⟩ : BufTy).Contents (Elt F)) ]
theorem opsP17_sub : (opsP17 : List (HloOp τ sig (Elt F))).Forall fun op => op.bufs ⊆ tcRefs τ sig :=
  ⟨unary_bufs_sub .., unary_bufs_sub .., unary_bufs_sub ..⟩
theorem opsP17_fresh : ∀ op ∈ (opsP17 : List (HloOp τ sig (Elt F))), op.fresh = ∅ := by
  intro _ h; (repeat (cases h with | head => rfl | tail _ h => ?_)); exact nomatch h
abbrev opsP17_W : List (Ref sig .tc) := [main_v212, main_v213, main_v214]
theorem opsP17_writes : (opsP17 : List (HloOp τ sig (Elt F))).Forall fun op => op.writes ⊆ (opsP17_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP17_keep (V : Valuation τ sig (Elt F)) (r : Ref sig .tc) (h : r ∉ opsP17_W) :
    after opsP17 V (Proc.devRef .tc r) = V (Proc.devRef .tc r) := after_of_writes_sub opsP17 _ opsP17_writes h

abbrev opsP18 : List (HloOp τ sig (Elt F)) :=
  [ StableHlo.nary ![main_v212, main_v213, main_v214] main_v215 (fun u => concatenate S4096x3 1 [⟨S4096x1, u 0⟩, ⟨S4096x1, u 1⟩, ⟨S4096x1, u 2⟩] concatenates_S4096x1_S4096x1_S4096x1_S4096x3_d1),
    StableHlo.ternary main_v196 main_v215 main_v195 main_v216 ((fun x i u => Host.scatter scatter_S128x80x80x5_S4096x3_S4096x5_1_012_012_1 (fun _ b => b) x i u) : (⟨S128x80x80x5, .f32⟩ : BufTy).Contents (Elt F) → (⟨S4096x3, .i32⟩ : BufTy).Contents (Elt F) → (⟨S4096x5, .f32⟩ : BufTy).Contents (Elt F) → (⟨S128x80x80x5, .f32⟩ : BufTy).Contents (Elt F)),
    StableHlo.nullary main_c_69 (constantI S_ 1 0#1),
    StableHlo.unary main_c_69 main_v217 (broadcastInDim S128x80x80 ![] bcast_S_S128x80x80 : (⟨S_, .i1⟩ : BufTy).Contents (Elt F) → (⟨S128x80x80, .i1⟩ : BufTy).Contents (Elt F)),
    StableHlo.nullary main_c_70 (constantI S_ 32 0#32),
    StableHlo.unary main_c_70 main_v218 (broadcastInDim S4096 ![] bcast_S_S4096 : (⟨S_, .i32⟩ : BufTy).Contents (Elt F) → (⟨S4096, .i32⟩ : BufTy).Contents (Elt F)),
    StableHlo.binary main_v164 main_v218 main_v219 (cmpi .slt : (⟨S4096, .i32⟩ : BufTy).Contents (Elt F) → (⟨S4096, .i32⟩ : BufTy).Contents (Elt F) → (⟨S4096, .i1⟩ : BufTy).Contents (Elt F)),
    StableHlo.nullary main_c_71 (constantI S_ 32 128#32),
    StableHlo.unary main_c_71 main_v220 (broadcastInDim S4096 ![] bcast_S_S4096 : (⟨S_, .i32⟩ : BufTy).Contents (Elt F) → (⟨S4096, .i32⟩ : BufTy).Contents (Elt F)),
    StableHlo.binary main_v164 main_v220 main_v221 (addi : (⟨S4096, .i32⟩ : BufTy).Contents (Elt F) → (⟨S4096, .i32⟩ : BufTy).Contents (Elt F) → (⟨S4096, .i32⟩ : BufTy).Contents (Elt F)),
    StableHlo.ternary main_v219 main_v221 main_v164 main_v222 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_72 (constantI S_ 32 0#32),
    StableHlo.unary main_c_72 main_v223 (broadcastInDim S4096 ![] bcast_S_S4096 : (⟨S_, .i32⟩ : BufTy).Contents (Elt F) → (⟨S4096, .i32⟩ : BufTy).Contents (Elt F)),
    StableHlo.binary main_v180 main_v223 main_v224 (cmpi .slt : (⟨S4096, .i32⟩ : BufTy).Contents (Elt F) → (⟨S4096, .i32⟩ : BufTy).Contents (Elt F) → (⟨S4096, .i1⟩ : BufTy).Contents (Elt F)) ]
theorem opsP18_sub : (opsP18 : List (HloOp τ sig (Elt F))).Forall fun op => op.bufs ⊆ tcRefs τ sig :=
  ⟨nary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub ..⟩
theorem opsP18_fresh : ∀ op ∈ (opsP18 : List (HloOp τ sig (Elt F))), op.fresh = ∅ := by
  intro _ h; (repeat (cases h with | head => rfl | tail _ h => ?_)); exact nomatch h
abbrev opsP18_W : List (Ref sig .tc) := [main_v215, main_v216, main_c_69, main_v217, main_c_70, main_v218, main_v219, main_c_71, main_v220, main_v221, main_v222, main_c_72, main_v223, main_v224]
theorem opsP18_writes : (opsP18 : List (HloOp τ sig (Elt F))).Forall fun op => op.writes ⊆ (opsP18_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP18_keep (V : Valuation τ sig (Elt F)) (r : Ref sig .tc) (h : r ∉ opsP18_W) :
    after opsP18 V (Proc.devRef .tc r) = V (Proc.devRef .tc r) := after_of_writes_sub opsP18 _ opsP18_writes h

abbrev opsW4 : List (HloOp τ sig (Elt F)) := opsP15 ++ opsP16 ++ opsP17 ++ opsP18
set_option maxRecDepth 8192 in
set_option maxHeartbeats 4000000 in
theorem main_part4_eq (c : Dev nD) : main_part4 (F := F) c = seq opsW4 := by
  simp only [main_part4, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps5.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP19 : List (HloOp τ sig (Elt F)) :=
  [ StableHlo.nullary main_c_73 (constantI S_ 32 80#32),
    StableHlo.unary main_c_73 main_v225 (broadcastInDim S4096 ![] bcast_S_S4096 : (⟨S_, .i32⟩ : BufTy).Contents (Elt F) → (⟨S4096, .i32⟩ : BufTy).Contents (Elt F)),
    StableHlo.binary main_v180 main_v225 main_v226 (addi : (⟨S4096, .i32⟩ : BufTy).Contents (Elt F) → (⟨S4096, .i32⟩ : BufTy).Contents (Elt F) → (⟨S4096, .i32⟩ : BufTy).Contents (Elt F)),
    StableHlo.ternary main_v224 main_v226 main_v180 main_v227 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_74 (constantI S_ 32 0#32),
    StableHlo.unary main_c_74 main_v228 (broadcastInDim S4096 ![] bcast_S_S4096 : (⟨S_, .i32⟩ : BufTy).Contents (Elt F) → (⟨S4096, .i32⟩ : BufTy).Contents (Elt F)),
    StableHlo.binary main_v178 main_v228 main_v229 (cmpi .slt : (⟨S4096, .i32⟩ : BufTy).Contents (Elt F) → (⟨S4096, .i32⟩ : BufTy).Contents (Elt F) → (⟨S4096, .i1⟩ : BufTy).Contents (Elt F)),
    StableHlo.nullary main_c_75 (constantI S_ 32 80#32),
    StableHlo.unary main_c_75 main_v230 (broadcastInDim S4096 ![] bcast_S_S4096 : (⟨S_, .i32⟩ : BufTy).Contents (Elt F) → (⟨S4096, .i32⟩ : BufTy).Contents (Elt F)),
    StableHlo.binary main_v178 main_v230 main_v231 (addi : (⟨S4096, .i32⟩ : BufTy).Contents (Elt F) → (⟨S4096, .i32⟩ : BufTy).Contents (Elt F) → (⟨S4096, .i32⟩ : BufTy).Contents (Elt F)),
    StableHlo.ternary main_v229 main_v231 main_v178 main_v232 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v222 main_v233 (broadcastInDim S4096x1 ![0] bcast_S4096_S4096x1_0 : (⟨S4096, .i32⟩ : BufTy).Contents (Elt F) → (⟨S4096x1, .i32⟩ : BufTy).Contents (Elt F)),
    StableHlo.unary main_v227 main_v234 (broadcastInDim S4096x1 ![0] bcast_S4096_S4096x1_0 : (⟨S4096, .i32⟩ : BufTy).Contents (Elt F) → (⟨S4096x1, .i32⟩ : BufTy).Contents (Elt F)),
    StableHlo.unary main_v232 main_v235 (broadcastInDim S4096x1 ![0] bcast_S4096_S4096x1_0 : (⟨S4096, .i32⟩ : BufTy).Contents (Elt F) → (⟨S4096x1, .i32⟩ : BufTy).Contents (Elt F)) ]
theorem opsP19_sub : (opsP19 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem opsP19_fresh : ∀ op ∈ (opsP19 : List (HloOp τ sig (Elt F))), op.fresh = ∅ := by
  intro _ h; (repeat (cases h with | head => rfl | tail _ h => ?_)); exact nomatch h
abbrev opsP19_W : List (Ref sig .tc) := [main_c_73, main_v225, main_v226, main_v227, main_c_74, main_v228, main_v229, main_c_75, main_v230, main_v231, main_v232, main_v233, main_v234, main_v235]
theorem opsP19_writes : (opsP19 : List (HloOp τ sig (Elt F))).Forall fun op => op.writes ⊆ (opsP19_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP19_keep (V : Valuation τ sig (Elt F)) (r : Ref sig .tc) (h : r ∉ opsP19_W) :
    after opsP19 V (Proc.devRef .tc r) = V (Proc.devRef .tc r) := after_of_writes_sub opsP19 _ opsP19_writes h

abbrev opsP20 : List (HloOp τ sig (Elt F)) :=
  [ StableHlo.nary ![main_v233, main_v234, main_v235] main_v236 (fun u => concatenate S4096x3 1 [⟨S4096x1, u 0⟩, ⟨S4096x1, u 1⟩, ⟨S4096x1, u 2⟩] concatenates_S4096x1_S4096x1_S4096x1_S4096x3_d1),
    StableHlo.nullary main_c_76 (constantI S_ 1 1#1),
    StableHlo.unary main_c_76 main_v237 (broadcastInDim S4096 ![] bcast_S_S4096 : (⟨S_, .i1⟩ : BufTy).Contents (Elt F) → (⟨S4096, .i1⟩ : BufTy).Contents (Elt F)),
    StableHlo.ternary main_v217 main_v236 main_v237 main_v238 ((fun x i u => Host.scatter scatter_S128x80x80_S4096x3_S4096_n_012_012_1 (fun _ b => b) x i u) : (⟨S128x80x80, .i1⟩ : BufTy).Contents (Elt F) → (⟨S4096x3, .i32⟩ : BufTy).Contents (Elt F) → (⟨S4096, .i1⟩ : BufTy).Contents (Elt F) → (⟨S128x80x80, .i1⟩ : BufTy).Contents (Elt F)),
    StableHlo.unary main_arg1 main_v239 ((transpose S128x80x80x5 [0, 2, 3, 1] · transposes_S128x5x80x80_S128x80x80x5_0_2_3_1) : (⟨S128x5x80x80, .f32⟩ : BufTy).Contents (Elt F) → (⟨S128x80x80x5, .f32⟩ : BufTy).Contents (Elt F)),
    StableHlo.unary main_v238 main_v240 (uitofp .f32 : (⟨S128x80x80, .i1⟩ : BufTy).Contents (Elt F) → (⟨S128x80x80, .f32⟩ : BufTy).Contents (Elt F)),
    StableHlo.nullary main_cst_77 (constant S_ .f32 0x00000000#32),
    StableHlo.binary main_v240 main_cst_77 main_v241 ((fun x v => Host.reduceAdd x v reducesTo_S128x80x80_S_d0_1_2 h_S_) : (⟨S128x80x80, .f32⟩ : BufTy).Contents (Elt F) → (⟨S_, .f32⟩ : BufTy).Contents (Elt F) → (⟨S_, .f32⟩ : BufTy).Contents (Elt F)),
    StableHlo.unary main_v239 main_v242 ((extractStridedSlice S128x80x80x2 ![0, 0, 0, 0] · slices_S128x80x80x5_S128x80x80x2_0_0_0_0) : (⟨S128x80x80x5, .f32⟩ : BufTy).Contents (Elt F) → (⟨S128x80x80x2, .f32⟩ : BufTy).Contents (Elt F)),
    StableHlo.unary main_v242 main_v243 (Host.negf : (⟨S128x80x80x2, .f32⟩ : BufTy).Contents (Elt F) → (⟨S128x80x80x2, .f32⟩ : BufTy).Contents (Elt F)),
    StableHlo.unary main_v243 main_v244 (Host.exp : (⟨S128x80x80x2, .f32⟩ : BufTy).Contents (Elt F) → (⟨S128x80x80x2, .f32⟩ : BufTy).Contents (Elt F)),
    StableHlo.nullary main_cst_78 (constant S_ .f32 0x3F800000#32),
    StableHlo.unary main_cst_78 main_v245 (broadcastInDim S128x80x80x2 ![] bcast_S_S128x80x80x2 : (⟨S_, .f32⟩ : BufTy).Contents (Elt F) → (⟨S128x80x80x2, .f32⟩ : BufTy).Contents (Elt F)),
    StableHlo.binary main_v245 main_v244 main_v246 (addf : (⟨S128x80x80x2, .f32⟩ : BufTy).Contents (Elt F) → (⟨S128x80x80x2, .f32⟩ : BufTy).Contents (Elt F) → (⟨S128x80x80x2, .f32⟩ : BufTy).Contents (Elt F)),
    StableHlo.nullary main_cst_79 (constant S_ .f32 0x3F800000#32),
    StableHlo.unary main_cst_79 main_v247 (broadcastInDim S128x80x80x2 ![] bcast_S_S128x80x80x2 : (⟨S_, .f32⟩ : BufTy).Contents (Elt F) → (⟨S128x80x80x2, .f32⟩ : BufTy).Contents (Elt F)),
    StableHlo.binary main_v247 main_v246 main_v248 (Host.divf : (⟨S128x80x80x2, .f32⟩ : BufTy).Contents (Elt F) → (⟨S128x80x80x2, .f32⟩ : BufTy).Contents (Elt F) → (⟨S128x80x80x2, .f32⟩ : BufTy).Contents (Elt F)),
    StableHlo.unary main_v239 main_v249 ((extractStridedSlice S128x80x80x2 ![0, 0, 0, 2] · slices_S128x80x80x5_S128x80x80x2_0_0_0_2) : (⟨S128x80x80x5, .f32⟩ : BufTy).Contents (Elt F) → (⟨S128x80x80x2, .f32⟩ : BufTy).Contents (Elt F)),
    StableHlo.unary main_v240 main_v250 (broadcastInDim S128x80x80x1 ![0, 1, 2] bcast_S128x80x80_S128x80x80x1_0_1_2 : (⟨S128x80x80, .f32⟩ : BufTy).Contents (Elt F) → (⟨S128x80x80x1, .f32⟩ : BufTy).Contents (Elt F)),
    StableHlo.nullary main_cst_80 (constant S_ .f32 0x3F800000#32),
    StableHlo.binary main_v241 main_cst_80 main_v251 (maximumf : (⟨S_, .f32⟩ : BufTy).Contents (Elt F) → (⟨S_, .f32⟩ : BufTy).Contents (Elt F) → (⟨S_, .f32⟩ : BufTy).Contents (Elt F)),
    StableHlo.nullary main_cst_81 (constant S_ .f32 0x40000000#32),
    StableHlo.binary main_v251 main_cst_81 main_v252 (mulf : (⟨S_, .f32⟩ : BufTy).Contents (Elt F) → (⟨S_, .f32⟩ : BufTy).Contents (Elt F) → (⟨S_, .f32⟩ : BufTy).Contents (Elt F)),
    StableHlo.unary main_v216 main_v253 ((extractStridedSlice S128x80x80x2 ![0, 0, 0, 0] · slices_S128x80x80x5_S128x80x80x2_0_0_0_0) : (⟨S128x80x80x5, .f32⟩ : BufTy).Contents (Elt F) → (⟨S128x80x80x2, .f32⟩ : BufTy).Contents (Elt F)) ]
theorem opsP20_sub : (opsP20 : List (HloOp τ sig (Elt F))).Forall fun op => op.bufs ⊆ tcRefs τ sig :=
  ⟨nary_bufs_sub .., nullary_bufs_sub .., unary_bufs_sub .., ternary_bufs_sub .., unary_bufs_sub .., unary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., binary_bufs_sub .., nullary_bufs_sub .., binary_bufs_sub .., unary_bufs_sub ..⟩
theorem opsP20_fresh : ∀ op ∈ (opsP20 : List (HloOp τ sig (Elt F))), op.fresh = ∅ := by
  intro _ h; (repeat (cases h with | head => rfl | tail _ h => ?_)); exact nomatch h
abbrev opsP20_W : List (Ref sig .tc) := [main_v236, main_c_76, main_v237, main_v238, main_v239, main_v240, main_cst_77, main_v241, main_v242, main_v243, main_v244, main_cst_78, main_v245, main_v246, main_cst_79, main_v247, main_v248, main_v249, main_v250, main_cst_80, main_v251, main_cst_81, main_v252, main_v253]
theorem opsP20_writes : (opsP20 : List (HloOp τ sig (Elt F))).Forall fun op => op.writes ⊆ (opsP20_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP20_keep (V : Valuation τ sig (Elt F)) (r : Ref sig .tc) (h : r ∉ opsP20_W) :
    after opsP20 V (Proc.devRef .tc r) = V (Proc.devRef .tc r) := after_of_writes_sub opsP20 _ opsP20_writes h

abbrev opsP21 : List (HloOp τ sig (Elt F)) :=
  [ StableHlo.binary main_v248 main_v253 main_v254 (subf : (⟨S128x80x80x2, .f32⟩ : BufTy).Contents (Elt F) → (⟨S128x80x80x2, .f32⟩ : BufTy).Contents (Elt F) → (⟨S128x80x80x2, .f32⟩ : BufTy).Contents (Elt F)),
    StableHlo.binary main_v254 main_v254 main_v255 (mulf : (⟨S128x80x80x2, .f32⟩ : BufTy).Contents (Elt F) → (⟨S128x80x80x2, .f32⟩ : BufTy).Contents (Elt F) → (⟨S128x80x80x2, .f32⟩ : BufTy).Contents (Elt F)),
    StableHlo.unary main_v250 main_v256 (broadcastInDim S128x80x80x2 ![0, 1, 2, 3] bcast_S128x80x80x1_S128x80x80x2_0_1_2_3 : (⟨S128x80x80x1, .f32⟩ : BufTy).Contents (Elt F) → (⟨S128x80x80x2, .f32⟩ : BufTy).Contents (Elt F)),
    StableHlo.binary main_v255 main_v256 main_v257 (mulf : (⟨S128x80x80x2, .f32⟩ : BufTy).Contents (Elt F) → (⟨S128x80x80x2, .f32⟩ : BufTy).Contents (Elt F) → (⟨S128x80x80x2, .f32⟩ : BufTy).Contents (Elt F)),
    StableHlo.nullary main_cst_82 (constant S_ .f32 0x00000000#32),
    StableHlo.binary main_v257 main_cst_82 main_v258 ((fun x v => Host.reduceAdd x v reducesTo_S128x80x80x2_S_d0_1_2_3 h_S_) : (⟨S128x80x80x2, .f32⟩ : BufTy).Contents (Elt F) → (⟨S_, .f32⟩ : BufTy).Contents (Elt F) → (⟨S_, .f32⟩ : BufTy).Contents (Elt F)),
    StableHlo.binary main_v258 main_v252 main_v259 (Host.divf : (⟨S_, .f32⟩ : BufTy).Contents (Elt F) → (⟨S_, .f32⟩ : BufTy).Contents (Elt F) → (⟨S_, .f32⟩ : BufTy).Contents (Elt F)),
    StableHlo.unary main_v216 main_v260 ((extractStridedSlice S128x80x80x2 ![0, 0, 0, 2] · slices_S128x80x80x5_S128x80x80x2_0_0_0_2) : (⟨S128x80x80x5, .f32⟩ : BufTy).Contents (Elt F) → (⟨S128x80x80x2, .f32⟩ : BufTy).Contents (Elt F)),
    StableHlo.binary main_v249 main_v260 main_v261 (subf : (⟨S128x80x80x2, .f32⟩ : BufTy).Contents (Elt F) → (⟨S128x80x80x2, .f32⟩ : BufTy).Contents (Elt F) → (⟨S128x80x80x2, .f32⟩ : BufTy).Contents (Elt F)),
    StableHlo.binary main_v261 main_v261 main_v262 (mulf : (⟨S128x80x80x2, .f32⟩ : BufTy).Contents (Elt F) → (⟨S128x80x80x2, .f32⟩ : BufTy).Contents (Elt F) → (⟨S128x80x80x2, .f32⟩ : BufTy).Contents (Elt F)),
    StableHlo.unary main_v250 main_v263 (broadcastInDim S128x80x80x2 ![0, 1, 2, 3] bcast_S128x80x80x1_S128x80x80x2_0_1_2_3 : (⟨S128x80x80x1, .f32⟩ : BufTy).Contents (Elt F) → (⟨S128x80x80x2, .f32⟩ : BufTy).Contents (Elt F)),
    StableHlo.binary main_v262 main_v263 main_v264 (mulf : (⟨S128x80x80x2, .f32⟩ : BufTy).Contents (Elt F) → (⟨S128x80x80x2, .f32⟩ : BufTy).Contents (Elt F) → (⟨S128x80x80x2, .f32⟩ : BufTy).Contents (Elt F)),
    StableHlo.nullary main_cst_83 (constant S_ .f32 0x00000000#32),
    StableHlo.binary main_v264 main_cst_83 main_v265 ((fun x v => Host.reduceAdd x v reducesTo_S128x80x80x2_S_d0_1_2_3 h_S_) : (⟨S128x80x80x2, .f32⟩ : BufTy).Contents (Elt F) → (⟨S_, .f32⟩ : BufTy).Contents (Elt F) → (⟨S_, .f32⟩ : BufTy).Contents (Elt F)),
    StableHlo.binary main_v265 main_v252 main_v266 (Host.divf : (⟨S_, .f32⟩ : BufTy).Contents (Elt F) → (⟨S_, .f32⟩ : BufTy).Contents (Elt F) → (⟨S_, .f32⟩ : BufTy).Contents (Elt F)),
    StableHlo.nullary main_cst_84 (constant S_ .f32 0x00000000#32),
    StableHlo.binary main_v241 main_cst_84 main_v267 (cmpf .ogt : (⟨S_, .f32⟩ : BufTy).Contents (Elt F) → (⟨S_, .f32⟩ : BufTy).Contents (Elt F) → (⟨S_, .i1⟩ : BufTy).Contents (Elt F)),
    StableHlo.binary main_v259 main_v266 main_v268 (addf : (⟨S_, .f32⟩ : BufTy).Contents (Elt F) → (⟨S_, .f32⟩ : BufTy).Contents (Elt F) → (⟨S_, .f32⟩ : BufTy).Contents (Elt F)),
    StableHlo.nullary main_cst_85 (constant S_ .f32 0x00000000#32),
    StableHlo.TRef.unary (.of main_cst_85) main_call9.v0 id,
    StableHlo.TRef.ternary (.of main_v267) (.of main_v268) main_call9.v0 main_call9.v1 select,
    StableHlo.unary main_v239 main_v270 ((extractStridedSlice S128x80x80x1 ![0, 0, 0, 4] · slices_S128x80x80x5_S128x80x80x1_0_0_0_4) : (⟨S128x80x80x5, .f32⟩ : BufTy).Contents (Elt F) → (⟨S128x80x80x1, .f32⟩ : BufTy).Contents (Elt F)),
    StableHlo.reshape main_v270 main_v271 rfl shapeCasts_S128x80x80x1_S128x80x80 ]
theorem opsP21_sub : (opsP21 : List (HloOp τ sig (Elt F))).Forall fun op => op.bufs ⊆ tcRefs τ sig :=
  ⟨binary_bufs_sub .., binary_bufs_sub .., unary_bufs_sub .., binary_bufs_sub .., nullary_bufs_sub .., binary_bufs_sub .., binary_bufs_sub .., unary_bufs_sub .., binary_bufs_sub .., binary_bufs_sub .., unary_bufs_sub .., binary_bufs_sub .., nullary_bufs_sub .., binary_bufs_sub .., binary_bufs_sub .., nullary_bufs_sub .., binary_bufs_sub .., binary_bufs_sub .., nullary_bufs_sub .., unary_bufs_sub .., ternary_bufs_sub .., unary_bufs_sub .., reshape_bufs_sub ..⟩
theorem opsP21_fresh : ∀ op ∈ (opsP21 : List (HloOp τ sig (Elt F))), op.fresh = ∅ := by
  intro _ h; (repeat (cases h with | head => rfl | tail _ h => ?_)); exact nomatch h
abbrev opsP21_W : List (Ref sig .tc) := [main_v254, main_v255, main_v256, main_v257, main_cst_82, main_v258, main_v259, main_v260, main_v261, main_v262, main_v263, main_v264, main_cst_83, main_v265, main_v266, main_cst_84, main_v267, main_v268, main_cst_85, main_call9_v0, main_v269, main_v270, main_v271]
theorem opsP21_writes : (opsP21 : List (HloOp τ sig (Elt F))).Forall fun op => op.writes ⊆ (opsP21_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP21_keep (V : Valuation τ sig (Elt F)) (r : Ref sig .tc) (h : r ∉ opsP21_W) :
    after opsP21 V (Proc.devRef .tc r) = V (Proc.devRef .tc r) := after_of_writes_sub opsP21 _ opsP21_writes h

abbrev opsW5 : List (HloOp τ sig (Elt F)) := opsP19 ++ opsP20 ++ opsP21
set_option maxRecDepth 8192 in
set_option maxHeartbeats 4000000 in
theorem main_part5_eq (c : Dev nD) : main_part5 (F := F) c = seq opsW5 := by
  simp only [main_part5, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps6.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP22 : List (HloOp τ sig (Elt F)) :=
  [ StableHlo.unary main_v216 main_v272 ((extractStridedSlice S128x80x80x1 ![0, 0, 0, 4] · slices_S128x80x80x5_S128x80x80x1_0_0_0_4) : (⟨S128x80x80x5, .f32⟩ : BufTy).Contents (Elt F) → (⟨S128x80x80x1, .f32⟩ : BufTy).Contents (Elt F)),
    StableHlo.reshape main_v272 main_v273 rfl shapeCasts_S128x80x80x1_S128x80x80,
    StableHlo.TRef.unary (.of main_v271) main_call10.v0 Host.negf,
    StableHlo.TRef.nullary main_call10.call0.cst (constant S_ .f32 0x00000000#32),
    StableHlo.TRef.unary main_call10.call0.cst main_call10.call0.v0 (broadcastInDim S128x80x80 ![] bcast_S_S128x80x80),
    StableHlo.TRef.binary main_call10.v0 main_call10.call0.v0 main_call10.call0.v1 maximumf,
    StableHlo.TRef.unary main_call10.call0.cst main_call10.call0.v2 (broadcastInDim S128x80x80 ![] bcast_S_S128x80x80),
    StableHlo.TRef.binary main_call10.v0 main_call10.call0.v2 main_call10.call0.v3 subf,
    StableHlo.TRef.binary main_call10.call0.v3 main_call10.call0.v3 main_call10.call0.v4 (cmpf .une),
    StableHlo.TRef.unary main_call10.call0.cst main_call10.call0.v5 (broadcastInDim S128x80x80 ![] bcast_S_S128x80x80),
    StableHlo.TRef.binary main_call10.v0 main_call10.call0.v5 main_call10.call0.v6 addf,
    StableHlo.TRef.unary main_call10.call0.v3 main_call10.call0.v7 Host.absf,
    StableHlo.TRef.unary main_call10.call0.v7 main_call10.call0.v8 Host.negf,
    StableHlo.TRef.unary main_call10.call0.v8 main_call10.call0.v9 Host.exp,
    StableHlo.TRef.unary main_call10.call0.v9 main_call10.call0.v10 Host.log1p,
    StableHlo.TRef.binary main_call10.call0.v1 main_call10.call0.v10 main_call10.call0.v11 addf,
    StableHlo.TRef.ternary main_call10.call0.v4 main_call10.call0.v6 main_call10.call0.v11 main_call10.call0.v12 select,
    StableHlo.TRef.unary main_call10.call0.v12 main_call10.v2 Host.negf,
    StableHlo.binary main_v273 main_v274 main_v275 (mulf : (⟨S128x80x80, .f32⟩ : BufTy).Contents (Elt F) → (⟨S128x80x80, .f32⟩ : BufTy).Contents (Elt F) → (⟨S128x80x80, .f32⟩ : BufTy).Contents (Elt F)),
    StableHlo.nullary main_cst_86 (constant S_ .f32 0x3F800000#32),
    StableHlo.unary main_cst_86 main_v276 (broadcastInDim S128x80x80 ![] bcast_S_S128x80x80 : (⟨S_, .f32⟩ : BufTy).Contents (Elt F) → (⟨S128x80x80, .f32⟩ : BufTy).Contents (Elt F)),
    StableHlo.binary main_v276 main_v273 main_v277 (subf : (⟨S128x80x80, .f32⟩ : BufTy).Contents (Elt F) → (⟨S128x80x80, .f32⟩ : BufTy).Contents (Elt F) → (⟨S128x80x80, .f32⟩ : BufTy).Contents (Elt F)),
    StableHlo.unary main_v271 main_v278 (Host.negf : (⟨S128x80x80, .f32⟩ : BufTy).Contents (Elt F) → (⟨S128x80x80, .f32⟩ : BufTy).Contents (Elt F)),
    StableHlo.TRef.unary (.of main_v278) main_call11.v0 Host.negf ]
theorem opsP22_sub : (opsP22 : List (HloOp τ sig (Elt F))).Forall fun op => op.bufs ⊆ tcRefs τ sig :=
  ⟨unary_bufs_sub .., reshape_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., nullary_bufs_sub .., unary_bufs_sub .., binary_bufs_sub .., unary_bufs_sub .., unary_bufs_sub ..⟩
theorem opsP22_fresh : ∀ op ∈ (opsP22 : List (HloOp τ sig (Elt F))), op.fresh = ∅ := by
  intro _ h; (repeat (cases h with | head => rfl | tail _ h => ?_)); exact nomatch h
abbrev opsP22_W : List (Ref sig .tc) := [main_v272, main_v273, main_call10_v0, main_call10_call0_cst, main_call10_call0_v0, main_call10_call0_v1, main_call10_call0_v2, main_call10_call0_v3, main_call10_call0_v4, main_call10_call0_v5, main_call10_call0_v6, main_call10_call0_v7, main_call10_call0_v8, main_call10_call0_v9, main_call10_call0_v10, main_call10_call0_v11, main_call10_v1, main_v274, main_v275, main_cst_86, main_v276, main_v277, main_v278, main_call11_v0]
theorem opsP22_writes : (opsP22 : List (HloOp τ sig (Elt F))).Forall fun op => op.writes ⊆ (opsP22_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP22_keep (V : Valuation τ sig (Elt F)) (r : Ref sig .tc) (h : r ∉ opsP22_W) :
    after opsP22 V (Proc.devRef .tc r) = V (Proc.devRef .tc r) := after_of_writes_sub opsP22 _ opsP22_writes h

abbrev opsP23 : List (HloOp τ sig (Elt F)) :=
  [ StableHlo.TRef.nullary main_call11.call0.cst (constant S_ .f32 0x00000000#32),
    StableHlo.TRef.unary main_call11.call0.cst main_call11.call0.v0 (broadcastInDim S128x80x80 ![] bcast_S_S128x80x80),
    StableHlo.TRef.binary main_call11.v0 main_call11.call0.v0 main_call11.call0.v1 maximumf,
    StableHlo.TRef.unary main_call11.call0.cst main_call11.call0.v2 (broadcastInDim S128x80x80 ![] bcast_S_S128x80x80),
    StableHlo.TRef.binary main_call11.v0 main_call11.call0.v2 main_call11.call0.v3 subf,
    StableHlo.TRef.binary main_call11.call0.v3 main_call11.call0.v3 main_call11.call0.v4 (cmpf .une),
    StableHlo.TRef.unary main_call11.call0.cst main_call11.call0.v5 (broadcastInDim S128x80x80 ![] bcast_S_S128x80x80),
    StableHlo.TRef.binary main_call11.v0 main_call11.call0.v5 main_call11.call0.v6 addf,
    StableHlo.TRef.unary main_call11.call0.v3 main_call11.call0.v7 Host.absf,
    StableHlo.TRef.unary main_call11.call0.v7 main_call11.call0.v8 Host.negf,
    StableHlo.TRef.unary main_call11.call0.v8 main_call11.call0.v9 Host.exp,
    StableHlo.TRef.unary main_call11.call0.v9 main_call11.call0.v10 Host.log1p,
    StableHlo.TRef.binary main_call11.call0.v1 main_call11.call0.v10 main_call11.call0.v11 addf,
    StableHlo.TRef.ternary main_call11.call0.v4 main_call11.call0.v6 main_call11.call0.v11 main_call11.call0.v12 select,
    StableHlo.TRef.unary main_call11.call0.v12 main_call11.v2 Host.negf,
    StableHlo.binary main_v277 main_v279 main_v280 (mulf : (⟨S128x80x80, .f32⟩ : BufTy).Contents (Elt F) → (⟨S128x80x80, .f32⟩ : BufTy).Contents (Elt F) → (⟨S128x80x80, .f32⟩ : BufTy).Contents (Elt F)),
    StableHlo.binary main_v275 main_v280 main_v281 (addf : (⟨S128x80x80, .f32⟩ : BufTy).Contents (Elt F) → (⟨S128x80x80, .f32⟩ : BufTy).Contents (Elt F) → (⟨S128x80x80, .f32⟩ : BufTy).Contents (Elt F)),
    StableHlo.unary main_v281 main_v282 (Host.negf : (⟨S128x80x80, .f32⟩ : BufTy).Contents (Elt F) → (⟨S128x80x80, .f32⟩ : BufTy).Contents (Elt F)),
    StableHlo.unary main_v271 main_v283 (Host.negf : (⟨S128x80x80, .f32⟩ : BufTy).Contents (Elt F) → (⟨S128x80x80, .f32⟩ : BufTy).Contents (Elt F)),
    StableHlo.unary main_v283 main_v284 (Host.exp : (⟨S128x80x80, .f32⟩ : BufTy).Contents (Elt F) → (⟨S128x80x80, .f32⟩ : BufTy).Contents (Elt F)),
    StableHlo.nullary main_cst_87 (constant S_ .f32 0x3F800000#32),
    StableHlo.unary main_cst_87 main_v285 (broadcastInDim S128x80x80 ![] bcast_S_S128x80x80 : (⟨S_, .f32⟩ : BufTy).Contents (Elt F) → (⟨S128x80x80, .f32⟩ : BufTy).Contents (Elt F)),
    StableHlo.binary main_v285 main_v284 main_v286 (addf : (⟨S128x80x80, .f32⟩ : BufTy).Contents (Elt F) → (⟨S128x80x80, .f32⟩ : BufTy).Contents (Elt F) → (⟨S128x80x80, .f32⟩ : BufTy).Contents (Elt F)),
    StableHlo.nullary main_cst_88 (constant S_ .f32 0x3F800000#32) ]
theorem opsP23_sub : (opsP23 : List (HloOp τ sig (Elt F))).Forall fun op => op.bufs ⊆ tcRefs τ sig :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., binary_bufs_sub .., unary_bufs_sub .., unary_bufs_sub .., unary_bufs_sub .., nullary_bufs_sub .., unary_bufs_sub .., binary_bufs_sub .., nullary_bufs_sub ..⟩
theorem opsP23_fresh : ∀ op ∈ (opsP23 : List (HloOp τ sig (Elt F))), op.fresh = ∅ := by
  intro _ h; (repeat (cases h with | head => rfl | tail _ h => ?_)); exact nomatch h
abbrev opsP23_W : List (Ref sig .tc) := [main_call11_call0_cst, main_call11_call0_v0, main_call11_call0_v1, main_call11_call0_v2, main_call11_call0_v3, main_call11_call0_v4, main_call11_call0_v5, main_call11_call0_v6, main_call11_call0_v7, main_call11_call0_v8, main_call11_call0_v9, main_call11_call0_v10, main_call11_call0_v11, main_call11_v1, main_v279, main_v280, main_v281, main_v282, main_v283, main_v284, main_cst_87, main_v285, main_v286, main_cst_88]
theorem opsP23_writes : (opsP23 : List (HloOp τ sig (Elt F))).Forall fun op => op.writes ⊆ (opsP23_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP23_keep (V : Valuation τ sig (Elt F)) (r : Ref sig .tc) (h : r ∉ opsP23_W) :
    after opsP23 V (Proc.devRef .tc r) = V (Proc.devRef .tc r) := after_of_writes_sub opsP23 _ opsP23_writes h

abbrev opsP24 : List (HloOp τ sig (Elt F)) :=
  [ StableHlo.unary main_cst_88 main_v287 (broadcastInDim S128x80x80 ![] bcast_S_S128x80x80 : (⟨S_, .f32⟩ : BufTy).Contents (Elt F) → (⟨S128x80x80, .f32⟩ : BufTy).Contents (Elt F)),
    StableHlo.binary main_v287 main_v286 main_v288 (Host.divf : (⟨S128x80x80, .f32⟩ : BufTy).Contents (Elt F) → (⟨S128x80x80, .f32⟩ : BufTy).Contents (Elt F) → (⟨S128x80x80, .f32⟩ : BufTy).Contents (Elt F)),
    StableHlo.binary main_v273 main_v288 main_v289 (mulf : (⟨S128x80x80, .f32⟩ : BufTy).Contents (Elt F) → (⟨S128x80x80, .f32⟩ : BufTy).Contents (Elt F) → (⟨S128x80x80, .f32⟩ : BufTy).Contents (Elt F)),
    StableHlo.nullary main_cst_89 (constant S_ .f32 0x3F800000#32),
    StableHlo.unary main_cst_89 main_v290 (broadcastInDim S128x80x80 ![] bcast_S_S128x80x80 : (⟨S_, .f32⟩ : BufTy).Contents (Elt F) → (⟨S128x80x80, .f32⟩ : BufTy).Contents (Elt F)),
    StableHlo.binary main_v290 main_v273 main_v291 (subf : (⟨S128x80x80, .f32⟩ : BufTy).Contents (Elt F) → (⟨S128x80x80, .f32⟩ : BufTy).Contents (Elt F) → (⟨S128x80x80, .f32⟩ : BufTy).Contents (Elt F)),
    StableHlo.nullary main_cst_90 (constant S_ .f32 0x3F800000#32),
    StableHlo.unary main_cst_90 main_v292 (broadcastInDim S128x80x80 ![] bcast_S_S128x80x80 : (⟨S_, .f32⟩ : BufTy).Contents (Elt F) → (⟨S128x80x80, .f32⟩ : BufTy).Contents (Elt F)),
    StableHlo.binary main_v292 main_v288 main_v293 (subf : (⟨S128x80x80, .f32⟩ : BufTy).Contents (Elt F) → (⟨S128x80x80, .f32⟩ : BufTy).Contents (Elt F) → (⟨S128x80x80, .f32⟩ : BufTy).Contents (Elt F)),
    StableHlo.binary main_v291 main_v293 main_v294 (mulf : (⟨S128x80x80, .f32⟩ : BufTy).Contents (Elt F) → (⟨S128x80x80, .f32⟩ : BufTy).Contents (Elt F) → (⟨S128x80x80, .f32⟩ : BufTy).Contents (Elt F)),
    StableHlo.binary main_v289 main_v294 main_v295 (addf : (⟨S128x80x80, .f32⟩ : BufTy).Contents (Elt F) → (⟨S128x80x80, .f32⟩ : BufTy).Contents (Elt F) → (⟨S128x80x80, .f32⟩ : BufTy).Contents (Elt F)),
    StableHlo.nullary main_cst_91 (constant S_ .f32 0x3F800000#32),
    StableHlo.unary main_cst_91 main_v296 (broadcastInDim S128x80x80 ![] bcast_S_S128x80x80 : (⟨S_, .f32⟩ : BufTy).Contents (Elt F) → (⟨S128x80x80, .f32⟩ : BufTy).Contents (Elt F)),
    StableHlo.binary main_v296 main_v295 main_v297 (subf : (⟨S128x80x80, .f32⟩ : BufTy).Contents (Elt F) → (⟨S128x80x80, .f32⟩ : BufTy).Contents (Elt F) → (⟨S128x80x80, .f32⟩ : BufTy).Contents (Elt F)),
    StableHlo.nullary main_cst_92 (constant S_ .f32 0x3FC00000#32),
    StableHlo.unary main_cst_92 main_v298 (broadcastInDim S128x80x80 ![] bcast_S_S128x80x80 : (⟨S_, .f32⟩ : BufTy).Contents (Elt F) → (⟨S128x80x80, .f32⟩ : BufTy).Contents (Elt F)),
    StableHlo.binary main_v297 main_v298 main_v299 (Host.powf : (⟨S128x80x80, .f32⟩ : BufTy).Contents (Elt F) → (⟨S128x80x80, .f32⟩ : BufTy).Contents (Elt F) → (⟨S128x80x80, .f32⟩ : BufTy).Contents (Elt F)),
    StableHlo.nullary main_cst_93 (constant S_ .f32 0x3E800000#32),
    StableHlo.unary main_cst_93 main_v300 (broadcastInDim S128x80x80 ![] bcast_S_S128x80x80 : (⟨S_, .f32⟩ : BufTy).Contents (Elt F) → (⟨S128x80x80, .f32⟩ : BufTy).Contents (Elt F)),
    StableHlo.binary main_v300 main_v299 main_v301 (mulf : (⟨S128x80x80, .f32⟩ : BufTy).Contents (Elt F) → (⟨S128x80x80, .f32⟩ : BufTy).Contents (Elt F) → (⟨S128x80x80, .f32⟩ : BufTy).Contents (Elt F)),
    StableHlo.binary main_v301 main_v282 main_v302 (mulf : (⟨S128x80x80, .f32⟩ : BufTy).Contents (Elt F) → (⟨S128x80x80, .f32⟩ : BufTy).Contents (Elt F) → (⟨S128x80x80, .f32⟩ : BufTy).Contents (Elt F)),
    StableHlo.binary main_v302 main_v240 main_v303 (mulf : (⟨S128x80x80, .f32⟩ : BufTy).Contents (Elt F) → (⟨S128x80x80, .f32⟩ : BufTy).Contents (Elt F) → (⟨S128x80x80, .f32⟩ : BufTy).Contents (Elt F)),
    StableHlo.nullary main_cst_94 (constant S_ .f32 0x00000000#32),
    StableHlo.binary main_v303 main_cst_94 main_v304 ((fun x v => Host.reduceAdd x v reducesTo_S128x80x80_S_d0_1_2 h_S_) : (⟨S128x80x80, .f32⟩ : BufTy).Contents (Elt F) → (⟨S_, .f32⟩ : BufTy).Contents (Elt F) → (⟨S_, .f32⟩ : BufTy).Contents (Elt F)) ]
theorem opsP24_sub : (opsP24 : List (HloOp τ sig (Elt F))).Forall fun op => op.bufs ⊆ tcRefs τ sig :=
  ⟨unary_bufs_sub .., binary_bufs_sub .., binary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub ..⟩
theorem opsP24_fresh : ∀ op ∈ (opsP24 : List (HloOp τ sig (Elt F))), op.fresh = ∅ := by
  intro _ h; (repeat (cases h with | head => rfl | tail _ h => ?_)); exact nomatch h
abbrev opsP24_W : List (Ref sig .tc) := [main_v287, main_v288, main_v289, main_cst_89, main_v290, main_v291, main_cst_90, main_v292, main_v293, main_v294, main_v295, main_cst_91, main_v296, main_v297, main_cst_92, main_v298, main_v299, main_cst_93, main_v300, main_v301, main_v302, main_v303, main_cst_94, main_v304]
theorem opsP24_writes : (opsP24 : List (HloOp τ sig (Elt F))).Forall fun op => op.writes ⊆ (opsP24_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP24_keep (V : Valuation τ sig (Elt F)) (r : Ref sig .tc) (h : r ∉ opsP24_W) :
    after opsP24 V (Proc.devRef .tc r) = V (Proc.devRef .tc r) := after_of_writes_sub opsP24 _ opsP24_writes h

abbrev opsP25 : List (HloOp τ sig (Elt F)) :=
  [ StableHlo.nullary main_cst_95 (constant S_ .f32 0x3F800000#32),
    StableHlo.binary main_v241 main_cst_95 main_v305 (maximumf : (⟨S_, .f32⟩ : BufTy).Contents (Elt F) → (⟨S_, .f32⟩ : BufTy).Contents (Elt F) → (⟨S_, .f32⟩ : BufTy).Contents (Elt F)),
    StableHlo.binary main_v304 main_v305 main_v306 (Host.divf : (⟨S_, .f32⟩ : BufTy).Contents (Elt F) → (⟨S_, .f32⟩ : BufTy).Contents (Elt F) → (⟨S_, .f32⟩ : BufTy).Contents (Elt F)),
    StableHlo.nullary main_cst_96 (constant S_ .f32 0x00000000#32),
    StableHlo.binary main_v241 main_cst_96 main_v307 (cmpf .ogt : (⟨S_, .f32⟩ : BufTy).Contents (Elt F) → (⟨S_, .f32⟩ : BufTy).Contents (Elt F) → (⟨S_, .i1⟩ : BufTy).Contents (Elt F)),
    StableHlo.nullary main_cst_97 (constant S_ .f32 0x00000000#32),
    StableHlo.TRef.unary (.of main_cst_97) main_call12.v0 id,
    StableHlo.TRef.ternary (.of main_v307) (.of main_v306) main_call12.v0 main_call12.v1 select,
    StableHlo.nullary main_cst_98 (constant S_ .f32 0x49480000#32),
    StableHlo.binary main_cst_98 main_v241 main_v309 (subf : (⟨S_, .f32⟩ : BufTy).Contents (Elt F) → (⟨S_, .f32⟩ : BufTy).Contents (Elt F) → (⟨S_, .f32⟩ : BufTy).Contents (Elt F)),
    StableHlo.nullary main_cst_99 (constant S_ .f32 0x3F800000#32),
    StableHlo.unary main_cst_99 main_v310 (broadcastInDim S128x80x80 ![] bcast_S_S128x80x80 : (⟨S_, .f32⟩ : BufTy).Contents (Elt F) → (⟨S128x80x80, .f32⟩ : BufTy).Contents (Elt F)),
    StableHlo.binary main_v310 main_v240 main_v311 (subf : (⟨S128x80x80, .f32⟩ : BufTy).Contents (Elt F) → (⟨S128x80x80, .f32⟩ : BufTy).Contents (Elt F) → (⟨S128x80x80, .f32⟩ : BufTy).Contents (Elt F)),
    StableHlo.binary main_v302 main_v311 main_v312 (mulf : (⟨S128x80x80, .f32⟩ : BufTy).Contents (Elt F) → (⟨S128x80x80, .f32⟩ : BufTy).Contents (Elt F) → (⟨S128x80x80, .f32⟩ : BufTy).Contents (Elt F)),
    StableHlo.nullary main_cst_100 (constant S_ .f32 0x00000000#32),
    StableHlo.binary main_v312 main_cst_100 main_v313 ((fun x v => Host.reduceAdd x v reducesTo_S128x80x80_S_d0_1_2 h_S_) : (⟨S128x80x80, .f32⟩ : BufTy).Contents (Elt F) → (⟨S_, .f32⟩ : BufTy).Contents (Elt F) → (⟨S_, .f32⟩ : BufTy).Contents (Elt F)),
    StableHlo.nullary main_cst_101 (constant S_ .f32 0x3F800000#32),
    StableHlo.binary main_v309 main_cst_101 main_v314 (maximumf : (⟨S_, .f32⟩ : BufTy).Contents (Elt F) → (⟨S_, .f32⟩ : BufTy).Contents (Elt F) → (⟨S_, .f32⟩ : BufTy).Contents (Elt F)),
    StableHlo.binary main_v313 main_v314 main_v315 (Host.divf : (⟨S_, .f32⟩ : BufTy).Contents (Elt F) → (⟨S_, .f32⟩ : BufTy).Contents (Elt F) → (⟨S_, .f32⟩ : BufTy).Contents (Elt F)) ]
theorem opsP25_sub : (opsP25 : List (HloOp τ sig (Elt F))).Forall fun op => op.bufs ⊆ tcRefs τ sig :=
  ⟨nullary_bufs_sub .., binary_bufs_sub .., binary_bufs_sub .., nullary_bufs_sub .., binary_bufs_sub .., nullary_bufs_sub .., unary_bufs_sub .., ternary_bufs_sub .., nullary_bufs_sub .., binary_bufs_sub .., nullary_bufs_sub .., unary_bufs_sub .., binary_bufs_sub .., binary_bufs_sub .., nullary_bufs_sub .., binary_bufs_sub .., nullary_bufs_sub .., binary_bufs_sub .., binary_bufs_sub ..⟩
theorem opsP25_fresh : ∀ op ∈ (opsP25 : List (HloOp τ sig (Elt F))), op.fresh = ∅ := by
  intro _ h; (repeat (cases h with | head => rfl | tail _ h => ?_)); exact nomatch h
abbrev opsP25_W : List (Ref sig .tc) := [main_cst_95, main_v305, main_v306, main_cst_96, main_v307, main_cst_97, main_call12_v0, main_v308, main_cst_98, main_v309, main_cst_99, main_v310, main_v311, main_v312, main_cst_100, main_v313, main_cst_101, main_v314, main_v315]
theorem opsP25_writes : (opsP25 : List (HloOp τ sig (Elt F))).Forall fun op => op.writes ⊆ (opsP25_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP25_keep (V : Valuation τ sig (Elt F)) (r : Ref sig .tc) (h : r ∉ opsP25_W) :
    after opsP25 V (Proc.devRef .tc r) = V (Proc.devRef .tc r) := after_of_writes_sub opsP25 _ opsP25_writes h

abbrev opsW6 : List (HloOp τ sig (Elt F)) := opsP22 ++ opsP23 ++ opsP24 ++ opsP25
set_option maxRecDepth 8192 in
set_option maxHeartbeats 4000000 in
theorem main_part6_eq (c : Dev nD) : main_part6 (F := F) c = seq opsW6 := by
  simp only [main_part6, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps7.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP26 : List (HloOp τ sig (Elt F)) :=
  [ StableHlo.nullary main_cst_102 (constant S_ .f32 0x00000000#32),
    StableHlo.binary main_v309 main_cst_102 main_v316 (cmpf .ogt : (⟨S_, .f32⟩ : BufTy).Contents (Elt F) → (⟨S_, .f32⟩ : BufTy).Contents (Elt F) → (⟨S_, .i1⟩ : BufTy).Contents (Elt F)),
    StableHlo.nullary main_cst_103 (constant S_ .f32 0x00000000#32),
    StableHlo.TRef.unary (.of main_cst_103) main_call13.v0 id,
    StableHlo.TRef.ternary (.of main_v316) (.of main_v315) main_call13.v0 main_call13.v1 select,
    StableHlo.nullary main_cst_104 (constant S_ .f32 0x3D4CCCCD#32),
    StableHlo.binary main_cst_104 main_v317 main_v318 (mulf : (⟨S_, .f32⟩ : BufTy).Contents (Elt F) → (⟨S_, .f32⟩ : BufTy).Contents (Elt F) → (⟨S_, .f32⟩ : BufTy).Contents (Elt F)),
    StableHlo.binary main_v308 main_v318 main_v319 (addf : (⟨S_, .f32⟩ : BufTy).Contents (Elt F) → (⟨S_, .f32⟩ : BufTy).Contents (Elt F) → (⟨S_, .f32⟩ : BufTy).Contents (Elt F)),
    StableHlo.nullary main_cst_105 (constant S_ .f32 0x40F00000#32),
    StableHlo.binary main_v269 main_cst_105 main_v320 (mulf : (⟨S_, .f32⟩ : BufTy).Contents (Elt F) → (⟨S_, .f32⟩ : BufTy).Contents (Elt F) → (⟨S_, .f32⟩ : BufTy).Contents (Elt F)),
    StableHlo.nullary main_cst_106 (constant S_ .f32 0x3F800000#32),
    StableHlo.binary main_v319 main_cst_106 main_v321 (mulf : (⟨S_, .f32⟩ : BufTy).Contents (Elt F) → (⟨S_, .f32⟩ : BufTy).Contents (Elt F) → (⟨S_, .f32⟩ : BufTy).Contents (Elt F)),
    StableHlo.binary main_v161 main_v320 main_v322 (addf : (⟨S_, .f32⟩ : BufTy).Contents (Elt F) → (⟨S_, .f32⟩ : BufTy).Contents (Elt F) → (⟨S_, .f32⟩ : BufTy).Contents (Elt F)),
    StableHlo.binary main_v322 main_v321 main_v323 (addf : (⟨S_, .f32⟩ : BufTy).Contents (Elt F) → (⟨S_, .f32⟩ : BufTy).Contents (Elt F) → (⟨S_, .f32⟩ : BufTy).Contents (Elt F)),
    StableHlo.unary main_arg3 main_v324 ((extractStridedSlice S4096x1 ![0, 0] · slices_S4096x6_S4096x1_0_0) : (⟨S4096x6, .f32⟩ : BufTy).Contents (Elt F) → (⟨S4096x1, .f32⟩ : BufTy).Contents (Elt F)),
    StableHlo.reshape main_v324 main_v325 rfl shapeCasts_S4096x1_S4096,
    StableHlo.unary main_v325 main_v326 (fptosi 32 : (⟨S4096, .f32⟩ : BufTy).Contents (Elt F) → (⟨S4096, .i32⟩ : BufTy).Contents (Elt F)),
    StableHlo.unary main_arg3 main_v327 ((extractStridedSlice S4096x1 ![0, 2] · slices_S4096x6_S4096x1_0_2) : (⟨S4096x6, .f32⟩ : BufTy).Contents (Elt F) → (⟨S4096x1, .f32⟩ : BufTy).Contents (Elt F)),
    StableHlo.reshape main_v327 main_v328 rfl shapeCasts_S4096x1_S4096,
    StableHlo.unary main_arg3 main_v329 ((extractStridedSlice S4096x1 ![0, 3] · slices_S4096x6_S4096x1_0_3) : (⟨S4096x6, .f32⟩ : BufTy).Contents (Elt F) → (⟨S4096x1, .f32⟩ : BufTy).Contents (Elt F)),
    StableHlo.reshape main_v329 main_v330 rfl shapeCasts_S4096x1_S4096,
    StableHlo.unary main_arg3 main_v331 ((extractStridedSlice S4096x1 ![0, 4] · slices_S4096x6_S4096x1_0_4) : (⟨S4096x6, .f32⟩ : BufTy).Contents (Elt F) → (⟨S4096x1, .f32⟩ : BufTy).Contents (Elt F)),
    StableHlo.reshape main_v331 main_v332 rfl shapeCasts_S4096x1_S4096,
    StableHlo.unary main_arg3 main_v333 ((extractStridedSlice S4096x1 ![0, 5] · slices_S4096x6_S4096x1_0_5) : (⟨S4096x6, .f32⟩ : BufTy).Contents (Elt F) → (⟨S4096x1, .f32⟩ : BufTy).Contents (Elt F)) ]
theorem opsP26_sub : (opsP26 : List (HloOp τ sig (Elt F))).Forall fun op => op.bufs ⊆ tcRefs τ sig :=
  ⟨nullary_bufs_sub .., binary_bufs_sub .., nullary_bufs_sub .., unary_bufs_sub .., ternary_bufs_sub .., nullary_bufs_sub .., binary_bufs_sub .., binary_bufs_sub .., nullary_bufs_sub .., binary_bufs_sub .., nullary_bufs_sub .., binary_bufs_sub .., binary_bufs_sub .., binary_bufs_sub .., unary_bufs_sub .., reshape_bufs_sub .., unary_bufs_sub .., unary_bufs_sub .., reshape_bufs_sub .., unary_bufs_sub .., reshape_bufs_sub .., unary_bufs_sub .., reshape_bufs_sub .., unary_bufs_sub ..⟩
theorem opsP26_fresh : ∀ op ∈ (opsP26 : List (HloOp τ sig (Elt F))), op.fresh = ∅ := by
  intro _ h; (repeat (cases h with | head => rfl | tail _ h => ?_)); exact nomatch h
abbrev opsP26_W : List (Ref sig .tc) := [main_cst_102, main_v316, main_cst_103, main_call13_v0, main_v317, main_cst_104, main_v318, main_v319, main_cst_105, main_v320, main_cst_106, main_v321, main_v322, main_v323, main_v324, main_v325, main_v326, main_v327, main_v328, main_v329, main_v330, main_v331, main_v332, main_v333]
theorem opsP26_writes : (opsP26 : List (HloOp τ sig (Elt F))).Forall fun op => op.writes ⊆ (opsP26_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP26_keep (V : Valuation τ sig (Elt F)) (r : Ref sig .tc) (h : r ∉ opsP26_W) :
    after opsP26 V (Proc.devRef .tc r) = V (Proc.devRef .tc r) := after_of_writes_sub opsP26 _ opsP26_writes h

abbrev opsP27 : List (HloOp τ sig (Elt F)) :=
  [ StableHlo.reshape main_v333 main_v334 rfl shapeCasts_S4096x1_S4096,
    StableHlo.nullary main_cst_107 (constant S_ .f32 0x42200000#32),
    StableHlo.unary main_cst_107 main_v335 (broadcastInDim S4096 ![] bcast_S_S4096 : (⟨S_, .f32⟩ : BufTy).Contents (Elt F) → (⟨S4096, .f32⟩ : BufTy).Contents (Elt F)),
    StableHlo.binary main_v328 main_v335 main_v336 (mulf : (⟨S4096, .f32⟩ : BufTy).Contents (Elt F) → (⟨S4096, .f32⟩ : BufTy).Contents (Elt F) → (⟨S4096, .f32⟩ : BufTy).Contents (Elt F)),
    StableHlo.nullary main_cst_108 (constant S_ .f32 0x42200000#32),
    StableHlo.unary main_cst_108 main_v337 (broadcastInDim S4096 ![] bcast_S_S4096 : (⟨S_, .f32⟩ : BufTy).Contents (Elt F) → (⟨S4096, .f32⟩ : BufTy).Contents (Elt F)),
    StableHlo.binary main_v330 main_v337 main_v338 (mulf : (⟨S4096, .f32⟩ : BufTy).Contents (Elt F) → (⟨S4096, .f32⟩ : BufTy).Contents (Elt F) → (⟨S4096, .f32⟩ : BufTy).Contents (Elt F)),
    StableHlo.nullary main_c_109 (constantI S_ 32 0#32),
    StableHlo.nullary main_c_110 (constantI S_ 32 39#32),
    StableHlo.TRef.unary (.of main_c_109) main_call14.v0 (sitofp .f32),
    StableHlo.TRef.unary main_call14.v0 main_call14.v1 (broadcastInDim S4096 ![] bcast_S_S4096),
    StableHlo.TRef.binary main_call14.v1 (.of main_v336) main_call14.v2 maximumf,
    StableHlo.TRef.unary (.of main_c_110) main_call14.v3 (sitofp .f32),
    StableHlo.TRef.unary main_call14.v3 main_call14.v4 (broadcastInDim S4096 ![] bcast_S_S4096),
    StableHlo.TRef.binary main_call14.v4 main_call14.v2 main_call14.v5 minimumf,
    StableHlo.unary main_v339 main_v340 (fptosi 32 : (⟨S4096, .f32⟩ : BufTy).Contents (Elt F) → (⟨S4096, .i32⟩ : BufTy).Contents (Elt F)),
    StableHlo.nullary main_c_111 (constantI S_ 32 0#32),
    StableHlo.nullary main_c_112 (constantI S_ 32 39#32),
    StableHlo.TRef.unary (.of main_c_111) main_call15.v0 (sitofp .f32),
    StableHlo.TRef.unary main_call15.v0 main_call15.v1 (broadcastInDim S4096 ![] bcast_S_S4096),
    StableHlo.TRef.binary main_call15.v1 (.of main_v338) main_call15.v2 maximumf,
    StableHlo.TRef.unary (.of main_c_112) main_call15.v3 (sitofp .f32),
    StableHlo.TRef.unary main_call15.v3 main_call15.v4 (broadcastInDim S4096 ![] bcast_S_S4096),
    StableHlo.TRef.binary main_call15.v4 main_call15.v2 main_call15.v5 minimumf ]
theorem opsP27_sub : (opsP27 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub ..⟩
theorem opsP27_fresh : ∀ op ∈ (opsP27 : List (HloOp τ sig (Elt F))), op.fresh = ∅ := by
  intro _ h; (repeat (cases h with | head => rfl | tail _ h => ?_)); exact nomatch h
abbrev opsP27_W : List (Ref sig .tc) := [main_v334, main_cst_107, main_v335, main_v336, main_cst_108, main_v337, main_v338, main_c_109, main_c_110, main_call14_v0, main_call14_v1, main_call14_v2, main_call14_v3, main_call14_v4, main_v339, main_v340, main_c_111, main_c_112, main_call15_v0, main_call15_v1, main_call15_v2, main_call15_v3, main_call15_v4, main_v341]
theorem opsP27_writes : (opsP27 : List (HloOp τ sig (Elt F))).Forall fun op => op.writes ⊆ (opsP27_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP27_keep (V : Valuation τ sig (Elt F)) (r : Ref sig .tc) (h : r ∉ opsP27_W) :
    after opsP27 V (Proc.devRef .tc r) = V (Proc.devRef .tc r) := after_of_writes_sub opsP27 _ opsP27_writes h

abbrev opsP28 : List (HloOp τ sig (Elt F)) :=
  [ StableHlo.unary main_v341 main_v342 (fptosi 32 : (⟨S4096, .f32⟩ : BufTy).Contents (Elt F) → (⟨S4096, .i32⟩ : BufTy).Contents (Elt F)),
    StableHlo.unary main_v340 main_v343 (sitofp .f32 : (⟨S4096, .i32⟩ : BufTy).Contents (Elt F) → (⟨S4096, .f32⟩ : BufTy).Contents (Elt F)),
    StableHlo.binary main_v336 main_v343 main_v344 (subf : (⟨S4096, .f32⟩ : BufTy).Contents (Elt F) → (⟨S4096, .f32⟩ : BufTy).Contents (Elt F) → (⟨S4096, .f32⟩ : BufTy).Contents (Elt F)),
    StableHlo.unary main_v342 main_v345 (sitofp .f32 : (⟨S4096, .i32⟩ : BufTy).Contents (Elt F) → (⟨S4096, .f32⟩ : BufTy).Contents (Elt F)),
    StableHlo.binary main_v338 main_v345 main_v346 (subf : (⟨S4096, .f32⟩ : BufTy).Contents (Elt F) → (⟨S4096, .f32⟩ : BufTy).Contents (Elt F) → (⟨S4096, .f32⟩ : BufTy).Contents (Elt F)),
    StableHlo.nullary main_cst_113 (constant S_ .f32 0x42200000#32),
    StableHlo.unary main_cst_113 main_v347 (broadcastInDim S4096 ![] bcast_S_S4096 : (⟨S_, .f32⟩ : BufTy).Contents (Elt F) → (⟨S4096, .f32⟩ : BufTy).Contents (Elt F)),
    StableHlo.binary main_v332 main_v347 main_v348 (mulf : (⟨S4096, .f32⟩ : BufTy).Contents (Elt F) → (⟨S4096, .f32⟩ : BufTy).Contents (Elt F) → (⟨S4096, .f32⟩ : BufTy).Contents (Elt F)),
    StableHlo.nullary main_cst_114 (constant S_ .f32 0x42200000#32),
    StableHlo.unary main_cst_114 main_v349 (broadcastInDim S4096 ![] bcast_S_S4096 : (⟨S_, .f32⟩ : BufTy).Contents (Elt F) → (⟨S4096, .f32⟩ : BufTy).Contents (Elt F)),
    StableHlo.binary main_v334 main_v349 main_v350 (mulf : (⟨S4096, .f32⟩ : BufTy).Contents (Elt F) → (⟨S4096, .f32⟩ : BufTy).Contents (Elt F) → (⟨S4096, .f32⟩ : BufTy).Contents (Elt F)),
    StableHlo.nullary main_cst_115 (constant S_ .f32 0x3F800000#32),
    StableHlo.unary main_cst_115 main_v351 (broadcastInDim S4096 ![] bcast_S_S4096 : (⟨S_, .f32⟩ : BufTy).Contents (Elt F) → (⟨S4096, .f32⟩ : BufTy).Contents (Elt F)),
    StableHlo.unary main_v344 main_v352 (broadcastInDim S4096x1 ![0] bcast_S4096_S4096x1_0 : (⟨S4096, .f32⟩ : BufTy).Contents (Elt F) → (⟨S4096x1, .f32⟩ : BufTy).Contents (Elt F)),
    StableHlo.unary main_v346 main_v353 (broadcastInDim S4096x1 ![0] bcast_S4096_S4096x1_0 : (⟨S4096, .f32⟩ : BufTy).Contents (Elt F) → (⟨S4096x1, .f32⟩ : BufTy).Contents (Elt F)),
    StableHlo.unary main_v348 main_v354 (broadcastInDim S4096x1 ![0] bcast_S4096_S4096x1_0 : (⟨S4096, .f32⟩ : BufTy).Contents (Elt F) → (⟨S4096x1, .f32⟩ : BufTy).Contents (Elt F)),
    StableHlo.unary main_v350 main_v355 (broadcastInDim S4096x1 ![0] bcast_S4096_S4096x1_0 : (⟨S4096, .f32⟩ : BufTy).Contents (Elt F) → (⟨S4096x1, .f32⟩ : BufTy).Contents (Elt F)),
    StableHlo.unary main_v351 main_v356 (broadcastInDim S4096x1 ![0] bcast_S4096_S4096x1_0 : (⟨S4096, .f32⟩ : BufTy).Contents (Elt F) → (⟨S4096x1, .f32⟩ : BufTy).Contents (Elt F)) ]
theorem opsP28_sub : (opsP28 : List (HloOp τ sig (Elt F))).Forall fun op => op.bufs ⊆ tcRefs τ sig :=
  ⟨unary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., unary_bufs_sub .., unary_bufs_sub ..⟩
theorem opsP28_fresh : ∀ op ∈ (opsP28 : List (HloOp τ sig (Elt F))), op.fresh = ∅ := by
  intro _ h; (repeat (cases h with | head => rfl | tail _ h => ?_)); exact nomatch h
abbrev opsP28_W : List (Ref sig .tc) := [main_v342, main_v343, main_v344, main_v345, main_v346, main_cst_113, main_v347, main_v348, main_cst_114, main_v349, main_v350, main_cst_115, main_v351, main_v352, main_v353, main_v354, main_v355, main_v356]
theorem opsP28_writes : (opsP28 : List (HloOp τ sig (Elt F))).Forall fun op => op.writes ⊆ (opsP28_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP28_keep (V : Valuation τ sig (Elt F)) (r : Ref sig .tc) (h : r ∉ opsP28_W) :
    after opsP28 V (Proc.devRef .tc r) = V (Proc.devRef .tc r) := after_of_writes_sub opsP28 _ opsP28_writes h

abbrev opsP29 : List (HloOp τ sig (Elt F)) :=
  [ StableHlo.nary ![main_v352, main_v353, main_v354, main_v355, main_v356] main_v357 (fun u => concatenate S4096x5 1 [⟨S4096x1, u 0⟩, ⟨S4096x1, u 1⟩, ⟨S4096x1, u 2⟩, ⟨S4096x1, u 3⟩, ⟨S4096x1, u 4⟩] concatenates_S4096x1_S4096x1_S4096x1_S4096x1_S4096x1_S4096x5_d1),
    StableHlo.nullary main_cst_116 (constant S_ .f32 0x00000000#32),
    StableHlo.unary main_cst_116 main_v358 (broadcastInDim S128x40x40x5 ![] bcast_S_S128x40x40x5 : (⟨S_, .f32⟩ : BufTy).Contents (Elt F) → (⟨S128x40x40x5, .f32⟩ : BufTy).Contents (Elt F)),
    StableHlo.nullary main_c_117 (constantI S_ 32 0#32),
    StableHlo.unary main_c_117 main_v359 (broadcastInDim S4096 ![] bcast_S_S4096 : (⟨S_, .i32⟩ : BufTy).Contents (Elt F) → (⟨S4096, .i32⟩ : BufTy).Contents (Elt F)) ]
theorem opsP29_sub : (opsP29 : List (HloOp τ sig (Elt F))).Forall fun op => op.bufs ⊆ tcRefs τ sig :=
  ⟨nary_bufs_sub .., nullary_bufs_sub .., unary_bufs_sub .., nullary_bufs_sub .., unary_bufs_sub ..⟩
theorem opsP29_fresh : ∀ op ∈ (opsP29 : List (HloOp τ sig (Elt F))), op.fresh = ∅ := by
  intro _ h; (repeat (cases h with | head => rfl | tail _ h => ?_)); exact nomatch h
abbrev opsP29_W : List (Ref sig .tc) := [main_v357, main_cst_116, main_v358, main_c_117, main_v359]
theorem opsP29_writes : (opsP29 : List (HloOp τ sig (Elt F))).Forall fun op => op.writes ⊆ (opsP29_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP29_keep (V : Valuation τ sig (Elt F)) (r : Ref sig .tc) (h : r ∉ opsP29_W) :
    after opsP29 V (Proc.devRef .tc r) = V (Proc.devRef .tc r) := after_of_writes_sub opsP29 _ opsP29_writes h

abbrev opsW7 : List (HloOp τ sig (Elt F)) := opsP26 ++ opsP27 ++ opsP28 ++ opsP29
set_option maxRecDepth 8192 in
set_option maxHeartbeats 4000000 in
theorem main_part7_eq (c : Dev nD) : main_part7 (F := F) c = seq opsW7 := by
  simp only [main_part7, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps8.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP30 : List (HloOp τ sig (Elt F)) :=
  [ StableHlo.binary main_v326 main_v359 main_v360 (cmpi .slt : (⟨S4096, .i32⟩ : BufTy).Contents (Elt F) → (⟨S4096, .i32⟩ : BufTy).Contents (Elt F) → (⟨S4096, .i1⟩ : BufTy).Contents (Elt F)),
    StableHlo.nullary main_c_118 (constantI S_ 32 128#32),
    StableHlo.unary main_c_118 main_v361 (broadcastInDim S4096 ![] bcast_S_S4096 : (⟨S_, .i32⟩ : BufTy).Contents (Elt F) → (⟨S4096, .i32⟩ : BufTy).Contents (Elt F)),
    StableHlo.binary main_v326 main_v361 main_v362 (addi : (⟨S4096, .i32⟩ : BufTy).Contents (Elt F) → (⟨S4096, .i32⟩ : BufTy).Contents (Elt F) → (⟨S4096, .i32⟩ : BufTy).Contents (Elt F)),
    StableHlo.ternary main_v360 main_v362 main_v326 main_v363 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_119 (constantI S_ 32 0#32),
    StableHlo.unary main_c_119 main_v364 (broadcastInDim S4096 ![] bcast_S_S4096 : (⟨S_, .i32⟩ : BufTy).Contents (Elt F) → (⟨S4096, .i32⟩ : BufTy).Contents (Elt F)),
    StableHlo.binary main_v342 main_v364 main_v365 (cmpi .slt : (⟨S4096, .i32⟩ : BufTy).Contents (Elt F) → (⟨S4096, .i32⟩ : BufTy).Contents (Elt F) → (⟨S4096, .i1⟩ : BufTy).Contents (Elt F)),
    StableHlo.nullary main_c_120 (constantI S_ 32 40#32),
    StableHlo.unary main_c_120 main_v366 (broadcastInDim S4096 ![] bcast_S_S4096 : (⟨S_, .i32⟩ : BufTy).Contents (Elt F) → (⟨S4096, .i32⟩ : BufTy).Contents (Elt F)),
    StableHlo.binary main_v342 main_v366 main_v367 (addi : (⟨S4096, .i32⟩ : BufTy).Contents (Elt F) → (⟨S4096, .i32⟩ : BufTy).Contents (Elt F) → (⟨S4096, .i32⟩ : BufTy).Contents (Elt F)),
    StableHlo.ternary main_v365 main_v367 main_v342 main_v368 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_121 (constantI S_ 32 0#32),
    StableHlo.unary main_c_121 main_v369 (broadcastInDim S4096 ![] bcast_S_S4096 : (⟨S_, .i32⟩ : BufTy).Contents (Elt F) → (⟨S4096, .i32⟩ : BufTy).Contents (Elt F)),
    StableHlo.binary main_v340 main_v369 main_v370 (cmpi .slt : (⟨S4096, .i32⟩ : BufTy).Contents (Elt F) → (⟨S4096, .i32⟩ : BufTy).Contents (Elt F) → (⟨S4096, .i1⟩ : BufTy).Contents (Elt F)),
    StableHlo.nullary main_c_122 (constantI S_ 32 40#32),
    StableHlo.unary main_c_122 main_v371 (broadcastInDim S4096 ![] bcast_S_S4096 : (⟨S_, .i32⟩ : BufTy).Contents (Elt F) → (⟨S4096, .i32⟩ : BufTy).Contents (Elt F)),
    StableHlo.binary main_v340 main_v371 main_v372 (addi : (⟨S4096, .i32⟩ : BufTy).Contents (Elt F) → (⟨S4096, .i32⟩ : BufTy).Contents (Elt F) → (⟨S4096, .i32⟩ : BufTy).Contents (Elt F)),
    StableHlo.ternary main_v370 main_v372 main_v340 main_v373 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v363 main_v374 (broadcastInDim S4096x1 ![0] bcast_S4096_S4096x1_0 : (⟨S4096, .i32⟩ : BufTy).Contents (Elt F) → (⟨S4096x1, .i32⟩ : BufTy).Contents (Elt F)),
    StableHlo.unary main_v368 main_v375 (broadcastInDim S4096x1 ![0] bcast_S4096_S4096x1_0 : (⟨S4096, .i32⟩ : BufTy).Contents (Elt F) → (⟨S4096x1, .i32⟩ : BufTy).Contents (Elt F)),
    StableHlo.unary main_v373 main_v376 (broadcastInDim S4096x1 ![0] bcast_S4096_S4096x1_0 : (⟨S4096, .i32⟩ : BufTy).Contents (Elt F) → (⟨S4096x1, .i32⟩ : BufTy).Contents (Elt F)) ]
theorem opsP30_sub : (opsP30 : List (HloOp τ sig (Elt F))).Forall fun op => op.bufs ⊆ tcRefs τ sig :=
  ⟨binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
theorem opsP30_fresh : ∀ op ∈ (opsP30 : List (HloOp τ sig (Elt F))), op.fresh = ∅ := by
  intro _ h; (repeat (cases h with | head => rfl | tail _ h => ?_)); exact nomatch h
abbrev opsP30_W : List (Ref sig .tc) := [main_v360, main_c_118, main_v361, main_v362, main_v363, main_c_119, main_v364, main_v365, main_c_120, main_v366, main_v367, main_v368, main_c_121, main_v369, main_v370, main_c_122, main_v371, main_v372, main_v373, main_v374, main_v375, main_v376]
theorem opsP30_writes : (opsP30 : List (HloOp τ sig (Elt F))).Forall fun op => op.writes ⊆ (opsP30_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP30_keep (V : Valuation τ sig (Elt F)) (r : Ref sig .tc) (h : r ∉ opsP30_W) :
    after opsP30 V (Proc.devRef .tc r) = V (Proc.devRef .tc r) := after_of_writes_sub opsP30 _ opsP30_writes h

abbrev opsP31 : List (HloOp τ sig (Elt F)) :=
  [ StableHlo.nary ![main_v374, main_v375, main_v376] main_v377 (fun u => concatenate S4096x3 1 [⟨S4096x1, u 0⟩, ⟨S4096x1, u 1⟩, ⟨S4096x1, u 2⟩] concatenates_S4096x1_S4096x1_S4096x1_S4096x3_d1),
    StableHlo.ternary main_v358 main_v377 main_v357 main_v378 ((fun x i u => Host.scatter scatter_S128x40x40x5_S4096x3_S4096x5_1_012_012_1 (fun _ b => b) x i u) : (⟨S128x40x40x5, .f32⟩ : BufTy).Contents (Elt F) → (⟨S4096x3, .i32⟩ : BufTy).Contents (Elt F) → (⟨S4096x5, .f32⟩ : BufTy).Contents (Elt F) → (⟨S128x40x40x5, .f32⟩ : BufTy).Contents (Elt F)),
    StableHlo.nullary main_c_123 (constantI S_ 1 0#1),
    StableHlo.unary main_c_123 main_v379 (broadcastInDim S128x40x40 ![] bcast_S_S128x40x40 : (⟨S_, .i1⟩ : BufTy).Contents (Elt F) → (⟨S128x40x40, .i1⟩ : BufTy).Contents (Elt F)),
    StableHlo.nullary main_c_124 (constantI S_ 32 0#32),
    StableHlo.unary main_c_124 main_v380 (broadcastInDim S4096 ![] bcast_S_S4096 : (⟨S_, .i32⟩ : BufTy).Contents (Elt F) → (⟨S4096, .i32⟩ : BufTy).Contents (Elt F)),
    StableHlo.binary main_v326 main_v380 main_v381 (cmpi .slt : (⟨S4096, .i32⟩ : BufTy).Contents (Elt F) → (⟨S4096, .i32⟩ : BufTy).Contents (Elt F) → (⟨S4096, .i1⟩ : BufTy).Contents (Elt F)),
    StableHlo.nullary main_c_125 (constantI S_ 32 128#32),
    StableHlo.unary main_c_125 main_v382 (broadcastInDim S4096 ![] bcast_S_S4096 : (⟨S_, .i32⟩ : BufTy).Contents (Elt F) → (⟨S4096, .i32⟩ : BufTy).Contents (Elt F)),
    StableHlo.binary main_v326 main_v382 main_v383 (addi : (⟨S4096, .i32⟩ : BufTy).Contents (Elt F) → (⟨S4096, .i32⟩ : BufTy).Contents (Elt F) → (⟨S4096, .i32⟩ : BufTy).Contents (Elt F)),
    StableHlo.ternary main_v381 main_v383 main_v326 main_v384 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_126 (constantI S_ 32 0#32),
    StableHlo.unary main_c_126 main_v385 (broadcastInDim S4096 ![] bcast_S_S4096 : (⟨S_, .i32⟩ : BufTy).Contents (Elt F) → (⟨S4096, .i32⟩ : BufTy).Contents (Elt F)),
    StableHlo.binary main_v342 main_v385 main_v386 (cmpi .slt : (⟨S4096, .i32⟩ : BufTy).Contents (Elt F) → (⟨S4096, .i32⟩ : BufTy).Contents (Elt F) → (⟨S4096, .i1⟩ : BufTy).Contents (Elt F)),
    StableHlo.nullary main_c_127 (constantI S_ 32 40#32),
    StableHlo.unary main_c_127 main_v387 (broadcastInDim S4096 ![] bcast_S_S4096 : (⟨S_, .i32⟩ : BufTy).Contents (Elt F) → (⟨S4096, .i32⟩ : BufTy).Contents (Elt F)),
    StableHlo.binary main_v342 main_v387 main_v388 (addi : (⟨S4096, .i32⟩ : BufTy).Contents (Elt F) → (⟨S4096, .i32⟩ : BufTy).Contents (Elt F) → (⟨S4096, .i32⟩ : BufTy).Contents (Elt F)),
    StableHlo.ternary main_v386 main_v388 main_v342 main_v389 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.nullary main_c_128 (constantI S_ 32 0#32),
    StableHlo.unary main_c_128 main_v390 (broadcastInDim S4096 ![] bcast_S_S4096 : (⟨S_, .i32⟩ : BufTy).Contents (Elt F) → (⟨S4096, .i32⟩ : BufTy).Contents (Elt F)),
    StableHlo.binary main_v340 main_v390 main_v391 (cmpi .slt : (⟨S4096, .i32⟩ : BufTy).Contents (Elt F) → (⟨S4096, .i32⟩ : BufTy).Contents (Elt F) → (⟨S4096, .i1⟩ : BufTy).Contents (Elt F)),
    StableHlo.nullary main_c_129 (constantI S_ 32 40#32),
    StableHlo.unary main_c_129 main_v392 (broadcastInDim S4096 ![] bcast_S_S4096 : (⟨S_, .i32⟩ : BufTy).Contents (Elt F) → (⟨S4096, .i32⟩ : BufTy).Contents (Elt F)),
    StableHlo.binary main_v340 main_v392 main_v393 (addi : (⟨S4096, .i32⟩ : BufTy).Contents (Elt F) → (⟨S4096, .i32⟩ : BufTy).Contents (Elt F) → (⟨S4096, .i32⟩ : BufTy).Contents (Elt F)) ]
theorem opsP31_sub : (opsP31 : List (HloOp τ sig (Elt F))).Forall fun op => op.bufs ⊆ tcRefs τ sig :=
  ⟨nary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
theorem opsP31_fresh : ∀ op ∈ (opsP31 : List (HloOp τ sig (Elt F))), op.fresh = ∅ := by
  intro _ h; (repeat (cases h with | head => rfl | tail _ h => ?_)); exact nomatch h
abbrev opsP31_W : List (Ref sig .tc) := [main_v377, main_v378, main_c_123, main_v379, main_c_124, main_v380, main_v381, main_c_125, main_v382, main_v383, main_v384, main_c_126, main_v385, main_v386, main_c_127, main_v387, main_v388, main_v389, main_c_128, main_v390, main_v391, main_c_129, main_v392, main_v393]
theorem opsP31_writes : (opsP31 : List (HloOp τ sig (Elt F))).Forall fun op => op.writes ⊆ (opsP31_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP31_keep (V : Valuation τ sig (Elt F)) (r : Ref sig .tc) (h : r ∉ opsP31_W) :
    after opsP31 V (Proc.devRef .tc r) = V (Proc.devRef .tc r) := after_of_writes_sub opsP31 _ opsP31_writes h

abbrev opsP32 : List (HloOp τ sig (Elt F)) :=
  [ StableHlo.ternary main_v391 main_v393 main_v340 main_v394 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v384 main_v395 (broadcastInDim S4096x1 ![0] bcast_S4096_S4096x1_0 : (⟨S4096, .i32⟩ : BufTy).Contents (Elt F) → (⟨S4096x1, .i32⟩ : BufTy).Contents (Elt F)),
    StableHlo.unary main_v389 main_v396 (broadcastInDim S4096x1 ![0] bcast_S4096_S4096x1_0 : (⟨S4096, .i32⟩ : BufTy).Contents (Elt F) → (⟨S4096x1, .i32⟩ : BufTy).Contents (Elt F)),
    StableHlo.unary main_v394 main_v397 (broadcastInDim S4096x1 ![0] bcast_S4096_S4096x1_0 : (⟨S4096, .i32⟩ : BufTy).Contents (Elt F) → (⟨S4096x1, .i32⟩ : BufTy).Contents (Elt F)) ]
theorem opsP32_sub : (opsP32 : List (HloOp τ sig (Elt F))).Forall fun op => op.bufs ⊆ tcRefs τ sig :=
  ⟨ternary_bufs_sub .., unary_bufs_sub .., unary_bufs_sub .., unary_bufs_sub ..⟩
theorem opsP32_fresh : ∀ op ∈ (opsP32 : List (HloOp τ sig (Elt F))), op.fresh = ∅ := by
  intro _ h; (repeat (cases h with | head => rfl | tail _ h => ?_)); exact nomatch h
abbrev opsP32_W : List (Ref sig .tc) := [main_v394, main_v395, main_v396, main_v397]
theorem opsP32_writes : (opsP32 : List (HloOp τ sig (Elt F))).Forall fun op => op.writes ⊆ (opsP32_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP32_keep (V : Valuation τ sig (Elt F)) (r : Ref sig .tc) (h : r ∉ opsP32_W) :
    after opsP32 V (Proc.devRef .tc r) = V (Proc.devRef .tc r) := after_of_writes_sub opsP32 _ opsP32_writes h

abbrev opsP33 : List (HloOp τ sig (Elt F)) :=
  [ StableHlo.nary ![main_v395, main_v396, main_v397] main_v398 (fun u => concatenate S4096x3 1 [⟨S4096x1, u 0⟩, ⟨S4096x1, u 1⟩, ⟨S4096x1, u 2⟩] concatenates_S4096x1_S4096x1_S4096x1_S4096x3_d1),
    StableHlo.nullary main_c_130 (constantI S_ 1 1#1),
    StableHlo.unary main_c_130 main_v399 (broadcastInDim S4096 ![] bcast_S_S4096 : (⟨S_, .i1⟩ : BufTy).Contents (Elt F) → (⟨S4096, .i1⟩ : BufTy).Contents (Elt F)),
    StableHlo.ternary main_v379 main_v398 main_v399 main_v400 ((fun x i u => Host.scatter scatter_S128x40x40_S4096x3_S4096_n_012_012_1 (fun _ b => b) x i u) : (⟨S128x40x40, .i1⟩ : BufTy).Contents (Elt F) → (⟨S4096x3, .i32⟩ : BufTy).Contents (Elt F) → (⟨S4096, .i1⟩ : BufTy).Contents (Elt F) → (⟨S128x40x40, .i1⟩ : BufTy).Contents (Elt F)),
    StableHlo.unary main_arg2 main_v401 ((transpose S128x40x40x5 [0, 2, 3, 1] · transposes_S128x5x40x40_S128x40x40x5_0_2_3_1) : (⟨S128x5x40x40, .f32⟩ : BufTy).Contents (Elt F) → (⟨S128x40x40x5, .f32⟩ : BufTy).Contents (Elt F)),
    StableHlo.unary main_v400 main_v402 (uitofp .f32 : (⟨S128x40x40, .i1⟩ : BufTy).Contents (Elt F) → (⟨S128x40x40, .f32⟩ : BufTy).Contents (Elt F)),
    StableHlo.nullary main_cst_131 (constant S_ .f32 0x00000000#32),
    StableHlo.binary main_v402 main_cst_131 main_v403 ((fun x v => Host.reduceAdd x v reducesTo_S128x40x40_S_d0_1_2 h_S_) : (⟨S128x40x40, .f32⟩ : BufTy).Contents (Elt F) → (⟨S_, .f32⟩ : BufTy).Contents (Elt F) → (⟨S_, .f32⟩ : BufTy).Contents (Elt F)),
    StableHlo.unary main_v401 main_v404 ((extractStridedSlice S128x40x40x2 ![0, 0, 0, 0] · slices_S128x40x40x5_S128x40x40x2_0_0_0_0) : (⟨S128x40x40x5, .f32⟩ : BufTy).Contents (Elt F) → (⟨S128x40x40x2, .f32⟩ : BufTy).Contents (Elt F)),
    StableHlo.unary main_v404 main_v405 (Host.negf : (⟨S128x40x40x2, .f32⟩ : BufTy).Contents (Elt F) → (⟨S128x40x40x2, .f32⟩ : BufTy).Contents (Elt F)) ]
theorem opsP33_sub : (opsP33 : List (HloOp τ sig (Elt F))).Forall fun op => op.bufs ⊆ tcRefs τ sig :=
  ⟨nary_bufs_sub .., nullary_bufs_sub .., unary_bufs_sub .., ternary_bufs_sub .., unary_bufs_sub .., unary_bufs_sub .., nullary_bufs_sub .., binary_bufs_sub .., unary_bufs_sub .., unary_bufs_sub ..⟩
theorem opsP33_fresh : ∀ op ∈ (opsP33 : List (HloOp τ sig (Elt F))), op.fresh = ∅ := by
  intro _ h; (repeat (cases h with | head => rfl | tail _ h => ?_)); exact nomatch h
abbrev opsP33_W : List (Ref sig .tc) := [main_v398, main_c_130, main_v399, main_v400, main_v401, main_v402, main_cst_131, main_v403, main_v404, main_v405]
theorem opsP33_writes : (opsP33 : List (HloOp τ sig (Elt F))).Forall fun op => op.writes ⊆ (opsP33_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP33_keep (V : Valuation τ sig (Elt F)) (r : Ref sig .tc) (h : r ∉ opsP33_W) :
    after opsP33 V (Proc.devRef .tc r) = V (Proc.devRef .tc r) := after_of_writes_sub opsP33 _ opsP33_writes h

abbrev opsW8 : List (HloOp τ sig (Elt F)) := opsP30 ++ opsP31 ++ opsP32 ++ opsP33
set_option maxRecDepth 8192 in
set_option maxHeartbeats 4000000 in
theorem main_part8_eq (c : Dev nD) : main_part8 (F := F) c = seq opsW8 := by
  simp only [main_part8, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps9.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP34 : List (HloOp τ sig (Elt F)) :=
  [ StableHlo.unary main_v405 main_v406 (Host.exp : (⟨S128x40x40x2, .f32⟩ : BufTy).Contents (Elt F) → (⟨S128x40x40x2, .f32⟩ : BufTy).Contents (Elt F)),
    StableHlo.nullary main_cst_132 (constant S_ .f32 0x3F800000#32),
    StableHlo.unary main_cst_132 main_v407 (broadcastInDim S128x40x40x2 ![] bcast_S_S128x40x40x2 : (⟨S_, .f32⟩ : BufTy).Contents (Elt F) → (⟨S128x40x40x2, .f32⟩ : BufTy).Contents (Elt F)),
    StableHlo.binary main_v407 main_v406 main_v408 (addf : (⟨S128x40x40x2, .f32⟩ : BufTy).Contents (Elt F) → (⟨S128x40x40x2, .f32⟩ : BufTy).Contents (Elt F) → (⟨S128x40x40x2, .f32⟩ : BufTy).Contents (Elt F)),
    StableHlo.nullary main_cst_133 (constant S_ .f32 0x3F800000#32),
    StableHlo.unary main_cst_133 main_v409 (broadcastInDim S128x40x40x2 ![] bcast_S_S128x40x40x2 : (⟨S_, .f32⟩ : BufTy).Contents (Elt F) → (⟨S128x40x40x2, .f32⟩ : BufTy).Contents (Elt F)),
    StableHlo.binary main_v409 main_v408 main_v410 (Host.divf : (⟨S128x40x40x2, .f32⟩ : BufTy).Contents (Elt F) → (⟨S128x40x40x2, .f32⟩ : BufTy).Contents (Elt F) → (⟨S128x40x40x2, .f32⟩ : BufTy).Contents (Elt F)),
    StableHlo.unary main_v401 main_v411 ((extractStridedSlice S128x40x40x2 ![0, 0, 0, 2] · slices_S128x40x40x5_S128x40x40x2_0_0_0_2) : (⟨S128x40x40x5, .f32⟩ : BufTy).Contents (Elt F) → (⟨S128x40x40x2, .f32⟩ : BufTy).Contents (Elt F)),
    StableHlo.unary main_v402 main_v412 (broadcastInDim S128x40x40x1 ![0, 1, 2] bcast_S128x40x40_S128x40x40x1_0_1_2 : (⟨S128x40x40, .f32⟩ : BufTy).Contents (Elt F) → (⟨S128x40x40x1, .f32⟩ : BufTy).Contents (Elt F)),
    StableHlo.nullary main_cst_134 (constant S_ .f32 0x3F800000#32),
    StableHlo.binary main_v403 main_cst_134 main_v413 (maximumf : (⟨S_, .f32⟩ : BufTy).Contents (Elt F) → (⟨S_, .f32⟩ : BufTy).Contents (Elt F) → (⟨S_, .f32⟩ : BufTy).Contents (Elt F)),
    StableHlo.nullary main_cst_135 (constant S_ .f32 0x40000000#32),
    StableHlo.binary main_v413 main_cst_135 main_v414 (mulf : (⟨S_, .f32⟩ : BufTy).Contents (Elt F) → (⟨S_, .f32⟩ : BufTy).Contents (Elt F) → (⟨S_, .f32⟩ : BufTy).Contents (Elt F)),
    StableHlo.unary main_v378 main_v415 ((extractStridedSlice S128x40x40x2 ![0, 0, 0, 0] · slices_S128x40x40x5_S128x40x40x2_0_0_0_0) : (⟨S128x40x40x5, .f32⟩ : BufTy).Contents (Elt F) → (⟨S128x40x40x2, .f32⟩ : BufTy).Contents (Elt F)),
    StableHlo.binary main_v410 main_v415 main_v416 (subf : (⟨S128x40x40x2, .f32⟩ : BufTy).Contents (Elt F) → (⟨S128x40x40x2, .f32⟩ : BufTy).Contents (Elt F) → (⟨S128x40x40x2, .f32⟩ : BufTy).Contents (Elt F)),
    StableHlo.binary main_v416 main_v416 main_v417 (mulf : (⟨S128x40x40x2, .f32⟩ : BufTy).Contents (Elt F) → (⟨S128x40x40x2, .f32⟩ : BufTy).Contents (Elt F) → (⟨S128x40x40x2, .f32⟩ : BufTy).Contents (Elt F)),
    StableHlo.unary main_v412 main_v418 (broadcastInDim S128x40x40x2 ![0, 1, 2, 3] bcast_S128x40x40x1_S128x40x40x2_0_1_2_3 : (⟨S128x40x40x1, .f32⟩ : BufTy).Contents (Elt F) → (⟨S128x40x40x2, .f32⟩ : BufTy).Contents (Elt F)),
    StableHlo.binary main_v417 main_v418 main_v419 (mulf : (⟨S128x40x40x2, .f32⟩ : BufTy).Contents (Elt F) → (⟨S128x40x40x2, .f32⟩ : BufTy).Contents (Elt F) → (⟨S128x40x40x2, .f32⟩ : BufTy).Contents (Elt F)),
    StableHlo.nullary main_cst_136 (constant S_ .f32 0x00000000#32),
    StableHlo.binary main_v419 main_cst_136 main_v420 ((fun x v => Host.reduceAdd x v reducesTo_S128x40x40x2_S_d0_1_2_3 h_S_) : (⟨S128x40x40x2, .f32⟩ : BufTy).Contents (Elt F) → (⟨S_, .f32⟩ : BufTy).Contents (Elt F) → (⟨S_, .f32⟩ : BufTy).Contents (Elt F)),
    StableHlo.binary main_v420 main_v414 main_v421 (Host.divf : (⟨S_, .f32⟩ : BufTy).Contents (Elt F) → (⟨S_, .f32⟩ : BufTy).Contents (Elt F) → (⟨S_, .f32⟩ : BufTy).Contents (Elt F)),
    StableHlo.unary main_v378 main_v422 ((extractStridedSlice S128x40x40x2 ![0, 0, 0, 2] · slices_S128x40x40x5_S128x40x40x2_0_0_0_2) : (⟨S128x40x40x5, .f32⟩ : BufTy).Contents (Elt F) → (⟨S128x40x40x2, .f32⟩ : BufTy).Contents (Elt F)),
    StableHlo.binary main_v411 main_v422 main_v423 (subf : (⟨S128x40x40x2, .f32⟩ : BufTy).Contents (Elt F) → (⟨S128x40x40x2, .f32⟩ : BufTy).Contents (Elt F) → (⟨S128x40x40x2, .f32⟩ : BufTy).Contents (Elt F)),
    StableHlo.binary main_v423 main_v423 main_v424 (mulf : (⟨S128x40x40x2, .f32⟩ : BufTy).Contents (Elt F) → (⟨S128x40x40x2, .f32⟩ : BufTy).Contents (Elt F) → (⟨S128x40x40x2, .f32⟩ : BufTy).Contents (Elt F)) ]
theorem opsP34_sub : (opsP34 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., unary_bufs_sub .., unary_bufs_sub .., nullary_bufs_sub .., binary_bufs_sub .., nullary_bufs_sub .., binary_bufs_sub .., unary_bufs_sub .., binary_bufs_sub .., binary_bufs_sub .., unary_bufs_sub .., binary_bufs_sub .., nullary_bufs_sub .., binary_bufs_sub .., binary_bufs_sub .., unary_bufs_sub .., binary_bufs_sub .., binary_bufs_sub ..⟩
theorem opsP34_fresh : ∀ op ∈ (opsP34 : List (HloOp τ sig (Elt F))), op.fresh = ∅ := by
  intro _ h; (repeat (cases h with | head => rfl | tail _ h => ?_)); exact nomatch h
abbrev opsP34_W : List (Ref sig .tc) := [main_v406, main_cst_132, main_v407, main_v408, main_cst_133, main_v409, main_v410, main_v411, main_v412, main_cst_134, main_v413, main_cst_135, main_v414, main_v415, main_v416, main_v417, main_v418, main_v419, main_cst_136, main_v420, main_v421, main_v422, main_v423, main_v424]
theorem opsP34_writes : (opsP34 : List (HloOp τ sig (Elt F))).Forall fun op => op.writes ⊆ (opsP34_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP34_keep (V : Valuation τ sig (Elt F)) (r : Ref sig .tc) (h : r ∉ opsP34_W) :
    after opsP34 V (Proc.devRef .tc r) = V (Proc.devRef .tc r) := after_of_writes_sub opsP34 _ opsP34_writes h

abbrev opsP35 : List (HloOp τ sig (Elt F)) :=
  [ StableHlo.unary main_v412 main_v425 (broadcastInDim S128x40x40x2 ![0, 1, 2, 3] bcast_S128x40x40x1_S128x40x40x2_0_1_2_3 : (⟨S128x40x40x1, .f32⟩ : BufTy).Contents (Elt F) → (⟨S128x40x40x2, .f32⟩ : BufTy).Contents (Elt F)),
    StableHlo.binary main_v424 main_v425 main_v426 (mulf : (⟨S128x40x40x2, .f32⟩ : BufTy).Contents (Elt F) → (⟨S128x40x40x2, .f32⟩ : BufTy).Contents (Elt F) → (⟨S128x40x40x2, .f32⟩ : BufTy).Contents (Elt F)),
    StableHlo.nullary main_cst_137 (constant S_ .f32 0x00000000#32),
    StableHlo.binary main_v426 main_cst_137 main_v427 ((fun x v => Host.reduceAdd x v reducesTo_S128x40x40x2_S_d0_1_2_3 h_S_) : (⟨S128x40x40x2, .f32⟩ : BufTy).Contents (Elt F) → (⟨S_, .f32⟩ : BufTy).Contents (Elt F) → (⟨S_, .f32⟩ : BufTy).Contents (Elt F)),
    StableHlo.binary main_v427 main_v414 main_v428 (Host.divf : (⟨S_, .f32⟩ : BufTy).Contents (Elt F) → (⟨S_, .f32⟩ : BufTy).Contents (Elt F) → (⟨S_, .f32⟩ : BufTy).Contents (Elt F)),
    StableHlo.nullary main_cst_138 (constant S_ .f32 0x00000000#32),
    StableHlo.binary main_v403 main_cst_138 main_v429 (cmpf .ogt : (⟨S_, .f32⟩ : BufTy).Contents (Elt F) → (⟨S_, .f32⟩ : BufTy).Contents (Elt F) → (⟨S_, .i1⟩ : BufTy).Contents (Elt F)),
    StableHlo.binary main_v421 main_v428 main_v430 (addf : (⟨S_, .f32⟩ : BufTy).Contents (Elt F) → (⟨S_, .f32⟩ : BufTy).Contents (Elt F) → (⟨S_, .f32⟩ : BufTy).Contents (Elt F)),
    StableHlo.nullary main_cst_139 (constant S_ .f32 0x00000000#32),
    StableHlo.TRef.unary (.of main_cst_139) main_call16.v0 id,
    StableHlo.TRef.ternary (.of main_v429) (.of main_v430) main_call16.v0 main_call16.v1 select,
    StableHlo.unary main_v401 main_v432 ((extractStridedSlice S128x40x40x1 ![0, 0, 0, 4] · slices_S128x40x40x5_S128x40x40x1_0_0_0_4) : (⟨S128x40x40x5, .f32⟩ : BufTy).Contents (Elt F) → (⟨S128x40x40x1, .f32⟩ : BufTy).Contents (Elt F)),
    StableHlo.reshape main_v432 main_v433 rfl shapeCasts_S128x40x40x1_S128x40x40,
    StableHlo.unary main_v378 main_v434 ((extractStridedSlice S128x40x40x1 ![0, 0, 0, 4] · slices_S128x40x40x5_S128x40x40x1_0_0_0_4) : (⟨S128x40x40x5, .f32⟩ : BufTy).Contents (Elt F) → (⟨S128x40x40x1, .f32⟩ : BufTy).Contents (Elt F)),
    StableHlo.reshape main_v434 main_v435 rfl shapeCasts_S128x40x40x1_S128x40x40,
    StableHlo.TRef.unary (.of main_v433) main_call17.v0 Host.negf,
    StableHlo.TRef.nullary main_call17.call0.cst (constant S_ .f32 0x00000000#32),
    StableHlo.TRef.unary main_call17.call0.cst main_call17.call0.v0 (broadcastInDim S128x40x40 ![] bcast_S_S128x40x40),
    StableHlo.TRef.binary main_call17.v0 main_call17.call0.v0 main_call17.call0.v1 maximumf,
    StableHlo.TRef.unary main_call17.call0.cst main_call17.call0.v2 (broadcastInDim S128x40x40 ![] bcast_S_S128x40x40),
    StableHlo.TRef.binary main_call17.v0 main_call17.call0.v2 main_call17.call0.v3 subf,
    StableHlo.TRef.binary main_call17.call0.v3 main_call17.call0.v3 main_call17.call0.v4 (cmpf .une),
    StableHlo.TRef.unary main_call17.call0.cst main_call17.call0.v5 (broadcastInDim S128x40x40 ![] bcast_S_S128x40x40),
    StableHlo.TRef.binary main_call17.v0 main_call17.call0.v5 main_call17.call0.v6 addf ]
theorem opsP35_sub : (opsP35 : List (HloOp τ sig (Elt F))).Forall fun op => op.bufs ⊆ tcRefs τ sig :=
  ⟨unary_bufs_sub .., binary_bufs_sub .., nullary_bufs_sub .., binary_bufs_sub .., binary_bufs_sub .., nullary_bufs_sub .., binary_bufs_sub .., binary_bufs_sub .., nullary_bufs_sub .., unary_bufs_sub .., ternary_bufs_sub .., unary_bufs_sub .., reshape_bufs_sub .., unary_bufs_sub .., reshape_bufs_sub .., unary_bufs_sub .., nullary_bufs_sub .., unary_bufs_sub .., binary_bufs_sub .., unary_bufs_sub .., binary_bufs_sub .., binary_bufs_sub .., unary_bufs_sub .., binary_bufs_sub ..⟩
theorem opsP35_fresh : ∀ op ∈ (opsP35 : List (HloOp τ sig (Elt F))), op.fresh = ∅ := by
  intro _ h; (repeat (cases h with | head => rfl | tail _ h => ?_)); exact nomatch h
abbrev opsP35_W : List (Ref sig .tc) := [main_v425, main_v426, main_cst_137, main_v427, main_v428, main_cst_138, main_v429, main_v430, main_cst_139, main_call16_v0, main_v431, main_v432, main_v433, main_v434, main_v435, main_call17_v0, main_call17_call0_cst, main_call17_call0_v0, main_call17_call0_v1, main_call17_call0_v2, main_call17_call0_v3, main_call17_call0_v4, main_call17_call0_v5, main_call17_call0_v6]
theorem opsP35_writes : (opsP35 : List (HloOp τ sig (Elt F))).Forall fun op => op.writes ⊆ (opsP35_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP35_keep (V : Valuation τ sig (Elt F)) (r : Ref sig .tc) (h : r ∉ opsP35_W) :
    after opsP35 V (Proc.devRef .tc r) = V (Proc.devRef .tc r) := after_of_writes_sub opsP35 _ opsP35_writes h

abbrev opsP36 : List (HloOp τ sig (Elt F)) :=
  [ StableHlo.TRef.unary main_call17.call0.v3 main_call17.call0.v7 Host.absf,
    StableHlo.TRef.unary main_call17.call0.v7 main_call17.call0.v8 Host.negf,
    StableHlo.TRef.unary main_call17.call0.v8 main_call17.call0.v9 Host.exp,
    StableHlo.TRef.unary main_call17.call0.v9 main_call17.call0.v10 Host.log1p,
    StableHlo.TRef.binary main_call17.call0.v1 main_call17.call0.v10 main_call17.call0.v11 addf,
    StableHlo.TRef.ternary main_call17.call0.v4 main_call17.call0.v6 main_call17.call0.v11 main_call17.call0.v12 select,
    StableHlo.TRef.unary main_call17.call0.v12 main_call17.v2 Host.negf,
    StableHlo.binary main_v435 main_v436 main_v437 (mulf : (⟨S128x40x40, .f32⟩ : BufTy).Contents (Elt F) → (⟨S128x40x40, .f32⟩ : BufTy).Contents (Elt F) → (⟨S128x40x40, .f32⟩ : BufTy).Contents (Elt F)),
    StableHlo.nullary main_cst_140 (constant S_ .f32 0x3F800000#32),
    StableHlo.unary main_cst_140 main_v438 (broadcastInDim S128x40x40 ![] bcast_S_S128x40x40 : (⟨S_, .f32⟩ : BufTy).Contents (Elt F) → (⟨S128x40x40, .f32⟩ : BufTy).Contents (Elt F)),
    StableHlo.binary main_v438 main_v435 main_v439 (subf : (⟨S128x40x40, .f32⟩ : BufTy).Contents (Elt F) → (⟨S128x40x40, .f32⟩ : BufTy).Contents (Elt F) → (⟨S128x40x40, .f32⟩ : BufTy).Contents (Elt F)),
    StableHlo.unary main_v433 main_v440 (Host.negf : (⟨S128x40x40, .f32⟩ : BufTy).Contents (Elt F) → (⟨S128x40x40, .f32⟩ : BufTy).Contents (Elt F)),
    StableHlo.TRef.unary (.of main_v440) main_call18.v0 Host.negf,
    StableHlo.TRef.nullary main_call18.call0.cst (constant S_ .f32 0x00000000#32),
    StableHlo.TRef.unary main_call18.call0.cst main_call18.call0.v0 (broadcastInDim S128x40x40 ![] bcast_S_S128x40x40),
    StableHlo.TRef.binary main_call18.v0 main_call18.call0.v0 main_call18.call0.v1 maximumf,
    StableHlo.TRef.unary main_call18.call0.cst main_call18.call0.v2 (broadcastInDim S128x40x40 ![] bcast_S_S128x40x40),
    StableHlo.TRef.binary main_call18.v0 main_call18.call0.v2 main_call18.call0.v3 subf,
    StableHlo.TRef.binary main_call18.call0.v3 main_call18.call0.v3 main_call18.call0.v4 (cmpf .une),
    StableHlo.TRef.unary main_call18.call0.cst main_call18.call0.v5 (broadcastInDim S128x40x40 ![] bcast_S_S128x40x40),
    StableHlo.TRef.binary main_call18.v0 main_call18.call0.v5 main_call18.call0.v6 addf,
    StableHlo.TRef.unary main_call18.call0.v3 main_call18.call0.v7 Host.absf,
    StableHlo.TRef.unary main_call18.call0.v7 main_call18.call0.v8 Host.negf,
    StableHlo.TRef.unary main_call18.call0.v8 main_call18.call0.v9 Host.exp ]
theorem opsP36_sub : (opsP36 : List (HloOp τ sig (Elt F))).Forall fun op => op.bufs ⊆ tcRefs τ sig :=
  ⟨unary_bufs_sub .., unary_bufs_sub .., unary_bufs_sub .., unary_bufs_sub .., binary_bufs_sub .., ternary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub ..⟩
theorem opsP36_fresh : ∀ op ∈ (opsP36 : List (HloOp τ sig (Elt F))), op.fresh = ∅ := by
  intro _ h; (repeat (cases h with | head => rfl | tail _ h => ?_)); exact nomatch h
abbrev opsP36_W : List (Ref sig .tc) := [main_call17_call0_v7, main_call17_call0_v8, main_call17_call0_v9, main_call17_call0_v10, main_call17_call0_v11, main_call17_v1, main_v436, main_v437, main_cst_140, main_v438, main_v439, main_v440, main_call18_v0, main_call18_call0_cst, main_call18_call0_v0, main_call18_call0_v1, main_call18_call0_v2, main_call18_call0_v3, main_call18_call0_v4, main_call18_call0_v5, main_call18_call0_v6, main_call18_call0_v7, main_call18_call0_v8, main_call18_call0_v9]
theorem opsP36_writes : (opsP36 : List (HloOp τ sig (Elt F))).Forall fun op => op.writes ⊆ (opsP36_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP36_keep (V : Valuation τ sig (Elt F)) (r : Ref sig .tc) (h : r ∉ opsP36_W) :
    after opsP36 V (Proc.devRef .tc r) = V (Proc.devRef .tc r) := after_of_writes_sub opsP36 _ opsP36_writes h

abbrev opsP37 : List (HloOp τ sig (Elt F)) :=
  [ StableHlo.TRef.unary main_call18.call0.v9 main_call18.call0.v10 Host.log1p,
    StableHlo.TRef.binary main_call18.call0.v1 main_call18.call0.v10 main_call18.call0.v11 addf,
    StableHlo.TRef.ternary main_call18.call0.v4 main_call18.call0.v6 main_call18.call0.v11 main_call18.call0.v12 select,
    StableHlo.TRef.unary main_call18.call0.v12 main_call18.v2 Host.negf,
    StableHlo.binary main_v439 main_v441 main_v442 (mulf : (⟨S128x40x40, .f32⟩ : BufTy).Contents (Elt F) → (⟨S128x40x40, .f32⟩ : BufTy).Contents (Elt F) → (⟨S128x40x40, .f32⟩ : BufTy).Contents (Elt F)),
    StableHlo.binary main_v437 main_v442 main_v443 (addf : (⟨S128x40x40, .f32⟩ : BufTy).Contents (Elt F) → (⟨S128x40x40, .f32⟩ : BufTy).Contents (Elt F) → (⟨S128x40x40, .f32⟩ : BufTy).Contents (Elt F)),
    StableHlo.unary main_v443 main_v444 (Host.negf : (⟨S128x40x40, .f32⟩ : BufTy).Contents (Elt F) → (⟨S128x40x40, .f32⟩ : BufTy).Contents (Elt F)),
    StableHlo.unary main_v433 main_v445 (Host.negf : (⟨S128x40x40, .f32⟩ : BufTy).Contents (Elt F) → (⟨S128x40x40, .f32⟩ : BufTy).Contents (Elt F)),
    StableHlo.unary main_v445 main_v446 (Host.exp : (⟨S128x40x40, .f32⟩ : BufTy).Contents (Elt F) → (⟨S128x40x40, .f32⟩ : BufTy).Contents (Elt F)),
    StableHlo.nullary main_cst_141 (constant S_ .f32 0x3F800000#32),
    StableHlo.unary main_cst_141 main_v447 (broadcastInDim S128x40x40 ![] bcast_S_S128x40x40 : (⟨S_, .f32⟩ : BufTy).Contents (Elt F) → (⟨S128x40x40, .f32⟩ : BufTy).Contents (Elt F)),
    StableHlo.binary main_v447 main_v446 main_v448 (addf : (⟨S128x40x40, .f32⟩ : BufTy).Contents (Elt F) → (⟨S128x40x40, .f32⟩ : BufTy).Contents (Elt F) → (⟨S128x40x40, .f32⟩ : BufTy).Contents (Elt F)),
    StableHlo.nullary main_cst_142 (constant S_ .f32 0x3F800000#32),
    StableHlo.unary main_cst_142 main_v449 (broadcastInDim S128x40x40 ![] bcast_S_S128x40x40 : (⟨S_, .f32⟩ : BufTy).Contents (Elt F) → (⟨S128x40x40, .f32⟩ : BufTy).Contents (Elt F)),
    StableHlo.binary main_v449 main_v448 main_v450 (Host.divf : (⟨S128x40x40, .f32⟩ : BufTy).Contents (Elt F) → (⟨S128x40x40, .f32⟩ : BufTy).Contents (Elt F) → (⟨S128x40x40, .f32⟩ : BufTy).Contents (Elt F)),
    StableHlo.binary main_v435 main_v450 main_v451 (mulf : (⟨S128x40x40, .f32⟩ : BufTy).Contents (Elt F) → (⟨S128x40x40, .f32⟩ : BufTy).Contents (Elt F) → (⟨S128x40x40, .f32⟩ : BufTy).Contents (Elt F)),
    StableHlo.nullary main_cst_143 (constant S_ .f32 0x3F800000#32),
    StableHlo.unary main_cst_143 main_v452 (broadcastInDim S128x40x40 ![] bcast_S_S128x40x40 : (⟨S_, .f32⟩ : BufTy).Contents (Elt F) → (⟨S128x40x40, .f32⟩ : BufTy).Contents (Elt F)),
    StableHlo.binary main_v452 main_v435 main_v453 (subf : (⟨S128x40x40, .f32⟩ : BufTy).Contents (Elt F) → (⟨S128x40x40, .f32⟩ : BufTy).Contents (Elt F) → (⟨S128x40x40, .f32⟩ : BufTy).Contents (Elt F)) ]
theorem opsP37_sub : (opsP37 : List (HloOp τ sig (Elt F))).Forall fun op => op.bufs ⊆ tcRefs τ sig :=
  ⟨unary_bufs_sub .., binary_bufs_sub .., ternary_bufs_sub .., unary_bufs_sub .., binary_bufs_sub .., binary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
theorem opsP37_fresh : ∀ op ∈ (opsP37 : List (HloOp τ sig (Elt F))), op.fresh = ∅ := by
  intro _ h; (repeat (cases h with | head => rfl | tail _ h => ?_)); exact nomatch h
abbrev opsP37_W : List (Ref sig .tc) := [main_call18_call0_v10, main_call18_call0_v11, main_call18_v1, main_v441, main_v442, main_v443, main_v444, main_v445, main_v446, main_cst_141, main_v447, main_v448, main_cst_142, main_v449, main_v450, main_v451, main_cst_143, main_v452, main_v453]
theorem opsP37_writes : (opsP37 : List (HloOp τ sig (Elt F))).Forall fun op => op.writes ⊆ (opsP37_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP37_keep (V : Valuation τ sig (Elt F)) (r : Ref sig .tc) (h : r ∉ opsP37_W) :
    after opsP37 V (Proc.devRef .tc r) = V (Proc.devRef .tc r) := after_of_writes_sub opsP37 _ opsP37_writes h

abbrev opsW9 : List (HloOp τ sig (Elt F)) := opsP34 ++ opsP35 ++ opsP36 ++ opsP37
set_option maxRecDepth 8192 in
set_option maxHeartbeats 4000000 in
theorem main_part9_eq (c : Dev nD) : main_part9 (F := F) c = seq opsW9 := by
  simp only [main_part9, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefOps10.lean ====
import proofs.«409303_j18760417149025_3_alg».proof.ReferenceIdeal
import Idealize.ShloMosaic.Lib.StableHlo.Run
import Idealize.ShloMosaic.Lib.Pipeline.Frame

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev opsP38 : List (HloOp τ sig (Elt F)) :=
  [ StableHlo.nullary main_cst_144 (constant S_ .f32 0x3F800000#32),
    StableHlo.unary main_cst_144 main_v454 (broadcastInDim S128x40x40 ![] bcast_S_S128x40x40 : (⟨S_, .f32⟩ : BufTy).Contents (Elt F) → (⟨S128x40x40, .f32⟩ : BufTy).Contents (Elt F)),
    StableHlo.binary main_v454 main_v450 main_v455 (subf : (⟨S128x40x40, .f32⟩ : BufTy).Contents (Elt F) → (⟨S128x40x40, .f32⟩ : BufTy).Contents (Elt F) → (⟨S128x40x40, .f32⟩ : BufTy).Contents (Elt F)),
    StableHlo.binary main_v453 main_v455 main_v456 (mulf : (⟨S128x40x40, .f32⟩ : BufTy).Contents (Elt F) → (⟨S128x40x40, .f32⟩ : BufTy).Contents (Elt F) → (⟨S128x40x40, .f32⟩ : BufTy).Contents (Elt F)),
    StableHlo.binary main_v451 main_v456 main_v457 (addf : (⟨S128x40x40, .f32⟩ : BufTy).Contents (Elt F) → (⟨S128x40x40, .f32⟩ : BufTy).Contents (Elt F) → (⟨S128x40x40, .f32⟩ : BufTy).Contents (Elt F)),
    StableHlo.nullary main_cst_145 (constant S_ .f32 0x3F800000#32),
    StableHlo.unary main_cst_145 main_v458 (broadcastInDim S128x40x40 ![] bcast_S_S128x40x40 : (⟨S_, .f32⟩ : BufTy).Contents (Elt F) → (⟨S128x40x40, .f32⟩ : BufTy).Contents (Elt F)),
    StableHlo.binary main_v458 main_v457 main_v459 (subf : (⟨S128x40x40, .f32⟩ : BufTy).Contents (Elt F) → (⟨S128x40x40, .f32⟩ : BufTy).Contents (Elt F) → (⟨S128x40x40, .f32⟩ : BufTy).Contents (Elt F)),
    StableHlo.nullary main_cst_146 (constant S_ .f32 0x3FC00000#32),
    StableHlo.unary main_cst_146 main_v460 (broadcastInDim S128x40x40 ![] bcast_S_S128x40x40 : (⟨S_, .f32⟩ : BufTy).Contents (Elt F) → (⟨S128x40x40, .f32⟩ : BufTy).Contents (Elt F)),
    StableHlo.binary main_v459 main_v460 main_v461 (Host.powf : (⟨S128x40x40, .f32⟩ : BufTy).Contents (Elt F) → (⟨S128x40x40, .f32⟩ : BufTy).Contents (Elt F) → (⟨S128x40x40, .f32⟩ : BufTy).Contents (Elt F)),
    StableHlo.nullary main_cst_147 (constant S_ .f32 0x3E800000#32),
    StableHlo.unary main_cst_147 main_v462 (broadcastInDim S128x40x40 ![] bcast_S_S128x40x40 : (⟨S_, .f32⟩ : BufTy).Contents (Elt F) → (⟨S128x40x40, .f32⟩ : BufTy).Contents (Elt F)),
    StableHlo.binary main_v462 main_v461 main_v463 (mulf : (⟨S128x40x40, .f32⟩ : BufTy).Contents (Elt F) → (⟨S128x40x40, .f32⟩ : BufTy).Contents (Elt F) → (⟨S128x40x40, .f32⟩ : BufTy).Contents (Elt F)),
    StableHlo.binary main_v463 main_v444 main_v464 (mulf : (⟨S128x40x40, .f32⟩ : BufTy).Contents (Elt F) → (⟨S128x40x40, .f32⟩ : BufTy).Contents (Elt F) → (⟨S128x40x40, .f32⟩ : BufTy).Contents (Elt F)),
    StableHlo.binary main_v464 main_v402 main_v465 (mulf : (⟨S128x40x40, .f32⟩ : BufTy).Contents (Elt F) → (⟨S128x40x40, .f32⟩ : BufTy).Contents (Elt F) → (⟨S128x40x40, .f32⟩ : BufTy).Contents (Elt F)),
    StableHlo.nullary main_cst_148 (constant S_ .f32 0x00000000#32),
    StableHlo.binary main_v465 main_cst_148 main_v466 ((fun x v => Host.reduceAdd x v reducesTo_S128x40x40_S_d0_1_2 h_S_) : (⟨S128x40x40, .f32⟩ : BufTy).Contents (Elt F) → (⟨S_, .f32⟩ : BufTy).Contents (Elt F) → (⟨S_, .f32⟩ : BufTy).Contents (Elt F)),
    StableHlo.nullary main_cst_149 (constant S_ .f32 0x3F800000#32),
    StableHlo.binary main_v403 main_cst_149 main_v467 (maximumf : (⟨S_, .f32⟩ : BufTy).Contents (Elt F) → (⟨S_, .f32⟩ : BufTy).Contents (Elt F) → (⟨S_, .f32⟩ : BufTy).Contents (Elt F)),
    StableHlo.binary main_v466 main_v467 main_v468 (Host.divf : (⟨S_, .f32⟩ : BufTy).Contents (Elt F) → (⟨S_, .f32⟩ : BufTy).Contents (Elt F) → (⟨S_, .f32⟩ : BufTy).Contents (Elt F)),
    StableHlo.nullary main_cst_150 (constant S_ .f32 0x00000000#32),
    StableHlo.binary main_v403 main_cst_150 main_v469 (cmpf .ogt : (⟨S_, .f32⟩ : BufTy).Contents (Elt F) → (⟨S_, .f32⟩ : BufTy).Contents (Elt F) → (⟨S_, .i1⟩ : BufTy).Contents (Elt F)),
    StableHlo.nullary main_cst_151 (constant S_ .f32 0x00000000#32) ]
theorem opsP38_sub : (opsP38 : List (HloOp τ sig (Elt F))).Forall fun op => op.bufs ⊆ tcRefs τ sig :=
  ⟨nullary_bufs_sub .., unary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., binary_bufs_sub .., nullary_bufs_sub .., binary_bufs_sub .., nullary_bufs_sub ..⟩
theorem opsP38_fresh : ∀ op ∈ (opsP38 : List (HloOp τ sig (Elt F))), op.fresh = ∅ := by
  intro _ h; (repeat (cases h with | head => rfl | tail _ h => ?_)); exact nomatch h
abbrev opsP38_W : List (Ref sig .tc) := [main_cst_144, main_v454, main_v455, main_v456, main_v457, main_cst_145, main_v458, main_v459, main_cst_146, main_v460, main_v461, main_cst_147, main_v462, main_v463, main_v464, main_v465, main_cst_148, main_v466, main_cst_149, main_v467, main_v468, main_cst_150, main_v469, main_cst_151]
theorem opsP38_writes : (opsP38 : List (HloOp τ sig (Elt F))).Forall fun op => op.writes ⊆ (opsP38_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP38_keep (V : Valuation τ sig (Elt F)) (r : Ref sig .tc) (h : r ∉ opsP38_W) :
    after opsP38 V (Proc.devRef .tc r) = V (Proc.devRef .tc r) := after_of_writes_sub opsP38 _ opsP38_writes h

abbrev opsP39 : List (HloOp τ sig (Elt F)) :=
  [ StableHlo.TRef.unary (.of main_cst_151) main_call19.v0 id,
    StableHlo.TRef.ternary (.of main_v469) (.of main_v468) main_call19.v0 main_call19.v1 select,
    StableHlo.nullary main_cst_152 (constant S_ .f32 0x48480000#32),
    StableHlo.binary main_cst_152 main_v403 main_v471 (subf : (⟨S_, .f32⟩ : BufTy).Contents (Elt F) → (⟨S_, .f32⟩ : BufTy).Contents (Elt F) → (⟨S_, .f32⟩ : BufTy).Contents (Elt F)),
    StableHlo.nullary main_cst_153 (constant S_ .f32 0x3F800000#32),
    StableHlo.unary main_cst_153 main_v472 (broadcastInDim S128x40x40 ![] bcast_S_S128x40x40 : (⟨S_, .f32⟩ : BufTy).Contents (Elt F) → (⟨S128x40x40, .f32⟩ : BufTy).Contents (Elt F)),
    StableHlo.binary main_v472 main_v402 main_v473 (subf : (⟨S128x40x40, .f32⟩ : BufTy).Contents (Elt F) → (⟨S128x40x40, .f32⟩ : BufTy).Contents (Elt F) → (⟨S128x40x40, .f32⟩ : BufTy).Contents (Elt F)),
    StableHlo.binary main_v464 main_v473 main_v474 (mulf : (⟨S128x40x40, .f32⟩ : BufTy).Contents (Elt F) → (⟨S128x40x40, .f32⟩ : BufTy).Contents (Elt F) → (⟨S128x40x40, .f32⟩ : BufTy).Contents (Elt F)),
    StableHlo.nullary main_cst_154 (constant S_ .f32 0x00000000#32),
    StableHlo.binary main_v474 main_cst_154 main_v475 ((fun x v => Host.reduceAdd x v reducesTo_S128x40x40_S_d0_1_2 h_S_) : (⟨S128x40x40, .f32⟩ : BufTy).Contents (Elt F) → (⟨S_, .f32⟩ : BufTy).Contents (Elt F) → (⟨S_, .f32⟩ : BufTy).Contents (Elt F)),
    StableHlo.nullary main_cst_155 (constant S_ .f32 0x3F800000#32),
    StableHlo.binary main_v471 main_cst_155 main_v476 (maximumf : (⟨S_, .f32⟩ : BufTy).Contents (Elt F) → (⟨S_, .f32⟩ : BufTy).Contents (Elt F) → (⟨S_, .f32⟩ : BufTy).Contents (Elt F)),
    StableHlo.binary main_v475 main_v476 main_v477 (Host.divf : (⟨S_, .f32⟩ : BufTy).Contents (Elt F) → (⟨S_, .f32⟩ : BufTy).Contents (Elt F) → (⟨S_, .f32⟩ : BufTy).Contents (Elt F)),
    StableHlo.nullary main_cst_156 (constant S_ .f32 0x00000000#32),
    StableHlo.binary main_v471 main_cst_156 main_v478 (cmpf .ogt : (⟨S_, .f32⟩ : BufTy).Contents (Elt F) → (⟨S_, .f32⟩ : BufTy).Contents (Elt F) → (⟨S_, .i1⟩ : BufTy).Contents (Elt F)),
    StableHlo.nullary main_cst_157 (constant S_ .f32 0x00000000#32),
    StableHlo.TRef.unary (.of main_cst_157) main_call20.v0 id,
    StableHlo.TRef.ternary (.of main_v478) (.of main_v477) main_call20.v0 main_call20.v1 select,
    StableHlo.nullary main_cst_158 (constant S_ .f32 0x3D4CCCCD#32),
    StableHlo.binary main_cst_158 main_v479 main_v480 (mulf : (⟨S_, .f32⟩ : BufTy).Contents (Elt F) → (⟨S_, .f32⟩ : BufTy).Contents (Elt F) → (⟨S_, .f32⟩ : BufTy).Contents (Elt F)),
    StableHlo.binary main_v470 main_v480 main_v481 (addf : (⟨S_, .f32⟩ : BufTy).Contents (Elt F) → (⟨S_, .f32⟩ : BufTy).Contents (Elt F) → (⟨S_, .f32⟩ : BufTy).Contents (Elt F)),
    StableHlo.nullary main_cst_159 (constant S_ .f32 0x41100000#32),
    StableHlo.binary main_v431 main_cst_159 main_v482 (mulf : (⟨S_, .f32⟩ : BufTy).Contents (Elt F) → (⟨S_, .f32⟩ : BufTy).Contents (Elt F) → (⟨S_, .f32⟩ : BufTy).Contents (Elt F)),
    StableHlo.nullary main_cst_160 (constant S_ .f32 0x3F800000#32) ]
theorem opsP39_sub : (opsP39 : List (HloOp τ sig (Elt F))).Forall fun op => op.bufs ⊆ tcRefs τ sig :=
  ⟨unary_bufs_sub .., ternary_bufs_sub .., nullary_bufs_sub .., binary_bufs_sub .., nullary_bufs_sub .., unary_bufs_sub .., binary_bufs_sub .., binary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., nullary_bufs_sub .., binary_bufs_sub .., binary_bufs_sub .., nullary_bufs_sub .., binary_bufs_sub .., nullary_bufs_sub ..⟩
theorem opsP39_fresh : ∀ op ∈ (opsP39 : List (HloOp τ sig (Elt F))), op.fresh = ∅ := by
  intro _ h; (repeat (cases h with | head => rfl | tail _ h => ?_)); exact nomatch h
abbrev opsP39_W : List (Ref sig .tc) := [main_call19_v0, main_v470, main_cst_152, main_v471, main_cst_153, main_v472, main_v473, main_v474, main_cst_154, main_v475, main_cst_155, main_v476, main_v477, main_cst_156, main_v478, main_cst_157, main_call20_v0, main_v479, main_cst_158, main_v480, main_v481, main_cst_159, main_v482, main_cst_160]
theorem opsP39_writes : (opsP39 : List (HloOp τ sig (Elt F))).Forall fun op => op.writes ⊆ (opsP39_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP39_keep (V : Valuation τ sig (Elt F)) (r : Ref sig .tc) (h : r ∉ opsP39_W) :
    after opsP39 V (Proc.devRef .tc r) = V (Proc.devRef .tc r) := after_of_writes_sub opsP39 _ opsP39_writes h

abbrev opsP40 : List (HloOp τ sig (Elt F)) :=
  [ StableHlo.binary main_v481 main_cst_160 main_v483 (mulf : (⟨S_, .f32⟩ : BufTy).Contents (Elt F) → (⟨S_, .f32⟩ : BufTy).Contents (Elt F) → (⟨S_, .f32⟩ : BufTy).Contents (Elt F)),
    StableHlo.binary main_v323 main_v482 main_v484 (addf : (⟨S_, .f32⟩ : BufTy).Contents (Elt F) → (⟨S_, .f32⟩ : BufTy).Contents (Elt F) → (⟨S_, .f32⟩ : BufTy).Contents (Elt F)),
    StableHlo.binary main_v484 main_v483 main_v485 (addf : (⟨S_, .f32⟩ : BufTy).Contents (Elt F) → (⟨S_, .f32⟩ : BufTy).Contents (Elt F) → (⟨S_, .f32⟩ : BufTy).Contents (Elt F)) ]
theorem opsP40_sub : (opsP40 : List (HloOp τ sig (Elt F))).Forall fun op => op.bufs ⊆ tcRefs τ sig :=
  ⟨binary_bufs_sub .., binary_bufs_sub .., binary_bufs_sub ..⟩
theorem opsP40_fresh : ∀ op ∈ (opsP40 : List (HloOp τ sig (Elt F))), op.fresh = ∅ := by
  intro _ h; (repeat (cases h with | head => rfl | tail _ h => ?_)); exact nomatch h
abbrev opsP40_W : List (Ref sig .tc) := [main_v483, main_v484, main_v485]
theorem opsP40_writes : (opsP40 : List (HloOp τ sig (Elt F))).Forall fun op => op.writes ⊆ (opsP40_W.map (Proc.devRef (τ := τ) .tc)).toFinset := by
  simp only [List.Forall]; and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
theorem opsP40_keep (V : Valuation τ sig (Elt F)) (r : Ref sig .tc) (h : r ∉ opsP40_W) :
    after opsP40 V (Proc.devRef .tc r) = V (Proc.devRef .tc r) := after_of_writes_sub opsP40 _ opsP40_writes h

abbrev opsW10 : List (HloOp τ sig (Elt F)) := opsP38 ++ opsP39 ++ opsP40
set_option maxRecDepth 8192 in
set_option maxHeartbeats 4000000 in
theorem main_part10_eq (c : Dev nD) : main_part10 (F := F) c = seq opsW10 := by
  simp only [main_part10, fn_clip.body, fn_log_sigmoid.body, fn_log_sigmoid_0.body, fn_log_sigmoid_2.body, fn_softplus.body, fn_softplus_1.body, fn_softplus_3.body, fn_where.body, seq_append, seq, bind_assoc, pure_bind]
  all_goals rfl

end Cert.ReferenceIdeal.Hand

end
-- ==== Proof.RefRun.lean ====
import proofs.«409303_j18760417149025_3_alg».proof.Proof.RefOps0
import proofs.«409303_j18760417149025_3_alg».proof.Proof.RefOps1
import proofs.«409303_j18760417149025_3_alg».proof.Proof.RefOps2
import proofs.«409303_j18760417149025_3_alg».proof.Proof.RefOps3
import proofs.«409303_j18760417149025_3_alg».proof.Proof.RefOps4
import proofs.«409303_j18760417149025_3_alg».proof.Proof.RefOps5
import proofs.«409303_j18760417149025_3_alg».proof.Proof.RefOps6
import proofs.«409303_j18760417149025_3_alg».proof.Proof.RefOps7
import proofs.«409303_j18760417149025_3_alg».proof.Proof.RefOps8
import proofs.«409303_j18760417149025_3_alg».proof.Proof.RefOps9
import proofs.«409303_j18760417149025_3_alg».proof.Proof.RefOps10

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

abbrev ops : List (HloOp τ sig (Elt F)) := opsW0 ++ (opsW1 ++ (opsW2 ++ (opsW3 ++ (opsW4 ++ (opsW5 ++ (opsW6 ++ (opsW7 ++ (opsW8 ++ (opsW9 ++ (opsW10))))))))))
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c]
  all_goals rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, opsW0, opsW1, opsW2, opsW3, opsW4, opsW5, opsW6, opsW7, opsW8, opsW9, opsW10, List.mem_append, or_assoc] at h
    rcases h with h | h | h | h | h | h | h | h | h | h | h | h | h | h | h | h | h | h | h | h | h | h | h | h | h | h | h | h | h | h | h | h | h | h | h | h | h | h | h | h | h
    exacts [List.forall_iff_forall_mem.mp opsP0_sub op h, List.forall_iff_forall_mem.mp opsP1_sub op h, List.forall_iff_forall_mem.mp opsP2_sub op h, List.forall_iff_forall_mem.mp opsP3_sub op h, List.forall_iff_forall_mem.mp opsP4_sub op h, List.forall_iff_forall_mem.mp opsP5_sub op h, List.forall_iff_forall_mem.mp opsP6_sub op h, List.forall_iff_forall_mem.mp opsP7_sub op h, List.forall_iff_forall_mem.mp opsP8_sub op h, List.forall_iff_forall_mem.mp opsP9_sub op h, List.forall_iff_forall_mem.mp opsP10_sub op h, List.forall_iff_forall_mem.mp opsP11_sub op h, List.forall_iff_forall_mem.mp opsP12_sub op h, List.forall_iff_forall_mem.mp opsP13_sub op h, List.forall_iff_forall_mem.mp opsP14_sub op h, List.forall_iff_forall_mem.mp opsP15_sub op h, List.forall_iff_forall_mem.mp opsP16_sub op h, List.forall_iff_forall_mem.mp opsP17_sub op h, List.forall_iff_forall_mem.mp opsP18_sub op h, List.forall_iff_forall_mem.mp opsP19_sub op h, List.forall_iff_forall_mem.mp opsP20_sub op h, List.forall_iff_forall_mem.mp opsP21_sub op h, List.forall_iff_forall_mem.mp opsP22_sub op h, List.forall_iff_forall_mem.mp opsP23_sub op h, List.forall_iff_forall_mem.mp opsP24_sub op h, List.forall_iff_forall_mem.mp opsP25_sub op h, List.forall_iff_forall_mem.mp opsP26_sub op h, List.forall_iff_forall_mem.mp opsP27_sub op h, List.forall_iff_forall_mem.mp opsP28_sub op h, List.forall_iff_forall_mem.mp opsP29_sub op h, List.forall_iff_forall_mem.mp opsP30_sub op h, List.forall_iff_forall_mem.mp opsP31_sub op h, List.forall_iff_forall_mem.mp opsP32_sub op h, List.forall_iff_forall_mem.mp opsP33_sub op h, List.forall_iff_forall_mem.mp opsP34_sub op h, List.forall_iff_forall_mem.mp opsP35_sub op h, List.forall_iff_forall_mem.mp opsP36_sub op h, List.forall_iff_forall_mem.mp opsP37_sub op h, List.forall_iff_forall_mem.mp opsP38_sub op h, List.forall_iff_forall_mem.mp opsP39_sub op h, List.forall_iff_forall_mem.mp opsP40_sub op h]
theorem ops_fresh : ∀ op ∈ (ops : List (HloOp τ sig (Elt F))), op.fresh = ∅ := fun op h => by
    simp only [ops, opsW0, opsW1, opsW2, opsW3, opsW4, opsW5, opsW6, opsW7, opsW8, opsW9, opsW10, List.mem_append, or_assoc] at h
    rcases h with h | h | h | h | h | h | h | h | h | h | h | h | h | h | h | h | h | h | h | h | h | h | h | h | h | h | h | h | h | h | h | h | h | h | h | h | h | h | h | h | h
    exacts [opsP0_fresh op h, opsP1_fresh op h, opsP2_fresh op h, opsP3_fresh op h, opsP4_fresh op h, opsP5_fresh op h, opsP6_fresh op h, opsP7_fresh op h, opsP8_fresh op h, opsP9_fresh op h, opsP10_fresh op h, opsP11_fresh op h, opsP12_fresh op h, opsP13_fresh op h, opsP14_fresh op h, opsP15_fresh op h, opsP16_fresh op h, opsP17_fresh op h, opsP18_fresh op h, opsP19_fresh op h, opsP20_fresh op h, opsP21_fresh op h, opsP22_fresh op h, opsP23_fresh op h, opsP24_fresh op h, opsP25_fresh op h, opsP26_fresh op h, opsP27_fresh op h, opsP28_fresh op h, opsP29_fresh op h, opsP30_fresh op h, opsP31_fresh op h, opsP32_fresh op h, opsP33_fresh op h, opsP34_fresh op h, opsP35_fresh op h, opsP36_fresh op h, opsP37_fresh op h, opsP38_fresh op h, opsP39_fresh op h, opsP40_fresh op h]
theorem after_ops (V : Valuation τ sig (Elt F)) : after ops V = after opsP40 (after opsP39 (after opsP38 (after opsP37 (after opsP36 (after opsP35 (after opsP34 (after opsP33 (after opsP32 (after opsP31 (after opsP30 (after opsP29 (after opsP28 (after opsP27 (after opsP26 (after opsP25 (after opsP24 (after opsP23 (after opsP22 (after opsP21 (after opsP20 (after opsP19 (after opsP18 (after opsP17 (after opsP16 (after opsP15 (after opsP14 (after opsP13 (after opsP12 (after opsP11 (after opsP10 (after opsP9 (after opsP8 (after opsP7 (after opsP6 (after opsP5 (after opsP4 (after opsP3 (after opsP2 (after opsP1 (after opsP0 V)))))))))))))))))))))))))))))))))))))))) := by
  simp only [ops, opsW0, opsW1, opsW2, opsW3, opsW4, opsW5, opsW6, opsW7, opsW8, opsW9, opsW10, after_append]
theorem keep_arg0 (V : Valuation τ sig (Elt F)) : after ops V main_arg0 = V main_arg0 := by
  rw [after_ops]
  exact (opsP40_keep _ main_arg0 (by decide))
    |>.trans (opsP39_keep _ main_arg0 (by decide))
    |>.trans (opsP38_keep _ main_arg0 (by decide))
    |>.trans (opsP37_keep _ main_arg0 (by decide))
    |>.trans (opsP36_keep _ main_arg0 (by decide))
    |>.trans (opsP35_keep _ main_arg0 (by decide))
    |>.trans (opsP34_keep _ main_arg0 (by decide))
    |>.trans (opsP33_keep _ main_arg0 (by decide))
    |>.trans (opsP32_keep _ main_arg0 (by decide))
    |>.trans (opsP31_keep _ main_arg0 (by decide))
    |>.trans (opsP30_keep _ main_arg0 (by decide))
    |>.trans (opsP29_keep _ main_arg0 (by decide))
    |>.trans (opsP28_keep _ main_arg0 (by decide))
    |>.trans (opsP27_keep _ main_arg0 (by decide))
    |>.trans (opsP26_keep _ main_arg0 (by decide))
    |>.trans (opsP25_keep _ main_arg0 (by decide))
    |>.trans (opsP24_keep _ main_arg0 (by decide))
    |>.trans (opsP23_keep _ main_arg0 (by decide))
    |>.trans (opsP22_keep _ main_arg0 (by decide))
    |>.trans (opsP21_keep _ main_arg0 (by decide))
    |>.trans (opsP20_keep _ main_arg0 (by decide))
    |>.trans (opsP19_keep _ main_arg0 (by decide))
    |>.trans (opsP18_keep _ main_arg0 (by decide))
    |>.trans (opsP17_keep _ main_arg0 (by decide))
    |>.trans (opsP16_keep _ main_arg0 (by decide))
    |>.trans (opsP15_keep _ main_arg0 (by decide))
    |>.trans (opsP14_keep _ main_arg0 (by decide))
    |>.trans (opsP13_keep _ main_arg0 (by decide))
    |>.trans (opsP12_keep _ main_arg0 (by decide))
    |>.trans (opsP11_keep _ main_arg0 (by decide))
    |>.trans (opsP10_keep _ main_arg0 (by decide))
    |>.trans (opsP9_keep _ main_arg0 (by decide))
    |>.trans (opsP8_keep _ main_arg0 (by decide))
    |>.trans (opsP7_keep _ main_arg0 (by decide))
    |>.trans (opsP6_keep _ main_arg0 (by decide))
    |>.trans (opsP5_keep _ main_arg0 (by decide))
    |>.trans (opsP4_keep _ main_arg0 (by decide))
    |>.trans (opsP3_keep _ main_arg0 (by decide))
    |>.trans (opsP2_keep _ main_arg0 (by decide))
    |>.trans (opsP1_keep _ main_arg0 (by decide))
    |>.trans (opsP0_keep _ main_arg0 (by decide))
theorem keep_arg1 (V : Valuation τ sig (Elt F)) : after ops V main_arg1 = V main_arg1 := by
  rw [after_ops]
  exact (opsP40_keep _ main_arg1 (by decide))
    |>.trans (opsP39_keep _ main_arg1 (by decide))
    |>.trans (opsP38_keep _ main_arg1 (by decide))
    |>.trans (opsP37_keep _ main_arg1 (by decide))
    |>.trans (opsP36_keep _ main_arg1 (by decide))
    |>.trans (opsP35_keep _ main_arg1 (by decide))
    |>.trans (opsP34_keep _ main_arg1 (by decide))
    |>.trans (opsP33_keep _ main_arg1 (by decide))
    |>.trans (opsP32_keep _ main_arg1 (by decide))
    |>.trans (opsP31_keep _ main_arg1 (by decide))
    |>.trans (opsP30_keep _ main_arg1 (by decide))
    |>.trans (opsP29_keep _ main_arg1 (by decide))
    |>.trans (opsP28_keep _ main_arg1 (by decide))
    |>.trans (opsP27_keep _ main_arg1 (by decide))
    |>.trans (opsP26_keep _ main_arg1 (by decide))
    |>.trans (opsP25_keep _ main_arg1 (by decide))
    |>.trans (opsP24_keep _ main_arg1 (by decide))
    |>.trans (opsP23_keep _ main_arg1 (by decide))
    |>.trans (opsP22_keep _ main_arg1 (by decide))
    |>.trans (opsP21_keep _ main_arg1 (by decide))
    |>.trans (opsP20_keep _ main_arg1 (by decide))
    |>.trans (opsP19_keep _ main_arg1 (by decide))
    |>.trans (opsP18_keep _ main_arg1 (by decide))
    |>.trans (opsP17_keep _ main_arg1 (by decide))
    |>.trans (opsP16_keep _ main_arg1 (by decide))
    |>.trans (opsP15_keep _ main_arg1 (by decide))
    |>.trans (opsP14_keep _ main_arg1 (by decide))
    |>.trans (opsP13_keep _ main_arg1 (by decide))
    |>.trans (opsP12_keep _ main_arg1 (by decide))
    |>.trans (opsP11_keep _ main_arg1 (by decide))
    |>.trans (opsP10_keep _ main_arg1 (by decide))
    |>.trans (opsP9_keep _ main_arg1 (by decide))
    |>.trans (opsP8_keep _ main_arg1 (by decide))
    |>.trans (opsP7_keep _ main_arg1 (by decide))
    |>.trans (opsP6_keep _ main_arg1 (by decide))
    |>.trans (opsP5_keep _ main_arg1 (by decide))
    |>.trans (opsP4_keep _ main_arg1 (by decide))
    |>.trans (opsP3_keep _ main_arg1 (by decide))
    |>.trans (opsP2_keep _ main_arg1 (by decide))
    |>.trans (opsP1_keep _ main_arg1 (by decide))
    |>.trans (opsP0_keep _ main_arg1 (by decide))
theorem keep_arg2 (V : Valuation τ sig (Elt F)) : after ops V main_arg2 = V main_arg2 := by
  rw [after_ops]
  exact (opsP40_keep _ main_arg2 (by decide))
    |>.trans (opsP39_keep _ main_arg2 (by decide))
    |>.trans (opsP38_keep _ main_arg2 (by decide))
    |>.trans (opsP37_keep _ main_arg2 (by decide))
    |>.trans (opsP36_keep _ main_arg2 (by decide))
    |>.trans (opsP35_keep _ main_arg2 (by decide))
    |>.trans (opsP34_keep _ main_arg2 (by decide))
    |>.trans (opsP33_keep _ main_arg2 (by decide))
    |>.trans (opsP32_keep _ main_arg2 (by decide))
    |>.trans (opsP31_keep _ main_arg2 (by decide))
    |>.trans (opsP30_keep _ main_arg2 (by decide))
    |>.trans (opsP29_keep _ main_arg2 (by decide))
    |>.trans (opsP28_keep _ main_arg2 (by decide))
    |>.trans (opsP27_keep _ main_arg2 (by decide))
    |>.trans (opsP26_keep _ main_arg2 (by decide))
    |>.trans (opsP25_keep _ main_arg2 (by decide))
    |>.trans (opsP24_keep _ main_arg2 (by decide))
    |>.trans (opsP23_keep _ main_arg2 (by decide))
    |>.trans (opsP22_keep _ main_arg2 (by decide))
    |>.trans (opsP21_keep _ main_arg2 (by decide))
    |>.trans (opsP20_keep _ main_arg2 (by decide))
    |>.trans (opsP19_keep _ main_arg2 (by decide))
    |>.trans (opsP18_keep _ main_arg2 (by decide))
    |>.trans (opsP17_keep _ main_arg2 (by decide))
    |>.trans (opsP16_keep _ main_arg2 (by decide))
    |>.trans (opsP15_keep _ main_arg2 (by decide))
    |>.trans (opsP14_keep _ main_arg2 (by decide))
    |>.trans (opsP13_keep _ main_arg2 (by decide))
    |>.trans (opsP12_keep _ main_arg2 (by decide))
    |>.trans (opsP11_keep _ main_arg2 (by decide))
    |>.trans (opsP10_keep _ main_arg2 (by decide))
    |>.trans (opsP9_keep _ main_arg2 (by decide))
    |>.trans (opsP8_keep _ main_arg2 (by decide))
    |>.trans (opsP7_keep _ main_arg2 (by decide))
    |>.trans (opsP6_keep _ main_arg2 (by decide))
    |>.trans (opsP5_keep _ main_arg2 (by decide))
    |>.trans (opsP4_keep _ main_arg2 (by decide))
    |>.trans (opsP3_keep _ main_arg2 (by decide))
    |>.trans (opsP2_keep _ main_arg2 (by decide))
    |>.trans (opsP1_keep _ main_arg2 (by decide))
    |>.trans (opsP0_keep _ main_arg2 (by decide))
theorem keep_arg3 (V : Valuation τ sig (Elt F)) : after ops V main_arg3 = V main_arg3 := by
  rw [after_ops]
  exact (opsP40_keep _ main_arg3 (by decide))
    |>.trans (opsP39_keep _ main_arg3 (by decide))
    |>.trans (opsP38_keep _ main_arg3 (by decide))
    |>.trans (opsP37_keep _ main_arg3 (by decide))
    |>.trans (opsP36_keep _ main_arg3 (by decide))
    |>.trans (opsP35_keep _ main_arg3 (by decide))
    |>.trans (opsP34_keep _ main_arg3 (by decide))
    |>.trans (opsP33_keep _ main_arg3 (by decide))
    |>.trans (opsP32_keep _ main_arg3 (by decide))
    |>.trans (opsP31_keep _ main_arg3 (by decide))
    |>.trans (opsP30_keep _ main_arg3 (by decide))
    |>.trans (opsP29_keep _ main_arg3 (by decide))
    |>.trans (opsP28_keep _ main_arg3 (by decide))
    |>.trans (opsP27_keep _ main_arg3 (by decide))
    |>.trans (opsP26_keep _ main_arg3 (by decide))
    |>.trans (opsP25_keep _ main_arg3 (by decide))
    |>.trans (opsP24_keep _ main_arg3 (by decide))
    |>.trans (opsP23_keep _ main_arg3 (by decide))
    |>.trans (opsP22_keep _ main_arg3 (by decide))
    |>.trans (opsP21_keep _ main_arg3 (by decide))
    |>.trans (opsP20_keep _ main_arg3 (by decide))
    |>.trans (opsP19_keep _ main_arg3 (by decide))
    |>.trans (opsP18_keep _ main_arg3 (by decide))
    |>.trans (opsP17_keep _ main_arg3 (by decide))
    |>.trans (opsP16_keep _ main_arg3 (by decide))
    |>.trans (opsP15_keep _ main_arg3 (by decide))
    |>.trans (opsP14_keep _ main_arg3 (by decide))
    |>.trans (opsP13_keep _ main_arg3 (by decide))
    |>.trans (opsP12_keep _ main_arg3 (by decide))
    |>.trans (opsP11_keep _ main_arg3 (by decide))
    |>.trans (opsP10_keep _ main_arg3 (by decide))
    |>.trans (opsP9_keep _ main_arg3 (by decide))
    |>.trans (opsP8_keep _ main_arg3 (by decide))
    |>.trans (opsP7_keep _ main_arg3 (by decide))
    |>.trans (opsP6_keep _ main_arg3 (by decide))
    |>.trans (opsP5_keep _ main_arg3 (by decide))
    |>.trans (opsP4_keep _ main_arg3 (by decide))
    |>.trans (opsP3_keep _ main_arg3 (by decide))
    |>.trans (opsP2_keep _ main_arg3 (by decide))
    |>.trans (opsP1_keep _ main_arg3 (by decide))
    |>.trans (opsP0_keep _ main_arg3 (by decide))
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)
end Cert.ReferenceIdeal.Hand

end
-- ==== Proof.RefFun.lean ====
import proofs.«409303_j18760417149025_3_alg».proof.ReferenceIdeal

noncomputable section

namespace Cert.ReferenceIdeal.Hand

open Idealize.ShloMosaic
open Cert.ReferenceIdeal Cert.ReferenceIdeal.Facts₀ Cert.ReferenceIdeal.Facts

variable [Cert.ReferenceIdeal.Facts] {F : FTy → Type} [FloatOps F]

def refVal_part40 (main_v323 : FVec F S_ .f32) (main_v481 : FVec F S_ .f32) (main_v482 : FVec F S_ .f32) (main_cst_160 : FVec F S_ .f32) : FVec F S_ .f32 :=
  let main_v483 := mulf main_v481 main_cst_160
  let main_v484 := addf main_v323 main_v482
  let main_v485 := addf main_v484 main_v483
  main_v485

def refVal_part39 (main_v323 : FVec F S_ .f32) (main_v402 : FVec F S128x40x40 .f32) (main_v403 : FVec F S_ .f32) (main_v431 : FVec F S_ .f32) (main_v464 : FVec F S128x40x40 .f32) (main_v468 : FVec F S_ .f32) (main_v469 : IVec S_ 1) (main_cst_151 : FVec F S_ .f32) : FVec F S_ .f32 :=
  let main_call19_v0 := id main_cst_151
  let main_v470 := select main_v469 main_v468 main_call19_v0
  let main_cst_152 := constant S_ .f32 0x48480000#32
  let main_v471 := subf main_cst_152 main_v403
  let main_cst_153 := constant S_ .f32 0x3F800000#32
  let main_v472 := broadcastInDim S128x40x40 ![] bcast_S_S128x40x40 main_cst_153
  let main_v473 := subf main_v472 main_v402
  let main_v474 := mulf main_v464 main_v473
  let main_cst_154 := constant S_ .f32 0x00000000#32
  let main_v475 := (fun x v => Host.reduceAdd x v reducesTo_S128x40x40_S_d0_1_2 h_S_) main_v474 main_cst_154
  let main_cst_155 := constant S_ .f32 0x3F800000#32
  let main_v476 := maximumf main_v471 main_cst_155
  let main_v477 := Host.divf main_v475 main_v476
  let main_cst_156 := constant S_ .f32 0x00000000#32
  let main_v478 := cmpf .ogt main_v471 main_cst_156
  let main_cst_157 := constant S_ .f32 0x00000000#32
  let main_call20_v0 := id main_cst_157
  let main_v479 := select main_v478 main_v477 main_call20_v0
  let main_cst_158 := constant S_ .f32 0x3D4CCCCD#32
  let main_v480 := mulf main_cst_158 main_v479
  let main_v481 := addf main_v470 main_v480
  let main_cst_159 := constant S_ .f32 0x41100000#32
  let main_v482 := mulf main_v431 main_cst_159
  let main_cst_160 := constant S_ .f32 0x3F800000#32
  refVal_part40 (F := F) main_v323 main_v481 main_v482 main_cst_160

def refVal_part38 (main_v323 : FVec F S_ .f32) (main_v402 : FVec F S128x40x40 .f32) (main_v403 : FVec F S_ .f32) (main_v431 : FVec F S_ .f32) (main_v444 : FVec F S128x40x40 .f32) (main_v450 : FVec F S128x40x40 .f32) (main_v451 : FVec F S128x40x40 .f32) (main_v453 : FVec F S128x40x40 .f32) : FVec F S_ .f32 :=
  let main_cst_144 := constant S_ .f32 0x3F800000#32
  let main_v454 := broadcastInDim S128x40x40 ![] bcast_S_S128x40x40 main_cst_144
  let main_v455 := subf main_v454 main_v450
  let main_v456 := mulf main_v453 main_v455
  let main_v457 := addf main_v451 main_v456
  let main_cst_145 := constant S_ .f32 0x3F800000#32
  let main_v458 := broadcastInDim S128x40x40 ![] bcast_S_S128x40x40 main_cst_145
  let main_v459 := subf main_v458 main_v457
  let main_cst_146 := constant S_ .f32 0x3FC00000#32
  let main_v460 := broadcastInDim S128x40x40 ![] bcast_S_S128x40x40 main_cst_146
  let main_v461 := Host.powf main_v459 main_v460
  let main_cst_147 := constant S_ .f32 0x3E800000#32
  let main_v462 := broadcastInDim S128x40x40 ![] bcast_S_S128x40x40 main_cst_147
  let main_v463 := mulf main_v462 main_v461
  let main_v464 := mulf main_v463 main_v444
  let main_v465 := mulf main_v464 main_v402
  let main_cst_148 := constant S_ .f32 0x00000000#32
  let main_v466 := (fun x v => Host.reduceAdd x v reducesTo_S128x40x40_S_d0_1_2 h_S_) main_v465 main_cst_148
  let main_cst_149 := constant S_ .f32 0x3F800000#32
  let main_v467 := maximumf main_v403 main_cst_149
  let main_v468 := Host.divf main_v466 main_v467
  let main_cst_150 := constant S_ .f32 0x00000000#32
  let main_v469 := cmpf .ogt main_v403 main_cst_150
  let main_cst_151 := constant S_ .f32 0x00000000#32
  refVal_part39 (F := F) main_v323 main_v402 main_v403 main_v431 main_v464 main_v468 main_v469 main_cst_151

def refVal_part37 (main_v323 : FVec F S_ .f32) (main_v402 : FVec F S128x40x40 .f32) (main_v403 : FVec F S_ .f32) (main_v431 : FVec F S_ .f32) (main_v433 : FVec F S128x40x40 .f32) (main_v435 : FVec F S128x40x40 .f32) (main_v437 : FVec F S128x40x40 .f32) (main_v439 : FVec F S128x40x40 .f32) (main_call18_call0_v1 : FVec F S128x40x40 .f32) (main_call18_call0_v4 : IVec S128x40x40 1) (main_call18_call0_v6 : FVec F S128x40x40 .f32) (main_call18_call0_v9 : FVec F S128x40x40 .f32) : FVec F S_ .f32 :=
  let main_call18_call0_v10 := Host.log1p main_call18_call0_v9
  let main_call18_call0_v11 := addf main_call18_call0_v1 main_call18_call0_v10
  let main_call18_v1 := select main_call18_call0_v4 main_call18_call0_v6 main_call18_call0_v11
  let main_v441 := Host.negf main_call18_v1
  let main_v442 := mulf main_v439 main_v441
  let main_v443 := addf main_v437 main_v442
  let main_v444 := Host.negf main_v443
  let main_v445 := Host.negf main_v433
  let main_v446 := Host.exp main_v445
  let main_cst_141 := constant S_ .f32 0x3F800000#32
  let main_v447 := broadcastInDim S128x40x40 ![] bcast_S_S128x40x40 main_cst_141
  let main_v448 := addf main_v447 main_v446
  let main_cst_142 := constant S_ .f32 0x3F800000#32
  let main_v449 := broadcastInDim S128x40x40 ![] bcast_S_S128x40x40 main_cst_142
  let main_v450 := Host.divf main_v449 main_v448
  let main_v451 := mulf main_v435 main_v450
  let main_cst_143 := constant S_ .f32 0x3F800000#32
  let main_v452 := broadcastInDim S128x40x40 ![] bcast_S_S128x40x40 main_cst_143
  let main_v453 := subf main_v452 main_v435
  refVal_part38 (F := F) main_v323 main_v402 main_v403 main_v431 main_v444 main_v450 main_v451 main_v453

def refVal_part36 (main_v323 : FVec F S_ .f32) (main_v402 : FVec F S128x40x40 .f32) (main_v403 : FVec F S_ .f32) (main_v431 : FVec F S_ .f32) (main_v433 : FVec F S128x40x40 .f32) (main_v435 : FVec F S128x40x40 .f32) (main_call17_call0_v1 : FVec F S128x40x40 .f32) (main_call17_call0_v3 : FVec F S128x40x40 .f32) (main_call17_call0_v4 : IVec S128x40x40 1) (main_call17_call0_v6 : FVec F S128x40x40 .f32) : FVec F S_ .f32 :=
  let main_call17_call0_v7 := Host.absf main_call17_call0_v3
  let main_call17_call0_v8 := Host.negf main_call17_call0_v7
  let main_call17_call0_v9 := Host.exp main_call17_call0_v8
  let main_call17_call0_v10 := Host.log1p main_call17_call0_v9
  let main_call17_call0_v11 := addf main_call17_call0_v1 main_call17_call0_v10
  let main_call17_v1 := select main_call17_call0_v4 main_call17_call0_v6 main_call17_call0_v11
  let main_v436 := Host.negf main_call17_v1
  let main_v437 := mulf main_v435 main_v436
  let main_cst_140 := constant S_ .f32 0x3F800000#32
  let main_v438 := broadcastInDim S128x40x40 ![] bcast_S_S128x40x40 main_cst_140
  let main_v439 := subf main_v438 main_v435
  let main_v440 := Host.negf main_v433
  let main_call18_v0 := Host.negf main_v440
  let main_call18_call0_cst := constant S_ .f32 0x00000000#32
  let main_call18_call0_v0 := broadcastInDim S128x40x40 ![] bcast_S_S128x40x40 main_call18_call0_cst
  let main_call18_call0_v1 := maximumf main_call18_v0 main_call18_call0_v0
  let main_call18_call0_v2 := broadcastInDim S128x40x40 ![] bcast_S_S128x40x40 main_call18_call0_cst
  let main_call18_call0_v3 := subf main_call18_v0 main_call18_call0_v2
  let main_call18_call0_v4 := cmpf .une main_call18_call0_v3 main_call18_call0_v3
  let main_call18_call0_v5 := broadcastInDim S128x40x40 ![] bcast_S_S128x40x40 main_call18_call0_cst
  let main_call18_call0_v6 := addf main_call18_v0 main_call18_call0_v5
  let main_call18_call0_v7 := Host.absf main_call18_call0_v3
  let main_call18_call0_v8 := Host.negf main_call18_call0_v7
  let main_call18_call0_v9 := Host.exp main_call18_call0_v8
  refVal_part37 (F := F) main_v323 main_v402 main_v403 main_v431 main_v433 main_v435 main_v437 main_v439 main_call18_call0_v1 main_call18_call0_v4 main_call18_call0_v6 main_call18_call0_v9

def refVal_part35 (main_v323 : FVec F S_ .f32) (main_v378 : FVec F S128x40x40x5 .f32) (main_v401 : FVec F S128x40x40x5 .f32) (main_v402 : FVec F S128x40x40 .f32) (main_v403 : FVec F S_ .f32) (main_v412 : FVec F S128x40x40x1 .f32) (main_v414 : FVec F S_ .f32) (main_v421 : FVec F S_ .f32) (main_v424 : FVec F S128x40x40x2 .f32) : FVec F S_ .f32 :=
  let main_v425 := broadcastInDim S128x40x40x2 ![0, 1, 2, 3] bcast_S128x40x40x1_S128x40x40x2_0_1_2_3 main_v412
  let main_v426 := mulf main_v424 main_v425
  let main_cst_137 := constant S_ .f32 0x00000000#32
  let main_v427 := (fun x v => Host.reduceAdd x v reducesTo_S128x40x40x2_S_d0_1_2_3 h_S_) main_v426 main_cst_137
  let main_v428 := Host.divf main_v427 main_v414
  let main_cst_138 := constant S_ .f32 0x00000000#32
  let main_v429 := cmpf .ogt main_v403 main_cst_138
  let main_v430 := addf main_v421 main_v428
  let main_cst_139 := constant S_ .f32 0x00000000#32
  let main_call16_v0 := id main_cst_139
  let main_v431 := select main_v429 main_v430 main_call16_v0
  let main_v432 := (extractStridedSlice S128x40x40x1 ![0, 0, 0, 4] · slices_S128x40x40x5_S128x40x40x1_0_0_0_4) main_v401
  let main_v433 := shapeCast S128x40x40 main_v432 shapeCasts_S128x40x40x1_S128x40x40
  let main_v434 := (extractStridedSlice S128x40x40x1 ![0, 0, 0, 4] · slices_S128x40x40x5_S128x40x40x1_0_0_0_4) main_v378
  let main_v435 := shapeCast S128x40x40 main_v434 shapeCasts_S128x40x40x1_S128x40x40
  let main_call17_v0 := Host.negf main_v433
  let main_call17_call0_cst := constant S_ .f32 0x00000000#32
  let main_call17_call0_v0 := broadcastInDim S128x40x40 ![] bcast_S_S128x40x40 main_call17_call0_cst
  let main_call17_call0_v1 := maximumf main_call17_v0 main_call17_call0_v0
  let main_call17_call0_v2 := broadcastInDim S128x40x40 ![] bcast_S_S128x40x40 main_call17_call0_cst
  let main_call17_call0_v3 := subf main_call17_v0 main_call17_call0_v2
  let main_call17_call0_v4 := cmpf .une main_call17_call0_v3 main_call17_call0_v3
  let main_call17_call0_v5 := broadcastInDim S128x40x40 ![] bcast_S_S128x40x40 main_call17_call0_cst
  let main_call17_call0_v6 := addf main_call17_v0 main_call17_call0_v5
  refVal_part36 (F := F) main_v323 main_v402 main_v403 main_v431 main_v433 main_v435 main_call17_call0_v1 main_call17_call0_v3 main_call17_call0_v4 main_call17_call0_v6

def refVal_part34 (main_v323 : FVec F S_ .f32) (main_v378 : FVec F S128x40x40x5 .f32) (main_v401 : FVec F S128x40x40x5 .f32) (main_v402 : FVec F S128x40x40 .f32) (main_v403 : FVec F S_ .f32) (main_v405 : FVec F S128x40x40x2 .f32) : FVec F S_ .f32 :=
  let main_v406 := Host.exp main_v405
  let main_cst_132 := constant S_ .f32 0x3F800000#32
  let main_v407 := broadcastInDim S128x40x40x2 ![] bcast_S_S128x40x40x2 main_cst_132
  let main_v408 := addf main_v407 main_v406
  let main_cst_133 := constant S_ .f32 0x3F800000#32
  let main_v409 := broadcastInDim S128x40x40x2 ![] bcast_S_S128x40x40x2 main_cst_133
  let main_v410 := Host.divf main_v409 main_v408
  let main_v411 := (extractStridedSlice S128x40x40x2 ![0, 0, 0, 2] · slices_S128x40x40x5_S128x40x40x2_0_0_0_2) main_v401
  let main_v412 := broadcastInDim S128x40x40x1 ![0, 1, 2] bcast_S128x40x40_S128x40x40x1_0_1_2 main_v402
  let main_cst_134 := constant S_ .f32 0x3F800000#32
  let main_v413 := maximumf main_v403 main_cst_134
  let main_cst_135 := constant S_ .f32 0x40000000#32
  let main_v414 := mulf main_v413 main_cst_135
  let main_v415 := (extractStridedSlice S128x40x40x2 ![0, 0, 0, 0] · slices_S128x40x40x5_S128x40x40x2_0_0_0_0) main_v378
  let main_v416 := subf main_v410 main_v415
  let main_v417 := mulf main_v416 main_v416
  let main_v418 := broadcastInDim S128x40x40x2 ![0, 1, 2, 3] bcast_S128x40x40x1_S128x40x40x2_0_1_2_3 main_v412
  let main_v419 := mulf main_v417 main_v418
  let main_cst_136 := constant S_ .f32 0x00000000#32
  let main_v420 := (fun x v => Host.reduceAdd x v reducesTo_S128x40x40x2_S_d0_1_2_3 h_S_) main_v419 main_cst_136
  let main_v421 := Host.divf main_v420 main_v414
  let main_v422 := (extractStridedSlice S128x40x40x2 ![0, 0, 0, 2] · slices_S128x40x40x5_S128x40x40x2_0_0_0_2) main_v378
  let main_v423 := subf main_v411 main_v422
  let main_v424 := mulf main_v423 main_v423
  refVal_part35 (F := F) main_v323 main_v378 main_v401 main_v402 main_v403 main_v412 main_v414 main_v421 main_v424

def refVal_part33 (main_arg2 : FVec F S128x5x40x40 .f32) (main_v323 : FVec F S_ .f32) (main_v378 : FVec F S128x40x40x5 .f32) (main_v379 : IVec S128x40x40 1) (main_v395 : IVec S4096x1 32) (main_v396 : IVec S4096x1 32) (main_v397 : IVec S4096x1 32) : FVec F S_ .f32 :=
  let main_v398 := concatenate S4096x3 1 [⟨S4096x1, main_v395⟩, ⟨S4096x1, main_v396⟩, ⟨S4096x1, main_v397⟩] concatenates_S4096x1_S4096x1_S4096x1_S4096x3_d1
  let main_c_130 := constantI S_ 1 1#1
  let main_v399 := broadcastInDim S4096 ![] bcast_S_S4096 main_c_130
  let main_v400 := (fun x i u => Host.scatter scatter_S128x40x40_S4096x3_S4096_n_012_012_1 (fun _ b => b) x i u) main_v379 main_v398 main_v399
  let main_v401 := (transpose S128x40x40x5 [0, 2, 3, 1] · transposes_S128x5x40x40_S128x40x40x5_0_2_3_1) main_arg2
  let main_v402 := uitofp .f32 main_v400
  let main_cst_131 := constant S_ .f32 0x00000000#32
  let main_v403 := (fun x v => Host.reduceAdd x v reducesTo_S128x40x40_S_d0_1_2 h_S_) main_v402 main_cst_131
  let main_v404 := (extractStridedSlice S128x40x40x2 ![0, 0, 0, 0] · slices_S128x40x40x5_S128x40x40x2_0_0_0_0) main_v401
  let main_v405 := Host.negf main_v404
  refVal_part34 (F := F) main_v323 main_v378 main_v401 main_v402 main_v403 main_v405

def refVal_part32 (main_arg2 : FVec F S128x5x40x40 .f32) (main_v323 : FVec F S_ .f32) (main_v340 : IVec S4096 32) (main_v378 : FVec F S128x40x40x5 .f32) (main_v379 : IVec S128x40x40 1) (main_v384 : IVec S4096 32) (main_v389 : IVec S4096 32) (main_v391 : IVec S4096 1) (main_v393 : IVec S4096 32) : FVec F S_ .f32 :=
  let main_v394 := select main_v391 main_v393 main_v340
  let main_v395 := broadcastInDim S4096x1 ![0] bcast_S4096_S4096x1_0 main_v384
  let main_v396 := broadcastInDim S4096x1 ![0] bcast_S4096_S4096x1_0 main_v389
  let main_v397 := broadcastInDim S4096x1 ![0] bcast_S4096_S4096x1_0 main_v394
  refVal_part33 (F := F) main_arg2 main_v323 main_v378 main_v379 main_v395 main_v396 main_v397

def refVal_part31 (main_arg2 : FVec F S128x5x40x40 .f32) (main_v323 : FVec F S_ .f32) (main_v326 : IVec S4096 32) (main_v340 : IVec S4096 32) (main_v342 : IVec S4096 32) (main_v357 : FVec F S4096x5 .f32) (main_v358 : FVec F S128x40x40x5 .f32) (main_v374 : IVec S4096x1 32) (main_v375 : IVec S4096x1 32) (main_v376 : IVec S4096x1 32) : FVec F S_ .f32 :=
  let main_v377 := concatenate S4096x3 1 [⟨S4096x1, main_v374⟩, ⟨S4096x1, main_v375⟩, ⟨S4096x1, main_v376⟩] concatenates_S4096x1_S4096x1_S4096x1_S4096x3_d1
  let main_v378 := (fun x i u => Host.scatter scatter_S128x40x40x5_S4096x3_S4096x5_1_012_012_1 (fun _ b => b) x i u) main_v358 main_v377 main_v357
  let main_c_123 := constantI S_ 1 0#1
  let main_v379 := broadcastInDim S128x40x40 ![] bcast_S_S128x40x40 main_c_123
  let main_c_124 := constantI S_ 32 0#32
  let main_v380 := broadcastInDim S4096 ![] bcast_S_S4096 main_c_124
  let main_v381 := cmpi .slt main_v326 main_v380
  let main_c_125 := constantI S_ 32 128#32
  let main_v382 := broadcastInDim S4096 ![] bcast_S_S4096 main_c_125
  let main_v383 := addi main_v326 main_v382
  let main_v384 := select main_v381 main_v383 main_v326
  let main_c_126 := constantI S_ 32 0#32
  let main_v385 := broadcastInDim S4096 ![] bcast_S_S4096 main_c_126
  let main_v386 := cmpi .slt main_v342 main_v385
  let main_c_127 := constantI S_ 32 40#32
  let main_v387 := broadcastInDim S4096 ![] bcast_S_S4096 main_c_127
  let main_v388 := addi main_v342 main_v387
  let main_v389 := select main_v386 main_v388 main_v342
  let main_c_128 := constantI S_ 32 0#32
  let main_v390 := broadcastInDim S4096 ![] bcast_S_S4096 main_c_128
  let main_v391 := cmpi .slt main_v340 main_v390
  let main_c_129 := constantI S_ 32 40#32
  let main_v392 := broadcastInDim S4096 ![] bcast_S_S4096 main_c_129
  let main_v393 := addi main_v340 main_v392
  refVal_part32 (F := F) main_arg2 main_v323 main_v340 main_v378 main_v379 main_v384 main_v389 main_v391 main_v393

def refVal_part30 (main_arg2 : FVec F S128x5x40x40 .f32) (main_v323 : FVec F S_ .f32) (main_v326 : IVec S4096 32) (main_v340 : IVec S4096 32) (main_v342 : IVec S4096 32) (main_v357 : FVec F S4096x5 .f32) (main_v358 : FVec F S128x40x40x5 .f32) (main_v359 : IVec S4096 32) : FVec F S_ .f32 :=
  let main_v360 := cmpi .slt main_v326 main_v359
  let main_c_118 := constantI S_ 32 128#32
  let main_v361 := broadcastInDim S4096 ![] bcast_S_S4096 main_c_118
  let main_v362 := addi main_v326 main_v361
  let main_v363 := select main_v360 main_v362 main_v326
  let main_c_119 := constantI S_ 32 0#32
  let main_v364 := broadcastInDim S4096 ![] bcast_S_S4096 main_c_119
  let main_v365 := cmpi .slt main_v342 main_v364
  let main_c_120 := constantI S_ 32 40#32
  let main_v366 := broadcastInDim S4096 ![] bcast_S_S4096 main_c_120
  let main_v367 := addi main_v342 main_v366
  let main_v368 := select main_v365 main_v367 main_v342
  let main_c_121 := constantI S_ 32 0#32
  let main_v369 := broadcastInDim S4096 ![] bcast_S_S4096 main_c_121
  let main_v370 := cmpi .slt main_v340 main_v369
  let main_c_122 := constantI S_ 32 40#32
  let main_v371 := broadcastInDim S4096 ![] bcast_S_S4096 main_c_122
  let main_v372 := addi main_v340 main_v371
  let main_v373 := select main_v370 main_v372 main_v340
  let main_v374 := broadcastInDim S4096x1 ![0] bcast_S4096_S4096x1_0 main_v363
  let main_v375 := broadcastInDim S4096x1 ![0] bcast_S4096_S4096x1_0 main_v368
  let main_v376 := broadcastInDim S4096x1 ![0] bcast_S4096_S4096x1_0 main_v373
  refVal_part31 (F := F) main_arg2 main_v323 main_v326 main_v340 main_v342 main_v357 main_v358 main_v374 main_v375 main_v376

def refVal_part29 (main_arg2 : FVec F S128x5x40x40 .f32) (main_v323 : FVec F S_ .f32) (main_v326 : IVec S4096 32) (main_v340 : IVec S4096 32) (main_v342 : IVec S4096 32) (main_v352 : FVec F S4096x1 .f32) (main_v353 : FVec F S4096x1 .f32) (main_v354 : FVec F S4096x1 .f32) (main_v355 : FVec F S4096x1 .f32) (main_v356 : FVec F S4096x1 .f32) : FVec F S_ .f32 :=
  let main_v357 := concatenate S4096x5 1 [⟨S4096x1, main_v352⟩, ⟨S4096x1, main_v353⟩, ⟨S4096x1, main_v354⟩, ⟨S4096x1, main_v355⟩, ⟨S4096x1, main_v356⟩] concatenates_S4096x1_S4096x1_S4096x1_S4096x1_S4096x1_S4096x5_d1
  let main_cst_116 := constant S_ .f32 0x00000000#32
  let main_v358 := broadcastInDim S128x40x40x5 ![] bcast_S_S128x40x40x5 main_cst_116
  let main_c_117 := constantI S_ 32 0#32
  let main_v359 := broadcastInDim S4096 ![] bcast_S_S4096 main_c_117
  refVal_part30 (F := F) main_arg2 main_v323 main_v326 main_v340 main_v342 main_v357 main_v358 main_v359

def refVal_part28 (main_arg2 : FVec F S128x5x40x40 .f32) (main_v323 : FVec F S_ .f32) (main_v326 : IVec S4096 32) (main_v332 : FVec F S4096 .f32) (main_v334 : FVec F S4096 .f32) (main_v336 : FVec F S4096 .f32) (main_v338 : FVec F S4096 .f32) (main_v340 : IVec S4096 32) (main_v341 : FVec F S4096 .f32) : FVec F S_ .f32 :=
  let main_v342 := fptosi 32 main_v341
  let main_v343 := sitofp .f32 main_v340
  let main_v344 := subf main_v336 main_v343
  let main_v345 := sitofp .f32 main_v342
  let main_v346 := subf main_v338 main_v345
  let main_cst_113 := constant S_ .f32 0x42200000#32
  let main_v347 := broadcastInDim S4096 ![] bcast_S_S4096 main_cst_113
  let main_v348 := mulf main_v332 main_v347
  let main_cst_114 := constant S_ .f32 0x42200000#32
  let main_v349 := broadcastInDim S4096 ![] bcast_S_S4096 main_cst_114
  let main_v350 := mulf main_v334 main_v349
  let main_cst_115 := constant S_ .f32 0x3F800000#32
  let main_v351 := broadcastInDim S4096 ![] bcast_S_S4096 main_cst_115
  let main_v352 := broadcastInDim S4096x1 ![0] bcast_S4096_S4096x1_0 main_v344
  let main_v353 := broadcastInDim S4096x1 ![0] bcast_S4096_S4096x1_0 main_v346
  let main_v354 := broadcastInDim S4096x1 ![0] bcast_S4096_S4096x1_0 main_v348
  let main_v355 := broadcastInDim S4096x1 ![0] bcast_S4096_S4096x1_0 main_v350
  let main_v356 := broadcastInDim S4096x1 ![0] bcast_S4096_S4096x1_0 main_v351
  refVal_part29 (F := F) main_arg2 main_v323 main_v326 main_v340 main_v342 main_v352 main_v353 main_v354 main_v355 main_v356

def refVal_part27 (main_arg2 : FVec F S128x5x40x40 .f32) (main_v323 : FVec F S_ .f32) (main_v326 : IVec S4096 32) (main_v328 : FVec F S4096 .f32) (main_v330 : FVec F S4096 .f32) (main_v332 : FVec F S4096 .f32) (main_v333 : FVec F S4096x1 .f32) : FVec F S_ .f32 :=
  let main_v334 := shapeCast S4096 main_v333 shapeCasts_S4096x1_S4096
  let main_cst_107 := constant S_ .f32 0x42200000#32
  let main_v335 := broadcastInDim S4096 ![] bcast_S_S4096 main_cst_107
  let main_v336 := mulf main_v328 main_v335
  let main_cst_108 := constant S_ .f32 0x42200000#32
  let main_v337 := broadcastInDim S4096 ![] bcast_S_S4096 main_cst_108
  let main_v338 := mulf main_v330 main_v337
  let main_c_109 := constantI S_ 32 0#32
  let main_c_110 := constantI S_ 32 39#32
  let main_call14_v0 := sitofp .f32 main_c_109
  let main_call14_v1 := broadcastInDim S4096 ![] bcast_S_S4096 main_call14_v0
  let main_call14_v2 := maximumf main_call14_v1 main_v336
  let main_call14_v3 := sitofp .f32 main_c_110
  let main_call14_v4 := broadcastInDim S4096 ![] bcast_S_S4096 main_call14_v3
  let main_v339 := minimumf main_call14_v4 main_call14_v2
  let main_v340 := fptosi 32 main_v339
  let main_c_111 := constantI S_ 32 0#32
  let main_c_112 := constantI S_ 32 39#32
  let main_call15_v0 := sitofp .f32 main_c_111
  let main_call15_v1 := broadcastInDim S4096 ![] bcast_S_S4096 main_call15_v0
  let main_call15_v2 := maximumf main_call15_v1 main_v338
  let main_call15_v3 := sitofp .f32 main_c_112
  let main_call15_v4 := broadcastInDim S4096 ![] bcast_S_S4096 main_call15_v3
  let main_v341 := minimumf main_call15_v4 main_call15_v2
  refVal_part28 (F := F) main_arg2 main_v323 main_v326 main_v332 main_v334 main_v336 main_v338 main_v340 main_v341

def refVal_part26 (main_arg2 : FVec F S128x5x40x40 .f32) (main_arg3 : FVec F S4096x6 .f32) (main_v161 : FVec F S_ .f32) (main_v269 : FVec F S_ .f32) (main_v308 : FVec F S_ .f32) (main_v309 : FVec F S_ .f32) (main_v315 : FVec F S_ .f32) : FVec F S_ .f32 :=
  let main_cst_102 := constant S_ .f32 0x00000000#32
  let main_v316 := cmpf .ogt main_v309 main_cst_102
  let main_cst_103 := constant S_ .f32 0x00000000#32
  let main_call13_v0 := id main_cst_103
  let main_v317 := select main_v316 main_v315 main_call13_v0
  let main_cst_104 := constant S_ .f32 0x3D4CCCCD#32
  let main_v318 := mulf main_cst_104 main_v317
  let main_v319 := addf main_v308 main_v318
  let main_cst_105 := constant S_ .f32 0x40F00000#32
  let main_v320 := mulf main_v269 main_cst_105
  let main_cst_106 := constant S_ .f32 0x3F800000#32
  let main_v321 := mulf main_v319 main_cst_106
  let main_v322 := addf main_v161 main_v320
  let main_v323 := addf main_v322 main_v321
  let main_v324 := (extractStridedSlice S4096x1 ![0, 0] · slices_S4096x6_S4096x1_0_0) main_arg3
  let main_v325 := shapeCast S4096 main_v324 shapeCasts_S4096x1_S4096
  let main_v326 := fptosi 32 main_v325
  let main_v327 := (extractStridedSlice S4096x1 ![0, 2] · slices_S4096x6_S4096x1_0_2) main_arg3
  let main_v328 := shapeCast S4096 main_v327 shapeCasts_S4096x1_S4096
  let main_v329 := (extractStridedSlice S4096x1 ![0, 3] · slices_S4096x6_S4096x1_0_3) main_arg3
  let main_v330 := shapeCast S4096 main_v329 shapeCasts_S4096x1_S4096
  let main_v331 := (extractStridedSlice S4096x1 ![0, 4] · slices_S4096x6_S4096x1_0_4) main_arg3
  let main_v332 := shapeCast S4096 main_v331 shapeCasts_S4096x1_S4096
  let main_v333 := (extractStridedSlice S4096x1 ![0, 5] · slices_S4096x6_S4096x1_0_5) main_arg3
  refVal_part27 (F := F) main_arg2 main_v323 main_v326 main_v328 main_v330 main_v332 main_v333

def refVal_part25 (main_arg2 : FVec F S128x5x40x40 .f32) (main_arg3 : FVec F S4096x6 .f32) (main_v161 : FVec F S_ .f32) (main_v240 : FVec F S128x80x80 .f32) (main_v241 : FVec F S_ .f32) (main_v269 : FVec F S_ .f32) (main_v302 : FVec F S128x80x80 .f32) (main_v304 : FVec F S_ .f32) : FVec F S_ .f32 :=
  let main_cst_95 := constant S_ .f32 0x3F800000#32
  let main_v305 := maximumf main_v241 main_cst_95
  let main_v306 := Host.divf main_v304 main_v305
  let main_cst_96 := constant S_ .f32 0x00000000#32
  let main_v307 := cmpf .ogt main_v241 main_cst_96
  let main_cst_97 := constant S_ .f32 0x00000000#32
  let main_call12_v0 := id main_cst_97
  let main_v308 := select main_v307 main_v306 main_call12_v0
  let main_cst_98 := constant S_ .f32 0x49480000#32
  let main_v309 := subf main_cst_98 main_v241
  let main_cst_99 := constant S_ .f32 0x3F800000#32
  let main_v310 := broadcastInDim S128x80x80 ![] bcast_S_S128x80x80 main_cst_99
  let main_v311 := subf main_v310 main_v240
  let main_v312 := mulf main_v302 main_v311
  let main_cst_100 := constant S_ .f32 0x00000000#32
  let main_v313 := (fun x v => Host.reduceAdd x v reducesTo_S128x80x80_S_d0_1_2 h_S_) main_v312 main_cst_100
  let main_cst_101 := constant S_ .f32 0x3F800000#32
  let main_v314 := maximumf main_v309 main_cst_101
  let main_v315 := Host.divf main_v313 main_v314
  refVal_part26 (F := F) main_arg2 main_arg3 main_v161 main_v269 main_v308 main_v309 main_v315

def refVal_part24 (main_arg2 : FVec F S128x5x40x40 .f32) (main_arg3 : FVec F S4096x6 .f32) (main_v161 : FVec F S_ .f32) (main_v240 : FVec F S128x80x80 .f32) (main_v241 : FVec F S_ .f32) (main_v269 : FVec F S_ .f32) (main_v273 : FVec F S128x80x80 .f32) (main_v282 : FVec F S128x80x80 .f32) (main_v286 : FVec F S128x80x80 .f32) (main_cst_88 : FVec F S_ .f32) : FVec F S_ .f32 :=
  let main_v287 := broadcastInDim S128x80x80 ![] bcast_S_S128x80x80 main_cst_88
  let main_v288 := Host.divf main_v287 main_v286
  let main_v289 := mulf main_v273 main_v288
  let main_cst_89 := constant S_ .f32 0x3F800000#32
  let main_v290 := broadcastInDim S128x80x80 ![] bcast_S_S128x80x80 main_cst_89
  let main_v291 := subf main_v290 main_v273
  let main_cst_90 := constant S_ .f32 0x3F800000#32
  let main_v292 := broadcastInDim S128x80x80 ![] bcast_S_S128x80x80 main_cst_90
  let main_v293 := subf main_v292 main_v288
  let main_v294 := mulf main_v291 main_v293
  let main_v295 := addf main_v289 main_v294
  let main_cst_91 := constant S_ .f32 0x3F800000#32
  let main_v296 := broadcastInDim S128x80x80 ![] bcast_S_S128x80x80 main_cst_91
  let main_v297 := subf main_v296 main_v295
  let main_cst_92 := constant S_ .f32 0x3FC00000#32
  let main_v298 := broadcastInDim S128x80x80 ![] bcast_S_S128x80x80 main_cst_92
  let main_v299 := Host.powf main_v297 main_v298
  let main_cst_93 := constant S_ .f32 0x3E800000#32
  let main_v300 := broadcastInDim S128x80x80 ![] bcast_S_S128x80x80 main_cst_93
  let main_v301 := mulf main_v300 main_v299
  let main_v302 := mulf main_v301 main_v282
  let main_v303 := mulf main_v302 main_v240
  let main_cst_94 := constant S_ .f32 0x00000000#32
  let main_v304 := (fun x v => Host.reduceAdd x v reducesTo_S128x80x80_S_d0_1_2 h_S_) main_v303 main_cst_94
  refVal_part25 (F := F) main_arg2 main_arg3 main_v161 main_v240 main_v241 main_v269 main_v302 main_v304

def refVal_part23 (main_arg2 : FVec F S128x5x40x40 .f32) (main_arg3 : FVec F S4096x6 .f32) (main_v161 : FVec F S_ .f32) (main_v240 : FVec F S128x80x80 .f32) (main_v241 : FVec F S_ .f32) (main_v269 : FVec F S_ .f32) (main_v271 : FVec F S128x80x80 .f32) (main_v273 : FVec F S128x80x80 .f32) (main_v275 : FVec F S128x80x80 .f32) (main_v277 : FVec F S128x80x80 .f32) (main_call11_v0 : FVec F S128x80x80 .f32) : FVec F S_ .f32 :=
  let main_call11_call0_cst := constant S_ .f32 0x00000000#32
  let main_call11_call0_v0 := broadcastInDim S128x80x80 ![] bcast_S_S128x80x80 main_call11_call0_cst
  let main_call11_call0_v1 := maximumf main_call11_v0 main_call11_call0_v0
  let main_call11_call0_v2 := broadcastInDim S128x80x80 ![] bcast_S_S128x80x80 main_call11_call0_cst
  let main_call11_call0_v3 := subf main_call11_v0 main_call11_call0_v2
  let main_call11_call0_v4 := cmpf .une main_call11_call0_v3 main_call11_call0_v3
  let main_call11_call0_v5 := broadcastInDim S128x80x80 ![] bcast_S_S128x80x80 main_call11_call0_cst
  let main_call11_call0_v6 := addf main_call11_v0 main_call11_call0_v5
  let main_call11_call0_v7 := Host.absf main_call11_call0_v3
  let main_call11_call0_v8 := Host.negf main_call11_call0_v7
  let main_call11_call0_v9 := Host.exp main_call11_call0_v8
  let main_call11_call0_v10 := Host.log1p main_call11_call0_v9
  let main_call11_call0_v11 := addf main_call11_call0_v1 main_call11_call0_v10
  let main_call11_v1 := select main_call11_call0_v4 main_call11_call0_v6 main_call11_call0_v11
  let main_v279 := Host.negf main_call11_v1
  let main_v280 := mulf main_v277 main_v279
  let main_v281 := addf main_v275 main_v280
  let main_v282 := Host.negf main_v281
  let main_v283 := Host.negf main_v271
  let main_v284 := Host.exp main_v283
  let main_cst_87 := constant S_ .f32 0x3F800000#32
  let main_v285 := broadcastInDim S128x80x80 ![] bcast_S_S128x80x80 main_cst_87
  let main_v286 := addf main_v285 main_v284
  let main_cst_88 := constant S_ .f32 0x3F800000#32
  refVal_part24 (F := F) main_arg2 main_arg3 main_v161 main_v240 main_v241 main_v269 main_v273 main_v282 main_v286 main_cst_88

def refVal_part22 (main_arg2 : FVec F S128x5x40x40 .f32) (main_arg3 : FVec F S4096x6 .f32) (main_v161 : FVec F S_ .f32) (main_v216 : FVec F S128x80x80x5 .f32) (main_v240 : FVec F S128x80x80 .f32) (main_v241 : FVec F S_ .f32) (main_v269 : FVec F S_ .f32) (main_v271 : FVec F S128x80x80 .f32) : FVec F S_ .f32 :=
  let main_v272 := (extractStridedSlice S128x80x80x1 ![0, 0, 0, 4] · slices_S128x80x80x5_S128x80x80x1_0_0_0_4) main_v216
  let main_v273 := shapeCast S128x80x80 main_v272 shapeCasts_S128x80x80x1_S128x80x80
  let main_call10_v0 := Host.negf main_v271
  let main_call10_call0_cst := constant S_ .f32 0x00000000#32
  let main_call10_call0_v0 := broadcastInDim S128x80x80 ![] bcast_S_S128x80x80 main_call10_call0_cst
  let main_call10_call0_v1 := maximumf main_call10_v0 main_call10_call0_v0
  let main_call10_call0_v2 := broadcastInDim S128x80x80 ![] bcast_S_S128x80x80 main_call10_call0_cst
  let main_call10_call0_v3 := subf main_call10_v0 main_call10_call0_v2
  let main_call10_call0_v4 := cmpf .une main_call10_call0_v3 main_call10_call0_v3
  let main_call10_call0_v5 := broadcastInDim S128x80x80 ![] bcast_S_S128x80x80 main_call10_call0_cst
  let main_call10_call0_v6 := addf main_call10_v0 main_call10_call0_v5
  let main_call10_call0_v7 := Host.absf main_call10_call0_v3
  let main_call10_call0_v8 := Host.negf main_call10_call0_v7
  let main_call10_call0_v9 := Host.exp main_call10_call0_v8
  let main_call10_call0_v10 := Host.log1p main_call10_call0_v9
  let main_call10_call0_v11 := addf main_call10_call0_v1 main_call10_call0_v10
  let main_call10_v1 := select main_call10_call0_v4 main_call10_call0_v6 main_call10_call0_v11
  let main_v274 := Host.negf main_call10_v1
  let main_v275 := mulf main_v273 main_v274
  let main_cst_86 := constant S_ .f32 0x3F800000#32
  let main_v276 := broadcastInDim S128x80x80 ![] bcast_S_S128x80x80 main_cst_86
  let main_v277 := subf main_v276 main_v273
  let main_v278 := Host.negf main_v271
  let main_call11_v0 := Host.negf main_v278
  refVal_part23 (F := F) main_arg2 main_arg3 main_v161 main_v240 main_v241 main_v269 main_v271 main_v273 main_v275 main_v277 main_call11_v0

def refVal_part21 (main_arg2 : FVec F S128x5x40x40 .f32) (main_arg3 : FVec F S4096x6 .f32) (main_v161 : FVec F S_ .f32) (main_v216 : FVec F S128x80x80x5 .f32) (main_v239 : FVec F S128x80x80x5 .f32) (main_v240 : FVec F S128x80x80 .f32) (main_v241 : FVec F S_ .f32) (main_v248 : FVec F S128x80x80x2 .f32) (main_v249 : FVec F S128x80x80x2 .f32) (main_v250 : FVec F S128x80x80x1 .f32) (main_v252 : FVec F S_ .f32) (main_v253 : FVec F S128x80x80x2 .f32) : FVec F S_ .f32 :=
  let main_v254 := subf main_v248 main_v253
  let main_v255 := mulf main_v254 main_v254
  let main_v256 := broadcastInDim S128x80x80x2 ![0, 1, 2, 3] bcast_S128x80x80x1_S128x80x80x2_0_1_2_3 main_v250
  let main_v257 := mulf main_v255 main_v256
  let main_cst_82 := constant S_ .f32 0x00000000#32
  let main_v258 := (fun x v => Host.reduceAdd x v reducesTo_S128x80x80x2_S_d0_1_2_3 h_S_) main_v257 main_cst_82
  let main_v259 := Host.divf main_v258 main_v252
  let main_v260 := (extractStridedSlice S128x80x80x2 ![0, 0, 0, 2] · slices_S128x80x80x5_S128x80x80x2_0_0_0_2) main_v216
  let main_v261 := subf main_v249 main_v260
  let main_v262 := mulf main_v261 main_v261
  let main_v263 := broadcastInDim S128x80x80x2 ![0, 1, 2, 3] bcast_S128x80x80x1_S128x80x80x2_0_1_2_3 main_v250
  let main_v264 := mulf main_v262 main_v263
  let main_cst_83 := constant S_ .f32 0x00000000#32
  let main_v265 := (fun x v => Host.reduceAdd x v reducesTo_S128x80x80x2_S_d0_1_2_3 h_S_) main_v264 main_cst_83
  let main_v266 := Host.divf main_v265 main_v252
  let main_cst_84 := constant S_ .f32 0x00000000#32
  let main_v267 := cmpf .ogt main_v241 main_cst_84
  let main_v268 := addf main_v259 main_v266
  let main_cst_85 := constant S_ .f32 0x00000000#32
  let main_call9_v0 := id main_cst_85
  let main_v269 := select main_v267 main_v268 main_call9_v0
  let main_v270 := (extractStridedSlice S128x80x80x1 ![0, 0, 0, 4] · slices_S128x80x80x5_S128x80x80x1_0_0_0_4) main_v239
  let main_v271 := shapeCast S128x80x80 main_v270 shapeCasts_S128x80x80x1_S128x80x80
  refVal_part22 (F := F) main_arg2 main_arg3 main_v161 main_v216 main_v240 main_v241 main_v269 main_v271

def refVal_part20 (main_arg1 : FVec F S128x5x80x80 .f32) (main_arg2 : FVec F S128x5x40x40 .f32) (main_arg3 : FVec F S4096x6 .f32) (main_v161 : FVec F S_ .f32) (main_v216 : FVec F S128x80x80x5 .f32) (main_v217 : IVec S128x80x80 1) (main_v233 : IVec S4096x1 32) (main_v234 : IVec S4096x1 32) (main_v235 : IVec S4096x1 32) : FVec F S_ .f32 :=
  let main_v236 := concatenate S4096x3 1 [⟨S4096x1, main_v233⟩, ⟨S4096x1, main_v234⟩, ⟨S4096x1, main_v235⟩] concatenates_S4096x1_S4096x1_S4096x1_S4096x3_d1
  let main_c_76 := constantI S_ 1 1#1
  let main_v237 := broadcastInDim S4096 ![] bcast_S_S4096 main_c_76
  let main_v238 := (fun x i u => Host.scatter scatter_S128x80x80_S4096x3_S4096_n_012_012_1 (fun _ b => b) x i u) main_v217 main_v236 main_v237
  let main_v239 := (transpose S128x80x80x5 [0, 2, 3, 1] · transposes_S128x5x80x80_S128x80x80x5_0_2_3_1) main_arg1
  let main_v240 := uitofp .f32 main_v238
  let main_cst_77 := constant S_ .f32 0x00000000#32
  let main_v241 := (fun x v => Host.reduceAdd x v reducesTo_S128x80x80_S_d0_1_2 h_S_) main_v240 main_cst_77
  let main_v242 := (extractStridedSlice S128x80x80x2 ![0, 0, 0, 0] · slices_S128x80x80x5_S128x80x80x2_0_0_0_0) main_v239
  let main_v243 := Host.negf main_v242
  let main_v244 := Host.exp main_v243
  let main_cst_78 := constant S_ .f32 0x3F800000#32
  let main_v245 := broadcastInDim S128x80x80x2 ![] bcast_S_S128x80x80x2 main_cst_78
  let main_v246 := addf main_v245 main_v244
  let main_cst_79 := constant S_ .f32 0x3F800000#32
  let main_v247 := broadcastInDim S128x80x80x2 ![] bcast_S_S128x80x80x2 main_cst_79
  let main_v248 := Host.divf main_v247 main_v246
  let main_v249 := (extractStridedSlice S128x80x80x2 ![0, 0, 0, 2] · slices_S128x80x80x5_S128x80x80x2_0_0_0_2) main_v239
  let main_v250 := broadcastInDim S128x80x80x1 ![0, 1, 2] bcast_S128x80x80_S128x80x80x1_0_1_2 main_v240
  let main_cst_80 := constant S_ .f32 0x3F800000#32
  let main_v251 := maximumf main_v241 main_cst_80
  let main_cst_81 := constant S_ .f32 0x40000000#32
  let main_v252 := mulf main_v251 main_cst_81
  let main_v253 := (extractStridedSlice S128x80x80x2 ![0, 0, 0, 0] · slices_S128x80x80x5_S128x80x80x2_0_0_0_0) main_v216
  refVal_part21 (F := F) main_arg2 main_arg3 main_v161 main_v216 main_v239 main_v240 main_v241 main_v248 main_v249 main_v250 main_v252 main_v253

def refVal_part19 (main_arg1 : FVec F S128x5x80x80 .f32) (main_arg2 : FVec F S128x5x40x40 .f32) (main_arg3 : FVec F S4096x6 .f32) (main_v161 : FVec F S_ .f32) (main_v178 : IVec S4096 32) (main_v180 : IVec S4096 32) (main_v216 : FVec F S128x80x80x5 .f32) (main_v217 : IVec S128x80x80 1) (main_v222 : IVec S4096 32) (main_v224 : IVec S4096 1) : FVec F S_ .f32 :=
  let main_c_73 := constantI S_ 32 80#32
  let main_v225 := broadcastInDim S4096 ![] bcast_S_S4096 main_c_73
  let main_v226 := addi main_v180 main_v225
  let main_v227 := select main_v224 main_v226 main_v180
  let main_c_74 := constantI S_ 32 0#32
  let main_v228 := broadcastInDim S4096 ![] bcast_S_S4096 main_c_74
  let main_v229 := cmpi .slt main_v178 main_v228
  let main_c_75 := constantI S_ 32 80#32
  let main_v230 := broadcastInDim S4096 ![] bcast_S_S4096 main_c_75
  let main_v231 := addi main_v178 main_v230
  let main_v232 := select main_v229 main_v231 main_v178
  let main_v233 := broadcastInDim S4096x1 ![0] bcast_S4096_S4096x1_0 main_v222
  let main_v234 := broadcastInDim S4096x1 ![0] bcast_S4096_S4096x1_0 main_v227
  let main_v235 := broadcastInDim S4096x1 ![0] bcast_S4096_S4096x1_0 main_v232
  refVal_part20 (F := F) main_arg1 main_arg2 main_arg3 main_v161 main_v216 main_v217 main_v233 main_v234 main_v235

def refVal_part18 (main_arg1 : FVec F S128x5x80x80 .f32) (main_arg2 : FVec F S128x5x40x40 .f32) (main_arg3 : FVec F S4096x6 .f32) (main_v161 : FVec F S_ .f32) (main_v164 : IVec S4096 32) (main_v178 : IVec S4096 32) (main_v180 : IVec S4096 32) (main_v195 : FVec F S4096x5 .f32) (main_v196 : FVec F S128x80x80x5 .f32) (main_v212 : IVec S4096x1 32) (main_v213 : IVec S4096x1 32) (main_v214 : IVec S4096x1 32) : FVec F S_ .f32 :=
  let main_v215 := concatenate S4096x3 1 [⟨S4096x1, main_v212⟩, ⟨S4096x1, main_v213⟩, ⟨S4096x1, main_v214⟩] concatenates_S4096x1_S4096x1_S4096x1_S4096x3_d1
  let main_v216 := (fun x i u => Host.scatter scatter_S128x80x80x5_S4096x3_S4096x5_1_012_012_1 (fun _ b => b) x i u) main_v196 main_v215 main_v195
  let main_c_69 := constantI S_ 1 0#1
  let main_v217 := broadcastInDim S128x80x80 ![] bcast_S_S128x80x80 main_c_69
  let main_c_70 := constantI S_ 32 0#32
  let main_v218 := broadcastInDim S4096 ![] bcast_S_S4096 main_c_70
  let main_v219 := cmpi .slt main_v164 main_v218
  let main_c_71 := constantI S_ 32 128#32
  let main_v220 := broadcastInDim S4096 ![] bcast_S_S4096 main_c_71
  let main_v221 := addi main_v164 main_v220
  let main_v222 := select main_v219 main_v221 main_v164
  let main_c_72 := constantI S_ 32 0#32
  let main_v223 := broadcastInDim S4096 ![] bcast_S_S4096 main_c_72
  let main_v224 := cmpi .slt main_v180 main_v223
  refVal_part19 (F := F) main_arg1 main_arg2 main_arg3 main_v161 main_v178 main_v180 main_v216 main_v217 main_v222 main_v224

def refVal_part17 (main_arg1 : FVec F S128x5x80x80 .f32) (main_arg2 : FVec F S128x5x40x40 .f32) (main_arg3 : FVec F S4096x6 .f32) (main_v161 : FVec F S_ .f32) (main_v164 : IVec S4096 32) (main_v178 : IVec S4096 32) (main_v180 : IVec S4096 32) (main_v195 : FVec F S4096x5 .f32) (main_v196 : FVec F S128x80x80x5 .f32) (main_v201 : IVec S4096 32) (main_v206 : IVec S4096 32) (main_v211 : IVec S4096 32) : FVec F S_ .f32 :=
  let main_v212 := broadcastInDim S4096x1 ![0] bcast_S4096_S4096x1_0 main_v201
  let main_v213 := broadcastInDim S4096x1 ![0] bcast_S4096_S4096x1_0 main_v206
  let main_v214 := broadcastInDim S4096x1 ![0] bcast_S4096_S4096x1_0 main_v211
  refVal_part18 (F := F) main_arg1 main_arg2 main_arg3 main_v161 main_v164 main_v178 main_v180 main_v195 main_v196 main_v212 main_v213 main_v214

def refVal_part16 (main_arg1 : FVec F S128x5x80x80 .f32) (main_arg2 : FVec F S128x5x40x40 .f32) (main_arg3 : FVec F S4096x6 .f32) (main_v161 : FVec F S_ .f32) (main_v164 : IVec S4096 32) (main_v178 : IVec S4096 32) (main_v180 : IVec S4096 32) (main_v190 : FVec F S4096x1 .f32) (main_v191 : FVec F S4096x1 .f32) (main_v192 : FVec F S4096x1 .f32) (main_v193 : FVec F S4096x1 .f32) (main_v194 : FVec F S4096x1 .f32) : FVec F S_ .f32 :=
  let main_v195 := concatenate S4096x5 1 [⟨S4096x1, main_v190⟩, ⟨S4096x1, main_v191⟩, ⟨S4096x1, main_v192⟩, ⟨S4096x1, main_v193⟩, ⟨S4096x1, main_v194⟩] concatenates_S4096x1_S4096x1_S4096x1_S4096x1_S4096x1_S4096x5_d1
  let main_cst_62 := constant S_ .f32 0x00000000#32
  let main_v196 := broadcastInDim S128x80x80x5 ![] bcast_S_S128x80x80x5 main_cst_62
  let main_c_63 := constantI S_ 32 0#32
  let main_v197 := broadcastInDim S4096 ![] bcast_S_S4096 main_c_63
  let main_v198 := cmpi .slt main_v164 main_v197
  let main_c_64 := constantI S_ 32 128#32
  let main_v199 := broadcastInDim S4096 ![] bcast_S_S4096 main_c_64
  let main_v200 := addi main_v164 main_v199
  let main_v201 := select main_v198 main_v200 main_v164
  let main_c_65 := constantI S_ 32 0#32
  let main_v202 := broadcastInDim S4096 ![] bcast_S_S4096 main_c_65
  let main_v203 := cmpi .slt main_v180 main_v202
  let main_c_66 := constantI S_ 32 80#32
  let main_v204 := broadcastInDim S4096 ![] bcast_S_S4096 main_c_66
  let main_v205 := addi main_v180 main_v204
  let main_v206 := select main_v203 main_v205 main_v180
  let main_c_67 := constantI S_ 32 0#32
  let main_v207 := broadcastInDim S4096 ![] bcast_S_S4096 main_c_67
  let main_v208 := cmpi .slt main_v178 main_v207
  let main_c_68 := constantI S_ 32 80#32
  let main_v209 := broadcastInDim S4096 ![] bcast_S_S4096 main_c_68
  let main_v210 := addi main_v178 main_v209
  let main_v211 := select main_v208 main_v210 main_v178
  refVal_part17 (F := F) main_arg1 main_arg2 main_arg3 main_v161 main_v164 main_v178 main_v180 main_v195 main_v196 main_v201 main_v206 main_v211

def refVal_part15 (main_arg1 : FVec F S128x5x80x80 .f32) (main_arg2 : FVec F S128x5x40x40 .f32) (main_arg3 : FVec F S4096x6 .f32) (main_v161 : FVec F S_ .f32) (main_v164 : IVec S4096 32) (main_v170 : FVec F S4096 .f32) (main_v172 : FVec F S4096 .f32) (main_v174 : FVec F S4096 .f32) (main_v176 : FVec F S4096 .f32) (main_v178 : IVec S4096 32) (main_c_57 : IVec S_ 32) (main_c_58 : IVec S_ 32) : FVec F S_ .f32 :=
  let main_call8_v0 := sitofp .f32 main_c_57
  let main_call8_v1 := broadcastInDim S4096 ![] bcast_S_S4096 main_call8_v0
  let main_call8_v2 := maximumf main_call8_v1 main_v176
  let main_call8_v3 := sitofp .f32 main_c_58
  let main_call8_v4 := broadcastInDim S4096 ![] bcast_S_S4096 main_call8_v3
  let main_v179 := minimumf main_call8_v4 main_call8_v2
  let main_v180 := fptosi 32 main_v179
  let main_v181 := sitofp .f32 main_v178
  let main_v182 := subf main_v174 main_v181
  let main_v183 := sitofp .f32 main_v180
  let main_v184 := subf main_v176 main_v183
  let main_cst_59 := constant S_ .f32 0x42A00000#32
  let main_v185 := broadcastInDim S4096 ![] bcast_S_S4096 main_cst_59
  let main_v186 := mulf main_v170 main_v185
  let main_cst_60 := constant S_ .f32 0x42A00000#32
  let main_v187 := broadcastInDim S4096 ![] bcast_S_S4096 main_cst_60
  let main_v188 := mulf main_v172 main_v187
  let main_cst_61 := constant S_ .f32 0x3F800000#32
  let main_v189 := broadcastInDim S4096 ![] bcast_S_S4096 main_cst_61
  let main_v190 := broadcastInDim S4096x1 ![0] bcast_S4096_S4096x1_0 main_v182
  let main_v191 := broadcastInDim S4096x1 ![0] bcast_S4096_S4096x1_0 main_v184
  let main_v192 := broadcastInDim S4096x1 ![0] bcast_S4096_S4096x1_0 main_v186
  let main_v193 := broadcastInDim S4096x1 ![0] bcast_S4096_S4096x1_0 main_v188
  let main_v194 := broadcastInDim S4096x1 ![0] bcast_S4096_S4096x1_0 main_v189
  refVal_part16 (F := F) main_arg1 main_arg2 main_arg3 main_v161 main_v164 main_v178 main_v180 main_v190 main_v191 main_v192 main_v193 main_v194

def refVal_part14 (main_arg1 : FVec F S128x5x80x80 .f32) (main_arg2 : FVec F S128x5x40x40 .f32) (main_arg3 : FVec F S4096x6 .f32) (main_v161 : FVec F S_ .f32) (main_v164 : IVec S4096 32) (main_v166 : FVec F S4096 .f32) (main_v168 : FVec F S4096 .f32) (main_v170 : FVec F S4096 .f32) : FVec F S_ .f32 :=
  let main_v171 := (extractStridedSlice S4096x1 ![0, 5] · slices_S4096x6_S4096x1_0_5) main_arg3
  let main_v172 := shapeCast S4096 main_v171 shapeCasts_S4096x1_S4096
  let main_cst_53 := constant S_ .f32 0x42A00000#32
  let main_v173 := broadcastInDim S4096 ![] bcast_S_S4096 main_cst_53
  let main_v174 := mulf main_v166 main_v173
  let main_cst_54 := constant S_ .f32 0x42A00000#32
  let main_v175 := broadcastInDim S4096 ![] bcast_S_S4096 main_cst_54
  let main_v176 := mulf main_v168 main_v175
  let main_c_55 := constantI S_ 32 0#32
  let main_c_56 := constantI S_ 32 79#32
  let main_call7_v0 := sitofp .f32 main_c_55
  let main_call7_v1 := broadcastInDim S4096 ![] bcast_S_S4096 main_call7_v0
  let main_call7_v2 := maximumf main_call7_v1 main_v174
  let main_call7_v3 := sitofp .f32 main_c_56
  let main_call7_v4 := broadcastInDim S4096 ![] bcast_S_S4096 main_call7_v3
  let main_v177 := minimumf main_call7_v4 main_call7_v2
  let main_v178 := fptosi 32 main_v177
  let main_c_57 := constantI S_ 32 0#32
  let main_c_58 := constantI S_ 32 79#32
  refVal_part15 (F := F) main_arg1 main_arg2 main_arg3 main_v161 main_v164 main_v170 main_v172 main_v174 main_v176 main_v178 main_c_57 main_c_58

def refVal_part13 (main_arg1 : FVec F S128x5x80x80 .f32) (main_arg2 : FVec F S128x5x40x40 .f32) (main_arg3 : FVec F S4096x6 .f32) (main_v107 : FVec F S_ .f32) (main_v146 : FVec F S_ .f32) (main_v147 : FVec F S_ .f32) (main_v153 : FVec F S_ .f32) : FVec F S_ .f32 :=
  let main_cst_47 := constant S_ .f32 0x00000000#32
  let main_v154 := cmpf .ogt main_v147 main_cst_47
  let main_cst_48 := constant S_ .f32 0x00000000#32
  let main_call6_v0 := id main_cst_48
  let main_v155 := select main_v154 main_v153 main_call6_v0
  let main_cst_49 := constant S_ .f32 0x3D4CCCCD#32
  let main_v156 := mulf main_cst_49 main_v155
  let main_v157 := addf main_v146 main_v156
  let main_cst_50 := constant S_ .f32 0x40F00000#32
  let main_v158 := mulf main_v107 main_cst_50
  let main_cst_51 := constant S_ .f32 0x3F800000#32
  let main_v159 := mulf main_v157 main_cst_51
  let main_cst_52 := constant S_ .f32 0x00000000#32
  let main_v160 := addf main_cst_52 main_v158
  let main_v161 := addf main_v160 main_v159
  let main_v162 := (extractStridedSlice S4096x1 ![0, 0] · slices_S4096x6_S4096x1_0_0) main_arg3
  let main_v163 := shapeCast S4096 main_v162 shapeCasts_S4096x1_S4096
  let main_v164 := fptosi 32 main_v163
  let main_v165 := (extractStridedSlice S4096x1 ![0, 2] · slices_S4096x6_S4096x1_0_2) main_arg3
  let main_v166 := shapeCast S4096 main_v165 shapeCasts_S4096x1_S4096
  let main_v167 := (extractStridedSlice S4096x1 ![0, 3] · slices_S4096x6_S4096x1_0_3) main_arg3
  let main_v168 := shapeCast S4096 main_v167 shapeCasts_S4096x1_S4096
  let main_v169 := (extractStridedSlice S4096x1 ![0, 4] · slices_S4096x6_S4096x1_0_4) main_arg3
  let main_v170 := shapeCast S4096 main_v169 shapeCasts_S4096x1_S4096
  refVal_part14 (F := F) main_arg1 main_arg2 main_arg3 main_v161 main_v164 main_v166 main_v168 main_v170

def refVal_part12 (main_arg1 : FVec F S128x5x80x80 .f32) (main_arg2 : FVec F S128x5x40x40 .f32) (main_arg3 : FVec F S4096x6 .f32) (main_v78 : FVec F S128x160x160 .f32) (main_v79 : FVec F S_ .f32) (main_v107 : FVec F S_ .f32) (main_v120 : FVec F S128x160x160 .f32) (main_v137 : FVec F S128x160x160 .f32) (main_v138 : FVec F S128x160x160 .f32) : FVec F S_ .f32 :=
  let main_v139 := mulf main_v138 main_v137
  let main_v140 := mulf main_v139 main_v120
  let main_v141 := mulf main_v140 main_v78
  let main_cst_39 := constant S_ .f32 0x00000000#32
  let main_v142 := (fun x v => Host.reduceAdd x v reducesTo_S128x160x160_S_d0_1_2 h_S_) main_v141 main_cst_39
  let main_cst_40 := constant S_ .f32 0x3F800000#32
  let main_v143 := maximumf main_v79 main_cst_40
  let main_v144 := Host.divf main_v142 main_v143
  let main_cst_41 := constant S_ .f32 0x00000000#32
  let main_v145 := cmpf .ogt main_v79 main_cst_41
  let main_cst_42 := constant S_ .f32 0x00000000#32
  let main_call5_v0 := id main_cst_42
  let main_v146 := select main_v145 main_v144 main_call5_v0
  let main_cst_43 := constant S_ .f32 0x4A480000#32
  let main_v147 := subf main_cst_43 main_v79
  let main_cst_44 := constant S_ .f32 0x3F800000#32
  let main_v148 := broadcastInDim S128x160x160 ![] bcast_S_S128x160x160 main_cst_44
  let main_v149 := subf main_v148 main_v78
  let main_v150 := mulf main_v140 main_v149
  let main_cst_45 := constant S_ .f32 0x00000000#32
  let main_v151 := (fun x v => Host.reduceAdd x v reducesTo_S128x160x160_S_d0_1_2 h_S_) main_v150 main_cst_45
  let main_cst_46 := constant S_ .f32 0x3F800000#32
  let main_v152 := maximumf main_v147 main_cst_46
  let main_v153 := Host.divf main_v151 main_v152
  refVal_part13 (F := F) main_arg1 main_arg2 main_arg3 main_v107 main_v146 main_v147 main_v153

def refVal_part11 (main_arg1 : FVec F S128x5x80x80 .f32) (main_arg2 : FVec F S128x5x40x40 .f32) (main_arg3 : FVec F S4096x6 .f32) (main_v78 : FVec F S128x160x160 .f32) (main_v79 : FVec F S_ .f32) (main_v107 : FVec F S_ .f32) (main_v111 : FVec F S128x160x160 .f32) (main_v120 : FVec F S128x160x160 .f32) (main_v124 : FVec F S128x160x160 .f32) (main_cst_33 : FVec F S_ .f32) : FVec F S_ .f32 :=
  let main_v125 := broadcastInDim S128x160x160 ![] bcast_S_S128x160x160 main_cst_33
  let main_v126 := Host.divf main_v125 main_v124
  let main_v127 := mulf main_v111 main_v126
  let main_cst_34 := constant S_ .f32 0x3F800000#32
  let main_v128 := broadcastInDim S128x160x160 ![] bcast_S_S128x160x160 main_cst_34
  let main_v129 := subf main_v128 main_v111
  let main_cst_35 := constant S_ .f32 0x3F800000#32
  let main_v130 := broadcastInDim S128x160x160 ![] bcast_S_S128x160x160 main_cst_35
  let main_v131 := subf main_v130 main_v126
  let main_v132 := mulf main_v129 main_v131
  let main_v133 := addf main_v127 main_v132
  let main_cst_36 := constant S_ .f32 0x3F800000#32
  let main_v134 := broadcastInDim S128x160x160 ![] bcast_S_S128x160x160 main_cst_36
  let main_v135 := subf main_v134 main_v133
  let main_cst_37 := constant S_ .f32 0x3FC00000#32
  let main_v136 := broadcastInDim S128x160x160 ![] bcast_S_S128x160x160 main_cst_37
  let main_v137 := Host.powf main_v135 main_v136
  let main_cst_38 := constant S_ .f32 0x3E800000#32
  let main_v138 := broadcastInDim S128x160x160 ![] bcast_S_S128x160x160 main_cst_38
  refVal_part12 (F := F) main_arg1 main_arg2 main_arg3 main_v78 main_v79 main_v107 main_v120 main_v137 main_v138

def refVal_part10 (main_arg1 : FVec F S128x5x80x80 .f32) (main_arg2 : FVec F S128x5x40x40 .f32) (main_arg3 : FVec F S4096x6 .f32) (main_v78 : FVec F S128x160x160 .f32) (main_v79 : FVec F S_ .f32) (main_v107 : FVec F S_ .f32) (main_v109 : FVec F S128x160x160 .f32) (main_v111 : FVec F S128x160x160 .f32) (main_v113 : FVec F S128x160x160 .f32) (main_v115 : FVec F S128x160x160 .f32) (main_call4_v0 : FVec F S128x160x160 .f32) : FVec F S_ .f32 :=
  let main_call4_call0_cst := constant S_ .f32 0x00000000#32
  let main_call4_call0_v0 := broadcastInDim S128x160x160 ![] bcast_S_S128x160x160 main_call4_call0_cst
  let main_call4_call0_v1 := maximumf main_call4_v0 main_call4_call0_v0
  let main_call4_call0_v2 := broadcastInDim S128x160x160 ![] bcast_S_S128x160x160 main_call4_call0_cst
  let main_call4_call0_v3 := subf main_call4_v0 main_call4_call0_v2
  let main_call4_call0_v4 := cmpf .une main_call4_call0_v3 main_call4_call0_v3
  let main_call4_call0_v5 := broadcastInDim S128x160x160 ![] bcast_S_S128x160x160 main_call4_call0_cst
  let main_call4_call0_v6 := addf main_call4_v0 main_call4_call0_v5
  let main_call4_call0_v7 := Host.absf main_call4_call0_v3
  let main_call4_call0_v8 := Host.negf main_call4_call0_v7
  let main_call4_call0_v9 := Host.exp main_call4_call0_v8
  let main_call4_call0_v10 := Host.log1p main_call4_call0_v9
  let main_call4_call0_v11 := addf main_call4_call0_v1 main_call4_call0_v10
  let main_call4_v1 := select main_call4_call0_v4 main_call4_call0_v6 main_call4_call0_v11
  let main_v117 := Host.negf main_call4_v1
  let main_v118 := mulf main_v115 main_v117
  let main_v119 := addf main_v113 main_v118
  let main_v120 := Host.negf main_v119
  let main_v121 := Host.negf main_v109
  let main_v122 := Host.exp main_v121
  let main_cst_32 := constant S_ .f32 0x3F800000#32
  let main_v123 := broadcastInDim S128x160x160 ![] bcast_S_S128x160x160 main_cst_32
  let main_v124 := addf main_v123 main_v122
  let main_cst_33 := constant S_ .f32 0x3F800000#32
  refVal_part11 (F := F) main_arg1 main_arg2 main_arg3 main_v78 main_v79 main_v107 main_v111 main_v120 main_v124 main_cst_33

def refVal_part9 (main_arg1 : FVec F S128x5x80x80 .f32) (main_arg2 : FVec F S128x5x40x40 .f32) (main_arg3 : FVec F S4096x6 .f32) (main_v54 : FVec F S128x160x160x5 .f32) (main_v78 : FVec F S128x160x160 .f32) (main_v79 : FVec F S_ .f32) (main_v107 : FVec F S_ .f32) (main_v109 : FVec F S128x160x160 .f32) : FVec F S_ .f32 :=
  let main_v110 := (extractStridedSlice S128x160x160x1 ![0, 0, 0, 4] · slices_S128x160x160x5_S128x160x160x1_0_0_0_4) main_v54
  let main_v111 := shapeCast S128x160x160 main_v110 shapeCasts_S128x160x160x1_S128x160x160
  let main_call3_v0 := Host.negf main_v109
  let main_call3_call0_cst := constant S_ .f32 0x00000000#32
  let main_call3_call0_v0 := broadcastInDim S128x160x160 ![] bcast_S_S128x160x160 main_call3_call0_cst
  let main_call3_call0_v1 := maximumf main_call3_v0 main_call3_call0_v0
  let main_call3_call0_v2 := broadcastInDim S128x160x160 ![] bcast_S_S128x160x160 main_call3_call0_cst
  let main_call3_call0_v3 := subf main_call3_v0 main_call3_call0_v2
  let main_call3_call0_v4 := cmpf .une main_call3_call0_v3 main_call3_call0_v3
  let main_call3_call0_v5 := broadcastInDim S128x160x160 ![] bcast_S_S128x160x160 main_call3_call0_cst
  let main_call3_call0_v6 := addf main_call3_v0 main_call3_call0_v5
  let main_call3_call0_v7 := Host.absf main_call3_call0_v3
  let main_call3_call0_v8 := Host.negf main_call3_call0_v7
  let main_call3_call0_v9 := Host.exp main_call3_call0_v8
  let main_call3_call0_v10 := Host.log1p main_call3_call0_v9
  let main_call3_call0_v11 := addf main_call3_call0_v1 main_call3_call0_v10
  let main_call3_v1 := select main_call3_call0_v4 main_call3_call0_v6 main_call3_call0_v11
  let main_v112 := Host.negf main_call3_v1
  let main_v113 := mulf main_v111 main_v112
  let main_cst_31 := constant S_ .f32 0x3F800000#32
  let main_v114 := broadcastInDim S128x160x160 ![] bcast_S_S128x160x160 main_cst_31
  let main_v115 := subf main_v114 main_v111
  let main_v116 := Host.negf main_v109
  let main_call4_v0 := Host.negf main_v116
  refVal_part10 (F := F) main_arg1 main_arg2 main_arg3 main_v78 main_v79 main_v107 main_v109 main_v111 main_v113 main_v115 main_call4_v0

def refVal_part8 (main_arg1 : FVec F S128x5x80x80 .f32) (main_arg2 : FVec F S128x5x40x40 .f32) (main_arg3 : FVec F S4096x6 .f32) (main_v54 : FVec F S128x160x160x5 .f32) (main_v77 : FVec F S128x160x160x5 .f32) (main_v78 : FVec F S128x160x160 .f32) (main_v79 : FVec F S_ .f32) (main_v86 : FVec F S128x160x160x2 .f32) (main_v87 : FVec F S128x160x160x2 .f32) (main_v88 : FVec F S128x160x160x1 .f32) (main_v90 : FVec F S_ .f32) : FVec F S_ .f32 :=
  let main_v91 := (extractStridedSlice S128x160x160x2 ![0, 0, 0, 0] · slices_S128x160x160x5_S128x160x160x2_0_0_0_0) main_v54
  let main_v92 := subf main_v86 main_v91
  let main_v93 := mulf main_v92 main_v92
  let main_v94 := broadcastInDim S128x160x160x2 ![0, 1, 2, 3] bcast_S128x160x160x1_S128x160x160x2_0_1_2_3 main_v88
  let main_v95 := mulf main_v93 main_v94
  let main_cst_27 := constant S_ .f32 0x00000000#32
  let main_v96 := (fun x v => Host.reduceAdd x v reducesTo_S128x160x160x2_S_d0_1_2_3 h_S_) main_v95 main_cst_27
  let main_v97 := Host.divf main_v96 main_v90
  let main_v98 := (extractStridedSlice S128x160x160x2 ![0, 0, 0, 2] · slices_S128x160x160x5_S128x160x160x2_0_0_0_2) main_v54
  let main_v99 := subf main_v87 main_v98
  let main_v100 := mulf main_v99 main_v99
  let main_v101 := broadcastInDim S128x160x160x2 ![0, 1, 2, 3] bcast_S128x160x160x1_S128x160x160x2_0_1_2_3 main_v88
  let main_v102 := mulf main_v100 main_v101
  let main_cst_28 := constant S_ .f32 0x00000000#32
  let main_v103 := (fun x v => Host.reduceAdd x v reducesTo_S128x160x160x2_S_d0_1_2_3 h_S_) main_v102 main_cst_28
  let main_v104 := Host.divf main_v103 main_v90
  let main_cst_29 := constant S_ .f32 0x00000000#32
  let main_v105 := cmpf .ogt main_v79 main_cst_29
  let main_v106 := addf main_v97 main_v104
  let main_cst_30 := constant S_ .f32 0x00000000#32
  let main_call2_v0 := id main_cst_30
  let main_v107 := select main_v105 main_v106 main_call2_v0
  let main_v108 := (extractStridedSlice S128x160x160x1 ![0, 0, 0, 4] · slices_S128x160x160x5_S128x160x160x1_0_0_0_4) main_v77
  let main_v109 := shapeCast S128x160x160 main_v108 shapeCasts_S128x160x160x1_S128x160x160
  refVal_part9 (F := F) main_arg1 main_arg2 main_arg3 main_v54 main_v78 main_v79 main_v107 main_v109

def refVal_part7 (main_arg0 : FVec F S128x5x160x160 .f32) (main_arg1 : FVec F S128x5x80x80 .f32) (main_arg2 : FVec F S128x5x40x40 .f32) (main_arg3 : FVec F S4096x6 .f32) (main_v54 : FVec F S128x160x160x5 .f32) (main_v55 : IVec S128x160x160 1) (main_v71 : IVec S4096x1 32) (main_v72 : IVec S4096x1 32) (main_v73 : IVec S4096x1 32) : FVec F S_ .f32 :=
  let main_v74 := concatenate S4096x3 1 [⟨S4096x1, main_v71⟩, ⟨S4096x1, main_v72⟩, ⟨S4096x1, main_v73⟩] concatenates_S4096x1_S4096x1_S4096x1_S4096x3_d1
  let main_c_21 := constantI S_ 1 1#1
  let main_v75 := broadcastInDim S4096 ![] bcast_S_S4096 main_c_21
  let main_v76 := (fun x i u => Host.scatter scatter_S128x160x160_S4096x3_S4096_n_012_012_1 (fun _ b => b) x i u) main_v55 main_v74 main_v75
  let main_v77 := (transpose S128x160x160x5 [0, 2, 3, 1] · transposes_S128x5x160x160_S128x160x160x5_0_2_3_1) main_arg0
  let main_v78 := uitofp .f32 main_v76
  let main_cst_22 := constant S_ .f32 0x00000000#32
  let main_v79 := (fun x v => Host.reduceAdd x v reducesTo_S128x160x160_S_d0_1_2 h_S_) main_v78 main_cst_22
  let main_v80 := (extractStridedSlice S128x160x160x2 ![0, 0, 0, 0] · slices_S128x160x160x5_S128x160x160x2_0_0_0_0) main_v77
  let main_v81 := Host.negf main_v80
  let main_v82 := Host.exp main_v81
  let main_cst_23 := constant S_ .f32 0x3F800000#32
  let main_v83 := broadcastInDim S128x160x160x2 ![] bcast_S_S128x160x160x2 main_cst_23
  let main_v84 := addf main_v83 main_v82
  let main_cst_24 := constant S_ .f32 0x3F800000#32
  let main_v85 := broadcastInDim S128x160x160x2 ![] bcast_S_S128x160x160x2 main_cst_24
  let main_v86 := Host.divf main_v85 main_v84
  let main_v87 := (extractStridedSlice S128x160x160x2 ![0, 0, 0, 2] · slices_S128x160x160x5_S128x160x160x2_0_0_0_2) main_v77
  let main_v88 := broadcastInDim S128x160x160x1 ![0, 1, 2] bcast_S128x160x160_S128x160x160x1_0_1_2 main_v78
  let main_cst_25 := constant S_ .f32 0x3F800000#32
  let main_v89 := maximumf main_v79 main_cst_25
  let main_cst_26 := constant S_ .f32 0x40000000#32
  let main_v90 := mulf main_v89 main_cst_26
  refVal_part8 (F := F) main_arg1 main_arg2 main_arg3 main_v54 main_v77 main_v78 main_v79 main_v86 main_v87 main_v88 main_v90

def refVal_part6 (main_arg0 : FVec F S128x5x160x160 .f32) (main_arg1 : FVec F S128x5x80x80 .f32) (main_arg2 : FVec F S128x5x40x40 .f32) (main_arg3 : FVec F S4096x6 .f32) (main_v16 : IVec S4096 32) (main_v54 : FVec F S128x160x160x5 .f32) (main_v55 : IVec S128x160x160 1) (main_v60 : IVec S4096 32) (main_v65 : IVec S4096 32) (main_v67 : IVec S4096 1) (main_v69 : IVec S4096 32) : FVec F S_ .f32 :=
  let main_v70 := select main_v67 main_v69 main_v16
  let main_v71 := broadcastInDim S4096x1 ![0] bcast_S4096_S4096x1_0 main_v60
  let main_v72 := broadcastInDim S4096x1 ![0] bcast_S4096_S4096x1_0 main_v65
  let main_v73 := broadcastInDim S4096x1 ![0] bcast_S4096_S4096x1_0 main_v70
  refVal_part7 (F := F) main_arg0 main_arg1 main_arg2 main_arg3 main_v54 main_v55 main_v71 main_v72 main_v73

def refVal_part5 (main_arg0 : FVec F S128x5x160x160 .f32) (main_arg1 : FVec F S128x5x80x80 .f32) (main_arg2 : FVec F S128x5x40x40 .f32) (main_arg3 : FVec F S4096x6 .f32) (main_v2 : IVec S4096 32) (main_v16 : IVec S4096 32) (main_v18 : IVec S4096 32) (main_v33 : FVec F S4096x5 .f32) (main_v34 : FVec F S128x160x160x5 .f32) (main_v50 : IVec S4096x1 32) (main_v51 : IVec S4096x1 32) (main_v52 : IVec S4096x1 32) : FVec F S_ .f32 :=
  let main_v53 := concatenate S4096x3 1 [⟨S4096x1, main_v50⟩, ⟨S4096x1, main_v51⟩, ⟨S4096x1, main_v52⟩] concatenates_S4096x1_S4096x1_S4096x1_S4096x3_d1
  let main_v54 := (fun x i u => Host.scatter scatter_S128x160x160x5_S4096x3_S4096x5_1_012_012_1 (fun _ b => b) x i u) main_v34 main_v53 main_v33
  let main_c_14 := constantI S_ 1 0#1
  let main_v55 := broadcastInDim S128x160x160 ![] bcast_S_S128x160x160 main_c_14
  let main_c_15 := constantI S_ 32 0#32
  let main_v56 := broadcastInDim S4096 ![] bcast_S_S4096 main_c_15
  let main_v57 := cmpi .slt main_v2 main_v56
  let main_c_16 := constantI S_ 32 128#32
  let main_v58 := broadcastInDim S4096 ![] bcast_S_S4096 main_c_16
  let main_v59 := addi main_v2 main_v58
  let main_v60 := select main_v57 main_v59 main_v2
  let main_c_17 := constantI S_ 32 0#32
  let main_v61 := broadcastInDim S4096 ![] bcast_S_S4096 main_c_17
  let main_v62 := cmpi .slt main_v18 main_v61
  let main_c_18 := constantI S_ 32 160#32
  let main_v63 := broadcastInDim S4096 ![] bcast_S_S4096 main_c_18
  let main_v64 := addi main_v18 main_v63
  let main_v65 := select main_v62 main_v64 main_v18
  let main_c_19 := constantI S_ 32 0#32
  let main_v66 := broadcastInDim S4096 ![] bcast_S_S4096 main_c_19
  let main_v67 := cmpi .slt main_v16 main_v66
  let main_c_20 := constantI S_ 32 160#32
  let main_v68 := broadcastInDim S4096 ![] bcast_S_S4096 main_c_20
  let main_v69 := addi main_v16 main_v68
  refVal_part6 (F := F) main_arg0 main_arg1 main_arg2 main_arg3 main_v16 main_v54 main_v55 main_v60 main_v65 main_v67 main_v69

def refVal_part4 (main_arg0 : FVec F S128x5x160x160 .f32) (main_arg1 : FVec F S128x5x80x80 .f32) (main_arg2 : FVec F S128x5x40x40 .f32) (main_arg3 : FVec F S4096x6 .f32) (main_v2 : IVec S4096 32) (main_v16 : IVec S4096 32) (main_v18 : IVec S4096 32) (main_v33 : FVec F S4096x5 .f32) (main_v34 : FVec F S128x160x160x5 .f32) (main_v39 : IVec S4096 32) (main_v44 : IVec S4096 32) (main_c_12 : IVec S_ 32) : FVec F S_ .f32 :=
  let main_v45 := broadcastInDim S4096 ![] bcast_S_S4096 main_c_12
  let main_v46 := cmpi .slt main_v16 main_v45
  let main_c_13 := constantI S_ 32 160#32
  let main_v47 := broadcastInDim S4096 ![] bcast_S_S4096 main_c_13
  let main_v48 := addi main_v16 main_v47
  let main_v49 := select main_v46 main_v48 main_v16
  let main_v50 := broadcastInDim S4096x1 ![0] bcast_S4096_S4096x1_0 main_v39
  let main_v51 := broadcastInDim S4096x1 ![0] bcast_S4096_S4096x1_0 main_v44
  let main_v52 := broadcastInDim S4096x1 ![0] bcast_S4096_S4096x1_0 main_v49
  refVal_part5 (F := F) main_arg0 main_arg1 main_arg2 main_arg3 main_v2 main_v16 main_v18 main_v33 main_v34 main_v50 main_v51 main_v52

def refVal_part3 (main_arg0 : FVec F S128x5x160x160 .f32) (main_arg1 : FVec F S128x5x80x80 .f32) (main_arg2 : FVec F S128x5x40x40 .f32) (main_arg3 : FVec F S4096x6 .f32) (main_v2 : IVec S4096 32) (main_v16 : IVec S4096 32) (main_v18 : IVec S4096 32) (main_v28 : FVec F S4096x1 .f32) (main_v29 : FVec F S4096x1 .f32) (main_v30 : FVec F S4096x1 .f32) (main_v31 : FVec F S4096x1 .f32) (main_v32 : FVec F S4096x1 .f32) : FVec F S_ .f32 :=
  let main_v33 := concatenate S4096x5 1 [⟨S4096x1, main_v28⟩, ⟨S4096x1, main_v29⟩, ⟨S4096x1, main_v30⟩, ⟨S4096x1, main_v31⟩, ⟨S4096x1, main_v32⟩] concatenates_S4096x1_S4096x1_S4096x1_S4096x1_S4096x1_S4096x5_d1
  let main_cst_7 := constant S_ .f32 0x00000000#32
  let main_v34 := broadcastInDim S128x160x160x5 ![] bcast_S_S128x160x160x5 main_cst_7
  let main_c_8 := constantI S_ 32 0#32
  let main_v35 := broadcastInDim S4096 ![] bcast_S_S4096 main_c_8
  let main_v36 := cmpi .slt main_v2 main_v35
  let main_c_9 := constantI S_ 32 128#32
  let main_v37 := broadcastInDim S4096 ![] bcast_S_S4096 main_c_9
  let main_v38 := addi main_v2 main_v37
  let main_v39 := select main_v36 main_v38 main_v2
  let main_c_10 := constantI S_ 32 0#32
  let main_v40 := broadcastInDim S4096 ![] bcast_S_S4096 main_c_10
  let main_v41 := cmpi .slt main_v18 main_v40
  let main_c_11 := constantI S_ 32 160#32
  let main_v42 := broadcastInDim S4096 ![] bcast_S_S4096 main_c_11
  let main_v43 := addi main_v18 main_v42
  let main_v44 := select main_v41 main_v43 main_v18
  let main_c_12 := constantI S_ 32 0#32
  refVal_part4 (F := F) main_arg0 main_arg1 main_arg2 main_arg3 main_v2 main_v16 main_v18 main_v33 main_v34 main_v39 main_v44 main_c_12

def refVal_part2 (main_arg0 : FVec F S128x5x160x160 .f32) (main_arg1 : FVec F S128x5x80x80 .f32) (main_arg2 : FVec F S128x5x40x40 .f32) (main_arg3 : FVec F S4096x6 .f32) (main_v2 : IVec S4096 32) (main_v16 : IVec S4096 32) (main_v18 : IVec S4096 32) (main_v22 : FVec F S4096 .f32) (main_v24 : FVec F S4096 .f32) (main_v26 : FVec F S4096 .f32) (main_v27 : FVec F S4096 .f32) (main_v28 : FVec F S4096x1 .f32) : FVec F S_ .f32 :=
  let main_v29 := broadcastInDim S4096x1 ![0] bcast_S4096_S4096x1_0 main_v22
  let main_v30 := broadcastInDim S4096x1 ![0] bcast_S4096_S4096x1_0 main_v24
  let main_v31 := broadcastInDim S4096x1 ![0] bcast_S4096_S4096x1_0 main_v26
  let main_v32 := broadcastInDim S4096x1 ![0] bcast_S4096_S4096x1_0 main_v27
  refVal_part3 (F := F) main_arg0 main_arg1 main_arg2 main_arg3 main_v2 main_v16 main_v18 main_v28 main_v29 main_v30 main_v31 main_v32

def refVal_part1 (main_arg0 : FVec F S128x5x160x160 .f32) (main_arg1 : FVec F S128x5x80x80 .f32) (main_arg2 : FVec F S128x5x40x40 .f32) (main_arg3 : FVec F S4096x6 .f32) (main_v2 : IVec S4096 32) (main_v8 : FVec F S4096 .f32) (main_v10 : FVec F S4096 .f32) (main_v12 : FVec F S4096 .f32) (main_v14 : FVec F S4096 .f32) (main_call0_v2 : FVec F S4096 .f32) (main_call0_v4 : FVec F S4096 .f32) : FVec F S_ .f32 :=
  let main_v15 := minimumf main_call0_v4 main_call0_v2
  let main_v16 := fptosi 32 main_v15
  let main_c_2 := constantI S_ 32 0#32
  let main_c_3 := constantI S_ 32 159#32
  let main_call1_v0 := sitofp .f32 main_c_2
  let main_call1_v1 := broadcastInDim S4096 ![] bcast_S_S4096 main_call1_v0
  let main_call1_v2 := maximumf main_call1_v1 main_v14
  let main_call1_v3 := sitofp .f32 main_c_3
  let main_call1_v4 := broadcastInDim S4096 ![] bcast_S_S4096 main_call1_v3
  let main_v17 := minimumf main_call1_v4 main_call1_v2
  let main_v18 := fptosi 32 main_v17
  let main_v19 := sitofp .f32 main_v16
  let main_v20 := subf main_v12 main_v19
  let main_v21 := sitofp .f32 main_v18
  let main_v22 := subf main_v14 main_v21
  let main_cst_4 := constant S_ .f32 0x43200000#32
  let main_v23 := broadcastInDim S4096 ![] bcast_S_S4096 main_cst_4
  let main_v24 := mulf main_v8 main_v23
  let main_cst_5 := constant S_ .f32 0x43200000#32
  let main_v25 := broadcastInDim S4096 ![] bcast_S_S4096 main_cst_5
  let main_v26 := mulf main_v10 main_v25
  let main_cst_6 := constant S_ .f32 0x3F800000#32
  let main_v27 := broadcastInDim S4096 ![] bcast_S_S4096 main_cst_6
  let main_v28 := broadcastInDim S4096x1 ![0] bcast_S4096_S4096x1_0 main_v20
  refVal_part2 (F := F) main_arg0 main_arg1 main_arg2 main_arg3 main_v2 main_v16 main_v18 main_v22 main_v24 main_v26 main_v27 main_v28

def refVal (main_arg0 : FVec F S128x5x160x160 .f32) (main_arg1 : FVec F S128x5x80x80 .f32) (main_arg2 : FVec F S128x5x40x40 .f32) (main_arg3 : FVec F S4096x6 .f32) : FVec F S_ .f32 :=
  let main_v0 := (extractStridedSlice S4096x1 ![0, 0] · slices_S4096x6_S4096x1_0_0) main_arg3
  let main_v1 := shapeCast S4096 main_v0 shapeCasts_S4096x1_S4096
  let main_v2 := fptosi 32 main_v1
  let main_v3 := (extractStridedSlice S4096x1 ![0, 2] · slices_S4096x6_S4096x1_0_2) main_arg3
  let main_v4 := shapeCast S4096 main_v3 shapeCasts_S4096x1_S4096
  let main_v5 := (extractStridedSlice S4096x1 ![0, 3] · slices_S4096x6_S4096x1_0_3) main_arg3
  let main_v6 := shapeCast S4096 main_v5 shapeCasts_S4096x1_S4096
  let main_v7 := (extractStridedSlice S4096x1 ![0, 4] · slices_S4096x6_S4096x1_0_4) main_arg3
  let main_v8 := shapeCast S4096 main_v7 shapeCasts_S4096x1_S4096
  let main_v9 := (extractStridedSlice S4096x1 ![0, 5] · slices_S4096x6_S4096x1_0_5) main_arg3
  let main_v10 := shapeCast S4096 main_v9 shapeCasts_S4096x1_S4096
  let main_cst := constant S_ .f32 0x43200000#32
  let main_v11 := broadcastInDim S4096 ![] bcast_S_S4096 main_cst
  let main_v12 := mulf main_v4 main_v11
  let main_cst_0 := constant S_ .f32 0x43200000#32
  let main_v13 := broadcastInDim S4096 ![] bcast_S_S4096 main_cst_0
  let main_v14 := mulf main_v6 main_v13
  let main_c := constantI S_ 32 0#32
  let main_c_1 := constantI S_ 32 159#32
  let main_call0_v0 := sitofp .f32 main_c
  let main_call0_v1 := broadcastInDim S4096 ![] bcast_S_S4096 main_call0_v0
  let main_call0_v2 := maximumf main_call0_v1 main_v12
  let main_call0_v3 := sitofp .f32 main_c_1
  let main_call0_v4 := broadcastInDim S4096 ![] bcast_S_S4096 main_call0_v3
  refVal_part1 (F := F) main_arg0 main_arg1 main_arg2 main_arg3 main_v2 main_v8 main_v10 main_v12 main_v14 main_call0_v2 main_call0_v4

end Cert.ReferenceIdeal.Hand

end
-- ==== Proof.RefVal0.lean ====
import proofs.«409303_j18760417149025_3_alg».proof.Proof.RefOps0
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step0 (V : Valuation τ sig (Elt F)) :
    refVal (V main_arg0) (V main_arg1) (V main_arg2) (V main_arg3)
      = refVal_part1 (after opsP0 V main_arg0) (after opsP0 V main_arg1) (after opsP0 V main_arg2) (after opsP0 V main_arg3) (after opsP0 V main_v2) (after opsP0 V main_v8) (after opsP0 V main_v10) (after opsP0 V main_v12) (after opsP0 V main_v14) (after opsP0 V main_call0_v2) (after opsP0 V main_call0_v4) := by
  after_results_simp; rfl

set_option maxRecDepth 8192 in
set_option maxHeartbeats 1000000 in
theorem step1 (V : Valuation τ sig (Elt F)) :
    refVal_part1 (V main_arg0) (V main_arg1) (V main_arg2) (V main_arg3) (V main_v2) (V main_v8) (V main_v10) (V main_v12) (V main_v14) (V main_call0_v2) (V main_call0_v4)
      = refVal_part2 (after opsP1 V main_arg0) (after opsP1 V main_arg1) (after opsP1 V main_arg2) (after opsP1 V main_arg3) (after opsP1 V main_v2) (after opsP1 V main_v16) (after opsP1 V main_v18) (after opsP1 V main_v22) (after opsP1 V main_v24) (after opsP1 V main_v26) (after opsP1 V main_v27) (after opsP1 V main_v28) := by
  after_results_simp; rfl

set_option maxRecDepth 8192 in
set_option maxHeartbeats 1000000 in
theorem step2 (V : Valuation τ sig (Elt F)) :
    refVal_part2 (V main_arg0) (V main_arg1) (V main_arg2) (V main_arg3) (V main_v2) (V main_v16) (V main_v18) (V main_v22) (V main_v24) (V main_v26) (V main_v27) (V main_v28)
      = refVal_part3 (after opsP2 V main_arg0) (after opsP2 V main_arg1) (after opsP2 V main_arg2) (after opsP2 V main_arg3) (after opsP2 V main_v2) (after opsP2 V main_v16) (after opsP2 V main_v18) (after opsP2 V main_v28) (after opsP2 V main_v29) (after opsP2 V main_v30) (after opsP2 V main_v31) (after opsP2 V main_v32) := by
  after_results_simp; rfl

set_option maxRecDepth 8192 in
set_option maxHeartbeats 1000000 in
theorem step3 (V : Valuation τ sig (Elt F)) :
    refVal_part3 (V main_arg0) (V main_arg1) (V main_arg2) (V main_arg3) (V main_v2) (V main_v16) (V main_v18) (V main_v28) (V main_v29) (V main_v30) (V main_v31) (V main_v32)
      = refVal_part4 (after opsP3 V main_arg0) (after opsP3 V main_arg1) (after opsP3 V main_arg2) (after opsP3 V main_arg3) (after opsP3 V main_v2) (after opsP3 V main_v16) (after opsP3 V main_v18) (after opsP3 V main_v33) (after opsP3 V main_v34) (after opsP3 V main_v39) (after opsP3 V main_v44) (after opsP3 V main_c_12) := by
  after_results_simp; rfl

end Cert.ReferenceIdeal.Hand

end
-- ==== Proof.RefVal1.lean ====
import proofs.«409303_j18760417149025_3_alg».proof.Proof.RefOps1
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step4 (V : Valuation τ sig (Elt F)) :
    refVal_part4 (V main_arg0) (V main_arg1) (V main_arg2) (V main_arg3) (V main_v2) (V main_v16) (V main_v18) (V main_v33) (V main_v34) (V main_v39) (V main_v44) (V main_c_12)
      = refVal_part5 (after opsP4 V main_arg0) (after opsP4 V main_arg1) (after opsP4 V main_arg2) (after opsP4 V main_arg3) (after opsP4 V main_v2) (after opsP4 V main_v16) (after opsP4 V main_v18) (after opsP4 V main_v33) (after opsP4 V main_v34) (after opsP4 V main_v50) (after opsP4 V main_v51) (after opsP4 V main_v52) := by
  after_results_simp; rfl

set_option maxRecDepth 8192 in
set_option maxHeartbeats 1000000 in
theorem step5 (V : Valuation τ sig (Elt F)) :
    refVal_part5 (V main_arg0) (V main_arg1) (V main_arg2) (V main_arg3) (V main_v2) (V main_v16) (V main_v18) (V main_v33) (V main_v34) (V main_v50) (V main_v51) (V main_v52)
      = refVal_part6 (after opsP5 V main_arg0) (after opsP5 V main_arg1) (after opsP5 V main_arg2) (after opsP5 V main_arg3) (after opsP5 V main_v16) (after opsP5 V main_v54) (after opsP5 V main_v55) (after opsP5 V main_v60) (after opsP5 V main_v65) (after opsP5 V main_v67) (after opsP5 V main_v69) := by
  after_results_simp; rfl

set_option maxRecDepth 8192 in
set_option maxHeartbeats 1000000 in
theorem step6 (V : Valuation τ sig (Elt F)) :
    refVal_part6 (V main_arg0) (V main_arg1) (V main_arg2) (V main_arg3) (V main_v16) (V main_v54) (V main_v55) (V main_v60) (V main_v65) (V main_v67) (V main_v69)
      = refVal_part7 (after opsP6 V main_arg0) (after opsP6 V main_arg1) (after opsP6 V main_arg2) (after opsP6 V main_arg3) (after opsP6 V main_v54) (after opsP6 V main_v55) (after opsP6 V main_v71) (after opsP6 V main_v72) (after opsP6 V main_v73) := by
  after_results_simp; rfl

set_option maxRecDepth 8192 in
set_option maxHeartbeats 1000000 in
theorem step7 (V : Valuation τ sig (Elt F)) :
    refVal_part7 (V main_arg0) (V main_arg1) (V main_arg2) (V main_arg3) (V main_v54) (V main_v55) (V main_v71) (V main_v72) (V main_v73)
      = refVal_part8 (after opsP7 V main_arg1) (after opsP7 V main_arg2) (after opsP7 V main_arg3) (after opsP7 V main_v54) (after opsP7 V main_v77) (after opsP7 V main_v78) (after opsP7 V main_v79) (after opsP7 V main_v86) (after opsP7 V main_v87) (after opsP7 V main_v88) (after opsP7 V main_v90) := by
  after_results_simp; rfl

end Cert.ReferenceIdeal.Hand

end
-- ==== Proof.RefVal2.lean ====
import proofs.«409303_j18760417149025_3_alg».proof.Proof.RefOps2
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step8 (V : Valuation τ sig (Elt F)) :
    refVal_part8 (V main_arg1) (V main_arg2) (V main_arg3) (V main_v54) (V main_v77) (V main_v78) (V main_v79) (V main_v86) (V main_v87) (V main_v88) (V main_v90)
      = refVal_part9 (after opsP8 V main_arg1) (after opsP8 V main_arg2) (after opsP8 V main_arg3) (after opsP8 V main_v54) (after opsP8 V main_v78) (after opsP8 V main_v79) (after opsP8 V main_v107) (after opsP8 V main_v109) := by
  after_results_simp; rfl

set_option maxRecDepth 8192 in
set_option maxHeartbeats 1000000 in
theorem step9 (V : Valuation τ sig (Elt F)) :
    refVal_part9 (V main_arg1) (V main_arg2) (V main_arg3) (V main_v54) (V main_v78) (V main_v79) (V main_v107) (V main_v109)
      = refVal_part10 (after opsP9 V main_arg1) (after opsP9 V main_arg2) (after opsP9 V main_arg3) (after opsP9 V main_v78) (after opsP9 V main_v79) (after opsP9 V main_v107) (after opsP9 V main_v109) (after opsP9 V main_v111) (after opsP9 V main_v113) (after opsP9 V main_v115) (after opsP9 V main_call4_v0) := by
  after_results_simp; rfl

set_option maxRecDepth 8192 in
set_option maxHeartbeats 1000000 in
theorem step10 (V : Valuation τ sig (Elt F)) :
    refVal_part10 (V main_arg1) (V main_arg2) (V main_arg3) (V main_v78) (V main_v79) (V main_v107) (V main_v109) (V main_v111) (V main_v113) (V main_v115) (V main_call4_v0)
      = refVal_part11 (after opsP10 V main_arg1) (after opsP10 V main_arg2) (after opsP10 V main_arg3) (after opsP10 V main_v78) (after opsP10 V main_v79) (after opsP10 V main_v107) (after opsP10 V main_v111) (after opsP10 V main_v120) (after opsP10 V main_v124) (after opsP10 V main_cst_33) := by
  after_results_simp; rfl

set_option maxRecDepth 8192 in
set_option maxHeartbeats 1000000 in
theorem step11 (V : Valuation τ sig (Elt F)) :
    refVal_part11 (V main_arg1) (V main_arg2) (V main_arg3) (V main_v78) (V main_v79) (V main_v107) (V main_v111) (V main_v120) (V main_v124) (V main_cst_33)
      = refVal_part12 (after opsP11 V main_arg1) (after opsP11 V main_arg2) (after opsP11 V main_arg3) (after opsP11 V main_v78) (after opsP11 V main_v79) (after opsP11 V main_v107) (after opsP11 V main_v120) (after opsP11 V main_v137) (after opsP11 V main_v138) := by
  after_results_simp; rfl

end Cert.ReferenceIdeal.Hand

end
-- ==== Proof.RefVal3.lean ====
import proofs.«409303_j18760417149025_3_alg».proof.Proof.RefOps3
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step12 (V : Valuation τ sig (Elt F)) :
    refVal_part12 (V main_arg1) (V main_arg2) (V main_arg3) (V main_v78) (V main_v79) (V main_v107) (V main_v120) (V main_v137) (V main_v138)
      = refVal_part13 (after opsP12 V main_arg1) (after opsP12 V main_arg2) (after opsP12 V main_arg3) (after opsP12 V main_v107) (after opsP12 V main_v146) (after opsP12 V main_v147) (after opsP12 V main_v153) := by
  after_results_simp; rfl

set_option maxRecDepth 8192 in
set_option maxHeartbeats 1000000 in
theorem step13 (V : Valuation τ sig (Elt F)) :
    refVal_part13 (V main_arg1) (V main_arg2) (V main_arg3) (V main_v107) (V main_v146) (V main_v147) (V main_v153)
      = refVal_part14 (after opsP13 V main_arg1) (after opsP13 V main_arg2) (after opsP13 V main_arg3) (after opsP13 V main_v161) (after opsP13 V main_v164) (after opsP13 V main_v166) (after opsP13 V main_v168) (after opsP13 V main_v170) := by
  after_results_simp; rfl

set_option maxRecDepth 8192 in
set_option maxHeartbeats 1000000 in
theorem step14 (V : Valuation τ sig (Elt F)) :
    refVal_part14 (V main_arg1) (V main_arg2) (V main_arg3) (V main_v161) (V main_v164) (V main_v166) (V main_v168) (V main_v170)
      = refVal_part15 (after opsP14 V main_arg1) (after opsP14 V main_arg2) (after opsP14 V main_arg3) (after opsP14 V main_v161) (after opsP14 V main_v164) (after opsP14 V main_v170) (after opsP14 V main_v172) (after opsP14 V main_v174) (after opsP14 V main_v176) (after opsP14 V main_v178) (after opsP14 V main_c_57) (after opsP14 V main_c_58) := by
  after_results_simp; rfl

end Cert.ReferenceIdeal.Hand

end
-- ==== Proof.RefVal4.lean ====
import proofs.«409303_j18760417149025_3_alg».proof.Proof.RefOps4
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step15 (V : Valuation τ sig (Elt F)) :
    refVal_part15 (V main_arg1) (V main_arg2) (V main_arg3) (V main_v161) (V main_v164) (V main_v170) (V main_v172) (V main_v174) (V main_v176) (V main_v178) (V main_c_57) (V main_c_58)
      = refVal_part16 (after opsP15 V main_arg1) (after opsP15 V main_arg2) (after opsP15 V main_arg3) (after opsP15 V main_v161) (after opsP15 V main_v164) (after opsP15 V main_v178) (after opsP15 V main_v180) (after opsP15 V main_v190) (after opsP15 V main_v191) (after opsP15 V main_v192) (after opsP15 V main_v193) (after opsP15 V main_v194) := by
  after_results_simp; rfl

set_option maxRecDepth 8192 in
set_option maxHeartbeats 1000000 in
theorem step16 (V : Valuation τ sig (Elt F)) :
    refVal_part16 (V main_arg1) (V main_arg2) (V main_arg3) (V main_v161) (V main_v164) (V main_v178) (V main_v180) (V main_v190) (V main_v191) (V main_v192) (V main_v193) (V main_v194)
      = refVal_part17 (after opsP16 V main_arg1) (after opsP16 V main_arg2) (after opsP16 V main_arg3) (after opsP16 V main_v161) (after opsP16 V main_v164) (after opsP16 V main_v178) (after opsP16 V main_v180) (after opsP16 V main_v195) (after opsP16 V main_v196) (after opsP16 V main_v201) (after opsP16 V main_v206) (after opsP16 V main_v211) := by
  after_results_simp; rfl

set_option maxRecDepth 8192 in
set_option maxHeartbeats 1000000 in
theorem step17 (V : Valuation τ sig (Elt F)) :
    refVal_part17 (V main_arg1) (V main_arg2) (V main_arg3) (V main_v161) (V main_v164) (V main_v178) (V main_v180) (V main_v195) (V main_v196) (V main_v201) (V main_v206) (V main_v211)
      = refVal_part18 (after opsP17 V main_arg1) (after opsP17 V main_arg2) (after opsP17 V main_arg3) (after opsP17 V main_v161) (after opsP17 V main_v164) (after opsP17 V main_v178) (after opsP17 V main_v180) (after opsP17 V main_v195) (after opsP17 V main_v196) (after opsP17 V main_v212) (after opsP17 V main_v213) (after opsP17 V main_v214) := by
  after_results_simp; rfl

set_option maxRecDepth 8192 in
set_option maxHeartbeats 1000000 in
theorem step18 (V : Valuation τ sig (Elt F)) :
    refVal_part18 (V main_arg1) (V main_arg2) (V main_arg3) (V main_v161) (V main_v164) (V main_v178) (V main_v180) (V main_v195) (V main_v196) (V main_v212) (V main_v213) (V main_v214)
      = refVal_part19 (after opsP18 V main_arg1) (after opsP18 V main_arg2) (after opsP18 V main_arg3) (after opsP18 V main_v161) (after opsP18 V main_v178) (after opsP18 V main_v180) (after opsP18 V main_v216) (after opsP18 V main_v217) (after opsP18 V main_v222) (after opsP18 V main_v224) := by
  after_results_simp; rfl

end Cert.ReferenceIdeal.Hand

end
-- ==== Proof.RefVal5.lean ====
import proofs.«409303_j18760417149025_3_alg».proof.Proof.RefOps5
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step19 (V : Valuation τ sig (Elt F)) :
    refVal_part19 (V main_arg1) (V main_arg2) (V main_arg3) (V main_v161) (V main_v178) (V main_v180) (V main_v216) (V main_v217) (V main_v222) (V main_v224)
      = refVal_part20 (after opsP19 V main_arg1) (after opsP19 V main_arg2) (after opsP19 V main_arg3) (after opsP19 V main_v161) (after opsP19 V main_v216) (after opsP19 V main_v217) (after opsP19 V main_v233) (after opsP19 V main_v234) (after opsP19 V main_v235) := by
  after_results_simp; rfl

set_option maxRecDepth 8192 in
set_option maxHeartbeats 1000000 in
theorem step20 (V : Valuation τ sig (Elt F)) :
    refVal_part20 (V main_arg1) (V main_arg2) (V main_arg3) (V main_v161) (V main_v216) (V main_v217) (V main_v233) (V main_v234) (V main_v235)
      = refVal_part21 (after opsP20 V main_arg2) (after opsP20 V main_arg3) (after opsP20 V main_v161) (after opsP20 V main_v216) (after opsP20 V main_v239) (after opsP20 V main_v240) (after opsP20 V main_v241) (after opsP20 V main_v248) (after opsP20 V main_v249) (after opsP20 V main_v250) (after opsP20 V main_v252) (after opsP20 V main_v253) := by
  after_results_simp; rfl

set_option maxRecDepth 8192 in
set_option maxHeartbeats 1000000 in
theorem step21 (V : Valuation τ sig (Elt F)) :
    refVal_part21 (V main_arg2) (V main_arg3) (V main_v161) (V main_v216) (V main_v239) (V main_v240) (V main_v241) (V main_v248) (V main_v249) (V main_v250) (V main_v252) (V main_v253)
      = refVal_part22 (after opsP21 V main_arg2) (after opsP21 V main_arg3) (after opsP21 V main_v161) (after opsP21 V main_v216) (after opsP21 V main_v240) (after opsP21 V main_v241) (after opsP21 V main_v269) (after opsP21 V main_v271) := by
  after_results_simp; rfl

end Cert.ReferenceIdeal.Hand

end
-- ==== Proof.RefVal6.lean ====
import proofs.«409303_j18760417149025_3_alg».proof.Proof.RefOps6
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step22 (V : Valuation τ sig (Elt F)) :
    refVal_part22 (V main_arg2) (V main_arg3) (V main_v161) (V main_v216) (V main_v240) (V main_v241) (V main_v269) (V main_v271)
      = refVal_part23 (after opsP22 V main_arg2) (after opsP22 V main_arg3) (after opsP22 V main_v161) (after opsP22 V main_v240) (after opsP22 V main_v241) (after opsP22 V main_v269) (after opsP22 V main_v271) (after opsP22 V main_v273) (after opsP22 V main_v275) (after opsP22 V main_v277) (after opsP22 V main_call11_v0) := by
  after_results_simp; rfl

set_option maxRecDepth 8192 in
set_option maxHeartbeats 1000000 in
theorem step23 (V : Valuation τ sig (Elt F)) :
    refVal_part23 (V main_arg2) (V main_arg3) (V main_v161) (V main_v240) (V main_v241) (V main_v269) (V main_v271) (V main_v273) (V main_v275) (V main_v277) (V main_call11_v0)
      = refVal_part24 (after opsP23 V main_arg2) (after opsP23 V main_arg3) (after opsP23 V main_v161) (after opsP23 V main_v240) (after opsP23 V main_v241) (after opsP23 V main_v269) (after opsP23 V main_v273) (after opsP23 V main_v282) (after opsP23 V main_v286) (after opsP23 V main_cst_88) := by
  after_results_simp; rfl

set_option maxRecDepth 8192 in
set_option maxHeartbeats 1000000 in
theorem step24 (V : Valuation τ sig (Elt F)) :
    refVal_part24 (V main_arg2) (V main_arg3) (V main_v161) (V main_v240) (V main_v241) (V main_v269) (V main_v273) (V main_v282) (V main_v286) (V main_cst_88)
      = refVal_part25 (after opsP24 V main_arg2) (after opsP24 V main_arg3) (after opsP24 V main_v161) (after opsP24 V main_v240) (after opsP24 V main_v241) (after opsP24 V main_v269) (after opsP24 V main_v302) (after opsP24 V main_v304) := by
  after_results_simp; rfl

set_option maxRecDepth 8192 in
set_option maxHeartbeats 1000000 in
theorem step25 (V : Valuation τ sig (Elt F)) :
    refVal_part25 (V main_arg2) (V main_arg3) (V main_v161) (V main_v240) (V main_v241) (V main_v269) (V main_v302) (V main_v304)
      = refVal_part26 (after opsP25 V main_arg2) (after opsP25 V main_arg3) (after opsP25 V main_v161) (after opsP25 V main_v269) (after opsP25 V main_v308) (after opsP25 V main_v309) (after opsP25 V main_v315) := by
  after_results_simp; rfl

end Cert.ReferenceIdeal.Hand

end
-- ==== Proof.RefVal7.lean ====
import proofs.«409303_j18760417149025_3_alg».proof.Proof.RefOps7
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step26 (V : Valuation τ sig (Elt F)) :
    refVal_part26 (V main_arg2) (V main_arg3) (V main_v161) (V main_v269) (V main_v308) (V main_v309) (V main_v315)
      = refVal_part27 (after opsP26 V main_arg2) (after opsP26 V main_v323) (after opsP26 V main_v326) (after opsP26 V main_v328) (after opsP26 V main_v330) (after opsP26 V main_v332) (after opsP26 V main_v333) := by
  after_results_simp; rfl

set_option maxRecDepth 8192 in
set_option maxHeartbeats 1000000 in
theorem step27 (V : Valuation τ sig (Elt F)) :
    refVal_part27 (V main_arg2) (V main_v323) (V main_v326) (V main_v328) (V main_v330) (V main_v332) (V main_v333)
      = refVal_part28 (after opsP27 V main_arg2) (after opsP27 V main_v323) (after opsP27 V main_v326) (after opsP27 V main_v332) (after opsP27 V main_v334) (after opsP27 V main_v336) (after opsP27 V main_v338) (after opsP27 V main_v340) (after opsP27 V main_v341) := by
  after_results_simp; rfl

set_option maxRecDepth 8192 in
set_option maxHeartbeats 1000000 in
theorem step28 (V : Valuation τ sig (Elt F)) :
    refVal_part28 (V main_arg2) (V main_v323) (V main_v326) (V main_v332) (V main_v334) (V main_v336) (V main_v338) (V main_v340) (V main_v341)
      = refVal_part29 (after opsP28 V main_arg2) (after opsP28 V main_v323) (after opsP28 V main_v326) (after opsP28 V main_v340) (after opsP28 V main_v342) (after opsP28 V main_v352) (after opsP28 V main_v353) (after opsP28 V main_v354) (after opsP28 V main_v355) (after opsP28 V main_v356) := by
  after_results_simp; rfl

set_option maxRecDepth 8192 in
set_option maxHeartbeats 1000000 in
theorem step29 (V : Valuation τ sig (Elt F)) :
    refVal_part29 (V main_arg2) (V main_v323) (V main_v326) (V main_v340) (V main_v342) (V main_v352) (V main_v353) (V main_v354) (V main_v355) (V main_v356)
      = refVal_part30 (after opsP29 V main_arg2) (after opsP29 V main_v323) (after opsP29 V main_v326) (after opsP29 V main_v340) (after opsP29 V main_v342) (after opsP29 V main_v357) (after opsP29 V main_v358) (after opsP29 V main_v359) := by
  after_results_simp; rfl

end Cert.ReferenceIdeal.Hand

end
-- ==== Proof.RefVal8.lean ====
import proofs.«409303_j18760417149025_3_alg».proof.Proof.RefOps8
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step30 (V : Valuation τ sig (Elt F)) :
    refVal_part30 (V main_arg2) (V main_v323) (V main_v326) (V main_v340) (V main_v342) (V main_v357) (V main_v358) (V main_v359)
      = refVal_part31 (after opsP30 V main_arg2) (after opsP30 V main_v323) (after opsP30 V main_v326) (after opsP30 V main_v340) (after opsP30 V main_v342) (after opsP30 V main_v357) (after opsP30 V main_v358) (after opsP30 V main_v374) (after opsP30 V main_v375) (after opsP30 V main_v376) := by
  after_results_simp; rfl

set_option maxRecDepth 8192 in
set_option maxHeartbeats 1000000 in
theorem step31 (V : Valuation τ sig (Elt F)) :
    refVal_part31 (V main_arg2) (V main_v323) (V main_v326) (V main_v340) (V main_v342) (V main_v357) (V main_v358) (V main_v374) (V main_v375) (V main_v376)
      = refVal_part32 (after opsP31 V main_arg2) (after opsP31 V main_v323) (after opsP31 V main_v340) (after opsP31 V main_v378) (after opsP31 V main_v379) (after opsP31 V main_v384) (after opsP31 V main_v389) (after opsP31 V main_v391) (after opsP31 V main_v393) := by
  after_results_simp; rfl

set_option maxRecDepth 8192 in
set_option maxHeartbeats 1000000 in
theorem step32 (V : Valuation τ sig (Elt F)) :
    refVal_part32 (V main_arg2) (V main_v323) (V main_v340) (V main_v378) (V main_v379) (V main_v384) (V main_v389) (V main_v391) (V main_v393)
      = refVal_part33 (after opsP32 V main_arg2) (after opsP32 V main_v323) (after opsP32 V main_v378) (after opsP32 V main_v379) (after opsP32 V main_v395) (after opsP32 V main_v396) (after opsP32 V main_v397) := by
  after_results_simp; rfl

set_option maxRecDepth 8192 in
set_option maxHeartbeats 1000000 in
theorem step33 (V : Valuation τ sig (Elt F)) :
    refVal_part33 (V main_arg2) (V main_v323) (V main_v378) (V main_v379) (V main_v395) (V main_v396) (V main_v397)
      = refVal_part34 (after opsP33 V main_v323) (after opsP33 V main_v378) (after opsP33 V main_v401) (after opsP33 V main_v402) (after opsP33 V main_v403) (after opsP33 V main_v405) := by
  after_results_simp; rfl

end Cert.ReferenceIdeal.Hand

end
-- ==== Proof.RefVal9.lean ====
import proofs.«409303_j18760417149025_3_alg».proof.Proof.RefOps9
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step34 (V : Valuation τ sig (Elt F)) :
    refVal_part34 (V main_v323) (V main_v378) (V main_v401) (V main_v402) (V main_v403) (V main_v405)
      = refVal_part35 (after opsP34 V main_v323) (after opsP34 V main_v378) (after opsP34 V main_v401) (after opsP34 V main_v402) (after opsP34 V main_v403) (after opsP34 V main_v412) (after opsP34 V main_v414) (after opsP34 V main_v421) (after opsP34 V main_v424) := by
  after_results_simp; rfl

set_option maxRecDepth 8192 in
set_option maxHeartbeats 1000000 in
theorem step35 (V : Valuation τ sig (Elt F)) :
    refVal_part35 (V main_v323) (V main_v378) (V main_v401) (V main_v402) (V main_v403) (V main_v412) (V main_v414) (V main_v421) (V main_v424)
      = refVal_part36 (after opsP35 V main_v323) (after opsP35 V main_v402) (after opsP35 V main_v403) (after opsP35 V main_v431) (after opsP35 V main_v433) (after opsP35 V main_v435) (after opsP35 V main_call17_call0_v1) (after opsP35 V main_call17_call0_v3) (after opsP35 V main_call17_call0_v4) (after opsP35 V main_call17_call0_v6) := by
  after_results_simp; rfl

set_option maxRecDepth 8192 in
set_option maxHeartbeats 1000000 in
theorem step36 (V : Valuation τ sig (Elt F)) :
    refVal_part36 (V main_v323) (V main_v402) (V main_v403) (V main_v431) (V main_v433) (V main_v435) (V main_call17_call0_v1) (V main_call17_call0_v3) (V main_call17_call0_v4) (V main_call17_call0_v6)
      = refVal_part37 (after opsP36 V main_v323) (after opsP36 V main_v402) (after opsP36 V main_v403) (after opsP36 V main_v431) (after opsP36 V main_v433) (after opsP36 V main_v435) (after opsP36 V main_v437) (after opsP36 V main_v439) (after opsP36 V main_call18_call0_v1) (after opsP36 V main_call18_call0_v4) (after opsP36 V main_call18_call0_v6) (after opsP36 V main_call18_call0_v9) := by
  after_results_simp; rfl

set_option maxRecDepth 8192 in
set_option maxHeartbeats 1000000 in
theorem step37 (V : Valuation τ sig (Elt F)) :
    refVal_part37 (V main_v323) (V main_v402) (V main_v403) (V main_v431) (V main_v433) (V main_v435) (V main_v437) (V main_v439) (V main_call18_call0_v1) (V main_call18_call0_v4) (V main_call18_call0_v6) (V main_call18_call0_v9)
      = refVal_part38 (after opsP37 V main_v323) (after opsP37 V main_v402) (after opsP37 V main_v403) (after opsP37 V main_v431) (after opsP37 V main_v444) (after opsP37 V main_v450) (after opsP37 V main_v451) (after opsP37 V main_v453) := by
  after_results_simp; rfl

end Cert.ReferenceIdeal.Hand

end
-- ==== Proof.RefVal10.lean ====
import proofs.«409303_j18760417149025_3_alg».proof.Proof.RefOps10
import proofs.«409303_j18760417149025_3_alg».proof.Proof.RefFun

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

attribute [local irreducible] Host.reduce Host.reduceAdd Host.scatter

set_option maxRecDepth 8192 in
set_option maxHeartbeats 1000000 in
theorem step38 (V : Valuation τ sig (Elt F)) :
    refVal_part38 (V main_v323) (V main_v402) (V main_v403) (V main_v431) (V main_v444) (V main_v450) (V main_v451) (V main_v453)
      = refVal_part39 (after opsP38 V main_v323) (after opsP38 V main_v402) (after opsP38 V main_v403) (after opsP38 V main_v431) (after opsP38 V main_v464) (after opsP38 V main_v468) (after opsP38 V main_v469) (after opsP38 V main_cst_151) := by
  after_results_simp; rfl

set_option maxRecDepth 8192 in
set_option maxHeartbeats 1000000 in
theorem step39 (V : Valuation τ sig (Elt F)) :
    refVal_part39 (V main_v323) (V main_v402) (V main_v403) (V main_v431) (V main_v464) (V main_v468) (V main_v469) (V main_cst_151)
      = refVal_part40 (after opsP39 V main_v323) (after opsP39 V main_v481) (after opsP39 V main_v482) (after opsP39 V main_cst_160) := by
  after_results_simp; rfl

set_option maxRecDepth 8192 in
set_option maxHeartbeats 1000000 in
theorem step40 (V : Valuation τ sig (Elt F)) :
    refVal_part40 (V main_v323) (V main_v481) (V main_v482) (V main_cst_160)
      = after opsP40 V main_v485 := by
  after_results_simp; rfl

end Cert.ReferenceIdeal.Hand

end
-- ==== Proof.RefRunVal.lean ====
import proofs.«409303_j18760417149025_3_alg».proof.Proof.RefRun
import proofs.«409303_j18760417149025_3_alg».proof.Proof.RefVal0
import proofs.«409303_j18760417149025_3_alg».proof.Proof.RefVal1
import proofs.«409303_j18760417149025_3_alg».proof.Proof.RefVal2
import proofs.«409303_j18760417149025_3_alg».proof.Proof.RefVal3
import proofs.«409303_j18760417149025_3_alg».proof.Proof.RefVal4
import proofs.«409303_j18760417149025_3_alg».proof.Proof.RefVal5
import proofs.«409303_j18760417149025_3_alg».proof.Proof.RefVal6
import proofs.«409303_j18760417149025_3_alg».proof.Proof.RefVal7
import proofs.«409303_j18760417149025_3_alg».proof.Proof.RefVal8
import proofs.«409303_j18760417149025_3_alg».proof.Proof.RefVal9
import proofs.«409303_j18760417149025_3_alg».proof.Proof.RefVal10

noncomputable section

namespace Cert.ReferenceIdeal.Hand

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts] {F : FTy → Type} [FloatOps F]

theorem value (V : Valuation τ sig (Elt F)) :
    after ops V main_v485 = refVal (V main_arg0) (V main_arg1) (V main_arg2) (V main_arg3) := by
  rw [after_ops]
  exact ((step0 _).trans ((step1 _).trans ((step2 _).trans ((step3 _).trans ((step4 _).trans ((step5 _).trans ((step6 _).trans ((step7 _).trans ((step8 _).trans ((step9 _).trans ((step10 _).trans ((step11 _).trans ((step12 _).trans ((step13 _).trans ((step14 _).trans ((step15 _).trans ((step16 _).trans ((step17 _).trans ((step18 _).trans ((step19 _).trans ((step20 _).trans ((step21 _).trans ((step22 _).trans ((step23 _).trans ((step24 _).trans ((step25 _).trans ((step26 _).trans ((step27 _).trans ((step28 _).trans ((step29 _).trans ((step30 _).trans ((step31 _).trans ((step32 _).trans ((step33 _).trans ((step34 _).trans ((step35 _).trans ((step36 _).trans ((step37 _).trans ((step38 _).trans ((step39 _).trans (step40 _))))))))))))))))))))))))))))))))))))))))).symm
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v485) = refVal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v485).trans (value _), (h c main_arg0).trans (keep_arg0 _), (h c main_arg1).trans (keep_arg1 _), (h c main_arg2).trans (keep_arg2 _), (h c main_arg3).trans (keep_arg3 _)⟩) (run_after m ρ)

end Cert.ReferenceIdeal.Hand

end
-- ==== Proof.BridgeKDefs.lean ====
import proofs.«409303_j18760417149025_3_alg».proof.KernelIdeal

noncomputable section

namespace Cert.KernelIdeal.Hand

open Idealize.ShloMosaic
open Cert.KernelIdeal Cert.KernelIdeal.Facts₀ Cert.KernelIdeal.Facts

variable [Cert.KernelIdeal.Facts] {F : FTy → Type} [FloatOps F]

/-- The batch index of every target. -/
def kB1 (main_arg3 : FVec F S4096x6 .f32) : IVec S4096 32 :=
  let main_v0 : FVec F S4096x1 .f32 := (extractStridedSlice S4096x1 ![0, 0] · slices_S4096x6_S4096x1_0_0) main_arg3
  let main_v1 : FVec F S4096 .f32 := shapeCast S4096 main_v0 shapeCasts_S4096x1_S4096
  let main_v2 : IVec S4096 32 := fptosi 32 main_v1
  main_v2

/-- The column of the cell of every target at this scale. -/
def kGI1 (main_arg3 : FVec F S4096x6 .f32) : IVec S4096 32 :=
  let main_c_1 : IVec S_ 32 := constantI S_ 32 159#32
  let main_call0_v3 : FVec F S_ .f32 := sitofp .f32 main_c_1
  let main_call0_v4 : FVec F S4096 .f32 := broadcastInDim S4096 ![] bcast_S_S4096 main_call0_v3
  let main_c : IVec S_ 32 := constantI S_ 32 0#32
  let main_call0_v0 : FVec F S_ .f32 := sitofp .f32 main_c
  let main_call0_v1 : FVec F S4096 .f32 := broadcastInDim S4096 ![] bcast_S_S4096 main_call0_v0
  let main_v3 : FVec F S4096x1 .f32 := (extractStridedSlice S4096x1 ![0, 2] · slices_S4096x6_S4096x1_0_2) main_arg3
  let main_v4 : FVec F S4096 .f32 := shapeCast S4096 main_v3 shapeCasts_S4096x1_S4096
  let main_cst : FVec F S_ .f32 := constant S_ .f32 0x43200000#32
  let main_v11 : FVec F S4096 .f32 := broadcastInDim S4096 ![] bcast_S_S4096 main_cst
  let main_v12 : FVec F S4096 .f32 := mulf main_v4 main_v11
  let main_call0_v2 : FVec F S4096 .f32 := maximumf main_call0_v1 main_v12
  let main_v15 : FVec F S4096 .f32 := minimumf main_call0_v4 main_call0_v2
  let main_v16 : IVec S4096 32 := fptosi 32 main_v15
  main_v16

/-- The row of the cell of every target at this scale. -/
def kGJ1 (main_arg3 : FVec F S4096x6 .f32) : IVec S4096 32 :=
  let main_c_3 : IVec S_ 32 := constantI S_ 32 159#32
  let main_call1_v3 : FVec F S_ .f32 := sitofp .f32 main_c_3
  let main_call1_v4 : FVec F S4096 .f32 := broadcastInDim S4096 ![] bcast_S_S4096 main_call1_v3
  let main_c_2 : IVec S_ 32 := constantI S_ 32 0#32
  let main_call1_v0 : FVec F S_ .f32 := sitofp .f32 main_c_2
  let main_call1_v1 : FVec F S4096 .f32 := broadcastInDim S4096 ![] bcast_S_S4096 main_call1_v0
  let main_v5 : FVec F S4096x1 .f32 := (extractStridedSlice S4096x1 ![0, 3] · slices_S4096x6_S4096x1_0_3) main_arg3
  let main_v6 : FVec F S4096 .f32 := shapeCast S4096 main_v5 shapeCasts_S4096x1_S4096
  let main_cst_0 : FVec F S_ .f32 := constant S_ .f32 0x43200000#32
  let main_v13 : FVec F S4096 .f32 := broadcastInDim S4096 ![] bcast_S_S4096 main_cst_0
  let main_v14 : FVec F S4096 .f32 := mulf main_v6 main_v13
  let main_call1_v2 : FVec F S4096 .f32 := maximumf main_call1_v1 main_v14
  let main_v17 : FVec F S4096 .f32 := minimumf main_call1_v4 main_call1_v2
  let main_v18 : IVec S4096 32 := fptosi 32 main_v17
  main_v18

/-- Part 3 of kVals1. -/
def kVals1_p3 (main_arg3 : FVec F S4096x6 .f32) (main_v28 : FVec F S4096x1 .f32) (main_v29 : FVec F S4096x1 .f32) (main_v30 : FVec F S4096x1 .f32) : FVec F S4096x5 .f32 :=
  let main_v9 : FVec F S4096x1 .f32 := (extractStridedSlice S4096x1 ![0, 5] · slices_S4096x6_S4096x1_0_5) main_arg3
  let main_v10 : FVec F S4096 .f32 := shapeCast S4096 main_v9 shapeCasts_S4096x1_S4096
  let main_cst_5 : FVec F S_ .f32 := constant S_ .f32 0x43200000#32
  let main_v25 : FVec F S4096 .f32 := broadcastInDim S4096 ![] bcast_S_S4096 main_cst_5
  let main_v26 : FVec F S4096 .f32 := mulf main_v10 main_v25
  let main_v31 : FVec F S4096x1 .f32 := broadcastInDim S4096x1 ![0] bcast_S4096_S4096x1_0 main_v26
  let main_cst_6 : FVec F S_ .f32 := constant S_ .f32 0x3F800000#32
  let main_v27 : FVec F S4096 .f32 := broadcastInDim S4096 ![] bcast_S_S4096 main_cst_6
  let main_v32 : FVec F S4096x1 .f32 := broadcastInDim S4096x1 ![0] bcast_S4096_S4096x1_0 main_v27
  let main_v33 : FVec F S4096x5 .f32 := concatenate S4096x5 1 [⟨S4096x1, main_v28⟩, ⟨S4096x1, main_v29⟩, ⟨S4096x1, main_v30⟩, ⟨S4096x1, main_v31⟩, ⟨S4096x1, main_v32⟩] concatenates_S4096x1_S4096x1_S4096x1_S4096x1_S4096x1_S4096x5_d1
  main_v33

/-- Part 2 of kVals1. -/
def kVals1_p2 (main_arg3 : FVec F S4096x6 .f32) (main_v28 : FVec F S4096x1 .f32) (main_v6 : FVec F S4096 .f32) (main_cst_0 : FVec F S_ .f32) : FVec F S4096x5 .f32 :=
  let main_v13 : FVec F S4096 .f32 := broadcastInDim S4096 ![] bcast_S_S4096 main_cst_0
  let main_v14 : FVec F S4096 .f32 := mulf main_v6 main_v13
  let main_c_3 : IVec S_ 32 := constantI S_ 32 159#32
  let main_call1_v3 : FVec F S_ .f32 := sitofp .f32 main_c_3
  let main_call1_v4 : FVec F S4096 .f32 := broadcastInDim S4096 ![] bcast_S_S4096 main_call1_v3
  let main_c_2 : IVec S_ 32 := constantI S_ 32 0#32
  let main_call1_v0 : FVec F S_ .f32 := sitofp .f32 main_c_2
  let main_call1_v1 : FVec F S4096 .f32 := broadcastInDim S4096 ![] bcast_S_S4096 main_call1_v0
  let main_call1_v2 : FVec F S4096 .f32 := maximumf main_call1_v1 main_v14
  let main_v17 : FVec F S4096 .f32 := minimumf main_call1_v4 main_call1_v2
  let main_v18 : IVec S4096 32 := fptosi 32 main_v17
  let main_v21 : FVec F S4096 .f32 := sitofp .f32 main_v18
  let main_v22 : FVec F S4096 .f32 := subf main_v14 main_v21
  let main_v29 : FVec F S4096x1 .f32 := broadcastInDim S4096x1 ![0] bcast_S4096_S4096x1_0 main_v22
  let main_v7 : FVec F S4096x1 .f32 := (extractStridedSlice S4096x1 ![0, 4] · slices_S4096x6_S4096x1_0_4) main_arg3
  let main_v8 : FVec F S4096 .f32 := shapeCast S4096 main_v7 shapeCasts_S4096x1_S4096
  let main_cst_4 : FVec F S_ .f32 := constant S_ .f32 0x43200000#32
  let main_v23 : FVec F S4096 .f32 := broadcastInDim S4096 ![] bcast_S_S4096 main_cst_4
  let main_v24 : FVec F S4096 .f32 := mulf main_v8 main_v23
  let main_v30 : FVec F S4096x1 .f32 := broadcastInDim S4096x1 ![0] bcast_S4096_S4096x1_0 main_v24
  kVals1_p3 (F := F) main_arg3 main_v28 main_v29 main_v30

/-- The five values written at the cell of every target at this scale. -/
def kVals1 (main_arg3 : FVec F S4096x6 .f32) : FVec F S4096x5 .f32 :=
  let main_v3 : FVec F S4096x1 .f32 := (extractStridedSlice S4096x1 ![0, 2] · slices_S4096x6_S4096x1_0_2) main_arg3
  let main_v4 : FVec F S4096 .f32 := shapeCast S4096 main_v3 shapeCasts_S4096x1_S4096
  let main_cst : FVec F S_ .f32 := constant S_ .f32 0x43200000#32
  let main_v11 : FVec F S4096 .f32 := broadcastInDim S4096 ![] bcast_S_S4096 main_cst
  let main_v12 : FVec F S4096 .f32 := mulf main_v4 main_v11
  let main_c_1 : IVec S_ 32 := constantI S_ 32 159#32
  let main_call0_v3 : FVec F S_ .f32 := sitofp .f32 main_c_1
  let main_call0_v4 : FVec F S4096 .f32 := broadcastInDim S4096 ![] bcast_S_S4096 main_call0_v3
  let main_c : IVec S_ 32 := constantI S_ 32 0#32
  let main_call0_v0 : FVec F S_ .f32 := sitofp .f32 main_c
  let main_call0_v1 : FVec F S4096 .f32 := broadcastInDim S4096 ![] bcast_S_S4096 main_call0_v0
  let main_call0_v2 : FVec F S4096 .f32 := maximumf main_call0_v1 main_v12
  let main_v15 : FVec F S4096 .f32 := minimumf main_call0_v4 main_call0_v2
  let main_v16 : IVec S4096 32 := fptosi 32 main_v15
  let main_v19 : FVec F S4096 .f32 := sitofp .f32 main_v16
  let main_v20 : FVec F S4096 .f32 := subf main_v12 main_v19
  let main_v28 : FVec F S4096x1 .f32 := broadcastInDim S4096x1 ![0] bcast_S4096_S4096x1_0 main_v20
  let main_v5 : FVec F S4096x1 .f32 := (extractStridedSlice S4096x1 ![0, 3] · slices_S4096x6_S4096x1_0_3) main_arg3
  let main_v6 : FVec F S4096 .f32 := shapeCast S4096 main_v5 shapeCasts_S4096x1_S4096
  let main_cst_0 : FVec F S_ .f32 := constant S_ .f32 0x43200000#32
  kVals1_p2 (F := F) main_arg3 main_v28 main_v6 main_cst_0

/-- The batch index of every target. -/
def kB2 (main_arg3 : FVec F S4096x6 .f32) : IVec S4096 32 :=
  let main_v120 : FVec F S4096x1 .f32 := (extractStridedSlice S4096x1 ![0, 0] · slices_S4096x6_S4096x1_0_0) main_arg3
  let main_v121 : FVec F S4096 .f32 := shapeCast S4096 main_v120 shapeCasts_S4096x1_S4096
  let main_v122 : IVec S4096 32 := fptosi 32 main_v121
  main_v122

/-- The column of the cell of every target at this scale. -/
def kGI2 (main_arg3 : FVec F S4096x6 .f32) : IVec S4096 32 :=
  let main_c_40 : IVec S_ 32 := constantI S_ 32 79#32
  let main_call6_v3 : FVec F S_ .f32 := sitofp .f32 main_c_40
  let main_call6_v4 : FVec F S4096 .f32 := broadcastInDim S4096 ![] bcast_S_S4096 main_call6_v3
  let main_c_39 : IVec S_ 32 := constantI S_ 32 0#32
  let main_call6_v0 : FVec F S_ .f32 := sitofp .f32 main_c_39
  let main_call6_v1 : FVec F S4096 .f32 := broadcastInDim S4096 ![] bcast_S_S4096 main_call6_v0
  let main_v123 : FVec F S4096x1 .f32 := (extractStridedSlice S4096x1 ![0, 2] · slices_S4096x6_S4096x1_0_2) main_arg3
  let main_v124 : FVec F S4096 .f32 := shapeCast S4096 main_v123 shapeCasts_S4096x1_S4096
  let main_cst_37 : FVec F S_ .f32 := constant S_ .f32 0x42A00000#32
  let main_v131 : FVec F S4096 .f32 := broadcastInDim S4096 ![] bcast_S_S4096 main_cst_37
  let main_v132 : FVec F S4096 .f32 := mulf main_v124 main_v131
  let main_call6_v2 : FVec F S4096 .f32 := maximumf main_call6_v1 main_v132
  let main_v135 : FVec F S4096 .f32 := minimumf main_call6_v4 main_call6_v2
  let main_v136 : IVec S4096 32 := fptosi 32 main_v135
  main_v136

/-- The row of the cell of every target at this scale. -/
def kGJ2 (main_arg3 : FVec F S4096x6 .f32) : IVec S4096 32 :=
  let main_c_42 : IVec S_ 32 := constantI S_ 32 79#32
  let main_call7_v3 : FVec F S_ .f32 := sitofp .f32 main_c_42
  let main_call7_v4 : FVec F S4096 .f32 := broadcastInDim S4096 ![] bcast_S_S4096 main_call7_v3
  let main_c_41 : IVec S_ 32 := constantI S_ 32 0#32
  let main_call7_v0 : FVec F S_ .f32 := sitofp .f32 main_c_41
  let main_call7_v1 : FVec F S4096 .f32 := broadcastInDim S4096 ![] bcast_S_S4096 main_call7_v0
  let main_v125 : FVec F S4096x1 .f32 := (extractStridedSlice S4096x1 ![0, 3] · slices_S4096x6_S4096x1_0_3) main_arg3
  let main_v126 : FVec F S4096 .f32 := shapeCast S4096 main_v125 shapeCasts_S4096x1_S4096
  let main_cst_38 : FVec F S_ .f32 := constant S_ .f32 0x42A00000#32
  let main_v133 : FVec F S4096 .f32 := broadcastInDim S4096 ![] bcast_S_S4096 main_cst_38
  let main_v134 : FVec F S4096 .f32 := mulf main_v126 main_v133
  let main_call7_v2 : FVec F S4096 .f32 := maximumf main_call7_v1 main_v134
  let main_v137 : FVec F S4096 .f32 := minimumf main_call7_v4 main_call7_v2
  let main_v138 : IVec S4096 32 := fptosi 32 main_v137
  main_v138

/-- Part 3 of kVals2. -/
def kVals2_p3 (main_arg3 : FVec F S4096x6 .f32) (main_v148 : FVec F S4096x1 .f32) (main_v149 : FVec F S4096x1 .f32) (main_v150 : FVec F S4096x1 .f32) : FVec F S4096x5 .f32 :=
  let main_v129 : FVec F S4096x1 .f32 := (extractStridedSlice S4096x1 ![0, 5] · slices_S4096x6_S4096x1_0_5) main_arg3
  let main_v130 : FVec F S4096 .f32 := shapeCast S4096 main_v129 shapeCasts_S4096x1_S4096
  let main_cst_44 : FVec F S_ .f32 := constant S_ .f32 0x42A00000#32
  let main_v145 : FVec F S4096 .f32 := broadcastInDim S4096 ![] bcast_S_S4096 main_cst_44
  let main_v146 : FVec F S4096 .f32 := mulf main_v130 main_v145
  let main_v151 : FVec F S4096x1 .f32 := broadcastInDim S4096x1 ![0] bcast_S4096_S4096x1_0 main_v146
  let main_cst_45 : FVec F S_ .f32 := constant S_ .f32 0x3F800000#32
  let main_v147 : FVec F S4096 .f32 := broadcastInDim S4096 ![] bcast_S_S4096 main_cst_45
  let main_v152 : FVec F S4096x1 .f32 := broadcastInDim S4096x1 ![0] bcast_S4096_S4096x1_0 main_v147
  let main_v153 : FVec F S4096x5 .f32 := concatenate S4096x5 1 [⟨S4096x1, main_v148⟩, ⟨S4096x1, main_v149⟩, ⟨S4096x1, main_v150⟩, ⟨S4096x1, main_v151⟩, ⟨S4096x1, main_v152⟩] concatenates_S4096x1_S4096x1_S4096x1_S4096x1_S4096x1_S4096x5_d1
  main_v153

/-- Part 2 of kVals2. -/
def kVals2_p2 (main_arg3 : FVec F S4096x6 .f32) (main_v148 : FVec F S4096x1 .f32) (main_v126 : FVec F S4096 .f32) (main_cst_38 : FVec F S_ .f32) : FVec F S4096x5 .f32 :=
  let main_v133 : FVec F S4096 .f32 := broadcastInDim S4096 ![] bcast_S_S4096 main_cst_38
  let main_v134 : FVec F S4096 .f32 := mulf main_v126 main_v133
  let main_c_42 : IVec S_ 32 := constantI S_ 32 79#32
  let main_call7_v3 : FVec F S_ .f32 := sitofp .f32 main_c_42
  let main_call7_v4 : FVec F S4096 .f32 := broadcastInDim S4096 ![] bcast_S_S4096 main_call7_v3
  let main_c_41 : IVec S_ 32 := constantI S_ 32 0#32
  let main_call7_v0 : FVec F S_ .f32 := sitofp .f32 main_c_41
  let main_call7_v1 : FVec F S4096 .f32 := broadcastInDim S4096 ![] bcast_S_S4096 main_call7_v0
  let main_call7_v2 : FVec F S4096 .f32 := maximumf main_call7_v1 main_v134
  let main_v137 : FVec F S4096 .f32 := minimumf main_call7_v4 main_call7_v2
  let main_v138 : IVec S4096 32 := fptosi 32 main_v137
  let main_v141 : FVec F S4096 .f32 := sitofp .f32 main_v138
  let main_v142 : FVec F S4096 .f32 := subf main_v134 main_v141
  let main_v149 : FVec F S4096x1 .f32 := broadcastInDim S4096x1 ![0] bcast_S4096_S4096x1_0 main_v142
  let main_v127 : FVec F S4096x1 .f32 := (extractStridedSlice S4096x1 ![0, 4] · slices_S4096x6_S4096x1_0_4) main_arg3
  let main_v128 : FVec F S4096 .f32 := shapeCast S4096 main_v127 shapeCasts_S4096x1_S4096
  let main_cst_43 : FVec F S_ .f32 := constant S_ .f32 0x42A00000#32
  let main_v143 : FVec F S4096 .f32 := broadcastInDim S4096 ![] bcast_S_S4096 main_cst_43
  let main_v144 : FVec F S4096 .f32 := mulf main_v128 main_v143
  let main_v150 : FVec F S4096x1 .f32 := broadcastInDim S4096x1 ![0] bcast_S4096_S4096x1_0 main_v144
  kVals2_p3 (F := F) main_arg3 main_v148 main_v149 main_v150

/-- The five values written at the cell of every target at this scale. -/
def kVals2 (main_arg3 : FVec F S4096x6 .f32) : FVec F S4096x5 .f32 :=
  let main_v123 : FVec F S4096x1 .f32 := (extractStridedSlice S4096x1 ![0, 2] · slices_S4096x6_S4096x1_0_2) main_arg3
  let main_v124 : FVec F S4096 .f32 := shapeCast S4096 main_v123 shapeCasts_S4096x1_S4096
  let main_cst_37 : FVec F S_ .f32 := constant S_ .f32 0x42A00000#32
  let main_v131 : FVec F S4096 .f32 := broadcastInDim S4096 ![] bcast_S_S4096 main_cst_37
  let main_v132 : FVec F S4096 .f32 := mulf main_v124 main_v131
  let main_c_40 : IVec S_ 32 := constantI S_ 32 79#32
  let main_call6_v3 : FVec F S_ .f32 := sitofp .f32 main_c_40
  let main_call6_v4 : FVec F S4096 .f32 := broadcastInDim S4096 ![] bcast_S_S4096 main_call6_v3
  let main_c_39 : IVec S_ 32 := constantI S_ 32 0#32
  let main_call6_v0 : FVec F S_ .f32 := sitofp .f32 main_c_39
  let main_call6_v1 : FVec F S4096 .f32 := broadcastInDim S4096 ![] bcast_S_S4096 main_call6_v0
  let main_call6_v2 : FVec F S4096 .f32 := maximumf main_call6_v1 main_v132
  let main_v135 : FVec F S4096 .f32 := minimumf main_call6_v4 main_call6_v2
  let main_v136 : IVec S4096 32 := fptosi 32 main_v135
  let main_v139 : FVec F S4096 .f32 := sitofp .f32 main_v136
  let main_v140 : FVec F S4096 .f32 := subf main_v132 main_v139
  let main_v148 : FVec F S4096x1 .f32 := broadcastInDim S4096x1 ![0] bcast_S4096_S4096x1_0 main_v140
  let main_v125 : FVec F S4096x1 .f32 := (extractStridedSlice S4096x1 ![0, 3] · slices_S4096x6_S4096x1_0_3) main_arg3
  let main_v126 : FVec F S4096 .f32 := shapeCast S4096 main_v125 shapeCasts_S4096x1_S4096
  let main_cst_38 : FVec F S_ .f32 := constant S_ .f32 0x42A00000#32
  kVals2_p2 (F := F) main_arg3 main_v148 main_v126 main_cst_38

/-- The batch index of every target. -/
def kB3 (main_arg3 : FVec F S4096x6 .f32) : IVec S4096 32 :=
  let main_v240 : FVec F S4096x1 .f32 := (extractStridedSlice S4096x1 ![0, 0] · slices_S4096x6_S4096x1_0_0) main_arg3
  let main_v241 : FVec F S4096 .f32 := shapeCast S4096 main_v240 shapeCasts_S4096x1_S4096
  let main_v242 : IVec S4096 32 := fptosi 32 main_v241
  main_v242

/-- The column of the cell of every target at this scale. -/
def kGI3 (main_arg3 : FVec F S4096x6 .f32) : IVec S4096 32 :=
  let main_c_78 : IVec S_ 32 := constantI S_ 32 39#32
  let main_call12_v3 : FVec F S_ .f32 := sitofp .f32 main_c_78
  let main_call12_v4 : FVec F S4096 .f32 := broadcastInDim S4096 ![] bcast_S_S4096 main_call12_v3
  let main_c_77 : IVec S_ 32 := constantI S_ 32 0#32
  let main_call12_v0 : FVec F S_ .f32 := sitofp .f32 main_c_77
  let main_call12_v1 : FVec F S4096 .f32 := broadcastInDim S4096 ![] bcast_S_S4096 main_call12_v0
  let main_v243 : FVec F S4096x1 .f32 := (extractStridedSlice S4096x1 ![0, 2] · slices_S4096x6_S4096x1_0_2) main_arg3
  let main_v244 : FVec F S4096 .f32 := shapeCast S4096 main_v243 shapeCasts_S4096x1_S4096
  let main_cst_75 : FVec F S_ .f32 := constant S_ .f32 0x42200000#32
  let main_v251 : FVec F S4096 .f32 := broadcastInDim S4096 ![] bcast_S_S4096 main_cst_75
  let main_v252 : FVec F S4096 .f32 := mulf main_v244 main_v251
  let main_call12_v2 : FVec F S4096 .f32 := maximumf main_call12_v1 main_v252
  let main_v255 : FVec F S4096 .f32 := minimumf main_call12_v4 main_call12_v2
  let main_v256 : IVec S4096 32 := fptosi 32 main_v255
  main_v256

/-- The row of the cell of every target at this scale. -/
def kGJ3 (main_arg3 : FVec F S4096x6 .f32) : IVec S4096 32 :=
  let main_c_80 : IVec S_ 32 := constantI S_ 32 39#32
  let main_call13_v3 : FVec F S_ .f32 := sitofp .f32 main_c_80
  let main_call13_v4 : FVec F S4096 .f32 := broadcastInDim S4096 ![] bcast_S_S4096 main_call13_v3
  let main_c_79 : IVec S_ 32 := constantI S_ 32 0#32
  let main_call13_v0 : FVec F S_ .f32 := sitofp .f32 main_c_79
  let main_call13_v1 : FVec F S4096 .f32 := broadcastInDim S4096 ![] bcast_S_S4096 main_call13_v0
  let main_v245 : FVec F S4096x1 .f32 := (extractStridedSlice S4096x1 ![0, 3] · slices_S4096x6_S4096x1_0_3) main_arg3
  let main_v246 : FVec F S4096 .f32 := shapeCast S4096 main_v245 shapeCasts_S4096x1_S4096
  let main_cst_76 : FVec F S_ .f32 := constant S_ .f32 0x42200000#32
  let main_v253 : FVec F S4096 .f32 := broadcastInDim S4096 ![] bcast_S_S4096 main_cst_76
  let main_v254 : FVec F S4096 .f32 := mulf main_v246 main_v253
  let main_call13_v2 : FVec F S4096 .f32 := maximumf main_call13_v1 main_v254
  let main_v257 : FVec F S4096 .f32 := minimumf main_call13_v4 main_call13_v2
  let main_v258 : IVec S4096 32 := fptosi 32 main_v257
  main_v258

/-- Part 3 of kVals3. -/
def kVals3_p3 (main_arg3 : FVec F S4096x6 .f32) (main_v268 : FVec F S4096x1 .f32) (main_v269 : FVec F S4096x1 .f32) (main_v270 : FVec F S4096x1 .f32) : FVec F S4096x5 .f32 :=
  let main_v249 : FVec F S4096x1 .f32 := (extractStridedSlice S4096x1 ![0, 5] · slices_S4096x6_S4096x1_0_5) main_arg3
  let main_v250 : FVec F S4096 .f32 := shapeCast S4096 main_v249 shapeCasts_S4096x1_S4096
  let main_cst_82 : FVec F S_ .f32 := constant S_ .f32 0x42200000#32
  let main_v265 : FVec F S4096 .f32 := broadcastInDim S4096 ![] bcast_S_S4096 main_cst_82
  let main_v266 : FVec F S4096 .f32 := mulf main_v250 main_v265
  let main_v271 : FVec F S4096x1 .f32 := broadcastInDim S4096x1 ![0] bcast_S4096_S4096x1_0 main_v266
  let main_cst_83 : FVec F S_ .f32 := constant S_ .f32 0x3F800000#32
  let main_v267 : FVec F S4096 .f32 := broadcastInDim S4096 ![] bcast_S_S4096 main_cst_83
  let main_v272 : FVec F S4096x1 .f32 := broadcastInDim S4096x1 ![0] bcast_S4096_S4096x1_0 main_v267
  let main_v273 : FVec F S4096x5 .f32 := concatenate S4096x5 1 [⟨S4096x1, main_v268⟩, ⟨S4096x1, main_v269⟩, ⟨S4096x1, main_v270⟩, ⟨S4096x1, main_v271⟩, ⟨S4096x1, main_v272⟩] concatenates_S4096x1_S4096x1_S4096x1_S4096x1_S4096x1_S4096x5_d1
  main_v273

/-- Part 2 of kVals3. -/
def kVals3_p2 (main_arg3 : FVec F S4096x6 .f32) (main_v268 : FVec F S4096x1 .f32) (main_v246 : FVec F S4096 .f32) (main_cst_76 : FVec F S_ .f32) : FVec F S4096x5 .f32 :=
  let main_v253 : FVec F S4096 .f32 := broadcastInDim S4096 ![] bcast_S_S4096 main_cst_76
  let main_v254 : FVec F S4096 .f32 := mulf main_v246 main_v253
  let main_c_80 : IVec S_ 32 := constantI S_ 32 39#32
  let main_call13_v3 : FVec F S_ .f32 := sitofp .f32 main_c_80
  let main_call13_v4 : FVec F S4096 .f32 := broadcastInDim S4096 ![] bcast_S_S4096 main_call13_v3
  let main_c_79 : IVec S_ 32 := constantI S_ 32 0#32
  let main_call13_v0 : FVec F S_ .f32 := sitofp .f32 main_c_79
  let main_call13_v1 : FVec F S4096 .f32 := broadcastInDim S4096 ![] bcast_S_S4096 main_call13_v0
  let main_call13_v2 : FVec F S4096 .f32 := maximumf main_call13_v1 main_v254
  let main_v257 : FVec F S4096 .f32 := minimumf main_call13_v4 main_call13_v2
  let main_v258 : IVec S4096 32 := fptosi 32 main_v257
  let main_v261 : FVec F S4096 .f32 := sitofp .f32 main_v258
  let main_v262 : FVec F S4096 .f32 := subf main_v254 main_v261
  let main_v269 : FVec F S4096x1 .f32 := broadcastInDim S4096x1 ![0] bcast_S4096_S4096x1_0 main_v262
  let main_v247 : FVec F S4096x1 .f32 := (extractStridedSlice S4096x1 ![0, 4] · slices_S4096x6_S4096x1_0_4) main_arg3
  let main_v248 : FVec F S4096 .f32 := shapeCast S4096 main_v247 shapeCasts_S4096x1_S4096
  let main_cst_81 : FVec F S_ .f32 := constant S_ .f32 0x42200000#32
  let main_v263 : FVec F S4096 .f32 := broadcastInDim S4096 ![] bcast_S_S4096 main_cst_81
  let main_v264 : FVec F S4096 .f32 := mulf main_v248 main_v263
  let main_v270 : FVec F S4096x1 .f32 := broadcastInDim S4096x1 ![0] bcast_S4096_S4096x1_0 main_v264
  kVals3_p3 (F := F) main_arg3 main_v268 main_v269 main_v270

/-- The five values written at the cell of every target at this scale. -/
def kVals3 (main_arg3 : FVec F S4096x6 .f32) : FVec F S4096x5 .f32 :=
  let main_v243 : FVec F S4096x1 .f32 := (extractStridedSlice S4096x1 ![0, 2] · slices_S4096x6_S4096x1_0_2) main_arg3
  let main_v244 : FVec F S4096 .f32 := shapeCast S4096 main_v243 shapeCasts_S4096x1_S4096
  let main_cst_75 : FVec F S_ .f32 := constant S_ .f32 0x42200000#32
  let main_v251 : FVec F S4096 .f32 := broadcastInDim S4096 ![] bcast_S_S4096 main_cst_75
  let main_v252 : FVec F S4096 .f32 := mulf main_v244 main_v251
  let main_c_78 : IVec S_ 32 := constantI S_ 32 39#32
  let main_call12_v3 : FVec F S_ .f32 := sitofp .f32 main_c_78
  let main_call12_v4 : FVec F S4096 .f32 := broadcastInDim S4096 ![] bcast_S_S4096 main_call12_v3
  let main_c_77 : IVec S_ 32 := constantI S_ 32 0#32
  let main_call12_v0 : FVec F S_ .f32 := sitofp .f32 main_c_77
  let main_call12_v1 : FVec F S4096 .f32 := broadcastInDim S4096 ![] bcast_S_S4096 main_call12_v0
  let main_call12_v2 : FVec F S4096 .f32 := maximumf main_call12_v1 main_v252
  let main_v255 : FVec F S4096 .f32 := minimumf main_call12_v4 main_call12_v2
  let main_v256 : IVec S4096 32 := fptosi 32 main_v255
  let main_v259 : FVec F S4096 .f32 := sitofp .f32 main_v256
  let main_v260 : FVec F S4096 .f32 := subf main_v252 main_v259
  let main_v268 : FVec F S4096x1 .f32 := broadcastInDim S4096x1 ![0] bcast_S4096_S4096x1_0 main_v260
  let main_v245 : FVec F S4096x1 .f32 := (extractStridedSlice S4096x1 ![0, 3] · slices_S4096x6_S4096x1_0_3) main_arg3
  let main_v246 : FVec F S4096 .f32 := shapeCast S4096 main_v245 shapeCasts_S4096x1_S4096
  let main_cst_76 : FVec F S_ .f32 := constant S_ .f32 0x42200000#32
  kVals3_p2 (F := F) main_arg3 main_v268 main_v246 main_cst_76

/-- The lane-dense view (128, 5, 200, 128) of a (128, 5, 160, 160) array. -/
def kRs1 (main_arg0 : FVec F S128x5x160x160 .f32) : FVec F S128x5x200x128 .f32 :=
  let main_v80 : FVec F S128x5x200x128 .f32 := shapeCast S128x5x200x128 main_arg0 shapeCasts_S128x5x160x160_S128x5x200x128
  main_v80

/-- The lane-dense view (128, 5, 50, 128) of a (128, 5, 80, 80) array. -/
def kRs2 (main_arg1 : FVec F S128x5x80x80 .f32) : FVec F S128x5x50x128 .f32 :=
  let main_v200 : FVec F S128x5x50x128 .f32 := shapeCast S128x5x50x128 main_arg1 shapeCasts_S128x5x80x80_S128x5x50x128
  main_v200

/-- Lane 0 of the sum of the two halves of a (1, 256) row. -/
def kLane0 (main_v82 : FVec F S1x256 .f32) : FVec F S_ .f32 :=
  let main_v83 : FVec F S1x128 .f32 := (extractStridedSlice S1x128 ![0, 0] · slices_S1x256_S1x128_0_0) main_v82
  let main_v84 : FVec F S128 .f32 := shapeCast S128 main_v83 shapeCasts_S1x128_S128
  let main_v85 : FVec F S1x128 .f32 := (extractStridedSlice S1x128 ![0, 128] · slices_S1x256_S1x128_0_128) main_v82
  let main_v86 : FVec F S128 .f32 := shapeCast S128 main_v85 shapeCasts_S1x128_S128
  let main_v87 : FVec F S128 .f32 := addf main_v84 main_v86
  let main_v88 : FVec F S1 .f32 := (extractStridedSlice S1 ![0] · slices_S128_S1_0) main_v87
  let main_v89 : FVec F S_ .f32 := shapeCast S_ main_v88 shapeCasts_S1_S_
  main_v89

/-- Lane 1 of the sum of the two halves of a (1, 256) row. -/
def kLane1 (main_v82 : FVec F S1x256 .f32) : FVec F S_ .f32 :=
  let main_v83 : FVec F S1x128 .f32 := (extractStridedSlice S1x128 ![0, 0] · slices_S1x256_S1x128_0_0) main_v82
  let main_v84 : FVec F S128 .f32 := shapeCast S128 main_v83 shapeCasts_S1x128_S128
  let main_v85 : FVec F S1x128 .f32 := (extractStridedSlice S1x128 ![0, 128] · slices_S1x256_S1x128_0_128) main_v82
  let main_v86 : FVec F S128 .f32 := shapeCast S128 main_v85 shapeCasts_S1x128_S128
  let main_v87 : FVec F S128 .f32 := addf main_v84 main_v86
  let main_v90 : FVec F S1 .f32 := (extractStridedSlice S1 ![1] · slices_S128_S1_1) main_v87
  let main_v91 : FVec F S_ .f32 := shapeCast S_ main_v90 shapeCasts_S1_S_
  main_v91

/-- Lane 2 of the sum of the two halves of a (1, 256) row. -/
def kLane2 (main_v82 : FVec F S1x256 .f32) : FVec F S_ .f32 :=
  let main_v83 : FVec F S1x128 .f32 := (extractStridedSlice S1x128 ![0, 0] · slices_S1x256_S1x128_0_0) main_v82
  let main_v84 : FVec F S128 .f32 := shapeCast S128 main_v83 shapeCasts_S1x128_S128
  let main_v85 : FVec F S1x128 .f32 := (extractStridedSlice S1x128 ![0, 128] · slices_S1x256_S1x128_0_128) main_v82
  let main_v86 : FVec F S128 .f32 := shapeCast S128 main_v85 shapeCasts_S1x128_S128
  let main_v87 : FVec F S128 .f32 := addf main_v84 main_v86
  let main_v92 : FVec F S1 .f32 := (extractStridedSlice S1 ![2] · slices_S128_S1_2) main_v87
  let main_v93 : FVec F S_ .f32 := shapeCast S_ main_v92 shapeCasts_S1_S_
  main_v93

/-- Lane 3 of the sum of the two halves of a (1, 256) row. -/
def kLane3 (main_v82 : FVec F S1x256 .f32) : FVec F S_ .f32 :=
  let main_v83 : FVec F S1x128 .f32 := (extractStridedSlice S1x128 ![0, 0] · slices_S1x256_S1x128_0_0) main_v82
  let main_v84 : FVec F S128 .f32 := shapeCast S128 main_v83 shapeCasts_S1x128_S128
  let main_v85 : FVec F S1x128 .f32 := (extractStridedSlice S1x128 ![0, 128] · slices_S1x256_S1x128_0_128) main_v82
  let main_v86 : FVec F S128 .f32 := shapeCast S128 main_v85 shapeCasts_S1x128_S128
  let main_v87 : FVec F S128 .f32 := addf main_v84 main_v86
  let main_v94 : FVec F S1 .f32 := (extractStridedSlice S1 ![3] · slices_S128_S1_3) main_v87
  let main_v95 : FVec F S_ .f32 := shapeCast S_ main_v94 shapeCasts_S1_S_
  main_v95

/-- Lane 4 of the sum of the two halves of a (1, 256) row. -/
def kLane4 (main_v82 : FVec F S1x256 .f32) : FVec F S_ .f32 :=
  let main_v83 : FVec F S1x128 .f32 := (extractStridedSlice S1x128 ![0, 0] · slices_S1x256_S1x128_0_0) main_v82
  let main_v84 : FVec F S128 .f32 := shapeCast S128 main_v83 shapeCasts_S1x128_S128
  let main_v85 : FVec F S1x128 .f32 := (extractStridedSlice S1x128 ![0, 128] · slices_S1x256_S1x128_0_128) main_v82
  let main_v86 : FVec F S128 .f32 := shapeCast S128 main_v85 shapeCasts_S1x128_S128
  let main_v87 : FVec F S128 .f32 := addf main_v84 main_v86
  let main_v96 : FVec F S1 .f32 := (extractStridedSlice S1 ![4] · slices_S128_S1_4) main_v87
  let main_v97 : FVec F S_ .f32 := shapeCast S_ main_v96 shapeCasts_S1_S_
  main_v97

/-- Part 2 of kTail1. -/
def kTail1_p2 (main_v93 : FVec F S_ .f32) (main_v95 : FVec F S_ .f32) (main_v97 : FVec F S_ .f32) (main_v118 : FVec F S_ .f32) (main_v108 : IVec S_ 1) (main_v106 : FVec F S_ .f32) : FVec F S_ .f32 :=
  let main_v107 : FVec F S_ .f32 := Host.divf main_v95 main_v106
  let main_cst_29 : FVec F S_ .f32 := constant S_ .f32 0x00000000#32
  let main_call4_v0 : FVec F S_ .f32 := id main_cst_29
  let main_v109 : FVec F S_ .f32 := select main_v108 main_v107 main_call4_v0
  let main_cst_34 : FVec F S_ .f32 := constant S_ .f32 0x3D4CCCCD#32
  let main_cst_30 : FVec F S_ .f32 := constant S_ .f32 0x4A480000#32
  let main_v110 : FVec F S_ .f32 := subf main_cst_30 main_v93
  let main_cst_32 : FVec F S_ .f32 := constant S_ .f32 0x00000000#32
  let main_v113 : IVec S_ 1 := cmpf .ogt main_v110 main_cst_32
  let main_cst_31 : FVec F S_ .f32 := constant S_ .f32 0x3F800000#32
  let main_v111 : FVec F S_ .f32 := maximumf main_v110 main_cst_31
  let main_v112 : FVec F S_ .f32 := Host.divf main_v97 main_v111
  let main_cst_33 : FVec F S_ .f32 := constant S_ .f32 0x00000000#32
  let main_call5_v0 : FVec F S_ .f32 := id main_cst_33
  let main_v114 : FVec F S_ .f32 := select main_v113 main_v112 main_call5_v0
  let main_v115 : FVec F S_ .f32 := mulf main_cst_34 main_v114
  let main_v116 : FVec F S_ .f32 := addf main_v109 main_v115
  let main_cst_35 : FVec F S_ .f32 := constant S_ .f32 0x3F800000#32
  let main_v117 : FVec F S_ .f32 := mulf main_v116 main_cst_35
  let main_v119 : FVec F S_ .f32 := addf main_v118 main_v117
  main_v119

/-- The running total after one scale, from the total before it and the five sums of the scale. -/
def kTail1 (main_v89 : FVec F S_ .f32) (main_v91 : FVec F S_ .f32) (main_v93 : FVec F S_ .f32) (main_v95 : FVec F S_ .f32) (main_v97 : FVec F S_ .f32) : FVec F S_ .f32 :=
  let main_cst_36 : FVec F S_ .f32 := constant S_ .f32 0x00000000#32
  let main_cst_24 : FVec F S_ .f32 := constant S_ .f32 0x00000000#32
  let main_v102 : IVec S_ 1 := cmpf .ogt main_v93 main_cst_24
  let main_cst_22 : FVec F S_ .f32 := constant S_ .f32 0x3F800000#32
  let main_v98 : FVec F S_ .f32 := maximumf main_v93 main_cst_22
  let main_cst_23 : FVec F S_ .f32 := constant S_ .f32 0x40000000#32
  let main_v99 : FVec F S_ .f32 := mulf main_v98 main_cst_23
  let main_v100 : FVec F S_ .f32 := Host.divf main_v89 main_v99
  let main_v101 : FVec F S_ .f32 := Host.divf main_v91 main_v99
  let main_v103 : FVec F S_ .f32 := addf main_v100 main_v101
  let main_cst_25 : FVec F S_ .f32 := constant S_ .f32 0x00000000#32
  let main_call3_v0 : FVec F S_ .f32 := id main_cst_25
  let main_v104 : FVec F S_ .f32 := select main_v102 main_v103 main_call3_v0
  let main_cst_26 : FVec F S_ .f32 := constant S_ .f32 0x40F00000#32
  let main_v105 : FVec F S_ .f32 := mulf main_v104 main_cst_26
  let main_v118 : FVec F S_ .f32 := addf main_cst_36 main_v105
  let main_cst_28 : FVec F S_ .f32 := constant S_ .f32 0x00000000#32
  let main_v108 : IVec S_ 1 := cmpf .ogt main_v93 main_cst_28
  let main_cst_27 : FVec F S_ .f32 := constant S_ .f32 0x3F800000#32
  let main_v106 : FVec F S_ .f32 := maximumf main_v93 main_cst_27
  kTail1_p2 (F := F) main_v93 main_v95 main_v97 main_v118 main_v108 main_v106

/-- Part 2 of kTail2. -/
def kTail2_p2 (main_v213 : FVec F S_ .f32) (main_v217 : FVec F S_ .f32) (main_v238 : FVec F S_ .f32) (main_v228 : IVec S_ 1) (main_v227 : FVec F S_ .f32) : FVec F S_ .f32 :=
  let main_cst_68 : FVec F S_ .f32 := constant S_ .f32 0x00000000#32
  let main_call10_v0 : FVec F S_ .f32 := id main_cst_68
  let main_v229 : FVec F S_ .f32 := select main_v228 main_v227 main_call10_v0
  let main_cst_73 : FVec F S_ .f32 := constant S_ .f32 0x3D4CCCCD#32
  let main_cst_69 : FVec F S_ .f32 := constant S_ .f32 0x49480000#32
  let main_v230 : FVec F S_ .f32 := subf main_cst_69 main_v213
  let main_cst_71 : FVec F S_ .f32 := constant S_ .f32 0x00000000#32
  let main_v233 : IVec S_ 1 := cmpf .ogt main_v230 main_cst_71
  let main_cst_70 : FVec F S_ .f32 := constant S_ .f32 0x3F800000#32
  let main_v231 : FVec F S_ .f32 := maximumf main_v230 main_cst_70
  let main_v232 : FVec F S_ .f32 := Host.divf main_v217 main_v231
  let main_cst_72 : FVec F S_ .f32 := constant S_ .f32 0x00000000#32
  let main_call11_v0 : FVec F S_ .f32 := id main_cst_72
  let main_v234 : FVec F S_ .f32 := select main_v233 main_v232 main_call11_v0
  let main_v235 : FVec F S_ .f32 := mulf main_cst_73 main_v234
  let main_v236 : FVec F S_ .f32 := addf main_v229 main_v235
  let main_cst_74 : FVec F S_ .f32 := constant S_ .f32 0x3F800000#32
  let main_v237 : FVec F S_ .f32 := mulf main_v236 main_cst_74
  let main_v239 : FVec F S_ .f32 := addf main_v238 main_v237
  main_v239

/-- The running total after one scale, from the total before it and the five sums of the scale. -/
def kTail2 (main_v119 : FVec F S_ .f32) (main_v209 : FVec F S_ .f32) (main_v211 : FVec F S_ .f32) (main_v213 : FVec F S_ .f32) (main_v215 : FVec F S_ .f32) (main_v217 : FVec F S_ .f32) : FVec F S_ .f32 :=
  let main_cst_63 : FVec F S_ .f32 := constant S_ .f32 0x00000000#32
  let main_v222 : IVec S_ 1 := cmpf .ogt main_v213 main_cst_63
  let main_cst_61 : FVec F S_ .f32 := constant S_ .f32 0x3F800000#32
  let main_v218 : FVec F S_ .f32 := maximumf main_v213 main_cst_61
  let main_cst_62 : FVec F S_ .f32 := constant S_ .f32 0x40000000#32
  let main_v219 : FVec F S_ .f32 := mulf main_v218 main_cst_62
  let main_v220 : FVec F S_ .f32 := Host.divf main_v209 main_v219
  let main_v221 : FVec F S_ .f32 := Host.divf main_v211 main_v219
  let main_v223 : FVec F S_ .f32 := addf main_v220 main_v221
  let main_cst_64 : FVec F S_ .f32 := constant S_ .f32 0x00000000#32
  let main_call9_v0 : FVec F S_ .f32 := id main_cst_64
  let main_v224 : FVec F S_ .f32 := select main_v222 main_v223 main_call9_v0
  let main_cst_65 : FVec F S_ .f32 := constant S_ .f32 0x40F00000#32
  let main_v225 : FVec F S_ .f32 := mulf main_v224 main_cst_65
  let main_v238 : FVec F S_ .f32 := addf main_v119 main_v225
  let main_cst_67 : FVec F S_ .f32 := constant S_ .f32 0x00000000#32
  let main_v228 : IVec S_ 1 := cmpf .ogt main_v213 main_cst_67
  let main_cst_66 : FVec F S_ .f32 := constant S_ .f32 0x3F800000#32
  let main_v226 : FVec F S_ .f32 := maximumf main_v213 main_cst_66
  let main_v227 : FVec F S_ .f32 := Host.divf main_v215 main_v226
  kTail2_p2 (F := F) main_v213 main_v217 main_v238 main_v228 main_v227

/-- Part 2 of kTail3. -/
def kTail3_p2 (main_v331 : FVec F S_ .f32) (main_v335 : FVec F S_ .f32) (main_v356 : FVec F S_ .f32) (main_v346 : IVec S_ 1) (main_v345 : FVec F S_ .f32) : FVec F S_ .f32 :=
  let main_cst_106 : FVec F S_ .f32 := constant S_ .f32 0x00000000#32
  let main_call16_v0 : FVec F S_ .f32 := id main_cst_106
  let main_v347 : FVec F S_ .f32 := select main_v346 main_v345 main_call16_v0
  let main_cst_111 : FVec F S_ .f32 := constant S_ .f32 0x3D4CCCCD#32
  let main_cst_107 : FVec F S_ .f32 := constant S_ .f32 0x48480000#32
  let main_v348 : FVec F S_ .f32 := subf main_cst_107 main_v331
  let main_cst_109 : FVec F S_ .f32 := constant S_ .f32 0x00000000#32
  let main_v351 : IVec S_ 1 := cmpf .ogt main_v348 main_cst_109
  let main_cst_108 : FVec F S_ .f32 := constant S_ .f32 0x3F800000#32
  let main_v349 : FVec F S_ .f32 := maximumf main_v348 main_cst_108
  let main_v350 : FVec F S_ .f32 := Host.divf main_v335 main_v349
  let main_cst_110 : FVec F S_ .f32 := constant S_ .f32 0x00000000#32
  let main_call17_v0 : FVec F S_ .f32 := id main_cst_110
  let main_v352 : FVec F S_ .f32 := select main_v351 main_v350 main_call17_v0
  let main_v353 : FVec F S_ .f32 := mulf main_cst_111 main_v352
  let main_v354 : FVec F S_ .f32 := addf main_v347 main_v353
  let main_cst_112 : FVec F S_ .f32 := constant S_ .f32 0x3F800000#32
  let main_v355 : FVec F S_ .f32 := mulf main_v354 main_cst_112
  let main_v357 : FVec F S_ .f32 := addf main_v356 main_v355
  main_v357

/-- The running total after one scale, from the total before it and the five sums of the scale. -/
def kTail3 (main_v239 : FVec F S_ .f32) (main_v327 : FVec F S_ .f32) (main_v329 : FVec F S_ .f32) (main_v331 : FVec F S_ .f32) (main_v333 : FVec F S_ .f32) (main_v335 : FVec F S_ .f32) : FVec F S_ .f32 :=
  let main_cst_101 : FVec F S_ .f32 := constant S_ .f32 0x00000000#32
  let main_v340 : IVec S_ 1 := cmpf .ogt main_v331 main_cst_101
  let main_cst_99 : FVec F S_ .f32 := constant S_ .f32 0x3F800000#32
  let main_v336 : FVec F S_ .f32 := maximumf main_v331 main_cst_99
  let main_cst_100 : FVec F S_ .f32 := constant S_ .f32 0x40000000#32
  let main_v337 : FVec F S_ .f32 := mulf main_v336 main_cst_100
  let main_v338 : FVec F S_ .f32 := Host.divf main_v327 main_v337
  let main_v339 : FVec F S_ .f32 := Host.divf main_v329 main_v337
  let main_v341 : FVec F S_ .f32 := addf main_v338 main_v339
  let main_cst_102 : FVec F S_ .f32 := constant S_ .f32 0x00000000#32
  let main_call15_v0 : FVec F S_ .f32 := id main_cst_102
  let main_v342 : FVec F S_ .f32 := select main_v340 main_v341 main_call15_v0
  let main_cst_103 : FVec F S_ .f32 := constant S_ .f32 0x41100000#32
  let main_v343 : FVec F S_ .f32 := mulf main_v342 main_cst_103
  let main_v356 : FVec F S_ .f32 := addf main_v239 main_v343
  let main_cst_105 : FVec F S_ .f32 := constant S_ .f32 0x00000000#32
  let main_v346 : IVec S_ 1 := cmpf .ogt main_v331 main_cst_105
  let main_cst_104 : FVec F S_ .f32 := constant S_ .f32 0x3F800000#32
  let main_v344 : FVec F S_ .f32 := maximumf main_v331 main_cst_104
  let main_v345 : FVec F S_ .f32 := Host.divf main_v333 main_v344
  kTail3_p2 (F := F) main_v331 main_v335 main_v356 main_v346 main_v345

end Cert.KernelIdeal.Hand

end
-- ==== Proof.LibScatterSet.lean ====
import Idealize.ShloMosaic.PureOps

namespace Idealize.ShloMosaic.ScatterSet
open Idealize.ShloMosaic

private theorem foldl_step_of_no_hit {ι I α : Type}
    (tgt : ι → Option I) (step : (I → α) → ι → (I → α))
    (hnone : ∀ r n, tgt n = none → step r n = r)
    (hother : ∀ r n i k, tgt n = some i → k ≠ i → step r n k = r k)
    (i' : I) (L : List ι) :
    ∀ r : I → α, (∀ n ∈ L, tgt n ≠ some i') → L.foldl step r i' = r i' := by
  induction L with
  | nil => intro r _; rfl
  | cons n L ih =>
    intro r h
    rw [List.foldl_cons, ih _ (fun m hm => h m (List.mem_cons_of_mem _ hm))]
    have hn : tgt n ≠ some i' := h n (List.mem_cons_self ..)
    cases htn : tgt n with
    | none => rw [hnone r n htn]
    | some i =>
      have hne : i' ≠ i := fun e => hn (by rw [htn, e])
      exact hother r n i i' htn hne

private theorem foldl_set_of_hits_agree {ι I α : Type}
    (tgt : ι → Option I) (val : ι → α) (step : (I → α) → ι → (I → α))
    (hnone : ∀ r n, tgt n = none → step r n = r)
    (hsame : ∀ r n i, tgt n = some i → step r n i = val n)
    (hother : ∀ r n i k, tgt n = some i → k ≠ i → step r n k = r k)
    (i' : I) (v : α) (L : List ι) :
    ∀ r : I → α, (∀ n ∈ L, tgt n = some i' → val n = v) →
      (r i' = v ∨ ∃ n ∈ L, tgt n = some i') → L.foldl step r i' = v := by
  induction L with
  | nil =>
    intro r _ h
    rcases h with h | ⟨n, hn, _⟩
    · exact h
    · cases hn
  | cons n L ih =>
    intro r hall h
    rw [List.foldl_cons]
    refine ih _ (fun m hm => hall m (List.mem_cons_of_mem _ hm)) ?_
    by_cases htn : tgt n = some i'
    · left
      rw [hsame r n i' htn]
      exact hall n (List.mem_cons_self ..) htn
    · rcases h with h | ⟨m, hm, hmt⟩
      · left
        cases htn' : tgt n with
        | none => rw [hnone r n htn']; exact h
        | some i =>
          have hne : i' ≠ i := fun e => htn (by rw [htn', e])
          rw [hother r n i i' htn' hne]; exact h
      · right
        rcases List.mem_cons.1 hm with rfl | hm'
        · exact absurd hmt htn
        · exact ⟨m, hm', hmt⟩

theorem scatter_set_of_no_hit {α : Type} {s si u : Shape} {w : Nat}
    (d : ScatterDims s si u) (x : s.Idx → α) (idx : IVec si w) (upd : u.Idx → α) (i' : s.Idx)
    (h : ∀ j : u.Idx, d.resultIdx? j idx ≠ some i') :
    Host.scatter d (fun _ b => b) x idx upd i' = x i' := by
  unfold Host.scatter
  refine foldl_step_of_no_hit (fun n => d.resultIdx? (u.rowMajor.symm n) idx) _ ?_ ?_ i'
    (List.finRange u.numel) x (fun n _ => h (u.rowMajor.symm n))
  · intro r n hn
    simp only [hn]
  · intro r n i k hn hk
    simp only [hn, if_neg hk]

theorem scatter_set_of_hits_agree {α : Type} {s si u : Shape} {w : Nat}
    (d : ScatterDims s si u) (x : s.Idx → α) (idx : IVec si w) (upd : u.Idx → α) (i' : s.Idx)
    (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_set_of_hits_agree (fun n => d.resultIdx? (u.rowMajor.symm n) idx)
    (fun n => upd (u.rowMajor.symm n)) _ ?_ ?_ ?_ i' v (List.finRange u.numel) x
    (fun n _ => hall (u.rowMajor.symm n)) (Or.inr ?_)
  · intro r n hn
    simp only [hn]
  · intro r n i hn
    simp only [hn, if_true]
  · intro r n i k hn hk
    simp only [hn, if_neg hk]
  · obtain ⟨j, hj⟩ := hex
    exact ⟨u.rowMajor j, List.mem_finRange _, by simpa using hj⟩

end Idealize.ShloMosaic.ScatterSet
-- ==== Proof.LibScatterLast.lean ====
import Idealize.ShloMosaic.PureOps

namespace Idealize.ShloMosaic.ScatterLast
open Idealize.ShloMosaic

theorem foldl_step_of_no_hit {ι I α : Type}
    (tgt : ι → Option I) (step : (I → α) → ι → (I → α))
    (hnone : ∀ r n, tgt n = none → step r n = r)
    (hother : ∀ r n i k, tgt n = some i → k ≠ i → step r n k = r k)
    (i' : I) (L : List ι) :
    ∀ r : I → α, (∀ n ∈ L, tgt n ≠ some i') → L.foldl step r i' = r i' := by
  induction L with
  | nil => intro r _; rfl
  | cons n L ih =>
    intro r h
    rw [List.foldl_cons, ih _ (fun m hm => h m (List.mem_cons_of_mem _ hm))]
    have hn : tgt n ≠ some i' := h n (List.mem_cons_self ..)
    cases htn : tgt n with
    | none => rw [hnone r n htn]
    | some i =>
      have hne : i' ≠ i := fun e => hn (by rw [htn, e])
      exact hother r n i i' htn hne

theorem foldl_set_last {ι I α : Type} (lt : ι → ι → Prop)
    (tgt : ι → Option I) (val : ι → α) (step : (I → α) → ι → (I → α))
    (hnone : ∀ r n, tgt n = none → step r n = r)
    (hsame : ∀ r n i, tgt n = some i → step r n i = val n)
    (hother : ∀ r n i k, tgt n = some i → k ≠ i → step r n k = r k)
    (i' : I) (n : ι) (hn : tgt n = some i') (L : List ι) :
    ∀ r : I → α, L.Pairwise lt → n ∈ L → (∀ m ∈ L, lt n m → tgt m ≠ some i') →
      L.foldl step r i' = val n := by
  induction L with
  | nil => intro r _ hmem; cases hmem
  | cons a L ih =>
    intro r hp hmem hlast
    rw [List.foldl_cons]
    rw [List.pairwise_cons] at hp
    rcases List.mem_cons.1 hmem with rfl | hmem'
    · rw [foldl_step_of_no_hit tgt step hnone hother i' L _
        (fun m hm => hlast m (List.mem_cons_of_mem _ hm) (hp.1 m hm))]
      exact hsame r n i' hn
    · exact ih _ hp.2 hmem' (fun m hm => hlast m (List.mem_cons_of_mem _ hm))

theorem scatter_set_last_pos {α : Type} {s si u : Shape} {w : Nat}
    (d : ScatterDims s si u) (x : s.Idx → α) (idx : IVec si w) (upd : u.Idx → α) (i' : s.Idx)
    (n : Fin u.numel)
    (hj : d.resultIdx? (u.rowMajor.symm n) idx = some i')
    (hlast : ∀ n' : Fin u.numel, n < n' → d.resultIdx? (u.rowMajor.symm n') idx ≠ some i') :
    Host.scatter d (fun _ b => b) x idx upd i' = upd (u.rowMajor.symm n) := by
  unfold Host.scatter
  refine foldl_set_last (· < ·) (fun n => d.resultIdx? (u.rowMajor.symm n) idx)
    (fun n => upd (u.rowMajor.symm n)) _ ?_ ?_ ?_ i' n hj (List.finRange u.numel) x
    (List.pairwise_lt_finRange _) (List.mem_finRange _) (fun m _ hm => hlast m hm)
  · intro r n hn
    simp only [hn]
  · intro r n i hn
    simp only [hn, if_true]
  · intro r n i k hn hk
    simp only [hn, if_neg hk]

theorem scatter_set_last {α : Type} {s si u : Shape} {w : Nat}
    (d : ScatterDims s si u) (x : s.Idx → α) (idx : IVec si w) (upd : u.Idx → α) (i' : s.Idx)
    (j : u.Idx)
    (hj : d.resultIdx? j idx = some i')
    (hlast : ∀ j' : u.Idx, u.rowMajor j < u.rowMajor j' → d.resultIdx? j' idx ≠ some i') :
    Host.scatter d (fun _ b => b) x idx upd i' = upd j := by
  have h := scatter_set_last_pos d x idx upd i' (u.rowMajor j)
    (by rw [Equiv.symm_apply_apply]; exact hj)
    (fun n' hn' => hlast (u.rowMajor.symm n') (by rw [Equiv.apply_symm_apply]; exact hn'))
  rw [Equiv.symm_apply_apply] at h
  exact h

theorem scatter_set_of_unique_hit {α : Type} {s si u : Shape} {w : Nat}
    (d : ScatterDims s si u) (x : s.Idx → α) (idx : IVec si w) (upd : u.Idx → α) (i' : s.Idx)
    (j : u.Idx)
    (hj : d.resultIdx? j idx = some i')
    (huniq : ∀ j' : u.Idx, d.resultIdx? j' idx = some i' → j' = j) :
    Host.scatter d (fun _ b => b) x idx upd i' = upd j :=
  scatter_set_last d x idx upd i' j hj (fun j' hlt hhit => by
    rw [huniq j' hhit] at hlt; exact lt_irrefl _ hlt)

end Idealize.ShloMosaic.ScatterLast
-- ==== Proof.LibDedupe.lean ====
import Idealize.ShloMosaic.PureOps
import Mathlib.Data.Finset.Max
import proofs.«409303_j18760417149025_3_alg».proof.Proof.LibScatterSet
import proofs.«409303_j18760417149025_3_alg».proof.Proof.LibScatterLast

namespace Idealize.ShloMosaic.Dedupe
open Idealize.ShloMosaic

theorem resultIdx?_eq_some_iff {s si u : Shape} {w : Nat} (d : ScatterDims s si u) (j : u.Idx)
    (idx : IVec si w) (i : s.Idx) :
    d.resultIdx? j idx = some i ↔
      ∀ a, d.start j idx a + (d.window j a : Int) = ((i a).val : Int) := by
  unfold ScatterDims.resultIdx?
  constructor
  · intro h a
    split at h
    · rename_i hb
      have e := Option.some.inj h
      rw [← e]
      exact (Int.toNat_of_nonneg (hb a).1).symm
    · cases h
  · intro h
    have hb : ∀ a, 0 ≤ d.start j idx a + (d.window j a : Int) ∧
        d.start j idx a + (d.window j a : Int) < s.size a := by
      intro a; rw [h a]; exact ⟨Int.natCast_nonneg _, by exact_mod_cast (i a).isLt⟩
    rw [dif_pos hb]
    congr 1
    funext a
    apply Fin.ext
    show (d.start j idx a + (d.window j a : Int)).toNat = (i a).val
    rw [h a]; rfl

def k1 {K : Nat} (n : Fin K) : (⟨1, ![K]⟩ : Shape).Idx := fun a =>
  ⟨n.val, by
    rcases a with ⟨_ | a, ha⟩
    · exact n.isLt
    · exact absurd ha (by simp)⟩

theorem k1_eta {K : Nat} (k : (⟨1, ![K]⟩ : Shape).Idx) : k1 (k 0) = k := by
  funext a; apply Fin.ext
  rcases a with ⟨_ | a, ha⟩
  · rfl
  · exact absurd ha (by simp)

theorem exists_last {K : Nat} (P : Fin K → Prop) (h : ∃ k, P k) :
    ∃ k, P k ∧ ∀ k', k < k' → ¬ P k' := by
  classical
  obtain ⟨k, hk⟩ := h
  obtain ⟨m, hm, hmax⟩ := Finset.exists_max_image (Finset.univ.filter P) id ⟨k, by simp [hk]⟩
  refine ⟨m, (Finset.mem_filter.1 hm).2, fun k' hlt hP => ?_⟩
  have := hmax k' (by simp [hP])
  exact absurd hlt (not_lt.2 this)

theorem winner_eq_iff {β : Type} {K : Nat} {sW siW : Shape} {w : Nat}
    (dW : ScatterDims sW siW ⟨1, ![K]⟩) (idxW : IVec siW w) (x : sW.Idx → β)
    (upd : (⟨1, ![K]⟩ : Shape).Idx → β) (hupd : Function.Injective upd)
    (cell : Fin K → sW.Idx)
    (hW : ∀ k : (⟨1, ![K]⟩ : Shape).Idx, dW.resultIdx? k idxW = some (cell (k 0)))
    (n : Fin K) :
    Host.scatter dW (fun _ b => b) x idxW upd (cell n) = upd (k1 n) ↔
      ∀ n', n < n' → cell n' ≠ cell n := by
  obtain ⟨m, hm, hmax⟩ := exists_last (fun n' => cell n' = cell n) ⟨n, rfl⟩
  have hval : Host.scatter dW (fun _ b => b) x idxW upd (cell n) = upd (k1 m) := by
    refine ScatterLast.scatter_set_last dW x idxW upd (cell n) (k1 m) ?_ ?_
    · rw [hW]; exact congrArg some hm
    · intro k' hlt hhit
      rw [hW] at hhit
      refine hmax (k' 0) ?_ (Option.some.inj hhit)
      have h1 := Shape.rowMajor_val_one (k1 m)
      have h2 := Shape.rowMajor_val_one k'
      rw [Fin.lt_def, h1, h2] at hlt
      exact Fin.lt_def.2 hlt
  rw [hval]
  constructor
  · intro e n' hlt hc
    have hmn : m = n := congrArg (fun k => k 0) (hupd e)
    rw [hmn] at hmax
    exact hmax n' hlt hc
  · intro h
    have hmn : m = n := by
      by_contra hne
      rcases lt_or_gt_of_ne hne with hlt | hgt
      · exact hmax n hlt rfl
      · exact h m hgt hm
    rw [hmn]

theorem scatter_dedupe_eq {α Key : Type} {K C : Nat} {sR siR sK siK : Shape} {w w' : Nat}
    (dR : ScatterDims sR siR ⟨2, ![K, C]⟩) (dK : ScatterDims sK siK ⟨2, ![K, C]⟩)
    (idxR : IVec siR w) (idxK : IVec siK w')
    (xR : sR.Idx → α) (xK : sK.Idx → α) (upd : (⟨2, ![K, C]⟩ : Shape).Idx → α)
    (key : Fin K → Key) (win : Fin K → Prop)
    (hwin : ∀ n, win n ↔ ∀ n', n < n' → key n' ≠ key n)
    (keyR : sR.Idx → Key) (colR : sR.Idx → Fin C) (keyK : sK.Idx → Key) (colK : sK.Idx → Fin C)
    (hR : ∀ j i, dR.resultIdx? j idxR = some i ↔ key (j 0) = keyR i ∧ j 1 = colR i)
    (hK : ∀ j i, dK.resultIdx? j idxK = some i ↔ win (j 0) ∧ key (j 0) = keyK i ∧ j 1 = colK i)
    (i : sR.Idx) (i' : sK.Idx) (hkey : keyR i = keyK i') (hcol : colR i = colK i')
    (hx : xR i = xK i') :
    Host.scatter dR (fun _ b => b) xR idxR upd i = Host.scatter dK (fun _ b => b) xK idxK upd i' := by
  by_cases hex : ∃ n, key n = keyR i
  · obtain ⟨m, hm, hmax⟩ := exists_last (fun n => key n = keyR i) hex
    have hR' : Host.scatter dR (fun _ b => b) xR idxR upd i
        = upd (Shape.pair (d := ![K, C]) m (colR i)) := by
      refine ScatterLast.scatter_set_last dR xR idxR upd i (Shape.pair (d := ![K, C]) m (colR i)) ?_ ?_
      · exact (hR _ _).2 ⟨hm, rfl⟩
      · intro j' hlt hhit
        obtain ⟨hk, hc⟩ := (hR _ _).1 hhit
        refine hmax (j' 0) ?_ hk
        have h1 := Shape.rowMajor_pair_val (d := ![K, C]) m (colR i)
        have h2 := Shape.rowMajor_val_two j'
        rw [Fin.lt_def, h1, h2, hc] at hlt
        exact Fin.lt_def.2 (Nat.lt_of_mul_lt_mul_right (Nat.lt_of_add_lt_add_right hlt))
    have hK' : Host.scatter dK (fun _ b => b) xK idxK upd i'
        = upd (Shape.pair (d := ![K, C]) m (colR i)) := by
      refine ScatterLast.scatter_set_of_unique_hit dK xK idxK upd i'
        (Shape.pair (d := ![K, C]) m (colR i)) ?_ ?_
      · exact (hK _ _).2
          ⟨(hwin m).2 (fun n' hlt hc => hmax n' hlt (hc.trans hm)), hm.trans hkey, hcol⟩
      · intro j' hhit
        obtain ⟨hw, hk, hc⟩ := (hK _ _).1 hhit
        have hk' : key (j' 0) = keyR i := hk.trans hkey.symm
        have hj0 : j' 0 = m := by
          by_contra hne
          rcases lt_or_gt_of_ne hne with hlt | hgt
          · exact (hwin (j' 0)).1 hw m hlt (hm.trans hk'.symm)
          · exact hmax (j' 0) hgt hk'
        rw [← Shape.pair_eta j', hj0, hc, hcol]
    rw [hR', hK']
  · rw [ScatterSet.scatter_set_of_no_hit dR xR idxR upd i
          (fun j hhit => hex ⟨j 0, ((hR _ _).1 hhit).1⟩),
        ScatterSet.scatter_set_of_no_hit dK xK idxK upd i'
          (fun j hhit => hex ⟨j 0, (((hK _ _).1 hhit).2.1).trans hkey.symm⟩)]
    exact hx

theorem scatter_plain_eq {α Key : Type} {K C : Nat} {sR siR : Shape} {w : Nat}
    (dR : ScatterDims sR siR ⟨2, ![K, C]⟩) (idxR : IVec siR w)
    (xR : sR.Idx → α) (upd : (⟨2, ![K, C]⟩ : Shape).Idx → α)
    (key : Fin K → Key) (keyR : sR.Idx → Key) (colR : sR.Idx → Fin C)
    (hR : ∀ j i, dR.resultIdx? j idxR = some i ↔ key (j 0) = keyR i ∧ j 1 = colR i)
    (i : sR.Idx) :
    (∀ m, key m = keyR i → (∀ n', m < n' → key n' ≠ keyR i) →
        Host.scatter dR (fun _ b => b) xR idxR upd i = upd (Shape.pair (d := ![K, C]) m (colR i))) ∧
    ((∀ n, key n ≠ keyR i) → Host.scatter dR (fun _ b => b) xR idxR upd i = xR i) := by
  constructor
  · intro m hm hmax
    refine ScatterLast.scatter_set_last dR xR idxR upd i (Shape.pair (d := ![K, C]) m (colR i)) ?_ ?_
    · exact (hR _ _).2 ⟨hm, rfl⟩
    · intro j' hlt hhit
      obtain ⟨hk, hc⟩ := (hR _ _).1 hhit
      refine hmax (j' 0) ?_ hk
      have h1 := Shape.rowMajor_pair_val (d := ![K, C]) m (colR i)
      have h2 := Shape.rowMajor_val_two j'
      rw [Fin.lt_def, h1, h2, hc] at hlt
      exact Fin.lt_def.2 (Nat.lt_of_mul_lt_mul_right (Nat.lt_of_add_lt_add_right hlt))
  · intro hno
    exact ScatterSet.scatter_set_of_no_hit dR xR idxR upd i
      (fun j hhit => hno (j 0) ((hR _ _).1 hhit).1)

theorem scatter_mask_eq {β Key : Type} {K : Nat} {sM siM : Shape} {w : Nat}
    (dM : ScatterDims sM siM ⟨1, ![K]⟩) (idxM : IVec siM w) (x : sM.Idx → β) (t : β)
    (key : Fin K → Key) (keyM : sM.Idx → Key)
    (hM : ∀ k i, dM.resultIdx? k idxM = some i ↔ key (k 0) = keyM i) (i : sM.Idx) :
    ((∃ n, key n = keyM i) → Host.scatter dM (fun _ b => b) x idxM (fun _ => t) i = t) ∧
    ((∀ n, key n ≠ keyM i) → Host.scatter dM (fun _ b => b) x idxM (fun _ => t) i = x i) := by
  constructor
  · rintro ⟨n, hn⟩
    exact ScatterSet.scatter_set_of_hits_agree dM x idxM (fun _ => t) i t
      ⟨k1 n, (hM _ _).2 hn⟩ (fun _ _ => rfl)
  · intro hno
    exact ScatterSet.scatter_set_of_no_hit dM x idxM (fun _ => t) i
      (fun k hhit => hno (k 0) ((hM _ _).1 hhit))

end Idealize.ShloMosaic.Dedupe
-- ==== Proof.DedupeCore.lean ====
import Idealize.ShloMosaic.PureOps
import proofs.«409303_j18760417149025_3_alg».proof.Proof.LibDedupe

open Idealize.ShloMosaic Idealize.ShloMosaic.Dedupe

namespace Cert.Hand.DedupeCore

theorem toNat_eq_toInt (x : BitVec 32) (h0 : 0 ≤ x.toInt) : (x.toNat : Int) = x.toInt := by
  have h := BitVec.toInt_eq_toNat_cond x
  have := x.isLt
  split at h <;> omega

theorem toInt_eq_toNat (x : BitVec 32) (h : x.toNat < 2147483648) : x.toInt = (x.toNat : Int) := by
  have h' := BitVec.toInt_eq_toNat_cond x
  split at h' <;> omega

theorem toNat_lt {x : BitVec 32} {k : Nat} (h : 0 ≤ x.toInt ∧ x.toInt < k) : x.toNat < k := by
  have := toNat_eq_toInt x h.1
  omega

-- two digits in base n: the value stays below m·n and determines both digits
theorem mul_add_lt {a m c n : Nat} (ha : a < m) (hc : c < n) : a * n + c < m * n :=
  calc a * n + c < a * n + n := Nat.add_lt_add_left hc _
    _ = (a + 1) * n := (Nat.succ_mul a n).symm
    _ ≤ m * n := Nat.mul_le_mul_right n ha

theorem mul_add_inj {a a' c c' n : Nat} (hc : c < n) (hc' : c' < n)
    (h : a * n + c = a' * n + c') : a = a' ∧ c = c' := by
  rcases Nat.lt_trichotomy a a' with hlt | rfl | hlt
  · have := mul_add_lt hlt hc; omega
  · exact ⟨rfl, by omega⟩
  · have := mul_add_lt hlt hc'; omega

-- one multiply-add step of the cell number does not wrap when its value fits the word
theorem madd_toNat {x z : BitVec 32} {n : Nat} (hn : n < 2 ^ 32) (h : x.toNat * n + z.toNat < 2 ^ 32) :
    (x * BitVec.ofNat 32 n + z).toNat = x.toNat * n + z.toNat := by
  rw [BitVec.toNat_add, BitVec.toNat_mul, BitVec.toNat_ofNat, Nat.mod_eq_of_lt hn,
    Nat.mod_eq_of_lt (Nat.lt_of_le_of_lt (Nat.le_add_right _ _) h), Nat.mod_eq_of_lt h]

theorem norm_of_nonneg (x size : BitVec 32) (h0 : 0 ≤ x.toInt) :
    Scalar.select (IntOp.cmpi .slt x 0#32) (IntOp.addi x size) x = x := by
  have hz : (0#32 : BitVec 32).toInt = 0 := rfl
  have hs : x.slt 0#32 = false := by
    rw [BitVec.slt_eq_decide, hz]; exact decide_eq_false (by omega)
  show (if BitVec.ofBool (x.slt 0#32) = 1 then _ else _) = _
  rw [hs]
  rfl

theorem cmpi_eq_one_iff (x y : BitVec 32) : IntOp.cmpi .eq x y = 1#1 ↔ x = y := by
  show BitVec.ofBool (x == y) = 1#1 ↔ x = y
  by_cases h : x = y
  · subst h
    simp
  · have hf : (x == y) = false := beq_eq_false_iff_ne.2 h
    rw [hf]
    exact ⟨fun h' => absurd h' (by decide), fun h' => absurd h' h⟩

abbrev SK : Shape := ⟨1, ![4096]⟩
abbrev SKx1 : Shape := ⟨2, ![4096, 1]⟩
abbrev SKx3 : Shape := ⟨2, ![4096, 3]⟩
abbrev SKx5 : Shape := ⟨2, ![4096, 5]⟩
abbrev SRef (n : Nat) : Shape := ⟨4, ![128, n, n, 5]⟩
abbrev SMask (n : Nat) : Shape := ⟨3, ![128, n, n]⟩
abbrev SKer (n : Nat) : Shape := ⟨4, ![128, 5, n, n]⟩
abbrev SCell (n : Nat) : Shape := ⟨1, ![128 * n * n]⟩

def ix3 (m : Fin 4096) (c : Fin 3) : SKx3.Idx := Shape.pair (d := ![4096, 3]) m c
def ix1 (m : Fin 4096) : SKx1.Idx := Shape.pair (d := ![4096, 1]) m (0 : Fin 1)

theorem bc1_apply {α : Type} (h : SK.BroadcastsInDim SKx1 (![0] : Fin 1 → Fin SKx1.rank))
    (x : SK.Idx → α) (m : Fin 4096) :
    broadcastInDim SKx1 ![0] h x (ix1 m) = x (k1 m) := by
  show x _ = x _
  congr 1
  funext a
  fin_cases a
  rfl

theorem concat3_apply {α : Type} (h : Shape.Concatenates [SKx1, SKx1, SKx1] SKx3 1)
    (u0 u1 u2 : SKx1.Idx → α) (m : Fin 4096) :
    concatenate SKx3 1 [⟨SKx1, u0⟩, ⟨SKx1, u1⟩, ⟨SKx1, u2⟩] h (ix3 m 0) = u0 (ix1 m) ∧
    concatenate SKx3 1 [⟨SKx1, u0⟩, ⟨SKx1, u1⟩, ⟨SKx1, u2⟩] h (ix3 m 1) = u1 (ix1 m) ∧
    concatenate SKx3 1 [⟨SKx1, u0⟩, ⟨SKx1, u1⟩, ⟨SKx1, u2⟩] h (ix3 m 2) = u2 (ix1 m) := by
  refine ⟨?_, ?_, ?_⟩
  · show u0 _ = u0 _
    congr 1; funext a; fin_cases a <;> rfl
  · show u1 _ = u1 _
    congr 1; funext a; fin_cases a <;> rfl
  · show u2 _ = u2 _
    congr 1; funext a; fin_cases a <;> rfl

-- a scatter's start and window coordinate on one axis, read off the dimension lists
section Axis
variable {s si u : Shape} {w : Nat} {d : ScatterDims s si u} {j : u.Idx} {idx : IVec si w} {a : Fin s.rank}

theorem start_mem (ha : a ∈ d.scatterDimsToOperandDims) {i : si.Idx}
    (hi : d.siIdx j ⟨d.scatterDimsToOperandDims.idxOf a, List.idxOf_lt_length_iff.2 ha⟩ = i) :
    d.start j idx a = (idx i).toInt := by
  unfold ScatterDims.start
  rw [dif_pos ha, hi]

theorem start_not_mem (ha : a ∉ d.scatterDimsToOperandDims) : d.start j idx a = 0 := dif_neg ha

theorem window_not_mem (ha : a ∉ d.sKept) : d.window j a = 0 := dif_neg ha

end Axis

section Dims
variable (n : Nat)

def dRef : ScatterDims (SRef n) SKx3 SKx5 where
  updateWindowDims := [1]
  insertedWindowDims := [0, 1, 2]
  scatterDimsToOperandDims := [0, 1, 2]
  indexVectorDim := 1
  wf := of_decide_eq_true rfl
def dMask : ScatterDims (SMask n) SKx3 SK where
  updateWindowDims := []
  insertedWindowDims := [0, 1, 2]
  scatterDimsToOperandDims := [0, 1, 2]
  indexVectorDim := 1
  wf := of_decide_eq_true rfl
def dKer : ScatterDims (SKer n) SKx3 SKx5 where
  updateWindowDims := [1]
  insertedWindowDims := [0, 2, 3]
  scatterDimsToOperandDims := [0, 2, 3]
  indexVectorDim := 1
  wf := of_decide_eq_true rfl
def dWin : ScatterDims (SCell n) SKx1 SK where
  updateWindowDims := []
  insertedWindowDims := [0]
  scatterDimsToOperandDims := [0]
  indexVectorDim := 1
  wf := of_decide_eq_true rfl

theorem dWin_start (k : SK.Idx) (idx : IVec SKx1 32) :
    (dWin n).start k idx 0 = (idx (ix1 (k 0))).toInt :=
  start_mem (of_decide_eq_true rfl) (by funext b; fin_cases b <;> rfl)

theorem dWin_window (k : SK.Idx) : (dWin n).window k 0 = 0 :=
  window_not_mem (of_decide_eq_true rfl)

variable (idx : IVec SKx3 32)

theorem dRef_start (j : SKx5.Idx) :
    (dRef n).start j idx 0 = (idx (ix3 (j 0) 0)).toInt ∧ (dRef n).start j idx 1 = (idx (ix3 (j 0) 1)).toInt ∧
    (dRef n).start j idx 2 = (idx (ix3 (j 0) 2)).toInt ∧ (dRef n).start j idx 3 = 0 :=
  ⟨start_mem (of_decide_eq_true rfl) (by funext b; fin_cases b <;> rfl),
   start_mem (of_decide_eq_true rfl) (by funext b; fin_cases b <;> rfl),
   start_mem (of_decide_eq_true rfl) (by funext b; fin_cases b <;> rfl),
   start_not_mem (of_decide_eq_true rfl)⟩

theorem dRef_window (j : SKx5.Idx) :
    (dRef n).window j 0 = 0 ∧ (dRef n).window j 1 = 0 ∧ (dRef n).window j 2 = 0 ∧
    (dRef n).window j 3 = (j 1).val :=
  ⟨window_not_mem (of_decide_eq_true rfl), window_not_mem (of_decide_eq_true rfl),
   window_not_mem (of_decide_eq_true rfl), by
    unfold ScatterDims.window; rw [dif_pos (of_decide_eq_true rfl)]; rfl⟩

theorem dKer_start (j : SKx5.Idx) :
    (dKer n).start j idx 0 = (idx (ix3 (j 0) 0)).toInt ∧ (dKer n).start j idx 1 = 0 ∧
    (dKer n).start j idx 2 = (idx (ix3 (j 0) 1)).toInt ∧ (dKer n).start j idx 3 = (idx (ix3 (j 0) 2)).toInt :=
  ⟨start_mem (of_decide_eq_true rfl) (by funext b; fin_cases b <;> rfl),
   start_not_mem (of_decide_eq_true rfl),
   start_mem (of_decide_eq_true rfl) (by funext b; fin_cases b <;> rfl),
   start_mem (of_decide_eq_true rfl) (by funext b; fin_cases b <;> rfl)⟩

theorem dKer_window (j : SKx5.Idx) :
    (dKer n).window j 0 = 0 ∧ (dKer n).window j 1 = (j 1).val ∧ (dKer n).window j 2 = 0 ∧
    (dKer n).window j 3 = 0 :=
  ⟨window_not_mem (of_decide_eq_true rfl), by
    unfold ScatterDims.window; rw [dif_pos (of_decide_eq_true rfl)]; rfl,
   window_not_mem (of_decide_eq_true rfl), window_not_mem (of_decide_eq_true rfl)⟩

theorem dMask_start (k : SK.Idx) :
    (dMask n).start k idx 0 = (idx (ix3 (k 0) 0)).toInt ∧ (dMask n).start k idx 1 = (idx (ix3 (k 0) 1)).toInt ∧
    (dMask n).start k idx 2 = (idx (ix3 (k 0) 2)).toInt :=
  ⟨start_mem (of_decide_eq_true rfl) (by funext b; fin_cases b <;> rfl),
   start_mem (of_decide_eq_true rfl) (by funext b; fin_cases b <;> rfl),
   start_mem (of_decide_eq_true rfl) (by funext b; fin_cases b <;> rfl)⟩

theorem dMask_window (k : SK.Idx) (a : Fin 3) : (dMask n).window k a = 0 :=
  window_not_mem (by fin_cases a <;> exact of_decide_eq_true rfl)

end Dims

theorem forall4 {P : Fin 4 → Prop} : (∀ a, P a) ↔ P 0 ∧ P 1 ∧ P 2 ∧ P 3 :=
  ⟨fun h => ⟨h 0, h 1, h 2, h 3⟩, fun ⟨h0, h1, h2, h3⟩ a => by fin_cases a <;> assumption⟩

theorem forall3 {P : Fin 3 → Prop} : (∀ a, P a) ↔ P 0 ∧ P 1 ∧ P 2 :=
  ⟨fun h => ⟨h 0, h 1, h 2⟩, fun ⟨h0, h1, h2⟩ a => by fin_cases a <;> assumption⟩

theorem cells_pos {n : Nat} (hn : 0 < n ∧ n ≤ 4096) : 0 < 128 * n * n :=
  Nat.mul_pos (Nat.mul_pos (by decide) hn.1) hn.1

theorem cells_le {n : Nat} (hn : 0 < n ∧ n ≤ 4096) : 128 * n * n ≤ 2147483648 :=
  Nat.mul_le_mul (Nat.mul_le_mul_left 128 hn.2) hn.2

abbrev Key := Int × Int × Int

section Core
variable (n : Nat) (hn : 0 < n ∧ n ≤ 4096) (b gj gi : Fin 4096 → BitVec 32)

def keyRef (i : (SRef n).Idx) : Key := (((i 0).val : Int), ((i 1).val : Int), ((i 2).val : Int))
def colRef (i : (SRef n).Idx) : Fin 5 := i 3
def keyKer (i : (SKer n).Idx) : Key := (((i 0).val : Int), ((i 2).val : Int), ((i 3).val : Int))
def colKer (i : (SKer n).Idx) : Fin 5 := i 1
def keyMask (i : (SMask n).Idx) : Key := (((i 0).val : Int), ((i 1).val : Int), ((i 2).val : Int))

def Rows (idx : IVec SKx3 32) : Prop := ∀ m, idx (ix3 m 0) = b m ∧ idx (ix3 m 1) = gj m ∧ idx (ix3 m 2) = gi m
def key (m : Fin 4096) : Key := ((b m).toInt, (gj m).toInt, (gi m).toInt)
def cellWord (m : Fin 4096) : BitVec 32 := (b m * BitVec.ofNat 32 n + gj m) * BitVec.ofNat 32 n + gi m
def cellIdx (m : Fin 4096) : (SCell n).Idx :=
  k1 (K := 128 * n * n) ⟨(cellWord n b gj gi m).toNat % (128 * n * n), Nat.mod_lt _ (cells_pos hn)⟩

theorem cellIdx_val (m : Fin 4096) :
    (cellIdx n hn b gj gi m 0).val = (cellWord n b gj gi m).toNat % (128 * n * n) := rfl

def dGat : GatherDims (SCell n) SKx1 SK where
  offsetDims := []
  collapsedSliceDims := [0]
  operandBatchingDims := []
  startIndicesBatchingDims := []
  startIndexMap := [0]
  indexVectorDim := 1
  sliceSizes := ![1]
  wf := by
    refine ⟨?_, ?_, ?_, ?_, ?_, ?_, ?_, ?_, ?_, ?_, fun a => by fin_cases a; exact cells_pos hn,
      ?_, ?_, ?_, ?_, ?_⟩ <;> exact of_decide_eq_true rfl

theorem dGat_operandIdx0 (k : SK.Idx) (idx : IVec SKx1 32) :
    (((dGat n hn).operandIdx k idx) 0).val = min (idx (ix1 (k 0))).toInt.toNat (128 * n * n - 1) := by
  show (dGat n hn).start k idx 0 + (dGat n hn).batchCoord k 0 + (dGat n hn).offCoord k 0 = _
  have h1 : (dGat n hn).batchCoord k 0 = 0 := (dGat n hn).batchCoord_eq_zero k 0 (of_decide_eq_true rfl)
  have h2 : (dGat n hn).offCoord k 0 = 0 := (dGat n hn).offCoord_eq_zero k 0 (of_decide_eq_true rfl)
  simp only [h1, h2, Nat.add_zero]
  unfold GatherDims.start
  rw [dif_pos (of_decide_eq_true rfl)]
  have e : (dGat n hn).siIdx k ⟨List.idxOf 0 (dGat n hn).startIndexMap,
      List.idxOf_lt_length_iff.2 (of_decide_eq_true rfl)⟩ = ix1 (k 0) := by
    funext b; fin_cases b <;> rfl
  rw [e]
  rfl

theorem dRef_hit (idx : IVec SKx3 32)
    (hidx : Rows b gj gi idx)
    (j : SKx5.Idx) (i : (SRef n).Idx) :
    (dRef n).resultIdx? j idx = some i ↔ key b gj gi (j 0) = keyRef n i ∧ j 1 = colRef n i := by
  obtain ⟨e0, e1, e2⟩ := hidx (j 0)
  obtain ⟨s0, s1, s2, s3⟩ := dRef_start n idx j
  obtain ⟨w0, w1, w2, w3⟩ := dRef_window n j
  have hc : j 1 = colRef n i ↔ (j 1).val = (i 3).val := Fin.ext_iff
  rw [resultIdx?_eq_some_iff, forall4, s0, s1, s2, s3, w0, w1, w2, w3, e0, e1, e2, hc]
  simp only [key, keyRef, Prod.mk.injEq]
  omega

theorem dMask_hit (idx : IVec SKx3 32)
    (hidx : Rows b gj gi idx)
    (k : SK.Idx) (i : (SMask n).Idx) :
    (dMask n).resultIdx? k idx = some i ↔ key b gj gi (k 0) = keyMask n i := by
  obtain ⟨e0, e1, e2⟩ := hidx (k 0)
  obtain ⟨s0, s1, s2⟩ := dMask_start n idx k
  rw [resultIdx?_eq_some_iff, forall3, s0, s1, s2, dMask_window, dMask_window, dMask_window, e0, e1, e2]
  simp only [key, keyMask, Prod.mk.injEq]
  omega

-- a row that lost its cell is sent to batch 128, outside the operand, and so dropped
theorem dKer_hit (hb : ∀ m, 0 ≤ (b m).toInt ∧ (b m).toInt < 128)
    (idx : IVec SKx3 32) (bsafe : Fin 4096 → BitVec 32) (win : Fin 4096 → Prop)
    (hbs : ∀ m, (win m → bsafe m = b m) ∧ (¬ win m → bsafe m = 128#32))
    (hidx : Rows bsafe gj gi idx)
    (j : SKx5.Idx) (i : (SKer n).Idx) :
    (dKer n).resultIdx? j idx = some i ↔
      win (j 0) ∧ key b gj gi (j 0) = keyKer n i ∧ j 1 = colKer n i := by
  obtain ⟨e0, e1, e2⟩ := hidx (j 0)
  obtain ⟨s0, s1, s2, s3⟩ := dKer_start n idx j
  obtain ⟨w0, w1, w2, w3⟩ := dKer_window n j
  have hi0 : (i 0).val < 128 := (i 0).isLt
  have h128 : (128#32 : BitVec 32).toInt = 128 := by decide
  have hc : j 1 = colKer n i ↔ (j 1).val = (i 1).val := Fin.ext_iff
  rw [resultIdx?_eq_some_iff, forall4, s0, s1, s2, s3, w0, w1, w2, w3, e0, e1, e2, hc]
  simp only [key, keyKer, Prod.mk.injEq]
  by_cases hw : win (j 0)
  · rw [(hbs (j 0)).1 hw]
    simp only [hw, true_and]
    omega
  · rw [(hbs (j 0)).2 hw, h128]
    simp only [hw, false_and, iff_false]
    omega

variable (hb : ∀ m, 0 ≤ (b m).toInt ∧ (b m).toInt < 128)
  (hj : ∀ m, 0 ≤ (gj m).toInt ∧ (gj m).toInt < n)
  (hi : ∀ m, 0 ≤ (gi m).toInt ∧ (gi m).toInt < n)
include hn hb hj hi

-- the cell number is computed without wrapping: it is the base-n numeral (b, gj, gi), below 128·n·n
theorem cellWord_toNat (m : Fin 4096) :
    (cellWord n b gj gi m).toNat = ((b m).toNat * n + (gj m).toNat) * n + (gi m).toNat ∧
      (cellWord n b gj gi m).toNat < 128 * n * n := by
  have h1 : (b m).toNat * n + (gj m).toNat < 128 * n :=
    mul_add_lt (toNat_lt (k := 128) (hb m)) (toNat_lt (hj m))
  have h2 := mul_add_lt h1 (toNat_lt (hi m))
  have hC := cells_le hn
  have hn32 : n < 2 ^ 32 := by omega
  have e1 := madd_toNat (x := b m) (z := gj m) hn32 (by omega)
  have e2 := madd_toNat (x := b m * BitVec.ofNat 32 n + gj m) (z := gi m) hn32 (by rw [e1]; omega)
  rw [e1] at e2
  exact ⟨e2, e2 ▸ h2⟩

theorem cellWord_nonneg (m : Fin 4096) : 0 ≤ (cellWord n b gj gi m).toInt := by
  have l := (cellWord_toNat n hn b gj gi hb hj hi m).2
  have hC := cells_le hn
  rw [toInt_eq_toNat (cellWord n b gj gi m) (by omega)]
  omega

theorem cellIdx_eq_iff (m' m : Fin 4096) :
    cellIdx n hn b gj gi m' = cellIdx n hn b gj gi m ↔ key b gj gi m' = key b gj gi m := by
  obtain ⟨e', l'⟩ := cellWord_toNat n hn b gj gi hb hj hi m'
  obtain ⟨e, l⟩ := cellWord_toNat n hn b gj gi hb hj hi m
  constructor
  · intro h
    have hv : (cellWord n b gj gi m').toNat % (128 * n * n) = (cellWord n b gj gi m).toNat % (128 * n * n) :=
      congrArg (fun k : (SCell n).Idx => (k 0).val) h
    rw [Nat.mod_eq_of_lt l', Nat.mod_eq_of_lt l, e', e] at hv
    obtain ⟨h1, hI⟩ := mul_add_inj (toNat_lt (hi m')) (toNat_lt (hi m)) hv
    obtain ⟨hB, hJ⟩ := mul_add_inj (toNat_lt (hj m')) (toNat_lt (hj m)) h1
    simp only [key, BitVec.eq_of_toNat_eq hB, BitVec.eq_of_toNat_eq hJ, BitVec.eq_of_toNat_eq hI]
  · intro hk
    simp only [key, Prod.mk.injEq, BitVec.toInt_inj] at hk
    obtain ⟨h1, h2, h3⟩ := hk
    have hw : cellWord n b gj gi m' = cellWord n b gj gi m := by
      unfold cellWord; rw [h1, h2, h3]
    unfold cellIdx
    simp only [hw]

theorem dWin_hit (idx : IVec SKx1 32) (hidx : ∀ m, idx (ix1 m) = cellWord n b gj gi m) (k : SK.Idx) :
    (dWin n).resultIdx? k idx = some (cellIdx n hn b gj gi (k 0)) := by
  have l := (cellWord_toNat n hn b gj gi hb hj hi (k 0)).2
  have hC := cells_le hn
  rw [resultIdx?_eq_some_iff]
  intro a
  fin_cases a
  show (dWin n).start k idx 0 + (((dWin n).window k 0 : Nat) : Int) = ((cellIdx n hn b gj gi (k 0) 0).val : Int)
  rw [dWin_start, dWin_window, hidx (k 0), cellIdx_val n hn b gj gi (k 0), Nat.mod_eq_of_lt l,
    toInt_eq_toNat (cellWord n b gj gi (k 0)) (by omega)]
  omega

theorem dGat_cell (idx : IVec SKx1 32) (hidx : ∀ m, idx (ix1 m) = cellWord n b gj gi m) (m : Fin 4096) :
    (dGat n hn).operandIdx (k1 m) idx = cellIdx n hn b gj gi m := by
  have l := (cellWord_toNat n hn b gj gi hb hj hi m).2
  have hC := cells_le hn
  funext a
  fin_cases a
  apply Fin.ext
  show (((dGat n hn).operandIdx (k1 m) idx) 0).val = (cellIdx n hn b gj gi m 0).val
  rw [dGat_operandIdx0, cellIdx_val, Nat.mod_eq_of_lt l]
  show min (idx (ix1 m)).toInt.toNat (128 * n * n - 1) = _
  rw [hidx m, toInt_eq_toNat (cellWord n b gj gi m) (by omega)]
  omega

-- row m keeps its cell exactly when no later row has the same key
theorem win_iff (idxW idxG : IVec SKx1 32)
    (hW : ∀ m, idxW (ix1 m) = cellWord n b gj gi m) (hG : ∀ m, idxG (ix1 m) = cellWord n b gj gi m)
    (iota : IVec SK 32) (hiota : ∀ k, iota k = BitVec.ofNat 32 (k 0).val)
    (x : (SCell n).Idx → BitVec 32) (m : Fin 4096) :
    Host.gather (dGat n hn) (Host.scatter (dWin n) (fun _ b => b) x idxW iota) idxG (k1 m) = iota (k1 m) ↔
      ∀ m', m < m' → key b gj gi m' ≠ key b gj gi m := by
  have hinj : Function.Injective iota := by
    intro k k' h
    rw [hiota, hiota] at h
    have h' := congrArg BitVec.toNat h
    rw [BitVec.toNat_ofNat, BitVec.toNat_ofNat] at h'
    have l1 : (k 0).val < 4096 := (k 0).isLt
    have l2 : (k' 0).val < 4096 := (k' 0).isLt
    have e : k 0 = k' 0 := Fin.ext (by omega)
    rw [← k1_eta k, ← k1_eta k', e]
  show Host.scatter (dWin n) (fun _ b => b) x idxW iota ((dGat n hn).operandIdx (k1 m) idxG) = _ ↔ _
  rw [dGat_cell n hn b gj gi hb hj hi idxG hG m,
    winner_eq_iff (dWin n) idxW x iota hinj (cellIdx n hn b gj gi) (dWin_hit n hn b gj gi hb hj hi idxW hW) m]
  exact forall₂_congr fun m' _ => not_congr (cellIdx_eq_iff n hn b gj gi hb hj hi m' m)

theorem tt_core {α : Type} (idxR idxK : IVec SKx3 32) (idxW idxG : IVec SKx1 32)
    (iota : IVec SK 32) (x : (SCell n).Idx → BitVec 32) (bsafe : Fin 4096 → BitVec 32)
    (hidxR : Rows b gj gi idxR)
    (hW : ∀ m, idxW (ix1 m) = cellWord n b gj gi m) (hG : ∀ m, idxG (ix1 m) = cellWord n b gj gi m)
    (hiota : ∀ k, iota k = BitVec.ofNat 32 (k 0).val)
    (hbsafe : ∀ m, bsafe m =
      if Host.gather (dGat n hn) (Host.scatter (dWin n) (fun _ b => b) x idxW iota) idxG (k1 m) = iota (k1 m)
      then b m else 128#32)
    (hidxK : Rows bsafe gj gi idxK)
    (vals : SKx5.Idx → α) (z : α) (iK : (SKer n).Idx) (iR : (SRef n).Idx)
    (h0 : (iK 0).val = (iR 0).val) (h1 : (iK 1).val = (iR 3).val)
    (h2 : (iK 2).val = (iR 1).val) (h3 : (iK 3).val = (iR 2).val) :
    Host.scatter (dKer n) (fun _ b => b) (fun _ => z) idxK vals iK
      = Host.scatter (dRef n) (fun _ b => b) (fun _ => z) idxR vals iR := by
  refine (scatter_dedupe_eq (dRef n) (dKer n) idxR idxK (fun _ => z) (fun _ => z) vals (key b gj gi)
    (fun m => Host.gather (dGat n hn) (Host.scatter (dWin n) (fun _ b => b) x idxW iota) idxG (k1 m)
      = iota (k1 m))
    (win_iff n hn b gj gi hb hj hi idxW idxG hW hG iota hiota x)
    (keyRef n) (colRef n) (keyKer n) (colKer n)
    (dRef_hit n b gj gi idxR hidxR)
    (dKer_hit n b gj gi hb idxK bsafe _ (fun m => ⟨fun hw => by rw [hbsafe m, if_pos hw],
      fun hw => by rw [hbsafe m, if_neg hw]⟩) hidxK)
    iR iK ?_ ?_ rfl).symm
  · simp only [keyRef, keyKer, Prod.mk.injEq]; omega
  · exact Fin.ext h1.symm

omit hn hb hj hi in
theorem mask_core {α : Type} (idxR idxM : IVec SKx3 32)
    (hidxR : Rows b gj gi idxR)
    (hidxM : Rows b gj gi idxM)
    (vals : SKx5.Idx → α) (z one : α)
    (hone : ∀ m : Fin 4096, vals (Shape.pair (d := ![4096, 5]) m (4 : Fin 5)) = one)
    (iR : (SRef n).Idx) (iM : (SMask n).Idx)
    (h0 : (iM 0).val = (iR 0).val) (h1 : (iM 1).val = (iR 1).val) (h2 : (iM 2).val = (iR 2).val)
    (h3 : (iR 3).val = 4) :
    (Host.scatter (dMask n) (fun _ b => b) (fun _ => 0#1) idxM (fun _ => 1#1) iM = 1#1 ∧
      Host.scatter (dRef n) (fun _ b => b) (fun _ => z) idxR vals iR = one) ∨
    (Host.scatter (dMask n) (fun _ b => b) (fun _ => 0#1) idxM (fun _ => 1#1) iM = 0#1 ∧
      Host.scatter (dRef n) (fun _ b => b) (fun _ => z) idxR vals iR = z) := by
  have hkk : keyMask n iM = keyRef n iR := by
    simp only [keyRef, keyMask, Prod.mk.injEq]; omega
  have hcol : colRef n iR = 4 := Fin.ext h3
  have hP := scatter_plain_eq (dRef n) idxR (fun _ => z) vals (key b gj gi)
    (keyRef n) (colRef n) (dRef_hit n b gj gi idxR hidxR) iR
  have hMk := scatter_mask_eq (dMask n) idxM (fun _ => 0#1) (1#1) (key b gj gi)
    (keyMask n) (dMask_hit n b gj gi idxM hidxM) iM
  by_cases hex : ∃ m, key b gj gi m = keyRef n iR
  · left
    obtain ⟨m, hm, hmax⟩ := exists_last (fun m => key b gj gi m = keyRef n iR) hex
    refine ⟨hMk.1 ⟨m, hm.trans hkk.symm⟩, ?_⟩
    rw [hP.1 m hm hmax, hcol]
    exact hone m
  · right
    have hno : ∀ m, key b gj gi m ≠ keyRef n iR := fun m h => hex ⟨m, h⟩
    exact ⟨hMk.2 (fun m h => hno m (h.trans hkk)), hP.2 hno⟩

end Core

end Cert.Hand.DedupeCore
-- ==== Proof.Dedupe1.lean ====
import proofs.«409303_j18760417149025_3_alg».proof.KernelIdeal
import proofs.«409303_j18760417149025_3_alg».proof.ReferenceIdeal
import proofs.«409303_j18760417149025_3_alg».proof.Proof.DedupeCore

noncomputable section

namespace Cert.Hand.Dedupe1
open Idealize.ShloMosaic

export DedupeCore (SK SKx5 ix1 ix3 bc1_apply concat3_apply norm_of_nonneg cmpi_eq_one_iff)

abbrev SRef := DedupeCore.SRef 160
abbrev SMask := DedupeCore.SMask 160
abbrev SKer := DedupeCore.SKer 160
abbrev dWin := DedupeCore.dWin 160
abbrev dGat := DedupeCore.dGat 160 (by decide)
abbrev cellWord := DedupeCore.cellWord 160

section Ker
open Cert.KernelIdeal Cert.KernelIdeal.Facts₀
variable [Cert.KernelIdeal.Facts₀] {F : FTy → Type} [FloatOps F]

def cellKer (main_v2 main_v18 main_v16 : IVec S4096 32) : IVec S4096 32 :=
  let main_c_7 : IVec S_ 32 := constantI S_ 32 160#32
  let main_v34 : IVec S4096 32 := broadcastInDim S4096 ![] bcast_S_S4096 main_c_7
  let main_v35 : IVec S4096 32 := muli main_v2 main_v34
  let main_v36 : IVec S4096 32 := addi main_v35 main_v18
  let main_c_8 : IVec S_ 32 := constantI S_ 32 160#32
  let main_v37 : IVec S4096 32 := broadcastInDim S4096 ![] bcast_S_S4096 main_c_8
  let main_v38 : IVec S4096 32 := muli main_v36 main_v37
  let main_v39 : IVec S4096 32 := addi main_v38 main_v16
  main_v39

def idxWKer (main_v2 main_v18 main_v16 : IVec S4096 32) : IVec S4096x1 32 :=
  let main_v39 : IVec S4096 32 := cellKer main_v2 main_v18 main_v16
  let main_c_10 : IVec S_ 32 := constantI S_ 32 0#32
  let main_v42 : IVec S4096 32 := broadcastInDim S4096 ![] bcast_S_S4096 main_c_10
  let main_v43 : IVec S4096 1 := cmpi .slt main_v39 main_v42
  let main_c_11 : IVec S_ 32 := constantI S_ 32 3276800#32
  let main_v44 : IVec S4096 32 := broadcastInDim S4096 ![] bcast_S_S4096 main_c_11
  let main_v45 : IVec S4096 32 := addi main_v39 main_v44
  let main_v46 : IVec S4096 32 := select main_v43 main_v45 main_v39
  let main_v47 : IVec S4096x1 32 := broadcastInDim S4096x1 ![0] bcast_S4096_S4096x1_0 main_v46
  main_v47

def winnerKer (main_v2 main_v18 main_v16 : IVec S4096 32) : IVec S3276800 32 :=
  let main_v47 : IVec S4096x1 32 := idxWKer main_v2 main_v18 main_v16
  let main_c_9 : IVec S_ 32 := constantI S_ 32 0#32
  let main_v40 : IVec S3276800 32 := broadcastInDim S3276800 ![] bcast_S_S3276800 main_c_9
  let main_v41 : IVec S4096 32 := iotaInDim S4096 32 0
  let main_v48 : IVec S3276800 32 := (fun x i u => Host.scatter scatter_S3276800_S4096x1_S4096_n_0_0_1 (fun _ b => b) x i u) main_v40 main_v47 main_v41
  main_v48

def idxGKer (main_v2 main_v18 main_v16 : IVec S4096 32) : IVec S4096x1 32 :=
  let main_v39 : IVec S4096 32 := cellKer main_v2 main_v18 main_v16
  let main_c_12 : IVec S_ 32 := constantI S_ 32 0#32
  let main_v49 : IVec S4096 32 := broadcastInDim S4096 ![] bcast_S_S4096 main_c_12
  let main_v50 : IVec S4096 1 := cmpi .slt main_v39 main_v49
  let main_c_13 : IVec S_ 32 := constantI S_ 32 3276800#32
  let main_v51 : IVec S4096 32 := broadcastInDim S4096 ![] bcast_S_S4096 main_c_13
  let main_v52 : IVec S4096 32 := addi main_v39 main_v51
  let main_v53 : IVec S4096 32 := select main_v50 main_v52 main_v39
  let main_v54 : IVec S4096x1 32 := broadcastInDim S4096x1 ![0] bcast_S4096_S4096x1_0 main_v53
  main_v54

def bsafeKer (main_v2 main_v18 main_v16 : IVec S4096 32) : IVec S4096 32 :=
  let main_v48 : IVec S3276800 32 := winnerKer main_v2 main_v18 main_v16
  let main_v54 : IVec S4096x1 32 := idxGKer main_v2 main_v18 main_v16
  let main_v55 : IVec S4096 32 := (fun x i => Host.gather gather_S3276800_S4096x1_S4096_n_0_n_n_0_1_1 x i) main_v48 main_v54
  let main_v56 : IVec S4096 32 := iotaInDim S4096 32 0
  let main_v57 : IVec S4096 1 := cmpi .eq main_v55 main_v56
  let main_c_14 : IVec S_ 32 := constantI S_ 32 128#32
  let main_call2_v0 : IVec S_ 32 := id main_c_14
  let main_call2_v1 : IVec S4096 32 := broadcastInDim S4096 ![] bcast_S_S4096 main_call2_v0
  let main_v58 : IVec S4096 32 := select main_v57 main_v2 main_call2_v1
  main_v58

def idxKKer (main_v2 main_v18 main_v16 : IVec S4096 32) : IVec S4096x3 32 :=
  let main_v58 : IVec S4096 32 := bsafeKer main_v2 main_v18 main_v16
  let main_c_16 : IVec S_ 32 := constantI S_ 32 0#32
  let main_v60 : IVec S4096 32 := broadcastInDim S4096 ![] bcast_S_S4096 main_c_16
  let main_v61 : IVec S4096 1 := cmpi .slt main_v58 main_v60
  let main_c_17 : IVec S_ 32 := constantI S_ 32 128#32
  let main_v62 : IVec S4096 32 := broadcastInDim S4096 ![] bcast_S_S4096 main_c_17
  let main_v63 : IVec S4096 32 := addi main_v58 main_v62
  let main_v64 : IVec S4096 32 := select main_v61 main_v63 main_v58
  let main_c_18 : IVec S_ 32 := constantI S_ 32 0#32
  let main_v65 : IVec S4096 32 := broadcastInDim S4096 ![] bcast_S_S4096 main_c_18
  let main_v66 : IVec S4096 1 := cmpi .slt main_v18 main_v65
  let main_c_19 : IVec S_ 32 := constantI S_ 32 160#32
  let main_v67 : IVec S4096 32 := broadcastInDim S4096 ![] bcast_S_S4096 main_c_19
  let main_v68 : IVec S4096 32 := addi main_v18 main_v67
  let main_v69 : IVec S4096 32 := select main_v66 main_v68 main_v18
  let main_c_20 : IVec S_ 32 := constantI S_ 32 0#32
  let main_v70 : IVec S4096 32 := broadcastInDim S4096 ![] bcast_S_S4096 main_c_20
  let main_v71 : IVec S4096 1 := cmpi .slt main_v16 main_v70
  let main_c_21 : IVec S_ 32 := constantI S_ 32 160#32
  let main_v72 : IVec S4096 32 := broadcastInDim S4096 ![] bcast_S_S4096 main_c_21
  let main_v73 : IVec S4096 32 := addi main_v16 main_v72
  let main_v74 : IVec S4096 32 := select main_v71 main_v73 main_v16
  let main_v75 : IVec S4096x1 32 := broadcastInDim S4096x1 ![0] bcast_S4096_S4096x1_0 main_v64
  let main_v76 : IVec S4096x1 32 := broadcastInDim S4096x1 ![0] bcast_S4096_S4096x1_0 main_v69
  let main_v77 : IVec S4096x1 32 := broadcastInDim S4096x1 ![0] bcast_S4096_S4096x1_0 main_v74
  let main_v78 : IVec S4096x3 32 := concatenate S4096x3 1 [⟨S4096x1, main_v75⟩, ⟨S4096x1, main_v76⟩, ⟨S4096x1, main_v77⟩] concatenates_S4096x1_S4096x1_S4096x1_S4096x3_d1
  main_v78

def ttKer (main_v2 main_v18 main_v16 : IVec S4096 32) (main_v33 : FVec F S4096x5 .f32) :
    FVec F S128x5x160x160 .f32 :=
  let main_v78 : IVec S4096x3 32 := idxKKer main_v2 main_v18 main_v16
  let main_cst_15 : FVec F S_ .f32 := constant S_ .f32 0x00000000#32
  let main_v59 : FVec F S128x5x160x160 .f32 := broadcastInDim S128x5x160x160 ![] bcast_S_S128x5x160x160 main_cst_15
  let main_v79 : FVec F S128x5x160x160 .f32 := (fun x i u => Host.scatter scatter_S128x5x160x160_S4096x3_S4096x5_1_023_023_1 (fun _ b => b) x i u) main_v59 main_v78 main_v33
  main_v79

end Ker

section Ref
open Cert.ReferenceIdeal Cert.ReferenceIdeal.Facts₀
variable [Cert.ReferenceIdeal.Facts₀] {F : FTy → Type} [FloatOps F]

def idxRRef (main_v2 main_v18 main_v16 : IVec S4096 32) : IVec S4096x3 32 :=
  let main_c_8 : IVec S_ 32 := constantI S_ 32 0#32
  let main_v35 : IVec S4096 32 := broadcastInDim S4096 ![] bcast_S_S4096 main_c_8
  let main_v36 : IVec S4096 1 := cmpi .slt main_v2 main_v35
  let main_c_9 : IVec S_ 32 := constantI S_ 32 128#32
  let main_v37 : IVec S4096 32 := broadcastInDim S4096 ![] bcast_S_S4096 main_c_9
  let main_v38 : IVec S4096 32 := addi main_v2 main_v37
  let main_v39 : IVec S4096 32 := select main_v36 main_v38 main_v2
  let main_c_10 : IVec S_ 32 := constantI S_ 32 0#32
  let main_v40 : IVec S4096 32 := broadcastInDim S4096 ![] bcast_S_S4096 main_c_10
  let main_v41 : IVec S4096 1 := cmpi .slt main_v18 main_v40
  let main_c_11 : IVec S_ 32 := constantI S_ 32 160#32
  let main_v42 : IVec S4096 32 := broadcastInDim S4096 ![] bcast_S_S4096 main_c_11
  let main_v43 : IVec S4096 32 := addi main_v18 main_v42
  let main_v44 : IVec S4096 32 := select main_v41 main_v43 main_v18
  let main_c_12 : IVec S_ 32 := constantI S_ 32 0#32
  let main_v45 : IVec S4096 32 := broadcastInDim S4096 ![] bcast_S_S4096 main_c_12
  let main_v46 : IVec S4096 1 := cmpi .slt main_v16 main_v45
  let main_c_13 : IVec S_ 32 := constantI S_ 32 160#32
  let main_v47 : IVec S4096 32 := broadcastInDim S4096 ![] bcast_S_S4096 main_c_13
  let main_v48 : IVec S4096 32 := addi main_v16 main_v47
  let main_v49 : IVec S4096 32 := select main_v46 main_v48 main_v16
  let main_v50 : IVec S4096x1 32 := broadcastInDim S4096x1 ![0] bcast_S4096_S4096x1_0 main_v39
  let main_v51 : IVec S4096x1 32 := broadcastInDim S4096x1 ![0] bcast_S4096_S4096x1_0 main_v44
  let main_v52 : IVec S4096x1 32 := broadcastInDim S4096x1 ![0] bcast_S4096_S4096x1_0 main_v49
  let main_v53 : IVec S4096x3 32 := concatenate S4096x3 1 [⟨S4096x1, main_v50⟩, ⟨S4096x1, main_v51⟩, ⟨S4096x1, main_v52⟩] concatenates_S4096x1_S4096x1_S4096x1_S4096x3_d1
  main_v53

def ttRef (main_v2 main_v18 main_v16 : IVec S4096 32) (main_v33 : FVec F S4096x5 .f32) :
    FVec F S128x160x160x5 .f32 :=
  let main_v53 : IVec S4096x3 32 := idxRRef main_v2 main_v18 main_v16
  let main_cst_7 : FVec F S_ .f32 := constant S_ .f32 0x00000000#32
  let main_v34 : FVec F S128x160x160x5 .f32 := broadcastInDim S128x160x160x5 ![] bcast_S_S128x160x160x5 main_cst_7
  let main_v54 : FVec F S128x160x160x5 .f32 := (fun x i u => Host.scatter scatter_S128x160x160x5_S4096x3_S4096x5_1_012_012_1 (fun _ b => b) x i u) main_v34 main_v53 main_v33
  main_v54

def idxMRef (main_v2 main_v18 main_v16 : IVec S4096 32) : IVec S4096x3 32 :=
  let main_c_15 : IVec S_ 32 := constantI S_ 32 0#32
  let main_v56 : IVec S4096 32 := broadcastInDim S4096 ![] bcast_S_S4096 main_c_15
  let main_v57 : IVec S4096 1 := cmpi .slt main_v2 main_v56
  let main_c_16 : IVec S_ 32 := constantI S_ 32 128#32
  let main_v58 : IVec S4096 32 := broadcastInDim S4096 ![] bcast_S_S4096 main_c_16
  let main_v59 : IVec S4096 32 := addi main_v2 main_v58
  let main_v60 : IVec S4096 32 := select main_v57 main_v59 main_v2
  let main_c_17 : IVec S_ 32 := constantI S_ 32 0#32
  let main_v61 : IVec S4096 32 := broadcastInDim S4096 ![] bcast_S_S4096 main_c_17
  let main_v62 : IVec S4096 1 := cmpi .slt main_v18 main_v61
  let main_c_18 : IVec S_ 32 := constantI S_ 32 160#32
  let main_v63 : IVec S4096 32 := broadcastInDim S4096 ![] bcast_S_S4096 main_c_18
  let main_v64 : IVec S4096 32 := addi main_v18 main_v63
  let main_v65 : IVec S4096 32 := select main_v62 main_v64 main_v18
  let main_c_19 : IVec S_ 32 := constantI S_ 32 0#32
  let main_v66 : IVec S4096 32 := broadcastInDim S4096 ![] bcast_S_S4096 main_c_19
  let main_v67 : IVec S4096 1 := cmpi .slt main_v16 main_v66
  let main_c_20 : IVec S_ 32 := constantI S_ 32 160#32
  let main_v68 : IVec S4096 32 := broadcastInDim S4096 ![] bcast_S_S4096 main_c_20
  let main_v69 : IVec S4096 32 := addi main_v16 main_v68
  let main_v70 : IVec S4096 32 := select main_v67 main_v69 main_v16
  let main_v71 : IVec S4096x1 32 := broadcastInDim S4096x1 ![0] bcast_S4096_S4096x1_0 main_v60
  let main_v72 : IVec S4096x1 32 := broadcastInDim S4096x1 ![0] bcast_S4096_S4096x1_0 main_v65
  let main_v73 : IVec S4096x1 32 := broadcastInDim S4096x1 ![0] bcast_S4096_S4096x1_0 main_v70
  let main_v74 : IVec S4096x3 32 := concatenate S4096x3 1 [⟨S4096x1, main_v71⟩, ⟨S4096x1, main_v72⟩, ⟨S4096x1, main_v73⟩] concatenates_S4096x1_S4096x1_S4096x1_S4096x3_d1
  main_v74

def maskRef (main_v2 main_v18 main_v16 : IVec S4096 32) : IVec S128x160x160 1 :=
  let main_v74 : IVec S4096x3 32 := idxMRef main_v2 main_v18 main_v16
  let main_c_14 : IVec S_ 1 := constantI S_ 1 0#1
  let main_v55 : IVec S128x160x160 1 := broadcastInDim S128x160x160 ![] bcast_S_S128x160x160 main_c_14
  let main_c_21 : IVec S_ 1 := constantI S_ 1 1#1
  let main_v75 : IVec S4096 1 := broadcastInDim S4096 ![] bcast_S_S4096 main_c_21
  let main_v76 : IVec S128x160x160 1 := (fun x i u => Host.scatter scatter_S128x160x160_S4096x3_S4096_n_012_012_1 (fun _ b => b) x i u) main_v55 main_v74 main_v75
  main_v76

end Ref

section Pointwise
variable (b gj gi : IVec SK 32)
  (hb : ∀ k, 0 ≤ (b k).toInt ∧ (b k).toInt < 128)
  (hj : ∀ k, 0 ≤ (gj k).toInt ∧ (gj k).toInt < 160)
  (hi : ∀ k, 0 ≤ (gi k).toInt ∧ (gi k).toInt < 160)

abbrev rowOf (x : IVec SK 32) : Fin 4096 → BitVec 32 := fun n => x (Idealize.ShloMosaic.Dedupe.k1 n)

section KerPt
variable [Cert.KernelIdeal.Facts₀]
include hb hj hi

theorem cellKer_row (n : Fin 4096) :
    cellKer b gj gi (Idealize.ShloMosaic.Dedupe.k1 n) = cellWord (rowOf b) (rowOf gj) (rowOf gi) n := rfl

theorem cellWord_nonneg (n : Fin 4096) : 0 ≤ (cellWord (rowOf b) (rowOf gj) (rowOf gi) n).toInt :=
  DedupeCore.cellWord_nonneg 160 (by decide) _ _ _ (fun _ => hb _) (fun _ => hj _) (fun _ => hi _) n

theorem idxWKer_row (n : Fin 4096) :
    idxWKer b gj gi (ix1 n) = cellWord (rowOf b) (rowOf gj) (rowOf gi) n := by
  unfold idxWKer
  dsimp only
  rw [bc1_apply]
  exact norm_of_nonneg _ _ (cellWord_nonneg b gj gi hb hj hi n)

theorem idxGKer_row (n : Fin 4096) :
    idxGKer b gj gi (ix1 n) = cellWord (rowOf b) (rowOf gj) (rowOf gi) n := by
  unfold idxGKer
  dsimp only
  rw [bc1_apply]
  exact norm_of_nonneg _ _ (cellWord_nonneg b gj gi hb hj hi n)

omit hb hj hi in
theorem bsafeKer_row (n : Fin 4096) :
    bsafeKer b gj gi (Idealize.ShloMosaic.Dedupe.k1 n) =
      if Host.gather dGat (Host.scatter dWin (fun _ b => b) (fun _ => 0#32) (idxWKer b gj gi)
            (iotaInDim SK 32 0)) (idxGKer b gj gi) (Idealize.ShloMosaic.Dedupe.k1 n) = iotaInDim SK 32 0 (Idealize.ShloMosaic.Dedupe.k1 n)
      then b (Idealize.ShloMosaic.Dedupe.k1 n) else 128#32 := by
  show (if IntOp.cmpi .eq
      (Host.gather dGat (Host.scatter dWin (fun _ b => b) (fun _ => 0#32) (idxWKer b gj gi)
        (iotaInDim SK 32 0)) (idxGKer b gj gi) (Idealize.ShloMosaic.Dedupe.k1 n)) (iotaInDim SK 32 0 (Idealize.ShloMosaic.Dedupe.k1 n)) = 1#1
    then b (Idealize.ShloMosaic.Dedupe.k1 n) else 128#32) = _
  by_cases h : Host.gather dGat (Host.scatter dWin (fun _ b => b) (fun _ => 0#32) (idxWKer b gj gi)
      (iotaInDim SK 32 0)) (idxGKer b gj gi) (Idealize.ShloMosaic.Dedupe.k1 n) = iotaInDim SK 32 0 (Idealize.ShloMosaic.Dedupe.k1 n)
  · rw [if_pos h, if_pos ((cmpi_eq_one_iff _ _).2 h)]
  · rw [if_neg h, if_neg (fun h' => h ((cmpi_eq_one_iff _ _).1 h'))]

omit hj hi in
theorem bsafeKer_nonneg (n : Fin 4096) : 0 ≤ (bsafeKer b gj gi (Idealize.ShloMosaic.Dedupe.k1 n)).toInt := by
  rw [bsafeKer_row]
  have h128 : (128#32 : BitVec 32).toInt = 128 := by decide
  split
  · exact (hb _).1
  · rw [h128]; omega

theorem idxKKer_row (n : Fin 4096) :
    idxKKer b gj gi (ix3 n 0) = bsafeKer b gj gi (Idealize.ShloMosaic.Dedupe.k1 n) ∧
    idxKKer b gj gi (ix3 n 1) = gj (Idealize.ShloMosaic.Dedupe.k1 n) ∧ idxKKer b gj gi (ix3 n 2) = gi (Idealize.ShloMosaic.Dedupe.k1 n) := by
  refine ⟨?_, ?_, ?_⟩
  · refine ((concat3_apply Cert.KernelIdeal.Facts₀.concatenates_S4096x1_S4096x1_S4096x1_S4096x3_d1 _ _ _ n).1).trans ?_
    refine (bc1_apply Cert.KernelIdeal.Facts₀.bcast_S4096_S4096x1_0 _ n).trans ?_
    exact norm_of_nonneg _ _ (bsafeKer_nonneg b gj gi hb n)
  · refine ((concat3_apply Cert.KernelIdeal.Facts₀.concatenates_S4096x1_S4096x1_S4096x1_S4096x3_d1 _ _ _ n).2.1).trans ?_
    refine (bc1_apply Cert.KernelIdeal.Facts₀.bcast_S4096_S4096x1_0 _ n).trans ?_
    exact norm_of_nonneg _ _ (hj _).1
  · refine ((concat3_apply Cert.KernelIdeal.Facts₀.concatenates_S4096x1_S4096x1_S4096x1_S4096x3_d1 _ _ _ n).2.2).trans ?_
    refine (bc1_apply Cert.KernelIdeal.Facts₀.bcast_S4096_S4096x1_0 _ n).trans ?_
    exact norm_of_nonneg _ _ (hi _).1

end KerPt

section RefPt
variable [Cert.ReferenceIdeal.Facts₀]
include hb hj hi

theorem idxRRef_row (n : Fin 4096) :
    idxRRef b gj gi (ix3 n 0) = b (Idealize.ShloMosaic.Dedupe.k1 n) ∧
    idxRRef b gj gi (ix3 n 1) = gj (Idealize.ShloMosaic.Dedupe.k1 n) ∧ idxRRef b gj gi (ix3 n 2) = gi (Idealize.ShloMosaic.Dedupe.k1 n) := by
  refine ⟨?_, ?_, ?_⟩
  · refine ((concat3_apply Cert.ReferenceIdeal.Facts₀.concatenates_S4096x1_S4096x1_S4096x1_S4096x3_d1 _ _ _ n).1).trans ?_
    refine (bc1_apply Cert.ReferenceIdeal.Facts₀.bcast_S4096_S4096x1_0 _ n).trans ?_
    exact norm_of_nonneg _ _ (hb _).1
  · refine ((concat3_apply Cert.ReferenceIdeal.Facts₀.concatenates_S4096x1_S4096x1_S4096x1_S4096x3_d1 _ _ _ n).2.1).trans ?_
    refine (bc1_apply Cert.ReferenceIdeal.Facts₀.bcast_S4096_S4096x1_0 _ n).trans ?_
    exact norm_of_nonneg _ _ (hj _).1
  · refine ((concat3_apply Cert.ReferenceIdeal.Facts₀.concatenates_S4096x1_S4096x1_S4096x1_S4096x3_d1 _ _ _ n).2.2).trans ?_
    refine (bc1_apply Cert.ReferenceIdeal.Facts₀.bcast_S4096_S4096x1_0 _ n).trans ?_
    exact norm_of_nonneg _ _ (hi _).1

theorem idxMRef_row (n : Fin 4096) :
    idxMRef b gj gi (ix3 n 0) = b (Idealize.ShloMosaic.Dedupe.k1 n) ∧
    idxMRef b gj gi (ix3 n 1) = gj (Idealize.ShloMosaic.Dedupe.k1 n) ∧ idxMRef b gj gi (ix3 n 2) = gi (Idealize.ShloMosaic.Dedupe.k1 n) := by
  refine ⟨?_, ?_, ?_⟩
  · refine ((concat3_apply Cert.ReferenceIdeal.Facts₀.concatenates_S4096x1_S4096x1_S4096x1_S4096x3_d1 _ _ _ n).1).trans ?_
    refine (bc1_apply Cert.ReferenceIdeal.Facts₀.bcast_S4096_S4096x1_0 _ n).trans ?_
    exact norm_of_nonneg _ _ (hb _).1
  · refine ((concat3_apply Cert.ReferenceIdeal.Facts₀.concatenates_S4096x1_S4096x1_S4096x1_S4096x3_d1 _ _ _ n).2.1).trans ?_
    refine (bc1_apply Cert.ReferenceIdeal.Facts₀.bcast_S4096_S4096x1_0 _ n).trans ?_
    exact norm_of_nonneg _ _ (hj _).1
  · refine ((concat3_apply Cert.ReferenceIdeal.Facts₀.concatenates_S4096x1_S4096x1_S4096x1_S4096x3_d1 _ _ _ n).2.2).trans ?_
    refine (bc1_apply Cert.ReferenceIdeal.Facts₀.bcast_S4096_S4096x1_0 _ n).trans ?_
    exact norm_of_nonneg _ _ (hi _).1

end RefPt

end Pointwise

theorem tt_eq [Cert.KernelIdeal.Facts₀] [Cert.ReferenceIdeal.Facts₀] {F : FTy → Type} [FloatOps F]
    (b gj gi : IVec SK 32) (vals : FVec F SKx5 .f32)
    (hb : ∀ k, 0 ≤ (b k).toInt ∧ (b k).toInt < 128)
    (hj : ∀ k, 0 ≤ (gj k).toInt ∧ (gj k).toInt < 160)
    (hi : ∀ k, 0 ≤ (gi k).toInt ∧ (gi k).toInt < 160)
    (iK : SKer.Idx) (iR : SRef.Idx)
    (h0 : (iK 0).val = (iR 0).val) (h1 : (iK 1).val = (iR 3).val)
    (h2 : (iK 2).val = (iR 1).val) (h3 : (iK 3).val = (iR 2).val) :
    ttKer b gj gi vals iK = ttRef b gj gi vals iR :=
  DedupeCore.tt_core 160 (by decide) (rowOf b) (rowOf gj) (rowOf gi) (fun _ => hb _) (fun _ => hj _) (fun _ => hi _)
    (idxRRef b gj gi) (idxKKer b gj gi) (idxWKer b gj gi) (idxGKer b gj gi) (iotaInDim SK 32 0)
    (fun _ => 0#32) (fun n => bsafeKer b gj gi (Idealize.ShloMosaic.Dedupe.k1 n))
    (idxRRef_row b gj gi hb hj hi) (idxWKer_row b gj gi hb hj hi) (idxGKer_row b gj gi hb hj hi)
    (fun _ => rfl) (bsafeKer_row b gj gi) (idxKKer_row b gj gi hb hj hi)
    vals (FloatOps.ofBits .f32 0x00000000#32) iK iR h0 h1 h2 h3

theorem mask_tt [Cert.ReferenceIdeal.Facts₀] {F : FTy → Type} [FloatOps F]
    (b gj gi : IVec SK 32) (vals : FVec F SKx5 .f32)
    (hb : ∀ k, 0 ≤ (b k).toInt ∧ (b k).toInt < 128)
    (hj : ∀ k, 0 ≤ (gj k).toInt ∧ (gj k).toInt < 160)
    (hi : ∀ k, 0 ≤ (gi k).toInt ∧ (gi k).toInt < 160)
    (one : F .f32)
    (hone : ∀ n : Fin 4096, vals (Shape.pair (d := ![4096, 5]) n (4 : Fin 5)) = one)
    (iR : SRef.Idx) (iM : SMask.Idx)
    (h0 : (iM 0).val = (iR 0).val) (h1 : (iM 1).val = (iR 1).val) (h2 : (iM 2).val = (iR 2).val)
    (h3 : (iR 3).val = 4) :
    (maskRef b gj gi iM = 1#1 ∧ ttRef b gj gi vals iR = one) ∨
    (maskRef b gj gi iM = 0#1 ∧ ttRef b gj gi vals iR = FloatOps.ofBits .f32 0x00000000#32) :=
  DedupeCore.mask_core 160 (rowOf b) (rowOf gj) (rowOf gi) (idxRRef b gj gi) (idxMRef b gj gi)
    (idxRRef_row b gj gi hb hj hi) (idxMRef_row b gj gi hb hj hi)
    vals (FloatOps.ofBits .f32 0x00000000#32) one hone iR iM h0 h1 h2 h3

end Cert.Hand.Dedupe1
-- ==== Proof.Dedupe2.lean ====
import proofs.«409303_j18760417149025_3_alg».proof.KernelIdeal
import proofs.«409303_j18760417149025_3_alg».proof.ReferenceIdeal
import proofs.«409303_j18760417149025_3_alg».proof.Proof.DedupeCore

noncomputable section

namespace Cert.Hand.Dedupe2
open Idealize.ShloMosaic

export DedupeCore (SK SKx5 ix1 ix3 bc1_apply concat3_apply norm_of_nonneg cmpi_eq_one_iff)

abbrev SRef := DedupeCore.SRef 80
abbrev SMask := DedupeCore.SMask 80
abbrev SKer := DedupeCore.SKer 80
abbrev dWin := DedupeCore.dWin 80
abbrev dGat := DedupeCore.dGat 80 (by decide)
abbrev cellWord := DedupeCore.cellWord 80

section Ker
open Cert.KernelIdeal Cert.KernelIdeal.Facts₀
variable [Cert.KernelIdeal.Facts₀] {F : FTy → Type} [FloatOps F]

def cellKer (main_v2 main_v18 main_v16 : IVec S4096 32) : IVec S4096 32 :=
  let main_c_7 : IVec S_ 32 := constantI S_ 32 80#32
  let main_v34 : IVec S4096 32 := broadcastInDim S4096 ![] bcast_S_S4096 main_c_7
  let main_v35 : IVec S4096 32 := muli main_v2 main_v34
  let main_v36 : IVec S4096 32 := addi main_v35 main_v18
  let main_c_8 : IVec S_ 32 := constantI S_ 32 80#32
  let main_v37 : IVec S4096 32 := broadcastInDim S4096 ![] bcast_S_S4096 main_c_8
  let main_v38 : IVec S4096 32 := muli main_v36 main_v37
  let main_v39 : IVec S4096 32 := addi main_v38 main_v16
  main_v39

def idxWKer (main_v2 main_v18 main_v16 : IVec S4096 32) : IVec S4096x1 32 :=
  let main_v39 : IVec S4096 32 := cellKer main_v2 main_v18 main_v16
  let main_c_10 : IVec S_ 32 := constantI S_ 32 0#32
  let main_v42 : IVec S4096 32 := broadcastInDim S4096 ![] bcast_S_S4096 main_c_10
  let main_v43 : IVec S4096 1 := cmpi .slt main_v39 main_v42
  let main_c_11 : IVec S_ 32 := constantI S_ 32 819200#32
  let main_v44 : IVec S4096 32 := broadcastInDim S4096 ![] bcast_S_S4096 main_c_11
  let main_v45 : IVec S4096 32 := addi main_v39 main_v44
  let main_v46 : IVec S4096 32 := select main_v43 main_v45 main_v39
  let main_v47 : IVec S4096x1 32 := broadcastInDim S4096x1 ![0] bcast_S4096_S4096x1_0 main_v46
  main_v47

def winnerKer (main_v2 main_v18 main_v16 : IVec S4096 32) : IVec S819200 32 :=
  let main_v47 : IVec S4096x1 32 := idxWKer main_v2 main_v18 main_v16
  let main_c_9 : IVec S_ 32 := constantI S_ 32 0#32
  let main_v40 : IVec S819200 32 := broadcastInDim S819200 ![] bcast_S_S819200 main_c_9
  let main_v41 : IVec S4096 32 := iotaInDim S4096 32 0
  let main_v48 : IVec S819200 32 := (fun x i u => Host.scatter scatter_S819200_S4096x1_S4096_n_0_0_1 (fun _ b => b) x i u) main_v40 main_v47 main_v41
  main_v48

def idxGKer (main_v2 main_v18 main_v16 : IVec S4096 32) : IVec S4096x1 32 :=
  let main_v39 : IVec S4096 32 := cellKer main_v2 main_v18 main_v16
  let main_c_12 : IVec S_ 32 := constantI S_ 32 0#32
  let main_v49 : IVec S4096 32 := broadcastInDim S4096 ![] bcast_S_S4096 main_c_12
  let main_v50 : IVec S4096 1 := cmpi .slt main_v39 main_v49
  let main_c_13 : IVec S_ 32 := constantI S_ 32 819200#32
  let main_v51 : IVec S4096 32 := broadcastInDim S4096 ![] bcast_S_S4096 main_c_13
  let main_v52 : IVec S4096 32 := addi main_v39 main_v51
  let main_v53 : IVec S4096 32 := select main_v50 main_v52 main_v39
  let main_v54 : IVec S4096x1 32 := broadcastInDim S4096x1 ![0] bcast_S4096_S4096x1_0 main_v53
  main_v54

def bsafeKer (main_v2 main_v18 main_v16 : IVec S4096 32) : IVec S4096 32 :=
  let main_v48 : IVec S819200 32 := winnerKer main_v2 main_v18 main_v16
  let main_v54 : IVec S4096x1 32 := idxGKer main_v2 main_v18 main_v16
  let main_v55 : IVec S4096 32 := (fun x i => Host.gather gather_S819200_S4096x1_S4096_n_0_n_n_0_1_1 x i) main_v48 main_v54
  let main_v56 : IVec S4096 32 := iotaInDim S4096 32 0
  let main_v57 : IVec S4096 1 := cmpi .eq main_v55 main_v56
  let main_c_14 : IVec S_ 32 := constantI S_ 32 128#32
  let main_call2_v0 : IVec S_ 32 := id main_c_14
  let main_call2_v1 : IVec S4096 32 := broadcastInDim S4096 ![] bcast_S_S4096 main_call2_v0
  let main_v58 : IVec S4096 32 := select main_v57 main_v2 main_call2_v1
  main_v58

def idxKKer (main_v2 main_v18 main_v16 : IVec S4096 32) : IVec S4096x3 32 :=
  let main_v58 : IVec S4096 32 := bsafeKer main_v2 main_v18 main_v16
  let main_c_16 : IVec S_ 32 := constantI S_ 32 0#32
  let main_v60 : IVec S4096 32 := broadcastInDim S4096 ![] bcast_S_S4096 main_c_16
  let main_v61 : IVec S4096 1 := cmpi .slt main_v58 main_v60
  let main_c_17 : IVec S_ 32 := constantI S_ 32 128#32
  let main_v62 : IVec S4096 32 := broadcastInDim S4096 ![] bcast_S_S4096 main_c_17
  let main_v63 : IVec S4096 32 := addi main_v58 main_v62
  let main_v64 : IVec S4096 32 := select main_v61 main_v63 main_v58
  let main_c_18 : IVec S_ 32 := constantI S_ 32 0#32
  let main_v65 : IVec S4096 32 := broadcastInDim S4096 ![] bcast_S_S4096 main_c_18
  let main_v66 : IVec S4096 1 := cmpi .slt main_v18 main_v65
  let main_c_19 : IVec S_ 32 := constantI S_ 32 80#32
  let main_v67 : IVec S4096 32 := broadcastInDim S4096 ![] bcast_S_S4096 main_c_19
  let main_v68 : IVec S4096 32 := addi main_v18 main_v67
  let main_v69 : IVec S4096 32 := select main_v66 main_v68 main_v18
  let main_c_20 : IVec S_ 32 := constantI S_ 32 0#32
  let main_v70 : IVec S4096 32 := broadcastInDim S4096 ![] bcast_S_S4096 main_c_20
  let main_v71 : IVec S4096 1 := cmpi .slt main_v16 main_v70
  let main_c_21 : IVec S_ 32 := constantI S_ 32 80#32
  let main_v72 : IVec S4096 32 := broadcastInDim S4096 ![] bcast_S_S4096 main_c_21
  let main_v73 : IVec S4096 32 := addi main_v16 main_v72
  let main_v74 : IVec S4096 32 := select main_v71 main_v73 main_v16
  let main_v75 : IVec S4096x1 32 := broadcastInDim S4096x1 ![0] bcast_S4096_S4096x1_0 main_v64
  let main_v76 : IVec S4096x1 32 := broadcastInDim S4096x1 ![0] bcast_S4096_S4096x1_0 main_v69
  let main_v77 : IVec S4096x1 32 := broadcastInDim S4096x1 ![0] bcast_S4096_S4096x1_0 main_v74
  let main_v78 : IVec S4096x3 32 := concatenate S4096x3 1 [⟨S4096x1, main_v75⟩, ⟨S4096x1, main_v76⟩, ⟨S4096x1, main_v77⟩] concatenates_S4096x1_S4096x1_S4096x1_S4096x3_d1
  main_v78

def ttKer (main_v2 main_v18 main_v16 : IVec S4096 32) (main_v33 : FVec F S4096x5 .f32) :
    FVec F S128x5x80x80 .f32 :=
  let main_v78 : IVec S4096x3 32 := idxKKer main_v2 main_v18 main_v16
  let main_cst_15 : FVec F S_ .f32 := constant S_ .f32 0x00000000#32
  let main_v59 : FVec F S128x5x80x80 .f32 := broadcastInDim S128x5x80x80 ![] bcast_S_S128x5x80x80 main_cst_15
  let main_v79 : FVec F S128x5x80x80 .f32 := (fun x i u => Host.scatter scatter_S128x5x80x80_S4096x3_S4096x5_1_023_023_1 (fun _ b => b) x i u) main_v59 main_v78 main_v33
  main_v79

end Ker

section Ref
open Cert.ReferenceIdeal Cert.ReferenceIdeal.Facts₀
variable [Cert.ReferenceIdeal.Facts₀] {F : FTy → Type} [FloatOps F]

def idxRRef (main_v2 main_v18 main_v16 : IVec S4096 32) : IVec S4096x3 32 :=
  let main_c_8 : IVec S_ 32 := constantI S_ 32 0#32
  let main_v35 : IVec S4096 32 := broadcastInDim S4096 ![] bcast_S_S4096 main_c_8
  let main_v36 : IVec S4096 1 := cmpi .slt main_v2 main_v35
  let main_c_9 : IVec S_ 32 := constantI S_ 32 128#32
  let main_v37 : IVec S4096 32 := broadcastInDim S4096 ![] bcast_S_S4096 main_c_9
  let main_v38 : IVec S4096 32 := addi main_v2 main_v37
  let main_v39 : IVec S4096 32 := select main_v36 main_v38 main_v2
  let main_c_10 : IVec S_ 32 := constantI S_ 32 0#32
  let main_v40 : IVec S4096 32 := broadcastInDim S4096 ![] bcast_S_S4096 main_c_10
  let main_v41 : IVec S4096 1 := cmpi .slt main_v18 main_v40
  let main_c_11 : IVec S_ 32 := constantI S_ 32 80#32
  let main_v42 : IVec S4096 32 := broadcastInDim S4096 ![] bcast_S_S4096 main_c_11
  let main_v43 : IVec S4096 32 := addi main_v18 main_v42
  let main_v44 : IVec S4096 32 := select main_v41 main_v43 main_v18
  let main_c_12 : IVec S_ 32 := constantI S_ 32 0#32
  let main_v45 : IVec S4096 32 := broadcastInDim S4096 ![] bcast_S_S4096 main_c_12
  let main_v46 : IVec S4096 1 := cmpi .slt main_v16 main_v45
  let main_c_13 : IVec S_ 32 := constantI S_ 32 80#32
  let main_v47 : IVec S4096 32 := broadcastInDim S4096 ![] bcast_S_S4096 main_c_13
  let main_v48 : IVec S4096 32 := addi main_v16 main_v47
  let main_v49 : IVec S4096 32 := select main_v46 main_v48 main_v16
  let main_v50 : IVec S4096x1 32 := broadcastInDim S4096x1 ![0] bcast_S4096_S4096x1_0 main_v39
  let main_v51 : IVec S4096x1 32 := broadcastInDim S4096x1 ![0] bcast_S4096_S4096x1_0 main_v44
  let main_v52 : IVec S4096x1 32 := broadcastInDim S4096x1 ![0] bcast_S4096_S4096x1_0 main_v49
  let main_v53 : IVec S4096x3 32 := concatenate S4096x3 1 [⟨S4096x1, main_v50⟩, ⟨S4096x1, main_v51⟩, ⟨S4096x1, main_v52⟩] concatenates_S4096x1_S4096x1_S4096x1_S4096x3_d1
  main_v53

def ttRef (main_v2 main_v18 main_v16 : IVec S4096 32) (main_v33 : FVec F S4096x5 .f32) :
    FVec F S128x80x80x5 .f32 :=
  let main_v53 : IVec S4096x3 32 := idxRRef main_v2 main_v18 main_v16
  let main_cst_7 : FVec F S_ .f32 := constant S_ .f32 0x00000000#32
  let main_v34 : FVec F S128x80x80x5 .f32 := broadcastInDim S128x80x80x5 ![] bcast_S_S128x80x80x5 main_cst_7
  let main_v54 : FVec F S128x80x80x5 .f32 := (fun x i u => Host.scatter scatter_S128x80x80x5_S4096x3_S4096x5_1_012_012_1 (fun _ b => b) x i u) main_v34 main_v53 main_v33
  main_v54

def idxMRef (main_v2 main_v18 main_v16 : IVec S4096 32) : IVec S4096x3 32 :=
  let main_c_15 : IVec S_ 32 := constantI S_ 32 0#32
  let main_v56 : IVec S4096 32 := broadcastInDim S4096 ![] bcast_S_S4096 main_c_15
  let main_v57 : IVec S4096 1 := cmpi .slt main_v2 main_v56
  let main_c_16 : IVec S_ 32 := constantI S_ 32 128#32
  let main_v58 : IVec S4096 32 := broadcastInDim S4096 ![] bcast_S_S4096 main_c_16
  let main_v59 : IVec S4096 32 := addi main_v2 main_v58
  let main_v60 : IVec S4096 32 := select main_v57 main_v59 main_v2
  let main_c_17 : IVec S_ 32 := constantI S_ 32 0#32
  let main_v61 : IVec S4096 32 := broadcastInDim S4096 ![] bcast_S_S4096 main_c_17
  let main_v62 : IVec S4096 1 := cmpi .slt main_v18 main_v61
  let main_c_18 : IVec S_ 32 := constantI S_ 32 80#32
  let main_v63 : IVec S4096 32 := broadcastInDim S4096 ![] bcast_S_S4096 main_c_18
  let main_v64 : IVec S4096 32 := addi main_v18 main_v63
  let main_v65 : IVec S4096 32 := select main_v62 main_v64 main_v18
  let main_c_19 : IVec S_ 32 := constantI S_ 32 0#32
  let main_v66 : IVec S4096 32 := broadcastInDim S4096 ![] bcast_S_S4096 main_c_19
  let main_v67 : IVec S4096 1 := cmpi .slt main_v16 main_v66
  let main_c_20 : IVec S_ 32 := constantI S_ 32 80#32
  let main_v68 : IVec S4096 32 := broadcastInDim S4096 ![] bcast_S_S4096 main_c_20
  let main_v69 : IVec S4096 32 := addi main_v16 main_v68
  let main_v70 : IVec S4096 32 := select main_v67 main_v69 main_v16
  let main_v71 : IVec S4096x1 32 := broadcastInDim S4096x1 ![0] bcast_S4096_S4096x1_0 main_v60
  let main_v72 : IVec S4096x1 32 := broadcastInDim S4096x1 ![0] bcast_S4096_S4096x1_0 main_v65
  let main_v73 : IVec S4096x1 32 := broadcastInDim S4096x1 ![0] bcast_S4096_S4096x1_0 main_v70
  let main_v74 : IVec S4096x3 32 := concatenate S4096x3 1 [⟨S4096x1, main_v71⟩, ⟨S4096x1, main_v72⟩, ⟨S4096x1, main_v73⟩] concatenates_S4096x1_S4096x1_S4096x1_S4096x3_d1
  main_v74

def maskRef (main_v2 main_v18 main_v16 : IVec S4096 32) : IVec S128x80x80 1 :=
  let main_v74 : IVec S4096x3 32 := idxMRef main_v2 main_v18 main_v16
  let main_c_14 : IVec S_ 1 := constantI S_ 1 0#1
  let main_v55 : IVec S128x80x80 1 := broadcastInDim S128x80x80 ![] bcast_S_S128x80x80 main_c_14
  let main_c_21 : IVec S_ 1 := constantI S_ 1 1#1
  let main_v75 : IVec S4096 1 := broadcastInDim S4096 ![] bcast_S_S4096 main_c_21
  let main_v76 : IVec S128x80x80 1 := (fun x i u => Host.scatter scatter_S128x80x80_S4096x3_S4096_n_012_012_1 (fun _ b => b) x i u) main_v55 main_v74 main_v75
  main_v76

end Ref

section Pointwise
variable (b gj gi : IVec SK 32)
  (hb : ∀ k, 0 ≤ (b k).toInt ∧ (b k).toInt < 128)
  (hj : ∀ k, 0 ≤ (gj k).toInt ∧ (gj k).toInt < 80)
  (hi : ∀ k, 0 ≤ (gi k).toInt ∧ (gi k).toInt < 80)

abbrev rowOf (x : IVec SK 32) : Fin 4096 → BitVec 32 := fun n => x (Idealize.ShloMosaic.Dedupe.k1 n)

section KerPt
variable [Cert.KernelIdeal.Facts₀]
include hb hj hi

theorem cellKer_row (n : Fin 4096) :
    cellKer b gj gi (Idealize.ShloMosaic.Dedupe.k1 n) = cellWord (rowOf b) (rowOf gj) (rowOf gi) n := rfl

theorem cellWord_nonneg (n : Fin 4096) : 0 ≤ (cellWord (rowOf b) (rowOf gj) (rowOf gi) n).toInt :=
  DedupeCore.cellWord_nonneg 80 (by decide) _ _ _ (fun _ => hb _) (fun _ => hj _) (fun _ => hi _) n

theorem idxWKer_row (n : Fin 4096) :
    idxWKer b gj gi (ix1 n) = cellWord (rowOf b) (rowOf gj) (rowOf gi) n := by
  unfold idxWKer
  dsimp only
  rw [bc1_apply]
  exact norm_of_nonneg _ _ (cellWord_nonneg b gj gi hb hj hi n)

theorem idxGKer_row (n : Fin 4096) :
    idxGKer b gj gi (ix1 n) = cellWord (rowOf b) (rowOf gj) (rowOf gi) n := by
  unfold idxGKer
  dsimp only
  rw [bc1_apply]
  exact norm_of_nonneg _ _ (cellWord_nonneg b gj gi hb hj hi n)

omit hb hj hi in
theorem bsafeKer_row (n : Fin 4096) :
    bsafeKer b gj gi (Idealize.ShloMosaic.Dedupe.k1 n) =
      if Host.gather dGat (Host.scatter dWin (fun _ b => b) (fun _ => 0#32) (idxWKer b gj gi)
            (iotaInDim SK 32 0)) (idxGKer b gj gi) (Idealize.ShloMosaic.Dedupe.k1 n) = iotaInDim SK 32 0 (Idealize.ShloMosaic.Dedupe.k1 n)
      then b (Idealize.ShloMosaic.Dedupe.k1 n) else 128#32 := by
  show (if IntOp.cmpi .eq
      (Host.gather dGat (Host.scatter dWin (fun _ b => b) (fun _ => 0#32) (idxWKer b gj gi)
        (iotaInDim SK 32 0)) (idxGKer b gj gi) (Idealize.ShloMosaic.Dedupe.k1 n)) (iotaInDim SK 32 0 (Idealize.ShloMosaic.Dedupe.k1 n)) = 1#1
    then b (Idealize.ShloMosaic.Dedupe.k1 n) else 128#32) = _
  by_cases h : Host.gather dGat (Host.scatter dWin (fun _ b => b) (fun _ => 0#32) (idxWKer b gj gi)
      (iotaInDim SK 32 0)) (idxGKer b gj gi) (Idealize.ShloMosaic.Dedupe.k1 n) = iotaInDim SK 32 0 (Idealize.ShloMosaic.Dedupe.k1 n)
  · rw [if_pos h, if_pos ((cmpi_eq_one_iff _ _).2 h)]
  · rw [if_neg h, if_neg (fun h' => h ((cmpi_eq_one_iff _ _).1 h'))]

omit hj hi in
theorem bsafeKer_nonneg (n : Fin 4096) : 0 ≤ (bsafeKer b gj gi (Idealize.ShloMosaic.Dedupe.k1 n)).toInt := by
  rw [bsafeKer_row]
  have h128 : (128#32 : BitVec 32).toInt = 128 := by decide
  split
  · exact (hb _).1
  · rw [h128]; omega

theorem idxKKer_row (n : Fin 4096) :
    idxKKer b gj gi (ix3 n 0) = bsafeKer b gj gi (Idealize.ShloMosaic.Dedupe.k1 n) ∧
    idxKKer b gj gi (ix3 n 1) = gj (Idealize.ShloMosaic.Dedupe.k1 n) ∧ idxKKer b gj gi (ix3 n 2) = gi (Idealize.ShloMosaic.Dedupe.k1 n) := by
  refine ⟨?_, ?_, ?_⟩
  · refine ((concat3_apply Cert.KernelIdeal.Facts₀.concatenates_S4096x1_S4096x1_S4096x1_S4096x3_d1 _ _ _ n).1).trans ?_
    refine (bc1_apply Cert.KernelIdeal.Facts₀.bcast_S4096_S4096x1_0 _ n).trans ?_
    exact norm_of_nonneg _ _ (bsafeKer_nonneg b gj gi hb n)
  · refine ((concat3_apply Cert.KernelIdeal.Facts₀.concatenates_S4096x1_S4096x1_S4096x1_S4096x3_d1 _ _ _ n).2.1).trans ?_
    refine (bc1_apply Cert.KernelIdeal.Facts₀.bcast_S4096_S4096x1_0 _ n).trans ?_
    exact norm_of_nonneg _ _ (hj _).1
  · refine ((concat3_apply Cert.KernelIdeal.Facts₀.concatenates_S4096x1_S4096x1_S4096x1_S4096x3_d1 _ _ _ n).2.2).trans ?_
    refine (bc1_apply Cert.KernelIdeal.Facts₀.bcast_S4096_S4096x1_0 _ n).trans ?_
    exact norm_of_nonneg _ _ (hi _).1

end KerPt

section RefPt
variable [Cert.ReferenceIdeal.Facts₀]
include hb hj hi

theorem idxRRef_row (n : Fin 4096) :
    idxRRef b gj gi (ix3 n 0) = b (Idealize.ShloMosaic.Dedupe.k1 n) ∧
    idxRRef b gj gi (ix3 n 1) = gj (Idealize.ShloMosaic.Dedupe.k1 n) ∧ idxRRef b gj gi (ix3 n 2) = gi (Idealize.ShloMosaic.Dedupe.k1 n) := by
  refine ⟨?_, ?_, ?_⟩
  · refine ((concat3_apply Cert.ReferenceIdeal.Facts₀.concatenates_S4096x1_S4096x1_S4096x1_S4096x3_d1 _ _ _ n).1).trans ?_
    refine (bc1_apply Cert.ReferenceIdeal.Facts₀.bcast_S4096_S4096x1_0 _ n).trans ?_
    exact norm_of_nonneg _ _ (hb _).1
  · refine ((concat3_apply Cert.ReferenceIdeal.Facts₀.concatenates_S4096x1_S4096x1_S4096x1_S4096x3_d1 _ _ _ n).2.1).trans ?_
    refine (bc1_apply Cert.ReferenceIdeal.Facts₀.bcast_S4096_S4096x1_0 _ n).trans ?_
    exact norm_of_nonneg _ _ (hj _).1
  · refine ((concat3_apply Cert.ReferenceIdeal.Facts₀.concatenates_S4096x1_S4096x1_S4096x1_S4096x3_d1 _ _ _ n).2.2).trans ?_
    refine (bc1_apply Cert.ReferenceIdeal.Facts₀.bcast_S4096_S4096x1_0 _ n).trans ?_
    exact norm_of_nonneg _ _ (hi _).1

theorem idxMRef_row (n : Fin 4096) :
    idxMRef b gj gi (ix3 n 0) = b (Idealize.ShloMosaic.Dedupe.k1 n) ∧
    idxMRef b gj gi (ix3 n 1) = gj (Idealize.ShloMosaic.Dedupe.k1 n) ∧ idxMRef b gj gi (ix3 n 2) = gi (Idealize.ShloMosaic.Dedupe.k1 n) := by
  refine ⟨?_, ?_, ?_⟩
  · refine ((concat3_apply Cert.ReferenceIdeal.Facts₀.concatenates_S4096x1_S4096x1_S4096x1_S4096x3_d1 _ _ _ n).1).trans ?_
    refine (bc1_apply Cert.ReferenceIdeal.Facts₀.bcast_S4096_S4096x1_0 _ n).trans ?_
    exact norm_of_nonneg _ _ (hb _).1
  · refine ((concat3_apply Cert.ReferenceIdeal.Facts₀.concatenates_S4096x1_S4096x1_S4096x1_S4096x3_d1 _ _ _ n).2.1).trans ?_
    refine (bc1_apply Cert.ReferenceIdeal.Facts₀.bcast_S4096_S4096x1_0 _ n).trans ?_
    exact norm_of_nonneg _ _ (hj _).1
  · refine ((concat3_apply Cert.ReferenceIdeal.Facts₀.concatenates_S4096x1_S4096x1_S4096x1_S4096x3_d1 _ _ _ n).2.2).trans ?_
    refine (bc1_apply Cert.ReferenceIdeal.Facts₀.bcast_S4096_S4096x1_0 _ n).trans ?_
    exact norm_of_nonneg _ _ (hi _).1

end RefPt

end Pointwise

theorem tt_eq [Cert.KernelIdeal.Facts₀] [Cert.ReferenceIdeal.Facts₀] {F : FTy → Type} [FloatOps F]
    (b gj gi : IVec SK 32) (vals : FVec F SKx5 .f32)
    (hb : ∀ k, 0 ≤ (b k).toInt ∧ (b k).toInt < 128)
    (hj : ∀ k, 0 ≤ (gj k).toInt ∧ (gj k).toInt < 80)
    (hi : ∀ k, 0 ≤ (gi k).toInt ∧ (gi k).toInt < 80)
    (iK : SKer.Idx) (iR : SRef.Idx)
    (h0 : (iK 0).val = (iR 0).val) (h1 : (iK 1).val = (iR 3).val)
    (h2 : (iK 2).val = (iR 1).val) (h3 : (iK 3).val = (iR 2).val) :
    ttKer b gj gi vals iK = ttRef b gj gi vals iR :=
  DedupeCore.tt_core 80 (by decide) (rowOf b) (rowOf gj) (rowOf gi) (fun _ => hb _) (fun _ => hj _) (fun _ => hi _)
    (idxRRef b gj gi) (idxKKer b gj gi) (idxWKer b gj gi) (idxGKer b gj gi) (iotaInDim SK 32 0)
    (fun _ => 0#32) (fun n => bsafeKer b gj gi (Idealize.ShloMosaic.Dedupe.k1 n))
    (idxRRef_row b gj gi hb hj hi) (idxWKer_row b gj gi hb hj hi) (idxGKer_row b gj gi hb hj hi)
    (fun _ => rfl) (bsafeKer_row b gj gi) (idxKKer_row b gj gi hb hj hi)
    vals (FloatOps.ofBits .f32 0x00000000#32) iK iR h0 h1 h2 h3

theorem mask_tt [Cert.ReferenceIdeal.Facts₀] {F : FTy → Type} [FloatOps F]
    (b gj gi : IVec SK 32) (vals : FVec F SKx5 .f32)
    (hb : ∀ k, 0 ≤ (b k).toInt ∧ (b k).toInt < 128)
    (hj : ∀ k, 0 ≤ (gj k).toInt ∧ (gj k).toInt < 80)
    (hi : ∀ k, 0 ≤ (gi k).toInt ∧ (gi k).toInt < 80)
    (one : F .f32)
    (hone : ∀ n : Fin 4096, vals (Shape.pair (d := ![4096, 5]) n (4 : Fin 5)) = one)
    (iR : SRef.Idx) (iM : SMask.Idx)
    (h0 : (iM 0).val = (iR 0).val) (h1 : (iM 1).val = (iR 1).val) (h2 : (iM 2).val = (iR 2).val)
    (h3 : (iR 3).val = 4) :
    (maskRef b gj gi iM = 1#1 ∧ ttRef b gj gi vals iR = one) ∨
    (maskRef b gj gi iM = 0#1 ∧ ttRef b gj gi vals iR = FloatOps.ofBits .f32 0x00000000#32) :=
  DedupeCore.mask_core 80 (rowOf b) (rowOf gj) (rowOf gi) (idxRRef b gj gi) (idxMRef b gj gi)
    (idxRRef_row b gj gi hb hj hi) (idxMRef_row b gj gi hb hj hi)
    vals (FloatOps.ofBits .f32 0x00000000#32) one hone iR iM h0 h1 h2 h3

end Cert.Hand.Dedupe2
-- ==== Proof.Dedupe3.lean ====
import proofs.«409303_j18760417149025_3_alg».proof.KernelIdeal
import proofs.«409303_j18760417149025_3_alg».proof.ReferenceIdeal
import proofs.«409303_j18760417149025_3_alg».proof.Proof.DedupeCore

noncomputable section

namespace Cert.Hand.Dedupe3
open Idealize.ShloMosaic

export DedupeCore (SK SKx5 ix1 ix3 bc1_apply concat3_apply norm_of_nonneg cmpi_eq_one_iff)

abbrev SRef := DedupeCore.SRef 40
abbrev SMask := DedupeCore.SMask 40
abbrev SKer := DedupeCore.SKer 40
abbrev dWin := DedupeCore.dWin 40
abbrev dGat := DedupeCore.dGat 40 (by decide)
abbrev cellWord := DedupeCore.cellWord 40

section Ker
open Cert.KernelIdeal Cert.KernelIdeal.Facts₀
variable [Cert.KernelIdeal.Facts₀] {F : FTy → Type} [FloatOps F]

def cellKer (main_v2 main_v18 main_v16 : IVec S4096 32) : IVec S4096 32 :=
  let main_c_7 : IVec S_ 32 := constantI S_ 32 40#32
  let main_v34 : IVec S4096 32 := broadcastInDim S4096 ![] bcast_S_S4096 main_c_7
  let main_v35 : IVec S4096 32 := muli main_v2 main_v34
  let main_v36 : IVec S4096 32 := addi main_v35 main_v18
  let main_c_8 : IVec S_ 32 := constantI S_ 32 40#32
  let main_v37 : IVec S4096 32 := broadcastInDim S4096 ![] bcast_S_S4096 main_c_8
  let main_v38 : IVec S4096 32 := muli main_v36 main_v37
  let main_v39 : IVec S4096 32 := addi main_v38 main_v16
  main_v39

def idxWKer (main_v2 main_v18 main_v16 : IVec S4096 32) : IVec S4096x1 32 :=
  let main_v39 : IVec S4096 32 := cellKer main_v2 main_v18 main_v16
  let main_c_10 : IVec S_ 32 := constantI S_ 32 0#32
  let main_v42 : IVec S4096 32 := broadcastInDim S4096 ![] bcast_S_S4096 main_c_10
  let main_v43 : IVec S4096 1 := cmpi .slt main_v39 main_v42
  let main_c_11 : IVec S_ 32 := constantI S_ 32 204800#32
  let main_v44 : IVec S4096 32 := broadcastInDim S4096 ![] bcast_S_S4096 main_c_11
  let main_v45 : IVec S4096 32 := addi main_v39 main_v44
  let main_v46 : IVec S4096 32 := select main_v43 main_v45 main_v39
  let main_v47 : IVec S4096x1 32 := broadcastInDim S4096x1 ![0] bcast_S4096_S4096x1_0 main_v46
  main_v47

def winnerKer (main_v2 main_v18 main_v16 : IVec S4096 32) : IVec S204800 32 :=
  let main_v47 : IVec S4096x1 32 := idxWKer main_v2 main_v18 main_v16
  let main_c_9 : IVec S_ 32 := constantI S_ 32 0#32
  let main_v40 : IVec S204800 32 := broadcastInDim S204800 ![] bcast_S_S204800 main_c_9
  let main_v41 : IVec S4096 32 := iotaInDim S4096 32 0
  let main_v48 : IVec S204800 32 := (fun x i u => Host.scatter scatter_S204800_S4096x1_S4096_n_0_0_1 (fun _ b => b) x i u) main_v40 main_v47 main_v41
  main_v48

def idxGKer (main_v2 main_v18 main_v16 : IVec S4096 32) : IVec S4096x1 32 :=
  let main_v39 : IVec S4096 32 := cellKer main_v2 main_v18 main_v16
  let main_c_12 : IVec S_ 32 := constantI S_ 32 0#32
  let main_v49 : IVec S4096 32 := broadcastInDim S4096 ![] bcast_S_S4096 main_c_12
  let main_v50 : IVec S4096 1 := cmpi .slt main_v39 main_v49
  let main_c_13 : IVec S_ 32 := constantI S_ 32 204800#32
  let main_v51 : IVec S4096 32 := broadcastInDim S4096 ![] bcast_S_S4096 main_c_13
  let main_v52 : IVec S4096 32 := addi main_v39 main_v51
  let main_v53 : IVec S4096 32 := select main_v50 main_v52 main_v39
  let main_v54 : IVec S4096x1 32 := broadcastInDim S4096x1 ![0] bcast_S4096_S4096x1_0 main_v53
  main_v54

def bsafeKer (main_v2 main_v18 main_v16 : IVec S4096 32) : IVec S4096 32 :=
  let main_v48 : IVec S204800 32 := winnerKer main_v2 main_v18 main_v16
  let main_v54 : IVec S4096x1 32 := idxGKer main_v2 main_v18 main_v16
  let main_v55 : IVec S4096 32 := (fun x i => Host.gather gather_S204800_S4096x1_S4096_n_0_n_n_0_1_1 x i) main_v48 main_v54
  let main_v56 : IVec S4096 32 := iotaInDim S4096 32 0
  let main_v57 : IVec S4096 1 := cmpi .eq main_v55 main_v56
  let main_c_14 : IVec S_ 32 := constantI S_ 32 128#32
  let main_call2_v0 : IVec S_ 32 := id main_c_14
  let main_call2_v1 : IVec S4096 32 := broadcastInDim S4096 ![] bcast_S_S4096 main_call2_v0
  let main_v58 : IVec S4096 32 := select main_v57 main_v2 main_call2_v1
  main_v58

def idxKKer (main_v2 main_v18 main_v16 : IVec S4096 32) : IVec S4096x3 32 :=
  let main_v58 : IVec S4096 32 := bsafeKer main_v2 main_v18 main_v16
  let main_c_16 : IVec S_ 32 := constantI S_ 32 0#32
  let main_v60 : IVec S4096 32 := broadcastInDim S4096 ![] bcast_S_S4096 main_c_16
  let main_v61 : IVec S4096 1 := cmpi .slt main_v58 main_v60
  let main_c_17 : IVec S_ 32 := constantI S_ 32 128#32
  let main_v62 : IVec S4096 32 := broadcastInDim S4096 ![] bcast_S_S4096 main_c_17
  let main_v63 : IVec S4096 32 := addi main_v58 main_v62
  let main_v64 : IVec S4096 32 := select main_v61 main_v63 main_v58
  let main_c_18 : IVec S_ 32 := constantI S_ 32 0#32
  let main_v65 : IVec S4096 32 := broadcastInDim S4096 ![] bcast_S_S4096 main_c_18
  let main_v66 : IVec S4096 1 := cmpi .slt main_v18 main_v65
  let main_c_19 : IVec S_ 32 := constantI S_ 32 40#32
  let main_v67 : IVec S4096 32 := broadcastInDim S4096 ![] bcast_S_S4096 main_c_19
  let main_v68 : IVec S4096 32 := addi main_v18 main_v67
  let main_v69 : IVec S4096 32 := select main_v66 main_v68 main_v18
  let main_c_20 : IVec S_ 32 := constantI S_ 32 0#32
  let main_v70 : IVec S4096 32 := broadcastInDim S4096 ![] bcast_S_S4096 main_c_20
  let main_v71 : IVec S4096 1 := cmpi .slt main_v16 main_v70
  let main_c_21 : IVec S_ 32 := constantI S_ 32 40#32
  let main_v72 : IVec S4096 32 := broadcastInDim S4096 ![] bcast_S_S4096 main_c_21
  let main_v73 : IVec S4096 32 := addi main_v16 main_v72
  let main_v74 : IVec S4096 32 := select main_v71 main_v73 main_v16
  let main_v75 : IVec S4096x1 32 := broadcastInDim S4096x1 ![0] bcast_S4096_S4096x1_0 main_v64
  let main_v76 : IVec S4096x1 32 := broadcastInDim S4096x1 ![0] bcast_S4096_S4096x1_0 main_v69
  let main_v77 : IVec S4096x1 32 := broadcastInDim S4096x1 ![0] bcast_S4096_S4096x1_0 main_v74
  let main_v78 : IVec S4096x3 32 := concatenate S4096x3 1 [⟨S4096x1, main_v75⟩, ⟨S4096x1, main_v76⟩, ⟨S4096x1, main_v77⟩] concatenates_S4096x1_S4096x1_S4096x1_S4096x3_d1
  main_v78

def ttKer (main_v2 main_v18 main_v16 : IVec S4096 32) (main_v33 : FVec F S4096x5 .f32) :
    FVec F S128x5x40x40 .f32 :=
  let main_v78 : IVec S4096x3 32 := idxKKer main_v2 main_v18 main_v16
  let main_cst_15 : FVec F S_ .f32 := constant S_ .f32 0x00000000#32
  let main_v59 : FVec F S128x5x40x40 .f32 := broadcastInDim S128x5x40x40 ![] bcast_S_S128x5x40x40 main_cst_15
  let main_v79 : FVec F S128x5x40x40 .f32 := (fun x i u => Host.scatter scatter_S128x5x40x40_S4096x3_S4096x5_1_023_023_1 (fun _ b => b) x i u) main_v59 main_v78 main_v33
  main_v79

end Ker

section Ref
open Cert.ReferenceIdeal Cert.ReferenceIdeal.Facts₀
variable [Cert.ReferenceIdeal.Facts₀] {F : FTy → Type} [FloatOps F]

def idxRRef (main_v2 main_v18 main_v16 : IVec S4096 32) : IVec S4096x3 32 :=
  let main_c_8 : IVec S_ 32 := constantI S_ 32 0#32
  let main_v35 : IVec S4096 32 := broadcastInDim S4096 ![] bcast_S_S4096 main_c_8
  let main_v36 : IVec S4096 1 := cmpi .slt main_v2 main_v35
  let main_c_9 : IVec S_ 32 := constantI S_ 32 128#32
  let main_v37 : IVec S4096 32 := broadcastInDim S4096 ![] bcast_S_S4096 main_c_9
  let main_v38 : IVec S4096 32 := addi main_v2 main_v37
  let main_v39 : IVec S4096 32 := select main_v36 main_v38 main_v2
  let main_c_10 : IVec S_ 32 := constantI S_ 32 0#32
  let main_v40 : IVec S4096 32 := broadcastInDim S4096 ![] bcast_S_S4096 main_c_10
  let main_v41 : IVec S4096 1 := cmpi .slt main_v18 main_v40
  let main_c_11 : IVec S_ 32 := constantI S_ 32 40#32
  let main_v42 : IVec S4096 32 := broadcastInDim S4096 ![] bcast_S_S4096 main_c_11
  let main_v43 : IVec S4096 32 := addi main_v18 main_v42
  let main_v44 : IVec S4096 32 := select main_v41 main_v43 main_v18
  let main_c_12 : IVec S_ 32 := constantI S_ 32 0#32
  let main_v45 : IVec S4096 32 := broadcastInDim S4096 ![] bcast_S_S4096 main_c_12
  let main_v46 : IVec S4096 1 := cmpi .slt main_v16 main_v45
  let main_c_13 : IVec S_ 32 := constantI S_ 32 40#32
  let main_v47 : IVec S4096 32 := broadcastInDim S4096 ![] bcast_S_S4096 main_c_13
  let main_v48 : IVec S4096 32 := addi main_v16 main_v47
  let main_v49 : IVec S4096 32 := select main_v46 main_v48 main_v16
  let main_v50 : IVec S4096x1 32 := broadcastInDim S4096x1 ![0] bcast_S4096_S4096x1_0 main_v39
  let main_v51 : IVec S4096x1 32 := broadcastInDim S4096x1 ![0] bcast_S4096_S4096x1_0 main_v44
  let main_v52 : IVec S4096x1 32 := broadcastInDim S4096x1 ![0] bcast_S4096_S4096x1_0 main_v49
  let main_v53 : IVec S4096x3 32 := concatenate S4096x3 1 [⟨S4096x1, main_v50⟩, ⟨S4096x1, main_v51⟩, ⟨S4096x1, main_v52⟩] concatenates_S4096x1_S4096x1_S4096x1_S4096x3_d1
  main_v53

def ttRef (main_v2 main_v18 main_v16 : IVec S4096 32) (main_v33 : FVec F S4096x5 .f32) :
    FVec F S128x40x40x5 .f32 :=
  let main_v53 : IVec S4096x3 32 := idxRRef main_v2 main_v18 main_v16
  let main_cst_7 : FVec F S_ .f32 := constant S_ .f32 0x00000000#32
  let main_v34 : FVec F S128x40x40x5 .f32 := broadcastInDim S128x40x40x5 ![] bcast_S_S128x40x40x5 main_cst_7
  let main_v54 : FVec F S128x40x40x5 .f32 := (fun x i u => Host.scatter scatter_S128x40x40x5_S4096x3_S4096x5_1_012_012_1 (fun _ b => b) x i u) main_v34 main_v53 main_v33
  main_v54

def idxMRef (main_v2 main_v18 main_v16 : IVec S4096 32) : IVec S4096x3 32 :=
  let main_c_15 : IVec S_ 32 := constantI S_ 32 0#32
  let main_v56 : IVec S4096 32 := broadcastInDim S4096 ![] bcast_S_S4096 main_c_15
  let main_v57 : IVec S4096 1 := cmpi .slt main_v2 main_v56
  let main_c_16 : IVec S_ 32 := constantI S_ 32 128#32
  let main_v58 : IVec S4096 32 := broadcastInDim S4096 ![] bcast_S_S4096 main_c_16
  let main_v59 : IVec S4096 32 := addi main_v2 main_v58
  let main_v60 : IVec S4096 32 := select main_v57 main_v59 main_v2
  let main_c_17 : IVec S_ 32 := constantI S_ 32 0#32
  let main_v61 : IVec S4096 32 := broadcastInDim S4096 ![] bcast_S_S4096 main_c_17
  let main_v62 : IVec S4096 1 := cmpi .slt main_v18 main_v61
  let main_c_18 : IVec S_ 32 := constantI S_ 32 40#32
  let main_v63 : IVec S4096 32 := broadcastInDim S4096 ![] bcast_S_S4096 main_c_18
  let main_v64 : IVec S4096 32 := addi main_v18 main_v63
  let main_v65 : IVec S4096 32 := select main_v62 main_v64 main_v18
  let main_c_19 : IVec S_ 32 := constantI S_ 32 0#32
  let main_v66 : IVec S4096 32 := broadcastInDim S4096 ![] bcast_S_S4096 main_c_19
  let main_v67 : IVec S4096 1 := cmpi .slt main_v16 main_v66
  let main_c_20 : IVec S_ 32 := constantI S_ 32 40#32
  let main_v68 : IVec S4096 32 := broadcastInDim S4096 ![] bcast_S_S4096 main_c_20
  let main_v69 : IVec S4096 32 := addi main_v16 main_v68
  let main_v70 : IVec S4096 32 := select main_v67 main_v69 main_v16
  let main_v71 : IVec S4096x1 32 := broadcastInDim S4096x1 ![0] bcast_S4096_S4096x1_0 main_v60
  let main_v72 : IVec S4096x1 32 := broadcastInDim S4096x1 ![0] bcast_S4096_S4096x1_0 main_v65
  let main_v73 : IVec S4096x1 32 := broadcastInDim S4096x1 ![0] bcast_S4096_S4096x1_0 main_v70
  let main_v74 : IVec S4096x3 32 := concatenate S4096x3 1 [⟨S4096x1, main_v71⟩, ⟨S4096x1, main_v72⟩, ⟨S4096x1, main_v73⟩] concatenates_S4096x1_S4096x1_S4096x1_S4096x3_d1
  main_v74

def maskRef (main_v2 main_v18 main_v16 : IVec S4096 32) : IVec S128x40x40 1 :=
  let main_v74 : IVec S4096x3 32 := idxMRef main_v2 main_v18 main_v16
  let main_c_14 : IVec S_ 1 := constantI S_ 1 0#1
  let main_v55 : IVec S128x40x40 1 := broadcastInDim S128x40x40 ![] bcast_S_S128x40x40 main_c_14
  let main_c_21 : IVec S_ 1 := constantI S_ 1 1#1
  let main_v75 : IVec S4096 1 := broadcastInDim S4096 ![] bcast_S_S4096 main_c_21
  let main_v76 : IVec S128x40x40 1 := (fun x i u => Host.scatter scatter_S128x40x40_S4096x3_S4096_n_012_012_1 (fun _ b => b) x i u) main_v55 main_v74 main_v75
  main_v76

end Ref

section Pointwise
variable (b gj gi : IVec SK 32)
  (hb : ∀ k, 0 ≤ (b k).toInt ∧ (b k).toInt < 128)
  (hj : ∀ k, 0 ≤ (gj k).toInt ∧ (gj k).toInt < 40)
  (hi : ∀ k, 0 ≤ (gi k).toInt ∧ (gi k).toInt < 40)

abbrev rowOf (x : IVec SK 32) : Fin 4096 → BitVec 32 := fun n => x (Idealize.ShloMosaic.Dedupe.k1 n)

section KerPt
variable [Cert.KernelIdeal.Facts₀]
include hb hj hi

theorem cellKer_row (n : Fin 4096) :
    cellKer b gj gi (Idealize.ShloMosaic.Dedupe.k1 n) = cellWord (rowOf b) (rowOf gj) (rowOf gi) n := rfl

theorem cellWord_nonneg (n : Fin 4096) : 0 ≤ (cellWord (rowOf b) (rowOf gj) (rowOf gi) n).toInt :=
  DedupeCore.cellWord_nonneg 40 (by decide) _ _ _ (fun _ => hb _) (fun _ => hj _) (fun _ => hi _) n

theorem idxWKer_row (n : Fin 4096) :
    idxWKer b gj gi (ix1 n) = cellWord (rowOf b) (rowOf gj) (rowOf gi) n := by
  unfold idxWKer
  dsimp only
  rw [bc1_apply]
  exact norm_of_nonneg _ _ (cellWord_nonneg b gj gi hb hj hi n)

theorem idxGKer_row (n : Fin 4096) :
    idxGKer b gj gi (ix1 n) = cellWord (rowOf b) (rowOf gj) (rowOf gi) n := by
  unfold idxGKer
  dsimp only
  rw [bc1_apply]
  exact norm_of_nonneg _ _ (cellWord_nonneg b gj gi hb hj hi n)

omit hb hj hi in
theorem bsafeKer_row (n : Fin 4096) :
    bsafeKer b gj gi (Idealize.ShloMosaic.Dedupe.k1 n) =
      if Host.gather dGat (Host.scatter dWin (fun _ b => b) (fun _ => 0#32) (idxWKer b gj gi)
            (iotaInDim SK 32 0)) (idxGKer b gj gi) (Idealize.ShloMosaic.Dedupe.k1 n) = iotaInDim SK 32 0 (Idealize.ShloMosaic.Dedupe.k1 n)
      then b (Idealize.ShloMosaic.Dedupe.k1 n) else 128#32 := by
  show (if IntOp.cmpi .eq
      (Host.gather dGat (Host.scatter dWin (fun _ b => b) (fun _ => 0#32) (idxWKer b gj gi)
        (iotaInDim SK 32 0)) (idxGKer b gj gi) (Idealize.ShloMosaic.Dedupe.k1 n)) (iotaInDim SK 32 0 (Idealize.ShloMosaic.Dedupe.k1 n)) = 1#1
    then b (Idealize.ShloMosaic.Dedupe.k1 n) else 128#32) = _
  by_cases h : Host.gather dGat (Host.scatter dWin (fun _ b => b) (fun _ => 0#32) (idxWKer b gj gi)
      (iotaInDim SK 32 0)) (idxGKer b gj gi) (Idealize.ShloMosaic.Dedupe.k1 n) = iotaInDim SK 32 0 (Idealize.ShloMosaic.Dedupe.k1 n)
  · rw [if_pos h, if_pos ((cmpi_eq_one_iff _ _).2 h)]
  · rw [if_neg h, if_neg (fun h' => h ((cmpi_eq_one_iff _ _).1 h'))]

omit hj hi in
theorem bsafeKer_nonneg (n : Fin 4096) : 0 ≤ (bsafeKer b gj gi (Idealize.ShloMosaic.Dedupe.k1 n)).toInt := by
  rw [bsafeKer_row]
  have h128 : (128#32 : BitVec 32).toInt = 128 := by decide
  split
  · exact (hb _).1
  · rw [h128]; omega

theorem idxKKer_row (n : Fin 4096) :
    idxKKer b gj gi (ix3 n 0) = bsafeKer b gj gi (Idealize.ShloMosaic.Dedupe.k1 n) ∧
    idxKKer b gj gi (ix3 n 1) = gj (Idealize.ShloMosaic.Dedupe.k1 n) ∧ idxKKer b gj gi (ix3 n 2) = gi (Idealize.ShloMosaic.Dedupe.k1 n) := by
  refine ⟨?_, ?_, ?_⟩
  · refine ((concat3_apply Cert.KernelIdeal.Facts₀.concatenates_S4096x1_S4096x1_S4096x1_S4096x3_d1 _ _ _ n).1).trans ?_
    refine (bc1_apply Cert.KernelIdeal.Facts₀.bcast_S4096_S4096x1_0 _ n).trans ?_
    exact norm_of_nonneg _ _ (bsafeKer_nonneg b gj gi hb n)
  · refine ((concat3_apply Cert.KernelIdeal.Facts₀.concatenates_S4096x1_S4096x1_S4096x1_S4096x3_d1 _ _ _ n).2.1).trans ?_
    refine (bc1_apply Cert.KernelIdeal.Facts₀.bcast_S4096_S4096x1_0 _ n).trans ?_
    exact norm_of_nonneg _ _ (hj _).1
  · refine ((concat3_apply Cert.KernelIdeal.Facts₀.concatenates_S4096x1_S4096x1_S4096x1_S4096x3_d1 _ _ _ n).2.2).trans ?_
    refine (bc1_apply Cert.KernelIdeal.Facts₀.bcast_S4096_S4096x1_0 _ n).trans ?_
    exact norm_of_nonneg _ _ (hi _).1

end KerPt

section RefPt
variable [Cert.ReferenceIdeal.Facts₀]
include hb hj hi

theorem idxRRef_row (n : Fin 4096) :
    idxRRef b gj gi (ix3 n 0) = b (Idealize.ShloMosaic.Dedupe.k1 n) ∧
    idxRRef b gj gi (ix3 n 1) = gj (Idealize.ShloMosaic.Dedupe.k1 n) ∧ idxRRef b gj gi (ix3 n 2) = gi (Idealize.ShloMosaic.Dedupe.k1 n) := by
  refine ⟨?_, ?_, ?_⟩
  · refine ((concat3_apply Cert.ReferenceIdeal.Facts₀.concatenates_S4096x1_S4096x1_S4096x1_S4096x3_d1 _ _ _ n).1).trans ?_
    refine (bc1_apply Cert.ReferenceIdeal.Facts₀.bcast_S4096_S4096x1_0 _ n).trans ?_
    exact norm_of_nonneg _ _ (hb _).1
  · refine ((concat3_apply Cert.ReferenceIdeal.Facts₀.concatenates_S4096x1_S4096x1_S4096x1_S4096x3_d1 _ _ _ n).2.1).trans ?_
    refine (bc1_apply Cert.ReferenceIdeal.Facts₀.bcast_S4096_S4096x1_0 _ n).trans ?_
    exact norm_of_nonneg _ _ (hj _).1
  · refine ((concat3_apply Cert.ReferenceIdeal.Facts₀.concatenates_S4096x1_S4096x1_S4096x1_S4096x3_d1 _ _ _ n).2.2).trans ?_
    refine (bc1_apply Cert.ReferenceIdeal.Facts₀.bcast_S4096_S4096x1_0 _ n).trans ?_
    exact norm_of_nonneg _ _ (hi _).1

theorem idxMRef_row (n : Fin 4096) :
    idxMRef b gj gi (ix3 n 0) = b (Idealize.ShloMosaic.Dedupe.k1 n) ∧
    idxMRef b gj gi (ix3 n 1) = gj (Idealize.ShloMosaic.Dedupe.k1 n) ∧ idxMRef b gj gi (ix3 n 2) = gi (Idealize.ShloMosaic.Dedupe.k1 n) := by
  refine ⟨?_, ?_, ?_⟩
  · refine ((concat3_apply Cert.ReferenceIdeal.Facts₀.concatenates_S4096x1_S4096x1_S4096x1_S4096x3_d1 _ _ _ n).1).trans ?_
    refine (bc1_apply Cert.ReferenceIdeal.Facts₀.bcast_S4096_S4096x1_0 _ n).trans ?_
    exact norm_of_nonneg _ _ (hb _).1
  · refine ((concat3_apply Cert.ReferenceIdeal.Facts₀.concatenates_S4096x1_S4096x1_S4096x1_S4096x3_d1 _ _ _ n).2.1).trans ?_
    refine (bc1_apply Cert.ReferenceIdeal.Facts₀.bcast_S4096_S4096x1_0 _ n).trans ?_
    exact norm_of_nonneg _ _ (hj _).1
  · refine ((concat3_apply Cert.ReferenceIdeal.Facts₀.concatenates_S4096x1_S4096x1_S4096x1_S4096x3_d1 _ _ _ n).2.2).trans ?_
    refine (bc1_apply Cert.ReferenceIdeal.Facts₀.bcast_S4096_S4096x1_0 _ n).trans ?_
    exact norm_of_nonneg _ _ (hi _).1

end RefPt

end Pointwise

theorem tt_eq [Cert.KernelIdeal.Facts₀] [Cert.ReferenceIdeal.Facts₀] {F : FTy → Type} [FloatOps F]
    (b gj gi : IVec SK 32) (vals : FVec F SKx5 .f32)
    (hb : ∀ k, 0 ≤ (b k).toInt ∧ (b k).toInt < 128)
    (hj : ∀ k, 0 ≤ (gj k).toInt ∧ (gj k).toInt < 40)
    (hi : ∀ k, 0 ≤ (gi k).toInt ∧ (gi k).toInt < 40)
    (iK : SKer.Idx) (iR : SRef.Idx)
    (h0 : (iK 0).val = (iR 0).val) (h1 : (iK 1).val = (iR 3).val)
    (h2 : (iK 2).val = (iR 1).val) (h3 : (iK 3).val = (iR 2).val) :
    ttKer b gj gi vals iK = ttRef b gj gi vals iR :=
  DedupeCore.tt_core 40 (by decide) (rowOf b) (rowOf gj) (rowOf gi) (fun _ => hb _) (fun _ => hj _) (fun _ => hi _)
    (idxRRef b gj gi) (idxKKer b gj gi) (idxWKer b gj gi) (idxGKer b gj gi) (iotaInDim SK 32 0)
    (fun _ => 0#32) (fun n => bsafeKer b gj gi (Idealize.ShloMosaic.Dedupe.k1 n))
    (idxRRef_row b gj gi hb hj hi) (idxWKer_row b gj gi hb hj hi) (idxGKer_row b gj gi hb hj hi)
    (fun _ => rfl) (bsafeKer_row b gj gi) (idxKKer_row b gj gi hb hj hi)
    vals (FloatOps.ofBits .f32 0x00000000#32) iK iR h0 h1 h2 h3

theorem mask_tt [Cert.ReferenceIdeal.Facts₀] {F : FTy → Type} [FloatOps F]
    (b gj gi : IVec SK 32) (vals : FVec F SKx5 .f32)
    (hb : ∀ k, 0 ≤ (b k).toInt ∧ (b k).toInt < 128)
    (hj : ∀ k, 0 ≤ (gj k).toInt ∧ (gj k).toInt < 40)
    (hi : ∀ k, 0 ≤ (gi k).toInt ∧ (gi k).toInt < 40)
    (one : F .f32)
    (hone : ∀ n : Fin 4096, vals (Shape.pair (d := ![4096, 5]) n (4 : Fin 5)) = one)
    (iR : SRef.Idx) (iM : SMask.Idx)
    (h0 : (iM 0).val = (iR 0).val) (h1 : (iM 1).val = (iR 1).val) (h2 : (iM 2).val = (iR 2).val)
    (h3 : (iR 3).val = 4) :
    (maskRef b gj gi iM = 1#1 ∧ ttRef b gj gi vals iR = one) ∨
    (maskRef b gj gi iM = 0#1 ∧ ttRef b gj gi vals iR = FloatOps.ofBits .f32 0x00000000#32) :=
  DedupeCore.mask_core 40 (rowOf b) (rowOf gj) (rowOf gi) (idxRRef b gj gi) (idxMRef b gj gi)
    (idxRRef_row b gj gi hb hj hi) (idxMRef_row b gj gi hb hj hi)
    vals (FloatOps.ofBits .f32 0x00000000#32) one hone iR iM h0 h1 h2 h3

end Cert.Hand.Dedupe3
-- ==== Proof.Bridge1Defs.lean ====
import proofs.«409303_j18760417149025_3_alg».proof.Proof.BridgeKDefs
import proofs.«409303_j18760417149025_3_alg».proof.Proof.Dedupe1
import proofs.«409303_j18760417149025_3_alg».proof.Proof.Dedupe2
import proofs.«409303_j18760417149025_3_alg».proof.Proof.Dedupe3

noncomputable section

namespace Cert.Bridge

open Idealize.ShloMosaic

variable [Cert.KernelIdeal.Facts] [Cert.ReferenceIdeal.Facts] {F : FTy → Type} [FloatOps F]

section Defs
open Cert.KernelIdeal.Hand

def kTT1 (a3 : FVec F Cert.KernelIdeal.S4096x6 .f32) : FVec F Cert.KernelIdeal.S128x5x160x160 .f32 :=
  Cert.Hand.Dedupe1.ttKer (kB1 a3) (kGJ1 a3) (kGI1 a3) (kVals1 a3)
def rTT1 (a3 : FVec F Cert.KernelIdeal.S4096x6 .f32) : FVec F Cert.ReferenceIdeal.S128x160x160x5 .f32 :=
  Cert.Hand.Dedupe1.ttRef (kB1 a3) (kGJ1 a3) (kGI1 a3) (kVals1 a3)
def rMF1 (a3 : FVec F Cert.KernelIdeal.S4096x6 .f32) : FVec F Cert.ReferenceIdeal.S128x160x160 .f32 :=
  uitofp .f32 (Cert.Hand.Dedupe1.maskRef (kB1 a3) (kGJ1 a3) (kGI1 a3))
def kTT2 (a3 : FVec F Cert.KernelIdeal.S4096x6 .f32) : FVec F Cert.KernelIdeal.S128x5x80x80 .f32 :=
  Cert.Hand.Dedupe2.ttKer (kB2 a3) (kGJ2 a3) (kGI2 a3) (kVals2 a3)
def rTT2 (a3 : FVec F Cert.KernelIdeal.S4096x6 .f32) : FVec F Cert.ReferenceIdeal.S128x80x80x5 .f32 :=
  Cert.Hand.Dedupe2.ttRef (kB2 a3) (kGJ2 a3) (kGI2 a3) (kVals2 a3)
def rMF2 (a3 : FVec F Cert.KernelIdeal.S4096x6 .f32) : FVec F Cert.ReferenceIdeal.S128x80x80 .f32 :=
  uitofp .f32 (Cert.Hand.Dedupe2.maskRef (kB2 a3) (kGJ2 a3) (kGI2 a3))
def kTT3 (a3 : FVec F Cert.KernelIdeal.S4096x6 .f32) : FVec F Cert.KernelIdeal.S128x5x40x40 .f32 :=
  Cert.Hand.Dedupe3.ttKer (kB3 a3) (kGJ3 a3) (kGI3 a3) (kVals3 a3)
def rTT3 (a3 : FVec F Cert.KernelIdeal.S4096x6 .f32) : FVec F Cert.ReferenceIdeal.S128x40x40x5 .f32 :=
  Cert.Hand.Dedupe3.ttRef (kB3 a3) (kGJ3 a3) (kGI3 a3) (kVals3 a3)
def rMF3 (a3 : FVec F Cert.KernelIdeal.S4096x6 .f32) : FVec F Cert.ReferenceIdeal.S128x40x40 .f32 :=
  uitofp .f32 (Cert.Hand.Dedupe3.maskRef (kB3 a3) (kGJ3 a3) (kGI3 a3))

end Defs

end Cert.Bridge

end
-- ==== Proof.Bridge1K.lean ====
import proofs.«409303_j18760417149025_3_alg».proof.Proof.Bridge1Defs
import proofs.«409303_j18760417149025_3_alg».proof.Proof.KerFun

set_option maxRecDepth 100000

noncomputable section

namespace Cert.Bridge

open Idealize.ShloMosaic

variable [Cert.KernelIdeal.Facts] [Cert.ReferenceIdeal.Facts] {F : FTy → Type} [FloatOps F]

section Kernel
open Cert.KernelIdeal Cert.KernelIdeal.Hand

theorem kerVal_decomp (R0 : FVec F S128x5x200x128 .f32 → FVec F S128x5x200x128 .f32 → FVec F S1x256 .f32)
    (R1 : FVec F S128x5x50x128 .f32 → FVec F S128x5x50x128 .f32 → FVec F S1x256 .f32)
    (R2 : FVec F S128x5x40x40 .f32 → FVec F S128x5x40x40 .f32 → FVec F S1x256 .f32)
    (a0 : FVec F S128x5x160x160 .f32) (a1 : FVec F S128x5x80x80 .f32) (a2 : FVec F S128x5x40x40 .f32)
    (a3 : FVec F S4096x6 .f32) (V1 V2 V3 : FVec F S1x256 .f32)
    (h1 : V1 = R0 (kRs1 a0) (kRs1 (kTT1 a3))) (h2 : V2 = R1 (kRs2 a1) (kRs2 (kTT2 a3))) (h3 : V3 = R2 a2 (kTT3 a3)) :
    kerVal R0 R1 R2 a0 a1 a2 a3
      = kTail3 (kTail2 (kTail1 (kLane0 V1) (kLane1 V1) (kLane2 V1) (kLane3 V1) (kLane4 V1))
          (kLane0 V2) (kLane1 V2) (kLane2 V2) (kLane3 V2) (kLane4 V2))
          (kLane0 V3) (kLane1 V3) (kLane2 V3) (kLane3 V3) (kLane4 V3) := by
  subst h1 h2 h3
  rfl

end Kernel

end Cert.Bridge

end
-- ==== Proof.BridgeRDefs.lean ====
import proofs.«409303_j18760417149025_3_alg».proof.ReferenceIdeal

noncomputable section

namespace Cert.ReferenceIdeal.Hand

open Idealize.ShloMosaic
open Cert.ReferenceIdeal Cert.ReferenceIdeal.Facts₀ Cert.ReferenceIdeal.Facts

variable [Cert.ReferenceIdeal.Facts] {F : FTy → Type} [FloatOps F]

/-- The number of occupied cells: the sum of the mask read as a float. -/
def rN1 (main_v78 : FVec F S128x160x160 .f32) : FVec F S_ .f32 :=
  let main_cst_22 : FVec F S_ .f32 := constant S_ .f32 0x00000000#32
  let main_v79 : FVec F S_ .f32 := (fun x v => Host.reduceAdd x v reducesTo_S128x160x160_S_d0_1_2 h_S_) main_v78 main_cst_22
  main_v79

/-- The masked squared error of the squashed centre offsets, summed over everything. -/
def rSxy1 (main_arg0 : FVec F S128x5x160x160 .f32) (main_v54 : FVec F S128x160x160x5 .f32) (main_v78 : FVec F S128x160x160 .f32) : FVec F S_ .f32 :=
  let main_cst_24 : FVec F S_ .f32 := constant S_ .f32 0x3F800000#32
  let main_v85 : FVec F S128x160x160x2 .f32 := broadcastInDim S128x160x160x2 ![] bcast_S_S128x160x160x2 main_cst_24
  let main_cst_23 : FVec F S_ .f32 := constant S_ .f32 0x3F800000#32
  let main_v83 : FVec F S128x160x160x2 .f32 := broadcastInDim S128x160x160x2 ![] bcast_S_S128x160x160x2 main_cst_23
  let main_v77 : FVec F S128x160x160x5 .f32 := (transpose S128x160x160x5 [0, 2, 3, 1] · transposes_S128x5x160x160_S128x160x160x5_0_2_3_1) main_arg0
  let main_v80 : FVec F S128x160x160x2 .f32 := (extractStridedSlice S128x160x160x2 ![0, 0, 0, 0] · slices_S128x160x160x5_S128x160x160x2_0_0_0_0) main_v77
  let main_v81 : FVec F S128x160x160x2 .f32 := Host.negf main_v80
  let main_v82 : FVec F S128x160x160x2 .f32 := Host.exp main_v81
  let main_v84 : FVec F S128x160x160x2 .f32 := addf main_v83 main_v82
  let main_v86 : FVec F S128x160x160x2 .f32 := Host.divf main_v85 main_v84
  let main_v91 : FVec F S128x160x160x2 .f32 := (extractStridedSlice S128x160x160x2 ![0, 0, 0, 0] · slices_S128x160x160x5_S128x160x160x2_0_0_0_0) main_v54
  let main_v92 : FVec F S128x160x160x2 .f32 := subf main_v86 main_v91
  let main_v93 : FVec F S128x160x160x2 .f32 := mulf main_v92 main_v92
  let main_v88 : FVec F S128x160x160x1 .f32 := broadcastInDim S128x160x160x1 ![0, 1, 2] bcast_S128x160x160_S128x160x160x1_0_1_2 main_v78
  let main_v94 : FVec F S128x160x160x2 .f32 := broadcastInDim S128x160x160x2 ![0, 1, 2, 3] bcast_S128x160x160x1_S128x160x160x2_0_1_2_3 main_v88
  let main_v95 : FVec F S128x160x160x2 .f32 := mulf main_v93 main_v94
  let main_cst_27 : FVec F S_ .f32 := constant S_ .f32 0x00000000#32
  let main_v96 : FVec F S_ .f32 := (fun x v => Host.reduceAdd x v reducesTo_S128x160x160x2_S_d0_1_2_3 h_S_) main_v95 main_cst_27
  main_v96

/-- The masked squared error of the sizes, summed over everything. -/
def rSwh1 (main_arg0 : FVec F S128x5x160x160 .f32) (main_v54 : FVec F S128x160x160x5 .f32) (main_v78 : FVec F S128x160x160 .f32) : FVec F S_ .f32 :=
  let main_v77 : FVec F S128x160x160x5 .f32 := (transpose S128x160x160x5 [0, 2, 3, 1] · transposes_S128x5x160x160_S128x160x160x5_0_2_3_1) main_arg0
  let main_v87 : FVec F S128x160x160x2 .f32 := (extractStridedSlice S128x160x160x2 ![0, 0, 0, 2] · slices_S128x160x160x5_S128x160x160x2_0_0_0_2) main_v77
  let main_v98 : FVec F S128x160x160x2 .f32 := (extractStridedSlice S128x160x160x2 ![0, 0, 0, 2] · slices_S128x160x160x5_S128x160x160x2_0_0_0_2) main_v54
  let main_v99 : FVec F S128x160x160x2 .f32 := subf main_v87 main_v98
  let main_v100 : FVec F S128x160x160x2 .f32 := mulf main_v99 main_v99
  let main_v88 : FVec F S128x160x160x1 .f32 := broadcastInDim S128x160x160x1 ![0, 1, 2] bcast_S128x160x160_S128x160x160x1_0_1_2 main_v78
  let main_v101 : FVec F S128x160x160x2 .f32 := broadcastInDim S128x160x160x2 ![0, 1, 2, 3] bcast_S128x160x160x1_S128x160x160x2_0_1_2_3 main_v88
  let main_v102 : FVec F S128x160x160x2 .f32 := mulf main_v100 main_v101
  let main_cst_28 : FVec F S_ .f32 := constant S_ .f32 0x00000000#32
  let main_v103 : FVec F S_ .f32 := (fun x v => Host.reduceAdd x v reducesTo_S128x160x160x2_S_d0_1_2_3 h_S_) main_v102 main_cst_28
  main_v103

/-- Part 4 of rSp1. -/
def rSp1_p4 (main_v78 : FVec F S128x160x160 .f32) (main_v139 : FVec F S128x160x160 .f32) (main_v113 : FVec F S128x160x160 .f32) (main_v115 : FVec F S128x160x160 .f32) (main_call4_v0 : FVec F S128x160x160 .f32) (main_call4_call0_v3 : FVec F S128x160x160 .f32) (main_call4_call0_v4 : IVec S128x160x160 1) (main_call4_call0_v6 : FVec F S128x160x160 .f32) (main_call4_call0_v0 : FVec F S128x160x160 .f32) : FVec F S_ .f32 :=
  let main_call4_call0_v1 : FVec F S128x160x160 .f32 := maximumf main_call4_v0 main_call4_call0_v0
  let main_call4_call0_v7 : FVec F S128x160x160 .f32 := Host.absf main_call4_call0_v3
  let main_call4_call0_v8 : FVec F S128x160x160 .f32 := Host.negf main_call4_call0_v7
  let main_call4_call0_v9 : FVec F S128x160x160 .f32 := Host.exp main_call4_call0_v8
  let main_call4_call0_v10 : FVec F S128x160x160 .f32 := Host.log1p main_call4_call0_v9
  let main_call4_call0_v11 : FVec F S128x160x160 .f32 := addf main_call4_call0_v1 main_call4_call0_v10
  let main_call4_v1 : FVec F S128x160x160 .f32 := select main_call4_call0_v4 main_call4_call0_v6 main_call4_call0_v11
  let main_v117 : FVec F S128x160x160 .f32 := Host.negf main_call4_v1
  let main_v118 : FVec F S128x160x160 .f32 := mulf main_v115 main_v117
  let main_v119 : FVec F S128x160x160 .f32 := addf main_v113 main_v118
  let main_v120 : FVec F S128x160x160 .f32 := Host.negf main_v119
  let main_v140 : FVec F S128x160x160 .f32 := mulf main_v139 main_v120
  let main_v141 : FVec F S128x160x160 .f32 := mulf main_v140 main_v78
  let main_cst_39 : FVec F S_ .f32 := constant S_ .f32 0x00000000#32
  let main_v142 : FVec F S_ .f32 := (fun x v => Host.reduceAdd x v reducesTo_S128x160x160_S_d0_1_2 h_S_) main_v141 main_cst_39
  main_v142

/-- Part 3 of rSp1. -/
def rSp1_p3 (main_v78 : FVec F S128x160x160 .f32) (main_v111 : FVec F S128x160x160 .f32) (main_v109 : FVec F S128x160x160 .f32) (main_v139 : FVec F S128x160x160 .f32) (main_call3_call0_v3 : FVec F S128x160x160 .f32) (main_call3_call0_v4 : IVec S128x160x160 1) (main_call3_call0_v6 : FVec F S128x160x160 .f32) (main_call3_call0_v1 : FVec F S128x160x160 .f32) : FVec F S_ .f32 :=
  let main_call3_call0_v7 : FVec F S128x160x160 .f32 := Host.absf main_call3_call0_v3
  let main_call3_call0_v8 : FVec F S128x160x160 .f32 := Host.negf main_call3_call0_v7
  let main_call3_call0_v9 : FVec F S128x160x160 .f32 := Host.exp main_call3_call0_v8
  let main_call3_call0_v10 : FVec F S128x160x160 .f32 := Host.log1p main_call3_call0_v9
  let main_call3_call0_v11 : FVec F S128x160x160 .f32 := addf main_call3_call0_v1 main_call3_call0_v10
  let main_call3_v1 : FVec F S128x160x160 .f32 := select main_call3_call0_v4 main_call3_call0_v6 main_call3_call0_v11
  let main_v112 : FVec F S128x160x160 .f32 := Host.negf main_call3_v1
  let main_v113 : FVec F S128x160x160 .f32 := mulf main_v111 main_v112
  let main_cst_31 : FVec F S_ .f32 := constant S_ .f32 0x3F800000#32
  let main_v114 : FVec F S128x160x160 .f32 := broadcastInDim S128x160x160 ![] bcast_S_S128x160x160 main_cst_31
  let main_v115 : FVec F S128x160x160 .f32 := subf main_v114 main_v111
  let main_v116 : FVec F S128x160x160 .f32 := Host.negf main_v109
  let main_call4_v0 : FVec F S128x160x160 .f32 := Host.negf main_v116
  let main_call4_call0_cst : FVec F S_ .f32 := constant S_ .f32 0x00000000#32
  let main_call4_call0_v2 : FVec F S128x160x160 .f32 := broadcastInDim S128x160x160 ![] bcast_S_S128x160x160 main_call4_call0_cst
  let main_call4_call0_v3 : FVec F S128x160x160 .f32 := subf main_call4_v0 main_call4_call0_v2
  let main_call4_call0_v4 : IVec S128x160x160 1 := cmpf .une main_call4_call0_v3 main_call4_call0_v3
  let main_call4_call0_v5 : FVec F S128x160x160 .f32 := broadcastInDim S128x160x160 ![] bcast_S_S128x160x160 main_call4_call0_cst
  let main_call4_call0_v6 : FVec F S128x160x160 .f32 := addf main_call4_v0 main_call4_call0_v5
  let main_call4_call0_v0 : FVec F S128x160x160 .f32 := broadcastInDim S128x160x160 ![] bcast_S_S128x160x160 main_call4_call0_cst
  rSp1_p4 (F := F) main_v78 main_v139 main_v113 main_v115 main_call4_v0 main_call4_call0_v3 main_call4_call0_v4 main_call4_call0_v6 main_call4_call0_v0

/-- Part 2 of rSp1. -/
def rSp1_p2 (main_v78 : FVec F S128x160x160 .f32) (main_v138 : FVec F S128x160x160 .f32) (main_v134 : FVec F S128x160x160 .f32) (main_v111 : FVec F S128x160x160 .f32) (main_v109 : FVec F S128x160x160 .f32) (main_v126 : FVec F S128x160x160 .f32) (main_v127 : FVec F S128x160x160 .f32) (main_v128 : FVec F S128x160x160 .f32) : FVec F S_ .f32 :=
  let main_v129 : FVec F S128x160x160 .f32 := subf main_v128 main_v111
  let main_cst_35 : FVec F S_ .f32 := constant S_ .f32 0x3F800000#32
  let main_v130 : FVec F S128x160x160 .f32 := broadcastInDim S128x160x160 ![] bcast_S_S128x160x160 main_cst_35
  let main_v131 : FVec F S128x160x160 .f32 := subf main_v130 main_v126
  let main_v132 : FVec F S128x160x160 .f32 := mulf main_v129 main_v131
  let main_v133 : FVec F S128x160x160 .f32 := addf main_v127 main_v132
  let main_v135 : FVec F S128x160x160 .f32 := subf main_v134 main_v133
  let main_cst_37 : FVec F S_ .f32 := constant S_ .f32 0x3FC00000#32
  let main_v136 : FVec F S128x160x160 .f32 := broadcastInDim S128x160x160 ![] bcast_S_S128x160x160 main_cst_37
  let main_v137 : FVec F S128x160x160 .f32 := Host.powf main_v135 main_v136
  let main_v139 : FVec F S128x160x160 .f32 := mulf main_v138 main_v137
  let main_call3_v0 : FVec F S128x160x160 .f32 := Host.negf main_v109
  let main_call3_call0_cst : FVec F S_ .f32 := constant S_ .f32 0x00000000#32
  let main_call3_call0_v2 : FVec F S128x160x160 .f32 := broadcastInDim S128x160x160 ![] bcast_S_S128x160x160 main_call3_call0_cst
  let main_call3_call0_v3 : FVec F S128x160x160 .f32 := subf main_call3_v0 main_call3_call0_v2
  let main_call3_call0_v4 : IVec S128x160x160 1 := cmpf .une main_call3_call0_v3 main_call3_call0_v3
  let main_call3_call0_v5 : FVec F S128x160x160 .f32 := broadcastInDim S128x160x160 ![] bcast_S_S128x160x160 main_call3_call0_cst
  let main_call3_call0_v6 : FVec F S128x160x160 .f32 := addf main_call3_v0 main_call3_call0_v5
  let main_call3_call0_v0 : FVec F S128x160x160 .f32 := broadcastInDim S128x160x160 ![] bcast_S_S128x160x160 main_call3_call0_cst
  let main_call3_call0_v1 : FVec F S128x160x160 .f32 := maximumf main_call3_v0 main_call3_call0_v0
  rSp1_p3 (F := F) main_v78 main_v111 main_v109 main_v139 main_call3_call0_v3 main_call3_call0_v4 main_call3_call0_v6 main_call3_call0_v1

/-- The focal term over the occupied cells, summed over everything. -/
def rSp1 (main_arg0 : FVec F S128x5x160x160 .f32) (main_v54 : FVec F S128x160x160x5 .f32) (main_v78 : FVec F S128x160x160 .f32) : FVec F S_ .f32 :=
  let main_cst_38 : FVec F S_ .f32 := constant S_ .f32 0x3E800000#32
  let main_v138 : FVec F S128x160x160 .f32 := broadcastInDim S128x160x160 ![] bcast_S_S128x160x160 main_cst_38
  let main_cst_36 : FVec F S_ .f32 := constant S_ .f32 0x3F800000#32
  let main_v134 : FVec F S128x160x160 .f32 := broadcastInDim S128x160x160 ![] bcast_S_S128x160x160 main_cst_36
  let main_v110 : FVec F S128x160x160x1 .f32 := (extractStridedSlice S128x160x160x1 ![0, 0, 0, 4] · slices_S128x160x160x5_S128x160x160x1_0_0_0_4) main_v54
  let main_v111 : FVec F S128x160x160 .f32 := shapeCast S128x160x160 main_v110 shapeCasts_S128x160x160x1_S128x160x160
  let main_cst_33 : FVec F S_ .f32 := constant S_ .f32 0x3F800000#32
  let main_v125 : FVec F S128x160x160 .f32 := broadcastInDim S128x160x160 ![] bcast_S_S128x160x160 main_cst_33
  let main_cst_32 : FVec F S_ .f32 := constant S_ .f32 0x3F800000#32
  let main_v123 : FVec F S128x160x160 .f32 := broadcastInDim S128x160x160 ![] bcast_S_S128x160x160 main_cst_32
  let main_v77 : FVec F S128x160x160x5 .f32 := (transpose S128x160x160x5 [0, 2, 3, 1] · transposes_S128x5x160x160_S128x160x160x5_0_2_3_1) main_arg0
  let main_v108 : FVec F S128x160x160x1 .f32 := (extractStridedSlice S128x160x160x1 ![0, 0, 0, 4] · slices_S128x160x160x5_S128x160x160x1_0_0_0_4) main_v77
  let main_v109 : FVec F S128x160x160 .f32 := shapeCast S128x160x160 main_v108 shapeCasts_S128x160x160x1_S128x160x160
  let main_v121 : FVec F S128x160x160 .f32 := Host.negf main_v109
  let main_v122 : FVec F S128x160x160 .f32 := Host.exp main_v121
  let main_v124 : FVec F S128x160x160 .f32 := addf main_v123 main_v122
  let main_v126 : FVec F S128x160x160 .f32 := Host.divf main_v125 main_v124
  let main_v127 : FVec F S128x160x160 .f32 := mulf main_v111 main_v126
  let main_cst_34 : FVec F S_ .f32 := constant S_ .f32 0x3F800000#32
  let main_v128 : FVec F S128x160x160 .f32 := broadcastInDim S128x160x160 ![] bcast_S_S128x160x160 main_cst_34
  rSp1_p2 (F := F) main_v78 main_v138 main_v134 main_v111 main_v109 main_v126 main_v127 main_v128

/-- Part 4 of rSn1. -/
def rSn1_p4 (main_v78 : FVec F S128x160x160 .f32) (main_v139 : FVec F S128x160x160 .f32) (main_v113 : FVec F S128x160x160 .f32) (main_v115 : FVec F S128x160x160 .f32) (main_call4_v0 : FVec F S128x160x160 .f32) (main_call4_call0_v3 : FVec F S128x160x160 .f32) (main_call4_call0_v4 : IVec S128x160x160 1) (main_call4_call0_v6 : FVec F S128x160x160 .f32) (main_call4_call0_v0 : FVec F S128x160x160 .f32) : FVec F S_ .f32 :=
  let main_call4_call0_v1 : FVec F S128x160x160 .f32 := maximumf main_call4_v0 main_call4_call0_v0
  let main_call4_call0_v7 : FVec F S128x160x160 .f32 := Host.absf main_call4_call0_v3
  let main_call4_call0_v8 : FVec F S128x160x160 .f32 := Host.negf main_call4_call0_v7
  let main_call4_call0_v9 : FVec F S128x160x160 .f32 := Host.exp main_call4_call0_v8
  let main_call4_call0_v10 : FVec F S128x160x160 .f32 := Host.log1p main_call4_call0_v9
  let main_call4_call0_v11 : FVec F S128x160x160 .f32 := addf main_call4_call0_v1 main_call4_call0_v10
  let main_call4_v1 : FVec F S128x160x160 .f32 := select main_call4_call0_v4 main_call4_call0_v6 main_call4_call0_v11
  let main_v117 : FVec F S128x160x160 .f32 := Host.negf main_call4_v1
  let main_v118 : FVec F S128x160x160 .f32 := mulf main_v115 main_v117
  let main_v119 : FVec F S128x160x160 .f32 := addf main_v113 main_v118
  let main_v120 : FVec F S128x160x160 .f32 := Host.negf main_v119
  let main_v140 : FVec F S128x160x160 .f32 := mulf main_v139 main_v120
  let main_cst_44 : FVec F S_ .f32 := constant S_ .f32 0x3F800000#32
  let main_v148 : FVec F S128x160x160 .f32 := broadcastInDim S128x160x160 ![] bcast_S_S128x160x160 main_cst_44
  let main_v149 : FVec F S128x160x160 .f32 := subf main_v148 main_v78
  let main_v150 : FVec F S128x160x160 .f32 := mulf main_v140 main_v149
  let main_cst_45 : FVec F S_ .f32 := constant S_ .f32 0x00000000#32
  let main_v151 : FVec F S_ .f32 := (fun x v => Host.reduceAdd x v reducesTo_S128x160x160_S_d0_1_2 h_S_) main_v150 main_cst_45
  main_v151

/-- Part 3 of rSn1. -/
def rSn1_p3 (main_v78 : FVec F S128x160x160 .f32) (main_v111 : FVec F S128x160x160 .f32) (main_v109 : FVec F S128x160x160 .f32) (main_v139 : FVec F S128x160x160 .f32) (main_call3_call0_v3 : FVec F S128x160x160 .f32) (main_call3_call0_v4 : IVec S128x160x160 1) (main_call3_call0_v6 : FVec F S128x160x160 .f32) (main_call3_call0_v1 : FVec F S128x160x160 .f32) : FVec F S_ .f32 :=
  let main_call3_call0_v7 : FVec F S128x160x160 .f32 := Host.absf main_call3_call0_v3
  let main_call3_call0_v8 : FVec F S128x160x160 .f32 := Host.negf main_call3_call0_v7
  let main_call3_call0_v9 : FVec F S128x160x160 .f32 := Host.exp main_call3_call0_v8
  let main_call3_call0_v10 : FVec F S128x160x160 .f32 := Host.log1p main_call3_call0_v9
  let main_call3_call0_v11 : FVec F S128x160x160 .f32 := addf main_call3_call0_v1 main_call3_call0_v10
  let main_call3_v1 : FVec F S128x160x160 .f32 := select main_call3_call0_v4 main_call3_call0_v6 main_call3_call0_v11
  let main_v112 : FVec F S128x160x160 .f32 := Host.negf main_call3_v1
  let main_v113 : FVec F S128x160x160 .f32 := mulf main_v111 main_v112
  let main_cst_31 : FVec F S_ .f32 := constant S_ .f32 0x3F800000#32
  let main_v114 : FVec F S128x160x160 .f32 := broadcastInDim S128x160x160 ![] bcast_S_S128x160x160 main_cst_31
  let main_v115 : FVec F S128x160x160 .f32 := subf main_v114 main_v111
  let main_v116 : FVec F S128x160x160 .f32 := Host.negf main_v109
  let main_call4_v0 : FVec F S128x160x160 .f32 := Host.negf main_v116
  let main_call4_call0_cst : FVec F S_ .f32 := constant S_ .f32 0x00000000#32
  let main_call4_call0_v2 : FVec F S128x160x160 .f32 := broadcastInDim S128x160x160 ![] bcast_S_S128x160x160 main_call4_call0_cst
  let main_call4_call0_v3 : FVec F S128x160x160 .f32 := subf main_call4_v0 main_call4_call0_v2
  let main_call4_call0_v4 : IVec S128x160x160 1 := cmpf .une main_call4_call0_v3 main_call4_call0_v3
  let main_call4_call0_v5 : FVec F S128x160x160 .f32 := broadcastInDim S128x160x160 ![] bcast_S_S128x160x160 main_call4_call0_cst
  let main_call4_call0_v6 : FVec F S128x160x160 .f32 := addf main_call4_v0 main_call4_call0_v5
  let main_call4_call0_v0 : FVec F S128x160x160 .f32 := broadcastInDim S128x160x160 ![] bcast_S_S128x160x160 main_call4_call0_cst
  rSn1_p4 (F := F) main_v78 main_v139 main_v113 main_v115 main_call4_v0 main_call4_call0_v3 main_call4_call0_v4 main_call4_call0_v6 main_call4_call0_v0

/-- Part 2 of rSn1. -/
def rSn1_p2 (main_v78 : FVec F S128x160x160 .f32) (main_v138 : FVec F S128x160x160 .f32) (main_v134 : FVec F S128x160x160 .f32) (main_v111 : FVec F S128x160x160 .f32) (main_v109 : FVec F S128x160x160 .f32) (main_v126 : FVec F S128x160x160 .f32) (main_v127 : FVec F S128x160x160 .f32) (main_v128 : FVec F S128x160x160 .f32) : FVec F S_ .f32 :=
  let main_v129 : FVec F S128x160x160 .f32 := subf main_v128 main_v111
  let main_cst_35 : FVec F S_ .f32 := constant S_ .f32 0x3F800000#32
  let main_v130 : FVec F S128x160x160 .f32 := broadcastInDim S128x160x160 ![] bcast_S_S128x160x160 main_cst_35
  let main_v131 : FVec F S128x160x160 .f32 := subf main_v130 main_v126
  let main_v132 : FVec F S128x160x160 .f32 := mulf main_v129 main_v131
  let main_v133 : FVec F S128x160x160 .f32 := addf main_v127 main_v132
  let main_v135 : FVec F S128x160x160 .f32 := subf main_v134 main_v133
  let main_cst_37 : FVec F S_ .f32 := constant S_ .f32 0x3FC00000#32
  let main_v136 : FVec F S128x160x160 .f32 := broadcastInDim S128x160x160 ![] bcast_S_S128x160x160 main_cst_37
  let main_v137 : FVec F S128x160x160 .f32 := Host.powf main_v135 main_v136
  let main_v139 : FVec F S128x160x160 .f32 := mulf main_v138 main_v137
  let main_call3_v0 : FVec F S128x160x160 .f32 := Host.negf main_v109
  let main_call3_call0_cst : FVec F S_ .f32 := constant S_ .f32 0x00000000#32
  let main_call3_call0_v2 : FVec F S128x160x160 .f32 := broadcastInDim S128x160x160 ![] bcast_S_S128x160x160 main_call3_call0_cst
  let main_call3_call0_v3 : FVec F S128x160x160 .f32 := subf main_call3_v0 main_call3_call0_v2
  let main_call3_call0_v4 : IVec S128x160x160 1 := cmpf .une main_call3_call0_v3 main_call3_call0_v3
  let main_call3_call0_v5 : FVec F S128x160x160 .f32 := broadcastInDim S128x160x160 ![] bcast_S_S128x160x160 main_call3_call0_cst
  let main_call3_call0_v6 : FVec F S128x160x160 .f32 := addf main_call3_v0 main_call3_call0_v5
  let main_call3_call0_v0 : FVec F S128x160x160 .f32 := broadcastInDim S128x160x160 ![] bcast_S_S128x160x160 main_call3_call0_cst
  let main_call3_call0_v1 : FVec F S128x160x160 .f32 := maximumf main_call3_v0 main_call3_call0_v0
  rSn1_p3 (F := F) main_v78 main_v111 main_v109 main_v139 main_call3_call0_v3 main_call3_call0_v4 main_call3_call0_v6 main_call3_call0_v1

/-- The focal term over the empty cells, summed over everything. -/
def rSn1 (main_arg0 : FVec F S128x5x160x160 .f32) (main_v54 : FVec F S128x160x160x5 .f32) (main_v78 : FVec F S128x160x160 .f32) : FVec F S_ .f32 :=
  let main_cst_38 : FVec F S_ .f32 := constant S_ .f32 0x3E800000#32
  let main_v138 : FVec F S128x160x160 .f32 := broadcastInDim S128x160x160 ![] bcast_S_S128x160x160 main_cst_38
  let main_cst_36 : FVec F S_ .f32 := constant S_ .f32 0x3F800000#32
  let main_v134 : FVec F S128x160x160 .f32 := broadcastInDim S128x160x160 ![] bcast_S_S128x160x160 main_cst_36
  let main_v110 : FVec F S128x160x160x1 .f32 := (extractStridedSlice S128x160x160x1 ![0, 0, 0, 4] · slices_S128x160x160x5_S128x160x160x1_0_0_0_4) main_v54
  let main_v111 : FVec F S128x160x160 .f32 := shapeCast S128x160x160 main_v110 shapeCasts_S128x160x160x1_S128x160x160
  let main_cst_33 : FVec F S_ .f32 := constant S_ .f32 0x3F800000#32
  let main_v125 : FVec F S128x160x160 .f32 := broadcastInDim S128x160x160 ![] bcast_S_S128x160x160 main_cst_33
  let main_cst_32 : FVec F S_ .f32 := constant S_ .f32 0x3F800000#32
  let main_v123 : FVec F S128x160x160 .f32 := broadcastInDim S128x160x160 ![] bcast_S_S128x160x160 main_cst_32
  let main_v77 : FVec F S128x160x160x5 .f32 := (transpose S128x160x160x5 [0, 2, 3, 1] · transposes_S128x5x160x160_S128x160x160x5_0_2_3_1) main_arg0
  let main_v108 : FVec F S128x160x160x1 .f32 := (extractStridedSlice S128x160x160x1 ![0, 0, 0, 4] · slices_S128x160x160x5_S128x160x160x1_0_0_0_4) main_v77
  let main_v109 : FVec F S128x160x160 .f32 := shapeCast S128x160x160 main_v108 shapeCasts_S128x160x160x1_S128x160x160
  let main_v121 : FVec F S128x160x160 .f32 := Host.negf main_v109
  let main_v122 : FVec F S128x160x160 .f32 := Host.exp main_v121
  let main_v124 : FVec F S128x160x160 .f32 := addf main_v123 main_v122
  let main_v126 : FVec F S128x160x160 .f32 := Host.divf main_v125 main_v124
  let main_v127 : FVec F S128x160x160 .f32 := mulf main_v111 main_v126
  let main_cst_34 : FVec F S_ .f32 := constant S_ .f32 0x3F800000#32
  let main_v128 : FVec F S128x160x160 .f32 := broadcastInDim S128x160x160 ![] bcast_S_S128x160x160 main_cst_34
  rSn1_p2 (F := F) main_v78 main_v138 main_v134 main_v111 main_v109 main_v126 main_v127 main_v128

/-- Part 2 of rTail1. -/
def rTail1_p2 (main_v79 : FVec F S_ .f32) (main_v142 : FVec F S_ .f32) (main_v151 : FVec F S_ .f32) (main_v160 : FVec F S_ .f32) (main_v145 : IVec S_ 1) (main_v143 : FVec F S_ .f32) : FVec F S_ .f32 :=
  let main_v144 : FVec F S_ .f32 := Host.divf main_v142 main_v143
  let main_cst_42 : FVec F S_ .f32 := constant S_ .f32 0x00000000#32
  let main_call5_v0 : FVec F S_ .f32 := id main_cst_42
  let main_v146 : FVec F S_ .f32 := select main_v145 main_v144 main_call5_v0
  let main_cst_49 : FVec F S_ .f32 := constant S_ .f32 0x3D4CCCCD#32
  let main_cst_43 : FVec F S_ .f32 := constant S_ .f32 0x4A480000#32
  let main_v147 : FVec F S_ .f32 := subf main_cst_43 main_v79
  let main_cst_47 : FVec F S_ .f32 := constant S_ .f32 0x00000000#32
  let main_v154 : IVec S_ 1 := cmpf .ogt main_v147 main_cst_47
  let main_cst_46 : FVec F S_ .f32 := constant S_ .f32 0x3F800000#32
  let main_v152 : FVec F S_ .f32 := maximumf main_v147 main_cst_46
  let main_v153 : FVec F S_ .f32 := Host.divf main_v151 main_v152
  let main_cst_48 : FVec F S_ .f32 := constant S_ .f32 0x00000000#32
  let main_call6_v0 : FVec F S_ .f32 := id main_cst_48
  let main_v155 : FVec F S_ .f32 := select main_v154 main_v153 main_call6_v0
  let main_v156 : FVec F S_ .f32 := mulf main_cst_49 main_v155
  let main_v157 : FVec F S_ .f32 := addf main_v146 main_v156
  let main_cst_51 : FVec F S_ .f32 := constant S_ .f32 0x3F800000#32
  let main_v159 : FVec F S_ .f32 := mulf main_v157 main_cst_51
  let main_v161 : FVec F S_ .f32 := addf main_v160 main_v159
  main_v161

/-- The running total after one scale, from the total before it and the five sums of the scale. -/
def rTail1 (main_v96 : FVec F S_ .f32) (main_v103 : FVec F S_ .f32) (main_v79 : FVec F S_ .f32) (main_v142 : FVec F S_ .f32) (main_v151 : FVec F S_ .f32) : FVec F S_ .f32 :=
  let main_cst_52 : FVec F S_ .f32 := constant S_ .f32 0x00000000#32
  let main_cst_29 : FVec F S_ .f32 := constant S_ .f32 0x00000000#32
  let main_v105 : IVec S_ 1 := cmpf .ogt main_v79 main_cst_29
  let main_cst_25 : FVec F S_ .f32 := constant S_ .f32 0x3F800000#32
  let main_v89 : FVec F S_ .f32 := maximumf main_v79 main_cst_25
  let main_cst_26 : FVec F S_ .f32 := constant S_ .f32 0x40000000#32
  let main_v90 : FVec F S_ .f32 := mulf main_v89 main_cst_26
  let main_v97 : FVec F S_ .f32 := Host.divf main_v96 main_v90
  let main_v104 : FVec F S_ .f32 := Host.divf main_v103 main_v90
  let main_v106 : FVec F S_ .f32 := addf main_v97 main_v104
  let main_cst_30 : FVec F S_ .f32 := constant S_ .f32 0x00000000#32
  let main_call2_v0 : FVec F S_ .f32 := id main_cst_30
  let main_v107 : FVec F S_ .f32 := select main_v105 main_v106 main_call2_v0
  let main_cst_50 : FVec F S_ .f32 := constant S_ .f32 0x40F00000#32
  let main_v158 : FVec F S_ .f32 := mulf main_v107 main_cst_50
  let main_v160 : FVec F S_ .f32 := addf main_cst_52 main_v158
  let main_cst_41 : FVec F S_ .f32 := constant S_ .f32 0x00000000#32
  let main_v145 : IVec S_ 1 := cmpf .ogt main_v79 main_cst_41
  let main_cst_40 : FVec F S_ .f32 := constant S_ .f32 0x3F800000#32
  let main_v143 : FVec F S_ .f32 := maximumf main_v79 main_cst_40
  rTail1_p2 (F := F) main_v79 main_v142 main_v151 main_v160 main_v145 main_v143

/-- The number of occupied cells: the sum of the mask read as a float. -/
def rN2 (main_v240 : FVec F S128x80x80 .f32) : FVec F S_ .f32 :=
  let main_cst_77 : FVec F S_ .f32 := constant S_ .f32 0x00000000#32
  let main_v241 : FVec F S_ .f32 := (fun x v => Host.reduceAdd x v reducesTo_S128x80x80_S_d0_1_2 h_S_) main_v240 main_cst_77
  main_v241

/-- The masked squared error of the squashed centre offsets, summed over everything. -/
def rSxy2 (main_arg1 : FVec F S128x5x80x80 .f32) (main_v216 : FVec F S128x80x80x5 .f32) (main_v240 : FVec F S128x80x80 .f32) : FVec F S_ .f32 :=
  let main_cst_79 : FVec F S_ .f32 := constant S_ .f32 0x3F800000#32
  let main_v247 : FVec F S128x80x80x2 .f32 := broadcastInDim S128x80x80x2 ![] bcast_S_S128x80x80x2 main_cst_79
  let main_cst_78 : FVec F S_ .f32 := constant S_ .f32 0x3F800000#32
  let main_v245 : FVec F S128x80x80x2 .f32 := broadcastInDim S128x80x80x2 ![] bcast_S_S128x80x80x2 main_cst_78
  let main_v239 : FVec F S128x80x80x5 .f32 := (transpose S128x80x80x5 [0, 2, 3, 1] · transposes_S128x5x80x80_S128x80x80x5_0_2_3_1) main_arg1
  let main_v242 : FVec F S128x80x80x2 .f32 := (extractStridedSlice S128x80x80x2 ![0, 0, 0, 0] · slices_S128x80x80x5_S128x80x80x2_0_0_0_0) main_v239
  let main_v243 : FVec F S128x80x80x2 .f32 := Host.negf main_v242
  let main_v244 : FVec F S128x80x80x2 .f32 := Host.exp main_v243
  let main_v246 : FVec F S128x80x80x2 .f32 := addf main_v245 main_v244
  let main_v248 : FVec F S128x80x80x2 .f32 := Host.divf main_v247 main_v246
  let main_v253 : FVec F S128x80x80x2 .f32 := (extractStridedSlice S128x80x80x2 ![0, 0, 0, 0] · slices_S128x80x80x5_S128x80x80x2_0_0_0_0) main_v216
  let main_v254 : FVec F S128x80x80x2 .f32 := subf main_v248 main_v253
  let main_v255 : FVec F S128x80x80x2 .f32 := mulf main_v254 main_v254
  let main_v250 : FVec F S128x80x80x1 .f32 := broadcastInDim S128x80x80x1 ![0, 1, 2] bcast_S128x80x80_S128x80x80x1_0_1_2 main_v240
  let main_v256 : FVec F S128x80x80x2 .f32 := broadcastInDim S128x80x80x2 ![0, 1, 2, 3] bcast_S128x80x80x1_S128x80x80x2_0_1_2_3 main_v250
  let main_v257 : FVec F S128x80x80x2 .f32 := mulf main_v255 main_v256
  let main_cst_82 : FVec F S_ .f32 := constant S_ .f32 0x00000000#32
  let main_v258 : FVec F S_ .f32 := (fun x v => Host.reduceAdd x v reducesTo_S128x80x80x2_S_d0_1_2_3 h_S_) main_v257 main_cst_82
  main_v258

/-- The masked squared error of the sizes, summed over everything. -/
def rSwh2 (main_arg1 : FVec F S128x5x80x80 .f32) (main_v216 : FVec F S128x80x80x5 .f32) (main_v240 : FVec F S128x80x80 .f32) : FVec F S_ .f32 :=
  let main_v239 : FVec F S128x80x80x5 .f32 := (transpose S128x80x80x5 [0, 2, 3, 1] · transposes_S128x5x80x80_S128x80x80x5_0_2_3_1) main_arg1
  let main_v249 : FVec F S128x80x80x2 .f32 := (extractStridedSlice S128x80x80x2 ![0, 0, 0, 2] · slices_S128x80x80x5_S128x80x80x2_0_0_0_2) main_v239
  let main_v260 : FVec F S128x80x80x2 .f32 := (extractStridedSlice S128x80x80x2 ![0, 0, 0, 2] · slices_S128x80x80x5_S128x80x80x2_0_0_0_2) main_v216
  let main_v261 : FVec F S128x80x80x2 .f32 := subf main_v249 main_v260
  let main_v262 : FVec F S128x80x80x2 .f32 := mulf main_v261 main_v261
  let main_v250 : FVec F S128x80x80x1 .f32 := broadcastInDim S128x80x80x1 ![0, 1, 2] bcast_S128x80x80_S128x80x80x1_0_1_2 main_v240
  let main_v263 : FVec F S128x80x80x2 .f32 := broadcastInDim S128x80x80x2 ![0, 1, 2, 3] bcast_S128x80x80x1_S128x80x80x2_0_1_2_3 main_v250
  let main_v264 : FVec F S128x80x80x2 .f32 := mulf main_v262 main_v263
  let main_cst_83 : FVec F S_ .f32 := constant S_ .f32 0x00000000#32
  let main_v265 : FVec F S_ .f32 := (fun x v => Host.reduceAdd x v reducesTo_S128x80x80x2_S_d0_1_2_3 h_S_) main_v264 main_cst_83
  main_v265

/-- Part 4 of rSp2. -/
def rSp2_p4 (main_v240 : FVec F S128x80x80 .f32) (main_v301 : FVec F S128x80x80 .f32) (main_v275 : FVec F S128x80x80 .f32) (main_v277 : FVec F S128x80x80 .f32) (main_call11_v0 : FVec F S128x80x80 .f32) (main_call11_call0_v3 : FVec F S128x80x80 .f32) (main_call11_call0_v4 : IVec S128x80x80 1) (main_call11_call0_v6 : FVec F S128x80x80 .f32) (main_call11_call0_v0 : FVec F S128x80x80 .f32) : FVec F S_ .f32 :=
  let main_call11_call0_v1 : FVec F S128x80x80 .f32 := maximumf main_call11_v0 main_call11_call0_v0
  let main_call11_call0_v7 : FVec F S128x80x80 .f32 := Host.absf main_call11_call0_v3
  let main_call11_call0_v8 : FVec F S128x80x80 .f32 := Host.negf main_call11_call0_v7
  let main_call11_call0_v9 : FVec F S128x80x80 .f32 := Host.exp main_call11_call0_v8
  let main_call11_call0_v10 : FVec F S128x80x80 .f32 := Host.log1p main_call11_call0_v9
  let main_call11_call0_v11 : FVec F S128x80x80 .f32 := addf main_call11_call0_v1 main_call11_call0_v10
  let main_call11_v1 : FVec F S128x80x80 .f32 := select main_call11_call0_v4 main_call11_call0_v6 main_call11_call0_v11
  let main_v279 : FVec F S128x80x80 .f32 := Host.negf main_call11_v1
  let main_v280 : FVec F S128x80x80 .f32 := mulf main_v277 main_v279
  let main_v281 : FVec F S128x80x80 .f32 := addf main_v275 main_v280
  let main_v282 : FVec F S128x80x80 .f32 := Host.negf main_v281
  let main_v302 : FVec F S128x80x80 .f32 := mulf main_v301 main_v282
  let main_v303 : FVec F S128x80x80 .f32 := mulf main_v302 main_v240
  let main_cst_94 : FVec F S_ .f32 := constant S_ .f32 0x00000000#32
  let main_v304 : FVec F S_ .f32 := (fun x v => Host.reduceAdd x v reducesTo_S128x80x80_S_d0_1_2 h_S_) main_v303 main_cst_94
  main_v304

/-- Part 3 of rSp2. -/
def rSp2_p3 (main_v240 : FVec F S128x80x80 .f32) (main_v273 : FVec F S128x80x80 .f32) (main_v271 : FVec F S128x80x80 .f32) (main_v301 : FVec F S128x80x80 .f32) (main_call10_call0_v3 : FVec F S128x80x80 .f32) (main_call10_call0_v4 : IVec S128x80x80 1) (main_call10_call0_v6 : FVec F S128x80x80 .f32) (main_call10_call0_v1 : FVec F S128x80x80 .f32) : FVec F S_ .f32 :=
  let main_call10_call0_v7 : FVec F S128x80x80 .f32 := Host.absf main_call10_call0_v3
  let main_call10_call0_v8 : FVec F S128x80x80 .f32 := Host.negf main_call10_call0_v7
  let main_call10_call0_v9 : FVec F S128x80x80 .f32 := Host.exp main_call10_call0_v8
  let main_call10_call0_v10 : FVec F S128x80x80 .f32 := Host.log1p main_call10_call0_v9
  let main_call10_call0_v11 : FVec F S128x80x80 .f32 := addf main_call10_call0_v1 main_call10_call0_v10
  let main_call10_v1 : FVec F S128x80x80 .f32 := select main_call10_call0_v4 main_call10_call0_v6 main_call10_call0_v11
  let main_v274 : FVec F S128x80x80 .f32 := Host.negf main_call10_v1
  let main_v275 : FVec F S128x80x80 .f32 := mulf main_v273 main_v274
  let main_cst_86 : FVec F S_ .f32 := constant S_ .f32 0x3F800000#32
  let main_v276 : FVec F S128x80x80 .f32 := broadcastInDim S128x80x80 ![] bcast_S_S128x80x80 main_cst_86
  let main_v277 : FVec F S128x80x80 .f32 := subf main_v276 main_v273
  let main_v278 : FVec F S128x80x80 .f32 := Host.negf main_v271
  let main_call11_v0 : FVec F S128x80x80 .f32 := Host.negf main_v278
  let main_call11_call0_cst : FVec F S_ .f32 := constant S_ .f32 0x00000000#32
  let main_call11_call0_v2 : FVec F S128x80x80 .f32 := broadcastInDim S128x80x80 ![] bcast_S_S128x80x80 main_call11_call0_cst
  let main_call11_call0_v3 : FVec F S128x80x80 .f32 := subf main_call11_v0 main_call11_call0_v2
  let main_call11_call0_v4 : IVec S128x80x80 1 := cmpf .une main_call11_call0_v3 main_call11_call0_v3
  let main_call11_call0_v5 : FVec F S128x80x80 .f32 := broadcastInDim S128x80x80 ![] bcast_S_S128x80x80 main_call11_call0_cst
  let main_call11_call0_v6 : FVec F S128x80x80 .f32 := addf main_call11_v0 main_call11_call0_v5
  let main_call11_call0_v0 : FVec F S128x80x80 .f32 := broadcastInDim S128x80x80 ![] bcast_S_S128x80x80 main_call11_call0_cst
  rSp2_p4 (F := F) main_v240 main_v301 main_v275 main_v277 main_call11_v0 main_call11_call0_v3 main_call11_call0_v4 main_call11_call0_v6 main_call11_call0_v0

/-- Part 2 of rSp2. -/
def rSp2_p2 (main_v240 : FVec F S128x80x80 .f32) (main_v300 : FVec F S128x80x80 .f32) (main_v296 : FVec F S128x80x80 .f32) (main_v273 : FVec F S128x80x80 .f32) (main_v271 : FVec F S128x80x80 .f32) (main_v288 : FVec F S128x80x80 .f32) (main_v289 : FVec F S128x80x80 .f32) (main_v290 : FVec F S128x80x80 .f32) : FVec F S_ .f32 :=
  let main_v291 : FVec F S128x80x80 .f32 := subf main_v290 main_v273
  let main_cst_90 : FVec F S_ .f32 := constant S_ .f32 0x3F800000#32
  let main_v292 : FVec F S128x80x80 .f32 := broadcastInDim S128x80x80 ![] bcast_S_S128x80x80 main_cst_90
  let main_v293 : FVec F S128x80x80 .f32 := subf main_v292 main_v288
  let main_v294 : FVec F S128x80x80 .f32 := mulf main_v291 main_v293
  let main_v295 : FVec F S128x80x80 .f32 := addf main_v289 main_v294
  let main_v297 : FVec F S128x80x80 .f32 := subf main_v296 main_v295
  let main_cst_92 : FVec F S_ .f32 := constant S_ .f32 0x3FC00000#32
  let main_v298 : FVec F S128x80x80 .f32 := broadcastInDim S128x80x80 ![] bcast_S_S128x80x80 main_cst_92
  let main_v299 : FVec F S128x80x80 .f32 := Host.powf main_v297 main_v298
  let main_v301 : FVec F S128x80x80 .f32 := mulf main_v300 main_v299
  let main_call10_v0 : FVec F S128x80x80 .f32 := Host.negf main_v271
  let main_call10_call0_cst : FVec F S_ .f32 := constant S_ .f32 0x00000000#32
  let main_call10_call0_v2 : FVec F S128x80x80 .f32 := broadcastInDim S128x80x80 ![] bcast_S_S128x80x80 main_call10_call0_cst
  let main_call10_call0_v3 : FVec F S128x80x80 .f32 := subf main_call10_v0 main_call10_call0_v2
  let main_call10_call0_v4 : IVec S128x80x80 1 := cmpf .une main_call10_call0_v3 main_call10_call0_v3
  let main_call10_call0_v5 : FVec F S128x80x80 .f32 := broadcastInDim S128x80x80 ![] bcast_S_S128x80x80 main_call10_call0_cst
  let main_call10_call0_v6 : FVec F S128x80x80 .f32 := addf main_call10_v0 main_call10_call0_v5
  let main_call10_call0_v0 : FVec F S128x80x80 .f32 := broadcastInDim S128x80x80 ![] bcast_S_S128x80x80 main_call10_call0_cst
  let main_call10_call0_v1 : FVec F S128x80x80 .f32 := maximumf main_call10_v0 main_call10_call0_v0
  rSp2_p3 (F := F) main_v240 main_v273 main_v271 main_v301 main_call10_call0_v3 main_call10_call0_v4 main_call10_call0_v6 main_call10_call0_v1

/-- The focal term over the occupied cells, summed over everything. -/
def rSp2 (main_arg1 : FVec F S128x5x80x80 .f32) (main_v216 : FVec F S128x80x80x5 .f32) (main_v240 : FVec F S128x80x80 .f32) : FVec F S_ .f32 :=
  let main_cst_93 : FVec F S_ .f32 := constant S_ .f32 0x3E800000#32
  let main_v300 : FVec F S128x80x80 .f32 := broadcastInDim S128x80x80 ![] bcast_S_S128x80x80 main_cst_93
  let main_cst_91 : FVec F S_ .f32 := constant S_ .f32 0x3F800000#32
  let main_v296 : FVec F S128x80x80 .f32 := broadcastInDim S128x80x80 ![] bcast_S_S128x80x80 main_cst_91
  let main_v272 : FVec F S128x80x80x1 .f32 := (extractStridedSlice S128x80x80x1 ![0, 0, 0, 4] · slices_S128x80x80x5_S128x80x80x1_0_0_0_4) main_v216
  let main_v273 : FVec F S128x80x80 .f32 := shapeCast S128x80x80 main_v272 shapeCasts_S128x80x80x1_S128x80x80
  let main_cst_88 : FVec F S_ .f32 := constant S_ .f32 0x3F800000#32
  let main_v287 : FVec F S128x80x80 .f32 := broadcastInDim S128x80x80 ![] bcast_S_S128x80x80 main_cst_88
  let main_cst_87 : FVec F S_ .f32 := constant S_ .f32 0x3F800000#32
  let main_v285 : FVec F S128x80x80 .f32 := broadcastInDim S128x80x80 ![] bcast_S_S128x80x80 main_cst_87
  let main_v239 : FVec F S128x80x80x5 .f32 := (transpose S128x80x80x5 [0, 2, 3, 1] · transposes_S128x5x80x80_S128x80x80x5_0_2_3_1) main_arg1
  let main_v270 : FVec F S128x80x80x1 .f32 := (extractStridedSlice S128x80x80x1 ![0, 0, 0, 4] · slices_S128x80x80x5_S128x80x80x1_0_0_0_4) main_v239
  let main_v271 : FVec F S128x80x80 .f32 := shapeCast S128x80x80 main_v270 shapeCasts_S128x80x80x1_S128x80x80
  let main_v283 : FVec F S128x80x80 .f32 := Host.negf main_v271
  let main_v284 : FVec F S128x80x80 .f32 := Host.exp main_v283
  let main_v286 : FVec F S128x80x80 .f32 := addf main_v285 main_v284
  let main_v288 : FVec F S128x80x80 .f32 := Host.divf main_v287 main_v286
  let main_v289 : FVec F S128x80x80 .f32 := mulf main_v273 main_v288
  let main_cst_89 : FVec F S_ .f32 := constant S_ .f32 0x3F800000#32
  let main_v290 : FVec F S128x80x80 .f32 := broadcastInDim S128x80x80 ![] bcast_S_S128x80x80 main_cst_89
  rSp2_p2 (F := F) main_v240 main_v300 main_v296 main_v273 main_v271 main_v288 main_v289 main_v290

/-- Part 4 of rSn2. -/
def rSn2_p4 (main_v240 : FVec F S128x80x80 .f32) (main_v301 : FVec F S128x80x80 .f32) (main_v275 : FVec F S128x80x80 .f32) (main_v277 : FVec F S128x80x80 .f32) (main_call11_v0 : FVec F S128x80x80 .f32) (main_call11_call0_v3 : FVec F S128x80x80 .f32) (main_call11_call0_v4 : IVec S128x80x80 1) (main_call11_call0_v6 : FVec F S128x80x80 .f32) (main_call11_call0_v0 : FVec F S128x80x80 .f32) : FVec F S_ .f32 :=
  let main_call11_call0_v1 : FVec F S128x80x80 .f32 := maximumf main_call11_v0 main_call11_call0_v0
  let main_call11_call0_v7 : FVec F S128x80x80 .f32 := Host.absf main_call11_call0_v3
  let main_call11_call0_v8 : FVec F S128x80x80 .f32 := Host.negf main_call11_call0_v7
  let main_call11_call0_v9 : FVec F S128x80x80 .f32 := Host.exp main_call11_call0_v8
  let main_call11_call0_v10 : FVec F S128x80x80 .f32 := Host.log1p main_call11_call0_v9
  let main_call11_call0_v11 : FVec F S128x80x80 .f32 := addf main_call11_call0_v1 main_call11_call0_v10
  let main_call11_v1 : FVec F S128x80x80 .f32 := select main_call11_call0_v4 main_call11_call0_v6 main_call11_call0_v11
  let main_v279 : FVec F S128x80x80 .f32 := Host.negf main_call11_v1
  let main_v280 : FVec F S128x80x80 .f32 := mulf main_v277 main_v279
  let main_v281 : FVec F S128x80x80 .f32 := addf main_v275 main_v280
  let main_v282 : FVec F S128x80x80 .f32 := Host.negf main_v281
  let main_v302 : FVec F S128x80x80 .f32 := mulf main_v301 main_v282
  let main_cst_99 : FVec F S_ .f32 := constant S_ .f32 0x3F800000#32
  let main_v310 : FVec F S128x80x80 .f32 := broadcastInDim S128x80x80 ![] bcast_S_S128x80x80 main_cst_99
  let main_v311 : FVec F S128x80x80 .f32 := subf main_v310 main_v240
  let main_v312 : FVec F S128x80x80 .f32 := mulf main_v302 main_v311
  let main_cst_100 : FVec F S_ .f32 := constant S_ .f32 0x00000000#32
  let main_v313 : FVec F S_ .f32 := (fun x v => Host.reduceAdd x v reducesTo_S128x80x80_S_d0_1_2 h_S_) main_v312 main_cst_100
  main_v313

/-- Part 3 of rSn2. -/
def rSn2_p3 (main_v240 : FVec F S128x80x80 .f32) (main_v273 : FVec F S128x80x80 .f32) (main_v271 : FVec F S128x80x80 .f32) (main_v301 : FVec F S128x80x80 .f32) (main_call10_call0_v3 : FVec F S128x80x80 .f32) (main_call10_call0_v4 : IVec S128x80x80 1) (main_call10_call0_v6 : FVec F S128x80x80 .f32) (main_call10_call0_v1 : FVec F S128x80x80 .f32) : FVec F S_ .f32 :=
  let main_call10_call0_v7 : FVec F S128x80x80 .f32 := Host.absf main_call10_call0_v3
  let main_call10_call0_v8 : FVec F S128x80x80 .f32 := Host.negf main_call10_call0_v7
  let main_call10_call0_v9 : FVec F S128x80x80 .f32 := Host.exp main_call10_call0_v8
  let main_call10_call0_v10 : FVec F S128x80x80 .f32 := Host.log1p main_call10_call0_v9
  let main_call10_call0_v11 : FVec F S128x80x80 .f32 := addf main_call10_call0_v1 main_call10_call0_v10
  let main_call10_v1 : FVec F S128x80x80 .f32 := select main_call10_call0_v4 main_call10_call0_v6 main_call10_call0_v11
  let main_v274 : FVec F S128x80x80 .f32 := Host.negf main_call10_v1
  let main_v275 : FVec F S128x80x80 .f32 := mulf main_v273 main_v274
  let main_cst_86 : FVec F S_ .f32 := constant S_ .f32 0x3F800000#32
  let main_v276 : FVec F S128x80x80 .f32 := broadcastInDim S128x80x80 ![] bcast_S_S128x80x80 main_cst_86
  let main_v277 : FVec F S128x80x80 .f32 := subf main_v276 main_v273
  let main_v278 : FVec F S128x80x80 .f32 := Host.negf main_v271
  let main_call11_v0 : FVec F S128x80x80 .f32 := Host.negf main_v278
  let main_call11_call0_cst : FVec F S_ .f32 := constant S_ .f32 0x00000000#32
  let main_call11_call0_v2 : FVec F S128x80x80 .f32 := broadcastInDim S128x80x80 ![] bcast_S_S128x80x80 main_call11_call0_cst
  let main_call11_call0_v3 : FVec F S128x80x80 .f32 := subf main_call11_v0 main_call11_call0_v2
  let main_call11_call0_v4 : IVec S128x80x80 1 := cmpf .une main_call11_call0_v3 main_call11_call0_v3
  let main_call11_call0_v5 : FVec F S128x80x80 .f32 := broadcastInDim S128x80x80 ![] bcast_S_S128x80x80 main_call11_call0_cst
  let main_call11_call0_v6 : FVec F S128x80x80 .f32 := addf main_call11_v0 main_call11_call0_v5
  let main_call11_call0_v0 : FVec F S128x80x80 .f32 := broadcastInDim S128x80x80 ![] bcast_S_S128x80x80 main_call11_call0_cst
  rSn2_p4 (F := F) main_v240 main_v301 main_v275 main_v277 main_call11_v0 main_call11_call0_v3 main_call11_call0_v4 main_call11_call0_v6 main_call11_call0_v0

/-- Part 2 of rSn2. -/
def rSn2_p2 (main_v240 : FVec F S128x80x80 .f32) (main_v300 : FVec F S128x80x80 .f32) (main_v296 : FVec F S128x80x80 .f32) (main_v273 : FVec F S128x80x80 .f32) (main_v271 : FVec F S128x80x80 .f32) (main_v288 : FVec F S128x80x80 .f32) (main_v289 : FVec F S128x80x80 .f32) (main_v290 : FVec F S128x80x80 .f32) : FVec F S_ .f32 :=
  let main_v291 : FVec F S128x80x80 .f32 := subf main_v290 main_v273
  let main_cst_90 : FVec F S_ .f32 := constant S_ .f32 0x3F800000#32
  let main_v292 : FVec F S128x80x80 .f32 := broadcastInDim S128x80x80 ![] bcast_S_S128x80x80 main_cst_90
  let main_v293 : FVec F S128x80x80 .f32 := subf main_v292 main_v288
  let main_v294 : FVec F S128x80x80 .f32 := mulf main_v291 main_v293
  let main_v295 : FVec F S128x80x80 .f32 := addf main_v289 main_v294
  let main_v297 : FVec F S128x80x80 .f32 := subf main_v296 main_v295
  let main_cst_92 : FVec F S_ .f32 := constant S_ .f32 0x3FC00000#32
  let main_v298 : FVec F S128x80x80 .f32 := broadcastInDim S128x80x80 ![] bcast_S_S128x80x80 main_cst_92
  let main_v299 : FVec F S128x80x80 .f32 := Host.powf main_v297 main_v298
  let main_v301 : FVec F S128x80x80 .f32 := mulf main_v300 main_v299
  let main_call10_v0 : FVec F S128x80x80 .f32 := Host.negf main_v271
  let main_call10_call0_cst : FVec F S_ .f32 := constant S_ .f32 0x00000000#32
  let main_call10_call0_v2 : FVec F S128x80x80 .f32 := broadcastInDim S128x80x80 ![] bcast_S_S128x80x80 main_call10_call0_cst
  let main_call10_call0_v3 : FVec F S128x80x80 .f32 := subf main_call10_v0 main_call10_call0_v2
  let main_call10_call0_v4 : IVec S128x80x80 1 := cmpf .une main_call10_call0_v3 main_call10_call0_v3
  let main_call10_call0_v5 : FVec F S128x80x80 .f32 := broadcastInDim S128x80x80 ![] bcast_S_S128x80x80 main_call10_call0_cst
  let main_call10_call0_v6 : FVec F S128x80x80 .f32 := addf main_call10_v0 main_call10_call0_v5
  let main_call10_call0_v0 : FVec F S128x80x80 .f32 := broadcastInDim S128x80x80 ![] bcast_S_S128x80x80 main_call10_call0_cst
  let main_call10_call0_v1 : FVec F S128x80x80 .f32 := maximumf main_call10_v0 main_call10_call0_v0
  rSn2_p3 (F := F) main_v240 main_v273 main_v271 main_v301 main_call10_call0_v3 main_call10_call0_v4 main_call10_call0_v6 main_call10_call0_v1

/-- The focal term over the empty cells, summed over everything. -/
def rSn2 (main_arg1 : FVec F S128x5x80x80 .f32) (main_v216 : FVec F S128x80x80x5 .f32) (main_v240 : FVec F S128x80x80 .f32) : FVec F S_ .f32 :=
  let main_cst_93 : FVec F S_ .f32 := constant S_ .f32 0x3E800000#32
  let main_v300 : FVec F S128x80x80 .f32 := broadcastInDim S128x80x80 ![] bcast_S_S128x80x80 main_cst_93
  let main_cst_91 : FVec F S_ .f32 := constant S_ .f32 0x3F800000#32
  let main_v296 : FVec F S128x80x80 .f32 := broadcastInDim S128x80x80 ![] bcast_S_S128x80x80 main_cst_91
  let main_v272 : FVec F S128x80x80x1 .f32 := (extractStridedSlice S128x80x80x1 ![0, 0, 0, 4] · slices_S128x80x80x5_S128x80x80x1_0_0_0_4) main_v216
  let main_v273 : FVec F S128x80x80 .f32 := shapeCast S128x80x80 main_v272 shapeCasts_S128x80x80x1_S128x80x80
  let main_cst_88 : FVec F S_ .f32 := constant S_ .f32 0x3F800000#32
  let main_v287 : FVec F S128x80x80 .f32 := broadcastInDim S128x80x80 ![] bcast_S_S128x80x80 main_cst_88
  let main_cst_87 : FVec F S_ .f32 := constant S_ .f32 0x3F800000#32
  let main_v285 : FVec F S128x80x80 .f32 := broadcastInDim S128x80x80 ![] bcast_S_S128x80x80 main_cst_87
  let main_v239 : FVec F S128x80x80x5 .f32 := (transpose S128x80x80x5 [0, 2, 3, 1] · transposes_S128x5x80x80_S128x80x80x5_0_2_3_1) main_arg1
  let main_v270 : FVec F S128x80x80x1 .f32 := (extractStridedSlice S128x80x80x1 ![0, 0, 0, 4] · slices_S128x80x80x5_S128x80x80x1_0_0_0_4) main_v239
  let main_v271 : FVec F S128x80x80 .f32 := shapeCast S128x80x80 main_v270 shapeCasts_S128x80x80x1_S128x80x80
  let main_v283 : FVec F S128x80x80 .f32 := Host.negf main_v271
  let main_v284 : FVec F S128x80x80 .f32 := Host.exp main_v283
  let main_v286 : FVec F S128x80x80 .f32 := addf main_v285 main_v284
  let main_v288 : FVec F S128x80x80 .f32 := Host.divf main_v287 main_v286
  let main_v289 : FVec F S128x80x80 .f32 := mulf main_v273 main_v288
  let main_cst_89 : FVec F S_ .f32 := constant S_ .f32 0x3F800000#32
  let main_v290 : FVec F S128x80x80 .f32 := broadcastInDim S128x80x80 ![] bcast_S_S128x80x80 main_cst_89
  rSn2_p2 (F := F) main_v240 main_v300 main_v296 main_v273 main_v271 main_v288 main_v289 main_v290

/-- Part 2 of rTail2. -/
def rTail2_p2 (main_v241 : FVec F S_ .f32) (main_v313 : FVec F S_ .f32) (main_v322 : FVec F S_ .f32) (main_v307 : IVec S_ 1) (main_v306 : FVec F S_ .f32) : FVec F S_ .f32 :=
  let main_cst_97 : FVec F S_ .f32 := constant S_ .f32 0x00000000#32
  let main_call12_v0 : FVec F S_ .f32 := id main_cst_97
  let main_v308 : FVec F S_ .f32 := select main_v307 main_v306 main_call12_v0
  let main_cst_104 : FVec F S_ .f32 := constant S_ .f32 0x3D4CCCCD#32
  let main_cst_98 : FVec F S_ .f32 := constant S_ .f32 0x49480000#32
  let main_v309 : FVec F S_ .f32 := subf main_cst_98 main_v241
  let main_cst_102 : FVec F S_ .f32 := constant S_ .f32 0x00000000#32
  let main_v316 : IVec S_ 1 := cmpf .ogt main_v309 main_cst_102
  let main_cst_101 : FVec F S_ .f32 := constant S_ .f32 0x3F800000#32
  let main_v314 : FVec F S_ .f32 := maximumf main_v309 main_cst_101
  let main_v315 : FVec F S_ .f32 := Host.divf main_v313 main_v314
  let main_cst_103 : FVec F S_ .f32 := constant S_ .f32 0x00000000#32
  let main_call13_v0 : FVec F S_ .f32 := id main_cst_103
  let main_v317 : FVec F S_ .f32 := select main_v316 main_v315 main_call13_v0
  let main_v318 : FVec F S_ .f32 := mulf main_cst_104 main_v317
  let main_v319 : FVec F S_ .f32 := addf main_v308 main_v318
  let main_cst_106 : FVec F S_ .f32 := constant S_ .f32 0x3F800000#32
  let main_v321 : FVec F S_ .f32 := mulf main_v319 main_cst_106
  let main_v323 : FVec F S_ .f32 := addf main_v322 main_v321
  main_v323

/-- The running total after one scale, from the total before it and the five sums of the scale. -/
def rTail2 (main_v161 : FVec F S_ .f32) (main_v258 : FVec F S_ .f32) (main_v265 : FVec F S_ .f32) (main_v241 : FVec F S_ .f32) (main_v304 : FVec F S_ .f32) (main_v313 : FVec F S_ .f32) : FVec F S_ .f32 :=
  let main_cst_84 : FVec F S_ .f32 := constant S_ .f32 0x00000000#32
  let main_v267 : IVec S_ 1 := cmpf .ogt main_v241 main_cst_84
  let main_cst_80 : FVec F S_ .f32 := constant S_ .f32 0x3F800000#32
  let main_v251 : FVec F S_ .f32 := maximumf main_v241 main_cst_80
  let main_cst_81 : FVec F S_ .f32 := constant S_ .f32 0x40000000#32
  let main_v252 : FVec F S_ .f32 := mulf main_v251 main_cst_81
  let main_v259 : FVec F S_ .f32 := Host.divf main_v258 main_v252
  let main_v266 : FVec F S_ .f32 := Host.divf main_v265 main_v252
  let main_v268 : FVec F S_ .f32 := addf main_v259 main_v266
  let main_cst_85 : FVec F S_ .f32 := constant S_ .f32 0x00000000#32
  let main_call9_v0 : FVec F S_ .f32 := id main_cst_85
  let main_v269 : FVec F S_ .f32 := select main_v267 main_v268 main_call9_v0
  let main_cst_105 : FVec F S_ .f32 := constant S_ .f32 0x40F00000#32
  let main_v320 : FVec F S_ .f32 := mulf main_v269 main_cst_105
  let main_v322 : FVec F S_ .f32 := addf main_v161 main_v320
  let main_cst_96 : FVec F S_ .f32 := constant S_ .f32 0x00000000#32
  let main_v307 : IVec S_ 1 := cmpf .ogt main_v241 main_cst_96
  let main_cst_95 : FVec F S_ .f32 := constant S_ .f32 0x3F800000#32
  let main_v305 : FVec F S_ .f32 := maximumf main_v241 main_cst_95
  let main_v306 : FVec F S_ .f32 := Host.divf main_v304 main_v305
  rTail2_p2 (F := F) main_v241 main_v313 main_v322 main_v307 main_v306

/-- The number of occupied cells: the sum of the mask read as a float. -/
def rN3 (main_v402 : FVec F S128x40x40 .f32) : FVec F S_ .f32 :=
  let main_cst_131 : FVec F S_ .f32 := constant S_ .f32 0x00000000#32
  let main_v403 : FVec F S_ .f32 := (fun x v => Host.reduceAdd x v reducesTo_S128x40x40_S_d0_1_2 h_S_) main_v402 main_cst_131
  main_v403

/-- The masked squared error of the squashed centre offsets, summed over everything. -/
def rSxy3 (main_arg2 : FVec F S128x5x40x40 .f32) (main_v378 : FVec F S128x40x40x5 .f32) (main_v402 : FVec F S128x40x40 .f32) : FVec F S_ .f32 :=
  let main_cst_133 : FVec F S_ .f32 := constant S_ .f32 0x3F800000#32
  let main_v409 : FVec F S128x40x40x2 .f32 := broadcastInDim S128x40x40x2 ![] bcast_S_S128x40x40x2 main_cst_133
  let main_cst_132 : FVec F S_ .f32 := constant S_ .f32 0x3F800000#32
  let main_v407 : FVec F S128x40x40x2 .f32 := broadcastInDim S128x40x40x2 ![] bcast_S_S128x40x40x2 main_cst_132
  let main_v401 : FVec F S128x40x40x5 .f32 := (transpose S128x40x40x5 [0, 2, 3, 1] · transposes_S128x5x40x40_S128x40x40x5_0_2_3_1) main_arg2
  let main_v404 : FVec F S128x40x40x2 .f32 := (extractStridedSlice S128x40x40x2 ![0, 0, 0, 0] · slices_S128x40x40x5_S128x40x40x2_0_0_0_0) main_v401
  let main_v405 : FVec F S128x40x40x2 .f32 := Host.negf main_v404
  let main_v406 : FVec F S128x40x40x2 .f32 := Host.exp main_v405
  let main_v408 : FVec F S128x40x40x2 .f32 := addf main_v407 main_v406
  let main_v410 : FVec F S128x40x40x2 .f32 := Host.divf main_v409 main_v408
  let main_v415 : FVec F S128x40x40x2 .f32 := (extractStridedSlice S128x40x40x2 ![0, 0, 0, 0] · slices_S128x40x40x5_S128x40x40x2_0_0_0_0) main_v378
  let main_v416 : FVec F S128x40x40x2 .f32 := subf main_v410 main_v415
  let main_v417 : FVec F S128x40x40x2 .f32 := mulf main_v416 main_v416
  let main_v412 : FVec F S128x40x40x1 .f32 := broadcastInDim S128x40x40x1 ![0, 1, 2] bcast_S128x40x40_S128x40x40x1_0_1_2 main_v402
  let main_v418 : FVec F S128x40x40x2 .f32 := broadcastInDim S128x40x40x2 ![0, 1, 2, 3] bcast_S128x40x40x1_S128x40x40x2_0_1_2_3 main_v412
  let main_v419 : FVec F S128x40x40x2 .f32 := mulf main_v417 main_v418
  let main_cst_136 : FVec F S_ .f32 := constant S_ .f32 0x00000000#32
  let main_v420 : FVec F S_ .f32 := (fun x v => Host.reduceAdd x v reducesTo_S128x40x40x2_S_d0_1_2_3 h_S_) main_v419 main_cst_136
  main_v420

/-- The masked squared error of the sizes, summed over everything. -/
def rSwh3 (main_arg2 : FVec F S128x5x40x40 .f32) (main_v378 : FVec F S128x40x40x5 .f32) (main_v402 : FVec F S128x40x40 .f32) : FVec F S_ .f32 :=
  let main_v401 : FVec F S128x40x40x5 .f32 := (transpose S128x40x40x5 [0, 2, 3, 1] · transposes_S128x5x40x40_S128x40x40x5_0_2_3_1) main_arg2
  let main_v411 : FVec F S128x40x40x2 .f32 := (extractStridedSlice S128x40x40x2 ![0, 0, 0, 2] · slices_S128x40x40x5_S128x40x40x2_0_0_0_2) main_v401
  let main_v422 : FVec F S128x40x40x2 .f32 := (extractStridedSlice S128x40x40x2 ![0, 0, 0, 2] · slices_S128x40x40x5_S128x40x40x2_0_0_0_2) main_v378
  let main_v423 : FVec F S128x40x40x2 .f32 := subf main_v411 main_v422
  let main_v424 : FVec F S128x40x40x2 .f32 := mulf main_v423 main_v423
  let main_v412 : FVec F S128x40x40x1 .f32 := broadcastInDim S128x40x40x1 ![0, 1, 2] bcast_S128x40x40_S128x40x40x1_0_1_2 main_v402
  let main_v425 : FVec F S128x40x40x2 .f32 := broadcastInDim S128x40x40x2 ![0, 1, 2, 3] bcast_S128x40x40x1_S128x40x40x2_0_1_2_3 main_v412
  let main_v426 : FVec F S128x40x40x2 .f32 := mulf main_v424 main_v425
  let main_cst_137 : FVec F S_ .f32 := constant S_ .f32 0x00000000#32
  let main_v427 : FVec F S_ .f32 := (fun x v => Host.reduceAdd x v reducesTo_S128x40x40x2_S_d0_1_2_3 h_S_) main_v426 main_cst_137
  main_v427

/-- Part 4 of rSp3. -/
def rSp3_p4 (main_v402 : FVec F S128x40x40 .f32) (main_v463 : FVec F S128x40x40 .f32) (main_v437 : FVec F S128x40x40 .f32) (main_v439 : FVec F S128x40x40 .f32) (main_call18_v0 : FVec F S128x40x40 .f32) (main_call18_call0_v3 : FVec F S128x40x40 .f32) (main_call18_call0_v4 : IVec S128x40x40 1) (main_call18_call0_v6 : FVec F S128x40x40 .f32) (main_call18_call0_v0 : FVec F S128x40x40 .f32) : FVec F S_ .f32 :=
  let main_call18_call0_v1 : FVec F S128x40x40 .f32 := maximumf main_call18_v0 main_call18_call0_v0
  let main_call18_call0_v7 : FVec F S128x40x40 .f32 := Host.absf main_call18_call0_v3
  let main_call18_call0_v8 : FVec F S128x40x40 .f32 := Host.negf main_call18_call0_v7
  let main_call18_call0_v9 : FVec F S128x40x40 .f32 := Host.exp main_call18_call0_v8
  let main_call18_call0_v10 : FVec F S128x40x40 .f32 := Host.log1p main_call18_call0_v9
  let main_call18_call0_v11 : FVec F S128x40x40 .f32 := addf main_call18_call0_v1 main_call18_call0_v10
  let main_call18_v1 : FVec F S128x40x40 .f32 := select main_call18_call0_v4 main_call18_call0_v6 main_call18_call0_v11
  let main_v441 : FVec F S128x40x40 .f32 := Host.negf main_call18_v1
  let main_v442 : FVec F S128x40x40 .f32 := mulf main_v439 main_v441
  let main_v443 : FVec F S128x40x40 .f32 := addf main_v437 main_v442
  let main_v444 : FVec F S128x40x40 .f32 := Host.negf main_v443
  let main_v464 : FVec F S128x40x40 .f32 := mulf main_v463 main_v444
  let main_v465 : FVec F S128x40x40 .f32 := mulf main_v464 main_v402
  let main_cst_148 : FVec F S_ .f32 := constant S_ .f32 0x00000000#32
  let main_v466 : FVec F S_ .f32 := (fun x v => Host.reduceAdd x v reducesTo_S128x40x40_S_d0_1_2 h_S_) main_v465 main_cst_148
  main_v466

/-- Part 3 of rSp3. -/
def rSp3_p3 (main_v402 : FVec F S128x40x40 .f32) (main_v435 : FVec F S128x40x40 .f32) (main_v433 : FVec F S128x40x40 .f32) (main_v463 : FVec F S128x40x40 .f32) (main_call17_call0_v3 : FVec F S128x40x40 .f32) (main_call17_call0_v4 : IVec S128x40x40 1) (main_call17_call0_v6 : FVec F S128x40x40 .f32) (main_call17_call0_v1 : FVec F S128x40x40 .f32) : FVec F S_ .f32 :=
  let main_call17_call0_v7 : FVec F S128x40x40 .f32 := Host.absf main_call17_call0_v3
  let main_call17_call0_v8 : FVec F S128x40x40 .f32 := Host.negf main_call17_call0_v7
  let main_call17_call0_v9 : FVec F S128x40x40 .f32 := Host.exp main_call17_call0_v8
  let main_call17_call0_v10 : FVec F S128x40x40 .f32 := Host.log1p main_call17_call0_v9
  let main_call17_call0_v11 : FVec F S128x40x40 .f32 := addf main_call17_call0_v1 main_call17_call0_v10
  let main_call17_v1 : FVec F S128x40x40 .f32 := select main_call17_call0_v4 main_call17_call0_v6 main_call17_call0_v11
  let main_v436 : FVec F S128x40x40 .f32 := Host.negf main_call17_v1
  let main_v437 : FVec F S128x40x40 .f32 := mulf main_v435 main_v436
  let main_cst_140 : FVec F S_ .f32 := constant S_ .f32 0x3F800000#32
  let main_v438 : FVec F S128x40x40 .f32 := broadcastInDim S128x40x40 ![] bcast_S_S128x40x40 main_cst_140
  let main_v439 : FVec F S128x40x40 .f32 := subf main_v438 main_v435
  let main_v440 : FVec F S128x40x40 .f32 := Host.negf main_v433
  let main_call18_v0 : FVec F S128x40x40 .f32 := Host.negf main_v440
  let main_call18_call0_cst : FVec F S_ .f32 := constant S_ .f32 0x00000000#32
  let main_call18_call0_v2 : FVec F S128x40x40 .f32 := broadcastInDim S128x40x40 ![] bcast_S_S128x40x40 main_call18_call0_cst
  let main_call18_call0_v3 : FVec F S128x40x40 .f32 := subf main_call18_v0 main_call18_call0_v2
  let main_call18_call0_v4 : IVec S128x40x40 1 := cmpf .une main_call18_call0_v3 main_call18_call0_v3
  let main_call18_call0_v5 : FVec F S128x40x40 .f32 := broadcastInDim S128x40x40 ![] bcast_S_S128x40x40 main_call18_call0_cst
  let main_call18_call0_v6 : FVec F S128x40x40 .f32 := addf main_call18_v0 main_call18_call0_v5
  let main_call18_call0_v0 : FVec F S128x40x40 .f32 := broadcastInDim S128x40x40 ![] bcast_S_S128x40x40 main_call18_call0_cst
  rSp3_p4 (F := F) main_v402 main_v463 main_v437 main_v439 main_call18_v0 main_call18_call0_v3 main_call18_call0_v4 main_call18_call0_v6 main_call18_call0_v0

/-- Part 2 of rSp3. -/
def rSp3_p2 (main_v402 : FVec F S128x40x40 .f32) (main_v462 : FVec F S128x40x40 .f32) (main_v458 : FVec F S128x40x40 .f32) (main_v435 : FVec F S128x40x40 .f32) (main_v433 : FVec F S128x40x40 .f32) (main_v450 : FVec F S128x40x40 .f32) (main_v451 : FVec F S128x40x40 .f32) (main_v452 : FVec F S128x40x40 .f32) : FVec F S_ .f32 :=
  let main_v453 : FVec F S128x40x40 .f32 := subf main_v452 main_v435
  let main_cst_144 : FVec F S_ .f32 := constant S_ .f32 0x3F800000#32
  let main_v454 : FVec F S128x40x40 .f32 := broadcastInDim S128x40x40 ![] bcast_S_S128x40x40 main_cst_144
  let main_v455 : FVec F S128x40x40 .f32 := subf main_v454 main_v450
  let main_v456 : FVec F S128x40x40 .f32 := mulf main_v453 main_v455
  let main_v457 : FVec F S128x40x40 .f32 := addf main_v451 main_v456
  let main_v459 : FVec F S128x40x40 .f32 := subf main_v458 main_v457
  let main_cst_146 : FVec F S_ .f32 := constant S_ .f32 0x3FC00000#32
  let main_v460 : FVec F S128x40x40 .f32 := broadcastInDim S128x40x40 ![] bcast_S_S128x40x40 main_cst_146
  let main_v461 : FVec F S128x40x40 .f32 := Host.powf main_v459 main_v460
  let main_v463 : FVec F S128x40x40 .f32 := mulf main_v462 main_v461
  let main_call17_v0 : FVec F S128x40x40 .f32 := Host.negf main_v433
  let main_call17_call0_cst : FVec F S_ .f32 := constant S_ .f32 0x00000000#32
  let main_call17_call0_v2 : FVec F S128x40x40 .f32 := broadcastInDim S128x40x40 ![] bcast_S_S128x40x40 main_call17_call0_cst
  let main_call17_call0_v3 : FVec F S128x40x40 .f32 := subf main_call17_v0 main_call17_call0_v2
  let main_call17_call0_v4 : IVec S128x40x40 1 := cmpf .une main_call17_call0_v3 main_call17_call0_v3
  let main_call17_call0_v5 : FVec F S128x40x40 .f32 := broadcastInDim S128x40x40 ![] bcast_S_S128x40x40 main_call17_call0_cst
  let main_call17_call0_v6 : FVec F S128x40x40 .f32 := addf main_call17_v0 main_call17_call0_v5
  let main_call17_call0_v0 : FVec F S128x40x40 .f32 := broadcastInDim S128x40x40 ![] bcast_S_S128x40x40 main_call17_call0_cst
  let main_call17_call0_v1 : FVec F S128x40x40 .f32 := maximumf main_call17_v0 main_call17_call0_v0
  rSp3_p3 (F := F) main_v402 main_v435 main_v433 main_v463 main_call17_call0_v3 main_call17_call0_v4 main_call17_call0_v6 main_call17_call0_v1

/-- The focal term over the occupied cells, summed over everything. -/
def rSp3 (main_arg2 : FVec F S128x5x40x40 .f32) (main_v378 : FVec F S128x40x40x5 .f32) (main_v402 : FVec F S128x40x40 .f32) : FVec F S_ .f32 :=
  let main_cst_147 : FVec F S_ .f32 := constant S_ .f32 0x3E800000#32
  let main_v462 : FVec F S128x40x40 .f32 := broadcastInDim S128x40x40 ![] bcast_S_S128x40x40 main_cst_147
  let main_cst_145 : FVec F S_ .f32 := constant S_ .f32 0x3F800000#32
  let main_v458 : FVec F S128x40x40 .f32 := broadcastInDim S128x40x40 ![] bcast_S_S128x40x40 main_cst_145
  let main_v434 : FVec F S128x40x40x1 .f32 := (extractStridedSlice S128x40x40x1 ![0, 0, 0, 4] · slices_S128x40x40x5_S128x40x40x1_0_0_0_4) main_v378
  let main_v435 : FVec F S128x40x40 .f32 := shapeCast S128x40x40 main_v434 shapeCasts_S128x40x40x1_S128x40x40
  let main_cst_142 : FVec F S_ .f32 := constant S_ .f32 0x3F800000#32
  let main_v449 : FVec F S128x40x40 .f32 := broadcastInDim S128x40x40 ![] bcast_S_S128x40x40 main_cst_142
  let main_cst_141 : FVec F S_ .f32 := constant S_ .f32 0x3F800000#32
  let main_v447 : FVec F S128x40x40 .f32 := broadcastInDim S128x40x40 ![] bcast_S_S128x40x40 main_cst_141
  let main_v401 : FVec F S128x40x40x5 .f32 := (transpose S128x40x40x5 [0, 2, 3, 1] · transposes_S128x5x40x40_S128x40x40x5_0_2_3_1) main_arg2
  let main_v432 : FVec F S128x40x40x1 .f32 := (extractStridedSlice S128x40x40x1 ![0, 0, 0, 4] · slices_S128x40x40x5_S128x40x40x1_0_0_0_4) main_v401
  let main_v433 : FVec F S128x40x40 .f32 := shapeCast S128x40x40 main_v432 shapeCasts_S128x40x40x1_S128x40x40
  let main_v445 : FVec F S128x40x40 .f32 := Host.negf main_v433
  let main_v446 : FVec F S128x40x40 .f32 := Host.exp main_v445
  let main_v448 : FVec F S128x40x40 .f32 := addf main_v447 main_v446
  let main_v450 : FVec F S128x40x40 .f32 := Host.divf main_v449 main_v448
  let main_v451 : FVec F S128x40x40 .f32 := mulf main_v435 main_v450
  let main_cst_143 : FVec F S_ .f32 := constant S_ .f32 0x3F800000#32
  let main_v452 : FVec F S128x40x40 .f32 := broadcastInDim S128x40x40 ![] bcast_S_S128x40x40 main_cst_143
  rSp3_p2 (F := F) main_v402 main_v462 main_v458 main_v435 main_v433 main_v450 main_v451 main_v452

/-- Part 4 of rSn3. -/
def rSn3_p4 (main_v402 : FVec F S128x40x40 .f32) (main_v463 : FVec F S128x40x40 .f32) (main_v437 : FVec F S128x40x40 .f32) (main_v439 : FVec F S128x40x40 .f32) (main_call18_v0 : FVec F S128x40x40 .f32) (main_call18_call0_v3 : FVec F S128x40x40 .f32) (main_call18_call0_v4 : IVec S128x40x40 1) (main_call18_call0_v6 : FVec F S128x40x40 .f32) (main_call18_call0_v0 : FVec F S128x40x40 .f32) : FVec F S_ .f32 :=
  let main_call18_call0_v1 : FVec F S128x40x40 .f32 := maximumf main_call18_v0 main_call18_call0_v0
  let main_call18_call0_v7 : FVec F S128x40x40 .f32 := Host.absf main_call18_call0_v3
  let main_call18_call0_v8 : FVec F S128x40x40 .f32 := Host.negf main_call18_call0_v7
  let main_call18_call0_v9 : FVec F S128x40x40 .f32 := Host.exp main_call18_call0_v8
  let main_call18_call0_v10 : FVec F S128x40x40 .f32 := Host.log1p main_call18_call0_v9
  let main_call18_call0_v11 : FVec F S128x40x40 .f32 := addf main_call18_call0_v1 main_call18_call0_v10
  let main_call18_v1 : FVec F S128x40x40 .f32 := select main_call18_call0_v4 main_call18_call0_v6 main_call18_call0_v11
  let main_v441 : FVec F S128x40x40 .f32 := Host.negf main_call18_v1
  let main_v442 : FVec F S128x40x40 .f32 := mulf main_v439 main_v441
  let main_v443 : FVec F S128x40x40 .f32 := addf main_v437 main_v442
  let main_v444 : FVec F S128x40x40 .f32 := Host.negf main_v443
  let main_v464 : FVec F S128x40x40 .f32 := mulf main_v463 main_v444
  let main_cst_153 : FVec F S_ .f32 := constant S_ .f32 0x3F800000#32
  let main_v472 : FVec F S128x40x40 .f32 := broadcastInDim S128x40x40 ![] bcast_S_S128x40x40 main_cst_153
  let main_v473 : FVec F S128x40x40 .f32 := subf main_v472 main_v402
  let main_v474 : FVec F S128x40x40 .f32 := mulf main_v464 main_v473
  let main_cst_154 : FVec F S_ .f32 := constant S_ .f32 0x00000000#32
  let main_v475 : FVec F S_ .f32 := (fun x v => Host.reduceAdd x v reducesTo_S128x40x40_S_d0_1_2 h_S_) main_v474 main_cst_154
  main_v475

/-- Part 3 of rSn3. -/
def rSn3_p3 (main_v402 : FVec F S128x40x40 .f32) (main_v435 : FVec F S128x40x40 .f32) (main_v433 : FVec F S128x40x40 .f32) (main_v463 : FVec F S128x40x40 .f32) (main_call17_call0_v3 : FVec F S128x40x40 .f32) (main_call17_call0_v4 : IVec S128x40x40 1) (main_call17_call0_v6 : FVec F S128x40x40 .f32) (main_call17_call0_v1 : FVec F S128x40x40 .f32) : FVec F S_ .f32 :=
  let main_call17_call0_v7 : FVec F S128x40x40 .f32 := Host.absf main_call17_call0_v3
  let main_call17_call0_v8 : FVec F S128x40x40 .f32 := Host.negf main_call17_call0_v7
  let main_call17_call0_v9 : FVec F S128x40x40 .f32 := Host.exp main_call17_call0_v8
  let main_call17_call0_v10 : FVec F S128x40x40 .f32 := Host.log1p main_call17_call0_v9
  let main_call17_call0_v11 : FVec F S128x40x40 .f32 := addf main_call17_call0_v1 main_call17_call0_v10
  let main_call17_v1 : FVec F S128x40x40 .f32 := select main_call17_call0_v4 main_call17_call0_v6 main_call17_call0_v11
  let main_v436 : FVec F S128x40x40 .f32 := Host.negf main_call17_v1
  let main_v437 : FVec F S128x40x40 .f32 := mulf main_v435 main_v436
  let main_cst_140 : FVec F S_ .f32 := constant S_ .f32 0x3F800000#32
  let main_v438 : FVec F S128x40x40 .f32 := broadcastInDim S128x40x40 ![] bcast_S_S128x40x40 main_cst_140
  let main_v439 : FVec F S128x40x40 .f32 := subf main_v438 main_v435
  let main_v440 : FVec F S128x40x40 .f32 := Host.negf main_v433
  let main_call18_v0 : FVec F S128x40x40 .f32 := Host.negf main_v440
  let main_call18_call0_cst : FVec F S_ .f32 := constant S_ .f32 0x00000000#32
  let main_call18_call0_v2 : FVec F S128x40x40 .f32 := broadcastInDim S128x40x40 ![] bcast_S_S128x40x40 main_call18_call0_cst
  let main_call18_call0_v3 : FVec F S128x40x40 .f32 := subf main_call18_v0 main_call18_call0_v2
  let main_call18_call0_v4 : IVec S128x40x40 1 := cmpf .une main_call18_call0_v3 main_call18_call0_v3
  let main_call18_call0_v5 : FVec F S128x40x40 .f32 := broadcastInDim S128x40x40 ![] bcast_S_S128x40x40 main_call18_call0_cst
  let main_call18_call0_v6 : FVec F S128x40x40 .f32 := addf main_call18_v0 main_call18_call0_v5
  let main_call18_call0_v0 : FVec F S128x40x40 .f32 := broadcastInDim S128x40x40 ![] bcast_S_S128x40x40 main_call18_call0_cst
  rSn3_p4 (F := F) main_v402 main_v463 main_v437 main_v439 main_call18_v0 main_call18_call0_v3 main_call18_call0_v4 main_call18_call0_v6 main_call18_call0_v0

/-- Part 2 of rSn3. -/
def rSn3_p2 (main_v402 : FVec F S128x40x40 .f32) (main_v462 : FVec F S128x40x40 .f32) (main_v458 : FVec F S128x40x40 .f32) (main_v435 : FVec F S128x40x40 .f32) (main_v433 : FVec F S128x40x40 .f32) (main_v450 : FVec F S128x40x40 .f32) (main_v451 : FVec F S128x40x40 .f32) (main_v452 : FVec F S128x40x40 .f32) : FVec F S_ .f32 :=
  let main_v453 : FVec F S128x40x40 .f32 := subf main_v452 main_v435
  let main_cst_144 : FVec F S_ .f32 := constant S_ .f32 0x3F800000#32
  let main_v454 : FVec F S128x40x40 .f32 := broadcastInDim S128x40x40 ![] bcast_S_S128x40x40 main_cst_144
  let main_v455 : FVec F S128x40x40 .f32 := subf main_v454 main_v450
  let main_v456 : FVec F S128x40x40 .f32 := mulf main_v453 main_v455
  let main_v457 : FVec F S128x40x40 .f32 := addf main_v451 main_v456
  let main_v459 : FVec F S128x40x40 .f32 := subf main_v458 main_v457
  let main_cst_146 : FVec F S_ .f32 := constant S_ .f32 0x3FC00000#32
  let main_v460 : FVec F S128x40x40 .f32 := broadcastInDim S128x40x40 ![] bcast_S_S128x40x40 main_cst_146
  let main_v461 : FVec F S128x40x40 .f32 := Host.powf main_v459 main_v460
  let main_v463 : FVec F S128x40x40 .f32 := mulf main_v462 main_v461
  let main_call17_v0 : FVec F S128x40x40 .f32 := Host.negf main_v433
  let main_call17_call0_cst : FVec F S_ .f32 := constant S_ .f32 0x00000000#32
  let main_call17_call0_v2 : FVec F S128x40x40 .f32 := broadcastInDim S128x40x40 ![] bcast_S_S128x40x40 main_call17_call0_cst
  let main_call17_call0_v3 : FVec F S128x40x40 .f32 := subf main_call17_v0 main_call17_call0_v2
  let main_call17_call0_v4 : IVec S128x40x40 1 := cmpf .une main_call17_call0_v3 main_call17_call0_v3
  let main_call17_call0_v5 : FVec F S128x40x40 .f32 := broadcastInDim S128x40x40 ![] bcast_S_S128x40x40 main_call17_call0_cst
  let main_call17_call0_v6 : FVec F S128x40x40 .f32 := addf main_call17_v0 main_call17_call0_v5
  let main_call17_call0_v0 : FVec F S128x40x40 .f32 := broadcastInDim S128x40x40 ![] bcast_S_S128x40x40 main_call17_call0_cst
  let main_call17_call0_v1 : FVec F S128x40x40 .f32 := maximumf main_call17_v0 main_call17_call0_v0
  rSn3_p3 (F := F) main_v402 main_v435 main_v433 main_v463 main_call17_call0_v3 main_call17_call0_v4 main_call17_call0_v6 main_call17_call0_v1

/-- The focal term over the empty cells, summed over everything. -/
def rSn3 (main_arg2 : FVec F S128x5x40x40 .f32) (main_v378 : FVec F S128x40x40x5 .f32) (main_v402 : FVec F S128x40x40 .f32) : FVec F S_ .f32 :=
  let main_cst_147 : FVec F S_ .f32 := constant S_ .f32 0x3E800000#32
  let main_v462 : FVec F S128x40x40 .f32 := broadcastInDim S128x40x40 ![] bcast_S_S128x40x40 main_cst_147
  let main_cst_145 : FVec F S_ .f32 := constant S_ .f32 0x3F800000#32
  let main_v458 : FVec F S128x40x40 .f32 := broadcastInDim S128x40x40 ![] bcast_S_S128x40x40 main_cst_145
  let main_v434 : FVec F S128x40x40x1 .f32 := (extractStridedSlice S128x40x40x1 ![0, 0, 0, 4] · slices_S128x40x40x5_S128x40x40x1_0_0_0_4) main_v378
  let main_v435 : FVec F S128x40x40 .f32 := shapeCast S128x40x40 main_v434 shapeCasts_S128x40x40x1_S128x40x40
  let main_cst_142 : FVec F S_ .f32 := constant S_ .f32 0x3F800000#32
  let main_v449 : FVec F S128x40x40 .f32 := broadcastInDim S128x40x40 ![] bcast_S_S128x40x40 main_cst_142
  let main_cst_141 : FVec F S_ .f32 := constant S_ .f32 0x3F800000#32
  let main_v447 : FVec F S128x40x40 .f32 := broadcastInDim S128x40x40 ![] bcast_S_S128x40x40 main_cst_141
  let main_v401 : FVec F S128x40x40x5 .f32 := (transpose S128x40x40x5 [0, 2, 3, 1] · transposes_S128x5x40x40_S128x40x40x5_0_2_3_1) main_arg2
  let main_v432 : FVec F S128x40x40x1 .f32 := (extractStridedSlice S128x40x40x1 ![0, 0, 0, 4] · slices_S128x40x40x5_S128x40x40x1_0_0_0_4) main_v401
  let main_v433 : FVec F S128x40x40 .f32 := shapeCast S128x40x40 main_v432 shapeCasts_S128x40x40x1_S128x40x40
  let main_v445 : FVec F S128x40x40 .f32 := Host.negf main_v433
  let main_v446 : FVec F S128x40x40 .f32 := Host.exp main_v445
  let main_v448 : FVec F S128x40x40 .f32 := addf main_v447 main_v446
  let main_v450 : FVec F S128x40x40 .f32 := Host.divf main_v449 main_v448
  let main_v451 : FVec F S128x40x40 .f32 := mulf main_v435 main_v450
  let main_cst_143 : FVec F S_ .f32 := constant S_ .f32 0x3F800000#32
  let main_v452 : FVec F S128x40x40 .f32 := broadcastInDim S128x40x40 ![] bcast_S_S128x40x40 main_cst_143
  rSn3_p2 (F := F) main_v402 main_v462 main_v458 main_v435 main_v433 main_v450 main_v451 main_v452

/-- Part 2 of rTail3. -/
def rTail3_p2 (main_v403 : FVec F S_ .f32) (main_v475 : FVec F S_ .f32) (main_v484 : FVec F S_ .f32) (main_v469 : IVec S_ 1) (main_v468 : FVec F S_ .f32) : FVec F S_ .f32 :=
  let main_cst_151 : FVec F S_ .f32 := constant S_ .f32 0x00000000#32
  let main_call19_v0 : FVec F S_ .f32 := id main_cst_151
  let main_v470 : FVec F S_ .f32 := select main_v469 main_v468 main_call19_v0
  let main_cst_158 : FVec F S_ .f32 := constant S_ .f32 0x3D4CCCCD#32
  let main_cst_152 : FVec F S_ .f32 := constant S_ .f32 0x48480000#32
  let main_v471 : FVec F S_ .f32 := subf main_cst_152 main_v403
  let main_cst_156 : FVec F S_ .f32 := constant S_ .f32 0x00000000#32
  let main_v478 : IVec S_ 1 := cmpf .ogt main_v471 main_cst_156
  let main_cst_155 : FVec F S_ .f32 := constant S_ .f32 0x3F800000#32
  let main_v476 : FVec F S_ .f32 := maximumf main_v471 main_cst_155
  let main_v477 : FVec F S_ .f32 := Host.divf main_v475 main_v476
  let main_cst_157 : FVec F S_ .f32 := constant S_ .f32 0x00000000#32
  let main_call20_v0 : FVec F S_ .f32 := id main_cst_157
  let main_v479 : FVec F S_ .f32 := select main_v478 main_v477 main_call20_v0
  let main_v480 : FVec F S_ .f32 := mulf main_cst_158 main_v479
  let main_v481 : FVec F S_ .f32 := addf main_v470 main_v480
  let main_cst_160 : FVec F S_ .f32 := constant S_ .f32 0x3F800000#32
  let main_v483 : FVec F S_ .f32 := mulf main_v481 main_cst_160
  let main_v485 : FVec F S_ .f32 := addf main_v484 main_v483
  main_v485

/-- The running total after one scale, from the total before it and the five sums of the scale. -/
def rTail3 (main_v323 : FVec F S_ .f32) (main_v420 : FVec F S_ .f32) (main_v427 : FVec F S_ .f32) (main_v403 : FVec F S_ .f32) (main_v466 : FVec F S_ .f32) (main_v475 : FVec F S_ .f32) : FVec F S_ .f32 :=
  let main_cst_138 : FVec F S_ .f32 := constant S_ .f32 0x00000000#32
  let main_v429 : IVec S_ 1 := cmpf .ogt main_v403 main_cst_138
  let main_cst_134 : FVec F S_ .f32 := constant S_ .f32 0x3F800000#32
  let main_v413 : FVec F S_ .f32 := maximumf main_v403 main_cst_134
  let main_cst_135 : FVec F S_ .f32 := constant S_ .f32 0x40000000#32
  let main_v414 : FVec F S_ .f32 := mulf main_v413 main_cst_135
  let main_v421 : FVec F S_ .f32 := Host.divf main_v420 main_v414
  let main_v428 : FVec F S_ .f32 := Host.divf main_v427 main_v414
  let main_v430 : FVec F S_ .f32 := addf main_v421 main_v428
  let main_cst_139 : FVec F S_ .f32 := constant S_ .f32 0x00000000#32
  let main_call16_v0 : FVec F S_ .f32 := id main_cst_139
  let main_v431 : FVec F S_ .f32 := select main_v429 main_v430 main_call16_v0
  let main_cst_159 : FVec F S_ .f32 := constant S_ .f32 0x41100000#32
  let main_v482 : FVec F S_ .f32 := mulf main_v431 main_cst_159
  let main_v484 : FVec F S_ .f32 := addf main_v323 main_v482
  let main_cst_150 : FVec F S_ .f32 := constant S_ .f32 0x00000000#32
  let main_v469 : IVec S_ 1 := cmpf .ogt main_v403 main_cst_150
  let main_cst_149 : FVec F S_ .f32 := constant S_ .f32 0x3F800000#32
  let main_v467 : FVec F S_ .f32 := maximumf main_v403 main_cst_149
  let main_v468 : FVec F S_ .f32 := Host.divf main_v466 main_v467
  rTail3_p2 (F := F) main_v403 main_v475 main_v484 main_v469 main_v468

end Cert.ReferenceIdeal.Hand

end
-- ==== Proof.Bridge1R.lean ====
import proofs.«409303_j18760417149025_3_alg».proof.Proof.Bridge1Defs
import proofs.«409303_j18760417149025_3_alg».proof.Proof.BridgeRDefs
import proofs.«409303_j18760417149025_3_alg».proof.Proof.RefFun

set_option maxRecDepth 100000

noncomputable section

namespace Cert.Bridge

open Idealize.ShloMosaic

variable [Cert.KernelIdeal.Facts] [Cert.ReferenceIdeal.Facts] {F : FTy → Type} [FloatOps F]

section Reference
open Cert.ReferenceIdeal Cert.ReferenceIdeal.Hand

theorem refVal_decomp (a0 : FVec F S128x5x160x160 .f32) (a1 : FVec F S128x5x80x80 .f32) (a2 : FVec F S128x5x40x40 .f32)
    (a3 : FVec F S4096x6 .f32) (t1 : FVec F S128x160x160x5 .f32) (m1 : FVec F S128x160x160 .f32)
    (t2 : FVec F S128x80x80x5 .f32) (m2 : FVec F S128x80x80 .f32) (t3 : FVec F S128x40x40x5 .f32) (m3 : FVec F S128x40x40 .f32)
    (ht1 : t1 = rTT1 a3) (hm1 : m1 = rMF1 a3) (ht2 : t2 = rTT2 a3) (hm2 : m2 = rMF2 a3)
    (ht3 : t3 = rTT3 a3) (hm3 : m3 = rMF3 a3) :
    refVal a0 a1 a2 a3
      = rTail3 (rTail2 (rTail1 (rSxy1 a0 t1 m1) (rSwh1 a0 t1 m1) (rN1 m1) (rSp1 a0 t1 m1) (rSn1 a0 t1 m1))
          (rSxy2 a1 t2 m2) (rSwh2 a1 t2 m2) (rN2 m2) (rSp2 a1 t2 m2) (rSn2 a1 t2 m2))
          (rSxy3 a2 t3 m3) (rSwh3 a2 t3 m3) (rN3 m3) (rSp3 a2 t3 m3) (rSn3 a2 t3 m3) := by
  subst ht1 hm1 ht2 hm2 ht3 hm3
  rfl

end Reference

theorem tail1_eq (s0 s1 s2 s3 s4 : FVec F Cert.KernelIdeal.S_ .f32) :
    Cert.KernelIdeal.Hand.kTail1 s0 s1 s2 s3 s4 = Cert.ReferenceIdeal.Hand.rTail1 s0 s1 s2 s3 s4 := rfl
theorem tail2_eq (t s0 s1 s2 s3 s4 : FVec F Cert.KernelIdeal.S_ .f32) :
    Cert.KernelIdeal.Hand.kTail2 t s0 s1 s2 s3 s4 = Cert.ReferenceIdeal.Hand.rTail2 t s0 s1 s2 s3 s4 := rfl
theorem tail3_eq (t s0 s1 s2 s3 s4 : FVec F Cert.KernelIdeal.S_ .f32) :
    Cert.KernelIdeal.Hand.kTail3 t s0 s1 s2 s3 s4 = Cert.ReferenceIdeal.Hand.rTail3 t s0 s1 s2 s3 s4 := rfl

end Cert.Bridge

end
-- ==== Proof.Bridge1.lean ====
import proofs.«409303_j18760417149025_3_alg».proof.Proof.Bridge1K
import proofs.«409303_j18760417149025_3_alg».proof.Proof.Bridge1R
-- ==== Proof.LibSumBlocks.lean ====
import Mathlib.Algebra.BigOperators.Fin
import Mathlib.Algebra.BigOperators.Group.Finset.Defs
import Mathlib.Algebra.BigOperators.Group.List.Basic
import Mathlib.Data.Fintype.BigOperators
import Idealize.ShloMosaic.Lib.ValueIdx

open scoped BigOperators
open Idealize.ShloMosaic Idealize.ShloMosaic.ValueIdx

namespace Cert.Hand

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.Hand
-- ==== Proof.LibFocal.lean ====
import Idealize.ShloMosaic.PureOps.Ideal
import Mathlib.Analysis.SpecialFunctions.Pow.Real
import Mathlib.Analysis.SpecialFunctions.Sqrt
import Mathlib.Analysis.SpecialFunctions.Log.Basic

noncomputable section

namespace Cert.Lib.Focal

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_three_halves : Ideal.ofBits .f32 0x3FC00000#32 = ((3 / 2 : ℝ) : EReal) := by
  simp [Ideal.ofBits, Ideal.ieee, -EReal.coe_mul]; norm_num

def kFloss (x t : EReal) : EReal :=
  let c0 : EReal := Ideal.ofBits .f32 0x00000000#32
  let c1 : EReal := Ideal.ofBits .f32 0x3F800000#32
  let cq : EReal := Ideal.ofBits .f32 0x3E800000#32
  let v43 := c0 - x
  let v45 := max v43 c0
  let v47 := v43 - c0
  let v48 := Ideal.cmp .one v47 v47
  let v50 := v43 + c0
  let v51 := max v47 (-v47)
  let v53 := c0 - v51
  let v54 := Ideal.exp v53
  let v55 := Ideal.log1p v54
  let v56 := v45 + v55
  let v57 := Scalar.select v48 v50 v56
  let v59 := c0 - v57
  let v60 := v59 - x
  let v61 := Ideal.exp v59
  let v62 := t * v59
  let v64 := c1 - t
  let v65 := v64 * v60
  let v66 := v62 + v65
  let v68 := c0 - v66
  let v69 := t * v61
  let v71 := c1 - t
  let v73 := c1 - v61
  let v74 := v71 * v73
  let v75 := v69 + v74
  let v77 := c1 - v75
  let v79 := max v77 c0
  let v80 := Ideal.sqrt v79
  let v81 := v79 * v80
  let v83 := cq * v81
  v83 * v68

def rSoftplus (y : EReal) : EReal :=
  let c0 : EReal := Ideal.ofBits .f32 0x00000000#32
  let v1 := max y c0
  let v3 := y - c0
  let v4 := Ideal.cmp .une v3 v3
  let v6 := y + c0
  let v7 := max v3 (-v3)
  let v8 := -v7
  let v9 := Ideal.exp v8
  let v10 := Ideal.log1p v9
  let v11 := v1 + v10
  Scalar.select v4 v6 v11

def rLogSigmoid (y : EReal) : EReal := -(rSoftplus (-y))

def rFloss (x t : EReal) : EReal :=
  let c1 : EReal := Ideal.ofBits .f32 0x3F800000#32
  let cq : EReal := Ideal.ofBits .f32 0x3E800000#32
  let c15 : EReal := Ideal.ofBits .f32 0x3FC00000#32
  let v112 := rLogSigmoid x
  let v113 := t * v112
  let v115 := c1 - t
  let v116 := -x
  let v117 := rLogSigmoid v116
  let v118 := v115 * v117
  let v119 := v113 + v118
  let v120 := -v119
  let v121 := -x
  let v122 := Ideal.exp v121
  let v124 := c1 + v122
  let v126 := Ideal.div c1 v124
  let v127 := t * v126
  let v129 := c1 - t
  let v131 := c1 - v126
  let v132 := v129 * v131
  let v133 := v127 + v132
  let v135 := c1 - v133
  let v137 := Ideal.pow v135 c15
  let v139 := cq * v137
  v139 * v120

theorem coe_max (a b : ℝ) : max (a : EReal) (b : EReal) = ((max a b : ℝ) : EReal) :=
  (EReal.coe_strictMono.monotone.map_max).symm

theorem cmp_one_self (a : EReal) : Ideal.cmp .one a a = 0 := by
  simp [Ideal.cmp]

theorem cmp_une_self (a : EReal) : Ideal.cmp .une a a = 0 := by
  simp [Ideal.cmp]

theorem select_zero (u v : EReal) : Scalar.select (0 : BitVec 1) u v = v := by
  simp [Scalar.select]

theorem log1p_exp_coe (r : ℝ) :
    Ideal.log1p (Ideal.exp (r : EReal)) = ((Real.log (1 + Real.exp r) : ℝ) : EReal) := by
  have h : ¬ (1 + Real.exp r ≤ 0) := not_le.mpr (by positivity)
  rw [Ideal.exp_coe, Ideal.log1p, ← EReal.coe_one, ← EReal.coe_add, Ideal.log_coe, if_neg h]

def sp (y : ℝ) : ℝ := max y 0 + Real.log (1 + Real.exp (-|y|))

theorem abs_coe (y : ℝ) :
    max ((y : EReal) - ((0 : ℝ) : EReal)) (-((y : EReal) - ((0 : ℝ) : EReal))) = ((|y| : ℝ) : EReal) := by
  rw [← EReal.coe_sub, ← EReal.coe_neg, coe_max, sub_zero, ← abs_eq_max_neg]

theorem rSoftplus_coe (y : ℝ) : rSoftplus (y : EReal) = ((sp y : ℝ) : EReal) := by
  simp only [rSoftplus, ofBits_zero, cmp_une_self, select_zero, abs_coe]
  rw [← EReal.coe_neg, log1p_exp_coe, coe_max, ← EReal.coe_add]
  rfl

theorem rLogSigmoid_coe (y : ℝ) : rLogSigmoid (y : EReal) = ((-(sp (-y)) : ℝ) : EReal) := by
  rw [rLogSigmoid, ← EReal.coe_neg, rSoftplus_coe, ← EReal.coe_neg]

theorem log1p_coe_exp (r : ℝ) :
    Ideal.log1p ((Real.exp r : ℝ) : EReal) = ((Real.log (1 + Real.exp r) : ℝ) : EReal) := by
  rw [← Ideal.exp_coe, log1p_exp_coe]

theorem sqrt_coe_max (a : ℝ) :
    Ideal.sqrt ((max a 0 : ℝ) : EReal) = ((Real.sqrt (max a 0) : ℝ) : EReal) := by
  rw [Ideal.sqrt_coe, if_neg (not_lt.mpr (le_max_right a 0))]

theorem div_one_coe_exp (r : ℝ) :
    Ideal.div ((1 : ℝ) : EReal) ((1 + Real.exp r : ℝ) : EReal) = (((1 + Real.exp r)⁻¹ : ℝ) : EReal) := by
  have h : (1 + Real.exp r) ≠ 0 := by positivity
  rw [Ideal.div_coe h, ← EReal.coe_mul, one_mul, one_div]

def lsig (x : ℝ) : ℝ := -(sp (-x))

def kF (x t : ℝ) : ℝ :=
  1 / 4 *
      (max (1 - (t * Real.exp (lsig x) + (1 - t) * (1 - Real.exp (lsig x)))) 0 *
        Real.sqrt (max (1 - (t * Real.exp (lsig x) + (1 - t) * (1 - Real.exp (lsig x)))) 0)) *
    -(t * lsig x + (1 - t) * (lsig x - x))

def rF (x t : ℝ) : ℝ :=
  1 / 4 *
      Real.rpow (1 - (t * (1 + Real.exp (-x))⁻¹ + (1 - t) * (1 - (1 + Real.exp (-x))⁻¹))) (3 / 2) *
    -(t * lsig x + (1 - t) * -sp (- -x))

theorem kFloss_coe (x t : ℝ) : kFloss (x : EReal) (t : EReal) = ((kF x t : ℝ) : EReal) := by
  simp only [kFloss, ofBits_zero, ofBits_one, ofBits_quarter, cmp_one_self, select_zero,
    ← EReal.coe_sub, ← EReal.coe_add, ← EReal.coe_mul, ← EReal.coe_neg, coe_max, Ideal.exp_coe,
    log1p_coe_exp, sqrt_coe_max]
  simp only [kF, lsig, sp, zero_sub, sub_zero, ← abs_eq_max_neg]

theorem rFloss_coe (x t : ℝ) : rFloss (x : EReal) (t : EReal) = ((rF x t : ℝ) : EReal) := by
  simp only [rFloss, ofBits_one, ofBits_quarter, ofBits_three_halves, ← EReal.coe_neg, rLogSigmoid_coe,
    div_one_coe_exp, ← EReal.coe_sub, ← EReal.coe_add, ← EReal.coe_mul, Ideal.exp_coe, Ideal.pow_coe_coe]
  simp only [rF, lsig]

theorem sp_neg (x : ℝ) : sp x = sp (-x) + x := by
  unfold sp
  rw [abs_neg]
  rcases le_total 0 x with h | h
  · rw [max_eq_left h, max_eq_right (by linarith)]; ring
  · rw [max_eq_right h, max_eq_left (by linarith)]; ring

theorem exp_lsig (x : ℝ) : Real.exp (lsig x) = (1 + Real.exp (-x))⁻¹ := by
  have hpos : 0 < 1 + Real.exp (-|x|) := by positivity
  unfold lsig sp
  rw [abs_neg, neg_add, Real.exp_add, Real.exp_neg (Real.log _), Real.exp_log hpos]
  rcases le_total 0 x with h | h
  · rw [max_eq_right (by linarith), abs_of_nonneg h, neg_zero, Real.exp_zero, one_mul]
  · rw [max_eq_left (by linarith), abs_of_nonpos h, neg_neg, Real.exp_neg x]
    have hx : Real.exp x ≠ 0 := (Real.exp_pos x).ne'
    have h1 : 1 + Real.exp x ≠ 0 := by positivity
    field_simp
    ring

theorem mul_sqrt_eq_rpow {z : ℝ} (hz : 0 ≤ z) : z * Real.sqrt z = Real.rpow z (3 / 2) := by
  show z * Real.sqrt z = z ^ ((3 : ℝ) / 2)
  rw [Real.sqrt_eq_rpow, show ((3 : ℝ) / 2) = 1 + 1 / 2 by norm_num, Real.rpow_add' hz (by norm_num),
    Real.rpow_one]

theorem kF_eq_rF (x t : ℝ) (ht : t = 0 ∨ t = 1) : kF x t = rF x t := by
  have he : 0 < Real.exp (-x) := Real.exp_pos _
  have hp0 : 0 < (1 + Real.exp (-x))⁻¹ := by positivity
  have hp1 : (1 + Real.exp (-x))⁻¹ < 1 := inv_lt_one_of_one_lt₀ (by linarith)
  have hs : -sp (- -x) = lsig x - x := by rw [neg_neg, lsig, sp_neg x]; ring
  have hz : 0 ≤ 1 - (t * (1 + Real.exp (-x))⁻¹ + (1 - t) * (1 - (1 + Real.exp (-x))⁻¹)) := by
    rcases ht with rfl | rfl
    · linarith
    · linarith
  unfold kF rF
  rw [exp_lsig, hs, max_eq_left hz, mul_sqrt_eq_rpow hz]

theorem floss_eq (x : ℝ) (t : EReal) (ht : t = 0 ∨ t = 1) :
    kFloss (x : EReal) t = rFloss (x : EReal) t := by
  rcases ht with rfl | rfl
  · rw [← EReal.coe_zero, kFloss_coe, rFloss_coe, kF_eq_rF x 0 (Or.inl rfl)]
  · rw [← EReal.coe_one, kFloss_coe, rFloss_coe, kF_eq_rF x 1 (Or.inr rfl)]

theorem rSigmoid_eq_logistic (x : EReal) :
    Ideal.div (Ideal.ofBits .f32 0x3F800000#32) (Ideal.ofBits .f32 0x3F800000#32 + Ideal.exp (-x)) =
      Ideal.logistic x := by
  rw [ofBits_one, EReal.coe_one]
  rfl

end Cert.Lib.Focal

end
-- ==== Proof.BridgeSums.lean ====
import proofs.«409303_j18760417149025_3_alg».proof.Proof.RegSpec
import proofs.«409303_j18760417149025_3_alg».proof.Proof.LibSums
import proofs.«409303_j18760417149025_3_alg».proof.Proof.LibSumBlocks
import proofs.«409303_j18760417149025_3_alg».proof.Proof.LibFocal

noncomputable section

open scoped BigOperators

namespace Cert.Bridge

open Idealize.ShloMosaic Idealize.ShloMosaic.ValueIdx Cert.KernelIdeal.Hand Cert.Hand

theorem kFlossS_eq : kFlossS = Cert.Lib.Focal.kFloss := rfl

section Generic
variable {H W : ℕ}

def cellCol (dc tc : Fin 5 → EReal) (j : ℕ) : EReal :=
  if j = 0 then
    ∑ k : Fin 2, ((Ideal.logistic (dc (chan 0 (by omega) k)) - tc (chan 0 (by omega) k))
      * (Ideal.logistic (dc (chan 0 (by omega) k)) - tc (chan 0 (by omega) k))) * tc (4 : Fin 5)
  else if j = 1 then
    ∑ k : Fin 2, ((dc (chan 2 (by omega) k) - tc (chan 2 (by omega) k))
      * (dc (chan 2 (by omega) k) - tc (chan 2 (by omega) k))) * tc (4 : Fin 5)
  else if j = 2 then tc (4 : Fin 5)
  else if j = 3 then kFlossS (dc (4 : Fin 5)) (tc (4 : Fin 5)) * tc (4 : Fin 5)
  else if j = 4 then kFlossS (dc (4 : Fin 5)) (tc (4 : Fin 5)) * (1 - tc (4 : Fin 5))
  else 0

theorem cellTerm_eq_col (d tt : (⟨4, ![128, 5, H, W]⟩ : Shape).Idx → EReal) (j : ℕ) (b : Fin 128) (h : Fin H) (w : Fin W) :
    cellTerm d tt j b h w = cellCol (fun c => d (ix4 b c h w)) (fun c => tt (ix4 b c h w)) j := rfl

def fullSum (d tt : (⟨4, ![128, 5, H, W]⟩ : Shape).Idx → EReal) (j : ℕ) : EReal :=
  ∑ b : Fin 128, ∑ h : Fin H, ∑ w : Fin W, cellTerm d tt j b h w

theorem halfSum_add (d tt : (⟨4, ![128, 5, H, W]⟩ : Shape).Idx → EReal) (j : ℕ) :
    halfSum d tt (0 : Fin 2) j + halfSum d tt (1 : Fin 2) j = fullSum d tt j := by
  unfold fullSum halfSum
  rw [sum_blocks_fin 2 64 (by norm_num) (fun b : Fin 128 => ∑ h : Fin H, ∑ w : Fin W, cellTerm d tt j b h w),
    Fin.sum_univ_two]

theorem regSums_lanes (d tt : (⟨4, ![128, 5, H, W]⟩ : Shape).Idx → EReal) (j : Fin 128) (hj : j.val < 5) :
    regSums d tt (ix2 (0 : Fin 1) (⟨j.val, by have := j.isLt; omega⟩ : Fin 256))
      + regSums d tt (ix2 (0 : Fin 1) (⟨128 + j.val, by have := j.isLt; omega⟩ : Fin 256)) = fullSum d tt j.val := by
  have h0 := regSums_lane d tt (0 : Fin 2) j
  have h1 := regSums_lane d tt (1 : Fin 2) j
  simp only [hj, if_true] at h0 h1
  have e0 : (⟨128 * (0 : Fin 2).val + j.val, by have := j.isLt; simp; omega⟩ : Fin 256) = ⟨j.val, by have := j.isLt; omega⟩ :=
    Fin.ext (by simp)
  have e1 : (⟨128 * (1 : Fin 2).val + j.val, by have := j.isLt; simp; omega⟩ : Fin 256) = ⟨128 + j.val, by have := j.isLt; omega⟩ :=
    Fin.ext (by simp)
  rw [e0] at h0; rw [e1] at h1
  rw [h0, h1, halfSum_add]

theorem fullSum_reshape {R L : ℕ} (a t : (⟨4, ![128, 5, H, W]⟩ : Shape).Idx → EReal)
    (hs : (⟨4, ![128, 5, H, W]⟩ : Shape).ShapeCasts ⟨4, ![128, 5, R, L]⟩) (e : R * L = H * W) (j : ℕ) :
    fullSum (shapeCast ⟨4, ![128, 5, R, L]⟩ a hs) (shapeCast ⟨4, ![128, 5, R, L]⟩ t hs) j = fullSum a t j := by
  unfold fullSum
  refine Finset.sum_congr rfl fun b _ => ?_
  have hpos : ∀ p, p < H * W → 0 < W := fun p hp => by
    rcases Nat.eq_zero_or_pos W with h0 | h0
    · subst h0; simp at hp
    · exact h0
  let g : ℕ → EReal := fun p =>
    if hp : p < H * W then
      cellTerm a t j b ⟨p / W, Nat.div_lt_of_lt_mul (by rw [Nat.mul_comm]; exact hp)⟩ ⟨p % W, Nat.mod_lt _ (hpos p hp)⟩
    else 0
  have hl : ∀ (r : Fin R) (l : Fin L),
      cellTerm (shapeCast ⟨4, ![128, 5, R, L]⟩ a hs) (shapeCast ⟨4, ![128, 5, R, L]⟩ t hs) j b r l = g (r.val * L + l.val) := by
    intro r l
    have hp : r.val * L + l.val < H * W := by
      rw [← e]
      have hr := r.isLt; have hl := l.isLt
      calc r.val * L + l.val < r.val * L + L := by omega
        _ = (r.val + 1) * L := by ring
        _ ≤ R * L := Nat.mul_le_mul_right _ hr
    simp only [g, hp, dite_true]
    rw [cellTerm_eq_col, cellTerm_eq_col]
    have hq : r.val * L + l.val = ((r.val * L + l.val) / W) * W + (r.val * L + l.val) % W := (Nat.div_add_mod' _ _).symm
    congr 1
    · funext c
      exact shapeCast_inner_apply a hs e b c r l ⟨_, _⟩ ⟨_, _⟩ hq
    · funext c
      exact shapeCast_inner_apply t hs e b c r l ⟨_, _⟩ ⟨_, _⟩ hq
  have hr : ∀ (h : Fin H) (w : Fin W), cellTerm a t j b h w = g (h.val * W + w.val) := by
    intro h w
    have hW : 0 < W := Nat.lt_of_le_of_lt (Nat.zero_le _) w.isLt
    have hp : h.val * W + w.val < H * W := by
      have hh := h.isLt; have hw := w.isLt
      calc h.val * W + w.val < h.val * W + W := by omega
        _ = (h.val + 1) * W := by ring
        _ ≤ H * W := Nat.mul_le_mul_right _ hh
    simp only [g, hp, dite_true]
    have h1 : (h.val * W + w.val) / W = h.val := by
      rw [Nat.add_comm, Nat.add_mul_div_right _ _ hW, Nat.div_eq_of_lt w.isLt, Nat.zero_add]
    have h2 : (h.val * W + w.val) % W = w.val := by
      rw [Nat.add_comm, Nat.add_mul_mod_self_right, Nat.mod_eq_of_lt w.isLt]
    congr 1
    · exact Fin.ext h1.symm
    · exact Fin.ext h2.symm
  calc ∑ r : Fin R, ∑ l : Fin L, cellTerm (shapeCast ⟨4, ![128, 5, R, L]⟩ a hs) (shapeCast ⟨4, ![128, 5, R, L]⟩ t hs) j b r l
      = ∑ r : Fin R, ∑ l : Fin L, g (r.val * L + l.val) :=
        Finset.sum_congr rfl fun r _ => Finset.sum_congr rfl fun l _ => hl r l
    _ = ∑ h : Fin H, ∑ w : Fin W, g (h.val * W + w.val) := sum_reshape e g
    _ = ∑ h : Fin H, ∑ w : Fin W, cellTerm a t j b h w :=
        Finset.sum_congr rfl fun h _ => Finset.sum_congr rfl fun w _ => (hr h w).symm

def refCell (a : (⟨4, ![128, 5, H, W]⟩ : Shape).Idx → EReal) (tR : (⟨4, ![128, H, W, 5]⟩ : Shape).Idx → EReal)
    (mf : (⟨3, ![128, H, W]⟩ : Shape).Idx → EReal) (j : ℕ) (b : Fin 128) (h : Fin H) (w : Fin W) : EReal :=
  if j = 0 then
    ∑ k : Fin 2, ((Ideal.logistic (a (ix4 b (chan 0 (by omega) k) h w)) - tR (ix4 b h w (chan 0 (by omega) k)))
      * (Ideal.logistic (a (ix4 b (chan 0 (by omega) k) h w)) - tR (ix4 b h w (chan 0 (by omega) k)))) * mf (ix3 b h w)
  else if j = 1 then
    ∑ k : Fin 2, ((a (ix4 b (chan 2 (by omega) k) h w) - tR (ix4 b h w (chan 2 (by omega) k)))
      * (a (ix4 b (chan 2 (by omega) k) h w) - tR (ix4 b h w (chan 2 (by omega) k)))) * mf (ix3 b h w)
  else if j = 2 then mf (ix3 b h w)
  else if j = 3 then Cert.Lib.Focal.rFloss (a (ix4 b (4 : Fin 5) h w)) (tR (ix4 b h w (4 : Fin 5))) * mf (ix3 b h w)
  else if j = 4 then Cert.Lib.Focal.rFloss (a (ix4 b (4 : Fin 5) h w)) (tR (ix4 b h w (4 : Fin 5))) * (1 - mf (ix3 b h w))
  else 0

def refFull (a : (⟨4, ![128, 5, H, W]⟩ : Shape).Idx → EReal) (tR : (⟨4, ![128, H, W, 5]⟩ : Shape).Idx → EReal)
    (mf : (⟨3, ![128, H, W]⟩ : Shape).Idx → EReal) (j : ℕ) : EReal :=
  ∑ b : Fin 128, ∑ h : Fin H, ∑ w : Fin W, refCell a tR mf j b h w

theorem cell_eq (a t : (⟨4, ![128, 5, H, W]⟩ : Shape).Idx → EReal) (tR : (⟨4, ![128, H, W, 5]⟩ : Shape).Idx → EReal)
    (mf : (⟨3, ![128, H, W]⟩ : Shape).Idx → EReal) (hreal : ∀ i, ∃ r : ℝ, a i = (r : EReal))
    (htt : ∀ (b : Fin 128) (c : Fin 5) (h : Fin H) (w : Fin W), t (ix4 b c h w) = tR (ix4 b h w c))
    (hm : ∀ (b : Fin 128) (h : Fin H) (w : Fin W), tR (ix4 b h w (4 : Fin 5)) = mf (ix3 b h w)
      ∧ (mf (ix3 b h w) = 0 ∨ mf (ix3 b h w) = 1))
    (j : ℕ) (b : Fin 128) (h : Fin H) (w : Fin W) : cellTerm a t j b h w = refCell a tR mf j b h w := by
  obtain ⟨r, hr⟩ := hreal (ix4 b (4 : Fin 5) h w)
  have h4 := (hm b h w).1
  have h01 := (hm b h w).2
  unfold cellTerm refCell
  simp only [htt, h4, hr, kFlossS_eq, Cert.Lib.Focal.floss_eq r _ h01]

theorem fullSum_eq_refFull (a t : (⟨4, ![128, 5, H, W]⟩ : Shape).Idx → EReal) (tR : (⟨4, ![128, H, W, 5]⟩ : Shape).Idx → EReal)
    (mf : (⟨3, ![128, H, W]⟩ : Shape).Idx → EReal) (hreal : ∀ i, ∃ r : ℝ, a i = (r : EReal))
    (htt : ∀ (b : Fin 128) (c : Fin 5) (h : Fin H) (w : Fin W), t (ix4 b c h w) = tR (ix4 b h w c))
    (hm : ∀ (b : Fin 128) (h : Fin H) (w : Fin W), tR (ix4 b h w (4 : Fin 5)) = mf (ix3 b h w)
      ∧ (mf (ix3 b h w) = 0 ∨ mf (ix3 b h w) = 1))
    (j : ℕ) : fullSum a t j = refFull a tR mf j :=
  Finset.sum_congr rfl fun b _ => Finset.sum_congr rfl fun h _ => Finset.sum_congr rfl fun w _ =>
    cell_eq a t tR mf hreal htt hm j b h w

end Generic

end Cert.Bridge

end
-- ==== Proof.BridgeLanes.lean ====
import proofs.«409303_j18760417149025_3_alg».proof.Proof.BridgeKDefs
import proofs.«409303_j18760417149025_3_alg».proof.Proof.BridgeSums
import Idealize.ShloMosaic.Lib.Pipeline.Value
import Idealize.ShloMosaic.Lib.ValueLayout

noncomputable section

open scoped BigOperators

namespace Cert.Bridge

open Idealize.ShloMosaic Idealize.ShloMosaic.ValueIdx Cert.KernelIdeal Cert.KernelIdeal.Hand
open Cert.KernelIdeal.Facts₀ Cert.KernelIdeal.Facts

variable [Cert.KernelIdeal.Facts]

theorem shapeCast_scalar_apply {α : Type} (x : (⟨1, ![1]⟩ : Shape).Idx → α)
    (h : (⟨1, ![1]⟩ : Shape).ShapeCasts ⟨0, ![]⟩) (i : (⟨0, ![]⟩ : Shape).Idx) :
    shapeCast ⟨0, ![]⟩ x h i = x (ix1 (0 : Fin 1)) :=
  shapeCast_apply x h _ _ (by
    rw [Shape.rowMajor_val_one]
    have := ((⟨0, ![]⟩ : Shape).rowMajor i).isLt
    simp [Shape.numel] at this
    show (0 : ℕ) = _
    omega)

theorem lane_apply (V : FVec Ideal S1x256 .f32) (j : ℕ) (hj : j < 128)
    (h1 : S1x256.Slices ![0, 0] S1x128) (h2 : S1x256.Slices ![0, 128] S1x128) (h3 : S1x128.ShapeCasts S128)
    (h4 : S128.Slices ![j] S1) (h5 : S1.ShapeCasts S_) (i : S_.Idx) :
    shapeCast S_ (extractStridedSlice S1 ![j]
      (addf (shapeCast S128 (extractStridedSlice S1x128 ![0, 0] V h1) h3)
        (shapeCast S128 (extractStridedSlice S1x128 ![0, 128] V h2) h3)) h4) h5 i
      = V (ix2 (0 : Fin 1) (⟨j, by omega⟩ : Fin 256)) + V (ix2 (0 : Fin 1) (⟨128 + j, by omega⟩ : Fin 256)) := by
  rw [shapeCast_scalar_apply]
  rw [extractStridedSlice_apply ![j] _ h4 (ix1 (0 : Fin 1)) (ix1 (⟨j, hj⟩ : Fin 128))
    (fun a => by match a with | ⟨0, _⟩ => rfl)]
  rw [addf_apply, shapeCast_1a_a_apply, shapeCast_1a_a_apply, slice2_axis1_eq, slice2_axis1_eq]
  congr 2
  exact congrArg _ (Fin.ext (Nat.zero_add _))

theorem kLane0_apply (V : FVec Ideal S1x256 .f32) :
    kLane0 V = fun _ => V (ix2 (0 : Fin 1) (⟨0, by omega⟩ : Fin 256)) + V (ix2 (0 : Fin 1) (⟨128 + 0, by omega⟩ : Fin 256)) :=
  funext fun i => lane_apply V 0 (by omega) slices_S1x256_S1x128_0_0 slices_S1x256_S1x128_0_128 shapeCasts_S1x128_S128
    slices_S128_S1_0 shapeCasts_S1_S_ i
theorem kLane1_apply (V : FVec Ideal S1x256 .f32) :
    kLane1 V = fun _ => V (ix2 (0 : Fin 1) (⟨1, by omega⟩ : Fin 256)) + V (ix2 (0 : Fin 1) (⟨128 + 1, by omega⟩ : Fin 256)) :=
  funext fun i => lane_apply V 1 (by omega) slices_S1x256_S1x128_0_0 slices_S1x256_S1x128_0_128 shapeCasts_S1x128_S128
    slices_S128_S1_1 shapeCasts_S1_S_ i
theorem kLane2_apply (V : FVec Ideal S1x256 .f32) :
    kLane2 V = fun _ => V (ix2 (0 : Fin 1) (⟨2, by omega⟩ : Fin 256)) + V (ix2 (0 : Fin 1) (⟨128 + 2, by omega⟩ : Fin 256)) :=
  funext fun i => lane_apply V 2 (by omega) slices_S1x256_S1x128_0_0 slices_S1x256_S1x128_0_128 shapeCasts_S1x128_S128
    slices_S128_S1_2 shapeCasts_S1_S_ i
theorem kLane3_apply (V : FVec Ideal S1x256 .f32) :
    kLane3 V = fun _ => V (ix2 (0 : Fin 1) (⟨3, by omega⟩ : Fin 256)) + V (ix2 (0 : Fin 1) (⟨128 + 3, by omega⟩ : Fin 256)) :=
  funext fun i => lane_apply V 3 (by omega) slices_S1x256_S1x128_0_0 slices_S1x256_S1x128_0_128 shapeCasts_S1x128_S128
    slices_S128_S1_3 shapeCasts_S1_S_ i
theorem kLane4_apply (V : FVec Ideal S1x256 .f32) :
    kLane4 V = fun _ => V (ix2 (0 : Fin 1) (⟨4, by omega⟩ : Fin 256)) + V (ix2 (0 : Fin 1) (⟨128 + 4, by omega⟩ : Fin 256)) :=
  funext fun i => lane_apply V 4 (by omega) slices_S1x256_S1x128_0_0 slices_S1x256_S1x128_0_128 shapeCasts_S1x128_S128
    slices_S128_S1_4 shapeCasts_S1_S_ i

section Generic
variable {H W : ℕ}

theorem kLanes_regSums (d tt : (⟨4, ![128, 5, H, W]⟩ : Shape).Idx → EReal) :
    kLane0 (F := Ideal) (regSums d tt) = (fun _ => fullSum d tt 0) ∧ kLane1 (F := Ideal) (regSums d tt) = (fun _ => fullSum d tt 1)
      ∧ kLane2 (F := Ideal) (regSums d tt) = (fun _ => fullSum d tt 2) ∧ kLane3 (F := Ideal) (regSums d tt) = (fun _ => fullSum d tt 3)
      ∧ kLane4 (F := Ideal) (regSums d tt) = (fun _ => fullSum d tt 4) := by
  refine ⟨?_, ?_, ?_, ?_, ?_⟩
  · rw [kLane0_apply]; funext _; exact regSums_lanes d tt (⟨0, by omega⟩ : Fin 128) (by norm_num)
  · rw [kLane1_apply]; funext _; exact regSums_lanes d tt (⟨1, by omega⟩ : Fin 128) (by norm_num)
  · rw [kLane2_apply]; funext _; exact regSums_lanes d tt (⟨2, by omega⟩ : Fin 128) (by norm_num)
  · rw [kLane3_apply]; funext _; exact regSums_lanes d tt (⟨3, by omega⟩ : Fin 128) (by norm_num)
  · rw [kLane4_apply]; funext _; exact regSums_lanes d tt (⟨4, by omega⟩ : Fin 128) (by norm_num)

end Generic

end Cert.Bridge

end
-- ==== Proof.BridgeScale.lean ====
import proofs.«409303_j18760417149025_3_alg».proof.Proof.BridgeLanes
import proofs.«409303_j18760417149025_3_alg».proof.Proof.BridgeSums
import proofs.«409303_j18760417149025_3_alg».proof.Proof.RegSpec

noncomputable section

open scoped BigOperators

namespace Cert.Bridge

open Idealize.ShloMosaic Idealize.ShloMosaic.ValueIdx Cert.KernelIdeal Cert.KernelIdeal.Hand
open Cert.KernelIdeal.Facts₀ Cert.KernelIdeal.Facts

variable [Cert.KernelIdeal.Facts]

section Generic
variable {H W : ℕ}

theorem lanes_refFull (a t : (⟨4, ![128, 5, H, W]⟩ : Shape).Idx → EReal) (tR : (⟨4, ![128, H, W, 5]⟩ : Shape).Idx → EReal)
    (mf : (⟨3, ![128, H, W]⟩ : Shape).Idx → EReal) (hreal : ∀ i, ∃ r : ℝ, a i = (r : EReal))
    (htt : ∀ (b : Fin 128) (c : Fin 5) (h : Fin H) (w : Fin W), t (ix4 b c h w) = tR (ix4 b h w c))
    (hm : ∀ (b : Fin 128) (h : Fin H) (w : Fin W), tR (ix4 b h w (4 : Fin 5)) = mf (ix3 b h w)
      ∧ (mf (ix3 b h w) = 0 ∨ mf (ix3 b h w) = 1)) :
    kLane0 (F := Ideal) (regSums a t) = (fun _ => refFull a tR mf 0)
      ∧ kLane1 (F := Ideal) (regSums a t) = (fun _ => refFull a tR mf 1)
      ∧ kLane2 (F := Ideal) (regSums a t) = (fun _ => refFull a tR mf 2)
      ∧ kLane3 (F := Ideal) (regSums a t) = (fun _ => refFull a tR mf 3)
      ∧ kLane4 (F := Ideal) (regSums a t) = (fun _ => refFull a tR mf 4) := by
  obtain ⟨h0, h1, h2, h3, h4⟩ := kLanes_regSums a t
  refine ⟨?_, ?_, ?_, ?_, ?_⟩
  · rw [h0, fullSum_eq_refFull a t tR mf hreal htt hm 0]
  · rw [h1, fullSum_eq_refFull a t tR mf hreal htt hm 1]
  · rw [h2, fullSum_eq_refFull a t tR mf hreal htt hm 2]
  · rw [h3, fullSum_eq_refFull a t tR mf hreal htt hm 3]
  · rw [h4, fullSum_eq_refFull a t tR mf hreal htt hm 4]

theorem lanes_reshape_refFull {R L : ℕ} (a t : (⟨4, ![128, 5, H, W]⟩ : Shape).Idx → EReal)
    (tR : (⟨4, ![128, H, W, 5]⟩ : Shape).Idx → EReal) (mf : (⟨3, ![128, H, W]⟩ : Shape).Idx → EReal)
    (hs : (⟨4, ![128, 5, H, W]⟩ : Shape).ShapeCasts ⟨4, ![128, 5, R, L]⟩) (e : R * L = H * W)
    (hreal : ∀ i, ∃ r : ℝ, a i = (r : EReal))
    (htt : ∀ (b : Fin 128) (c : Fin 5) (h : Fin H) (w : Fin W), t (ix4 b c h w) = tR (ix4 b h w c))
    (hm : ∀ (b : Fin 128) (h : Fin H) (w : Fin W), tR (ix4 b h w (4 : Fin 5)) = mf (ix3 b h w)
      ∧ (mf (ix3 b h w) = 0 ∨ mf (ix3 b h w) = 1)) :
    kLane0 (F := Ideal) (regSums (shapeCast ⟨4, ![128, 5, R, L]⟩ a hs) (shapeCast ⟨4, ![128, 5, R, L]⟩ t hs)) = (fun _ => refFull a tR mf 0)
      ∧ kLane1 (F := Ideal) (regSums (shapeCast ⟨4, ![128, 5, R, L]⟩ a hs) (shapeCast ⟨4, ![128, 5, R, L]⟩ t hs)) = (fun _ => refFull a tR mf 1)
      ∧ kLane2 (F := Ideal) (regSums (shapeCast ⟨4, ![128, 5, R, L]⟩ a hs) (shapeCast ⟨4, ![128, 5, R, L]⟩ t hs)) = (fun _ => refFull a tR mf 2)
      ∧ kLane3 (F := Ideal) (regSums (shapeCast ⟨4, ![128, 5, R, L]⟩ a hs) (shapeCast ⟨4, ![128, 5, R, L]⟩ t hs)) = (fun _ => refFull a tR mf 3)
      ∧ kLane4 (F := Ideal) (regSums (shapeCast ⟨4, ![128, 5, R, L]⟩ a hs) (shapeCast ⟨4, ![128, 5, R, L]⟩ t hs)) = (fun _ => refFull a tR mf 4) := by
  obtain ⟨h0, h1, h2, h3, h4⟩ := kLanes_regSums (shapeCast ⟨4, ![128, 5, R, L]⟩ a hs) (shapeCast ⟨4, ![128, 5, R, L]⟩ t hs)
  refine ⟨?_, ?_, ?_, ?_, ?_⟩
  · rw [h0, fullSum_reshape a t hs e 0, fullSum_eq_refFull a t tR mf hreal htt hm 0]
  · rw [h1, fullSum_reshape a t hs e 1, fullSum_eq_refFull a t tR mf hreal htt hm 1]
  · rw [h2, fullSum_reshape a t hs e 2, fullSum_eq_refFull a t tR mf hreal htt hm 2]
  · rw [h3, fullSum_reshape a t hs e 3, fullSum_eq_refFull a t tR mf hreal htt hm 3]
  · rw [h4, fullSum_reshape a t hs e 4, fullSum_eq_refFull a t tR mf hreal htt hm 4]

end Generic

theorem scale1_lanes (a t : FVec Ideal S128x5x160x160 .f32) (tR : FVec Ideal ⟨4, ![128, 160, 160, 5]⟩ .f32)
    (mf : FVec Ideal ⟨3, ![128, 160, 160]⟩ .f32) (hreal : ∀ i, ∃ r : ℝ, a i = (r : EReal))
    (htt : ∀ (b : Fin 128) (c : Fin 5) (h : Fin 160) (w : Fin 160), t (ix4 b c h w) = tR (ix4 b h w c))
    (hm : ∀ (b : Fin 128) (h : Fin 160) (w : Fin 160), tR (ix4 b h w (4 : Fin 5)) = mf (ix3 b h w)
      ∧ (mf (ix3 b h w) = 0 ∨ mf (ix3 b h w) = 1)) :
    kLane0 (R0s (kRs1 a) (kRs1 t)) = (fun _ => refFull a tR mf 0)
      ∧ kLane1 (R0s (kRs1 a) (kRs1 t)) = (fun _ => refFull a tR mf 1)
      ∧ kLane2 (R0s (kRs1 a) (kRs1 t)) = (fun _ => refFull a tR mf 2)
      ∧ kLane3 (R0s (kRs1 a) (kRs1 t)) = (fun _ => refFull a tR mf 3)
      ∧ kLane4 (R0s (kRs1 a) (kRs1 t)) = (fun _ => refFull a tR mf 4) :=
  lanes_reshape_refFull (H := 160) (W := 160) (R := 200) (L := 128) a t tR mf shapeCasts_S128x5x160x160_S128x5x200x128
    (by norm_num) hreal htt hm

theorem scale2_lanes (a t : FVec Ideal S128x5x80x80 .f32) (tR : FVec Ideal ⟨4, ![128, 80, 80, 5]⟩ .f32)
    (mf : FVec Ideal ⟨3, ![128, 80, 80]⟩ .f32) (hreal : ∀ i, ∃ r : ℝ, a i = (r : EReal))
    (htt : ∀ (b : Fin 128) (c : Fin 5) (h : Fin 80) (w : Fin 80), t (ix4 b c h w) = tR (ix4 b h w c))
    (hm : ∀ (b : Fin 128) (h : Fin 80) (w : Fin 80), tR (ix4 b h w (4 : Fin 5)) = mf (ix3 b h w)
      ∧ (mf (ix3 b h w) = 0 ∨ mf (ix3 b h w) = 1)) :
    kLane0 (R1s (kRs2 a) (kRs2 t)) = (fun _ => refFull a tR mf 0)
      ∧ kLane1 (R1s (kRs2 a) (kRs2 t)) = (fun _ => refFull a tR mf 1)
      ∧ kLane2 (R1s (kRs2 a) (kRs2 t)) = (fun _ => refFull a tR mf 2)
      ∧ kLane3 (R1s (kRs2 a) (kRs2 t)) = (fun _ => refFull a tR mf 3)
      ∧ kLane4 (R1s (kRs2 a) (kRs2 t)) = (fun _ => refFull a tR mf 4) :=
  lanes_reshape_refFull (H := 80) (W := 80) (R := 50) (L := 128) a t tR mf shapeCasts_S128x5x80x80_S128x5x50x128
    (by norm_num) hreal htt hm

theorem scale3_lanes (a t : FVec Ideal S128x5x40x40 .f32) (tR : FVec Ideal ⟨4, ![128, 40, 40, 5]⟩ .f32)
    (mf : FVec Ideal ⟨3, ![128, 40, 40]⟩ .f32) (hreal : ∀ i, ∃ r : ℝ, a i = (r : EReal))
    (htt : ∀ (b : Fin 128) (c : Fin 5) (h : Fin 40) (w : Fin 40), t (ix4 b c h w) = tR (ix4 b h w c))
    (hm : ∀ (b : Fin 128) (h : Fin 40) (w : Fin 40), tR (ix4 b h w (4 : Fin 5)) = mf (ix3 b h w)
      ∧ (mf (ix3 b h w) = 0 ∨ mf (ix3 b h w) = 1)) :
    kLane0 (R2s a t) = (fun _ => refFull a tR mf 0)
      ∧ kLane1 (R2s a t) = (fun _ => refFull a tR mf 1)
      ∧ kLane2 (R2s a t) = (fun _ => refFull a tR mf 2)
      ∧ kLane3 (R2s a t) = (fun _ => refFull a tR mf 3)
      ∧ kLane4 (R2s a t) = (fun _ => refFull a tR mf 4) :=
  lanes_refFull (H := 40) (W := 40) a t tR mf hreal htt hm

end Cert.Bridge

end
-- ==== Proof.LibChanLast.lean ====
import Idealize.ShloMosaic.Lib.ValueLayout

namespace Cert.Lib.ChanLast

open Idealize.ShloMosaic Idealize.ShloMosaic.ValueIdx

variable {α : Type}

theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    omega)

theorem slice4_axis3_apply {n0 n1 n2 n3 m : ℕ} (o : ℕ) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

theorem transpose_ix4_0231_apply {n c h w : ℕ} (x : (⟨4, ![n, c, h, w]⟩ : Shape).Idx → α)
    (ht : (⟨4, ![n, c, h, w]⟩ : Shape).Transposes [0, 2, 3, 1] ⟨4, ![n, h, w, c]⟩)
    (b : Fin n) (i : Fin h) (j : Fin w) (k : Fin c) :
    transpose ⟨4, ![n, h, w, c]⟩ [0, 2, 3, 1] x ht (ix4 b i j k) = x (ix4 b k i j) :=
  transpose_apply _ x ht _ _ fun d => match d with | ⟨0, _⟩ => rfl | ⟨1, _⟩ => rfl | ⟨2, _⟩ => rfl | ⟨3, _⟩ => rfl

theorem chanLast_apply {n h w c : ℕ} (o : ℕ) (X : (⟨4, ![n, h, w, c]⟩ : Shape).Idx → α)
    (hs : (⟨4, ![n, h, w, c]⟩ : Shape).Slices ![0, 0, 0, o] ⟨4, ![n, h, w, 1]⟩)
    (hc : (⟨4, ![n, h, w, 1]⟩ : Shape).ShapeCasts ⟨3, ![n, h, w]⟩)
    (b : Fin n) (i : Fin h) (j : Fin w) (k : Fin c) (hk : k.val = o) :
    shapeCast ⟨3, ![n, h, w]⟩ (extractStridedSlice ⟨4, ![n, h, w, 1]⟩ ![0, 0, 0, o] X hs) hc (ix3 b i j) =
      X (ix4 b i j k) := by
  rw [shapeCast_abc1_abc_apply, slice4_axis3_apply o X hs b i j (0 : Fin 1) k (by rw [hk]; rfl)]

theorem chanFirst_apply {n c h w : ℕ} (o : ℕ) (X : (⟨4, ![n, c, h, w]⟩ : Shape).Idx → α)
    (ht : (⟨4, ![n, c, h, w]⟩ : Shape).Transposes [0, 2, 3, 1] ⟨4, ![n, h, w, c]⟩)
    (hs : (⟨4, ![n, h, w, c]⟩ : Shape).Slices ![0, 0, 0, o] ⟨4, ![n, h, w, 1]⟩)
    (hc : (⟨4, ![n, h, w, 1]⟩ : Shape).ShapeCasts ⟨3, ![n, h, w]⟩)
    (b : Fin n) (i : Fin h) (j : Fin w) (k : Fin c) (hk : k.val = o) :
    shapeCast ⟨3, ![n, h, w]⟩
        (extractStridedSlice ⟨4, ![n, h, w, 1]⟩ ![0, 0, 0, o] (transpose ⟨4, ![n, h, w, c]⟩ [0, 2, 3, 1] X ht) hs) hc
        (ix3 b i j) =
      X (ix4 b k i j) := by
  rw [chanLast_apply o _ hs hc b i j k hk, transpose_ix4_0231_apply]

end Cert.Lib.ChanLast
-- ==== Proof.BridgeRFocal.lean ====
import proofs.«409303_j18760417149025_3_alg».proof.Proof.BridgeRDefs
import proofs.«409303_j18760417149025_3_alg».proof.Proof.LibFocal
import proofs.«409303_j18760417149025_3_alg».proof.Proof.LibSumBlocks
import proofs.«409303_j18760417149025_3_alg».proof.Proof.LibChanLast
import Idealize.ShloMosaic.PureOps.Ideal.Laws

noncomputable section

namespace Cert.ReferenceIdeal.Hand

open scoped BigOperators
open Idealize.ShloMosaic Idealize.ShloMosaic.ValueIdx
open Cert.ReferenceIdeal Cert.ReferenceIdeal.Facts₀ Cert.ReferenceIdeal.Facts

variable [Cert.ReferenceIdeal.Facts]

theorem rSp1_eq (a : FVec Ideal S128x5x160x160 .f32) (tt : FVec Ideal S128x160x160x5 .f32)
    (mf : FVec Ideal S128x160x160 .f32) :
    rSp1 a tt mf = fun _ => ∑ b : Fin 128, ∑ h : Fin 160, ∑ w : Fin 160,
      Cert.Lib.Focal.rFloss (a (ix4 b 4 h w)) (tt (ix4 b h w 4)) * mf (ix3 b h w) := by
  funext j
  have h1 : rSp1 a tt mf j = Ideal.hostReduceAdd reducesTo_S128x160x160_S_d0_1_2
      (fun i => Cert.Lib.Focal.rFloss
          (shapeCast S128x160x160 (extractStridedSlice S128x160x160x1 ![0, 0, 0, 4]
            (transpose S128x160x160x5 [0, 2, 3, 1] a transposes_S128x5x160x160_S128x160x160x5_0_2_3_1)
            slices_S128x160x160x5_S128x160x160x1_0_0_0_4) shapeCasts_S128x160x160x1_S128x160x160 i)
          (shapeCast S128x160x160 (extractStridedSlice S128x160x160x1 ![0, 0, 0, 4] tt
            slices_S128x160x160x5_S128x160x160x1_0_0_0_4) shapeCasts_S128x160x160x1_S128x160x160 i) * mf i)
      (Ideal.ofBits .f32 0x00000000#32) j := rfl
  rw [h1, Ideal.hostReduceAdd_total _ (fun b => b.elim0), Cert.Lib.Focal.ofBits_zero, EReal.coe_zero, zero_add,
    Cert.Hand.sum_idx3]
  refine Finset.sum_congr rfl fun b _ => Finset.sum_congr rfl fun h _ => Finset.sum_congr rfl fun w _ => ?_
  rw [Cert.Lib.ChanLast.chanFirst_apply 4 a _ _ _ b h w 4 rfl, Cert.Lib.ChanLast.chanLast_apply 4 tt _ _ b h w 4 rfl]

theorem rSn1_eq (a : FVec Ideal S128x5x160x160 .f32) (tt : FVec Ideal S128x160x160x5 .f32)
    (mf : FVec Ideal S128x160x160 .f32) :
    rSn1 a tt mf = fun _ => ∑ b : Fin 128, ∑ h : Fin 160, ∑ w : Fin 160,
      Cert.Lib.Focal.rFloss (a (ix4 b 4 h w)) (tt (ix4 b h w 4)) * (1 - mf (ix3 b h w)) := by
  funext j
  have h1 : rSn1 a tt mf j = Ideal.hostReduceAdd reducesTo_S128x160x160_S_d0_1_2
      (fun i => Cert.Lib.Focal.rFloss
          (shapeCast S128x160x160 (extractStridedSlice S128x160x160x1 ![0, 0, 0, 4]
            (transpose S128x160x160x5 [0, 2, 3, 1] a transposes_S128x5x160x160_S128x160x160x5_0_2_3_1)
            slices_S128x160x160x5_S128x160x160x1_0_0_0_4) shapeCasts_S128x160x160x1_S128x160x160 i)
          (shapeCast S128x160x160 (extractStridedSlice S128x160x160x1 ![0, 0, 0, 4] tt
            slices_S128x160x160x5_S128x160x160x1_0_0_0_4) shapeCasts_S128x160x160x1_S128x160x160 i) *
          (Ideal.ofBits .f32 0x3F800000#32 - mf i))
      (Ideal.ofBits .f32 0x00000000#32) j := rfl
  rw [h1, Ideal.hostReduceAdd_total _ (fun b => b.elim0), Cert.Lib.Focal.ofBits_zero, EReal.coe_zero, zero_add,
    Cert.Hand.sum_idx3, Cert.Lib.Focal.ofBits_one, EReal.coe_one]
  refine Finset.sum_congr rfl fun b _ => Finset.sum_congr rfl fun h _ => Finset.sum_congr rfl fun w _ => ?_
  rw [Cert.Lib.ChanLast.chanFirst_apply 4 a _ _ _ b h w 4 rfl, Cert.Lib.ChanLast.chanLast_apply 4 tt _ _ b h w 4 rfl]

theorem rSp2_eq (a : FVec Ideal S128x5x80x80 .f32) (tt : FVec Ideal S128x80x80x5 .f32)
    (mf : FVec Ideal S128x80x80 .f32) :
    rSp2 a tt mf = fun _ => ∑ b : Fin 128, ∑ h : Fin 80, ∑ w : Fin 80,
      Cert.Lib.Focal.rFloss (a (ix4 b 4 h w)) (tt (ix4 b h w 4)) * mf (ix3 b h w) := by
  funext j
  have h1 : rSp2 a tt mf j = Ideal.hostReduceAdd reducesTo_S128x80x80_S_d0_1_2
      (fun i => Cert.Lib.Focal.rFloss
          (shapeCast S128x80x80 (extractStridedSlice S128x80x80x1 ![0, 0, 0, 4]
            (transpose S128x80x80x5 [0, 2, 3, 1] a transposes_S128x5x80x80_S128x80x80x5_0_2_3_1)
            slices_S128x80x80x5_S128x80x80x1_0_0_0_4) shapeCasts_S128x80x80x1_S128x80x80 i)
          (shapeCast S128x80x80 (extractStridedSlice S128x80x80x1 ![0, 0, 0, 4] tt
            slices_S128x80x80x5_S128x80x80x1_0_0_0_4) shapeCasts_S128x80x80x1_S128x80x80 i) * mf i)
      (Ideal.ofBits .f32 0x00000000#32) j := rfl
  rw [h1, Ideal.hostReduceAdd_total _ (fun b => b.elim0), Cert.Lib.Focal.ofBits_zero, EReal.coe_zero, zero_add,
    Cert.Hand.sum_idx3]
  refine Finset.sum_congr rfl fun b _ => Finset.sum_congr rfl fun h _ => Finset.sum_congr rfl fun w _ => ?_
  rw [Cert.Lib.ChanLast.chanFirst_apply 4 a _ _ _ b h w 4 rfl, Cert.Lib.ChanLast.chanLast_apply 4 tt _ _ b h w 4 rfl]

theorem rSn2_eq (a : FVec Ideal S128x5x80x80 .f32) (tt : FVec Ideal S128x80x80x5 .f32)
    (mf : FVec Ideal S128x80x80 .f32) :
    rSn2 a tt mf = fun _ => ∑ b : Fin 128, ∑ h : Fin 80, ∑ w : Fin 80,
      Cert.Lib.Focal.rFloss (a (ix4 b 4 h w)) (tt (ix4 b h w 4)) * (1 - mf (ix3 b h w)) := by
  funext j
  have h1 : rSn2 a tt mf j = Ideal.hostReduceAdd reducesTo_S128x80x80_S_d0_1_2
      (fun i => Cert.Lib.Focal.rFloss
          (shapeCast S128x80x80 (extractStridedSlice S128x80x80x1 ![0, 0, 0, 4]
            (transpose S128x80x80x5 [0, 2, 3, 1] a transposes_S128x5x80x80_S128x80x80x5_0_2_3_1)
            slices_S128x80x80x5_S128x80x80x1_0_0_0_4) shapeCasts_S128x80x80x1_S128x80x80 i)
          (shapeCast S128x80x80 (extractStridedSlice S128x80x80x1 ![0, 0, 0, 4] tt
            slices_S128x80x80x5_S128x80x80x1_0_0_0_4) shapeCasts_S128x80x80x1_S128x80x80 i) *
          (Ideal.ofBits .f32 0x3F800000#32 - mf i))
      (Ideal.ofBits .f32 0x00000000#32) j := rfl
  rw [h1, Ideal.hostReduceAdd_total _ (fun b => b.elim0), Cert.Lib.Focal.ofBits_zero, EReal.coe_zero, zero_add,
    Cert.Hand.sum_idx3, Cert.Lib.Focal.ofBits_one, EReal.coe_one]
  refine Finset.sum_congr rfl fun b _ => Finset.sum_congr rfl fun h _ => Finset.sum_congr rfl fun w _ => ?_
  rw [Cert.Lib.ChanLast.chanFirst_apply 4 a _ _ _ b h w 4 rfl, Cert.Lib.ChanLast.chanLast_apply 4 tt _ _ b h w 4 rfl]

theorem rSp3_eq (a : FVec Ideal S128x5x40x40 .f32) (tt : FVec Ideal S128x40x40x5 .f32)
    (mf : FVec Ideal S128x40x40 .f32) :
    rSp3 a tt mf = fun _ => ∑ b : Fin 128, ∑ h : Fin 40, ∑ w : Fin 40,
      Cert.Lib.Focal.rFloss (a (ix4 b 4 h w)) (tt (ix4 b h w 4)) * mf (ix3 b h w) := by
  funext j
  have h1 : rSp3 a tt mf j = Ideal.hostReduceAdd reducesTo_S128x40x40_S_d0_1_2
      (fun i => Cert.Lib.Focal.rFloss
          (shapeCast S128x40x40 (extractStridedSlice S128x40x40x1 ![0, 0, 0, 4]
            (transpose S128x40x40x5 [0, 2, 3, 1] a transposes_S128x5x40x40_S128x40x40x5_0_2_3_1)
            slices_S128x40x40x5_S128x40x40x1_0_0_0_4) shapeCasts_S128x40x40x1_S128x40x40 i)
          (shapeCast S128x40x40 (extractStridedSlice S128x40x40x1 ![0, 0, 0, 4] tt
            slices_S128x40x40x5_S128x40x40x1_0_0_0_4) shapeCasts_S128x40x40x1_S128x40x40 i) * mf i)
      (Ideal.ofBits .f32 0x00000000#32) j := rfl
  rw [h1, Ideal.hostReduceAdd_total _ (fun b => b.elim0), Cert.Lib.Focal.ofBits_zero, EReal.coe_zero, zero_add,
    Cert.Hand.sum_idx3]
  refine Finset.sum_congr rfl fun b _ => Finset.sum_congr rfl fun h _ => Finset.sum_congr rfl fun w _ => ?_
  rw [Cert.Lib.ChanLast.chanFirst_apply 4 a _ _ _ b h w 4 rfl, Cert.Lib.ChanLast.chanLast_apply 4 tt _ _ b h w 4 rfl]

theorem rSn3_eq (a : FVec Ideal S128x5x40x40 .f32) (tt : FVec Ideal S128x40x40x5 .f32)
    (mf : FVec Ideal S128x40x40 .f32) :
    rSn3 a tt mf = fun _ => ∑ b : Fin 128, ∑ h : Fin 40, ∑ w : Fin 40,
      Cert.Lib.Focal.rFloss (a (ix4 b 4 h w)) (tt (ix4 b h w 4)) * (1 - mf (ix3 b h w)) := by
  funext j
  have h1 : rSn3 a tt mf j = Ideal.hostReduceAdd reducesTo_S128x40x40_S_d0_1_2
      (fun i => Cert.Lib.Focal.rFloss
          (shapeCast S128x40x40 (extractStridedSlice S128x40x40x1 ![0, 0, 0, 4]
            (transpose S128x40x40x5 [0, 2, 3, 1] a transposes_S128x5x40x40_S128x40x40x5_0_2_3_1)
            slices_S128x40x40x5_S128x40x40x1_0_0_0_4) shapeCasts_S128x40x40x1_S128x40x40 i)
          (shapeCast S128x40x40 (extractStridedSlice S128x40x40x1 ![0, 0, 0, 4] tt
            slices_S128x40x40x5_S128x40x40x1_0_0_0_4) shapeCasts_S128x40x40x1_S128x40x40 i) *
          (Ideal.ofBits .f32 0x3F800000#32 - mf i))
      (Ideal.ofBits .f32 0x00000000#32) j := rfl
  rw [h1, Ideal.hostReduceAdd_total _ (fun b => b.elim0), Cert.Lib.Focal.ofBits_zero, EReal.coe_zero, zero_add,
    Cert.Hand.sum_idx3, Cert.Lib.Focal.ofBits_one, EReal.coe_one]
  refine Finset.sum_congr rfl fun b _ => Finset.sum_congr rfl fun h _ => Finset.sum_congr rfl fun w _ => ?_
  rw [Cert.Lib.ChanLast.chanFirst_apply 4 a _ _ _ b h w 4 rfl, Cert.Lib.ChanLast.chanLast_apply 4 tt _ _ b h w 4 rfl]

end Cert.ReferenceIdeal.Hand

end
-- ==== Proof.BridgeRScale.lean ====
import proofs.«409303_j18760417149025_3_alg».proof.Proof.BridgeRFocal
import proofs.«409303_j18760417149025_3_alg».proof.Proof.BridgeSums

noncomputable section

namespace Cert.ReferenceIdeal.Hand

open scoped BigOperators
open Idealize.ShloMosaic Idealize.ShloMosaic.ValueIdx
open Cert.ReferenceIdeal Cert.ReferenceIdeal.Facts₀ Cert.ReferenceIdeal.Facts

variable [Cert.ReferenceIdeal.Facts]

theorem rSp1_full (a : FVec Ideal S128x5x160x160 .f32) (tt : FVec Ideal S128x160x160x5 .f32)
    (mf : FVec Ideal S128x160x160 .f32) :
    rSp1 a tt mf = (fun _ => Cert.Bridge.refFull (H := 160) (W := 160) a tt mf 3) :=
  rSp1_eq a tt mf

theorem rSn1_full (a : FVec Ideal S128x5x160x160 .f32) (tt : FVec Ideal S128x160x160x5 .f32)
    (mf : FVec Ideal S128x160x160 .f32) :
    rSn1 a tt mf = (fun _ => Cert.Bridge.refFull (H := 160) (W := 160) a tt mf 4) :=
  rSn1_eq a tt mf

theorem rSp2_full (a : FVec Ideal S128x5x80x80 .f32) (tt : FVec Ideal S128x80x80x5 .f32)
    (mf : FVec Ideal S128x80x80 .f32) :
    rSp2 a tt mf = (fun _ => Cert.Bridge.refFull (H := 80) (W := 80) a tt mf 3) :=
  rSp2_eq a tt mf

theorem rSn2_full (a : FVec Ideal S128x5x80x80 .f32) (tt : FVec Ideal S128x80x80x5 .f32)
    (mf : FVec Ideal S128x80x80 .f32) :
    rSn2 a tt mf = (fun _ => Cert.Bridge.refFull (H := 80) (W := 80) a tt mf 4) :=
  rSn2_eq a tt mf

theorem rSp3_full (a : FVec Ideal S128x5x40x40 .f32) (tt : FVec Ideal S128x40x40x5 .f32)
    (mf : FVec Ideal S128x40x40 .f32) :
    rSp3 a tt mf = (fun _ => Cert.Bridge.refFull (H := 40) (W := 40) a tt mf 3) :=
  rSp3_eq a tt mf

theorem rSn3_full (a : FVec Ideal S128x5x40x40 .f32) (tt : FVec Ideal S128x40x40x5 .f32)
    (mf : FVec Ideal S128x40x40 .f32) :
    rSn3 a tt mf = (fun _ => Cert.Bridge.refFull (H := 40) (W := 40) a tt mf 4) :=
  rSn3_eq a tt mf

end Cert.ReferenceIdeal.Hand

end
-- ==== Proof.BridgeLeaf.lean ====
import Idealize.ShloMosaic.PureOps.Ideal.Laws
import Idealize.ShloMosaic.Lib.IdealHost
import Idealize.ShloMosaic.Lib.Pipeline.Value
import Idealize.ShloMosaic.Lib.ValueLayout

noncomputable section

open scoped BigOperators

namespace Cert.Bridge

open Idealize.ShloMosaic Idealize.ShloMosaic.ValueIdx

section Generic
variable {H W : ℕ}

theorem slice_transpose_apply {m : ℕ} (o : ℕ) (a : (⟨4, ![128, 5, H, W]⟩ : Shape).Idx → EReal)
    (htr : (⟨4, ![128, 5, H, W]⟩ : Shape).Transposes [0, 2, 3, 1] ⟨4, ![128, H, W, 5]⟩)
    (hsl : (⟨4, ![128, H, W, 5]⟩ : Shape).Slices ![0, 0, 0, o] ⟨4, ![128, H, W, m]⟩)
    (b : Fin 128) (h : Fin H) (w : Fin W) (k : Fin m) (c : Fin 5) (hc : c.val = o + k.val) :
    extractStridedSlice ⟨4, ![128, H, W, m]⟩ ![0, 0, 0, o] (transpose ⟨4, ![128, H, W, 5]⟩ [0, 2, 3, 1] a htr) hsl (ix4 b h w k)
      = a (ix4 b c h w) := by
  rw [extractStridedSlice_apply ![0, 0, 0, o] _ hsl (ix4 b h w k) (ix4 b h w c)
    (fun ax => by
      match ax with
      | ⟨0, _⟩ => exact (Nat.zero_add _).symm
      | ⟨1, _⟩ => exact (Nat.zero_add _).symm
      | ⟨2, _⟩ => exact (Nat.zero_add _).symm
      | ⟨3, _⟩ => exact hc)]
  exact transpose_apply [0, 2, 3, 1] a htr (ix4 b h w c) (ix4 b c h w)
    (fun ax => by
      match ax with
      | ⟨0, _⟩ => rfl
      | ⟨1, _⟩ => rfl
      | ⟨2, _⟩ => rfl
      | ⟨3, _⟩ => rfl)

theorem slice_last_apply {m : ℕ} (o : ℕ) (t : (⟨4, ![128, H, W, 5]⟩ : Shape).Idx → EReal)
    (hsl : (⟨4, ![128, H, W, 5]⟩ : Shape).Slices ![0, 0, 0, o] ⟨4, ![128, H, W, m]⟩)
    (b : Fin 128) (h : Fin H) (w : Fin W) (k : Fin m) (c : Fin 5) (hc : c.val = o + k.val) :
    extractStridedSlice ⟨4, ![128, H, W, m]⟩ ![0, 0, 0, o] t hsl (ix4 b h w k) = t (ix4 b h w c) :=
  extractStridedSlice_apply ![0, 0, 0, o] _ hsl (ix4 b h w k) (ix4 b h w c)
    (fun ax => by
      match ax with
      | ⟨0, _⟩ => exact (Nat.zero_add _).symm
      | ⟨1, _⟩ => exact (Nat.zero_add _).symm
      | ⟨2, _⟩ => exact (Nat.zero_add _).symm
      | ⟨3, _⟩ => exact hc)

theorem mask_bcast_apply {m : ℕ} (mf : (⟨3, ![128, H, W]⟩ : Shape).Idx → EReal)
    (hb1 : (⟨3, ![128, H, W]⟩ : Shape).BroadcastsInDim ⟨4, ![128, H, W, 1]⟩ ![0, 1, 2])
    (hb2 : (⟨4, ![128, H, W, 1]⟩ : Shape).BroadcastsInDim ⟨4, ![128, H, W, m]⟩ ![0, 1, 2, 3])
    (b : Fin 128) (h : Fin H) (w : Fin W) (k : Fin m) :
    broadcastInDim ⟨4, ![128, H, W, m]⟩ ![0, 1, 2, 3] hb2 (broadcastInDim ⟨4, ![128, H, W, 1]⟩ ![0, 1, 2] hb1 mf) (ix4 b h w k)
      = mf (ix3 b h w) := by
  rw [broadcastInDim_apply ![0, 1, 2, 3] hb2 _ (ix4 b h w k) (ix4 b h w (0 : Fin 1))
    (fun ax => by
      match ax with
      | ⟨0, _⟩ =>
        show b.val = if (128 : ℕ) = 1 then 0 else b.val
        rw [if_neg (by decide)]
      | ⟨1, _⟩ =>
        show h.val = if H = 1 then 0 else h.val
        split_ifs with hx
        · have := h.isLt; omega
        · rfl
      | ⟨2, _⟩ =>
        show w.val = if W = 1 then 0 else w.val
        split_ifs with hx
        · have := w.isLt; omega
        · rfl
      | ⟨3, _⟩ =>
        show (0 : ℕ) = if (1 : ℕ) = 1 then 0 else k.val
        rw [if_pos rfl])]
  exact broadcastInDim_apply ![0, 1, 2] hb1 mf (ix4 b h w (0 : Fin 1)) (ix3 b h w)
    (fun ax => by
      match ax with
      | ⟨0, _⟩ =>
        show b.val = if (128 : ℕ) = 1 then 0 else b.val
        rw [if_neg (by decide)]
      | ⟨1, _⟩ =>
        show h.val = if H = 1 then 0 else h.val
        split_ifs with hx
        · have := h.isLt; omega
        · rfl
      | ⟨2, _⟩ =>
        show w.val = if W = 1 then 0 else w.val
        split_ifs with hx
        · have := w.isLt; omega
        · rfl)

end Generic

end Cert.Bridge

end
-- ==== Proof.BridgeRGen.lean ====
import proofs.«409303_j18760417149025_3_alg».proof.Proof.BridgeSums
import proofs.«409303_j18760417149025_3_alg».proof.Proof.BridgeLeaf

noncomputable section

open scoped BigOperators

namespace Cert.Bridge

open Idealize.ShloMosaic Idealize.ShloMosaic.ValueIdx Cert.KernelIdeal.Hand Cert.Hand

section Generic
variable {H W : ℕ}

theorem reduceAll3 (x : FVec Ideal ⟨3, ![128, H, W]⟩ .f32)
    (hr : (⟨3, ![128, H, W]⟩ : Shape).ReducesTo [0, 1, 2] ⟨0, ![]⟩) (hS : 0 < (⟨0, ![]⟩ : Shape).numel) :
    Host.reduceAdd x (constant (F := Ideal) ⟨0, ![]⟩ .f32 0x00000000#32) hr hS
      = fun _ => ∑ b : Fin 128, ∑ h : Fin H, ∑ w : Fin W, x (ix3 b h w) := by
  funext j
  rw [hostReduceAdd_apply, Ideal.hostReduceAdd_total hr (fun b => b.elim0), constant_apply, Ideal.ofBits_zero_f32, zero_add,
    sum_idx3]

theorem reduceAll4 {m : ℕ} (x : FVec Ideal ⟨4, ![128, H, W, m]⟩ .f32)
    (hr : (⟨4, ![128, H, W, m]⟩ : Shape).ReducesTo [0, 1, 2, 3] ⟨0, ![]⟩) (hS : 0 < (⟨0, ![]⟩ : Shape).numel) :
    Host.reduceAdd x (constant (F := Ideal) ⟨0, ![]⟩ .f32 0x00000000#32) hr hS
      = fun _ => ∑ b : Fin 128, ∑ h : Fin H, ∑ w : Fin W, ∑ k : Fin m, x (ix4 b h w k) := by
  funext j
  rw [hostReduceAdd_apply, Ideal.hostReduceAdd_total hr (fun b => b.elim0), constant_apply, Ideal.ofBits_zero_f32, zero_add,
    sum_idx4]

theorem rN_generic (a : (⟨4, ![128, 5, H, W]⟩ : Shape).Idx → EReal) (tR : (⟨4, ![128, H, W, 5]⟩ : Shape).Idx → EReal)
    (mf : FVec Ideal ⟨3, ![128, H, W]⟩ .f32)
    (hr : (⟨3, ![128, H, W]⟩ : Shape).ReducesTo [0, 1, 2] ⟨0, ![]⟩) (hS : 0 < (⟨0, ![]⟩ : Shape).numel) :
    Host.reduceAdd mf (constant (F := Ideal) ⟨0, ![]⟩ .f32 0x00000000#32) hr hS = fun _ => refFull a tR mf 2 := by
  rw [reduceAll3]
  rfl

theorem rSxy_generic (a : FVec Ideal ⟨4, ![128, 5, H, W]⟩ .f32) (tR : FVec Ideal ⟨4, ![128, H, W, 5]⟩ .f32)
    (mf : FVec Ideal ⟨3, ![128, H, W]⟩ .f32)
    (hbs : (⟨0, ![]⟩ : Shape).BroadcastsInDim ⟨4, ![128, H, W, 2]⟩ ![])
    (htr : (⟨4, ![128, 5, H, W]⟩ : Shape).Transposes [0, 2, 3, 1] ⟨4, ![128, H, W, 5]⟩)
    (hsl : (⟨4, ![128, H, W, 5]⟩ : Shape).Slices ![0, 0, 0, 0] ⟨4, ![128, H, W, 2]⟩)
    (hb1 : (⟨3, ![128, H, W]⟩ : Shape).BroadcastsInDim ⟨4, ![128, H, W, 1]⟩ ![0, 1, 2])
    (hb2 : (⟨4, ![128, H, W, 1]⟩ : Shape).BroadcastsInDim ⟨4, ![128, H, W, 2]⟩ ![0, 1, 2, 3])
    (hr : (⟨4, ![128, H, W, 2]⟩ : Shape).ReducesTo [0, 1, 2, 3] ⟨0, ![]⟩) (hS : 0 < (⟨0, ![]⟩ : Shape).numel) :
    Host.reduceAdd
      (mulf
        (mulf
          (subf (Host.divf (broadcastInDim ⟨4, ![128, H, W, 2]⟩ ![] hbs (constant ⟨0, ![]⟩ .f32 0x3F800000#32))
            (addf (broadcastInDim ⟨4, ![128, H, W, 2]⟩ ![] hbs (constant ⟨0, ![]⟩ .f32 0x3F800000#32))
              (Host.exp (Host.negf (extractStridedSlice ⟨4, ![128, H, W, 2]⟩ ![0, 0, 0, 0]
                (transpose ⟨4, ![128, H, W, 5]⟩ [0, 2, 3, 1] a htr) hsl)))))
            (extractStridedSlice ⟨4, ![128, H, W, 2]⟩ ![0, 0, 0, 0] tR hsl))
          (subf (Host.divf (broadcastInDim ⟨4, ![128, H, W, 2]⟩ ![] hbs (constant ⟨0, ![]⟩ .f32 0x3F800000#32))
            (addf (broadcastInDim ⟨4, ![128, H, W, 2]⟩ ![] hbs (constant ⟨0, ![]⟩ .f32 0x3F800000#32))
              (Host.exp (Host.negf (extractStridedSlice ⟨4, ![128, H, W, 2]⟩ ![0, 0, 0, 0]
                (transpose ⟨4, ![128, H, W, 5]⟩ [0, 2, 3, 1] a htr) hsl)))))
            (extractStridedSlice ⟨4, ![128, H, W, 2]⟩ ![0, 0, 0, 0] tR hsl)))
        (broadcastInDim ⟨4, ![128, H, W, 2]⟩ ![0, 1, 2, 3] hb2 (broadcastInDim ⟨4, ![128, H, W, 1]⟩ ![0, 1, 2] hb1 mf)))
      (constant (F := Ideal) ⟨0, ![]⟩ .f32 0x00000000#32) hr hS = fun _ => refFull a tR mf 0 := by
  rw [reduceAll4]
  funext _
  refine Finset.sum_congr rfl fun b _ => Finset.sum_congr rfl fun h _ => Finset.sum_congr rfl fun w _ => ?_
  show _ = refCell a tR mf 0 b h w
  unfold refCell
  rw [if_pos rfl]
  refine Finset.sum_congr rfl fun k _ => ?_
  rw [mulf_apply, mulf_apply, subf_apply, hostDivf_apply, addf_apply, mask_bcast_apply,
    slice_last_apply 0 tR hsl b h w k (chan 0 (by omega) k) rfl, broadcastInDim_scalar_apply, constant_apply]
  have e : (Host.exp (Host.negf (extractStridedSlice ⟨4, ![128, H, W, 2]⟩ ![0, 0, 0, 0]
      (transpose ⟨4, ![128, H, W, 5]⟩ [0, 2, 3, 1] a htr) hsl))) (ix4 b h w k)
      = Ideal.exp (-(a (ix4 b (chan 0 (by omega) k) h w))) := by
    show Ideal.exp (-(extractStridedSlice ⟨4, ![128, H, W, 2]⟩ ![0, 0, 0, 0]
      (transpose ⟨4, ![128, H, W, 5]⟩ [0, 2, 3, 1] a htr) hsl (ix4 b h w k))) = _
    rw [slice_transpose_apply 0 a htr hsl b h w k (chan 0 (by omega) k) rfl]
  rw [e, Cert.Lib.Focal.rSigmoid_eq_logistic]

theorem rSwh_generic (a : FVec Ideal ⟨4, ![128, 5, H, W]⟩ .f32) (tR : FVec Ideal ⟨4, ![128, H, W, 5]⟩ .f32)
    (mf : FVec Ideal ⟨3, ![128, H, W]⟩ .f32)
    (htr : (⟨4, ![128, 5, H, W]⟩ : Shape).Transposes [0, 2, 3, 1] ⟨4, ![128, H, W, 5]⟩)
    (hsl : (⟨4, ![128, H, W, 5]⟩ : Shape).Slices ![0, 0, 0, 2] ⟨4, ![128, H, W, 2]⟩)
    (hb1 : (⟨3, ![128, H, W]⟩ : Shape).BroadcastsInDim ⟨4, ![128, H, W, 1]⟩ ![0, 1, 2])
    (hb2 : (⟨4, ![128, H, W, 1]⟩ : Shape).BroadcastsInDim ⟨4, ![128, H, W, 2]⟩ ![0, 1, 2, 3])
    (hr : (⟨4, ![128, H, W, 2]⟩ : Shape).ReducesTo [0, 1, 2, 3] ⟨0, ![]⟩) (hS : 0 < (⟨0, ![]⟩ : Shape).numel) :
    Host.reduceAdd
      (mulf
        (mulf
          (subf (extractStridedSlice ⟨4, ![128, H, W, 2]⟩ ![0, 0, 0, 2] (transpose ⟨4, ![128, H, W, 5]⟩ [0, 2, 3, 1] a htr) hsl)
            (extractStridedSlice ⟨4, ![128, H, W, 2]⟩ ![0, 0, 0, 2] tR hsl))
          (subf (extractStridedSlice ⟨4, ![128, H, W, 2]⟩ ![0, 0, 0, 2] (transpose ⟨4, ![128, H, W, 5]⟩ [0, 2, 3, 1] a htr) hsl)
            (extractStridedSlice ⟨4, ![128, H, W, 2]⟩ ![0, 0, 0, 2] tR hsl)))
        (broadcastInDim ⟨4, ![128, H, W, 2]⟩ ![0, 1, 2, 3] hb2 (broadcastInDim ⟨4, ![128, H, W, 1]⟩ ![0, 1, 2] hb1 mf)))
      (constant (F := Ideal) ⟨0, ![]⟩ .f32 0x00000000#32) hr hS = fun _ => refFull a tR mf 1 := by
  rw [reduceAll4]
  funext _
  refine Finset.sum_congr rfl fun b _ => Finset.sum_congr rfl fun h _ => Finset.sum_congr rfl fun w _ => ?_
  show _ = refCell a tR mf 1 b h w
  unfold refCell
  rw [if_neg (by decide), if_pos rfl]
  refine Finset.sum_congr rfl fun k _ => ?_
  rw [mulf_apply, mulf_apply, subf_apply, mask_bcast_apply,
    slice_last_apply 2 tR hsl b h w k (chan 2 (by omega) k) rfl,
    slice_transpose_apply 2 a htr hsl b h w k (chan 2 (by omega) k) rfl]

end Generic

end Cert.Bridge

end
-- ==== Proof.BridgeRBox.lean ====
import proofs.«409303_j18760417149025_3_alg».proof.Proof.BridgeRDefs
import proofs.«409303_j18760417149025_3_alg».proof.Proof.BridgeRGen

noncomputable section

namespace Cert.Bridge

open Idealize.ShloMosaic Idealize.ShloMosaic.ValueIdx
open Cert.ReferenceIdeal Cert.ReferenceIdeal.Hand

variable [Cert.ReferenceIdeal.Facts]

theorem rSxy1_full (a : FVec Ideal S128x5x160x160 .f32) (t : FVec Ideal S128x160x160x5 .f32) (m : FVec Ideal S128x160x160 .f32) :
    rSxy1 a t m = fun _ => refFull a t m 0 := by
  unfold rSxy1
  exact rSxy_generic (H := 160) (W := 160) a t m _ _ _ _ _ _ _

theorem rSwh1_full (a : FVec Ideal S128x5x160x160 .f32) (t : FVec Ideal S128x160x160x5 .f32) (m : FVec Ideal S128x160x160 .f32) :
    rSwh1 a t m = fun _ => refFull a t m 1 := by
  unfold rSwh1
  exact rSwh_generic (H := 160) (W := 160) a t m _ _ _ _ _ _

theorem rN1_full (a : FVec Ideal S128x5x160x160 .f32) (t : FVec Ideal S128x160x160x5 .f32) (m : FVec Ideal S128x160x160 .f32) :
    rN1 m = fun _ => refFull a t m 2 := by
  unfold rN1
  exact rN_generic (H := 160) (W := 160) a t m _ _

theorem rSxy2_full (a : FVec Ideal S128x5x80x80 .f32) (t : FVec Ideal S128x80x80x5 .f32) (m : FVec Ideal S128x80x80 .f32) :
    rSxy2 a t m = fun _ => refFull a t m 0 := by
  unfold rSxy2
  exact rSxy_generic (H := 80) (W := 80) a t m _ _ _ _ _ _ _

theorem rSwh2_full (a : FVec Ideal S128x5x80x80 .f32) (t : FVec Ideal S128x80x80x5 .f32) (m : FVec Ideal S128x80x80 .f32) :
    rSwh2 a t m = fun _ => refFull a t m 1 := by
  unfold rSwh2
  exact rSwh_generic (H := 80) (W := 80) a t m _ _ _ _ _ _

theorem rN2_full (a : FVec Ideal S128x5x80x80 .f32) (t : FVec Ideal S128x80x80x5 .f32) (m : FVec Ideal S128x80x80 .f32) :
    rN2 m = fun _ => refFull a t m 2 := by
  unfold rN2
  exact rN_generic (H := 80) (W := 80) a t m _ _

theorem rSxy3_full (a : FVec Ideal S128x5x40x40 .f32) (t : FVec Ideal S128x40x40x5 .f32) (m : FVec Ideal S128x40x40 .f32) :
    rSxy3 a t m = fun _ => refFull a t m 0 := by
  unfold rSxy3
  exact rSxy_generic (H := 40) (W := 40) a t m _ _ _ _ _ _ _

theorem rSwh3_full (a : FVec Ideal S128x5x40x40 .f32) (t : FVec Ideal S128x40x40x5 .f32) (m : FVec Ideal S128x40x40 .f32) :
    rSwh3 a t m = fun _ => refFull a t m 1 := by
  unfold rSwh3
  exact rSwh_generic (H := 40) (W := 40) a t m _ _ _ _ _ _

theorem rN3_full (a : FVec Ideal S128x5x40x40 .f32) (t : FVec Ideal S128x40x40x5 .f32) (m : FVec Ideal S128x40x40 .f32) :
    rN3 m = fun _ => refFull a t m 2 := by
  unfold rN3
  exact rN_generic (H := 40) (W := 40) a t m _ _

end Cert.Bridge

end
-- ==== Proof.PreFacts.lean ====
import proofs.«409303_j18760417149025_3_alg».proof.Pre_finite_inputs
import Idealize.ShloMosaic.PureOps.Ideal
import Idealize.ShloMosaic.Lib.ReduceAll
import Idealize.ShloMosaic.Lib.ValueIdx

noncomputable section
namespace Cert.Hand.PreFacts
open Idealize.ShloMosaic Cert.Pre_finite_inputs
variable [Cert.Pre_finite_inputs.Facts]
open Cert.Pre_finite_inputs.Facts

instance : Subsingleton S_.Idx := ⟨fun a b => funext fun d => d.elim0⟩

theorem ofBits_inf : Ideal.ofBits .f32 0x7F800000#32 = (⊤ : EReal) := by
  simp [Ideal.ofBits, Ideal.ieee]

theorem real_of_abs_lt_top (x : EReal) (h : Ideal.cmp .olt (max x (-x)) ⊤ = 1#1) : ∃ r : ℝ, x = (r : EReal) := by
  induction x using EReal.rec with
  | bot => exfalso; revert h; simp [Ideal.cmp]
  | top => exfalso; revert h; simp [Ideal.cmp]
  | coe r => exact ⟨r, rfl⟩

theorem finite_of {S : Shape} (hb : S_.BroadcastsInDim S (![] : Fin 0 → Fin S.rank)) (x : FVec Ideal S .f32) (i : S.Idx)
    (h : cmpf .olt (Host.absf x) (broadcastInDim S ![] hb (constant S_ .f32 0x7F800000#32)) i = 1#1) :
    ∃ r : ℝ, x i = (r : EReal) := by
  simp only [cmpf, Host.absf, broadcastInDim, constant, Ideal.ofBits_def, Ideal.hostAbsf_def] at h
  rw [ofBits_inf] at h
  exact real_of_abs_lt_top (x i) h

def bvec (a3 : FVec Ideal S4096x6 .f32) : IVec S4096 32 :=
  fptosi 32 (shapeCast S4096 ((extractStridedSlice S4096x1 ![0, 0] · slices_S4096x6_S4096x1_0_0) a3) shapeCasts_S4096x1_S4096)

theorem decode (a0 : FVec Ideal S128x5x160x160 .f32) (a1 : FVec Ideal S128x5x80x80 .f32) (a2 : FVec Ideal S128x5x40x40 .f32)
    (a3 : FVec Ideal S4096x6 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal))
      ∧ (∀ j : S4096.Idx, 0 ≤ (bvec a3 j).toInt ∧ (bvec a3 j).toInt < 128) := by
  have h0 := congrFun h ValueIdx.ix0
  dsimp only [fn, fn_part1] at h0
  simp only [andi, IntOp.andi_eq_one] at h0
  obtain ⟨⟨⟨⟨e0, e1⟩, e2⟩, e3⟩, e4⟩ := h0
  refine ⟨fun i => finite_of _ a0 i (Host.reduce_andi_all _ _ _ _ _ e0 i), fun i => finite_of _ a1 i (Host.reduce_andi_all _ _ _ _ _ e1 i),
    fun i => finite_of _ a2 i (Host.reduce_andi_all _ _ _ _ _ e2 i), fun i => finite_of _ a3 i (Host.reduce_andi_all _ _ _ _ _ e3 i), fun j => ?_⟩
  have hj := Host.reduce_andi_all _ _ _ _ _ e4 j
  simp only [andi, IntOp.andi_eq_one, cmpi, broadcastInDim, constantI] at hj
  obtain ⟨hge, hlt⟩ := hj
  change IntOp.cmpi .sge (bvec a3 j) 0#32 = 1#1 at hge
  change IntOp.cmpi .slt (bvec a3 j) 128#32 = 1#1 at hlt
  have hb : ∀ b : Bool, BitVec.ofBool b = 1#1 ↔ b = true := by intro b; cases b <;> decide
  simp only [IntOp.cmpi, BitVec.sle, BitVec.slt] at hge hlt
  constructor
  · simpa using (hb _).mp hge
  · simpa using (hb _).mp hlt

end Cert.Hand.PreFacts
end
-- ==== Proof.LibClipRange.lean ====
import Idealize.ShloMosaic.PureOps.Ideal
import Mathlib.Algebra.Order.Floor.Defs

noncomputable section

namespace Cert.Lib.ClipRange

open Idealize.ShloMosaic

theorem clip_real (L H : ℝ) (h : L ≤ H) (x : EReal) :
    ∃ r : ℝ, min (H : EReal) (max (L : EReal) x) = (r : EReal) ∧ L ≤ r ∧ r ≤ H := by
  have hH : min (H : EReal) (max (L : EReal) x) ≤ (H : EReal) := min_le_left _ _
  have hL : (L : EReal) ≤ min (H : EReal) (max (L : EReal) x) :=
    le_min (EReal.coe_le_coe_iff.mpr h) (le_max_left _ _)
  have htop : min (H : EReal) (max (L : EReal) x) ≠ ⊤ :=
    ne_of_lt (lt_of_le_of_lt hH (EReal.coe_lt_top H))
  have hbot : min (H : EReal) (max (L : EReal) x) ≠ ⊥ :=
    ne_of_gt (lt_of_lt_of_le (EReal.bot_lt_coe L) hL)
  refine ⟨(min (H : EReal) (max (L : EReal) x)).toReal, (EReal.coe_toReal htop hbot).symm, ?_, ?_⟩
  · rw [← EReal.coe_le_coe_iff, EReal.coe_toReal htop hbot]; exact hL
  · rw [← EReal.coe_le_coe_iff, EReal.coe_toReal htop hbot]; exact hH

theorem trunc_mem (L H : ℤ) (r : ℝ) (hL : (L : ℝ) ≤ r) (hH : r ≤ (H : ℝ)) :
    L ≤ (if 0 ≤ r then ⌊r⌋ else ⌈r⌉) ∧ (if 0 ≤ r then ⌊r⌋ else ⌈r⌉) ≤ H := by
  split
  · exact ⟨Int.le_floor.mpr hL, by exact_mod_cast (Int.floor_le r).trans hH⟩
  · exact ⟨by exact_mod_cast hL.trans (Int.le_ceil r), Int.ceil_le.mpr hH⟩

theorem fptosi_clip_range (lo hi : BitVec 32) (h : lo.toInt ≤ hi.toInt) (x : EReal) :
    lo.toInt ≤ (Ideal.fptosi 32 (min (((hi.toInt : ℤ) : ℝ) : EReal) (max (((lo.toInt : ℤ) : ℝ) : EReal) x))).toInt ∧
      (Ideal.fptosi 32 (min (((hi.toInt : ℤ) : ℝ) : EReal) (max (((lo.toInt : ℤ) : ℝ) : EReal) x))).toInt ≤ hi.toInt := by
  obtain ⟨r, hr, hLr, hrH⟩ := clip_real (lo.toInt : ℝ) (hi.toInt : ℝ) (by exact_mod_cast h) x
  obtain ⟨hk1, hk2⟩ := trunc_mem lo.toInt hi.toInt r hLr hrH
  have hlo : -2 ^ 31 ≤ lo.toInt := BitVec.le_toInt lo
  have hhi : hi.toInt < 2 ^ 31 := BitVec.toInt_lt
  rw [hr, Ideal.fptosi, Ideal.toIntClamped_coe]
  generalize (if 0 ≤ r then ⌊r⌋ else ⌈r⌉) = k at hk1 hk2 ⊢
  have hk : max (-((2 ^ (32 - 1) : ℕ) : ℤ)) (min (((2 ^ (32 - 1) : ℕ) : ℤ) - 1) k) = k := by
    have e : ((2 ^ (32 - 1) : ℕ) : ℤ) = 2 ^ 31 := by norm_num
    rw [e, max_eq_right, min_eq_right] <;> omega
  rw [hk, BitVec.toInt_ofInt_eq_self (by norm_num) (by omega) (by omega)]
  exact ⟨hk1, hk2⟩

theorem fptosi_clip_vec {s : Shape} (lo hi : BitVec 32) (h : lo.toInt ≤ hi.toInt)
    (x blo bhi : FVec Ideal s .f32) (hlo : ∀ i, blo i = (((lo.toInt : ℤ) : ℝ) : EReal))
    (hhi : ∀ i, bhi i = (((hi.toInt : ℤ) : ℝ) : EReal)) (i : s.Idx) :
    lo.toInt ≤ ((fptosi 32 (minimumf bhi (maximumf blo x)) : IVec s 32) i).toInt ∧
      ((fptosi 32 (minimumf bhi (maximumf blo x)) : IVec s 32) i).toInt ≤ hi.toInt := by
  have := fptosi_clip_range lo hi h (x i)
  rw [← hlo i, ← hhi i] at this
  exact this

theorem fptosi_clip_bcast {t : Shape} (lo hi : BitVec 32) (h : lo.toInt ≤ hi.toInt)
    (hb : (⟨0, ![]⟩ : Shape).BroadcastsInDim t (![] : Fin 0 → Fin t.rank)) (x : FVec Ideal t .f32) (i : t.Idx) :
    lo.toInt ≤ ((fptosi 32 (minimumf
        (broadcastInDim t ![] hb (sitofp (F := Ideal) .f32 (constantI ⟨0, ![]⟩ 32 hi)))
        (maximumf (broadcastInDim t ![] hb (sitofp (F := Ideal) .f32 (constantI ⟨0, ![]⟩ 32 lo))) x)) :
          IVec t 32) i).toInt ∧
      ((fptosi 32 (minimumf
        (broadcastInDim t ![] hb (sitofp (F := Ideal) .f32 (constantI ⟨0, ![]⟩ 32 hi)))
        (maximumf (broadcastInDim t ![] hb (sitofp (F := Ideal) .f32 (constantI ⟨0, ![]⟩ 32 lo))) x)) :
          IVec t 32) i).toInt ≤ hi.toInt :=
  fptosi_clip_vec lo hi h x _ _ (fun _ => rfl) (fun _ => rfl) i

end Cert.Lib.ClipRange

end
-- ==== Proof.LibConcat5.lean ====
import Idealize.ShloMosaic.PureOps
import Idealize.ShloMosaic.Lib.ValueIdx

namespace Idealize.ShloMosaic.Concat5
open Idealize.ShloMosaic Idealize.ShloMosaic.ValueIdx

variable {α : Type} {K : Nat}
  (x0 x1 x2 x3 x4 : (⟨2, ![K, 1]⟩ : Shape).Idx → α)
  (h : Shape.Concatenates [⟨2, ![K, 1]⟩, ⟨2, ![K, 1]⟩, ⟨2, ![K, 1]⟩, ⟨2, ![K, 1]⟩, ⟨2, ![K, 1]⟩]
    ⟨2, ![K, 5]⟩ 1)
  (n : Fin K)

theorem concat5_col4 :
    concatenate ⟨2, ![K, 5]⟩ 1 [⟨_, x0⟩, ⟨_, x1⟩, ⟨_, x2⟩, ⟨_, x3⟩, ⟨_, x4⟩] h
      (Shape.pair (d := ![K, 5]) n (4 : Fin 5)) = x4 (ix2 n (0 : Fin 1)) := by
  show x4 _ = x4 _
  congr 1; funext a; fin_cases a <;> rfl

end Idealize.ShloMosaic.Concat5
-- ==== Proof.BridgeIdx.lean ====
import proofs.«409303_j18760417149025_3_alg».proof.Proof.BridgeKDefs
import proofs.«409303_j18760417149025_3_alg».proof.Proof.PreFacts
import proofs.«409303_j18760417149025_3_alg».proof.Proof.LibClipRange
import proofs.«409303_j18760417149025_3_alg».proof.Proof.LibConcat5

noncomputable section

namespace Cert.Bridge
open Idealize.ShloMosaic

theorem clip_lt (hi : BitVec 32) (H : Int) (h0 : 0 ≤ hi.toInt) (hH : hi.toInt < H)
    (hbc : (⟨0, ![]⟩ : Shape).BroadcastsInDim ⟨1, ![4096]⟩ (![] : Fin 0 → Fin 1))
    (x : FVec Ideal ⟨1, ![4096]⟩ .f32) (k : (⟨1, ![4096]⟩ : Shape).Idx) :
    0 ≤ ((fptosi 32 (minimumf
        (broadcastInDim ⟨1, ![4096]⟩ ![] hbc (sitofp (F := Ideal) .f32 (constantI ⟨0, ![]⟩ 32 hi)))
        (maximumf (broadcastInDim ⟨1, ![4096]⟩ ![] hbc (sitofp (F := Ideal) .f32 (constantI ⟨0, ![]⟩ 32 0#32))) x)) :
          IVec ⟨1, ![4096]⟩ 32) k).toInt ∧
      ((fptosi 32 (minimumf
        (broadcastInDim ⟨1, ![4096]⟩ ![] hbc (sitofp (F := Ideal) .f32 (constantI ⟨0, ![]⟩ 32 hi)))
        (maximumf (broadcastInDim ⟨1, ![4096]⟩ ![] hbc (sitofp (F := Ideal) .f32 (constantI ⟨0, ![]⟩ 32 0#32))) x)) :
          IVec ⟨1, ![4096]⟩ 32) k).toInt < H := by
  have hz : (0#32 : BitVec 32).toInt = 0 := by decide
  obtain ⟨l, u⟩ := Cert.Lib.ClipRange.fptosi_clip_bcast 0#32 hi (by rw [hz]; exact h0) hbc x k
  rw [hz] at l
  exact ⟨l, lt_of_le_of_lt u hH⟩

theorem idx_facts1 [Cert.KernelIdeal.Facts] [Cert.Pre_finite_inputs.Facts] (a3 : FVec Ideal Cert.KernelIdeal.S4096x6 .f32)
    (hb : ∀ j : Cert.KernelIdeal.S4096.Idx,
      0 ≤ (Cert.Hand.PreFacts.bvec a3 j).toInt ∧ (Cert.Hand.PreFacts.bvec a3 j).toInt < 128) :
    (∀ k, 0 ≤ (Cert.KernelIdeal.Hand.kB1 a3 k).toInt ∧ (Cert.KernelIdeal.Hand.kB1 a3 k).toInt < 128) ∧
    (∀ k, 0 ≤ (Cert.KernelIdeal.Hand.kGJ1 a3 k).toInt ∧ (Cert.KernelIdeal.Hand.kGJ1 a3 k).toInt < 160) ∧
    (∀ k, 0 ≤ (Cert.KernelIdeal.Hand.kGI1 a3 k).toInt ∧ (Cert.KernelIdeal.Hand.kGI1 a3 k).toInt < 160) ∧
    (∀ n : Fin 4096, Cert.KernelIdeal.Hand.kVals1 a3 (Shape.pair (d := ![4096, 5]) n (4 : Fin 5))
      = Ideal.ofBits .f32 0x3F800000#32) := by
  refine ⟨fun k => ?_, fun k => ?_, fun k => ?_, fun n => ?_⟩
  · exact hb k
  · unfold Cert.KernelIdeal.Hand.kGJ1
    dsimp only
    exact clip_lt 159#32 160 (by decide) (by decide) _ _ k
  · unfold Cert.KernelIdeal.Hand.kGI1
    dsimp only
    exact clip_lt 159#32 160 (by decide) (by decide) _ _ k
  · unfold Cert.KernelIdeal.Hand.kVals1 Cert.KernelIdeal.Hand.kVals1_p2 Cert.KernelIdeal.Hand.kVals1_p3
    dsimp only
    refine (Idealize.ShloMosaic.Concat5.concat5_col4 _ _ _ _ _
      Cert.KernelIdeal.Facts₀.concatenates_S4096x1_S4096x1_S4096x1_S4096x1_S4096x1_S4096x5_d1 n).trans ?_
    simp only [broadcastInDim, constant, Ideal.ofBits_def]

theorem idx_facts2 [Cert.KernelIdeal.Facts] [Cert.Pre_finite_inputs.Facts] (a3 : FVec Ideal Cert.KernelIdeal.S4096x6 .f32)
    (hb : ∀ j : Cert.KernelIdeal.S4096.Idx,
      0 ≤ (Cert.Hand.PreFacts.bvec a3 j).toInt ∧ (Cert.Hand.PreFacts.bvec a3 j).toInt < 128) :
    (∀ k, 0 ≤ (Cert.KernelIdeal.Hand.kB2 a3 k).toInt ∧ (Cert.KernelIdeal.Hand.kB2 a3 k).toInt < 128) ∧
    (∀ k, 0 ≤ (Cert.KernelIdeal.Hand.kGJ2 a3 k).toInt ∧ (Cert.KernelIdeal.Hand.kGJ2 a3 k).toInt < 80) ∧
    (∀ k, 0 ≤ (Cert.KernelIdeal.Hand.kGI2 a3 k).toInt ∧ (Cert.KernelIdeal.Hand.kGI2 a3 k).toInt < 80) ∧
    (∀ n : Fin 4096, Cert.KernelIdeal.Hand.kVals2 a3 (Shape.pair (d := ![4096, 5]) n (4 : Fin 5))
      = Ideal.ofBits .f32 0x3F800000#32) := by
  refine ⟨fun k => ?_, fun k => ?_, fun k => ?_, fun n => ?_⟩
  · exact hb k
  · unfold Cert.KernelIdeal.Hand.kGJ2
    dsimp only
    exact clip_lt 79#32 80 (by decide) (by decide) _ _ k
  · unfold Cert.KernelIdeal.Hand.kGI2
    dsimp only
    exact clip_lt 79#32 80 (by decide) (by decide) _ _ k
  · unfold Cert.KernelIdeal.Hand.kVals2 Cert.KernelIdeal.Hand.kVals2_p2 Cert.KernelIdeal.Hand.kVals2_p3
    dsimp only
    refine (Idealize.ShloMosaic.Concat5.concat5_col4 _ _ _ _ _
      Cert.KernelIdeal.Facts₀.concatenates_S4096x1_S4096x1_S4096x1_S4096x1_S4096x1_S4096x5_d1 n).trans ?_
    simp only [broadcastInDim, constant, Ideal.ofBits_def]

theorem idx_facts3 [Cert.KernelIdeal.Facts] [Cert.Pre_finite_inputs.Facts] (a3 : FVec Ideal Cert.KernelIdeal.S4096x6 .f32)
    (hb : ∀ j : Cert.KernelIdeal.S4096.Idx,
      0 ≤ (Cert.Hand.PreFacts.bvec a3 j).toInt ∧ (Cert.Hand.PreFacts.bvec a3 j).toInt < 128) :
    (∀ k, 0 ≤ (Cert.KernelIdeal.Hand.kB3 a3 k).toInt ∧ (Cert.KernelIdeal.Hand.kB3 a3 k).toInt < 128) ∧
    (∀ k, 0 ≤ (Cert.KernelIdeal.Hand.kGJ3 a3 k).toInt ∧ (Cert.KernelIdeal.Hand.kGJ3 a3 k).toInt < 40) ∧
    (∀ k, 0 ≤ (Cert.KernelIdeal.Hand.kGI3 a3 k).toInt ∧ (Cert.KernelIdeal.Hand.kGI3 a3 k).toInt < 40) ∧
    (∀ n : Fin 4096, Cert.KernelIdeal.Hand.kVals3 a3 (Shape.pair (d := ![4096, 5]) n (4 : Fin 5))
      = Ideal.ofBits .f32 0x3F800000#32) := by
  refine ⟨fun k => ?_, fun k => ?_, fun k => ?_, fun n => ?_⟩
  · exact hb k
  · unfold Cert.KernelIdeal.Hand.kGJ3
    dsimp only
    exact clip_lt 39#32 40 (by decide) (by decide) _ _ k
  · unfold Cert.KernelIdeal.Hand.kGI3
    dsimp only
    exact clip_lt 39#32 40 (by decide) (by decide) _ _ k
  · unfold Cert.KernelIdeal.Hand.kVals3 Cert.KernelIdeal.Hand.kVals3_p2 Cert.KernelIdeal.Hand.kVals3_p3
    dsimp only
    refine (Idealize.ShloMosaic.Concat5.concat5_col4 _ _ _ _ _
      Cert.KernelIdeal.Facts₀.concatenates_S4096x1_S4096x1_S4096x1_S4096x1_S4096x1_S4096x5_d1 n).trans ?_
    simp only [broadcastInDim, constant, Ideal.ofBits_def]

end Cert.Bridge
-- ==== Proof.DedupeFacts1.lean ====
import proofs.«409303_j18760417149025_3_alg».proof.Proof.Dedupe1
import Idealize.ShloMosaic.Lib.ValueIdx
import Idealize.ShloMosaic.Lib.IdealHost
import Idealize.ShloMosaic.PureOps.Ideal.Laws

noncomputable section

namespace Cert.Hand.Dedupe1
open Idealize.ShloMosaic

theorem uitofp_bit (m : IVec SMask 1) (i : SMask.Idx) :
    (uitofp .f32 m : FVec Ideal SMask .f32) i = (((m i).toNat : ℝ) : EReal) := rfl

theorem tt_facts [Cert.KernelIdeal.Facts₀] [Cert.ReferenceIdeal.Facts₀]
    (b gj gi : IVec SK 32) (vals : FVec Ideal SKx5 .f32)
    (hb : ∀ k, 0 ≤ (b k).toInt ∧ (b k).toInt < 128)
    (hj : ∀ k, 0 ≤ (gj k).toInt ∧ (gj k).toInt < 160)
    (hi : ∀ k, 0 ≤ (gi k).toInt ∧ (gi k).toInt < 160)
    (hone : ∀ n : Fin 4096,
      vals (Shape.pair (d := ![4096, 5]) n (4 : Fin 5)) = Ideal.ofBits .f32 0x3F800000#32) :
    (∀ (bb : Fin 128) (c : Fin 5) (h : Fin 160) (w : Fin 160),
      ttKer b gj gi vals (Idealize.ShloMosaic.ValueIdx.ix4 bb c h w) = ttRef b gj gi vals (Idealize.ShloMosaic.ValueIdx.ix4 bb h w c)) ∧
    (∀ (bb : Fin 128) (h : Fin 160) (w : Fin 160),
      ttRef b gj gi vals (Idealize.ShloMosaic.ValueIdx.ix4 bb h w (4 : Fin 5))
          = (uitofp .f32 (maskRef b gj gi) : FVec Ideal SMask .f32) (Idealize.ShloMosaic.ValueIdx.ix3 bb h w) ∧
      ((uitofp .f32 (maskRef b gj gi) : FVec Ideal SMask .f32) (Idealize.ShloMosaic.ValueIdx.ix3 bb h w) = 0 ∨
       (uitofp .f32 (maskRef b gj gi) : FVec Ideal SMask .f32) (Idealize.ShloMosaic.ValueIdx.ix3 bb h w) = 1)) := by
  refine ⟨fun bb c h w => tt_eq b gj gi vals hb hj hi _ _ rfl rfl rfl rfl, fun bb h w => ?_⟩
  have one1 : (((1#1 : BitVec 1).toNat : ℝ) : EReal) = 1 := by
    have : (1#1 : BitVec 1).toNat = 1 := rfl
    rw [this]; norm_num
  have zero0 : (((0#1 : BitVec 1).toNat : ℝ) : EReal) = 0 := by
    have : (0#1 : BitVec 1).toNat = 0 := rfl
    rw [this]; norm_num
  rcases mask_tt b gj gi vals hb hj hi (Ideal.ofBits .f32 0x3F800000#32) hone
      (Idealize.ShloMosaic.ValueIdx.ix4 bb h w (4 : Fin 5)) (Idealize.ShloMosaic.ValueIdx.ix3 bb h w) rfl rfl rfl rfl with ⟨hm, ht⟩ | ⟨hm, ht⟩
  · rw [uitofp_bit, hm, ht, one1]
    exact ⟨Ideal.ofBits_one_f32, Or.inr rfl⟩
  · rw [uitofp_bit, hm, ht, zero0]
    exact ⟨Ideal.ofBits_zero_f32, Or.inl rfl⟩

end Cert.Hand.Dedupe1
-- ==== Proof.DedupeFacts2.lean ====
import proofs.«409303_j18760417149025_3_alg».proof.Proof.Dedupe2
import Idealize.ShloMosaic.Lib.ValueIdx
import Idealize.ShloMosaic.Lib.IdealHost
import Idealize.ShloMosaic.PureOps.Ideal.Laws

noncomputable section

namespace Cert.Hand.Dedupe2
open Idealize.ShloMosaic

theorem uitofp_bit (m : IVec SMask 1) (i : SMask.Idx) :
    (uitofp .f32 m : FVec Ideal SMask .f32) i = (((m i).toNat : ℝ) : EReal) := rfl

theorem tt_facts [Cert.KernelIdeal.Facts₀] [Cert.ReferenceIdeal.Facts₀]
    (b gj gi : IVec SK 32) (vals : FVec Ideal SKx5 .f32)
    (hb : ∀ k, 0 ≤ (b k).toInt ∧ (b k).toInt < 128)
    (hj : ∀ k, 0 ≤ (gj k).toInt ∧ (gj k).toInt < 80)
    (hi : ∀ k, 0 ≤ (gi k).toInt ∧ (gi k).toInt < 80)
    (hone : ∀ n : Fin 4096,
      vals (Shape.pair (d := ![4096, 5]) n (4 : Fin 5)) = Ideal.ofBits .f32 0x3F800000#32) :
    (∀ (bb : Fin 128) (c : Fin 5) (h : Fin 80) (w : Fin 80),
      ttKer b gj gi vals (Idealize.ShloMosaic.ValueIdx.ix4 bb c h w) = ttRef b gj gi vals (Idealize.ShloMosaic.ValueIdx.ix4 bb h w c)) ∧
    (∀ (bb : Fin 128) (h : Fin 80) (w : Fin 80),
      ttRef b gj gi vals (Idealize.ShloMosaic.ValueIdx.ix4 bb h w (4 : Fin 5))
          = (uitofp .f32 (maskRef b gj gi) : FVec Ideal SMask .f32) (Idealize.ShloMosaic.ValueIdx.ix3 bb h w) ∧
      ((uitofp .f32 (maskRef b gj gi) : FVec Ideal SMask .f32) (Idealize.ShloMosaic.ValueIdx.ix3 bb h w) = 0 ∨
       (uitofp .f32 (maskRef b gj gi) : FVec Ideal SMask .f32) (Idealize.ShloMosaic.ValueIdx.ix3 bb h w) = 1)) := by
  refine ⟨fun bb c h w => tt_eq b gj gi vals hb hj hi _ _ rfl rfl rfl rfl, fun bb h w => ?_⟩
  have one1 : (((1#1 : BitVec 1).toNat : ℝ) : EReal) = 1 := by
    have : (1#1 : BitVec 1).toNat = 1 := rfl
    rw [this]; norm_num
  have zero0 : (((0#1 : BitVec 1).toNat : ℝ) : EReal) = 0 := by
    have : (0#1 : BitVec 1).toNat = 0 := rfl
    rw [this]; norm_num
  rcases mask_tt b gj gi vals hb hj hi (Ideal.ofBits .f32 0x3F800000#32) hone
      (Idealize.ShloMosaic.ValueIdx.ix4 bb h w (4 : Fin 5)) (Idealize.ShloMosaic.ValueIdx.ix3 bb h w) rfl rfl rfl rfl with ⟨hm, ht⟩ | ⟨hm, ht⟩
  · rw [uitofp_bit, hm, ht, one1]
    exact ⟨Ideal.ofBits_one_f32, Or.inr rfl⟩
  · rw [uitofp_bit, hm, ht, zero0]
    exact ⟨Ideal.ofBits_zero_f32, Or.inl rfl⟩

end Cert.Hand.Dedupe2
-- ==== Proof.DedupeFacts3.lean ====
import proofs.«409303_j18760417149025_3_alg».proof.Proof.Dedupe3
import Idealize.ShloMosaic.Lib.ValueIdx
import Idealize.ShloMosaic.Lib.IdealHost
import Idealize.ShloMosaic.PureOps.Ideal.Laws

noncomputable section

namespace Cert.Hand.Dedupe3
open Idealize.ShloMosaic

theorem uitofp_bit (m : IVec SMask 1) (i : SMask.Idx) :
    (uitofp .f32 m : FVec Ideal SMask .f32) i = (((m i).toNat : ℝ) : EReal) := rfl

theorem tt_facts [Cert.KernelIdeal.Facts₀] [Cert.ReferenceIdeal.Facts₀]
    (b gj gi : IVec SK 32) (vals : FVec Ideal SKx5 .f32)
    (hb : ∀ k, 0 ≤ (b k).toInt ∧ (b k).toInt < 128)
    (hj : ∀ k, 0 ≤ (gj k).toInt ∧ (gj k).toInt < 40)
    (hi : ∀ k, 0 ≤ (gi k).toInt ∧ (gi k).toInt < 40)
    (hone : ∀ n : Fin 4096,
      vals (Shape.pair (d := ![4096, 5]) n (4 : Fin 5)) = Ideal.ofBits .f32 0x3F800000#32) :
    (∀ (bb : Fin 128) (c : Fin 5) (h : Fin 40) (w : Fin 40),
      ttKer b gj gi vals (Idealize.ShloMosaic.ValueIdx.ix4 bb c h w) = ttRef b gj gi vals (Idealize.ShloMosaic.ValueIdx.ix4 bb h w c)) ∧
    (∀ (bb : Fin 128) (h : Fin 40) (w : Fin 40),
      ttRef b gj gi vals (Idealize.ShloMosaic.ValueIdx.ix4 bb h w (4 : Fin 5))
          = (uitofp .f32 (maskRef b gj gi) : FVec Ideal SMask .f32) (Idealize.ShloMosaic.ValueIdx.ix3 bb h w) ∧
      ((uitofp .f32 (maskRef b gj gi) : FVec Ideal SMask .f32) (Idealize.ShloMosaic.ValueIdx.ix3 bb h w) = 0 ∨
       (uitofp .f32 (maskRef b gj gi) : FVec Ideal SMask .f32) (Idealize.ShloMosaic.ValueIdx.ix3 bb h w) = 1)) := by
  refine ⟨fun bb c h w => tt_eq b gj gi vals hb hj hi _ _ rfl rfl rfl rfl, fun bb h w => ?_⟩
  have one1 : (((1#1 : BitVec 1).toNat : ℝ) : EReal) = 1 := by
    have : (1#1 : BitVec 1).toNat = 1 := rfl
    rw [this]; norm_num
  have zero0 : (((0#1 : BitVec 1).toNat : ℝ) : EReal) = 0 := by
    have : (0#1 : BitVec 1).toNat = 0 := rfl
    rw [this]; norm_num
  rcases mask_tt b gj gi vals hb hj hi (Ideal.ofBits .f32 0x3F800000#32) hone
      (Idealize.ShloMosaic.ValueIdx.ix4 bb h w (4 : Fin 5)) (Idealize.ShloMosaic.ValueIdx.ix3 bb h w) rfl rfl rfl rfl with ⟨hm, ht⟩ | ⟨hm, ht⟩
  · rw [uitofp_bit, hm, ht, one1]
    exact ⟨Ideal.ofBits_one_f32, Or.inr rfl⟩
  · rw [uitofp_bit, hm, ht, zero0]
    exact ⟨Ideal.ofBits_zero_f32, Or.inl rfl⟩

end Cert.Hand.Dedupe3
-- ==== Proof.Bridge.lean ====
import proofs.«409303_j18760417149025_3_alg».proof.Proof.Bridge1
import proofs.«409303_j18760417149025_3_alg».proof.Proof.BridgeScale
import proofs.«409303_j18760417149025_3_alg».proof.Proof.BridgeRScale
import proofs.«409303_j18760417149025_3_alg».proof.Proof.BridgeRBox
import proofs.«409303_j18760417149025_3_alg».proof.Proof.BridgeIdx
import proofs.«409303_j18760417149025_3_alg».proof.Proof.DedupeFacts1
import proofs.«409303_j18760417149025_3_alg».proof.Proof.DedupeFacts2
import proofs.«409303_j18760417149025_3_alg».proof.Proof.DedupeFacts3
import proofs.«409303_j18760417149025_3_alg».proof.Proof.PreFacts

noncomputable section

namespace Cert.Bridge

open Idealize.ShloMosaic Idealize.ShloMosaic.ValueIdx

variable [Cert.KernelIdeal.Facts] [Cert.ReferenceIdeal.Facts] [Cert.Pre_finite_inputs.Facts]

open Cert.KernelIdeal.Hand Cert.ReferenceIdeal.Hand in
theorem bridge (a0 : FVec Ideal Cert.KernelIdeal.S128x5x160x160 .f32) (a1 : FVec Ideal Cert.KernelIdeal.S128x5x80x80 .f32)
    (a2 : FVec Ideal Cert.KernelIdeal.S128x5x40x40 .f32) (a3 : FVec Ideal Cert.KernelIdeal.S4096x6 .f32)
    (h : Cert.Pre_finite_inputs.fn (F := Ideal) a0 a1 a2 a3 = fun _ => 1#1) :
    kerVal R0s R1s R2s a0 a1 a2 a3 = refVal a0 a1 a2 a3 := by
  obtain ⟨r0, r1, r2, -, hb⟩ := Cert.Hand.PreFacts.decode a0 a1 a2 a3 h
  obtain ⟨hb1, hj1, hi1, ho1⟩ := idx_facts1 a3 hb
  obtain ⟨hb2, hj2, hi2, ho2⟩ := idx_facts2 a3 hb
  obtain ⟨hb3, hj3, hi3, ho3⟩ := idx_facts3 a3 hb
  obtain ⟨htt1, hm1⟩ := Cert.Hand.Dedupe1.tt_facts (kB1 a3) (kGJ1 a3) (kGI1 a3) (kVals1 a3) hb1 hj1 hi1 ho1
  obtain ⟨htt2, hm2⟩ := Cert.Hand.Dedupe2.tt_facts (kB2 a3) (kGJ2 a3) (kGI2 a3) (kVals2 a3) hb2 hj2 hi2 ho2
  obtain ⟨htt3, hm3⟩ := Cert.Hand.Dedupe3.tt_facts (kB3 a3) (kGJ3 a3) (kGI3 a3) (kVals3 a3) hb3 hj3 hi3 ho3
  obtain ⟨k10, k11, k12, k13, k14⟩ := scale1_lanes a0 (kTT1 a3) (rTT1 a3) (rMF1 a3) r0 htt1 hm1
  obtain ⟨k20, k21, k22, k23, k24⟩ := scale2_lanes a1 (kTT2 a3) (rTT2 a3) (rMF2 a3) r1 htt2 hm2
  obtain ⟨k30, k31, k32, k33, k34⟩ := scale3_lanes a2 (kTT3 a3) (rTT3 a3) (rMF3 a3) r2 htt3 hm3
  rw [kerVal_decomp R0s R1s R2s a0 a1 a2 a3 _ _ _ rfl rfl rfl,
    refVal_decomp a0 a1 a2 a3 _ _ _ _ _ _ rfl rfl rfl rfl rfl rfl,
    k10, k11, k12, k13, k14, k20, k21, k22, k23, k24, k30, k31, k32, k33, k34,
    rSxy1_full, rSwh1_full, rN1_full a0 (rTT1 a3), rSp1_full, rSn1_full,
    rSxy2_full, rSwh2_full, rN2_full a1 (rTT2 a3), rSp2_full, rSn2_full,
    rSxy3_full, rSwh3_full, rN3_full a2 (rTT3 a3), rSp3_full, rSn3_full,
    tail1_eq, tail2_eq, tail3_eq]

end Cert.Bridge

end
-- ==== Proof.Assemble.lean ====
import proofs.«409303_j18760417149025_3_alg».proof.Defs
import proofs.«409303_j18760417149025_3_alg».proof.Proof.Gen.KernelIdeal
import proofs.«409303_j18760417149025_3_alg».proof.Proof.Gen.ReferenceIdeal
import proofs.«409303_j18760417149025_3_alg».proof.Proof.Gen.Pre_finite_inputs
import proofs.«409303_j18760417149025_3_alg».proof.Proof.KLaunch
import proofs.«409303_j18760417149025_3_alg».proof.Proof.KHost
import proofs.«409303_j18760417149025_3_alg».proof.Proof.KR0Reg
import proofs.«409303_j18760417149025_3_alg».proof.Proof.KR1Reg
import proofs.«409303_j18760417149025_3_alg».proof.Proof.KR2Value
import proofs.«409303_j18760417149025_3_alg».proof.Proof.RegSpec
import proofs.«409303_j18760417149025_3_alg».proof.Proof.RefRunVal
import proofs.«409303_j18760417149025_3_alg».proof.Proof.Bridge

noncomputable section

namespace Cert.Proof.Parts

open Idealize.ShloMosaic Idealize.ShloMosaic.TcCoe Idealize.SL.Sem

section Kernel

open Cert.KernelIdeal Cert.KernelIdeal.Gen Cert.KernelIdeal.Hand

variable (m : (ℓ : Loc nD τ sig) → Buf (Elt Ideal) ℓ)

theorem out0 (c : Dev nD) :
    outsH m 8 main_v82 c = R0s (GenP.V7 m c main_v80) (GenP.V7 m c main_v81) :=
  (outsH_8 m c).trans (R0.regOut_eq (fun c b => GenP.V7 m c b) c)

theorem out1 (c : Dev nD) :
    outsH m 22 main_v202 c = R1s (GenP.V21 m (outsH m) c main_v200) (GenP.V21 m (outsH m) c main_v201) :=
  (outsH_22 m c).trans (R1.regOut_eq (fun c b => GenP.V21 m (outsH m) c b) c)

theorem out2 (c : Dev nD) :
    outsH m 36 main_v320 c = R2s (GenP.V35 m (outsH m) c main_arg2) (GenP.V35 m (outsH m) c main_v319) :=
  (outsH_36 m c).trans (R2.regOut_eq (fun c b => GenP.V35 m (outsH m) c b) c)

theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v357)
          = kerVal R0s R1s R2s (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨(h c).1.trans (V43_val R0s R1s R2s m (outsH m) c (out0 m c) (out1 m c) (out2 m c)), (h c).2⟩)
    (run_main (F := Ideal) m ρ)

end Kernel

theorem frame_ker : Cert.frame_KernelIdeal (hKernelIdeal := Cert.KernelIdeal.Gen.facts)
    (hPre_finite_inputs := Cert.Pre_finite_inputs.Gen.facts) :=
  fun m ρ _ => Cert.KernelIdeal.Hand.frame (F := Ideal) m ρ

theorem frame_ref : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.Hand.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, kernel_run m ρ, ?_⟩
  refine (θ_run (Cert.ReferenceIdeal.defs (F := Ideal)) _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact (Cert.Bridge.bridge _ _ _ _ (hpre c)).symm

end Cert.Proof.Parts

end
-- ==== Proof.lean ====
import proofs.«409303_j18760417149025_3_alg».proof.Defs
import proofs.«409303_j18760417149025_3_alg».proof.Proof.Gen.Kernel
import proofs.«409303_j18760417149025_3_alg».proof.Proof.Gen.KernelIdeal
import proofs.«409303_j18760417149025_3_alg».proof.Proof.Gen.ReferenceIdeal
import proofs.«409303_j18760417149025_3_alg».proof.Proof.Gen.Pre_finite_inputs
import proofs.«409303_j18760417149025_3_alg».proof.Proof.BLaunch
import proofs.«409303_j18760417149025_3_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    Cert.Proof.Parts.frame_ker,
    Cert.Proof.Parts.frame_ref,
    trivial,
    Cert.Proof.Parts.algebraic⟩

end Cert.Proof

end
